-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x6 : Shape := ⟨2, ![250000, 6]⟩
abbrev S2x2500000 : Shape := ⟨2, ![2, 2500000]⟩
abbrev S250000 : Shape := ⟨1, ![250000]⟩
abbrev S6x32 : Shape := ⟨2, ![6, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S250000x6 : S_.BroadcastsInDim S250000x6 (![] : Fin 0 → Fin S250000x6.rank)
  reducesTo_S250000x6_S_d0_1 : S250000x6.ReducesTo [0, 1] S_
  h_S_ : 0 < S_.numel
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part10 {F : FTy → Type} [FloatOps F] (main_v168 : IVec S_ 1) (main_v169 : FVec F S1 .f32) (main_v170 : FVec F S1 .f32) : IVec S_ 1 :=
  let main_v171 : IVec S1 1 := cmpf .olt main_v169 main_v170
  let main_c_67 : IVec S_ 1 := constantI S_ 1 1#1
  let main_v172 : IVec S_ 1 := (fun x v => Host.reduce IntOp.andi x v reducesTo_S1_S_d0 h_S_) main_v171 main_c_67
  let main_v173 : IVec S_ 1 := andi main_v168 main_v172
  main_v173

def fn_part9 {F : FTy → Type} [FloatOps F] (main_arg33 : FVec F S32x16 .f32) (main_arg34 : FVec F S16 .f32) (main_arg35 : FVec F S16x1 .f32) (main_arg36 : FVec F S1 .f32) (main_v153 : IVec S_ 1) : IVec S_ 1 :=
  let main_v154 : FVec F S32x16 .f32 := Host.absf main_arg33
  let main_cst_60 : FVec F S_ .f32 := constant S_ .f32 0x7F800000#32
  let main_v155 : FVec F S32x16 .f32 := broadcastInDim S32x16 ![] bcast_S_S32x16 main_cst_60
  let main_v156 : IVec S32x16 1 := cmpf .olt main_v154 main_v155
  let main_c_61 : IVec S_ 1 := constantI S_ 1 1#1
  let main_v157 : IVec S_ 1 := (fun x v => Host.reduce IntOp.andi x v reducesTo_S32x16_S_d0_1 h_S_) main_v156 main_c_61
  let main_v158 : IVec S_ 1 := andi main_v153 main_v157
  let main_v159 : FVec F S16 .f32 := Host.absf main_arg34
  let main_cst_62 : FVec F S_ .f32 := constant S_ .f32 0x7F800000#32
  let main_v160 : FVec F S16 .f32 := broadcastInDim S16 ![] bcast_S_S16 main_cst_62
  let main_v161 : IVec S16 1 := cmpf .olt main_v159 main_v160
  let main_c_63 : IVec S_ 1 := constantI S_ 1 1#1
  let main_v162 : IVec S_ 1 := (fun x v => Host.reduce IntOp.andi x v reducesTo_S16_S_d0 h_S_) main_v161 main_c_63
  let main_v163 : IVec S_ 1 := andi main_v158 main_v162
  let main_v164 : FVec F S16x1 .f32 := Host.absf main_arg35
  let main_cst_64 : FVec F S_ .f32 := constant S_ .f32 0x7F800000#32
  let main_v165 : FVec F S16x1 .f32 := broadcastInDim S16x1 ![] bcast_S_S16x1 main_cst_64
  let main_v166 : IVec S16x1 1 := cmpf .olt main_v164 main_v165
  let main_c_65 : IVec S_ 1 := constantI S_ 1 1#1
  let main_v167 : IVec S_ 1 := (fun x v => Host.reduce IntOp.andi x v reducesTo_S16x1_S_d0_1 h_S_) main_v166 main_c_65
  let main_v168 : IVec S_ 1 := andi main_v163 main_v167
  let main_v169 : FVec F S1 .f32 := Host.absf main_arg36
  let main_cst_66 : FVec F S_ .f32 := constant S_ .f32 0x7F800000#32
  let main_v170 : FVec F S1 .f32 := broadcastInDim S1 ![] bcast_S_S1 main_cst_66
  fn_part10 (F := F) main_v168 main_v169 main_v170

def fn_part8 {F : FTy → Type} [FloatOps F] (main_arg30 : FVec F S32 .f32) (main_arg31 : FVec F S32 .f32) (main_arg32 : FVec F S32 .f32) (main_arg33 : FVec F S32x16 .f32) (main_arg34 : FVec F S16 .f32) (main_arg35 : FVec F S16x1 .f32) (main_arg36 : FVec F S1 .f32) (main_v133 : IVec S_ 1) (main_v136 : IVec S32x32 1) : IVec S_ 1 :=
  let main_c_53 : IVec S_ 1 := constantI S_ 1 1#1
  let main_v137 : IVec S_ 1 := (fun x v => Host.reduce IntOp.andi x v reducesTo_S32x32_S_d0_1 h_S_) main_v136 main_c_53
  let main_v138 : IVec S_ 1 := andi main_v133 main_v137
  let main_v139 : FVec F S32 .f32 := Host.absf main_arg30
  let main_cst_54 : FVec F S_ .f32 := constant S_ .f32 0x7F800000#32
  let main_v140 : FVec F S32 .f32 := broadcastInDim S32 ![] bcast_S_S32 main_cst_54
  let main_v141 : IVec S32 1 := cmpf .olt main_v139 main_v140
  let main_c_55 : IVec S_ 1 := constantI S_ 1 1#1
  let main_v142 : IVec S_ 1 := (fun x v => Host.reduce IntOp.andi x v reducesTo_S32_S_d0 h_S_) main_v141 main_c_55
  let main_v143 : IVec S_ 1 := andi main_v138 main_v142
  let main_v144 : FVec F S32 .f32 := Host.absf main_arg31
  let main_cst_56 : FVec F S_ .f32 := constant S_ .f32 0x7F800000#32
  let main_v145 : FVec F S32 .f32 := broadcastInDim S32 ![] bcast_S_S32 main_cst_56
  let main_v146 : IVec S32 1 := cmpf .olt main_v144 main_v145
  let main_c_57 : IVec S_ 1 := constantI S_ 1 1#1
  let main_v147 : IVec S_ 1 := (fun x v => Host.reduce IntOp.andi x v reducesTo_S32_S_d0 h_S_) main_v146 main_c_57
  let main_v148 : IVec S_ 1 := andi main_v143 main_v147
  let main_v149 : FVec F S32 .f32 := Host.absf main_arg32
  let main_cst_58 : FVec F S_ .f32 := constant S_ .f32 0x7F800000#32
  let main_v150 : FVec F S32 .f32 := broadcastInDim S32 ![] bcast_S_S32 main_cst_58
  let main_v151 : IVec S32 1 := cmpf .olt main_v149 main_v150
  let main_c_59 : IVec S_ 1 := constantI S_ 1 1#1
  let main_v152 : IVec S_ 1 := (fun x v => Host.reduce IntOp.andi x v reducesTo_S32_S_d0 h_S_) main_v151 main_c_59
  let main_v153 : IVec S_ 1 := andi main_v148 main_v152
  fn_part9 (F := F) main_arg33 main_arg34 main_arg35 main_arg36 main_v153

def fn_part7 {F : FTy → Type} [FloatOps F] (main_arg27 : FVec F S32x32 .f32) (main_arg28 : FVec F S32 .f32) (main_arg29 : FVec F S32x32 .f32) (main_arg30 : FVec F S32 .f32) (main_arg31 : FVec F S32 .f32) (main_arg32 : FVec F S32 .f32) (main_arg33 : FVec F S32x16 .f32) (main_arg34 : FVec F S16 .f32) (main_arg35 : FVec F S16x1 .f32) (main_arg36 : FVec F S1 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32x32 .f32 := Host.absf main_arg27
  let main_cst_48 : FVec F S_ .f32 := constant S_ .f32 0x7F800000#32
  let main_v125 : FVec F S32x32 .f32 := broadcastInDim S32x32 ![] bcast_S_S32x32 main_cst_48
  let main_v126 : IVec S32x32 1 := cmpf .olt main_v124 main_v125
  let main_c_49 : IVec S_ 1 := constantI S_ 1 1#1
  let main_v127 : IVec S_ 1 := (fun x v => Host.reduce IntOp.andi x v reducesTo_S32x32_S_d0_1 h_S_) main_v126 main_c_49
  let main_v128 : IVec S_ 1 := andi main_v123 main_v127
  let main_v129 : FVec F S32 .f32 := Host.absf main_arg28
  let main_cst_50 : FVec F S_ .f32 := constant S_ .f32 0x7F800000#32
  let main_v130 : FVec F S32 .f32 := broadcastInDim S32 ![] bcast_S_S32 main_cst_50
  let main_v131 : IVec S32 1 := cmpf .olt main_v129 main_v130
  let main_c_51 : IVec S_ 1 := constantI S_ 1 1#1
  let main_v132 : IVec S_ 1 := (fun x v => Host.reduce IntOp.andi x v reducesTo_S32_S_d0 h_S_) main_v131 main_c_51
  let main_v133 : IVec S_ 1 := andi main_v128 main_v132
  let main_v134 : FVec F S32x32 .f32 := Host.absf main_arg29
  let main_cst_52 : FVec F S_ .f32 := constant S_ .f32 0x7F800000#32
  let main_v135 : FVec F S32x32 .f32 := broadcastInDim S32x32 ![] bcast_S_S32x32 main_cst_52
  let main_v136 : IVec S32x32 1 := cmpf .olt main_v134 main_v135
  fn_part8 (F := F) main_arg30 main_arg31 main_arg32 main_arg33 main_arg34 main_arg35 main_arg36 main_v133 main_v136

def fn_part6 {F : FTy → Type} [FloatOps F] (main_arg23 : FVec F S32x32 .f32) (main_arg24 : FVec F S32 .f32) (main_arg25 : FVec F S32x32 .f32) (main_arg26 : FVec F S32 .f32) (main_arg27 : FVec F S32x32 .f32) (main_arg28 : FVec F S32 .f32) (main_arg29 : FVec F S32x32 .f32) (main_arg30 : FVec F S32 .f32) (main_arg31 : FVec F S32 .f32) (main_arg32 : FVec F S32 .f32) (main_arg33 : FVec F S32x16 .f32) (main_arg34 : FVec F S16 .f32) (main_arg35 : FVec F S16x1 .f32) (main_arg36 : FVec F S1 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32x32 .f32 := Host.absf main_arg23
  let main_cst_40 : FVec F S_ .f32 := constant S_ .f32 0x7F800000#32
  let main_v105 : FVec F S32x32 .f32 := broadcastInDim S32x32 ![] bcast_S_S32x32 main_cst_40
  let main_v106 : IVec S32x32 1 := cmpf .olt main_v104 main_v105
  let main_c_41 : IVec S_ 1 := constantI S_ 1 1#1
  let main_v107 : IVec S_ 1 := (fun x v => Host.reduce IntOp.andi x v reducesTo_S32x32_S_d0_1 h_S_) main_v106 main_c_41
  let main_v108 : IVec S_ 1 := andi main_v103 main_v107
  let main_v109 : FVec F S32 .f32 := Host.absf main_arg24
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32x32 .f32 := Host.absf main_arg25
  let main_cst_44 : FVec F S_ .f32 := constant S_ .f32 0x7F800000#32
  let main_v115 : FVec F S32x32 .f32 := broadcastInDim S32x32 ![] bcast_S_S32x32 main_cst_44
  let main_v116 : IVec S32x32 1 := cmpf .olt main_v114 main_v115
  let main_c_45 : IVec S_ 1 := constantI S_ 1 1#1
  let main_v117 : IVec S_ 1 := (fun x v => Host.reduce IntOp.andi x v reducesTo_S32x32_S_d0_1 h_S_) main_v116 main_c_45
  let main_v118 : IVec S_ 1 := andi main_v113 main_v117
  let main_v119 : FVec F S32 .f32 := Host.absf main_arg26
  fn_part7 (F := F) main_arg27 main_arg28 main_arg29 main_arg30 main_arg31 main_arg32 main_arg33 main_arg34 main_arg35 main_arg36 main_v118 main_v119

def fn_part5 {F : FTy → Type} [FloatOps F] (main_arg20 : FVec F S32 .f32) (main_arg21 : FVec F S32 .f32) (main_arg22 : FVec F S32 .f32) (main_arg23 : FVec F S32x32 .f32) (main_arg24 : FVec F S32 .f32) (main_arg25 : FVec F S32x32 .f32) (main_arg26 : FVec F S32 .f32) (main_arg27 : FVec F S32x32 .f32) (main_arg28 : FVec F S32 .f32) (main_arg29 : FVec F S32x32 .f32) (main_arg30 : FVec F S32 .f32) (main_arg31 : FVec F S32 .f32) (main_arg32 : FVec F S32 .f32) (main_arg33 : FVec F S32x16 .f32) (main_arg34 : FVec F S16 .f32) (main_arg35 : FVec F S16x1 .f32) (main_arg36 : FVec F S1 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg21
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32 .f32 := Host.absf main_arg22
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg23 main_arg24 main_arg25 main_arg26 main_arg27 main_arg28 main_arg29 main_arg30 main_arg31 main_arg32 main_arg33 main_arg34 main_arg35 main_arg36 main_v98 main_v101 main_c_39

def fn_part4 {F : FTy → Type} [FloatOps F] (main_arg16 : FVec F S32 .f32) (main_arg17 : FVec F S32x32 .f32) (main_arg18 : FVec F S32 .f32) (main_arg19 : FVec F S32x32 .f32) (main_arg20 : FVec F S32 .f32) (main_arg21 : FVec F S32 .f32) (main_arg22 : FVec F S32 .f32) (main_arg23 : FVec F S32x32 .f32) (main_arg24 : FVec F S32 .f32) (main_arg25 : FVec F S32x32 .f32) (main_arg26 : FVec F S32 .f32) (main_arg27 : FVec F S32x32 .f32) (main_arg28 : FVec F S32 .f32) (main_arg29 : FVec F S32x32 .f32) (main_arg30 : FVec F S32 .f32) (main_arg31 : FVec F S32 .f32) (main_arg32 : FVec F S32 .f32) (main_arg33 : FVec F S32x16 .f32) (main_arg34 : FVec F S16 .f32) (main_arg35 : FVec F S16x1 .f32) (main_arg36 : FVec F S1 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x32 .f32 := Host.absf main_arg17
  let main_cst_28 : FVec F S_ .f32 := constant S_ .f32 0x7F800000#32
  let main_v75 : FVec F S32x32 .f32 := broadcastInDim S32x32 ![] bcast_S_S32x32 main_cst_28
  let main_v76 : IVec S32x32 1 := cmpf .olt main_v74 main_v75
  let main_c_29 : IVec S_ 1 := constantI S_ 1 1#1
  let main_v77 : IVec S_ 1 := (fun x v => Host.reduce IntOp.andi x v reducesTo_S32x32_S_d0_1 h_S_) main_v76 main_c_29
  let main_v78 : IVec S_ 1 := andi main_v73 main_v77
  let main_v79 : FVec F S32 .f32 := Host.absf main_arg18
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x32 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_arg32 main_arg33 main_arg34 main_arg35 main_arg36 main_v83 main_v84 main_cst_32

def fn_part3 {F : FTy → Type} [FloatOps F] (main_arg13 : FVec F S32x32 .f32) (main_arg14 : FVec F S32 .f32) (main_arg15 : FVec F S32x32 .f32) (main_arg16 : FVec F S32 .f32) (main_arg17 : FVec F S32x32 .f32) (main_arg18 : FVec F S32 .f32) (main_arg19 : FVec F S32x32 .f32) (main_arg20 : FVec F S32 .f32) (main_arg21 : FVec F S32 .f32) (main_arg22 : FVec F S32 .f32) (main_arg23 : FVec F S32x32 .f32) (main_arg24 : FVec F S32 .f32) (main_arg25 : FVec F S32x32 .f32) (main_arg26 : FVec F S32 .f32) (main_arg27 : FVec F S32x32 .f32) (main_arg28 : FVec F S32 .f32) (main_arg29 : FVec F S32x32 .f32) (main_arg30 : FVec F S32 .f32) (main_arg31 : FVec F S32 .f32) (main_arg32 : FVec F S32 .f32) (main_arg33 : FVec F S32x16 .f32) (main_arg34 : FVec F S16 .f32) (main_arg35 : FVec F S16x1 .f32) (main_arg36 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg15
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v63 main_v67

def fn_part2 {F : FTy → Type} [FloatOps F] (main_arg9 : FVec F S32x32 .f32) (main_arg10 : FVec F S32 .f32) (main_arg11 : FVec F S32 .f32) (main_arg12 : FVec F S32 .f32) (main_arg13 : FVec F S32x32 .f32) (main_arg14 : FVec F S32 .f32) (main_arg15 : FVec F S32x32 .f32) (main_arg16 : FVec F S32 .f32) (main_arg17 : FVec F S32x32 .f32) (main_arg18 : FVec F S32 .f32) (main_arg19 : FVec F S32x32 .f32) (main_arg20 : FVec F S32 .f32) (main_arg21 : FVec F S32 .f32) (main_arg22 : FVec F S32 .f32) (main_arg23 : FVec F S32x32 .f32) (main_arg24 : FVec F S32 .f32) (main_arg25 : FVec F S32x32 .f32) (main_arg26 : FVec F S32 .f32) (main_arg27 : FVec F S32x32 .f32) (main_arg28 : FVec F S32 .f32) (main_arg29 : FVec F S32x32 .f32) (main_arg30 : FVec F S32 .f32) (main_arg31 : FVec F S32 .f32) (main_arg32 : FVec F S32 .f32) (main_arg33 : FVec F S32x16 .f32) (main_arg34 : FVec F S16 .f32) (main_arg35 : FVec F S16x1 .f32) (main_arg36 : FVec F S1 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v48 main_v49 main_v50

def fn_part1 {F : FTy → Type} [FloatOps F] (main_arg6 : FVec F S32 .f32) (main_arg7 : FVec F S6x32 .f32) (main_arg8 : FVec F S32 .f32) (main_arg9 : FVec F S32x32 .f32) (main_arg10 : FVec F S32 .f32) (main_arg11 : FVec F S32 .f32) (main_arg12 : FVec F S32 .f32) (main_arg13 : FVec F S32x32 .f32) (main_arg14 : FVec F S32 .f32) (main_arg15 : FVec F S32x32 .f32) (main_arg16 : FVec F S32 .f32) (main_arg17 : FVec F S32x32 .f32) (main_arg18 : FVec F S32 .f32) (main_arg19 : FVec F S32x32 .f32) (main_arg20 : FVec F S32 .f32) (main_arg21 : FVec F S32 .f32) (main_arg22 : FVec F S32 .f32) (main_arg23 : FVec F S32x32 .f32) (main_arg24 : FVec F S32 .f32) (main_arg25 : FVec F S32x32 .f32) (main_arg26 : FVec F S32 .f32) (main_arg27 : FVec F S32x32 .f32) (main_arg28 : FVec F S32 .f32) (main_arg29 : FVec F S32x32 .f32) (main_arg30 : FVec F S32 .f32) (main_arg31 : FVec F S32 .f32) (main_arg32 : FVec F S32 .f32) (main_arg33 : FVec F S32x16 .f32) (main_arg34 : FVec F S16 .f32) (main_arg35 : FVec F S16x1 .f32) (main_arg36 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S6x32 .f32 := Host.absf main_arg7
  let main_cst_8 : FVec F S_ .f32 := constant S_ .f32 0x7F800000#32
  let main_v25 : FVec F S6x32 .f32 := broadcastInDim S6x32 ![] bcast_S_S6x32 main_cst_8
  let main_v26 : IVec S6x32 1 := cmpf .olt main_v24 main_v25
  let main_c_9 : IVec S_ 1 := constantI S_ 1 1#1
  let main_v27 : IVec S_ 1 := (fun x v => Host.reduce IntOp.andi x v reducesTo_S6x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v33

def fn {F : FTy → Type} [FloatOps F] (main_arg0 : FVec F S250000x6 .f32) (main_arg1 : IVec S2x2500000 32) (main_arg2 : IVec S250000 32) (main_arg3 : FVec F S6x32 .f32) (main_arg4 : FVec F S32 .f32) (main_arg5 : FVec F S32x32 .f32) (main_arg6 : FVec F S32 .f32) (main_arg7 : FVec F S6x32 .f32) (main_arg8 : FVec F S32 .f32) (main_arg9 : FVec F S32x32 .f32) (main_arg10 : FVec F S32 .f32) (main_arg11 : FVec F S32 .f32) (main_arg12 : FVec F S32 .f32) (main_arg13 : FVec F S32x32 .f32) (main_arg14 : FVec F S32 .f32) (main_arg15 : FVec F S32x32 .f32) (main_arg16 : FVec F S32 .f32) (main_arg17 : FVec F S32x32 .f32) (main_arg18 : FVec F S32 .f32) (main_arg19 : FVec F S32x32 .f32) (main_arg20 : FVec F S32 .f32) (main_arg21 : FVec F S32 .f32) (main_arg22 : FVec F S32 .f32) (main_arg23 : FVec F S32x32 .f32) (main_arg24 : FVec F S32 .f32) (main_arg25 : FVec F S32x32 .f32) (main_arg26 : FVec F S32 .f32) (main_arg27 : FVec F S32x32 .f32) (main_arg28 : FVec F S32 .f32) (main_arg29 : FVec F S32x32 .f32) (main_arg30 : FVec F S32 .f32) (main_arg31 : FVec F S32 .f32) (main_arg32 : FVec F S32 .f32) (main_arg33 : FVec F S32x16 .f32) (main_arg34 : FVec F S16 .f32) (main_arg35 : FVec F S16x1 .f32) (main_arg36 : FVec F S1 .f32) : IVec S_ 1 :=
  let main_v0 : FVec F S250000x6 .f32 := Host.absf main_arg0
  let main_cst : FVec F S_ .f32 := constant S_ .f32 0x7F800000#32
  let main_v1 : FVec F S250000x6 .f32 := broadcastInDim S250000x6 ![] bcast_S_S250000x6 main_cst
  let main_v2 : IVec S250000x6 1 := cmpf .olt main_v0 main_v1
  let main_c : IVec S_ 1 := constantI S_ 1 1#1
  let main_v3 : IVec S_ 1 := (fun x v => Host.reduce IntOp.andi x v reducesTo_S250000x6_S_d0_1 h_S_) main_v2 main_c
  let main_v4 : FVec F S6x32 .f32 := Host.absf main_arg3
  let main_cst_0 : FVec F S_ .f32 := constant S_ .f32 0x7F800000#32
  let main_v5 : FVec F S6x32 .f32 := broadcastInDim S6x32 ![] bcast_S_S6x32 main_cst_0
  let main_v6 : IVec S6x32 1 := cmpf .olt main_v4 main_v5
  let main_c_1 : IVec S_ 1 := constantI S_ 1 1#1
  let main_v7 : IVec S_ 1 := (fun x v => Host.reduce IntOp.andi x v reducesTo_S6x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v13 main_v16
-- ==== Kernel.lean ====
abbrev S250000x6 : Shape := ⟨2, ![250000, 6]⟩
abbrev S2x2500000 : Shape := ⟨2, ![2, 2500000]⟩
abbrev S250000 : Shape := ⟨1, ![250000]⟩
abbrev S6x32 : Shape := ⟨2, ![6, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x2500000 : Shape := ⟨2, ![1, 2500000]⟩
abbrev S2500000 : Shape := ⟨1, ![2500000]⟩
abbrev S_ : Shape := ⟨0, ![]⟩
abbrev S2500000x1 : Shape := ⟨2, ![2500000, 1]⟩
abbrev S2500000x6 : Shape := ⟨2, ![2500000, 6]⟩
abbrev S1x32 : Shape := ⟨2, ![1, 32]⟩
abbrev S250000x32 : Shape := ⟨2, ![250000, 32]⟩
abbrev S10000x6 : Shape := ⟨2, ![10000, 6]⟩
abbrev S10000x32 : Shape := ⟨2, ![10000, 32]⟩
abbrev S2500000x32 : Shape := ⟨2, ![2500000, 32]⟩
abbrev S250000x1 : Shape := ⟨2, ![250000, 1]⟩
abbrev S1x16 : Shape := ⟨2, ![1, 16]⟩
abbrev S1x1 : Shape := ⟨2, ![1, 1]⟩
abbrev S512x1 : Shape := ⟨2, ![512, 1]⟩
abbrev S2000x32 : Shape := ⟨2, ![2000, 32]⟩
abbrev S2000x1 : Shape := ⟨2, ![2000, 1]⟩
abbrev S512x32 : Shape := ⟨2, ![512, 32]⟩
abbrev S2000x512 : Shape := ⟨2, ![2000, 512]⟩
abbrev S512x16 : Shape := ⟨2, ![512, 16]⟩

abbrev nBuf : Space → Nat
  | .hbm => 177
  | .vmem => 95
  | .smem => 0
  | _ => 0

abbrev hbmTy0_0 (i : Nat) : BufTy := match i % 128 with
  | 0 => ⟨S250000x6, .f32⟩
  | 1 => ⟨S2x2500000, .i32⟩
  | 2 => ⟨S250000, .i32⟩
  | 3 => ⟨S6x32, .f32⟩
  | 4 => ⟨S32, .f32⟩
  | 5 => ⟨S32x32, .f32⟩
  | 6 => ⟨S32, .f32⟩
  | 7 => ⟨S6x32, .f32⟩
  | 8 => ⟨S32, .f32⟩
  | 9 => ⟨S32x32, .f32⟩
  | 10 => ⟨S32, .f32⟩
  | 11 => ⟨S32, .f32⟩
  | 12 => ⟨S32, .f32⟩
  | 13 => ⟨S32x32, .f32⟩
  | 14 => ⟨S32, .f32⟩
  | 15 => ⟨S32x32, .f32⟩
  | 16 => ⟨S32, .f32⟩
  | 17 => ⟨S32x32, .f32⟩
  | 18 => ⟨S32, .f32⟩
  | 19 => ⟨S32x32, .f32⟩
  | 20 => ⟨S32, .f32⟩
  | 21 => ⟨S32, .f32⟩
  | 22 => ⟨S32, .f32⟩
  | 23 => ⟨S32x32, .f32⟩
  | 24 => ⟨S32, .f32⟩
  | 25 => ⟨S32x32, .f32⟩
  | 26 => ⟨S32, .f32⟩
  | 27 => ⟨S32x32, .f32⟩
  | 28 => ⟨S32, .f32⟩
  | 29 => ⟨S32x32, .f32⟩
  | 30 => ⟨S32, .f32⟩
  | 31 => ⟨S32, .f32⟩
  | 32 => ⟨S32, .f32⟩
  | 33 => ⟨S32x16, .f32⟩
  | 34 => ⟨S16, .f32⟩
  | 35 => ⟨S16x1, .f32⟩
  | 36 => ⟨S1, .f32⟩
  | 37 => ⟨S1x2500000, .i32⟩
  | 38 => ⟨S2500000, .i32⟩
  | 39 => ⟨S1x2500000, .i32⟩
  | 40 => ⟨S2500000, .i32⟩
  | 41 => ⟨S_, .i32⟩
  | 42 => ⟨S2500000, .i32⟩
  | 43 => ⟨S2500000, .i1⟩
  | 44 => ⟨S_, .i32⟩
  | 45 => ⟨S2500000, .i32⟩
  | 46 => ⟨S2500000, .i32⟩
  | 47 => ⟨S2500000, .i32⟩
  | 48 => ⟨S2500000x1, .i32⟩
  | 49 => ⟨S2500000x6, .f32⟩
  | 50 => ⟨S_, .f32⟩
  | 51 => ⟨S250000x6, .f32⟩
  | 52 => ⟨S2500000x1, .i32⟩
  | 53 => ⟨S250000x6, .f32⟩
  | 54 => ⟨S_, .i32⟩
  | 55 => ⟨S2500000, .i32⟩
  | 56 => ⟨S2500000, .i1⟩
  | 57 => ⟨S_, .i32⟩
  | 58 => ⟨S2500000, .i32⟩
  | 59 => ⟨S2500000, .i32⟩
  | 60 => ⟨S2500000, .i32⟩
  | 61 => ⟨S2500000x1, .i32⟩
  | 62 => ⟨S2500000x6, .f32⟩
  | 63 => ⟨S_, .f32⟩
  | 64 => ⟨S250000x6, .f32⟩
  | 65 => ⟨S2500000x1, .i32⟩
  | 66 => ⟨S250000x6, .f32⟩
  | 67 => ⟨S1x32, .f32⟩
  | 68 => ⟨S1x32, .f32⟩
  | 69 => ⟨S1x32, .f32⟩
  | 70 => ⟨S1x32, .f32⟩
  | 71 => ⟨S250000x32, .f32⟩
  | 72 => ⟨S1x32, .f32⟩
  | 73 => ⟨S1x32, .f32⟩
  | 74 => ⟨S_, .f32⟩
  | 75 => ⟨S1x32, .f32⟩
  | 76 => ⟨S1x32, .f32⟩
  | 77 => ⟨S_, .f32⟩
  | 78 => ⟨S1x32, .f32⟩
  | 79 => ⟨S1x32, .f32⟩
  | 80 => ⟨S1x32, .f32⟩
  | 81 => ⟨S1x32, .f32⟩
  | 82 => ⟨S1x32, .f32⟩
  | 83 => ⟨S1x32, .f32⟩
  | 84 => ⟨S250000x32, .f32⟩
  | 85 => ⟨S_, .i32⟩
  | 86 => ⟨S2500000, .i32⟩
  | 87 => ⟨S2500000, .i1⟩
  | 88 => ⟨S_, .i32⟩
  | 89 => ⟨S2500000, .i32⟩
  | 90 => ⟨S2500000, .i32⟩
  | 91 => ⟨S2500000, .i32⟩
  | 92 => ⟨S2500000x1, .i32⟩
  | 93 => ⟨S2500000x32, .f32⟩
  | 94 => ⟨S_, .f32⟩
  | 95 => ⟨S250000x32, .f32⟩
  | 96 => ⟨S2500000x1, .i32⟩
  | 97 => ⟨S250000x32, .f32⟩
  | 98 => ⟨S_, .i32⟩
  | 99 => ⟨S2500000, .i32⟩
  | 100 => ⟨S2500000, .i1⟩
  | 101 => ⟨S_, .i32⟩
  | 102 => ⟨S2500000, .i32⟩
  | 103 => ⟨S2500000, .i32⟩
  | 104 => ⟨S2500000, .i32⟩
  | 105 => ⟨S2500000x1, .i32⟩
  | 106 => ⟨S2500000x32, .f32⟩
  | 107 => ⟨S_, .f32⟩
  | 108 => ⟨S250000x32, .f32⟩
  | 109 => ⟨S2500000x1, .i32⟩
  | 110 => ⟨S250000x32, .f32⟩
  | 111 => ⟨S1x32, .f32⟩
  | 112 => ⟨S1x32, .f32⟩
  | 113 => ⟨S1x32, .f32⟩
  | 114 => ⟨S1x32, .f32⟩
  | 115 => ⟨S250000x32, .f32⟩
  | 116 => ⟨S1x32, .f32⟩
  | 117 => ⟨S1x32, .f32⟩
  | 118 => ⟨S_, .f32⟩
  | 119 => ⟨S1x32, .f32⟩
  | 120 => ⟨S1x32, .f32⟩
  | 121 => ⟨S_, .f32⟩
  | 122 => ⟨S1x32, .f32⟩
  | 123 => ⟨S1x32, .f32⟩
  | 124 => ⟨S1x32, .f32⟩
  | 125 => ⟨S1x32, .f32⟩
  | 126 => ⟨S1x32, .f32⟩
  | 127 => ⟨S1x32, .f32⟩
  | _ => ⟨S250000x6, .f32⟩

abbrev hbmTy0_1 (i : Nat) : BufTy := match i % 128 with
  | 0 => ⟨S250000x32, .f32⟩
  | 1 => ⟨S_, .i32⟩
  | 2 => ⟨S2500000, .i32⟩
  | 3 => ⟨S2500000, .i1⟩
  | 4 => ⟨S_, .i32⟩
  | 5 => ⟨S2500000, .i32⟩
  | 6 => ⟨S2500000, .i32⟩
  | 7 => ⟨S2500000, .i32⟩
  | 8 => ⟨S2500000x1, .i32⟩
  | 9 => ⟨S2500000x32, .f32⟩
  | 10 => ⟨S_, .f32⟩
  | 11 => ⟨S250000x32, .f32⟩
  | 12 => ⟨S2500000x1, .i32⟩
  | 13 => ⟨S250000x32, .f32⟩
  | 14 => ⟨S_, .i32⟩
  | 15 => ⟨S2500000, .i32⟩
  | 16 => ⟨S2500000, .i1⟩
  | 17 => ⟨S_, .i32⟩
  | 18 => ⟨S2500000, .i32⟩
  | 19 => ⟨S2500000, .i32⟩
  | 20 => ⟨S2500000, .i32⟩
  | 21 => ⟨S2500000x1, .i32⟩
  | 22 => ⟨S2500000x32, .f32⟩
  | 23 => ⟨S_, .f32⟩
  | 24 => ⟨S250000x32, .f32⟩
  | 25 => ⟨S2500000x1, .i32⟩
  | 26 => ⟨S250000x32, .f32⟩
  | 27 => ⟨S1x32, .f32⟩
  | 28 => ⟨S1x32, .f32⟩
  | 29 => ⟨S1x32, .f32⟩
  | 30 => ⟨S1x32, .f32⟩
  | 31 => ⟨S250000x32, .f32⟩
  | 32 => ⟨S1x32, .f32⟩
  | 33 => ⟨S1x32, .f32⟩
  | 34 => ⟨S_, .f32⟩
  | 35 => ⟨S1x32, .f32⟩
  | 36 => ⟨S1x32, .f32⟩
  | 37 => ⟨S_, .f32⟩
  | 38 => ⟨S1x32, .f32⟩
  | 39 => ⟨S1x32, .f32⟩
  | 40 => ⟨S1x32, .f32⟩
  | 41 => ⟨S1x32, .f32⟩
  | 42 => ⟨S1x32, .f32⟩
  | 43 => ⟨S1x32, .f32⟩
  | 44 => ⟨S250000x32, .f32⟩
  | 45 => ⟨S250000x1, .i32⟩
  | 46 => ⟨S1x16, .f32⟩
  | 47 => ⟨S1x1, .f32⟩
  | 48 => ⟨S512x1, .f32⟩
  | _ => ⟨S250000x6, .f32⟩

abbrev hbmTy (i : Nat) : BufTy := match i / 128 with
  | 0 => hbmTy0_0 i
  | 1 => hbmTy0_1 i
  | _ => ⟨S250000x6, .f32⟩

abbrev bufTy : (tb : Table) → Fin (tcTables nBuf tb) → BufTy
  | .hbm, ⟨i, _⟩ => hbmTy i
  | .local _ .vmem, ⟨0, _⟩ => ⟨S10000x6, .f32⟩
  | .local _ .vmem, ⟨1, _⟩ => ⟨S10000x6, .f32⟩
  | .local _ .vmem, ⟨2, _⟩ => ⟨S10000x6, .f32⟩
  | .local _ .vmem, ⟨3, _⟩ => ⟨S10000x6, .f32⟩
  | .local _ .vmem, ⟨4, _⟩ => ⟨S10000x6, .f32⟩
  | .local _ .vmem, ⟨5, _⟩ => ⟨S10000x6, .f32⟩
  | .local _ .vmem, ⟨6, _⟩ => ⟨S6x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S6x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S10000x32, .f32⟩
  | .local _ .vmem, ⟨15, _⟩ => ⟨S10000x32, .f32⟩
  | .local _ .vmem, ⟨16, _⟩ => ⟨S1x32, .f32⟩
  | .local _ .vmem, ⟨17, _⟩ => ⟨S1x32, .f32⟩
  | .local _ .vmem, ⟨18, _⟩ => ⟨S1x32, .f32⟩
  | .local _ .vmem, ⟨19, _⟩ => ⟨S1x32, .f32⟩
  | .local _ .vmem, ⟨20, _⟩ => ⟨S10000x32, .f32⟩
  | .local _ .vmem, ⟨21, _⟩ => ⟨S10000x32, .f32⟩
  | .local _ .vmem, ⟨22, _⟩ => ⟨S1x32, .f32⟩
  | .local _ .vmem, ⟨23, _⟩ => ⟨S1x32, .f32⟩
  | .local _ .vmem, ⟨24, _⟩ => ⟨S1x32, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S10000x32, .f32⟩
  | .local _ .vmem, ⟨31, _⟩ => ⟨S10000x32, .f32⟩
  | .local _ .vmem, ⟨32, _⟩ => ⟨S10000x32, .f32⟩
  | .local _ .vmem, ⟨33, _⟩ => ⟨S10000x32, .f32⟩
  | .local _ .vmem, ⟨34, _⟩ => ⟨S32x32, .f32⟩
  | .local _ .vmem, ⟨35, _⟩ => ⟨S1x32, .f32⟩
  | .local _ .vmem, ⟨36, _⟩ => ⟨S32x32, .f32⟩
  | .local _ .vmem, ⟨37, _⟩ => ⟨S1x32, .f32⟩
  | .local _ .vmem, ⟨38, _⟩ => ⟨S32x32, .f32⟩
  | .local _ .vmem, ⟨39, _⟩ => ⟨S1x32, .f32⟩
  | .local _ .vmem, ⟨40, _⟩ => ⟨S32x32, .f32⟩
  | .local _ .vmem, ⟨41, _⟩ => ⟨S1x32, .f32⟩
  | .local _ .vmem, ⟨42, _⟩ => ⟨S10000x32, .f32⟩
  | .local _ .vmem, ⟨43, _⟩ => ⟨S10000x32, .f32⟩
  | .local _ .vmem, ⟨44, _⟩ => ⟨S1x32, .f32⟩
  | .local _ .vmem, ⟨45, _⟩ => ⟨S1x32, .f32⟩
  | .local _ .vmem, ⟨46, _⟩ => ⟨S1x32, .f32⟩
  | .local _ .vmem, ⟨47, _⟩ => ⟨S1x32, .f32⟩
  | .local _ .vmem, ⟨48, _⟩ => ⟨S10000x32, .f32⟩
  | .local _ .vmem, ⟨49, _⟩ => ⟨S10000x32, .f32⟩
  | .local _ .vmem, ⟨50, _⟩ => ⟨S1x32, .f32⟩
  | .local _ .vmem, ⟨51, _⟩ => ⟨S1x32, .f32⟩
  | .local _ .vmem, ⟨52, _⟩ => ⟨S1x32, .f32⟩
  | .local _ .vmem, ⟨53, _⟩ => ⟨S1x32, .f32⟩
  | .local _ .vmem, ⟨54, _⟩ => ⟨S10000x32, .f32⟩
  | .local _ .vmem, ⟨55, _⟩ => ⟨S10000x32, .f32⟩
  | .local _ .vmem, ⟨56, _⟩ => ⟨S10000x32, .f32⟩
  | .local _ .vmem, ⟨57, _⟩ => ⟨S10000x32, .f32⟩
  | .local _ .vmem, ⟨58, _⟩ => ⟨S10000x32, .f32⟩
  | .local _ .vmem, ⟨59, _⟩ => ⟨S10000x32, .f32⟩
  | .local _ .vmem, ⟨60, _⟩ => ⟨S10000x32, .f32⟩
  | .local _ .vmem, ⟨61, _⟩ => ⟨S10000x32, .f32⟩
  | .local _ .vmem, ⟨62, _⟩ => ⟨S32x32, .f32⟩
  | .local _ .vmem, ⟨63, _⟩ => ⟨S1x32, .f32⟩
  | .local _ .vmem, ⟨64, _⟩ => ⟨S32x32, .f32⟩
  | .local _ .vmem, ⟨65, _⟩ => ⟨S1x32, .f32⟩
  | .local _ .vmem, ⟨66, _⟩ => ⟨S32x32, .f32⟩
  | .local _ .vmem, ⟨67, _⟩ => ⟨S1x32, .f32⟩
  | .local _ .vmem, ⟨68, _⟩ => ⟨S32x32, .f32⟩
  | .local _ .vmem, ⟨69, _⟩ => ⟨S1x32, .f32⟩
  | .local _ .vmem, ⟨70, _⟩ => ⟨S10000x32, .f32⟩
  | .local _ .vmem, ⟨71, _⟩ => ⟨S10000x32, .f32⟩
  | .local _ .vmem, ⟨72, _⟩ => ⟨S1x32, .f32⟩
  | .local _ .vmem, ⟨73, _⟩ => ⟨S1x32, .f32⟩
  | .local _ .vmem, ⟨74, _⟩ => ⟨S1x32, .f32⟩
  | .local _ .vmem, ⟨75, _⟩ => ⟨S1x32, .f32⟩
  | .local _ .vmem, ⟨76, _⟩ => ⟨S10000x32, .f32⟩
  | .local _ .vmem, ⟨77, _⟩ => ⟨S10000x32, .f32⟩
  | .local _ .vmem, ⟨78, _⟩ => ⟨S1x32, .f32⟩
  | .local _ .vmem, ⟨79, _⟩ => ⟨S1x32, .f32⟩
  | .local _ .vmem, ⟨80, _⟩ => ⟨S1x32, .f32⟩
  | .local _ .vmem, ⟨81, _⟩ => ⟨S1x32, .f32⟩
  | .local _ .vmem, ⟨82, _⟩ => ⟨S10000x32, .f32⟩
  | .local _ .vmem, ⟨83, _⟩ => ⟨S10000x32, .f32⟩
  | .local _ .vmem, ⟨84, _⟩ => ⟨S2000x32, .f32⟩
  | .local _ .vmem, ⟨85, _⟩ => ⟨S2000x32, .f32⟩
  | .local _ .vmem, ⟨86, _⟩ => ⟨S2000x1, .i32⟩
  | .local _ .vmem, ⟨87, _⟩ => ⟨S2000x1, .i32⟩
  | .local _ .vmem, ⟨88, _⟩ => ⟨S32x16, .f32⟩
  | .local _ .vmem, ⟨89, _⟩ => ⟨S1x16, .f32⟩
  | .local _ .vmem, ⟨90, _⟩ => ⟨S16x1, .f32⟩
  | .local _ .vmem, ⟨91, _⟩ => ⟨S1x1, .f32⟩
  | .local _ .vmem, ⟨92, _⟩ => ⟨S512x1, .f32⟩
  | .local _ .vmem, ⟨93, _⟩ => ⟨S512x32, .f32⟩
  | .local _ .vmem, ⟨94, _⟩ => ⟨S512x1, .f32⟩
  | _, _ => ⟨S250000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_c : Ref sig .tc := ⟨.hbm, 41, rfl⟩
abbrev main_v4 : Ref sig .tc := ⟨.hbm, 42, rfl⟩
abbrev main_v5 : Ref sig .tc := ⟨.hbm, 43, rfl⟩
abbrev main_c_0 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_c_1 : Ref sig .tc := ⟨.hbm, 54, rfl⟩
abbrev main_v14 : Ref sig .tc := ⟨.hbm, 55, rfl⟩
abbrev main_v15 : Ref sig .tc := ⟨.hbm, 56, rfl⟩
abbrev main_c_2 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst_3 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28_0 : Ref sig .tc := ⟨.hbm, 71, rfl⟩
abbrev main_v28_1 : Ref sig .tc := ⟨.hbm, 72, rfl⟩
abbrev main_v28_2 : Ref sig .tc := ⟨.hbm, 73, rfl⟩
abbrev main_cst_4 : Ref sig .tc := ⟨.hbm, 74, rfl⟩
abbrev main_v29 : Ref sig .tc := ⟨.hbm, 75, rfl⟩
abbrev main_v30 : Ref sig .tc := ⟨.hbm, 76, rfl⟩
abbrev main_cst_5 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_c_6 : Ref sig .tc := ⟨.hbm, 85, rfl⟩
abbrev main_v38 : Ref sig .tc := ⟨.hbm, 86, rfl⟩
abbrev main_v39 : Ref sig .tc := ⟨.hbm, 87, rfl⟩
abbrev main_c_7 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_8 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_c_9 : Ref sig .tc := ⟨.hbm, 98, rfl⟩
abbrev main_v48 : Ref sig .tc := ⟨.hbm, 99, rfl⟩
abbrev main_v49 : Ref sig .tc := ⟨.hbm, 100, rfl⟩
abbrev main_c_10 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_11 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62_0 : Ref sig .tc := ⟨.hbm, 115, rfl⟩
abbrev main_v62_1 : Ref sig .tc := ⟨.hbm, 116, rfl⟩
abbrev main_v62_2 : Ref sig .tc := ⟨.hbm, 117, rfl⟩
abbrev main_cst_12 : Ref sig .tc := ⟨.hbm, 118, rfl⟩
abbrev main_v63 : Ref sig .tc := ⟨.hbm, 119, rfl⟩
abbrev main_v64 : Ref sig .tc := ⟨.hbm, 120, rfl⟩
abbrev main_cst_13 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_c_14 : Ref sig .tc := ⟨.hbm, 129, rfl⟩
abbrev main_v72 : Ref sig .tc := ⟨.hbm, 130, rfl⟩
abbrev main_v73 : Ref sig .tc := ⟨.hbm, 131, rfl⟩
abbrev main_c_15 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_cst_16 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_c_17 : Ref sig .tc := ⟨.hbm, 142, rfl⟩
abbrev main_v82 : Ref sig .tc := ⟨.hbm, 143, rfl⟩
abbrev main_v83 : Ref sig .tc := ⟨.hbm, 144, rfl⟩
abbrev main_c_18 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_cst_19 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96_0 : Ref sig .tc := ⟨.hbm, 159, rfl⟩
abbrev main_v96_1 : Ref sig .tc := ⟨.hbm, 160, rfl⟩
abbrev main_v96_2 : Ref sig .tc := ⟨.hbm, 161, rfl⟩
abbrev main_cst_20 : Ref sig .tc := ⟨.hbm, 162, rfl⟩
abbrev main_v97 : Ref sig .tc := ⟨.hbm, 163, rfl⟩
abbrev main_v98 : Ref sig .tc := ⟨.hbm, 164, rfl⟩
abbrev main_cst_21 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg5_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg11_0 : Ref sig .tc := ⟨.vmem, 42, rfl⟩
abbrev cc2_stg11_1 : Ref sig .tc := ⟨.vmem, 43, rfl⟩
abbrev cc2_stg12_0 : Ref sig .tc := ⟨.vmem, 44, rfl⟩
abbrev cc2_stg13_0 : Ref sig .tc := ⟨.vmem, 45, rfl⟩
abbrev cc2_scratch0 : Ref sig .tc := ⟨.vmem, 46, rfl⟩
abbrev cc2_scratch1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg2_0 : Ref sig .tc := ⟨.vmem, 51, rfl⟩
abbrev cc3_stg3_0 : Ref sig .tc := ⟨.vmem, 52, rfl⟩
abbrev cc3_stg4_0 : Ref sig .tc := ⟨.vmem, 53, rfl⟩
abbrev cc3_stg5_0 : Ref sig .tc := ⟨.vmem, 54, rfl⟩
abbrev cc3_stg5_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg4_0 : Ref sig .tc := ⟨.vmem, 63, rfl⟩
abbrev cc4_stg5_0 : Ref sig .tc := ⟨.vmem, 64, rfl⟩
abbrev cc4_stg6_0 : Ref sig .tc := ⟨.vmem, 65, rfl⟩
abbrev cc4_stg7_0 : Ref sig .tc := ⟨.vmem, 66, rfl⟩
abbrev cc4_stg8_0 : Ref sig .tc := ⟨.vmem, 67, rfl⟩
abbrev cc4_stg9_0 : Ref sig .tc := ⟨.vmem, 68, rfl⟩
abbrev cc4_stg10_0 : Ref sig .tc := ⟨.vmem, 69, rfl⟩
abbrev cc4_stg11_0 : Ref sig .tc := ⟨.vmem, 70, rfl⟩
abbrev cc4_stg11_1 : Ref sig .tc := ⟨.vmem, 71, rfl⟩
abbrev cc4_stg12_0 : Ref sig .tc := ⟨.vmem, 72, rfl⟩
abbrev cc4_stg13_0 : Ref sig .tc := ⟨.vmem, 73, rfl⟩
abbrev cc4_scratch0 : Ref sig .tc := ⟨.vmem, 74, rfl⟩
abbrev cc4_scratch1 : Ref sig .tc := ⟨.vmem, 75, rfl⟩
abbrev cc5_stg0_0 : Ref sig .tc := ⟨.vmem, 76, rfl⟩
abbrev cc5_stg0_1 : Ref sig .tc := ⟨.vmem, 77, rfl⟩
abbrev cc5_stg1_0 : Ref sig .tc := ⟨.vmem, 78, rfl⟩
abbrev cc5_stg2_0 : Ref sig .tc := ⟨.vmem, 79, rfl⟩
abbrev cc5_stg3_0 : Ref sig .tc := ⟨.vmem, 80, rfl⟩
abbrev cc5_stg4_0 : Ref sig .tc := ⟨.vmem, 81, rfl⟩
abbrev cc5_stg5_0 : Ref sig .tc := ⟨.vmem, 82, rfl⟩
abbrev cc5_stg5_1 : Ref sig .tc := ⟨.vmem, 83, rfl⟩
abbrev cc6_stg0_0 : Ref sig .tc := ⟨.vmem, 84, rfl⟩
abbrev cc6_stg0_1 : Ref sig .tc := ⟨.vmem, 85, rfl⟩
abbrev cc6_stg1_0 : Ref sig .tc := ⟨.vmem, 86, rfl⟩
abbrev cc6_stg1_1 : Ref sig .tc := ⟨.vmem, 87, rfl⟩
abbrev cc6_stg2_0 : Ref sig .tc := ⟨.vmem, 88, rfl⟩
abbrev cc6_stg3_0 : Ref sig .tc := ⟨.vmem, 89, rfl⟩
abbrev cc6_stg4_0 : Ref sig .tc := ⟨.vmem, 90, rfl⟩
abbrev cc6_stg5_0 : Ref sig .tc := ⟨.vmem, 91, rfl⟩
abbrev cc6_stg6_0 : Ref sig .tc := ⟨.vmem, 92, rfl⟩
abbrev cc6_scratch0 : Ref sig .tc := ⟨.vmem, 93, rfl⟩
abbrev cc6_scratch1 : Ref sig .tc := ⟨.vmem, 94, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem13_0 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem9_0 : DmaSem sig := 38
abbrev cc2_sem10_0 : DmaSem sig := 39
abbrev cc2_sem11_0 : DmaSem sig := 40
abbrev cc2_sem11_1 : DmaSem sig := 41
abbrev cc2_sem12_0 : DmaSem sig := 42
abbrev cc2_sem13_0 : DmaSem sig := 43
abbrev cc3_sem0_0 : DmaSem sig := 44
abbrev cc3_sem0_1 : DmaSem sig := 45
abbrev cc3_sem1_0 : DmaSem sig := 46
abbrev cc3_sem2_0 : DmaSem sig := 47
abbrev cc3_sem3_0 : DmaSem sig := 48
abbrev cc3_sem4_0 : DmaSem sig := 49
abbrev cc3_sem5_0 : DmaSem sig := 50
abbrev cc3_sem5_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem2_1 : DmaSem sig := 57
abbrev cc4_sem3_0 : DmaSem sig := 58
abbrev cc4_sem4_0 : DmaSem sig := 59
abbrev cc4_sem5_0 : DmaSem sig := 60
abbrev cc4_sem6_0 : DmaSem sig := 61
abbrev cc4_sem7_0 : DmaSem sig := 62
abbrev cc4_sem8_0 : DmaSem sig := 63
abbrev cc4_sem9_0 : DmaSem sig := 64
abbrev cc4_sem10_0 : DmaSem sig := 65
abbrev cc4_sem11_0 : DmaSem sig := 66
abbrev cc4_sem11_1 : DmaSem sig := 67
abbrev cc4_sem12_0 : DmaSem sig := 68
abbrev cc4_sem13_0 : DmaSem sig := 69
abbrev cc5_sem0_0 : DmaSem sig := 70
abbrev cc5_sem0_1 : DmaSem sig := 71
abbrev cc5_sem1_0 : DmaSem sig := 72
abbrev cc5_sem2_0 : DmaSem sig := 73
abbrev cc5_sem3_0 : DmaSem sig := 74
abbrev cc5_sem4_0 : DmaSem sig := 75
abbrev cc5_sem5_0 : DmaSem sig := 76
abbrev cc5_sem5_1 : DmaSem sig := 77
abbrev cc6_sem0_0 : DmaSem sig := 78
abbrev cc6_sem0_1 : DmaSem sig := 79
abbrev cc6_sem1_0 : DmaSem sig := 80
abbrev cc6_sem1_1 : DmaSem sig := 81
abbrev cc6_sem2_0 : DmaSem sig := 82
abbrev cc6_sem3_0 : DmaSem sig := 83
abbrev cc6_sem4_0 : DmaSem sig := 84
abbrev cc6_sem5_0 : DmaSem sig := 85
abbrev cc6_sem6_0 : DmaSem sig := 86

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v69 : BitVec 1 := Scalar.cmpi .eq arg0 c24_i32
  let v70 : BitVec 32 := Scalar.extui v69
  let c0_i32_42 : BitVec 32 := 0#32
  let v71 : BitVec 1 := Scalar.cmpi .ne v70 c0_i32_42
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S10000x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v70 : BitVec 1 := Scalar.cmpi .eq arg0 c24_i32
  let v71 : BitVec 32 := Scalar.extui v70
  let c0_i32_42 : BitVec 32 := 0#32
  let v72 : BitVec 1 := Scalar.cmpi .ne v71 c0_i32_42
  v72

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S32x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S10000x32 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 1 → Memref sig .tc .vmem S1x32 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x32 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v70 : BitVec 1 := Scalar.cmpi .eq arg0 c24_i32
  let v71 : BitVec 32 := Scalar.extui v70
  let c0_i32_42 : BitVec 32 := 0#32
  let v72 : BitVec 1 := Scalar.cmpi .ne v71 c0_i32_42
  v72

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S32x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S32x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x32 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S32x32 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x32 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S10000x32 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 1 → Memref sig .tc .vmem S1x32 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x32 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![125], ![false]⟩

def k6_cond2 (i : grid6.Coords) : BitVec 1 :=
  let arg0 : BitVec 32 := BitVec.ofNat 32 (i 0).val
  let c124_i32 : BitVec 32 := 124#32
  let v27 : BitVec 1 := Scalar.cmpi .eq arg0 c124_i32
  let v28 : BitVec 32 := Scalar.extui v27
  let c0_i32_14 : BitVec 32 := 0#32
  let v29 : BitVec 1 := Scalar.cmpi .ne v28 c0_i32_14
  v29

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S32x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S16x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S512x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S2500000_S2500000x1_0 : S2500000.BroadcastsInDim S2500000x1 (![0] : Fin 1 → Fin S2500000x1.rank)
  bcast_S_S250000x6 : S_.BroadcastsInDim S250000x6 (![] : Fin 0 → Fin S250000x6.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S10000x6_S10000x6_0_0 : ∀ a, (![0, 0] : Fin 2 → Nat) a + S10000x6.size a ≤ S10000x6.size a
  h_S10000x6 : 0 < S10000x6.numel
  shapeCasts_S10000x6_S10000x6 : S10000x6.ShapeCasts S10000x6
  bitsLt_bf16_f32 : FTy.bits .bf16 < FTy.bits .f32
  inb_S6x32_S6x32_0_0 : ∀ a, (![0, 0] : Fin 2 → Nat) a + S6x32.size a ≤ S6x32.size a
  h_S6x32 : 0 < S6x32.numel
  inb_S32x32_S32x32_0_0 : ∀ a, (![0, 0] : Fin 2 → Nat) a + S32x32.size a ≤ S32x32.size a
  h_S32x32 : 0 < S32x32.numel
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  reduces_S10000x32_S32 : S10000x32.Reduces [0] S32
  bcast_S_S1x32 : S_.BroadcastsInDim S1x32 (![] : Fin 0 → Fin S1x32.rank)
  shapeCasts_S10000x32_S10000x32 : S10000x32.ShapeCasts S10000x32
  bcast_S_S250000x32 : S_.BroadcastsInDim S250000x32 (![] : Fin 0 → Fin S250000x32.rank)
  shapeCasts_S250000_S250000x1 : S250000.ShapeCasts S250000x1
  shapeCasts_S16_S1x16 : S16.ShapeCasts S1x16
  shapeCasts_S1_S1x1 : S1.ShapeCasts S1x1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  broadcasts_S512x1_S512x32 : S512x1.Broadcasts S512x32
  inb_S32x16_S32x16_0_0 : ∀ a, (![0, 0] : Fin 2 → Nat) a + S32x16.size a ≤ S32x16.size a
  h_S32x16 : 0 < S32x16.numel
  inb_S16x1_S16x1_0_0 : ∀ a, (![0, 0] : Fin 2 → Nat) a + S16x1.size a ≤ S16x1.size a
  h_S16x1 : 0 < S16x1.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  gather_S250000x6_S2500000x1_S2500000x6_1_0_n_n_0_1_16_wf : GatherDims.WF S250000x6 S2500000x1 S2500000x6 [1] [0] [] [0] [] 1 ![1, 6]
  scatter_S250000x6_S2500000x1_S2500000x6_1_0_0_1_wf : ScatterDims.WF S250000x6 S2500000x1 S2500000x6 [1] [0] [0] 1
  dot_S10000x6_S6x32_S10000x32_1_0_0_1_n_n_wf : DotDims.WF S10000x6 S6x32 S10000x32 [1] [0] [0] [1] [] []
  dot_S10000x32_S32x32_S10000x32_1_0_0_1_n_n_wf : DotDims.WF S10000x32 S32x32 S10000x32 [1] [0] [0] [1] [] []
  gather_S250000x32_S2500000x1_S2500000x32_1_0_n_n_0_1_132_wf : GatherDims.WF S250000x32 S2500000x1 S2500000x32 [1] [0] [] [0] [] 1 ![1, 32]
  scatter_S250000x32_S2500000x1_S2500000x32_1_0_0_1_wf : ScatterDims.WF S250000x32 S2500000x1 S2500000x32 [1] [0] [0] 1
  dot_S2000x512_S2000x32_S512x32_0_0_1_1_n_n_wf : DotDims.WF S2000x512 S2000x32 S512x32 [0] [0] [1] [1] [] []
  dot_S2000x512_S2000x1_S512x1_0_0_1_1_n_n_wf : DotDims.WF S2000x512 S2000x1 S512x1 [0] [0] [1] [1] [] []
  dot_S512x32_S32x16_S512x16_1_0_0_1_n_n_wf : DotDims.WF S512x32 S32x16 S512x16 [1] [0] [0] [1] [] []
  dot_S512x16_S16x1_S512x1_1_0_0_1_n_n_wf : DotDims.WF S512x16 S16x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S250000x6.size a
  hwx0_0 : ∀ i : grid0.Coords, EltTy.bits .f32 = 32 ∨ (Rect.block (s := S250000x6) S10000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x6.size a ≤ S250000x6.size a
  hwx0_1 : ∀ i : grid0.Coords, EltTy.bits .f32 = 32 ∨ (Rect.block (s := S250000x6) S10000x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x6.size a ≤ S250000x6.size a
  hwx0_2 : ∀ i : grid0.Coords, EltTy.bits .f32 = 32 ∨ (Rect.block (s := S250000x6) S10000x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x32.size a ≤ S6x32.size a
  hwx0_3 : ∀ i : grid0.Coords, EltTy.bits .f32 = 32 ∨ (Rect.block (s := S6x32) S6x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x32.size a ≤ S6x32.size a
  hwx0_7 : ∀ i : grid0.Coords, EltTy.bits .f32 = 32 ∨ (Rect.block (s := S6x32) S6x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .f32 = 32 ∨ (Rect.block (s := S32x32) S32x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S10000x32.size a ≤ S250000x32.size a
  hwx0_11 : ∀ i : grid0.Coords, EltTy.bits .f32 = 32 ∨ (Rect.block (s := S250000x32) S10000x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x32.size a ≤ S1x32.size a
  hwx0_13 : ∀ i : grid0.Coords, EltTy.bits .f32 = 32 ∨ (Rect.block (s := S1x32) S1x32.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S250000x32.size a
  hwx1_0 : ∀ i : grid1.Coords, EltTy.bits .f32 = 32 ∨ (Rect.block (s := S250000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S250000x32.size a
  hwx1_5 : ∀ i : grid1.Coords, EltTy.bits .f32 = 32 ∨ (Rect.block (s := S250000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S250000x32.size a
  hwx2_0 : ∀ i : grid2.Coords, EltTy.bits .f32 = 32 ∨ (Rect.block (s := S250000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S250000x32.size a
  hwx2_1 : ∀ i : grid2.Coords, EltTy.bits .f32 = 32 ∨ (Rect.block (s := S250000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S250000x32.size a
  hwx2_2 : ∀ i : grid2.Coords, EltTy.bits .f32 = 32 ∨ (Rect.block (s := S250000x32) S10000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x32.size a ≤ S32x32.size a
  hwx2_7 : ∀ i : grid2.Coords, EltTy.bits .f32 = 32 ∨ (Rect.block (s := S32x32) S32x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S32x32.size a ≤ S32x32.size a
  hwx2_9 : ∀ i : grid2.Coords, EltTy.bits .f32 = 32 ∨ (Rect.block (s := S32x32) S32x32.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x32.size a ≤ S1x32.size a
  hwx2_10 : ∀ i : grid2.Coords, EltTy.bits .f32 = 32 ∨ (Rect.block (s := S1x32) S1x32.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S10000x32.size a ≤ S250000x32.size a
  hwx2_11 : ∀ i : grid2.Coords, EltTy.bits .f32 = 32 ∨ (Rect.block (s := S250000x32) S10000x32.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x32.size a ≤ S1x32.size a
  hwx2_12 : ∀ i : grid2.Coords, EltTy.bits .f32 = 32 ∨ (Rect.block (s := S1x32) S1x32.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x32.size a ≤ S1x32.size a
  hwx2_13 : ∀ i : grid2.Coords, EltTy.bits .f32 = 32 ∨ (Rect.block (s := S1x32) S1x32.size (cc2_transform_13 i) (hinb2_13 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S250000x32.size a
  hwx3_0 : ∀ i : grid3.Coords, EltTy.bits .f32 = 32 ∨ (Rect.block (s := S250000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x32.size a ≤ S250000x32.size a
  hwx3_5 : ∀ i : grid3.Coords, EltTy.bits .f32 = 32 ∨ (Rect.block (s := S250000x32) S10000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S250000x32.size a
  hwx4_0 : ∀ i : grid4.Coords, EltTy.bits .f32 = 32 ∨ (Rect.block (s := S250000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S250000x32.size a
  hwx4_1 : ∀ i : grid4.Coords, EltTy.bits .f32 = 32 ∨ (Rect.block (s := S250000x32) S10000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S250000x32.size a
  hwx4_2 : ∀ i : grid4.Coords, EltTy.bits .f32 = 32 ∨ (Rect.block (s := S250000x32) S10000x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x32.size a ≤ S32x32.size a
  hwx4_3 : ∀ i : grid4.Coords, EltTy.bits .f32 = 32 ∨ (Rect.block (s := S32x32) S32x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x32.size a ≤ S32x32.size a
  hwx4_5 : ∀ i : grid4.Coords, EltTy.bits .f32 = 32 ∨ (Rect.block (s := S32x32) S32x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x32.size a ≤ S1x32.size a
  hwx4_6 : ∀ i : grid4.Coords, EltTy.bits .f32 = 32 ∨ (Rect.block (s := S1x32) S1x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S32x32.size a ≤ S32x32.size a
  hwx4_7 : ∀ i : grid4.Coords, EltTy.bits .f32 = 32 ∨ (Rect.block (s := S32x32) S32x32.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x32.size a ≤ S1x32.size a
  hwx4_8 : ∀ i : grid4.Coords, EltTy.bits .f32 = 32 ∨ (Rect.block (s := S1x32) S1x32.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S32x32.size a ≤ S32x32.size a
  hwx4_9 : ∀ i : grid4.Coords, EltTy.bits .f32 = 32 ∨ (Rect.block (s := S32x32) S32x32.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x32.size a ≤ S1x32.size a
  hwx4_10 : ∀ i : grid4.Coords, EltTy.bits .f32 = 32 ∨ (Rect.block (s := S1x32) S1x32.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S10000x32.size a ≤ S250000x32.size a
  hwx4_11 : ∀ i : grid4.Coords, EltTy.bits .f32 = 32 ∨ (Rect.block (s := S250000x32) S10000x32.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x32.size a ≤ S1x32.size a
  hwx4_12 : ∀ i : grid4.Coords, EltTy.bits .f32 = 32 ∨ (Rect.block (s := S1x32) S1x32.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x32.size a ≤ S1x32.size a
  hwx4_13 : ∀ i : grid4.Coords, EltTy.bits .f32 = 32 ∨ (Rect.block (s := S1x32) S1x32.size (cc4_transform_13 i) (hinb4_13 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S250000x32.size a
  hwx5_0 : ∀ i : grid5.Coords, EltTy.bits .f32 = 32 ∨ (Rect.block (s := S250000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x32.size a ≤ S250000x32.size a
  hwx5_5 : ∀ i : grid5.Coords, EltTy.bits .f32 = 32 ∨ (Rect.block (s := S250000x32) S10000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x32.size a ≤ S250000x32.size a
  hwx6_0 : ∀ i : grid6.Coords, EltTy.bits .f32 = 32 ∨ (Rect.block (s := S250000x32) S2000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S250000x1.size a
  hwx6_1 : ∀ i : grid6.Coords, EltTy.bits .i32 = 32 ∨ (Rect.block (s := S250000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x16.size a ≤ S32x16.size a
  hwx6_2 : ∀ i : grid6.Coords, EltTy.bits .f32 = 32 ∨ (Rect.block (s := S32x16) S32x16.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x16.size a ≤ S1x16.size a
  hwx6_3 : ∀ i : grid6.Coords, EltTy.bits .f32 = 32 ∨ (Rect.block (s := S1x16) S1x16.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S16x1.size a ≤ S16x1.size a
  hwx6_4 : ∀ i : grid6.Coords, EltTy.bits .f32 = 32 ∨ (Rect.block (s := S16x1) S16x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x1.size a ≤ S1x1.size a
  hwx6_5 : ∀ i : grid6.Coords, EltTy.bits .f32 = 32 ∨ (Rect.block (s := S1x1) S1x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S512x1.size a ≤ S512x1.size a
  hwx6_6 : ∀ i : grid6.Coords, EltTy.bits .f32 = 32 ∨ (Rect.block (s := S512x1) S512x1.size (cc6_transform_6 i) (hinb6_6 i)).WholeWords (EltTy.packing .f32)

variable [Facts₀]

def gather_S250000x6_S2500000x1_S2500000x6_1_0_n_n_0_1_16 : GatherDims S250000x6 S2500000x1 S2500000x6 where
  offsetDims := [1]
  collapsedSliceDims := [0]
  operandBatchingDims := []
  startIndicesBatchingDims := []
  startIndexMap := [0]
  indexVectorDim := 1
  sliceSizes := ![1, 6]
  wf := gather_S250000x6_S2500000x1_S2500000x6_1_0_n_n_0_1_16_wf
def scatter_S250000x6_S2500000x1_S2500000x6_1_0_0_1 : ScatterDims S250000x6 S2500000x1 S2500000x6 where
  updateWindowDims := [1]
  insertedWindowDims := [0]
  scatterDimsToOperandDims := [0]
  indexVectorDim := 1
  wf := scatter_S250000x6_S2500000x1_S2500000x6_1_0_0_1_wf
def dot_S10000x6_S6x32_S10000x32_1_0_0_1_n_n : DotDims S10000x6 S6x32 S10000x32 where
  lhsContracting := [1]
  rhsContracting := [0]
  lhsNonContracting := [0]
  rhsNonContracting := [1]
  lhsBatch := []
  rhsBatch := []
  wf := dot_S10000x6_S6x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S250000x32_S2500000x1_S2500000x32_1_0_n_n_0_1_132 : GatherDims S250000x32 S2500000x1 S2500000x32 where
  offsetDims := [1]
  collapsedSliceDims := [0]
  operandBatchingDims := []
  startIndicesBatchingDims := []
  startIndexMap := [0]
  indexVectorDim := 1
  sliceSizes := ![1, 32]
  wf := gather_S250000x32_S2500000x1_S2500000x32_1_0_n_n_0_1_132_wf
def scatter_S250000x32_S2500000x1_S2500000x32_1_0_0_1 : ScatterDims S250000x32 S2500000x1 S2500000x32 where
  updateWindowDims := [1]
  insertedWindowDims := [0]
  scatterDimsToOperandDims := [0]
  indexVectorDim := 1
  wf := scatter_S250000x32_S2500000x1_S2500000x32_1_0_0_1_wf
def dot_S2000x512_S2000x32_S512x32_0_0_1_1_n_n : DotDims S2000x512 S2000x32 S512x32 where
  lhsContracting := [0]
  rhsContracting := [0]
  lhsNonContracting := [1]
  rhsNonContracting := [1]
  lhsBatch := []
  rhsBatch := []
  wf := dot_S2000x512_S2000x32_S512x32_0_0_1_1_n_n_wf
def dot_S2000x512_S2000x1_S512x1_0_0_1_1_n_n : DotDims S2000x512 S2000x1 S512x1 where
  lhsContracting := [0]
  rhsContracting := [0]
  lhsNonContracting := [1]
  rhsNonContracting := [1]
  lhsBatch := []
  rhsBatch := []
  wf := dot_S2000x512_S2000x1_S512x1_0_0_1_1_n_n_wf
def dot_S512x32_S32x16_S512x16_1_0_0_1_n_n : DotDims S512x32 S32x16 S512x16 where
  lhsContracting := [1]
  rhsContracting := [0]
  lhsNonContracting := [0]
  rhsNonContracting := [1]
  lhsBatch := []
  rhsBatch := []
  wf := dot_S512x32_S32x16_S512x16_1_0_0_1_n_n_wf
def dot_S512x16_S16x1_S512x1_1_0_0_1_n_n : DotDims S512x16 S16x1 S512x1 where
  lhsContracting := [1]
  rhsContracting := [0]
  lhsNonContracting := [0]
  rhsNonContracting := [1]
  lhsBatch := []
  rhsBatch := []
  wf := dot_S512x16_S16x1_S512x1_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S10000x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S6x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v27) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v28_0) S10000x32.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v28_1) S1x32.size cc0_transform_12 reads0_12 true true 1 stage0_12 sem0_12
    hrank0 hreads0_12 hinb0_12 nbuf0_12 (Memref.isWhole_whole _) hwx0_12 hstage0_12

abbrev win0_13 : Pipeline.Window sig grid0 :=
  Pipeline.Window.ofSpec (Memref.whole main_v28_2) S1x32.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | 13 => fun i => !(k0_cond2 i == 1#1) | ⟨_ + 14, h⟩ => absurd h (Nat.not_lt.2 (Nat.le_add_left _ _))

abbrev win1_0 : Pipeline.Window sig grid1 :=
  Pipeline.Window.ofSpec (Memref.whole main_v28_0) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S10000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S32x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v60) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg19) S32x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v61) S1x32.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v62_0) S10000x32.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v62_1) S1x32.size cc2_transform_12 reads2_12 true true 1 stage2_12 sem2_12
    hrank2 hreads2_12 hinb2_12 nbuf2_12 (Memref.isWhole_whole _) hwx2_12 hstage2_12

abbrev win2_13 : Pipeline.Window sig grid2 :=
  Pipeline.Window.ofSpec (Memref.whole main_v62_2) S1x32.size cc2_transform_13 reads2_13 true true 1 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev idle2 : Fin 14 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k2_cond2 i == 1#1) | 13 => fun i => !(k2_cond2 i == 1#1) | ⟨_ + 14, h⟩ => absurd h (Nat.not_lt.2 (Nat.le_add_left _ _))

abbrev win3_0 : Pipeline.Window sig grid3 :=
  Pipeline.Window.ofSpec (Memref.whole main_v62_0) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S10000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v71) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S10000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v91) S10000x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg23) S32x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v92) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg25) S32x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v93) S1x32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg27) S32x32.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v94) S1x32.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg29) S32x32.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v95) S1x32.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v96_0) S10000x32.size cc4_transform_11 reads4_11 true false 2 stage4_11 sem4_11
    hrank4 hreads4_11 hinb4_11 nbuf4_11 (Memref.isWhole_whole _) hwx4_11 hstage4_11

abbrev win4_12 : Pipeline.Window sig grid4 :=
  Pipeline.Window.ofSpec (Memref.whole main_v96_1) S1x32.size cc4_transform_12 reads4_12 true true 1 stage4_12 sem4_12
    hrank4 hreads4_12 hinb4_12 nbuf4_12 (Memref.isWhole_whole _) hwx4_12 hstage4_12

abbrev win4_13 : Pipeline.Window sig grid4 :=
  Pipeline.Window.ofSpec (Memref.whole main_v96_2) S1x32.size cc4_transform_13 reads4_13 true true 1 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

abbrev idle4 : Fin 14 → grid4.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k4_cond2 i == 1#1) | 13 => fun i => !(k4_cond2 i == 1#1) | ⟨_ + 14, h⟩ => absurd h (Nat.not_lt.2 (Nat.le_add_left _ _))

abbrev win5_0 : Pipeline.Window sig grid5 :=
  Pipeline.Window.ofSpec (Memref.whole main_v96_0) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v98) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v102) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v103) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v105) S10000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v105) S2000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v106) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg33) S32x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v107) S1x16.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg35) S16x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v108) S1x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v109) S512x1.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev idle6 : Fin 7 → grid6.Coords → Bool := fun | 0 => fun _ => false | 1 => fun _ => false | 2 => fun _ => false | 3 => fun _ => false | 4 => fun _ => false | 5 => fun _ => false | 6 => fun i => !(k6_cond2 i == 1#1) | ⟨_ + 7, h⟩ => absurd h (Nat.not_lt.2 (Nat.le_add_left _ _))

class Facts : Prop extends Facts₀ where

variable [Facts]
-- ==== ReferenceIdeal.lean ====
abbrev S250000x6 : Shape := ⟨2, ![250000, 6]⟩
abbrev S2x2500000 : Shape := ⟨2, ![2, 2500000]⟩
abbrev S250000 : Shape := ⟨1, ![250000]⟩
abbrev S6x32 : Shape := ⟨2, ![6, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x2500000 : Shape := ⟨2, ![1, 2500000]⟩
abbrev S2500000 : Shape := ⟨1, ![2500000]⟩
abbrev S_ : Shape := ⟨0, ![]⟩
abbrev S2500000x1 : Shape := ⟨2, ![2500000, 1]⟩
abbrev S2500000x6 : Shape := ⟨2, ![2500000, 6]⟩
abbrev S250000x32 : Shape := ⟨2, ![250000, 32]⟩
abbrev S1x32 : Shape := ⟨2, ![1, 32]⟩
abbrev S2500000x32 : Shape := ⟨2, ![2500000, 32]⟩
abbrev S512x32 : Shape := ⟨2, ![512, 32]⟩
abbrev S250000x1 : Shape := ⟨2, ![250000, 1]⟩
abbrev S512 : Shape := ⟨1, ![512]⟩
abbrev S512x1 : Shape := ⟨2, ![512, 1]⟩
abbrev S512x16 : Shape := ⟨2, ![512, 16]⟩
abbrev S1x16 : Shape := ⟨2, ![1, 16]⟩
abbrev S1x1 : Shape := ⟨2, ![1, 1]⟩

abbrev nBuf : Space → Nat
  | .hbm => 388
  | .vmem => 0
  | .smem => 0
  | _ => 0

abbrev hbmTy0_0 (i : Nat) : BufTy := match i % 128 with
  | 0 => ⟨S250000x6, .f32⟩
  | 1 => ⟨S2x2500000, .i32⟩
  | 2 => ⟨S250000, .i32⟩
  | 3 => ⟨S6x32, .f32⟩
  | 4 => ⟨S32, .f32⟩
  | 5 => ⟨S32x32, .f32⟩
  | 6 => ⟨S32, .f32⟩
  | 7 => ⟨S6x32, .f32⟩
  | 8 => ⟨S32, .f32⟩
  | 9 => ⟨S32x32, .f32⟩
  | 10 => ⟨S32, .f32⟩
  | 11 => ⟨S32, .f32⟩
  | 12 => ⟨S32, .f32⟩
  | 13 => ⟨S32x32, .f32⟩
  | 14 => ⟨S32, .f32⟩
  | 15 => ⟨S32x32, .f32⟩
  | 16 => ⟨S32, .f32⟩
  | 17 => ⟨S32x32, .f32⟩
  | 18 => ⟨S32, .f32⟩
  | 19 => ⟨S32x32, .f32⟩
  | 20 => ⟨S32, .f32⟩
  | 21 => ⟨S32, .f32⟩
  | 22 => ⟨S32, .f32⟩
  | 23 => ⟨S32x32, .f32⟩
  | 24 => ⟨S32, .f32⟩
  | 25 => ⟨S32x32, .f32⟩
  | 26 => ⟨S32, .f32⟩
  | 27 => ⟨S32x32, .f32⟩
  | 28 => ⟨S32, .f32⟩
  | 29 => ⟨S32x32, .f32⟩
  | 30 => ⟨S32, .f32⟩
  | 31 => ⟨S32, .f32⟩
  | 32 => ⟨S32, .f32⟩
  | 33 => ⟨S32x16, .f32⟩
  | 34 => ⟨S16, .f32⟩
  | 35 => ⟨S16x1, .f32⟩
  | 36 => ⟨S1, .f32⟩
  | 37 => ⟨S1x2500000, .i32⟩
  | 38 => ⟨S2500000, .i32⟩
  | 39 => ⟨S1x2500000, .i32⟩
  | 40 => ⟨S2500000, .i32⟩
  | 41 => ⟨S_, .i32⟩
  | 42 => ⟨S2500000, .i32⟩
  | 43 => ⟨S2500000, .i1⟩
  | 44 => ⟨S_, .i32⟩
  | 45 => ⟨S2500000, .i32⟩
  | 46 => ⟨S2500000, .i32⟩
  | 47 => ⟨S2500000, .i32⟩
  | 48 => ⟨S2500000x1, .i32⟩
  | 49 => ⟨S2500000x6, .f32⟩
  | 50 => ⟨S_, .f32⟩
  | 51 => ⟨S250000x6, .f32⟩
  | 52 => ⟨S2500000x1, .i32⟩
  | 53 => ⟨S250000x6, .f32⟩
  | 54 => ⟨S250000x6, .f32⟩
  | 55 => ⟨S250000x32, .f32⟩
  | 56 => ⟨S1x32, .f32⟩
  | 57 => ⟨S250000x32, .f32⟩
  | 58 => ⟨S250000x32, .f32⟩
  | 59 => ⟨S_, .f32⟩
  | 60 => ⟨S250000x32, .f32⟩
  | 61 => ⟨S250000x32, .f32⟩
  | 62 => ⟨S250000x32, .f32⟩
  | 63 => ⟨S1x32, .f32⟩
  | 64 => ⟨S250000x32, .f32⟩
  | 65 => ⟨S250000x32, .f32⟩
  | 66 => ⟨S_, .f32⟩
  | 67 => ⟨S250000x32, .f32⟩
  | 68 => ⟨S250000x32, .f32⟩
  | 69 => ⟨S_, .i32⟩
  | 70 => ⟨S2500000, .i32⟩
  | 71 => ⟨S2500000, .i1⟩
  | 72 => ⟨S_, .i32⟩
  | 73 => ⟨S2500000, .i32⟩
  | 74 => ⟨S2500000, .i32⟩
  | 75 => ⟨S2500000, .i32⟩
  | 76 => ⟨S2500000x1, .i32⟩
  | 77 => ⟨S2500000x6, .f32⟩
  | 78 => ⟨S_, .f32⟩
  | 79 => ⟨S250000x6, .f32⟩
  | 80 => ⟨S2500000x1, .i32⟩
  | 81 => ⟨S250000x6, .f32⟩
  | 82 => ⟨S250000x6, .f32⟩
  | 83 => ⟨S250000x32, .f32⟩
  | 84 => ⟨S1x32, .f32⟩
  | 85 => ⟨S250000x32, .f32⟩
  | 86 => ⟨S250000x32, .f32⟩
  | 87 => ⟨S_, .f32⟩
  | 88 => ⟨S250000x32, .f32⟩
  | 89 => ⟨S250000x32, .f32⟩
  | 90 => ⟨S250000x32, .f32⟩
  | 91 => ⟨S1x32, .f32⟩
  | 92 => ⟨S250000x32, .f32⟩
  | 93 => ⟨S250000x32, .f32⟩
  | 94 => ⟨S_, .f32⟩
  | 95 => ⟨S250000x32, .f32⟩
  | 96 => ⟨S250000x32, .f32⟩
  | 97 => ⟨S250000x32, .f32⟩
  | 98 => ⟨S_, .f32⟩
  | 99 => ⟨S250000x32, .f32⟩
  | 100 => ⟨S250000x32, .f32⟩
  | 101 => ⟨S_, .f32⟩
  | 102 => ⟨S32, .f32⟩
  | 103 => ⟨S_, .f32⟩
  | 104 => ⟨S32, .f32⟩
  | 105 => ⟨S32, .f32⟩
  | 106 => ⟨S_, .i32⟩
  | 107 => ⟨S_, .f32⟩
  | 108 => ⟨S32, .f32⟩
  | 109 => ⟨S1x32, .f32⟩
  | 110 => ⟨S_, .f32⟩
  | 111 => ⟨S1x32, .f32⟩
  | 112 => ⟨S1x32, .f32⟩
  | 113 => ⟨S250000x32, .f32⟩
  | 114 => ⟨S250000x32, .f32⟩
  | 115 => ⟨S250000x32, .f32⟩
  | 116 => ⟨S_, .f32⟩
  | 117 => ⟨S_, .f32⟩
  | 118 => ⟨S_, .f32⟩
  | 119 => ⟨S_, .f32⟩
  | 120 => ⟨S32, .f32⟩
  | 121 => ⟨S32, .f32⟩
  | 122 => ⟨S32, .f32⟩
  | 123 => ⟨S_, .f32⟩
  | 124 => ⟨S_, .i1⟩
  | 125 => ⟨S_, .f32⟩
  | 126 => ⟨S_, .f32⟩
  | 127 => ⟨S32, .f32⟩
  | _ => ⟨S250000x6, .f32⟩

abbrev hbmTy0_1 (i : Nat) : BufTy := match i % 128 with
  | 0 => ⟨S32, .f32⟩
  | 1 => ⟨S1x32, .f32⟩
  | 2 => ⟨S250000x32, .f32⟩
  | 3 => ⟨S250000x32, .f32⟩
  | 4 => ⟨S_, .f32⟩
  | 5 => ⟨S32, .f32⟩
  | 6 => ⟨S32, .f32⟩
  | 7 => ⟨S32, .f32⟩
  | 8 => ⟨S1x32, .f32⟩
  | 9 => ⟨S250000x32, .f32⟩
  | 10 => ⟨S250000x32, .f32⟩
  | 11 => ⟨S1x32, .f32⟩
  | 12 => ⟨S250000x32, .f32⟩
  | 13 => ⟨S250000x32, .f32⟩
  | 14 => ⟨S1x32, .f32⟩
  | 15 => ⟨S250000x32, .f32⟩
  | 16 => ⟨S250000x32, .f32⟩
  | 17 => ⟨S_, .i32⟩
  | 18 => ⟨S2500000, .i32⟩
  | 19 => ⟨S2500000, .i1⟩
  | 20 => ⟨S_, .i32⟩
  | 21 => ⟨S2500000, .i32⟩
  | 22 => ⟨S2500000, .i32⟩
  | 23 => ⟨S2500000, .i32⟩
  | 24 => ⟨S2500000x1, .i32⟩
  | 25 => ⟨S2500000x32, .f32⟩
  | 26 => ⟨S_, .f32⟩
  | 27 => ⟨S250000x32, .f32⟩
  | 28 => ⟨S2500000x1, .i32⟩
  | 29 => ⟨S250000x32, .f32⟩
  | 30 => ⟨S250000x32, .f32⟩
  | 31 => ⟨S250000x32, .f32⟩
  | 32 => ⟨S1x32, .f32⟩
  | 33 => ⟨S250000x32, .f32⟩
  | 34 => ⟨S250000x32, .f32⟩
  | 35 => ⟨S_, .f32⟩
  | 36 => ⟨S250000x32, .f32⟩
  | 37 => ⟨S250000x32, .f32⟩
  | 38 => ⟨S250000x32, .f32⟩
  | 39 => ⟨S1x32, .f32⟩
  | 40 => ⟨S250000x32, .f32⟩
  | 41 => ⟨S250000x32, .f32⟩
  | 42 => ⟨S_, .f32⟩
  | 43 => ⟨S250000x32, .f32⟩
  | 44 => ⟨S250000x32, .f32⟩
  | 45 => ⟨S_, .i32⟩
  | 46 => ⟨S2500000, .i32⟩
  | 47 => ⟨S2500000, .i1⟩
  | 48 => ⟨S_, .i32⟩
  | 49 => ⟨S2500000, .i32⟩
  | 50 => ⟨S2500000, .i32⟩
  | 51 => ⟨S2500000, .i32⟩
  | 52 => ⟨S2500000x1, .i32⟩
  | 53 => ⟨S2500000x32, .f32⟩
  | 54 => ⟨S_, .f32⟩
  | 55 => ⟨S250000x32, .f32⟩
  | 56 => ⟨S2500000x1, .i32⟩
  | 57 => ⟨S250000x32, .f32⟩
  | 58 => ⟨S250000x32, .f32⟩
  | 59 => ⟨S250000x32, .f32⟩
  | 60 => ⟨S1x32, .f32⟩
  | 61 => ⟨S250000x32, .f32⟩
  | 62 => ⟨S250000x32, .f32⟩
  | 63 => ⟨S_, .f32⟩
  | 64 => ⟨S250000x32, .f32⟩
  | 65 => ⟨S250000x32, .f32⟩
  | 66 => ⟨S250000x32, .f32⟩
  | 67 => ⟨S1x32, .f32⟩
  | 68 => ⟨S250000x32, .f32⟩
  | 69 => ⟨S250000x32, .f32⟩
  | 70 => ⟨S_, .f32⟩
  | 71 => ⟨S250000x32, .f32⟩
  | 72 => ⟨S250000x32, .f32⟩
  | 73 => ⟨S250000x32, .f32⟩
  | 74 => ⟨S_, .f32⟩
  | 75 => ⟨S250000x32, .f32⟩
  | 76 => ⟨S250000x32, .f32⟩
  | 77 => ⟨S_, .f32⟩
  | 78 => ⟨S32, .f32⟩
  | 79 => ⟨S_, .f32⟩
  | 80 => ⟨S32, .f32⟩
  | 81 => ⟨S32, .f32⟩
  | 82 => ⟨S_, .i32⟩
  | 83 => ⟨S_, .f32⟩
  | 84 => ⟨S32, .f32⟩
  | 85 => ⟨S1x32, .f32⟩
  | 86 => ⟨S_, .f32⟩
  | 87 => ⟨S1x32, .f32⟩
  | 88 => ⟨S1x32, .f32⟩
  | 89 => ⟨S250000x32, .f32⟩
  | 90 => ⟨S250000x32, .f32⟩
  | 91 => ⟨S250000x32, .f32⟩
  | 92 => ⟨S_, .f32⟩
  | 93 => ⟨S_, .f32⟩
  | 94 => ⟨S_, .f32⟩
  | 95 => ⟨S_, .f32⟩
  | 96 => ⟨S32, .f32⟩
  | 97 => ⟨S32, .f32⟩
  | 98 => ⟨S32, .f32⟩
  | 99 => ⟨S_, .f32⟩
  | 100 => ⟨S_, .i1⟩
  | 101 => ⟨S_, .f32⟩
  | 102 => ⟨S_, .f32⟩
  | 103 => ⟨S32, .f32⟩
  | 104 => ⟨S32, .f32⟩
  | 105 => ⟨S1x32, .f32⟩
  | 106 => ⟨S250000x32, .f32⟩
  | 107 => ⟨S250000x32, .f32⟩
  | 108 => ⟨S_, .f32⟩
  | 109 => ⟨S32, .f32⟩
  | 110 => ⟨S32, .f32⟩
  | 111 => ⟨S32, .f32⟩
  | 112 => ⟨S1x32, .f32⟩
  | 113 => ⟨S250000x32, .f32⟩
  | 114 => ⟨S250000x32, .f32⟩
  | 115 => ⟨S1x32, .f32⟩
  | 116 => ⟨S250000x32, .f32⟩
  | 117 => ⟨S250000x32, .f32⟩
  | 118 => ⟨S1x32, .f32⟩
  | 119 => ⟨S250000x32, .f32⟩
  | 120 => ⟨S250000x32, .f32⟩
  | 121 => ⟨S_, .i32⟩
  | 122 => ⟨S2500000, .i32⟩
  | 123 => ⟨S2500000, .i1⟩
  | 124 => ⟨S_, .i32⟩
  | 125 => ⟨S2500000, .i32⟩
  | 126 => ⟨S2500000, .i32⟩
  | 127 => ⟨S2500000, .i32⟩
  | _ => ⟨S250000x6, .f32⟩

abbrev hbmTy0_2 (i : Nat) : BufTy := match i % 128 with
  | 0 => ⟨S2500000x1, .i32⟩
  | 1 => ⟨S2500000x32, .f32⟩
  | 2 => ⟨S_, .f32⟩
  | 3 => ⟨S250000x32, .f32⟩
  | 4 => ⟨S2500000x1, .i32⟩
  | 5 => ⟨S250000x32, .f32⟩
  | 6 => ⟨S250000x32, .f32⟩
  | 7 => ⟨S250000x32, .f32⟩
  | 8 => ⟨S1x32, .f32⟩
  | 9 => ⟨S250000x32, .f32⟩
  | 10 => ⟨S250000x32, .f32⟩
  | 11 => ⟨S_, .f32⟩
  | 12 => ⟨S250000x32, .f32⟩
  | 13 => ⟨S250000x32, .f32⟩
  | 14 => ⟨S250000x32, .f32⟩
  | 15 => ⟨S1x32, .f32⟩
  | 16 => ⟨S250000x32, .f32⟩
  | 17 => ⟨S250000x32, .f32⟩
  | 18 => ⟨S_, .f32⟩
  | 19 => ⟨S250000x32, .f32⟩
  | 20 => ⟨S250000x32, .f32⟩
  | 21 => ⟨S_, .i32⟩
  | 22 => ⟨S2500000, .i32⟩
  | 23 => ⟨S2500000, .i1⟩
  | 24 => ⟨S_, .i32⟩
  | 25 => ⟨S2500000, .i32⟩
  | 26 => ⟨S2500000, .i32⟩
  | 27 => ⟨S2500000, .i32⟩
  | 28 => ⟨S2500000x1, .i32⟩
  | 29 => ⟨S2500000x32, .f32⟩
  | 30 => ⟨S_, .f32⟩
  | 31 => ⟨S250000x32, .f32⟩
  | 32 => ⟨S2500000x1, .i32⟩
  | 33 => ⟨S250000x32, .f32⟩
  | 34 => ⟨S250000x32, .f32⟩
  | 35 => ⟨S250000x32, .f32⟩
  | 36 => ⟨S1x32, .f32⟩
  | 37 => ⟨S250000x32, .f32⟩
  | 38 => ⟨S250000x32, .f32⟩
  | 39 => ⟨S_, .f32⟩
  | 40 => ⟨S250000x32, .f32⟩
  | 41 => ⟨S250000x32, .f32⟩
  | 42 => ⟨S250000x32, .f32⟩
  | 43 => ⟨S1x32, .f32⟩
  | 44 => ⟨S250000x32, .f32⟩
  | 45 => ⟨S250000x32, .f32⟩
  | 46 => ⟨S_, .f32⟩
  | 47 => ⟨S250000x32, .f32⟩
  | 48 => ⟨S250000x32, .f32⟩
  | 49 => ⟨S250000x32, .f32⟩
  | 50 => ⟨S_, .f32⟩
  | 51 => ⟨S250000x32, .f32⟩
  | 52 => ⟨S250000x32, .f32⟩
  | 53 => ⟨S_, .f32⟩
  | 54 => ⟨S32, .f32⟩
  | 55 => ⟨S_, .f32⟩
  | 56 => ⟨S32, .f32⟩
  | 57 => ⟨S32, .f32⟩
  | 58 => ⟨S_, .i32⟩
  | 59 => ⟨S_, .f32⟩
  | 60 => ⟨S32, .f32⟩
  | 61 => ⟨S1x32, .f32⟩
  | 62 => ⟨S_, .f32⟩
  | 63 => ⟨S1x32, .f32⟩
  | 64 => ⟨S1x32, .f32⟩
  | 65 => ⟨S250000x32, .f32⟩
  | 66 => ⟨S250000x32, .f32⟩
  | 67 => ⟨S250000x32, .f32⟩
  | 68 => ⟨S_, .f32⟩
  | 69 => ⟨S_, .f32⟩
  | 70 => ⟨S_, .f32⟩
  | 71 => ⟨S_, .f32⟩
  | 72 => ⟨S32, .f32⟩
  | 73 => ⟨S32, .f32⟩
  | 74 => ⟨S32, .f32⟩
  | 75 => ⟨S_, .f32⟩
  | 76 => ⟨S_, .i1⟩
  | 77 => ⟨S_, .f32⟩
  | 78 => ⟨S_, .f32⟩
  | 79 => ⟨S32, .f32⟩
  | 80 => ⟨S32, .f32⟩
  | 81 => ⟨S1x32, .f32⟩
  | 82 => ⟨S250000x32, .f32⟩
  | 83 => ⟨S250000x32, .f32⟩
  | 84 => ⟨S_, .f32⟩
  | 85 => ⟨S32, .f32⟩
  | 86 => ⟨S32, .f32⟩
  | 87 => ⟨S32, .f32⟩
  | 88 => ⟨S1x32, .f32⟩
  | 89 => ⟨S250000x32, .f32⟩
  | 90 => ⟨S250000x32, .f32⟩
  | 91 => ⟨S1x32, .f32⟩
  | 92 => ⟨S250000x32, .f32⟩
  | 93 => ⟨S250000x32, .f32⟩
  | 94 => ⟨S1x32, .f32⟩
  | 95 => ⟨S250000x32, .f32⟩
  | 96 => ⟨S250000x32, .f32⟩
  | 97 => ⟨S_, .f32⟩
  | 98 => ⟨S512x32, .f32⟩
  | 99 => ⟨S250000x1, .i32⟩
  | 100 => ⟨S512x32, .f32⟩
  | 101 => ⟨S_, .f32⟩
  | 102 => ⟨S250000, .f32⟩
  | 103 => ⟨S_, .f32⟩
  | 104 => ⟨S512, .f32⟩
  | 105 => ⟨S250000x1, .i32⟩
  | 106 => ⟨S512, .f32⟩
  | 107 => ⟨S_, .f32⟩
  | 108 => ⟨S512, .f32⟩
  | 109 => ⟨S512, .f32⟩
  | 110 => ⟨S512x1, .f32⟩
  | 111 => ⟨S512x32, .f32⟩
  | 112 => ⟨S512x32, .f32⟩
  | 113 => ⟨S512x16, .f32⟩
  | 114 => ⟨S1x16, .f32⟩
  | 115 => ⟨S512x16, .f32⟩
  | 116 => ⟨S512x16, .f32⟩
  | 117 => ⟨S_, .f32⟩
  | 118 => ⟨S512x16, .f32⟩
  | 119 => ⟨S512x16, .f32⟩
  | 120 => ⟨S512x1, .f32⟩
  | 121 => ⟨S1x1, .f32⟩
  | 122 => ⟨S512x1, .f32⟩
  | 123 => ⟨S512x1, .f32⟩
  | 124 => ⟨S512x1, .f32⟩
  | 125 => ⟨S512x1, .f32⟩
  | 126 => ⟨S_, .f32⟩
  | 127 => ⟨S512x1, .f32⟩
  | _ => ⟨S250000x6, .f32⟩

abbrev hbmTy0_3 (i : Nat) : BufTy := match i % 128 with
  | 0 => ⟨S512x1, .f32⟩
  | 1 => ⟨S_, .f32⟩
  | 2 => ⟨S512x1, .f32⟩
  | 3 => ⟨S512x1, .f32⟩
  | _ => ⟨S250000x6, .f32⟩

abbrev hbmTy (i : Nat) : BufTy := match i / 128 with
  | 0 => hbmTy0_0 i
  | 1 => hbmTy0_1 i
  | 2 => hbmTy0_2 i
  | 3 => hbmTy0_3 i
  | _ => ⟨S250000x6, .f32⟩

abbrev bufTy : (tb : Table) → Fin (tcTables nBuf tb) → BufTy
  | .hbm, ⟨i, _⟩ => hbmTy i
  | _, _ => ⟨S250000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_c : Ref sig .tc := ⟨.hbm, 41, rfl⟩
abbrev main_v4 : Ref sig .tc := ⟨.hbm, 42, rfl⟩
abbrev main_v5 : Ref sig .tc := ⟨.hbm, 43, rfl⟩
abbrev main_c_0 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_cst_1 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_call0_cst : Ref sig .tc := ⟨.hbm, 66, rfl⟩
abbrev main_call0_v0 : Ref sig .tc := ⟨.hbm, 67, rfl⟩
abbrev main_v25 : Ref sig .tc := ⟨.hbm, 68, rfl⟩
abbrev main_c_2 : Ref sig .tc := ⟨.hbm, 69, rfl⟩
abbrev main_v26 : Ref sig .tc := ⟨.hbm, 70, rfl⟩
abbrev main_v27 : Ref sig .tc := ⟨.hbm, 71, rfl⟩
abbrev main_c_3 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_4 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_5 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_call1_cst : Ref sig .tc := ⟨.hbm, 94, rfl⟩
abbrev main_call1_v0 : Ref sig .tc := ⟨.hbm, 95, rfl⟩
abbrev main_v47 : Ref sig .tc := ⟨.hbm, 96, rfl⟩
abbrev main_v48 : Ref sig .tc := ⟨.hbm, 97, rfl⟩
abbrev main_cst_6 : Ref sig .tc := ⟨.hbm, 98, rfl⟩
abbrev main_v49 : Ref sig .tc := ⟨.hbm, 99, rfl⟩
abbrev main_v50 : Ref sig .tc := ⟨.hbm, 100, rfl⟩
abbrev main_cst_7 : Ref sig .tc := ⟨.hbm, 101, rfl⟩
abbrev main_v51 : Ref sig .tc := ⟨.hbm, 102, rfl⟩
abbrev main_cst_8 : Ref sig .tc := ⟨.hbm, 103, rfl⟩
abbrev main_v52 : Ref sig .tc := ⟨.hbm, 104, rfl⟩
abbrev main_v53 : Ref sig .tc := ⟨.hbm, 105, rfl⟩
abbrev main_c_9 : Ref sig .tc := ⟨.hbm, 106, rfl⟩
abbrev main_call2_cst : Ref sig .tc := ⟨.hbm, 107, rfl⟩
abbrev main_call2_v0 : Ref sig .tc := ⟨.hbm, 108, rfl⟩
abbrev main_call2_v1 : Ref sig .tc := ⟨.hbm, 109, rfl⟩
abbrev main_call2_cst_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_v6 : Ref sig .tc := ⟨.hbm, 115, rfl⟩
abbrev main_call2_v7 : Ref sig .tc := ⟨.hbm, 116, rfl⟩
abbrev main_call2_cst_1 : Ref sig .tc := ⟨.hbm, 117, rfl⟩
abbrev main_call2_v8 : Ref sig .tc := ⟨.hbm, 118, rfl⟩
abbrev main_call2_cst_2 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_cst_3 : Ref sig .tc := ⟨.hbm, 123, rfl⟩
abbrev main_call2_v12 : Ref sig .tc := ⟨.hbm, 124, rfl⟩
abbrev main_call2_cst_4 : Ref sig .tc := ⟨.hbm, 125, rfl⟩
abbrev main_call2_call0_v0 : Ref sig .tc := ⟨.hbm, 126, rfl⟩
abbrev main_call2_call0_v1 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_cst_10 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_c_11 : Ref sig .tc := ⟨.hbm, 145, rfl⟩
abbrev main_v70 : Ref sig .tc := ⟨.hbm, 146, rfl⟩
abbrev main_v71 : Ref sig .tc := ⟨.hbm, 147, rfl⟩
abbrev main_c_12 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_13 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_cst_14 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_call3_cst : Ref sig .tc := ⟨.hbm, 170, rfl⟩
abbrev main_call3_v0 : Ref sig .tc := ⟨.hbm, 171, rfl⟩
abbrev main_v91 : Ref sig .tc := ⟨.hbm, 172, rfl⟩
abbrev main_c_15 : Ref sig .tc := ⟨.hbm, 173, rfl⟩
abbrev main_v92 : Ref sig .tc := ⟨.hbm, 174, rfl⟩
abbrev main_v93 : Ref sig .tc := ⟨.hbm, 175, rfl⟩
abbrev main_c_16 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_cst_17 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_18 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_call4_cst : Ref sig .tc := ⟨.hbm, 198, rfl⟩
abbrev main_call4_v0 : Ref sig .tc := ⟨.hbm, 199, rfl⟩
abbrev main_v113 : Ref sig .tc := ⟨.hbm, 200, rfl⟩
abbrev main_v114 : Ref sig .tc := ⟨.hbm, 201, rfl⟩
abbrev main_cst_19 : Ref sig .tc := ⟨.hbm, 202, rfl⟩
abbrev main_v115 : Ref sig .tc := ⟨.hbm, 203, rfl⟩
abbrev main_v116 : Ref sig .tc := ⟨.hbm, 204, rfl⟩
abbrev main_cst_20 : Ref sig .tc := ⟨.hbm, 205, rfl⟩
abbrev main_v117 : Ref sig .tc := ⟨.hbm, 206, rfl⟩
abbrev main_cst_21 : Ref sig .tc := ⟨.hbm, 207, rfl⟩
abbrev main_v118 : Ref sig .tc := ⟨.hbm, 208, rfl⟩
abbrev main_v119 : Ref sig .tc := ⟨.hbm, 209, rfl⟩
abbrev main_c_22 : Ref sig .tc := ⟨.hbm, 210, rfl⟩
abbrev main_call5_cst : Ref sig .tc := ⟨.hbm, 211, rfl⟩
abbrev main_call5_v0 : Ref sig .tc := ⟨.hbm, 212, rfl⟩
abbrev main_call5_v1 : Ref sig .tc := ⟨.hbm, 213, rfl⟩
abbrev main_call5_cst_0 : Ref sig .tc := ⟨.hbm, 214, rfl⟩
abbrev main_call5_v2 : Ref sig .tc := ⟨.hbm, 215, rfl⟩
abbrev main_call5_v3 : Ref sig .tc := ⟨.hbm, 216, rfl⟩
abbrev main_call5_v4 : Ref sig .tc := ⟨.hbm, 217, rfl⟩
abbrev main_call5_v5 : Ref sig .tc := ⟨.hbm, 218, rfl⟩
abbrev main_call5_v6 : Ref sig .tc := ⟨.hbm, 219, rfl⟩
abbrev main_call5_v7 : Ref sig .tc := ⟨.hbm, 220, rfl⟩
abbrev main_call5_cst_1 : Ref sig .tc := ⟨.hbm, 221, rfl⟩
abbrev main_call5_v8 : Ref sig .tc := ⟨.hbm, 222, rfl⟩
abbrev main_call5_cst_2 : Ref sig .tc := ⟨.hbm, 223, rfl⟩
abbrev main_call5_v9 : Ref sig .tc := ⟨.hbm, 224, rfl⟩
abbrev main_call5_v10 : Ref sig .tc := ⟨.hbm, 225, rfl⟩
abbrev main_call5_v11 : Ref sig .tc := ⟨.hbm, 226, rfl⟩
abbrev main_call5_cst_3 : Ref sig .tc := ⟨.hbm, 227, rfl⟩
abbrev main_call5_v12 : Ref sig .tc := ⟨.hbm, 228, rfl⟩
abbrev main_call5_cst_4 : Ref sig .tc := ⟨.hbm, 229, rfl⟩
abbrev main_call5_call0_v0 : Ref sig .tc := ⟨.hbm, 230, rfl⟩
abbrev main_call5_call0_v1 : Ref sig .tc := ⟨.hbm, 231, rfl⟩
abbrev main_v120 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_cst_23 : Ref sig .tc := ⟨.hbm, 236, rfl⟩
abbrev main_v124 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_v131 : Ref sig .tc := ⟨.hbm, 244, rfl⟩
abbrev main_v132 : Ref sig .tc := ⟨.hbm, 245, rfl⟩
abbrev main_v133 : Ref sig .tc := ⟨.hbm, 246, rfl⟩
abbrev main_v134 : Ref sig .tc := ⟨.hbm, 247, rfl⟩
abbrev main_v135 : Ref sig .tc := ⟨.hbm, 248, rfl⟩
abbrev main_c_24 : Ref sig .tc := ⟨.hbm, 249, rfl⟩
abbrev main_v136 : Ref sig .tc := ⟨.hbm, 250, rfl⟩
abbrev main_v137 : Ref sig .tc := ⟨.hbm, 251, rfl⟩
abbrev main_c_25 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_cst_26 : Ref sig .tc := ⟨.hbm, 258, rfl⟩
abbrev main_v143 : Ref sig .tc := ⟨.hbm, 259, rfl⟩
abbrev main_v144 : Ref sig .tc := ⟨.hbm, 260, rfl⟩
abbrev main_v145 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_v149 : Ref sig .tc := ⟨.hbm, 265, rfl⟩
abbrev main_v150 : Ref sig .tc := ⟨.hbm, 266, rfl⟩
abbrev main_cst_27 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_call6_cst : Ref sig .tc := ⟨.hbm, 274, rfl⟩
abbrev main_call6_v0 : Ref sig .tc := ⟨.hbm, 275, rfl⟩
abbrev main_v157 : Ref sig .tc := ⟨.hbm, 276, rfl⟩
abbrev main_c_28 : Ref sig .tc := ⟨.hbm, 277, rfl⟩
abbrev main_v158 : Ref sig .tc := ⟨.hbm, 278, rfl⟩
abbrev main_v159 : Ref sig .tc := ⟨.hbm, 279, rfl⟩
abbrev main_c_29 : Ref sig .tc := ⟨.hbm, 280, rfl⟩
abbrev main_v160 : Ref sig .tc := ⟨.hbm, 281, rfl⟩
abbrev main_v161 : Ref sig .tc := ⟨.hbm, 282, rfl⟩
abbrev main_v162 : Ref sig .tc := ⟨.hbm, 283, rfl⟩
abbrev main_v163 : Ref sig .tc := ⟨.hbm, 284, rfl⟩
abbrev main_v164 : Ref sig .tc := ⟨.hbm, 285, rfl⟩
abbrev main_cst_30 : Ref sig .tc := ⟨.hbm, 286, rfl⟩
abbrev main_v165 : Ref sig .tc := ⟨.hbm, 287, rfl⟩
abbrev main_v166 : Ref sig .tc := ⟨.hbm, 288, rfl⟩
abbrev main_v167 : Ref sig .tc := ⟨.hbm, 289, rfl⟩
abbrev main_v168 : Ref sig .tc := ⟨.hbm, 290, rfl⟩
abbrev main_v169 : Ref sig .tc := ⟨.hbm, 291, rfl⟩
abbrev main_v170 : Ref sig .tc := ⟨.hbm, 292, rfl⟩
abbrev main_v171 : Ref sig .tc := ⟨.hbm, 293, rfl⟩
abbrev main_v172 : Ref sig .tc := ⟨.hbm, 294, rfl⟩
abbrev main_cst_31 : Ref sig .tc := ⟨.hbm, 295, rfl⟩
abbrev main_v173 : Ref sig .tc := ⟨.hbm, 296, rfl⟩
abbrev main_v174 : Ref sig .tc := ⟨.hbm, 297, rfl⟩
abbrev main_v175 : Ref sig .tc := ⟨.hbm, 298, rfl⟩
abbrev main_v176 : Ref sig .tc := ⟨.hbm, 299, rfl⟩
abbrev main_v177 : Ref sig .tc := ⟨.hbm, 300, rfl⟩
abbrev main_v178 : Ref sig .tc := ⟨.hbm, 301, rfl⟩
abbrev main_call7_cst : Ref sig .tc := ⟨.hbm, 302, rfl⟩
abbrev main_call7_v0 : Ref sig .tc := ⟨.hbm, 303, rfl⟩
abbrev main_v179 : Ref sig .tc := ⟨.hbm, 304, rfl⟩
abbrev main_v180 : Ref sig .tc := ⟨.hbm, 305, rfl⟩
abbrev main_cst_32 : Ref sig .tc := ⟨.hbm, 306, rfl⟩
abbrev main_v181 : Ref sig .tc := ⟨.hbm, 307, rfl⟩
abbrev main_v182 : Ref sig .tc := ⟨.hbm, 308, rfl⟩
abbrev main_cst_33 : Ref sig .tc := ⟨.hbm, 309, rfl⟩
abbrev main_v183 : Ref sig .tc := ⟨.hbm, 310, rfl⟩
abbrev main_cst_34 : Ref sig .tc := ⟨.hbm, 311, rfl⟩
abbrev main_v184 : Ref sig .tc := ⟨.hbm, 312, rfl⟩
abbrev main_v185 : Ref sig .tc := ⟨.hbm, 313, rfl⟩
abbrev main_c_35 : Ref sig .tc := ⟨.hbm, 314, rfl⟩
abbrev main_call8_cst : Ref sig .tc := ⟨.hbm, 315, rfl⟩
abbrev main_call8_v0 : Ref sig .tc := ⟨.hbm, 316, rfl⟩
abbrev main_call8_v1 : Ref sig .tc := ⟨.hbm, 317, rfl⟩
abbrev main_call8_cst_0 : Ref sig .tc := ⟨.hbm, 318, rfl⟩
abbrev main_call8_v2 : Ref sig .tc := ⟨.hbm, 319, rfl⟩
abbrev main_call8_v3 : Ref sig .tc := ⟨.hbm, 320, rfl⟩
abbrev main_call8_v4 : Ref sig .tc := ⟨.hbm, 321, rfl⟩
abbrev main_call8_v5 : Ref sig .tc := ⟨.hbm, 322, rfl⟩
abbrev main_call8_v6 : Ref sig .tc := ⟨.hbm, 323, rfl⟩
abbrev main_call8_v7 : Ref sig .tc := ⟨.hbm, 324, rfl⟩
abbrev main_call8_cst_1 : Ref sig .tc := ⟨.hbm, 325, rfl⟩
abbrev main_call8_v8 : Ref sig .tc := ⟨.hbm, 326, rfl⟩
abbrev main_call8_cst_2 : Ref sig .tc := ⟨.hbm, 327, rfl⟩
abbrev main_call8_v9 : Ref sig .tc := ⟨.hbm, 328, rfl⟩
abbrev main_call8_v10 : Ref sig .tc := ⟨.hbm, 329, rfl⟩
abbrev main_call8_v11 : Ref sig .tc := ⟨.hbm, 330, rfl⟩
abbrev main_call8_cst_3 : Ref sig .tc := ⟨.hbm, 331, rfl⟩
abbrev main_call8_v12 : Ref sig .tc := ⟨.hbm, 332, rfl⟩
abbrev main_call8_cst_4 : Ref sig .tc := ⟨.hbm, 333, rfl⟩
abbrev main_call8_call0_v0 : Ref sig .tc := ⟨.hbm, 334, rfl⟩
abbrev main_call8_call0_v1 : Ref sig .tc := ⟨.hbm, 335, rfl⟩
abbrev main_v186 : Ref sig .tc := ⟨.hbm, 336, rfl⟩
abbrev main_v187 : Ref sig .tc := ⟨.hbm, 337, rfl⟩
abbrev main_v188 : Ref sig .tc := ⟨.hbm, 338, rfl⟩
abbrev main_v189 : Ref sig .tc := ⟨.hbm, 339, rfl⟩
abbrev main_cst_36 : Ref sig .tc := ⟨.hbm, 340, rfl⟩
abbrev main_v190 : Ref sig .tc := ⟨.hbm, 341, rfl⟩
abbrev main_v191 : Ref sig .tc := ⟨.hbm, 342, rfl⟩
abbrev main_v192 : Ref sig .tc := ⟨.hbm, 343, rfl⟩
abbrev main_v193 : Ref sig .tc := ⟨.hbm, 344, rfl⟩
abbrev main_v194 : Ref sig .tc := ⟨.hbm, 345, rfl⟩
abbrev main_v195 : Ref sig .tc := ⟨.hbm, 346, rfl⟩
abbrev main_v196 : Ref sig .tc := ⟨.hbm, 347, rfl⟩
abbrev main_v197 : Ref sig .tc := ⟨.hbm, 348, rfl⟩
abbrev main_v198 : Ref sig .tc := ⟨.hbm, 349, rfl⟩
abbrev main_v199 : Ref sig .tc := ⟨.hbm, 350, rfl⟩
abbrev main_v200 : Ref sig .tc := ⟨.hbm, 351, rfl⟩
abbrev main_v201 : Ref sig .tc := ⟨.hbm, 352, rfl⟩
abbrev main_cst_37 : Ref sig .tc := ⟨.hbm, 353, rfl⟩
abbrev main_v202 : Ref sig .tc := ⟨.hbm, 354, rfl⟩
abbrev main_v203 : Ref sig .tc := ⟨.hbm, 355, rfl⟩
abbrev main_v204 : Ref sig .tc := ⟨.hbm, 356, rfl⟩
abbrev main_cst_38 : Ref sig .tc := ⟨.hbm, 357, rfl⟩
abbrev main_v205 : Ref sig .tc := ⟨.hbm, 358, rfl⟩
abbrev main_cst_39 : Ref sig .tc := ⟨.hbm, 359, rfl⟩
abbrev main_v206 : Ref sig .tc := ⟨.hbm, 360, rfl⟩
abbrev main_v207 : Ref sig .tc := ⟨.hbm, 361, rfl⟩
abbrev main_v208 : Ref sig .tc := ⟨.hbm, 362, rfl⟩
abbrev main_cst_40 : Ref sig .tc := ⟨.hbm, 363, rfl⟩
abbrev main_v209 : Ref sig .tc := ⟨.hbm, 364, rfl⟩
abbrev main_v210 : Ref sig .tc := ⟨.hbm, 365, rfl⟩
abbrev main_v211 : Ref sig .tc := ⟨.hbm, 366, rfl⟩
abbrev main_v212 : Ref sig .tc := ⟨.hbm, 367, rfl⟩
abbrev main_v213 : Ref sig .tc := ⟨.hbm, 368, rfl⟩
abbrev main_v214 : Ref sig .tc := ⟨.hbm, 369, rfl⟩
abbrev main_v215 : Ref sig .tc := ⟨.hbm, 370, rfl⟩
abbrev main_v216 : Ref sig .tc := ⟨.hbm, 371, rfl⟩
abbrev main_v217 : Ref sig .tc := ⟨.hbm, 372, rfl⟩
abbrev main_call9_cst : Ref sig .tc := ⟨.hbm, 373, rfl⟩
abbrev main_call9_v0 : Ref sig .tc := ⟨.hbm, 374, rfl⟩
abbrev main_v218 : Ref sig .tc := ⟨.hbm, 375, rfl⟩
abbrev main_v219 : Ref sig .tc := ⟨.hbm, 376, rfl⟩
abbrev main_v220 : Ref sig .tc := ⟨.hbm, 377, rfl⟩
abbrev main_v221 : Ref sig .tc := ⟨.hbm, 378, rfl⟩
abbrev main_v222 : Ref sig .tc := ⟨.hbm, 379, rfl⟩
abbrev main_v223 : Ref sig .tc := ⟨.hbm, 380, rfl⟩
abbrev main_v224 : Ref sig .tc := ⟨.hbm, 381, rfl⟩
abbrev main_cst_41 : Ref sig .tc := ⟨.hbm, 382, rfl⟩
abbrev main_v225 : Ref sig .tc := ⟨.hbm, 383, rfl⟩
abbrev main_v226 : Ref sig .tc := ⟨.hbm, 384, rfl⟩
abbrev main_cst_42 : Ref sig .tc := ⟨.hbm, 385, rfl⟩
abbrev main_v227 : Ref sig .tc := ⟨.hbm, 386, rfl⟩
abbrev main_v228 : Ref sig .tc := ⟨.hbm, 387, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S2500000_S2500000x1_0 : S2500000.BroadcastsInDim S2500000x1 (![0] : Fin 1 → Fin S2500000x1.rank)
  bcast_S_S250000x6 : S_.BroadcastsInDim S250000x6 (![] : Fin 0 → Fin S250000x6.rank)
  bcast_S32_S1x32_1 : S32.BroadcastsInDim S1x32 (![1] : Fin 1 → Fin S1x32.rank)
  bcast_S1x32_S250000x32_0_1 : S1x32.BroadcastsInDim S250000x32 (![0, 1] : Fin 2 → Fin S250000x32.rank)
  bcast_S_S250000x32 : S_.BroadcastsInDim S250000x32 (![] : Fin 0 → Fin S250000x32.rank)
  reducesTo_S250000x32_S32_d0 : S250000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bcast_S_S512x32 : S_.BroadcastsInDim S512x32 (![] : Fin 0 → Fin S512x32.rank)
  bcast_S250000_S250000x1_0 : S250000.BroadcastsInDim S250000x1 (![0] : Fin 1 → Fin S250000x1.rank)
  bcast_S_S250000 : S_.BroadcastsInDim S250000 (![] : Fin 0 → Fin S250000.rank)
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  bcast_S_S512x16 : S_.BroadcastsInDim S512x16 (![] : Fin 0 → Fin S512x16.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  gather_S250000x6_S2500000x1_S2500000x6_1_0_n_n_0_1_16_wf : GatherDims.WF S250000x6 S2500000x1 S2500000x6 [1] [0] [] [0] [] 1 ![1, 6]
  scatter_S250000x6_S2500000x1_S2500000x6_1_0_0_1_wf : ScatterDims.WF S250000x6 S2500000x1 S2500000x6 [1] [0] [0] 1
  dot_S250000x6_S6x32_S250000x32_1_0_0_1_n_n_wf : DotDims.WF S250000x6 S6x32 S250000x32 [1] [0] [0] [1] [] []
  dot_S250000x32_S32x32_S250000x32_1_0_0_1_n_n_wf : DotDims.WF S250000x32 S32x32 S250000x32 [1] [0] [0] [1] [] []
  gather_S250000x32_S2500000x1_S2500000x32_1_0_n_n_0_1_132_wf : GatherDims.WF S250000x32 S2500000x1 S2500000x32 [1] [0] [] [0] [] 1 ![1, 32]
  scatter_S250000x32_S2500000x1_S2500000x32_1_0_0_1_wf : ScatterDims.WF S250000x32 S2500000x1 S2500000x32 [1] [0] [0] 1
  scatter_S512x32_S250000x1_S250000x32_1_0_0_1_wf : ScatterDims.WF S512x32 S250000x1 S250000x32 [1] [0] [0] 1
  scatter_S512_S250000x1_S250000_n_0_0_1_wf : ScatterDims.WF S512 S250000x1 S250000 [] [0] [0] 1
  dot_S512x32_S32x16_S512x16_1_0_0_1_n_n_wf : DotDims.WF S512x32 S32x16 S512x16 [1] [0] [0] [1] [] []
  dot_S512x16_S16x1_S512x1_1_0_0_1_n_n_wf : DotDims.WF S512x16 S16x1 S512x1 [1] [0] [0] [1] [] []

variable [Facts₀]

def gather_S250000x6_S2500000x1_S2500000x6_1_0_n_n_0_1_16 : GatherDims S250000x6 S2500000x1 S2500000x6 where
  offsetDims := [1]
  collapsedSliceDims := [0]
  operandBatchingDims := []
  startIndicesBatchingDims := []
  startIndexMap := [0]
  indexVectorDim := 1
  sliceSizes := ![1, 6]
  wf := gather_S250000x6_S2500000x1_S2500000x6_1_0_n_n_0_1_16_wf
def scatter_S250000x6_S2500000x1_S2500000x6_1_0_0_1 : ScatterDims S250000x6 S2500000x1 S2500000x6 where
  updateWindowDims := [1]
  insertedWindowDims := [0]
  scatterDimsToOperandDims := [0]
  indexVectorDim := 1
  wf := scatter_S250000x6_S2500000x1_S2500000x6_1_0_0_1_wf
def dot_S250000x6_S6x32_S250000x32_1_0_0_1_n_n : DotDims S250000x6 S6x32 S250000x32 where
  lhsContracting := [1]
  rhsContracting := [0]
  lhsNonContracting := [0]
  rhsNonContracting := [1]
  lhsBatch := []
  rhsBatch := []
  wf := dot_S250000x6_S6x32_S250000x32_1_0_0_1_n_n_wf
def dot_S250000x32_S32x32_S250000x32_1_0_0_1_n_n : DotDims S250000x32 S32x32 S250000x32 where
  lhsContracting := [1]
  rhsContracting := [0]
  lhsNonContracting := [0]
  rhsNonContracting := [1]
  lhsBatch := []
  rhsBatch := []
  wf := dot_S250000x32_S32x32_S250000x32_1_0_0_1_n_n_wf
def gather_S250000x32_S2500000x1_S2500000x32_1_0_n_n_0_1_132 : GatherDims S250000x32 S2500000x1 S2500000x32 where
  offsetDims := [1]
  collapsedSliceDims := [0]
  operandBatchingDims := []
  startIndicesBatchingDims := []
  startIndexMap := [0]
  indexVectorDim := 1
  sliceSizes := ![1, 32]
  wf := gather_S250000x32_S2500000x1_S2500000x32_1_0_n_n_0_1_132_wf
def scatter_S250000x32_S2500000x1_S2500000x32_1_0_0_1 : ScatterDims S250000x32 S2500000x1 S2500000x32 where
  updateWindowDims := [1]
  insertedWindowDims := [0]
  scatterDimsToOperandDims := [0]
  indexVectorDim := 1
  wf := scatter_S250000x32_S2500000x1_S2500000x32_1_0_0_1_wf
def scatter_S512x32_S250000x1_S250000x32_1_0_0_1 : ScatterDims S512x32 S250000x1 S250000x32 where
  updateWindowDims := [1]
  insertedWindowDims := [0]
  scatterDimsToOperandDims := [0]
  indexVectorDim := 1
  wf := scatter_S512x32_S250000x1_S250000x32_1_0_0_1_wf
def scatter_S512_S250000x1_S250000_n_0_0_1 : ScatterDims S512 S250000x1 S250000 where
  updateWindowDims := []
  insertedWindowDims := [0]
  scatterDimsToOperandDims := [0]
  indexVectorDim := 1
  wf := scatter_S512_S250000x1_S250000_n_0_0_1_wf
def dot_S512x32_S32x16_S512x16_1_0_0_1_n_n : DotDims S512x32 S32x16 S512x16 where
  lhsContracting := [1]
  rhsContracting := [0]
  lhsNonContracting := [0]
  rhsNonContracting := [1]
  lhsBatch := []
  rhsBatch := []
  wf := dot_S512x32_S32x16_S512x16_1_0_0_1_n_n_wf
def dot_S512x16_S16x1_S512x1_1_0_0_1_n_n : DotDims S512x16 S16x1 S512x1 where
  lhsContracting := [1]
  rhsContracting := [0]
  lhsNonContracting := [0]
  rhsNonContracting := [1]
  lhsBatch := []
  rhsBatch := []
  wf := dot_S512x16_S16x1_S512x1_1_0_0_1_n_n_wf

class Facts : Prop extends Facts₀ where

variable [Facts]
-- ==== Proof.K.Segs.lean ====
import proofs.«427087_j34256659153343_2_alg».proof.Proof.K.RegionsVal

import Idealize.ShloMosaic.Lib.Pipeline.FrameBody

import Idealize.ShloMosaic.Lib.Pipeline.RegionsLoop

import Idealize.ShloMosaic.Lib.Pipeline.FrameSuffix

set_option maxRecDepth 1600

noncomputable section

namespace Cert.Kernel.Hand

open Cert.Kernel Cert.Kernel.Gen

open Idealize.ShloMosaic Idealize.ShloMosaic.TcCoe

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

abbrev TcVal (F : FTy → Type) : Type := (c : Dev nD) → (b : Ref sig .tc) → Buf (Elt F) ((c : Thread nD τ).loc b)

structure RegionData (cfg : Pipeline.Cfg sig Λ₀) where
  dat : TcVal F → (c : Dev nD) → Dat τ (Elt F) Unit ℕ (UR sig nD τ) ℕ cfg c
  A_eq : ∀ (V : TcVal F) (c : Dev nD) (w : Fin cfg.W), (dat V c).A w = V c (Pipeline.arrRef cfg.spec w)
  q_eq : ∀ (V : TcVal F) (c : Dev nD) (w : Fin cfg.W), (dat V c).q w = fullShare
  owed_eq : ∀ (V : TcVal F) (c : Dev nD) t, (dat V c).owed t = 0
  recorded_eq : ∀ (V : TcVal F) (c : Dev nD) t, (dat V c).recorded t = Set.univ
  body : ∀ (V : TcVal F) (c : Dev nD), BodyObligation (dat V c) (defs₀ (F := F)) Variants.none () Set.univ
  hin : ∀ (V : TcVal F) (c : Dev nD), (iprop((∃ r, prngReg c r) ∗ Pipeline.scopedRest cfg.spec c) : sProp 𝕄) ⊢ (dat V c).Φ 0
  hout : ∀ (V : TcVal F) (c : Dev nD), (dat V c).Φ (Fin.last cfg.N) ⊢ (iprop((∃ r, prngReg c r) ∗ Pipeline.scopedRest cfg.spec c) : sProp 𝕄)

section Region

variable {cfg : Pipeline.Cfg sig Λ₀} (d : RegionData (F := F) cfg) (V : Dev nD → Valuation τ sig (Elt F))
  (hinj : Function.Injective (Pipeline.arrRef cfg.spec))

abbrev tcOf : TcVal F := fun c b => V c b

def RegionData.out (c : Dev nD) : Valuation τ sig (Elt F) :=
  Pipeline.withArrays cfg.spec c (V c) fun w => (d.dat (tcOf V) c).arrAt w cfg.N

-- writing X's own values at the references of l over V gives X, when X is V off l
theorem foldl_update_eq (X : Valuation τ sig (Elt F)) : ∀ (l : List (Ref sig .tc)) (V : Valuation τ sig (Elt F)),
    (∀ b, (∀ r ∈ l, b ≠ Proc.devRef .tc r) → X b = V b) →
    l.foldl (fun V r => Function.update V (Proc.devRef .tc r) (X (Proc.devRef .tc r))) V = X
  | [], V, h => funext fun b => (h b fun _ hr => nomatch hr).symm
  | a :: l, V, h => foldl_update_eq X l _ fun b hb => by
      by_cases e : b = Proc.devRef .tc a
      · subst e; exact (Function.update_self _ _ V).symm
      · exact (h b (List.forall_mem_cons.2 ⟨e, hb⟩)).trans (Function.update_of_ne e _ V).symm

include hinj

theorem RegionData.out_arr (c : Dev nD) (w : Fin cfg.W) :
    d.out V c (Proc.devRef .tc (Pipeline.arrRef cfg.spec w)) = (d.dat (tcOf V) c).arrAt w cfg.N :=
  Pipeline.withArrays_arr cfg.spec hinj c _ _ w

-- off the arrays nothing changes, and an input array keeps its entry contents
theorem RegionData.out_keep {l : List (Ref sig .tc)} (hl : ∀ w, (cfg.win w).isOut = true → Pipeline.arrRef cfg.spec w ∈ l)
    (c : Dev nD) (b : DevRef τ sig) (hb : ∀ r ∈ l, b ≠ Proc.devRef .tc r) : d.out V c b = V c b := by
  by_cases h : ∃ w, Proc.devRef .tc (Pipeline.arrRef cfg.spec w) = b
  · obtain ⟨w, rfl⟩ := h
    cases hw : (cfg.win w).isOut
    · exact (d.out_arr V hinj c w).trans (((d.dat _ c).arrAt_in w hw _).trans (d.A_eq _ c w))
    · exact absurd rfl (hb _ (hl w hw))
  · unfold RegionData.out Pipeline.withArrays; rw [dif_neg h]

theorem RegionData.out_of_not_mem {l : List (Ref sig .tc)} (hl : ∀ w, (cfg.win w).isOut = true → Pipeline.arrRef cfg.spec w ∈ l)
    (c : Dev nD) (r : Ref sig .tc) (h : r ∉ l) : d.out V c (Proc.devRef .tc r) = V c (Proc.devRef .tc r) :=
  d.out_keep V hinj hl c _ fun a ha e => h (Proc.devRef_injective _ e ▸ ha)

theorem RegionData.upd_eq (l : List (Ref sig .tc)) (hl : ∀ w, (cfg.win w).isOut = true → Pipeline.arrRef cfg.spec w ∈ l)
    (c : Dev nD) (V' : Valuation τ sig (Elt F)) (h : V' = V c) :
    l.foldl (fun X r => Function.update X (Proc.devRef .tc r) (d.out V c (Proc.devRef .tc r))) V' = d.out V c := by
  subst h; exact foldl_update_eq _ l _ (d.out_keep V hinj hl c)

end Region

variable (d0 : RegionData (F := F) cfg0) (d1 : RegionData (F := F) cfg1) (d2 : RegionData (F := F) cfg2) (d3 : RegionData (F := F) cfg3)
  (d4 : RegionData (F := F) cfg4) (d5 : RegionData (F := F) cfg5) (d6 : RegionData (F := F) cfg6)

variable (m : (ℓ : Loc nD τ sig) → Buf (Elt F) ℓ)

abbrev W1 (c : Dev nD) : Valuation τ sig (Elt F) := StableHlo.after hostOps0 (fun b => m (c, b))

abbrev In0 : TcVal F := fun c b => W1 m c b

def W2 (c : Dev nD) : Valuation τ sig (Elt F) := d0.out (W1 m) c

abbrev W3 (c : Dev nD) : Valuation τ sig (Elt F) := StableHlo.after hostOps1 (W2 d0 m c)

abbrev In1 : TcVal F := fun c b => W3 d0 m c b

def W4 (c : Dev nD) : Valuation τ sig (Elt F) := d1.out (W3 d0 m) c

abbrev W5 (c : Dev nD) : Valuation τ sig (Elt F) := StableHlo.after hostOps2 (W4 d0 d1 m c)

abbrev In2 : TcVal F := fun c b => W5 d0 d1 m c b

def W6 (c : Dev nD) : Valuation τ sig (Elt F) := d2.out (W5 d0 d1 m) c

abbrev W7 (c : Dev nD) : Valuation τ sig (Elt F) := StableHlo.after hostOps3 (W6 d0 d1 d2 m c)

abbrev In3 : TcVal F := fun c b => W7 d0 d1 d2 m c b

def W8 (c : Dev nD) : Valuation τ sig (Elt F) := d3.out (W7 d0 d1 d2 m) c

abbrev W9 (c : Dev nD) : Valuation τ sig (Elt F) := StableHlo.after hostOps4 (W8 d0 d1 d2 d3 m c)

abbrev In4 : TcVal F := fun c b => W9 d0 d1 d2 d3 m c b

def W10 (c : Dev nD) : Valuation τ sig (Elt F) := d4.out (W9 d0 d1 d2 d3 m) c

abbrev W11 (c : Dev nD) : Valuation τ sig (Elt F) := StableHlo.after hostOps5 (W10 d0 d1 d2 d3 d4 m c)

abbrev In5 : TcVal F := fun c b => W11 d0 d1 d2 d3 d4 m c b

def W12 (c : Dev nD) : Valuation τ sig (Elt F) := d5.out (W11 d0 d1 d2 d3 d4 m) c

abbrev W13 (c : Dev nD) : Valuation τ sig (Elt F) := StableHlo.after hostOps6 (W12 d0 d1 d2 d3 d4 d5 m c)

abbrev In6 : TcVal F := fun c b => W13 d0 d1 d2 d3 d4 d5 m c b

def W14 (c : Dev nD) : Valuation τ sig (Elt F) := d6.out (W13 d0 d1 d2 d3 d4 d5 m) c

def outs : Outs (F := F) := fun J r c => match J with
  | 2 => W2 d0 m c r
  | 4 => W4 d0 d1 m c r
  | 6 => W6 d0 d1 d2 m c r
  | 8 => W8 d0 d1 d2 d3 m c r
  | 10 => W10 d0 d1 d2 d3 d4 m c r
  | 12 => W12 d0 d1 d2 d3 d4 d5 m c r
  | 14 => W14 d0 d1 d2 d3 d4 d5 d6 m c r
  | _ => W1 m c r

theorem W2_arr (c : Dev nD) (w : Fin cfg0.W) :
    W2 d0 m c (Proc.devRef .tc (Pipeline.arrRef spec0 w)) = (d0.dat (In0 m) c).arrAt w cfg0.N :=
  d0.out_arr (W1 m) launch0.win.arr_inj c w

theorem W2_keep (c : Dev nD) (r : Ref sig .tc) (h : r ∉ ([main_v28_0, main_v28_1, main_v28_2] : List (Ref sig .tc))) :
    W2 d0 m c (Proc.devRef .tc r) = W1 m c (Proc.devRef .tc r) :=
  d0.out_of_not_mem (W1 m) launch0.win.arr_inj (by decide) c r h

theorem W4_arr (c : Dev nD) (w : Fin cfg1.W) :
    W4 d0 d1 m c (Proc.devRef .tc (Pipeline.arrRef spec1 w)) = (d1.dat (In1 d0 m) c).arrAt w cfg1.N :=
  d1.out_arr (W3 d0 m) launch1.win.arr_inj c w

theorem W4_keep (c : Dev nD) (r : Ref sig .tc) (h : r ∉ ([main_v37] : List (Ref sig .tc))) :
    W4 d0 d1 m c (Proc.devRef .tc r) = W3 d0 m c (Proc.devRef .tc r) :=
  d1.out_of_not_mem (W3 d0 m) launch1.win.arr_inj (by decide) c r h

theorem W6_arr (c : Dev nD) (w : Fin cfg2.W) :
    W6 d0 d1 d2 m c (Proc.devRef .tc (Pipeline.arrRef spec2 w)) = (d2.dat (In2 d0 d1 m) c).arrAt w cfg2.N :=
  d2.out_arr (W5 d0 d1 m) launch2.win.arr_inj c w

theorem W6_keep (c : Dev nD) (r : Ref sig .tc) (h : r ∉ ([main_v62_0, main_v62_1, main_v62_2] : List (Ref sig .tc))) :
    W6 d0 d1 d2 m c (Proc.devRef .tc r) = W5 d0 d1 m c (Proc.devRef .tc r) :=
  d2.out_of_not_mem (W5 d0 d1 m) launch2.win.arr_inj (by decide) c r h

theorem W8_arr (c : Dev nD) (w : Fin cfg3.W) :
    W8 d0 d1 d2 d3 m c (Proc.devRef .tc (Pipeline.arrRef spec3 w)) = (d3.dat (In3 d0 d1 d2 m) c).arrAt w cfg3.N :=
  d3.out_arr (W7 d0 d1 d2 m) launch3.win.arr_inj c w

theorem W8_keep (c : Dev nD) (r : Ref sig .tc) (h : r ∉ ([main_v71] : List (Ref sig .tc))) :
    W8 d0 d1 d2 d3 m c (Proc.devRef .tc r) = W7 d0 d1 d2 m c (Proc.devRef .tc r) :=
  d3.out_of_not_mem (W7 d0 d1 d2 m) launch3.win.arr_inj (by decide) c r h

theorem W10_arr (c : Dev nD) (w : Fin cfg4.W) :
    W10 d0 d1 d2 d3 d4 m c (Proc.devRef .tc (Pipeline.arrRef spec4 w)) = (d4.dat (In4 d0 d1 d2 d3 m) c).arrAt w cfg4.N :=
  d4.out_arr (W9 d0 d1 d2 d3 m) launch4.win.arr_inj c w

theorem W10_keep (c : Dev nD) (r : Ref sig .tc) (h : r ∉ ([main_v96_0, main_v96_1, main_v96_2] : List (Ref sig .tc))) :
    W10 d0 d1 d2 d3 d4 m c (Proc.devRef .tc r) = W9 d0 d1 d2 d3 m c (Proc.devRef .tc r) :=
  d4.out_of_not_mem (W9 d0 d1 d2 d3 m) launch4.win.arr_inj (by decide) c r h

theorem W12_arr (c : Dev nD) (w : Fin cfg5.W) :
    W12 d0 d1 d2 d3 d4 d5 m c (Proc.devRef .tc (Pipeline.arrRef spec5 w)) = (d5.dat (In5 d0 d1 d2 d3 d4 m) c).arrAt w cfg5.N :=
  d5.out_arr (W11 d0 d1 d2 d3 d4 m) launch5.win.arr_inj c w

theorem W12_keep (c : Dev nD) (r : Ref sig .tc) (h : r ∉ ([main_v105] : List (Ref sig .tc))) :
    W12 d0 d1 d2 d3 d4 d5 m c (Proc.devRef .tc r) = W11 d0 d1 d2 d3 d4 m c (Proc.devRef .tc r) :=
  d5.out_of_not_mem (W11 d0 d1 d2 d3 d4 m) launch5.win.arr_inj (by decide) c r h

theorem W14_arr (c : Dev nD) (w : Fin cfg6.W) :
    W14 d0 d1 d2 d3 d4 d5 d6 m c (Proc.devRef .tc (Pipeline.arrRef spec6 w)) = (d6.dat (In6 d0 d1 d2 d3 d4 d5 m) c).arrAt w cfg6.N :=
  d6.out_arr (W13 d0 d1 d2 d3 d4 d5 m) launch6.win.arr_inj c w

theorem V2_eq (c : Dev nD) : V2 m (outs d0 d1 d2 d3 d4 d5 d6 m) c = W2 d0 m c :=
  d0.upd_eq (W1 m) launch0.win.arr_inj [main_v28_0, main_v28_1, main_v28_2] (by decide) c _ rfl

theorem V4_eq (c : Dev nD) : V4 m (outs d0 d1 d2 d3 d4 d5 d6 m) c = W4 d0 d1 m c :=
  d1.upd_eq (W3 d0 m) launch1.win.arr_inj [main_v37] (by decide) c _ (congrArg (StableHlo.after hostOps1) (V2_eq d0 d1 d2 d3 d4 d5 d6 m c))

theorem V6_eq (c : Dev nD) : V6 m (outs d0 d1 d2 d3 d4 d5 d6 m) c = W6 d0 d1 d2 m c :=
  d2.upd_eq (W5 d0 d1 m) launch2.win.arr_inj [main_v62_0, main_v62_1, main_v62_2] (by decide) c _ (congrArg (StableHlo.after hostOps2) (V4_eq d0 d1 d2 d3 d4 d5 d6 m c))

theorem V8_eq (c : Dev nD) : V8 m (outs d0 d1 d2 d3 d4 d5 d6 m) c = W8 d0 d1 d2 d3 m c :=
  d3.upd_eq (W7 d0 d1 d2 m) launch3.win.arr_inj [main_v71] (by decide) c _ (congrArg (StableHlo.after hostOps3) (V6_eq d0 d1 d2 d3 d4 d5 d6 m c))

theorem V10_eq (c : Dev nD) : V10 m (outs d0 d1 d2 d3 d4 d5 d6 m) c = W10 d0 d1 d2 d3 d4 m c :=
  d4.upd_eq (W9 d0 d1 d2 d3 m) launch4.win.arr_inj [main_v96_0, main_v96_1, main_v96_2] (by decide) c _ (congrArg (StableHlo.after hostOps4) (V8_eq d0 d1 d2 d3 d4 d5 d6 m c))

theorem V12_eq (c : Dev nD) : V12 m (outs d0 d1 d2 d3 d4 d5 d6 m) c = W12 d0 d1 d2 d3 d4 d5 m c :=
  d5.upd_eq (W11 d0 d1 d2 d3 d4 m) launch5.win.arr_inj [main_v105] (by decide) c _ (congrArg (StableHlo.after hostOps5) (V10_eq d0 d1 d2 d3 d4 d5 d6 m c))

theorem V14_eq (c : Dev nD) : V14 m (outs d0 d1 d2 d3 d4 d5 d6 m) c = W14 d0 d1 d2 d3 d4 d5 d6 m c :=
  d6.upd_eq (W13 d0 d1 d2 d3 d4 d5 m) launch6.win.arr_inj [main_v109] (by decide) c _ (congrArg (StableHlo.after hostOps6) (V12_eq d0 d1 d2 d3 d4 d5 d6 m c))

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem owesAt_intro {cfg : Pipeline.Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, HO⟩; iexists W; isplitr
  · ipureintro; exact fun _ _ => Or.inl trivial
  iexact HO

theorem owesAt_elim {cfg : Pipeline.Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

section Seg

variable (ds : (p : Fin 7) → RegionData (F := F) (cfgs p)) (Ws : Fin 7 → Dev nD → Valuation τ sig (Elt F))

abbrev pdats (p : Fin 7) (c : Dev nD) : Dat τ (Elt F) Unit ℕ (UR sig nD τ) ℕ (cfgs p) c := (ds p).dat (tcOf (Ws p)) c

set_option backward.isDefEq.respectTransparency.types false in
-- region p between the core's buffers held at its entry valuation and at what it leaves
def seg (p : Fin 7) (lf : Pipeline.LaunchFacts (nD := nD) (τ := τ) cfgs p) :
    Pipeline.RegionSeg (pcfgs (F := F)) adm (pdats ds Ws) () defs₀ 𝒱₀ L lv p where
  win := lf.win.to₀
  block_pos := lf.block_pos
  stage_whole := lf.stage_whole
  K := PEmpty
  osem k := k.elim
  ho := Pipeline.OwnSemFacts.none _
  hbody c := ((ds p).body _ c).loose
  hwaits := Pipeline.hwaits_of_owed_zero _ _ _ _ L lv p fun c t => (ds p).owed_eq _ c t
  pre c := iprop(StableHlo.held (c : Thread nD τ) (Pipeline.ucRefs τ sig) (Ws p c) ∗ R c)
  post c := iprop(StableHlo.held (c : Thread nD τ) (Pipeline.ucRefs τ sig) ((ds p).out (Ws p) c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Ws p c b)
  hentry c := by
    rw [Pipeline.ownSems0_none]
    have hsplit := Pipeline.arrays_of_unscopedBufs (p := p) (pcfgs (F := F)) adm (pdats ds Ws) lf.win lf.arr_whole c
      ((pdats ds Ws p c).share_full fun w => (ds p).q_eq _ c w) (fun b => Ws p c b) fun w => (ds p).A_eq _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats ds Ws p c) 0 ((ds p).owed_eq _ c 0) ((ds p).recorded_eq _ c 0))
      iexact HO
    isplitl [Hp]; · iexact Hp
    iexact Hrest
  hin c := by
    refine BIBase.Entails.trans ?_ ((ds p).hin _ c)
    iintro ⟨Hp, -, Hr⟩
    isplitl [Hp]; · iexact Hp
    iexact Hr
  hout c := by
    rw [Pipeline.ownSems0_none]
    refine BIBase.Entails.trans ((ds p).hout _ c) ?_
    iintro ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats ds Ws) ((pdats ds Ws p c).share_full fun w => (ds p).q_eq _ c w)
      (fun b => Ws p c b) (fun b => (ds p).out (Ws p) c b) ((pdats ds Ws p c).arrAt · (cfgs p).N)
      (fun w => ((ds p).out_arr (Ws p) lf.win.arr_inj c w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats ds Ws p c) (Fin.last _) ((ds p).owed_eq _ c _))
    iexact HO

variable {ds Ws} in
theorem seg_pre {p lf} (c : Dev nD) {V : Valuation τ sig (Elt F)} (h : V = Ws p c) :
    iprop(StableHlo.held (c : Thread nD τ) (Pipeline.ucRefs τ sig) V ∗ R c) ⊢ (seg ds Ws p lf).pre c := by
  subst h; exact .rfl

variable {ds Ws} in
theorem seg_post {p lf} (c : Dev nD) {V : Valuation τ sig (Elt F)} (h : V = (ds p).out (Ws p) c) :
    (seg ds Ws p lf).post c ⊢ iprop(StableHlo.held (c : Thread nD τ) (Pipeline.ucRefs τ sig) V ∗ R c) := by
  subst h; exact .rfl

end Seg

abbrev dTab : (p : Fin 7) → RegionData (F := F) (cfgs p)
  | ⟨0, _⟩ => d0 | ⟨1, _⟩ => d1 | ⟨2, _⟩ => d2 | ⟨3, _⟩ => d3 | ⟨4, _⟩ => d4 | ⟨5, _⟩ => d5 | ⟨6, _⟩ => d6

abbrev WTab : Fin 7 → Dev nD → Valuation τ sig (Elt F)
  | ⟨0, _⟩ => W1 m | ⟨1, _⟩ => W3 d0 m | ⟨2, _⟩ => W5 d0 d1 m | ⟨3, _⟩ => W7 d0 d1 d2 m
  | ⟨4, _⟩ => W9 d0 d1 d2 d3 m | ⟨5, _⟩ => W11 d0 d1 d2 d3 d4 m | ⟨6, _⟩ => W13 d0 d1 d2 d3 d4 d5 m

theorem hu₀ : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

theorem hE7 (c : Dev nD) : R c ⊢ (iprop(∃ W, owes (c : Thread nD τ) (0 : CellTallies nD τ sig Unit) W) : sProp 𝕄) := by
  iintro ⟨-, H⟩; iexact H

theorem run_imp {Q Q' : PUnit × MemSt nD τ sig (Elt F) → Prop} (s : MemSt nD τ sig (Elt F)) (hQ : ∀ r, Q r → Q' r) :
    θ_run defs (onTc (τ := τ) (main (F := F))) s Q → θ_run defs (onTc (τ := τ) (main (F := F))) s Q' :=
  OrdCont.mono (θ_run defs (onTc (τ := τ) (main (F := F))) s) hQ

set_option backward.isDefEq.respectTransparency.types false in

theorem run_val (ρ : Dev nD → PrngReg) : θ_run defs (onTc (τ := τ) (main (F := F))) ⟨m, fun _ => 0, ρ⟩ (fun r => ∀ c : Dev nD,
      r.2.mem ((c.tc : Thread nD τ).loc main_v109) = W14 d0 d1 d2 d3 d4 d5 d6 m c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) := by
  have h := frame_cond_val m (emb₁ : Emb (UR sig nD τ) 𝕄) () 𝒱₀ L lv (fun _ _ => rfl) ρ (outs d0 d1 d2 d3 d4 d5 d6 m)
    (pdats (dTab d0 d1 d2 d3 d4 d5 d6) (WTab d0 d1 d2 d3 d4 d5 m))
    0 (fun _ => (BI.emp : sProp 𝕄)) (initOf (Pipeline.cells cfgs cellOf_inj) (Pipeline.launchToks cfgs cellOf_inj)) hu₀
    (fun _ c => R c) (hE0 ρ) hE7
    (seg _ _ 0 launch0) (fun c => seg_pre c rfl) (fun c => seg_post c (V2_eq d0 d1 d2 d3 d4 d5 d6 m c))
    (seg _ _ 1 launch1) (fun c => seg_pre c (congrArg (StableHlo.after hostOps1) (V2_eq d0 d1 d2 d3 d4 d5 d6 m c))) (fun c => seg_post c (V4_eq d0 d1 d2 d3 d4 d5 d6 m c))
    (seg _ _ 2 launch2) (fun c => seg_pre c (congrArg (StableHlo.after hostOps2) (V4_eq d0 d1 d2 d3 d4 d5 d6 m c))) (fun c => seg_post c (V6_eq d0 d1 d2 d3 d4 d5 d6 m c))
    (seg _ _ 3 launch3) (fun c => seg_pre c (congrArg (StableHlo.after hostOps3) (V6_eq d0 d1 d2 d3 d4 d5 d6 m c))) (fun c => seg_post c (V8_eq d0 d1 d2 d3 d4 d5 d6 m c))
    (seg _ _ 4 launch4) (fun c => seg_pre c (congrArg (StableHlo.after hostOps4) (V8_eq d0 d1 d2 d3 d4 d5 d6 m c))) (fun c => seg_post c (V10_eq d0 d1 d2 d3 d4 d5 d6 m c))
    (seg _ _ 5 launch5) (fun c => seg_pre c (congrArg (StableHlo.after hostOps5) (V10_eq d0 d1 d2 d3 d4 d5 d6 m c))) (fun c => seg_post c (V12_eq d0 d1 d2 d3 d4 d5 d6 m c))
    (seg _ _ 6 launch6) (fun c => seg_pre c (congrArg (StableHlo.after hostOps6) (V12_eq d0 d1 d2 d3 d4 d5 d6 m c))) (fun c => seg_post c (V14_eq d0 d1 d2 d3 d4 d5 d6 m c))
  exact run_imp _ (fun r hr c => ⟨(hr c).1.trans (congrFun (V14_eq d0 d1 d2 d3 d4 d5 d6 m c) _), (hr c).2⟩) h

include d0 d1 d2 d3 d4 d5 d6 in

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  run_imp _ (fun r h c => (h c).2) (run_val d0 d1 d2 d3 d4 d5 d6 m ρ)

end Cert.Kernel.Hand

end
-- ==== Proof.K.R0.lean ====
import proofs.«427087_j34256659153343_2_alg».proof.Proof.Gen.Kernel.Launch

import proofs.«427087_j34256659153343_2_alg».proof.Proof.Gen.Kernel.Skeleton

import proofs.«427087_j34256659153343_2_alg».proof.Proof.Gen.Kernel.Points

import Idealize.ShloMosaic.Lib.Pipeline.FrameBody

import Idealize.ShloMosaic.Lib.Pipeline.RegionsLoop

import Idealize.ShloMosaic.Lib.Pipeline.FrameSuffix

import Idealize.ShloMosaic.Lib.Ring

import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S10000x6 := Rect.unit (s := S10000x6) ![0, 0] S10000x6.size inb_S10000x6_S10000x6_0_0

abbrev rU0 : Rect S6x32 := Rect.unit (s := S6x32) ![0, 0] S6x32.size inb_S6x32_S6x32_0_0

abbrev rB0 : Rect S1x32 := Rect.unit (s := S1x32) ![0, 0] S1x32.size inb_S1x32_S1x32_0_0

abbrev rW0 : Rect S32x32 := Rect.unit (s := S32x32) ![0, 0] S32x32.size inb_S32x32_S32x32_0_0

abbrev rO0 : Rect S10000x32 := Rect.unit (s := S10000x32) ![0, 0] S10000x32.size inb_S10000x32_S10000x32_0_0

abbrev accS0M : Memref sig .tc .vmem S1x32 .f32 := Memref.whole cc0_scratch0

abbrev accQ0M : Memref sig .tc .vmem S1x32 .f32 := Memref.whole cc0_scratch1

structure Ins0 (F : FTy → Type) where
  x0 : Vec F S10000x6 .f32
  x1 : Vec F S10000x6 .f32
  x2 : Vec F S10000x6 .f32
  x3 : Vec F S6x32 .f32
  x4 : Vec F S1x32 .f32
  x5 : Vec F S32x32 .f32
  x6 : Vec F S1x32 .f32
  x7 : Vec F S6x32 .f32
  x8 : Vec F S1x32 .f32
  x9 : Vec F S32x32 .f32
  x10 : Vec F S1x32 .f32

def inAt0 (c : Dev nD) (t : Fin cfg0.N) : Ins0 F :=
  ⟨iblk0 V c 0 t, iblk0 V c 1 t, iblk0 V c 2 t, iblk0 V c 3 t, iblk0 V c 4 t, iblk0 V c 5 t, iblk0 V c 6 t, iblk0 V c 7 t, iblk0 V c 8 t, iblk0 V c 9 t, iblk0 V c 10 t⟩

def oval0 (X : Ins0 F) : Vec F S10000x32 .f32 :=
  k0_pay8 (k0_pay3 (View.ld X.x0 rX0) (View.ld X.x2 rX0)) (k0_pay4 (View.ld X.x7 rU0)) (k0_pay5 (View.ld X.x9 rW0))
    (k0_pay6 (View.ld X.x0 rX0) (View.ld X.x1 rX0) (View.ld X.x3 rU0) (View.ld X.x5 rW0) (View.ld X.x4 rB0) (View.ld X.x6 rB0))
    k0_pay7 (View.ld X.x8 rB0) (View.ld X.x10 rB0)

def sval0 (X : Ins0 F) (a : Vec F S1x32 .f32) : Vec F S1x32 .f32 :=
  k0_pay9 (k0_pay3 (View.ld X.x0 rX0) (View.ld X.x2 rX0)) (k0_pay4 (View.ld X.x7 rU0)) (k0_pay5 (View.ld X.x9 rW0))
    (k0_pay6 (View.ld X.x0 rX0) (View.ld X.x1 rX0) (View.ld X.x3 rU0) (View.ld X.x5 rW0) (View.ld X.x4 rB0) (View.ld X.x6 rB0))
    k0_pay7 (View.ld X.x8 rB0) (View.ld X.x10 rB0) a

def qval0 (X : Ins0 F) (a : Vec F S1x32 .f32) : Vec F S1x32 .f32 :=
  k0_pay10 (k0_pay3 (View.ld X.x0 rX0) (View.ld X.x2 rX0)) (k0_pay4 (View.ld X.x7 rU0)) (k0_pay5 (View.ld X.x9 rW0))
    (k0_pay6 (View.ld X.x0 rX0) (View.ld X.x1 rX0) (View.ld X.x3 rU0) (View.ld X.x5 rW0) (View.ld X.x4 rB0) (View.ld X.x6 rB0))
    k0_pay7 (View.ld X.x8 rB0) (View.ld X.x10 rB0) a

def out11_0 (X : Ins0 F) : Vec F S10000x32 .f32 := View.canon [⟨rO0, oval0 X⟩]

def sfirst0 (X : Ins0 F) : Vec F S1x32 .f32 :=
  View.canon [⟨rB0, sval0 X (accS0M.view.readCov [⟨rB0, k0_pay1⟩] rB0.toLoadRect)⟩, ⟨rB0, k0_pay1⟩]

def qfirst0 (X : Ins0 F) : Vec F S1x32 .f32 :=
  View.canon [⟨rB0, qval0 X (accQ0M.view.readCov [⟨rB0, k0_pay2⟩] rB0.toLoadRect)⟩, ⟨rB0, k0_pay2⟩]

def sstep0 (X : Ins0 F) (a : Vec F S1x32 .f32) : Vec F S1x32 .f32 := View.canon [⟨rB0, sval0 X (View.ld a rB0)⟩]

def qstep0 (X : Ins0 F) (a : Vec F S1x32 .f32) : Vec F S1x32 .f32 := View.canon [⟨rB0, qval0 X (View.ld a rB0)⟩]

def sout0 (X : Ins0 F) (a : Vec F S1x32 .f32) : Vec F S1x32 .f32 :=
  View.canon [⟨rB0, accS0M.view.readCov [⟨rB0, sval0 X (View.ld a rB0)⟩] rB0.toLoadRect⟩]

def qout0 (X : Ins0 F) (a : Vec F S1x32 .f32) : Vec F S1x32 .f32 :=
  View.canon [⟨rB0, accQ0M.view.readCov [⟨rB0, qval0 X (View.ld a rB0)⟩] rB0.toLoadRect⟩]

abbrev IsFirst0 (i : grid0.Coords) : Prop := Scalar.cmpi .ne (Scalar.extui (Scalar.cmpi .eq (BitVec.ofNat 32 (i 0).val) 0#32)) 0#32 = 1#1

abbrev IsLast0 (i : grid0.Coords) : Prop := k0_cond2 i = 1#1

theorem isFirst0_iff : ∀ t : Fin cfg0.N, IsFirst0 (grid0.coords t) ↔ t.val = 0 :=
  (by decide +kernel : ∀ t : Fin grid0.N, (Scalar.cmpi .ne (Scalar.extui (Scalar.cmpi .eq (BitVec.ofNat 32 ((grid0.coords t) 0).val) 0#32)) 0#32 = 1#1) ↔ t.val = 0)

theorem isLast0_iff : ∀ t : Fin cfg0.N, IsLast0 (grid0.coords t) ↔ t.val = 24 :=
  (by decide +kernel : ∀ t : Fin grid0.N, k0_cond2 (grid0.coords t) = 1#1 ↔ t.val = 24)

omit [FloatOps F] in
theorem coverB1_0 (p : Vec F S1x32 .f32) (y : S1x32.Idx) : ∃ pc ∈ ([⟨rB0, p⟩] : List (View.Piece (Elt F) S1x32 .f32)), y ∈ pc.1.set :=
  View.cover_of_tiled [⟨rB0, p⟩] S1x32.size (by rfl) y

omit [FloatOps F] in
theorem coverB2_0 (p q : Vec F S1x32 .f32) (y : S1x32.Idx) : ∃ pc ∈ ([⟨rB0, p⟩, ⟨rB0, q⟩] : List (View.Piece (Elt F) S1x32 .f32)), y ∈ pc.1.set :=
  View.cover_of_tiled [⟨rB0, p⟩, ⟨rB0, q⟩] S1x32.size (by rfl) y

omit [FloatOps F] in
theorem coverO_0 (p : Vec F S10000x32 .f32) (y : S10000x32.Idx) : ∃ pc ∈ ([⟨rO0, p⟩] : List (View.Piece (Elt F) S10000x32 .f32)), y ∈ pc.1.set :=
  View.cover_of_tiled [⟨rO0, p⟩] S10000x32.size (by rfl) y

section Runs

variable (c : Dev nD) (i : grid0.Coords) (M0 : Memref sig .tc .vmem S10000x6 .f32) (h0 : M0.IsWhole) (M1 : Memref sig .tc .vmem S10000x6 .f32) (h1 : M1.IsWhole) (M2 : Memref sig .tc .vmem S10000x6 .f32) (h2 : M2.IsWhole) (M3 : Memref sig .tc .vmem S6x32 .f32) (h3 : M3.IsWhole) (M4 : Memref sig .tc .vmem S1x32 .f32) (h4 : M4.IsWhole) (M5 : Memref sig .tc .vmem S32x32 .f32) (h5 : M5.IsWhole) (M6 : Memref sig .tc .vmem S1x32 .f32) (h6 : M6.IsWhole) (M7 : Memref sig .tc .vmem S6x32 .f32) (h7 : M7.IsWhole) (M8 : Memref sig .tc .vmem S1x32 .f32) (h8 : M8.IsWhole) (M9 : Memref sig .tc .vmem S32x32 .f32) (h9 : M9.IsWhole) (M10 : Memref sig .tc .vmem S1x32 .f32) (h10 : M10.IsWhole) (M11 : Memref sig .tc .vmem S10000x32 .f32) (h11 : M11.IsWhole) (M12 : Memref sig .tc .vmem S1x32 .f32) (h12 : M12.IsWhole) (M13 : Memref sig .tc .vmem S1x32 .f32) (h13 : M13.IsWhole)
  (x0 : Vec F S10000x6 .f32) (x1 : Vec F S10000x6 .f32) (x2 : Vec F S10000x6 .f32) (x3 : Vec F S6x32 .f32) (x4 : Vec F S1x32 .f32) (x5 : Vec F S32x32 .f32) (x6 : Vec F S1x32 .f32) (x7 : Vec F S6x32 .f32) (x8 : Vec F S1x32 .f32) (x9 : Vec F S32x32 .f32) (x10 : Vec F S1x32 .f32) (a b : Vec F S1x32 .f32)

local notation "BODY0" => cc0__gin_layer_kernel i M0 h0 M1 h1 M2 h2 M3 h3 M4 h4 M5 h5 M6 h6 M7 h7 M8 h8 M9 h9 M10 h10 M11 h11 M12 h12 M13 h13 (Memref.whole cc0_scratch0) (Memref.isWhole_whole _) (Memref.whole cc0_scratch1) (Memref.isWhole_whole _)

local notation "XX" => (Ins0.mk x0 x1 x2 x3 x4 x5 x6 x7 x8 x9 x10 : Ins0 F)

def ins0 : sProp 𝕄 :=
  iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10)

set_option maxHeartbeats 2000000 in
theorem run_first0 (hF : IsFirst0 i) (hL : ¬ IsLast0 i) (O1 O2 : sProp 𝕄) (Q : PUnit → sProp 𝕄) :
    iprop(ins0 c M0 M1 M2 M3 M4 M5 M6 M7 M8 M9 M10 x0 x1 x2 x3 x4 x5 x6 x7 x8 x9 x10 ∗ (∃ d, owns (c : Thread nD τ) M11 fullShare d) ∗ O1 ∗ O2
      ∗ (∃ a, owns (c : Thread nD τ) accS0M fullShare a) ∗ (∃ b, owns (c : Thread nD τ) accQ0M fullShare b)
      ∗ (iprop(ins0 c M0 M1 M2 M3 M4 M5 M6 M7 M8 M9 M10 x0 x1 x2 x3 x4 x5 x6 x7 x8 x9 x10 ∗ owns (c : Thread nD τ) M11 fullShare (out11_0 XX) ∗ O1 ∗ O2
          ∗ owns (c : Thread nD τ) accS0M fullShare (sfirst0 XX) ∗ owns (c : Thread nD τ) accQ0M fullShare (qfirst0 XX)) -∗ Q ⟨⟩))
      ⊢ wp frame (wpE (defs₀ (F := F)) Variants.none c none) Set.univ BODY0 Q := by
  unfold ins0 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, %hf11, H11⟩, HO1, HO2, ⟨%a', %fa, %hfa, Ha⟩, ⟨%b', %fb, %hfb, Hb⟩, Hk⟩
  subst hf0 hf1 hf2 hf3 hf4 hf5 hf6 hf7 hf8 hf9 hf10
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverO_0 _)
  isplitl [HO1]; · iexact HO1
  isplitl [HO2]; · iexact HO2
  isplitl [Ha]; · iexists _; isplitr; swap; (· iexact Ha); ipureintro; exact View.read_writes_eq_canon _ _ _ (coverB2_0 _ _)
  iexists _; isplitr; swap; (· iexact Hb); ipureintro; exact View.read_writes_eq_canon _ _ _ (coverB2_0 _ _)

set_option maxHeartbeats 2000000 in
theorem run_mid0 (hF : ¬ IsFirst0 i) (hL : ¬ IsLast0 i) (O1 O2 : sProp 𝕄) (Q : PUnit → sProp 𝕄) :
    iprop(ins0 c M0 M1 M2 M3 M4 M5 M6 M7 M8 M9 M10 x0 x1 x2 x3 x4 x5 x6 x7 x8 x9 x10 ∗ (∃ d, owns (c : Thread nD τ) M11 fullShare d) ∗ O1 ∗ O2
      ∗ owns (c : Thread nD τ) accS0M fullShare a ∗ owns (c : Thread nD τ) accQ0M fullShare b
      ∗ (iprop(ins0 c M0 M1 M2 M3 M4 M5 M6 M7 M8 M9 M10 x0 x1 x2 x3 x4 x5 x6 x7 x8 x9 x10 ∗ owns (c : Thread nD τ) M11 fullShare (out11_0 XX) ∗ O1 ∗ O2
          ∗ owns (c : Thread nD τ) accS0M fullShare (sstep0 XX a) ∗ owns (c : Thread nD τ) accQ0M fullShare (qstep0 XX b)) -∗ Q ⟨⟩))
      ⊢ wp frame (wpE (defs₀ (F := F)) Variants.none c none) Set.univ BODY0 Q := by
  unfold ins0 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, %hf11, H11⟩, HO1, HO2, ⟨%fa, %hfa, Ha⟩, ⟨%fb, %hfb, Hb⟩, Hk⟩
  subst hf0 hf1 hf2 hf3 hf4 hf5 hf6 hf7 hf8 hf9 hf10 hfa hfb
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverO_0 _)
  isplitl [HO1]; · iexact HO1
  isplitl [HO2]; · iexact HO2
  isplitl [Ha]; · iexists _; isplitr; swap; (· iexact Ha); ipureintro; exact View.read_writes_eq_canon _ _ _ (coverB1_0 _)
  iexists _; isplitr; swap; (· iexact Hb); ipureintro; exact View.read_writes_eq_canon _ _ _ (coverB1_0 _)

set_option maxHeartbeats 2000000 in
theorem run_last0 (hF : ¬ IsFirst0 i) (hL : IsLast0 i) (Q : PUnit → sProp 𝕄) :
    iprop(ins0 c M0 M1 M2 M3 M4 M5 M6 M7 M8 M9 M10 x0 x1 x2 x3 x4 x5 x6 x7 x8 x9 x10 ∗ (∃ d, owns (c : Thread nD τ) M11 fullShare d)
      ∗ (∃ d, owns (c : Thread nD τ) M12 fullShare d) ∗ (∃ d, owns (c : Thread nD τ) M13 fullShare d)
      ∗ owns (c : Thread nD τ) accS0M fullShare a ∗ owns (c : Thread nD τ) accQ0M fullShare b
      ∗ (iprop(ins0 c M0 M1 M2 M3 M4 M5 M6 M7 M8 M9 M10 x0 x1 x2 x3 x4 x5 x6 x7 x8 x9 x10 ∗ owns (c : Thread nD τ) M11 fullShare (out11_0 XX)
          ∗ owns (c : Thread nD τ) M12 fullShare (sout0 XX a) ∗ owns (c : Thread nD τ) M13 fullShare (qout0 XX b)
          ∗ owns (c : Thread nD τ) accS0M fullShare (sstep0 XX a) ∗ owns (c : Thread nD τ) accQ0M fullShare (qstep0 XX b)) -∗ Q ⟨⟩))
      ⊢ wp frame (wpE (defs₀ (F := F)) Variants.none c none) Set.univ BODY0 Q := by
  unfold ins0 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, %hf11, H11⟩, ⟨%d12, %f12, %hf12, H12⟩, ⟨%d13, %f13, %hf13, H13⟩, ⟨%fa, %hfa, Ha⟩, ⟨%fb, %hfb, Hb⟩, Hk⟩
  subst hf0 hf1 hf2 hf3 hf4 hf5 hf6 hf7 hf8 hf9 hf10 hfa hfb
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverO_0 _)
  isplitl [H12]; · iexists _; isplitr; swap; (· iexact H12); ipureintro; exact View.read_writes_eq_canon _ _ _ (coverB1_0 _)
  isplitl [H13]; · iexists _; isplitr; swap; (· iexact H13); ipureintro; exact View.read_writes_eq_canon _ _ _ (coverB1_0 _)
  isplitl [Ha]; · iexists _; isplitr; swap; (· iexact Ha); ipureintro; exact View.read_writes_eq_canon _ _ _ (coverB1_0 _)
  iexists _; isplitr; swap; (· iexact Hb); ipureintro; exact View.read_writes_eq_canon _ _ _ (coverB1_0 _)

end Runs

def accS0 (c : Dev nD) : (k : ℕ) → k < cfg0.N → Vec F S1x32 .f32
  | 0, hk => sfirst0 (inAt0 V c ⟨0, hk⟩)
  | k + 1, hk => sstep0 (inAt0 V c ⟨k + 1, hk⟩) (accS0 c k (Nat.lt_of_succ_lt hk))

def accQ0 (c : Dev nD) : (k : ℕ) → k < cfg0.N → Vec F S1x32 .f32
  | 0, hk => qfirst0 (inAt0 V c ⟨0, hk⟩)
  | k + 1, hk => qstep0 (inAt0 V c ⟨k + 1, hk⟩) (accQ0 c k (Nat.lt_of_succ_lt hk))

theorem accS0_first (c : Dev nD) (t : Fin cfg0.N) (h : t.val = 0) : accS0 V c t.val t.isLt = sfirst0 (inAt0 V c t) := by
  obtain ⟨_ | k, hk⟩ := t
  exacts [rfl, absurd h k.succ_ne_zero]

theorem accQ0_first (c : Dev nD) (t : Fin cfg0.N) (h : t.val = 0) : accQ0 V c t.val t.isLt = qfirst0 (inAt0 V c t) := by
  obtain ⟨_ | k, hk⟩ := t
  exacts [rfl, absurd h k.succ_ne_zero]

theorem accS0_step (c : Dev nD) (t : Fin cfg0.N) (h : t.val ≠ 0) (hp : t.val - 1 < cfg0.N) :
    accS0 V c t.val t.isLt = sstep0 (inAt0 V c t) (accS0 V c (t.val - 1) hp) := by
  obtain ⟨_ | k, hk⟩ := t
  exacts [absurd rfl h, rfl]

theorem accQ0_step (c : Dev nD) (t : Fin cfg0.N) (h : t.val ≠ 0) (hp : t.val - 1 < cfg0.N) :
    accQ0 V c t.val t.isLt = qstep0 (inAt0 V c t) (accQ0 V c (t.val - 1) hp) := by
  obtain ⟨_ | k, hk⟩ := t
  exacts [absurd rfl h, rfl]

abbrev befS0 (c : Dev nD) (t : Fin cfg0.N) (h : t.val ≠ 0) : Vec F S1x32 .f32 := accS0 V c (t.val - 1) (by have := t.isLt; omega)

abbrev befQ0 (c : Dev nD) (t : Fin cfg0.N) (h : t.val ≠ 0) : Vec F S1x32 .f32 := accQ0 V c (t.val - 1) (by have := t.isLt; omega)

def outS0 (c : Dev nD) (t : Fin cfg0.N) : Vec F S1x32 .f32 :=
  if h : t.val = 0 then k0_pay1 else sout0 (inAt0 V c t) (befS0 V c t h)

def outQ0 (c : Dev nD) (t : Fin cfg0.N) : Vec F S1x32 .f32 :=
  if h : t.val = 0 then k0_pay2 else qout0 (inAt0 V c t) (befQ0 V c t h)

def accPart0 (c : Dev nD) (k : Fin (cfg0.N + 1)) : sProp 𝕄 :=
  if h : k.val = 0 then iprop((∃ a, owns (c : Thread nD τ) accS0M fullShare a) ∗ (∃ b, owns (c : Thread nD τ) accQ0M fullShare b))
  else iprop(owns (c : Thread nD τ) accS0M fullShare (accS0 V c (k.val - 1) (by have := k.isLt; omega))
    ∗ owns (c : Thread nD τ) accQ0M fullShare (accQ0 V c (k.val - 1) (by have := k.isLt; omega)))

def Φ0 (c : Dev nD) (k : Fin (cfg0.N + 1)) : sProp 𝕄 :=
  iprop((∃ r, prngReg c r) ∗ accPart0 V c k ∗ Pipeline.scopedRestBut spec0 c [cc0_scratch0, cc0_scratch1])

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out11_0 (inAt0 V c t)
    | ⟨12, _⟩ => outS0 V c t
    | ⟨13, _⟩ => outQ0 V c t
  Φ k := Φ0 V c k
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := rfl

theorem after0_1 (c : Dev nD) (t : Fin cfg0.N) : (dat0 V c).after 1 t = iblk0 V c 1 t := rfl

theorem after0_2 (c : Dev nD) (t : Fin cfg0.N) : (dat0 V c).after 2 t = iblk0 V c 2 t := rfl

theorem after0_3 (c : Dev nD) (t : Fin cfg0.N) : (dat0 V c).after 3 t = iblk0 V c 3 t := rfl

theorem after0_4 (c : Dev nD) (t : Fin cfg0.N) : (dat0 V c).after 4 t = iblk0 V c 4 t := rfl

theorem after0_5 (c : Dev nD) (t : Fin cfg0.N) : (dat0 V c).after 5 t = iblk0 V c 5 t := rfl

theorem after0_6 (c : Dev nD) (t : Fin cfg0.N) : (dat0 V c).after 6 t = iblk0 V c 6 t := rfl

theorem after0_7 (c : Dev nD) (t : Fin cfg0.N) : (dat0 V c).after 7 t = iblk0 V c 7 t := rfl

theorem after0_8 (c : Dev nD) (t : Fin cfg0.N) : (dat0 V c).after 8 t = iblk0 V c 8 t := rfl

theorem after0_9 (c : Dev nD) (t : Fin cfg0.N) : (dat0 V c).after 9 t = iblk0 V c 9 t := rfl

theorem after0_10 (c : Dev nD) (t : Fin cfg0.N) : (dat0 V c).after 10 t = iblk0 V c 10 t := rfl

theorem after0_11 (c : Dev nD) (t : Fin cfg0.N) : (dat0 V c).after 11 t = out11_0 (inAt0 V c t) := by dsimp only [dat0]

theorem after0_12 (c : Dev nD) (t : Fin cfg0.N) : (dat0 V c).after 12 t = outS0 V c t := by dsimp only [dat0]

theorem after0_13 (c : Dev nD) (t : Fin cfg0.N) : (dat0 V c).after 13 t = outQ0 V c t := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

theorem before0_5 (c : Dev nD) (t : Fin cfg0.N) (d) : (dat0 V c).before 5 t d = iblk0 V c 5 t :=
  (dat0 V c).before_in_eq_fetched 5 rfl (fun _ => rfl) (fun _ _ _ => rfl) (fun _ => rfl) t d

theorem before0_6 (c : Dev nD) (t : Fin cfg0.N) (d) : (dat0 V c).before 6 t d = iblk0 V c 6 t :=
  (dat0 V c).before_in_eq_fetched 6 rfl (fun _ => rfl) (fun _ _ _ => rfl) (fun _ => rfl) t d

theorem before0_7 (c : Dev nD) (t : Fin cfg0.N) (d) : (dat0 V c).before 7 t d = iblk0 V c 7 t :=
  (dat0 V c).before_in_eq_fetched 7 rfl (fun _ => rfl) (fun _ _ _ => rfl) (fun _ => rfl) t d

theorem before0_8 (c : Dev nD) (t : Fin cfg0.N) (d) : (dat0 V c).before 8 t d = iblk0 V c 8 t :=
  (dat0 V c).before_in_eq_fetched 8 rfl (fun _ => rfl) (fun _ _ _ => rfl) (fun _ => rfl) t d

theorem before0_9 (c : Dev nD) (t : Fin cfg0.N) (d) : (dat0 V c).before 9 t d = iblk0 V c 9 t :=
  (dat0 V c).before_in_eq_fetched 9 rfl (fun _ => rfl) (fun _ _ _ => rfl) (fun _ => rfl) t d

theorem before0_10 (c : Dev nD) (t : Fin cfg0.N) (d) : (dat0 V c).before 10 t d = iblk0 V c 10 t :=
  (dat0 V c).before_in_eq_fetched 10 rfl (fun _ => rfl) (fun _ _ _ => rfl) (fun _ => rfl) t d

theorem Φ_eq0 (c : Dev nD) (k : Fin (cfg0.N + 1)) : (dat0 V c).Φ k = Φ0 V c k := by dsimp only [dat0]

theorem accPart0_pre_first (c : Dev nD) (t : Fin cfg0.N) (h : t.val = 0) :
    accPart0 V c t.castSucc = iprop((∃ a, owns (c : Thread nD τ) accS0M fullShare a) ∗ (∃ b, owns (c : Thread nD τ) accQ0M fullShare b)) := by
  unfold accPart0; rw [dif_pos (by exact h)]

theorem accPart0_pre_other (c : Dev nD) (t : Fin cfg0.N) (h : t.val ≠ 0) :
    accPart0 V c t.castSucc = iprop(owns (c : Thread nD τ) accS0M fullShare (befS0 V c t h) ∗ owns (c : Thread nD τ) accQ0M fullShare (befQ0 V c t h)) := by
  unfold accPart0; rw [dif_neg (by exact h)]; rfl

theorem accPart0_post (c : Dev nD) (t : Fin cfg0.N) :
    accPart0 V c t.succ = iprop(owns (c : Thread nD τ) accS0M fullShare (accS0 V c t.val t.isLt) ∗ owns (c : Thread nD τ) accQ0M fullShare (accQ0 V c t.val t.isLt)) := by
  unfold accPart0; rw [dif_neg (by exact Nat.succ_ne_zero t.val)]; rfl

theorem idle0_in : ∀ (w : Fin 14), w.val < 12 → ∀ i : grid0.Coords, idle0 w i = false
  | ⟨0, _⟩, _, _ => rfl
  | ⟨1, _⟩, _, _ => rfl
  | ⟨2, _⟩, _, _ => rfl
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl
  | ⟨9, _⟩, _, _ => rfl
  | ⟨10, _⟩, _, _ => rfl
  | ⟨11, _⟩, _, _ => rfl
  | ⟨n + 12, _⟩, h, _ => absurd h (Nat.not_lt.2 (Nat.le_add_left _ _))

theorem idle0_out (w : Fin 14) (hw : 12 ≤ w.val) (i : grid0.Coords) : idle0 w i = !(k0_cond2 i == 1#1) :=
  match w, hw with
  | ⟨12, _⟩, _ => rfl
  | ⟨13, _⟩, _ => rfl

theorem idle0_of_last (t : Fin cfg0.N) (h : IsLast0 (grid0.coords t)) (w : Fin 14) (hw : 12 ≤ w.val) : idle0 w (grid0.coords t) = false := by
  rw [idle0_out w hw, show (k0_cond2 (grid0.coords t) == 1#1) = true from beq_iff_eq.mpr h]; rfl

theorem idle0_of_not_last (t : Fin cfg0.N) (h : ¬ IsLast0 (grid0.coords t)) (w : Fin 14) (hw : 12 ≤ w.val) : idle0 w (grid0.coords t) = true := by
  rw [idle0_out w hw, show (k0_cond2 (grid0.coords t) == 1#1) = false from beq_eq_false_iff_ne.mpr h]; rfl

theorem flush0_of_not_last (t : Fin cfg0.N) (h : ¬ IsLast0 (grid0.coords t)) {w : Fin cfg0.W}
    (hw : (cfg0.win w).flush t = true ↔ t.val % 25 = 24) : (cfg0.win w).flush t = false :=
  Bool.eq_false_iff.mpr fun hf => h ((isLast0_iff t).mpr (by
    have h1 := hw.mp hf; have h2 := t.isLt; have h3 : cfg0.N = 25 := N_0; omega))

set_option maxHeartbeats 4000000 in
theorem body_obligation0 (c : Dev nD) : BodyObligation (dat0 (F := F) V c) (defs₀ (F := F)) Variants.none () Set.univ := fun t => by
  rw [bigSep_W0, bigSep_W0]
  rw [show (dat0 V c).owesAt () t.succ = (dat0 V c).owesAt () t.castSucc from rfl, Φ_eq0, Φ_eq0]
  unfold Φ0
  have hN : cfg0.N = 25 := N_0
  have hlt := t.isLt
  simp only [idle0_in 0 (by decide), idle0_in 1 (by decide), idle0_in 2 (by decide), idle0_in 3 (by decide), idle0_in 4 (by decide), idle0_in 5 (by decide), idle0_in 6 (by decide), idle0_in 7 (by decide), idle0_in 8 (by decide), idle0_in 9 (by decide), idle0_in 10 (by decide), idle0_in 11 (by decide), before0_0, before0_1, before0_2, before0_3, before0_4, before0_5, before0_6, before0_7, before0_8, before0_9, before0_10, after0_0, after0_1, after0_2, after0_3, after0_4, after0_5, after0_6, after0_7, after0_8, after0_9, after0_10, after0_11, after0_12, after0_13]
  by_cases hL : IsLast0 (grid0.coords t)
  · have h24 : t.val = 24 := (isLast0_iff t).mp hL
    have h0 : t.val ≠ 0 := by omega
    have hF : ¬ IsFirst0 (grid0.coords t) := fun h => h0 ((isFirst0_iff t).mp h)
    simp only [idle0_of_last t hL 12 (by decide), idle0_of_last t hL 13 (by decide)]
    rw [accPart0_pre_other V c t h0, accPart0_post V c t, accS0_step V c t h0 (by omega), accQ0_step V c t h0 (by omega),
      show outS0 V c t = sout0 (inAt0 V c t) (befS0 V c t h0) from dif_neg h0,
      show outQ0 V c t = qout0 (inAt0 V c t) (befQ0 V c t h0) from dif_neg h0]
    unfold inAt0
    iintro ⟨⟨Hp, ⟨Ha, Hb⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_last0 c _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (befS0 V c t h0) (befQ0 V c t h0) hF hL _)
    unfold ins0
    iframe H0 H1 H2 H3 H4 H5 H6 H7 H8 H9 H10 Ha Hb
    isplitl [H11]; · iexists _; iexact H11
    isplitl [H12]; · iexists _; iexact H12
    isplitl [H13]; · iexists _; iexact H13
    iintro ⟨⟨H0, H1, H2, H3, H4, H5, H6, H7, H8, H9, H10⟩, H11, H12, H13, Ha, Hb⟩
    iframe
  · simp only [idle0_of_not_last t hL 12 (by decide), idle0_of_not_last t hL 13 (by decide), flush0_of_not_last t hL (flush0_12 t), flush0_of_not_last t hL (flush0_13 t)]
    by_cases hF : IsFirst0 (grid0.coords t)
    · have h0 : t.val = 0 := (isFirst0_iff t).mp hF
      rw [accPart0_pre_first V c t h0, accPart0_post V c t, accS0_first V c t h0, accQ0_first V c t h0]
      unfold inAt0
      iintro ⟨⟨Hp, ⟨Ha, Hb⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
      iapply (run_first0 c _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) hF hL _ _ _)
      unfold ins0
      iframe H0 H1 H2 H3 H4 H5 H6 H7 H8 H9 H10 H12 H13 Ha Hb
      isplitl [H11]; · iexists _; iexact H11
      iintro ⟨⟨H0, H1, H2, H3, H4, H5, H6, H7, H8, H9, H10⟩, H11, H12, H13, Ha, Hb⟩
      iframe
    · have h0 : t.val ≠ 0 := fun h => hF ((isFirst0_iff t).mpr h)
      rw [accPart0_pre_other V c t h0, accPart0_post V c t, accS0_step V c t h0 (by omega), accQ0_step V c t h0 (by omega)]
      unfold inAt0
      iintro ⟨⟨Hp, ⟨Ha, Hb⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
      iapply (run_mid0 c _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (befS0 V c t h0) (befQ0 V c t h0) hF hL _ _ _)
      unfold ins0
      iframe H0 H1 H2 H3 H4 H5 H6 H7 H8 H9 H10 H12 H13 Ha Hb
      isplitl [H11]; · iexists _; iexact H11
      iintro ⟨⟨H0, H1, H2, H3, H4, H5, H6, H7, H8, H9, H10⟩, H11, H12, H13, Ha, Hb⟩
      iframe

theorem accPart0_zero (c : Dev nD) :
    accPart0 V c 0 = iprop((∃ a, owns (c : Thread nD τ) accS0M fullShare a) ∗ (∃ b, owns (c : Thread nD τ) accQ0M fullShare b)) := by
  unfold accPart0; exact dif_pos (by decide)

theorem accPart0_last (c : Dev nD) :
    accPart0 V c (Fin.last cfg0.N) = iprop(owns (c : Thread nD τ) accS0M fullShare (accS0 V c 24 (by decide)) ∗ owns (c : Thread nD τ) accQ0M fullShare (accQ0 V c 24 (by decide))) := by
  unfold accPart0; rw [dif_neg (by decide)]; rfl

theorem hin0 (c : Dev nD) : (iprop((∃ r, prngReg c r) ∗ Pipeline.scopedRest spec0 c) : sProp 𝕄) ⊢ (dat0 V c).Φ 0 := by
  rw [Φ_eq0, scopedRest0_split]
  unfold Φ0; rw [accPart0_zero]
  iintro ⟨Hp, ⟨⟨%f, Hf⟩, ⟨%g, Hg⟩⟩, HR⟩
  iframe Hp HR
  isplitl [Hf]
  · iexists f; rw [owns_whole_eq]; iexists f; isplitr; (· ipureintro; rfl); iexact Hf
  · iexists g; rw [owns_whole_eq]; iexists g; isplitr; (· ipureintro; rfl); iexact Hg

theorem hout0 (c : Dev nD) : (dat0 V c).Φ (Fin.last cfg0.N) ⊢ (iprop((∃ r, prngReg c r) ∗ Pipeline.scopedRest spec0 c) : sProp 𝕄) := by
  rw [Φ_eq0, scopedRest0_split]
  unfold Φ0; rw [accPart0_last]; simp only [owns_whole_eq]
  iintro ⟨Hp, ⟨⟨%f, %hf, Hf⟩, ⟨%g, %hg, Hg⟩⟩, HR⟩
  iframe Hp HR
  isplitl [Hf]
  · iexists f; iexact Hf
  · iexists g; iexact Hg

end Cert.Kernel.Hand

end
-- ==== Proof.K.R1.lean ====
import proofs.«427087_j34256659153343_2_alg».proof.Proof.Gen.Kernel.Launch

import proofs.«427087_j34256659153343_2_alg».proof.Proof.Gen.Kernel.Skeleton

import proofs.«427087_j34256659153343_2_alg».proof.Proof.Gen.Kernel.Points

import Idealize.ShloMosaic.Lib.Pipeline.FrameBody

import Idealize.ShloMosaic.Lib.Pipeline.RegionsLoop

import Idealize.ShloMosaic.Lib.Pipeline.FrameSuffix

import Idealize.ShloMosaic.Lib.Ring

import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev whole1 : Rect S10000x32 := Rect.unit (s := S10000x32) ![0, 0] S10000x32.size inb_S10000x32_S10000x32_0_0

abbrev row1 : Rect S1x32 := Rect.unit (s := S1x32) ![0, 0] S1x32.size inb_S1x32_S1x32_0_0

def res1 (o : Vec F S10000x32 .f32) (mean var g b : Vec F S1x32 .f32) : Vec F S10000x32 .f32 :=
  View.canon [⟨whole1, k1_pay1 (View.ld var row1) (View.ld o whole1) (View.ld mean row1) (View.ld g row1) (View.ld b row1)⟩]

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => res1 (blk1 V c 0 t) (blk1 V c 1 t) (blk1 V c 2 t) (blk1 V c 3 t) (blk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_in (c : Dev nD) :
    (∀ t, (dat1 V c).after 0 t = blk1 V c 0 t) ∧ (∀ t, (dat1 V c).after 1 t = blk1 V c 1 t) ∧ (∀ t, (dat1 V c).after 2 t = blk1 V c 2 t)
      ∧ (∀ t, (dat1 V c).after 3 t = blk1 V c 3 t) ∧ (∀ t, (dat1 V c).after 4 t = blk1 V c 4 t) := by
  dsimp only [dat1]; exact ⟨fun _ => rfl, fun _ => rfl, fun _ => rfl, fun _ => rfl, fun _ => rfl⟩

theorem after1_5 (c : Dev nD) (t : Fin cfg1.N) :
    (dat1 V c).after 5 t = res1 (blk1 V c 0 t) (blk1 V c 1 t) (blk1 V c 2 t) (blk1 V c 3 t) (blk1 V c 4 t) := by dsimp only [dat1]

theorem before1_in (c : Dev nD) (t : Fin cfg1.N) :
    (∀ d, (dat1 V c).before 0 t d = blk1 V c 0 t) ∧ (∀ d, (dat1 V c).before 1 t d = blk1 V c 1 t)
      ∧ (∀ d, (dat1 V c).before 2 t d = blk1 V c 2 t) ∧ (∀ d, (dat1 V c).before 3 t d = blk1 V c 3 t)
      ∧ (∀ d, (dat1 V c).before 4 t d = blk1 V c 4 t) := by
  obtain ⟨a0, a1, a2, a3, a4⟩ := after1_in V c
  refine ⟨fun d => ?_, fun d => ?_, fun d => ?_, fun d => ?_, fun d => ?_⟩ <;>
    exact Eq.trans (Dat.before_in_eq_fetched _ _ rfl (fun _ => rfl) (fun _ _ _ => rfl)
      (fun t => by simp only [a0, a1, a2, a3, a4]; unfold Dat.blockOf blk1; rw [A_eq1]; try rfl) t d)
      (by unfold Dat.fetched Dat.blockOf blk1; rw [A_eq1]; try rfl)

set_option maxHeartbeats 1000000 in
theorem body_obligation1 (c : Dev nD) : BodyObligation (dat1 (F := F) V c) (defs₀ (F := F)) Variants.none () Set.univ := fun t => by
  obtain ⟨b0, b1, b2, b3, b4⟩ := before1_in V c t
  obtain ⟨a0, a1, a2, a3, a4⟩ := after1_in V c
  rw [show (dat1 V c).Φ t.succ = (dat1 V c).Φ t.castSucc from rfl,
    show (dat1 V c).owesAt () t.succ = (dat1 V c).owesAt () t.castSucc from rfl]
  simp only [bigSep_W1, b0, b1, b2, b3, b4, a0, a1, a2, a3, a4, after1_5]
  show _ ⊢ wp _ _ _ (bodyAt1 (F := F) t) _
  unfold bodyAt1
  generalize blk1 V c 0 t = o; generalize blk1 V c 1 t = mean; generalize blk1 V c 2 t = var
  generalize blk1 V c 3 t = g; generalize blk1 V c 4 t = b
  simp only [cc1__bn_kernel_eq_skeleton]; unfold cc1__bn_kernel_skel
  unfold owns
  iintro ⟨HΦ, Ho, ⟨%d0, %f1, %hf1, H1⟩, ⟨%d1, %f2, %hf2, H2⟩, ⟨%d2, %f3, %hf3, H3⟩, ⟨%d3, %f4, %hf4, H4⟩, ⟨%d4, %f5, %hf5, H5⟩, ⟨%d5, %f6, -, H6⟩⟩
  subst hf1 hf2 hf3 hf4 hf5
  sl_exec
  sl_step
  isplitl [HΦ]; · iexact HΦ
  isplitl [Ho]; · iexact Ho
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x32.size (by rfl))

theorem hin1 (c : Dev nD) :
    (iprop((∃ r, prngReg c r) ∗ Pipeline.scopedRest spec1 c) : sProp 𝕄) ⊢ (dat1 V c).Φ 0 := sep_symm

theorem hout1 (c : Dev nD) :
    (dat1 V c).Φ (Fin.last cfg1.N) ⊢ (iprop((∃ r, prngReg c r) ∗ Pipeline.scopedRest spec1 c) : sProp 𝕄) := sep_symm

end Cert.Kernel.Hand

end
-- ==== Proof.K.R2.lean ====
import proofs.«427087_j34256659153343_2_alg».proof.Proof.Gen.Kernel.Launch

import proofs.«427087_j34256659153343_2_alg».proof.Proof.Gen.Kernel.Skeleton

import proofs.«427087_j34256659153343_2_alg».proof.Proof.Gen.Kernel.Points

import Idealize.ShloMosaic.Lib.Pipeline.FrameBody

import Idealize.ShloMosaic.Lib.Pipeline.RegionsLoop

import Idealize.ShloMosaic.Lib.Pipeline.FrameSuffix

import Idealize.ShloMosaic.Lib.Ring

import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rB2 : Rect S10000x32 := Rect.unit (s := S10000x32) ![0, 0] S10000x32.size inb_S10000x32_S10000x32_0_0

abbrev rW2 : Rect S32x32 := Rect.unit (s := S32x32) ![0, 0] S32x32.size inb_S32x32_S32x32_0_0

abbrev rV2 : Rect S1x32 := Rect.unit (s := S1x32) ![0, 0] S1x32.size inb_S1x32_S1x32_0_0

abbrev accS2 : Memref sig .tc .vmem S1x32 .f32 := Memref.whole cc2_scratch0

abbrev accQ2 : Memref sig .tc .vmem S1x32 .f32 := Memref.whole cc2_scratch1

abbrev IsFirst2 (i : grid2.Coords) : Prop :=
  Scalar.cmpi .ne (Scalar.extui (Scalar.cmpi .eq (BitVec.ofNat 32 (i 0).val) 0#32)) 0#32 = 1#1

abbrev IsLast2 (i : grid2.Coords) : Prop := k2_cond2 i = 1#1

theorem isFirst2_iff : ∀ t : Fin cfg2.N, IsFirst2 (grid2.coords t) ↔ t.val = 0 :=
  (by decide +kernel : ∀ t : Fin grid2.N,
    (Scalar.cmpi .ne (Scalar.extui (Scalar.cmpi .eq (BitVec.ofNat 32 ((grid2.coords t) 0).val) 0#32)) 0#32 = 1#1) ↔ t.val = 0)

theorem isLast2_iff : ∀ t : Fin cfg2.N, IsLast2 (grid2.coords t) ↔ t.val = 24 :=
  (by decide +kernel : ∀ t : Fin grid2.N, k2_cond2 (grid2.coords t) = 1#1 ↔ t.val = 24)

section Payloads

variable (x af ab : Vec F S10000x32 .f32) (w1f : Vec F S32x32 .f32) (b1f : Vec F S1x32 .f32) (w2f : Vec F S32x32 .f32) (b2f : Vec F S1x32 .f32)
  (w1b : Vec F S32x32 .f32) (b1b : Vec F S1x32 .f32) (w2b : Vec F S32x32 .f32) (b2b : Vec F S1x32 .f32)

abbrev oPay2 : FVec F S10000x32 .f32 :=
  k2_pay8 (k2_pay4 (View.ld x rB2) (View.ld ab rB2)) (k2_pay5 (View.ld w1b rW2)) (k2_pay6 (View.ld w2b rW2))
    (k2_pay7 (View.ld x rB2) (View.ld af rB2) (View.ld w1f rW2) (View.ld w2f rW2) (View.ld b1f rV2) (View.ld b2f rV2))
    (Scalar.ofBits .f32 0x00000000#32) (View.ld b1b rV2) (View.ld b2b rV2)

abbrev sPay2 (a : Vec F S1x32 .f32) : FVec F S1x32 .f32 :=
  k2_pay9 (k2_pay4 (View.ld x rB2) (View.ld ab rB2)) (k2_pay5 (View.ld w1b rW2)) (k2_pay6 (View.ld w2b rW2))
    (k2_pay7 (View.ld x rB2) (View.ld af rB2) (View.ld w1f rW2) (View.ld w2f rW2) (View.ld b1f rV2) (View.ld b2f rV2))
    (Scalar.ofBits .f32 0x00000000#32) (View.ld b1b rV2) (View.ld b2b rV2) a

abbrev qPay2 (a : Vec F S1x32 .f32) : FVec F S1x32 .f32 :=
  k2_pay10 (k2_pay4 (View.ld x rB2) (View.ld ab rB2)) (k2_pay5 (View.ld w1b rW2)) (k2_pay6 (View.ld w2b rW2))
    (k2_pay7 (View.ld x rB2) (View.ld af rB2) (View.ld w1f rW2) (View.ld w2f rW2) (View.ld b1f rV2) (View.ld b2f rV2))
    (Scalar.ofBits .f32 0x00000000#32) (View.ld b1b rV2) (View.ld b2b rV2) a

def out2_11 : Vec F S10000x32 .f32 := View.canon [⟨rB2, oPay2 x af ab w1f b1f w2f b2f w1b b1b w2b b2b⟩]

def sFirst2 : Vec F S1x32 .f32 :=
  View.canon [⟨rV2, sPay2 x af ab w1f b1f w2f b2f w1b b1b w2b b2b (accS2.view.readCov [⟨rV2, k2_pay1⟩] rV2.toLoadRect)⟩, ⟨rV2, k2_pay1⟩]

def sStep2 (a : Vec F S1x32 .f32) : Vec F S1x32 .f32 :=
  View.canon [⟨rV2, sPay2 x af ab w1f b1f w2f b2f w1b b1b w2b b2b (View.ld a rV2)⟩]

def qFirst2 : Vec F S1x32 .f32 :=
  View.canon [⟨rV2, qPay2 x af ab w1f b1f w2f b2f w1b b1b w2b b2b (accQ2.view.readCov [⟨rV2, k2_pay2⟩] rV2.toLoadRect)⟩, ⟨rV2, k2_pay2⟩]

def qStep2 (a : Vec F S1x32 .f32) : Vec F S1x32 .f32 :=
  View.canon [⟨rV2, qPay2 x af ab w1f b1f w2f b2f w1b b1b w2b b2b (View.ld a rV2)⟩]

def out2_12 (a : Vec F S1x32 .f32) : Vec F S1x32 .f32 :=
  View.canon [⟨rV2, accS2.view.readCov [⟨rV2, sPay2 x af ab w1f b1f w2f b2f w1b b1b w2b b2b (View.ld a rV2)⟩] rV2.toLoadRect⟩]

def out2_13 (a : Vec F S1x32 .f32) : Vec F S1x32 .f32 :=
  View.canon [⟨rV2, accQ2.view.readCov [⟨rV2, qPay2 x af ab w1f b1f w2f b2f w1b b1b w2b b2b (View.ld a rV2)⟩] rV2.toLoadRect⟩]

end Payloads

omit [FloatOps F] in
theorem coverB2 (p : Vec F S10000x32 .f32) (y : S10000x32.Idx) : ∃ pc ∈ ([⟨rB2, p⟩] : List (View.Piece (Elt F) S10000x32 .f32)), y ∈ pc.1.set :=
  View.cover_of_tiled [⟨rB2, p⟩] S10000x32.size (by rfl) y

omit [FloatOps F] in
theorem coverV2 (p : Vec F S1x32 .f32) (y : S1x32.Idx) : ∃ pc ∈ ([⟨rV2, p⟩] : List (View.Piece (Elt F) S1x32 .f32)), y ∈ pc.1.set :=
  View.cover_of_tiled [⟨rV2, p⟩] S1x32.size (by rfl) y

omit [FloatOps F] in
theorem coverV2' (p q : Vec F S1x32 .f32) (y : S1x32.Idx) : ∃ pc ∈ ([⟨rV2, p⟩, ⟨rV2, q⟩] : List (View.Piece (Elt F) S1x32 .f32)), y ∈ pc.1.set :=
  View.cover_of_tiled [⟨rV2, p⟩, ⟨rV2, q⟩] S1x32.size (by rfl) y

section Runs

variable (c : Dev nD) (i : grid2.Coords) (M0 : Memref sig .tc .vmem S10000x32 .f32) (h0 : M0.IsWhole) (M1 : Memref sig .tc .vmem S10000x32 .f32) (h1 : M1.IsWhole) (M2 : Memref sig .tc .vmem S10000x32 .f32) (h2 : M2.IsWhole) (M3 : Memref sig .tc .vmem S32x32 .f32) (h3 : M3.IsWhole) (M4 : Memref sig .tc .vmem S1x32 .f32) (h4 : M4.IsWhole) (M5 : Memref sig .tc .vmem S32x32 .f32) (h5 : M5.IsWhole) (M6 : Memref sig .tc .vmem S1x32 .f32) (h6 : M6.IsWhole) (M7 : Memref sig .tc .vmem S32x32 .f32) (h7 : M7.IsWhole) (M8 : Memref sig .tc .vmem S1x32 .f32) (h8 : M8.IsWhole) (M9 : Memref sig .tc .vmem S32x32 .f32) (h9 : M9.IsWhole) (M10 : Memref sig .tc .vmem S1x32 .f32) (h10 : M10.IsWhole) (M11 : Memref sig .tc .vmem S10000x32 .f32) (h11 : M11.IsWhole) (M12 : Memref sig .tc .vmem S1x32 .f32) (h12 : M12.IsWhole) (M13 : Memref sig .tc .vmem S1x32 .f32) (h13 : M13.IsWhole)
  (x af ab : Vec F S10000x32 .f32) (w1f : Vec F S32x32 .f32) (b1f : Vec F S1x32 .f32) (w2f : Vec F S32x32 .f32) (b2f : Vec F S1x32 .f32)
  (w1b : Vec F S32x32 .f32) (b1b : Vec F S1x32 .f32) (w2b : Vec F S32x32 .f32) (b2b : Vec F S1x32 .f32)

local notation "BODY2" => cc2__gin_layer_kernel i M0 h0 M1 h1 M2 h2 M3 h3 M4 h4 M5 h5 M6 h6 M7 h7 M8 h8 M9 h9 M10 h10 M11 h11 M12 h12 M13 h13 (Memref.whole cc2_scratch0) (Memref.isWhole_whole _) (Memref.whole cc2_scratch1) (Memref.isWhole_whole _)

def ins2 : sProp 𝕄 :=
  iprop(owns (c : Thread nD τ) M0 fullShare x ∗ owns (c : Thread nD τ) M1 fullShare af ∗ owns (c : Thread nD τ) M2 fullShare ab ∗ owns (c : Thread nD τ) M3 fullShare w1f ∗ owns (c : Thread nD τ) M4 fullShare b1f ∗ owns (c : Thread nD τ) M5 fullShare w2f ∗ owns (c : Thread nD τ) M6 fullShare b2f ∗ owns (c : Thread nD τ) M7 fullShare w1b ∗ owns (c : Thread nD τ) M8 fullShare b1b ∗ owns (c : Thread nD τ) M9 fullShare w2b ∗ owns (c : Thread nD τ) M10 fullShare b2b)

set_option maxHeartbeats 4000000 in

theorem run2_first (hF : IsFirst2 i) (hL : ¬ IsLast2 i) (O12 O13 : sProp 𝕄) (Q : PUnit → sProp 𝕄) :
    iprop(ins2 c M0 M1 M2 M3 M4 M5 M6 M7 M8 M9 M10 x af ab w1f b1f w2f b2f w1b b1b w2b b2b
      ∗ (∃ d, owns (c : Thread nD τ) M11 fullShare d) ∗ O12 ∗ O13
      ∗ (∃ a, owns (c : Thread nD τ) accS2 fullShare a) ∗ (∃ a, owns (c : Thread nD τ) accQ2 fullShare a)
      ∗ (iprop(ins2 c M0 M1 M2 M3 M4 M5 M6 M7 M8 M9 M10 x af ab w1f b1f w2f b2f w1b b1b w2b b2b
          ∗ owns (c : Thread nD τ) M11 fullShare (out2_11 x af ab w1f b1f w2f b2f w1b b1b w2b b2b) ∗ O12 ∗ O13
          ∗ owns (c : Thread nD τ) accS2 fullShare (sFirst2 x af ab w1f b1f w2f b2f w1b b1b w2b b2b) ∗ owns (c : Thread nD τ) accQ2 fullShare (qFirst2 x af ab w1f b1f w2f b2f w1b b1b w2b b2b)) -∗ Q ⟨⟩))
      ⊢ wp frame (wpE (defs₀ (F := F)) Variants.none c none) Set.univ BODY2 Q := by
  unfold ins2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, HO12, HO13, ⟨%aS, %fS, -, HS⟩, ⟨%aQ, %fQ, -, HQ⟩, Hk⟩
  subst hf0 hf1 hf2 hf3 hf4 hf5 hf6 hf7 hf8 hf9 hf10
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverB2 _)
  isplitl [HO12]; · iexact HO12
  isplitl [HO13]; · iexact HO13
  isplitl [HS]; · iexists _; isplitr; swap; (· iexact HS); ipureintro; exact View.read_writes_eq_canon _ _ _ (coverV2' _ _)
  iexists _; isplitr; swap; (· iexact HQ); ipureintro; exact View.read_writes_eq_canon _ _ _ (coverV2' _ _)

set_option maxHeartbeats 4000000 in

theorem run2_mid (a b : Vec F S1x32 .f32) (hF : ¬ IsFirst2 i) (hL : ¬ IsLast2 i) (O12 O13 : sProp 𝕄) (Q : PUnit → sProp 𝕄) :
    iprop(ins2 c M0 M1 M2 M3 M4 M5 M6 M7 M8 M9 M10 x af ab w1f b1f w2f b2f w1b b1b w2b b2b
      ∗ (∃ d, owns (c : Thread nD τ) M11 fullShare d) ∗ O12 ∗ O13
      ∗ owns (c : Thread nD τ) accS2 fullShare a ∗ owns (c : Thread nD τ) accQ2 fullShare b
      ∗ (iprop(ins2 c M0 M1 M2 M3 M4 M5 M6 M7 M8 M9 M10 x af ab w1f b1f w2f b2f w1b b1b w2b b2b
          ∗ owns (c : Thread nD τ) M11 fullShare (out2_11 x af ab w1f b1f w2f b2f w1b b1b w2b b2b) ∗ O12 ∗ O13
          ∗ owns (c : Thread nD τ) accS2 fullShare (sStep2 x af ab w1f b1f w2f b2f w1b b1b w2b b2b a) ∗ owns (c : Thread nD τ) accQ2 fullShare (qStep2 x af ab w1f b1f w2f b2f w1b b1b w2b b2b b)) -∗ Q ⟨⟩))
      ⊢ wp frame (wpE (defs₀ (F := F)) Variants.none c none) Set.univ BODY2 Q := by
  unfold ins2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, HO12, HO13, ⟨%fS, %hfS, HS⟩, ⟨%fQ, %hfQ, HQ⟩, Hk⟩
  subst hf0 hf1 hf2 hf3 hf4 hf5 hf6 hf7 hf8 hf9 hf10 hfS hfQ
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverB2 _)
  isplitl [HO12]; · iexact HO12
  isplitl [HO13]; · iexact HO13
  isplitl [HS]; · iexists _; isplitr; swap; (· iexact HS); ipureintro; exact View.read_writes_eq_canon _ _ _ (coverV2 _)
  iexists _; isplitr; swap; (· iexact HQ); ipureintro; exact View.read_writes_eq_canon _ _ _ (coverV2 _)

set_option maxHeartbeats 4000000 in

theorem run2_last (a b : Vec F S1x32 .f32) (hF : ¬ IsFirst2 i) (hL : IsLast2 i) (Q : PUnit → sProp 𝕄) :
    iprop(ins2 c M0 M1 M2 M3 M4 M5 M6 M7 M8 M9 M10 x af ab w1f b1f w2f b2f w1b b1b w2b b2b
      ∗ (∃ d, owns (c : Thread nD τ) M11 fullShare d) ∗ (∃ d, owns (c : Thread nD τ) M12 fullShare d) ∗ (∃ d, owns (c : Thread nD τ) M13 fullShare d)
      ∗ owns (c : Thread nD τ) accS2 fullShare a ∗ owns (c : Thread nD τ) accQ2 fullShare b
      ∗ (iprop(ins2 c M0 M1 M2 M3 M4 M5 M6 M7 M8 M9 M10 x af ab w1f b1f w2f b2f w1b b1b w2b b2b
          ∗ owns (c : Thread nD τ) M11 fullShare (out2_11 x af ab w1f b1f w2f b2f w1b b1b w2b b2b)
          ∗ owns (c : Thread nD τ) M12 fullShare (out2_12 x af ab w1f b1f w2f b2f w1b b1b w2b b2b a) ∗ owns (c : Thread nD τ) M13 fullShare (out2_13 x af ab w1f b1f w2f b2f w1b b1b w2b b2b b)
          ∗ owns (c : Thread nD τ) accS2 fullShare (sStep2 x af ab w1f b1f w2f b2f w1b b1b w2b b2b a) ∗ owns (c : Thread nD τ) accQ2 fullShare (qStep2 x af ab w1f b1f w2f b2f w1b b1b w2b b2b b)) -∗ Q ⟨⟩))
      ⊢ wp frame (wpE (defs₀ (F := F)) Variants.none c none) Set.univ BODY2 Q := by
  unfold ins2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, ⟨%d13, %f13, -, H13⟩, ⟨%fS, %hfS, HS⟩, ⟨%fQ, %hfQ, HQ⟩, Hk⟩
  subst hf0 hf1 hf2 hf3 hf4 hf5 hf6 hf7 hf8 hf9 hf10 hfS hfQ
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverB2 _)
  isplitl [H12]; · iexists _; isplitr; swap; (· iexact H12); ipureintro; exact View.read_writes_eq_canon _ _ _ (coverV2 _)
  isplitl [H13]; · iexists _; isplitr; swap; (· iexact H13); ipureintro; exact View.read_writes_eq_canon _ _ _ (coverV2 _)
  isplitl [HS]; · iexists _; isplitr; swap; (· iexact HS); ipureintro; exact View.read_writes_eq_canon _ _ _ (coverV2 _)
  iexists _; isplitr; swap; (· iexact HQ); ipureintro; exact View.read_writes_eq_canon _ _ _ (coverV2 _)

end Runs

def outAt2_11 (c : Dev nD) (t : Fin cfg2.N) : Vec F S10000x32 .f32 := out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)

def accS2At (c : Dev nD) : (k : ℕ) → k < cfg2.N → Vec F S1x32 .f32
  | 0, hk => sFirst2 (iblk2 V c 0 ⟨0, hk⟩) (iblk2 V c 1 ⟨0, hk⟩) (iblk2 V c 2 ⟨0, hk⟩) (iblk2 V c 3 ⟨0, hk⟩) (iblk2 V c 4 ⟨0, hk⟩) (iblk2 V c 5 ⟨0, hk⟩) (iblk2 V c 6 ⟨0, hk⟩) (iblk2 V c 7 ⟨0, hk⟩) (iblk2 V c 8 ⟨0, hk⟩) (iblk2 V c 9 ⟨0, hk⟩) (iblk2 V c 10 ⟨0, hk⟩)
  | k + 1, hk => sStep2 (iblk2 V c 0 ⟨k + 1, hk⟩) (iblk2 V c 1 ⟨k + 1, hk⟩) (iblk2 V c 2 ⟨k + 1, hk⟩) (iblk2 V c 3 ⟨k + 1, hk⟩) (iblk2 V c 4 ⟨k + 1, hk⟩) (iblk2 V c 5 ⟨k + 1, hk⟩) (iblk2 V c 6 ⟨k + 1, hk⟩) (iblk2 V c 7 ⟨k + 1, hk⟩) (iblk2 V c 8 ⟨k + 1, hk⟩) (iblk2 V c 9 ⟨k + 1, hk⟩) (iblk2 V c 10 ⟨k + 1, hk⟩) (accS2At c k (Nat.lt_of_succ_lt hk))

def accQ2At (c : Dev nD) : (k : ℕ) → k < cfg2.N → Vec F S1x32 .f32
  | 0, hk => qFirst2 (iblk2 V c 0 ⟨0, hk⟩) (iblk2 V c 1 ⟨0, hk⟩) (iblk2 V c 2 ⟨0, hk⟩) (iblk2 V c 3 ⟨0, hk⟩) (iblk2 V c 4 ⟨0, hk⟩) (iblk2 V c 5 ⟨0, hk⟩) (iblk2 V c 6 ⟨0, hk⟩) (iblk2 V c 7 ⟨0, hk⟩) (iblk2 V c 8 ⟨0, hk⟩) (iblk2 V c 9 ⟨0, hk⟩) (iblk2 V c 10 ⟨0, hk⟩)
  | k + 1, hk => qStep2 (iblk2 V c 0 ⟨k + 1, hk⟩) (iblk2 V c 1 ⟨k + 1, hk⟩) (iblk2 V c 2 ⟨k + 1, hk⟩) (iblk2 V c 3 ⟨k + 1, hk⟩) (iblk2 V c 4 ⟨k + 1, hk⟩) (iblk2 V c 5 ⟨k + 1, hk⟩) (iblk2 V c 6 ⟨k + 1, hk⟩) (iblk2 V c 7 ⟨k + 1, hk⟩) (iblk2 V c 8 ⟨k + 1, hk⟩) (iblk2 V c 9 ⟨k + 1, hk⟩) (iblk2 V c 10 ⟨k + 1, hk⟩) (accQ2At c k (Nat.lt_of_succ_lt hk))

theorem acc2At_first (c : Dev nD) (t : Fin cfg2.N) (h : t.val = 0) :
    accS2At V c t.val t.isLt = sFirst2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) ∧ accQ2At V c t.val t.isLt = qFirst2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by
  obtain ⟨k, hk⟩ := t
  cases k with
  | zero => exact ⟨rfl, rfl⟩
  | succ k => exact absurd h (Nat.succ_ne_zero k)

theorem acc2At_step (c : Dev nD) (t : Fin cfg2.N) (h : t.val ≠ 0) (hp : t.val - 1 < cfg2.N) :
    accS2At V c t.val t.isLt = sStep2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accS2At V c (t.val - 1) hp) ∧ accQ2At V c t.val t.isLt = qStep2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accQ2At V c (t.val - 1) hp) := by
  obtain ⟨k, hk⟩ := t
  cases k with
  | zero => exact absurd rfl h
  | succ k => exact ⟨rfl, rfl⟩

def outAt2_12 (c : Dev nD) (t : Fin cfg2.N) : Vec F S1x32 .f32 :=
  if h : t.val = 0 then k2_pay1 else out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accS2At V c (t.val - 1) (by have := t.isLt; omega))

def outAt2_13 (c : Dev nD) (t : Fin cfg2.N) : Vec F S1x32 .f32 :=
  if h : t.val = 0 then k2_pay2 else out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accQ2At V c (t.val - 1) (by have := t.isLt; omega))

def accPart2 (c : Dev nD) (k : Fin (cfg2.N + 1)) : sProp 𝕄 :=
  if h : k.val = 0 then iprop((∃ a, owns (c : Thread nD τ) accS2 fullShare a) ∗ (∃ a, owns (c : Thread nD τ) accQ2 fullShare a))
  else iprop(owns (c : Thread nD τ) accS2 fullShare (accS2At V c (k.val - 1) (by have := k.isLt; omega))
    ∗ owns (c : Thread nD τ) accQ2 fullShare (accQ2At V c (k.val - 1) (by have := k.isLt; omega)))

def Φ2 (c : Dev nD) (k : Fin (cfg2.N + 1)) : sProp 𝕄 :=
  iprop(accPart2 V c k ∗ Pipeline.scopedRestBut spec2 c [cc2_scratch0, cc2_scratch1] ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => outAt2_11 V c t
    | ⟨12, _⟩ => outAt2_12 V c t
    | ⟨13, _⟩ => outAt2_13 V c t
  Φ k := Φ2 V c k
  q _ := fullShare
  owed _ := 0

theorem A_eq2 (c : Dev nD) (w : Fin cfg2.W) : (dat2 V c).A w = V c (Pipeline.arrRef spec2 w) := by
  dsimp only [dat2]

theorem after2_in (c : Dev nD) (t : Fin cfg2.N) :
    (dat2 V c).after 0 t = iblk2 V c 0 t ∧ (dat2 V c).after 1 t = iblk2 V c 1 t ∧ (dat2 V c).after 2 t = iblk2 V c 2 t ∧ (dat2 V c).after 3 t = iblk2 V c 3 t ∧ (dat2 V c).after 4 t = iblk2 V c 4 t ∧ (dat2 V c).after 5 t = iblk2 V c 5 t ∧ (dat2 V c).after 6 t = iblk2 V c 6 t ∧ (dat2 V c).after 7 t = iblk2 V c 7 t ∧ (dat2 V c).after 8 t = iblk2 V c 8 t ∧ (dat2 V c).after 9 t = iblk2 V c 9 t ∧ (dat2 V c).after 10 t = iblk2 V c 10 t :=
  ⟨rfl, rfl, rfl, rfl, rfl, rfl, rfl, rfl, rfl, rfl, rfl⟩

theorem after2_11 (c : Dev nD) (t : Fin cfg2.N) : (dat2 V c).after 11 t = outAt2_11 V c t := by dsimp only [dat2]

theorem after2_12 (c : Dev nD) (t : Fin cfg2.N) : (dat2 V c).after 12 t = outAt2_12 V c t := by dsimp only [dat2]

theorem after2_13 (c : Dev nD) (t : Fin cfg2.N) : (dat2 V c).after 13 t = outAt2_13 V c t := by dsimp only [dat2]

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) ∧ (∀ d, (dat2 V c).before 7 t d = iblk2 V c 7 t) ∧ (∀ d, (dat2 V c).before 8 t d = iblk2 V c 8 t) ∧ (∀ d, (dat2 V c).before 9 t d = iblk2 V c 9 t) ∧ (∀ d, (dat2 V c).before 10 t d = iblk2 V c 10 t) := by
  refine ⟨?_, ?_, ?_, ?_, ?_, ?_, ?_, ?_, ?_, ?_, ?_⟩ <;> intro d <;>
    exact ((dat2 V c).before_in_eq_fetched _ rfl (fun _ => rfl) (fun _ _ _ => rfl) (fun _ => rfl) t d).trans rfl

theorem idle2_live : ∀ w : Fin 14, w.val < 12 → ∀ t : Fin cfg2.N, idle2 w (grid2.coords t) = false := by
  intro w
  fin_cases w <;> intro hw t <;> first | rfl | exact absurd hw (by decide)

theorem idle2_last (t : Fin cfg2.N) (h : IsLast2 (grid2.coords t)) : idle2 12 (grid2.coords t) = false ∧ idle2 13 (grid2.coords t) = false := by
  constructor <;> (show (!(k2_cond2 (grid2.coords t) == 1#1)) = false; rw [beq_iff_eq.mpr h]; rfl)

theorem idle2_other (t : Fin cfg2.N) (h : ¬ IsLast2 (grid2.coords t)) : idle2 12 (grid2.coords t) = true ∧ idle2 13 (grid2.coords t) = true := by
  constructor <;> (show (!(k2_cond2 (grid2.coords t) == 1#1)) = true; rw [beq_eq_false_iff_ne.mpr h]; rfl)

theorem flush2_12_other (t : Fin cfg2.N) (h : t.val ≠ 24) : (cfg2.win 12).flush t = false :=
  Bool.eq_false_iff.mpr fun hf => h (by have := (flush2_12 t).mp hf; have hN : t.val < 25 := lt_of_lt_of_eq t.isLt (show cfg2.N = 25 from N_2); omega)

theorem flush2_13_other (t : Fin cfg2.N) (h : t.val ≠ 24) : (cfg2.win 13).flush t = false :=
  Bool.eq_false_iff.mpr fun hf => h (by have := (flush2_13 t).mp hf; have hN : t.val < 25 := lt_of_lt_of_eq t.isLt (show cfg2.N = 25 from N_2); omega)

theorem Φ2_pre_first (c : Dev nD) (t : Fin cfg2.N) (h : t.val = 0) :
    (dat2 V c).Φ t.castSucc = iprop(iprop((∃ a, owns (c : Thread nD τ) accS2 fullShare a) ∗ (∃ a, owns (c : Thread nD τ) accQ2 fullShare a))
      ∗ Pipeline.scopedRestBut spec2 c [cc2_scratch0, cc2_scratch1] ∗ ∃ r, prngReg c r) := by
  show Φ2 V c _ = _; unfold Φ2 accPart2; rw [dif_pos (by exact h)]

theorem Φ2_pre_other (c : Dev nD) (t : Fin cfg2.N) (h : t.val ≠ 0) (hp : t.val - 1 < cfg2.N) :
    (dat2 V c).Φ t.castSucc = iprop(iprop(owns (c : Thread nD τ) accS2 fullShare (accS2At V c (t.val - 1) hp) ∗ owns (c : Thread nD τ) accQ2 fullShare (accQ2At V c (t.val - 1) hp))
      ∗ Pipeline.scopedRestBut spec2 c [cc2_scratch0, cc2_scratch1] ∗ ∃ r, prngReg c r) := by
  show Φ2 V c _ = _; unfold Φ2 accPart2; rw [dif_neg (by exact h)]; rfl

theorem Φ2_post (c : Dev nD) (t : Fin cfg2.N) :
    (dat2 V c).Φ t.succ = iprop(iprop(owns (c : Thread nD τ) accS2 fullShare (accS2At V c t.val t.isLt) ∗ owns (c : Thread nD τ) accQ2 fullShare (accQ2At V c t.val t.isLt))
      ∗ Pipeline.scopedRestBut spec2 c [cc2_scratch0, cc2_scratch1] ∗ ∃ r, prngReg c r) := by
  show Φ2 V c _ = _; unfold Φ2 accPart2; rw [dif_neg (by exact Nat.succ_ne_zero t.val)]; rfl

theorem outAt2_12_pos (c : Dev nD) (t : Fin cfg2.N) (h : t.val ≠ 0) (hp : t.val - 1 < cfg2.N) :
    outAt2_12 V c t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accS2At V c (t.val - 1) hp) := by
  unfold outAt2_12; rw [dif_neg h]

theorem outAt2_13_pos (c : Dev nD) (t : Fin cfg2.N) (h : t.val ≠ 0) (hp : t.val - 1 < cfg2.N) :
    outAt2_13 V c t = out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accQ2At V c (t.val - 1) hp) := by
  unfold outAt2_13; rw [dif_neg h]

set_option maxHeartbeats 4000000 in
theorem body_obligation2 (c : Dev nD) : BodyObligation (dat2 (F := F) V c) (defs₀ (F := F)) Variants.none () Set.univ := fun t => by
  rw [bigSep_W2, bigSep_W2]
  rw [show (dat2 V c).owesAt () t.succ = (dat2 V c).owesAt () t.castSucc from rfl]
  have hN : t.val < 25 := lt_of_lt_of_eq t.isLt (show cfg2.N = 25 from N_2)
  by_cases hL : IsLast2 (grid2.coords t)
  · have h24 : t.val = 24 := (isLast2_iff t).mp hL
    have hF : ¬ IsFirst2 (grid2.coords t) := fun h => by have := (isFirst2_iff t).mp h; omega
    have hp : t.val - 1 < cfg2.N := by have := t.isLt; omega
    simp (disch := decide) only [idle2_live, idle2_last t hL, outAt2_12_pos V c t (by omega) hp, outAt2_13_pos V c t (by omega) hp,
      before2 V c t, after2_in V c t, after2_11, after2_12, after2_13]
    rw [Φ2_pre_other V c t (by omega) hp, Φ2_post V c t, (acc2At_step V c t (by omega) hp).1, (acc2At_step V c t (by omega) hp).2]
    iintro ⟨⟨⟨HS, HQ⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run2_last c (grid2.coords t) _ _ _ _ _ _ _ _ _ _ _ _ _ _ _ _ _ _ _ _ _ _ _ _ _ _ _ _
      (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accS2At V c (t.val - 1) hp) (accQ2At V c (t.val - 1) hp) hF hL)
    unfold ins2
    iframe H0 H1 H2 H3 H4 H5 H6 H7 H8 H9 H10 HS HQ
    isplitl [H11]; · iexists _; iexact H11
    isplitl [H12]; · iexists _; iexact H12
    isplitl [H13]; · iexists _; iexact H13
    iintro ⟨⟨H0, H1, H2, H3, H4, H5, H6, H7, H8, H9, H10⟩, H11, H12, H13, HS, HQ⟩
    iframe; iexact H11
  · have h24 : t.val ≠ 24 := fun h => hL ((isLast2_iff t).mpr h)
    simp (disch := decide) only [idle2_live, idle2_other t hL, flush2_12_other t h24, flush2_13_other t h24,
      before2 V c t, after2_in V c t, after2_11, after2_12, after2_13]
    by_cases hF : IsFirst2 (grid2.coords t)
    · have h0 : t.val = 0 := (isFirst2_iff t).mp hF
      rw [Φ2_pre_first V c t h0, Φ2_post V c t, (acc2At_first V c t h0).1, (acc2At_first V c t h0).2]
      iintro ⟨⟨⟨HS, HQ⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
      iapply (run2_first c (grid2.coords t) _ _ _ _ _ _ _ _ _ _ _ _ _ _ _ _ _ _ _ _ _ _ _ _ _ _ _ _
        (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) hF hL _ _)
      unfold ins2
      iframe H0 H1 H2 H3 H4 H5 H6 H7 H8 H9 H10 H12 H13 HS HQ
      isplitl [H11]; · iexists _; iexact H11
      iintro ⟨⟨H0, H1, H2, H3, H4, H5, H6, H7, H8, H9, H10⟩, H11, H12, H13, HS, HQ⟩
      iframe; iexact H11
    · have h0 : t.val ≠ 0 := fun h => hF ((isFirst2_iff t).mpr h)
      have hp : t.val - 1 < cfg2.N := by have := t.isLt; omega
      rw [Φ2_pre_other V c t h0 hp, Φ2_post V c t, (acc2At_step V c t h0 hp).1, (acc2At_step V c t h0 hp).2]
      iintro ⟨⟨⟨HS, HQ⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
      iapply (run2_mid c (grid2.coords t) _ _ _ _ _ _ _ _ _ _ _ _ _ _ _ _ _ _ _ _ _ _ _ _ _ _ _ _
        (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accS2At V c (t.val - 1) hp) (accQ2At V c (t.val - 1) hp) hF hL _ _)
      unfold ins2
      iframe H0 H1 H2 H3 H4 H5 H6 H7 H8 H9 H10 H12 H13 HS HQ
      isplitl [H11]; · iexists _; iexact H11
      iintro ⟨⟨H0, H1, H2, H3, H4, H5, H6, H7, H8, H9, H10⟩, H11, H12, H13, HS, HQ⟩
      iframe; iexact H11

theorem accPart2_zero (c : Dev nD) : accPart2 V c 0 = iprop((∃ a, owns (c : Thread nD τ) accS2 fullShare a) ∗ (∃ a, owns (c : Thread nD τ) accQ2 fullShare a)) := by
  unfold accPart2; exact dif_pos rfl

theorem accPart2_last (c : Dev nD) : accPart2 V c (Fin.last cfg2.N) = iprop(owns (c : Thread nD τ) accS2 fullShare (accS2At V c (cfg2.N - 1) (by rw [show cfg2.N = 25 from N_2]; omega))
    ∗ owns (c : Thread nD τ) accQ2 fullShare (accQ2At V c (cfg2.N - 1) (by rw [show cfg2.N = 25 from N_2]; omega))) := by
  unfold accPart2; exact dif_neg (by show ¬ cfg2.N = 0; rw [show cfg2.N = 25 from N_2]; omega)

theorem hin2 (c : Dev nD) : (iprop((∃ r, prngReg c r) ∗ Pipeline.scopedRest spec2 c) : sProp 𝕄) ⊢ (dat2 V c).Φ 0 := by
  rw [scopedRest2_split, show (dat2 V c).Φ 0 = Φ2 V c 0 from rfl]
  unfold Φ2; rw [accPart2_zero]
  iintro ⟨Hp, ⟨⟨%f, Hf⟩, ⟨%g, Hg⟩⟩, HR⟩
  isplitl [Hf Hg]
  · isplitl [Hf]
    · iexists f; rw [owns_whole_eq]; iexists f; isplitr; (· ipureintro; rfl); iexact Hf
    · iexists g; rw [owns_whole_eq]; iexists g; isplitr; (· ipureintro; rfl); iexact Hg
  isplitl [HR]; · iexact HR
  iexact Hp

theorem hout2 (c : Dev nD) : (dat2 V c).Φ (Fin.last cfg2.N) ⊢ (iprop((∃ r, prngReg c r) ∗ Pipeline.scopedRest spec2 c) : sProp 𝕄) := by
  rw [scopedRest2_split, show (dat2 V c).Φ (Fin.last cfg2.N) = Φ2 V c (Fin.last cfg2.N) from rfl]
  unfold Φ2; rw [accPart2_last]; simp only [owns_whole_eq]
  iintro ⟨⟨⟨%f, %hf, Hf⟩, ⟨%g, %hg, Hg⟩⟩, HR, Hp⟩
  isplitl [Hp]; · iexact Hp
  isplitl [Hf Hg]
  · isplitl [Hf]
    · iexists f; iexact Hf
    · iexists g; iexact Hg
  iexact HR

end Cert.Kernel.Hand

end
-- ==== Proof.K.R3.lean ====
import proofs.«427087_j34256659153343_2_alg».proof.Proof.Gen.Kernel.Launch

import proofs.«427087_j34256659153343_2_alg».proof.Proof.Gen.Kernel.Skeleton

import proofs.«427087_j34256659153343_2_alg».proof.Proof.Gen.Kernel.Points

import Idealize.ShloMosaic.Lib.Pipeline.FrameBody

import Idealize.ShloMosaic.Lib.Pipeline.RegionsLoop

import Idealize.ShloMosaic.Lib.Pipeline.FrameSuffix

import Idealize.ShloMosaic.Lib.Ring

import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

abbrev whole3 : Rect S10000x32 := Rect.unit (s := S10000x32) ![0, 0] S10000x32.size inb_S10000x32_S10000x32_0_0

abbrev row3 : Rect S1x32 := Rect.unit (s := S1x32) ![0, 0] S1x32.size inb_S1x32_S1x32_0_0

def res3 (o : Vec F S10000x32 .f32) (mean var g b : Vec F S1x32 .f32) : Vec F S10000x32 .f32 :=
  View.canon [⟨whole3, k3_pay1 (View.ld var row3) (View.ld o whole3) (View.ld mean row3) (View.ld g row3) (View.ld b row3)⟩]

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => res3 (blk3 V c 0 t) (blk3 V c 1 t) (blk3 V c 2 t) (blk3 V c 3 t) (blk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_in (c : Dev nD) :
    (∀ t, (dat3 V c).after 0 t = blk3 V c 0 t) ∧ (∀ t, (dat3 V c).after 1 t = blk3 V c 1 t) ∧ (∀ t, (dat3 V c).after 2 t = blk3 V c 2 t)
      ∧ (∀ t, (dat3 V c).after 3 t = blk3 V c 3 t) ∧ (∀ t, (dat3 V c).after 4 t = blk3 V c 4 t) := by
  dsimp only [dat3]; exact ⟨fun _ => rfl, fun _ => rfl, fun _ => rfl, fun _ => rfl, fun _ => rfl⟩

theorem after3_5 (c : Dev nD) (t : Fin cfg3.N) :
    (dat3 V c).after 5 t = res3 (blk3 V c 0 t) (blk3 V c 1 t) (blk3 V c 2 t) (blk3 V c 3 t) (blk3 V c 4 t) := by dsimp only [dat3]

theorem before3_in (c : Dev nD) (t : Fin cfg3.N) :
    (∀ d, (dat3 V c).before 0 t d = blk3 V c 0 t) ∧ (∀ d, (dat3 V c).before 1 t d = blk3 V c 1 t)
      ∧ (∀ d, (dat3 V c).before 2 t d = blk3 V c 2 t) ∧ (∀ d, (dat3 V c).before 3 t d = blk3 V c 3 t)
      ∧ (∀ d, (dat3 V c).before 4 t d = blk3 V c 4 t) := by
  obtain ⟨a0, a1, a2, a3, a4⟩ := after3_in V c
  refine ⟨fun d => ?_, fun d => ?_, fun d => ?_, fun d => ?_, fun d => ?_⟩ <;>
    exact Eq.trans (Dat.before_in_eq_fetched _ _ rfl (fun _ => rfl) (fun _ _ _ => rfl)
      (fun t => by simp only [a0, a1, a2, a3, a4]; unfold Dat.blockOf blk3; rw [A_eq3]; try rfl) t d)
      (by unfold Dat.fetched Dat.blockOf blk3; rw [A_eq3]; try rfl)

set_option maxHeartbeats 1000000 in
theorem body_obligation3 (c : Dev nD) : BodyObligation (dat3 (F := F) V c) (defs₀ (F := F)) Variants.none () Set.univ := fun t => by
  obtain ⟨b0, b1, b2, b3, b4⟩ := before3_in V c t
  obtain ⟨a0, a1, a2, a3, a4⟩ := after3_in V c
  rw [show (dat3 V c).Φ t.succ = (dat3 V c).Φ t.castSucc from rfl,
    show (dat3 V c).owesAt () t.succ = (dat3 V c).owesAt () t.castSucc from rfl]
  simp only [bigSep_W3, b0, b1, b2, b3, b4, a0, a1, a2, a3, a4, after3_5]
  show _ ⊢ wp _ _ _ (bodyAt3 (F := F) t) _
  unfold bodyAt3
  generalize blk3 V c 0 t = o; generalize blk3 V c 1 t = mean; generalize blk3 V c 2 t = var
  generalize blk3 V c 3 t = g; generalize blk3 V c 4 t = b
  simp only [cc3__bn_kernel_eq_skeleton]; unfold cc3__bn_kernel_skel
  unfold owns
  iintro ⟨HΦ, Ho, ⟨%d0, %f1, %hf1, H1⟩, ⟨%d1, %f2, %hf2, H2⟩, ⟨%d2, %f3, %hf3, H3⟩, ⟨%d3, %f4, %hf4, H4⟩, ⟨%d4, %f5, %hf5, H5⟩, ⟨%d5, %f6, -, H6⟩⟩
  subst hf1 hf2 hf3 hf4 hf5
  sl_exec
  sl_step
  isplitl [HΦ]; · iexact HΦ
  isplitl [Ho]; · iexact Ho
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x32.size (by rfl))

theorem hin3 (c : Dev nD) :
    (iprop((∃ r, prngReg c r) ∗ Pipeline.scopedRest spec3 c) : sProp 𝕄) ⊢ (dat3 V c).Φ 0 := sep_symm

theorem hout3 (c : Dev nD) :
    (dat3 V c).Φ (Fin.last cfg3.N) ⊢ (iprop((∃ r, prngReg c r) ∗ Pipeline.scopedRest spec3 c) : sProp 𝕄) := sep_symm

end Cert.Kernel.Hand

end
-- ==== Proof.K.R4.lean ====
import proofs.«427087_j34256659153343_2_alg».proof.Proof.Gen.Kernel.Launch

import proofs.«427087_j34256659153343_2_alg».proof.Proof.Gen.Kernel.Skeleton

import proofs.«427087_j34256659153343_2_alg».proof.Proof.Gen.Kernel.Points

import Idealize.ShloMosaic.Lib.Pipeline.FrameBody

import Idealize.ShloMosaic.Lib.Pipeline.RegionsLoop

import Idealize.ShloMosaic.Lib.Pipeline.FrameSuffix

import Idealize.ShloMosaic.Lib.Ring

import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rB4 : Rect S10000x32 := Rect.unit (s := S10000x32) ![0, 0] S10000x32.size inb_S10000x32_S10000x32_0_0

abbrev rW4 : Rect S32x32 := Rect.unit (s := S32x32) ![0, 0] S32x32.size inb_S32x32_S32x32_0_0

abbrev rV4 : Rect S1x32 := Rect.unit (s := S1x32) ![0, 0] S1x32.size inb_S1x32_S1x32_0_0

abbrev accS4 : Memref sig .tc .vmem S1x32 .f32 := Memref.whole cc4_scratch0

abbrev accQ4 : Memref sig .tc .vmem S1x32 .f32 := Memref.whole cc4_scratch1

abbrev IsFirst4 (i : grid4.Coords) : Prop :=
  Scalar.cmpi .ne (Scalar.extui (Scalar.cmpi .eq (BitVec.ofNat 32 (i 0).val) 0#32)) 0#32 = 1#1

abbrev IsLast4 (i : grid4.Coords) : Prop := k4_cond2 i = 1#1

theorem isFirst4_iff : ∀ t : Fin cfg4.N, IsFirst4 (grid4.coords t) ↔ t.val = 0 :=
  (by decide +kernel : ∀ t : Fin grid4.N,
    (Scalar.cmpi .ne (Scalar.extui (Scalar.cmpi .eq (BitVec.ofNat 32 ((grid4.coords t) 0).val) 0#32)) 0#32 = 1#1) ↔ t.val = 0)

theorem isLast4_iff : ∀ t : Fin cfg4.N, IsLast4 (grid4.coords t) ↔ t.val = 24 :=
  (by decide +kernel : ∀ t : Fin grid4.N, k4_cond2 (grid4.coords t) = 1#1 ↔ t.val = 24)

section Payloads

variable (x af ab : Vec F S10000x32 .f32) (w1f : Vec F S32x32 .f32) (b1f : Vec F S1x32 .f32) (w2f : Vec F S32x32 .f32) (b2f : Vec F S1x32 .f32)
  (w1b : Vec F S32x32 .f32) (b1b : Vec F S1x32 .f32) (w2b : Vec F S32x32 .f32) (b2b : Vec F S1x32 .f32)

abbrev oPay4 : FVec F S10000x32 .f32 :=
  k4_pay8 (k4_pay4 (View.ld x rB4) (View.ld ab rB4)) (k4_pay5 (View.ld w1b rW4)) (k4_pay6 (View.ld w2b rW4))
    (k4_pay7 (View.ld x rB4) (View.ld af rB4) (View.ld w1f rW4) (View.ld w2f rW4) (View.ld b1f rV4) (View.ld b2f rV4))
    (Scalar.ofBits .f32 0x00000000#32) (View.ld b1b rV4) (View.ld b2b rV4)

abbrev sPay4 (a : Vec F S1x32 .f32) : FVec F S1x32 .f32 :=
  k4_pay9 (k4_pay4 (View.ld x rB4) (View.ld ab rB4)) (k4_pay5 (View.ld w1b rW4)) (k4_pay6 (View.ld w2b rW4))
    (k4_pay7 (View.ld x rB4) (View.ld af rB4) (View.ld w1f rW4) (View.ld w2f rW4) (View.ld b1f rV4) (View.ld b2f rV4))
    (Scalar.ofBits .f32 0x00000000#32) (View.ld b1b rV4) (View.ld b2b rV4) a

abbrev qPay4 (a : Vec F S1x32 .f32) : FVec F S1x32 .f32 :=
  k4_pay10 (k4_pay4 (View.ld x rB4) (View.ld ab rB4)) (k4_pay5 (View.ld w1b rW4)) (k4_pay6 (View.ld w2b rW4))
    (k4_pay7 (View.ld x rB4) (View.ld af rB4) (View.ld w1f rW4) (View.ld w2f rW4) (View.ld b1f rV4) (View.ld b2f rV4))
    (Scalar.ofBits .f32 0x00000000#32) (View.ld b1b rV4) (View.ld b2b rV4) a

def out4_11 : Vec F S10000x32 .f32 := View.canon [⟨rB4, oPay4 x af ab w1f b1f w2f b2f w1b b1b w2b b2b⟩]

def sFirst4 : Vec F S1x32 .f32 :=
  View.canon [⟨rV4, sPay4 x af ab w1f b1f w2f b2f w1b b1b w2b b2b (accS4.view.readCov [⟨rV4, k4_pay1⟩] rV4.toLoadRect)⟩, ⟨rV4, k4_pay1⟩]

def sStep4 (a : Vec F S1x32 .f32) : Vec F S1x32 .f32 :=
  View.canon [⟨rV4, sPay4 x af ab w1f b1f w2f b2f w1b b1b w2b b2b (View.ld a rV4)⟩]

def qFirst4 : Vec F S1x32 .f32 :=
  View.canon [⟨rV4, qPay4 x af ab w1f b1f w2f b2f w1b b1b w2b b2b (accQ4.view.readCov [⟨rV4, k4_pay2⟩] rV4.toLoadRect)⟩, ⟨rV4, k4_pay2⟩]

def qStep4 (a : Vec F S1x32 .f32) : Vec F S1x32 .f32 :=
  View.canon [⟨rV4, qPay4 x af ab w1f b1f w2f b2f w1b b1b w2b b2b (View.ld a rV4)⟩]

def out4_12 (a : Vec F S1x32 .f32) : Vec F S1x32 .f32 :=
  View.canon [⟨rV4, accS4.view.readCov [⟨rV4, sPay4 x af ab w1f b1f w2f b2f w1b b1b w2b b2b (View.ld a rV4)⟩] rV4.toLoadRect⟩]

def out4_13 (a : Vec F S1x32 .f32) : Vec F S1x32 .f32 :=
  View.canon [⟨rV4, accQ4.view.readCov [⟨rV4, qPay4 x af ab w1f b1f w2f b2f w1b b1b w2b b2b (View.ld a rV4)⟩] rV4.toLoadRect⟩]

end Payloads

omit [FloatOps F] in
theorem coverB4 (p : Vec F S10000x32 .f32) (y : S10000x32.Idx) : ∃ pc ∈ ([⟨rB4, p⟩] : List (View.Piece (Elt F) S10000x32 .f32)), y ∈ pc.1.set :=
  View.cover_of_tiled [⟨rB4, p⟩] S10000x32.size (by rfl) y

omit [FloatOps F] in
theorem coverV4 (p : Vec F S1x32 .f32) (y : S1x32.Idx) : ∃ pc ∈ ([⟨rV4, p⟩] : List (View.Piece (Elt F) S1x32 .f32)), y ∈ pc.1.set :=
  View.cover_of_tiled [⟨rV4, p⟩] S1x32.size (by rfl) y

omit [FloatOps F] in
theorem coverV4' (p q : Vec F S1x32 .f32) (y : S1x32.Idx) : ∃ pc ∈ ([⟨rV4, p⟩, ⟨rV4, q⟩] : List (View.Piece (Elt F) S1x32 .f32)), y ∈ pc.1.set :=
  View.cover_of_tiled [⟨rV4, p⟩, ⟨rV4, q⟩] S1x32.size (by rfl) y

section Runs

variable (c : Dev nD) (i : grid4.Coords) (M0 : Memref sig .tc .vmem S10000x32 .f32) (h0 : M0.IsWhole) (M1 : Memref sig .tc .vmem S10000x32 .f32) (h1 : M1.IsWhole) (M2 : Memref sig .tc .vmem S10000x32 .f32) (h2 : M2.IsWhole) (M3 : Memref sig .tc .vmem S32x32 .f32) (h3 : M3.IsWhole) (M4 : Memref sig .tc .vmem S1x32 .f32) (h4 : M4.IsWhole) (M5 : Memref sig .tc .vmem S32x32 .f32) (h5 : M5.IsWhole) (M6 : Memref sig .tc .vmem S1x32 .f32) (h6 : M6.IsWhole) (M7 : Memref sig .tc .vmem S32x32 .f32) (h7 : M7.IsWhole) (M8 : Memref sig .tc .vmem S1x32 .f32) (h8 : M8.IsWhole) (M9 : Memref sig .tc .vmem S32x32 .f32) (h9 : M9.IsWhole) (M10 : Memref sig .tc .vmem S1x32 .f32) (h10 : M10.IsWhole) (M11 : Memref sig .tc .vmem S10000x32 .f32) (h11 : M11.IsWhole) (M12 : Memref sig .tc .vmem S1x32 .f32) (h12 : M12.IsWhole) (M13 : Memref sig .tc .vmem S1x32 .f32) (h13 : M13.IsWhole)
  (x af ab : Vec F S10000x32 .f32) (w1f : Vec F S32x32 .f32) (b1f : Vec F S1x32 .f32) (w2f : Vec F S32x32 .f32) (b2f : Vec F S1x32 .f32)
  (w1b : Vec F S32x32 .f32) (b1b : Vec F S1x32 .f32) (w2b : Vec F S32x32 .f32) (b2b : Vec F S1x32 .f32)

local notation "BODY4" => cc4__gin_layer_kernel i M0 h0 M1 h1 M2 h2 M3 h3 M4 h4 M5 h5 M6 h6 M7 h7 M8 h8 M9 h9 M10 h10 M11 h11 M12 h12 M13 h13 (Memref.whole cc4_scratch0) (Memref.isWhole_whole _) (Memref.whole cc4_scratch1) (Memref.isWhole_whole _)

def ins4 : sProp 𝕄 :=
  iprop(owns (c : Thread nD τ) M0 fullShare x ∗ owns (c : Thread nD τ) M1 fullShare af ∗ owns (c : Thread nD τ) M2 fullShare ab ∗ owns (c : Thread nD τ) M3 fullShare w1f ∗ owns (c : Thread nD τ) M4 fullShare b1f ∗ owns (c : Thread nD τ) M5 fullShare w2f ∗ owns (c : Thread nD τ) M6 fullShare b2f ∗ owns (c : Thread nD τ) M7 fullShare w1b ∗ owns (c : Thread nD τ) M8 fullShare b1b ∗ owns (c : Thread nD τ) M9 fullShare w2b ∗ owns (c : Thread nD τ) M10 fullShare b2b)

set_option maxHeartbeats 4000000 in

theorem run4_first (hF : IsFirst4 i) (hL : ¬ IsLast4 i) (O12 O13 : sProp 𝕄) (Q : PUnit → sProp 𝕄) :
    iprop(ins4 c M0 M1 M2 M3 M4 M5 M6 M7 M8 M9 M10 x af ab w1f b1f w2f b2f w1b b1b w2b b2b
      ∗ (∃ d, owns (c : Thread nD τ) M11 fullShare d) ∗ O12 ∗ O13
      ∗ (∃ a, owns (c : Thread nD τ) accS4 fullShare a) ∗ (∃ a, owns (c : Thread nD τ) accQ4 fullShare a)
      ∗ (iprop(ins4 c M0 M1 M2 M3 M4 M5 M6 M7 M8 M9 M10 x af ab w1f b1f w2f b2f w1b b1b w2b b2b
          ∗ owns (c : Thread nD τ) M11 fullShare (out4_11 x af ab w1f b1f w2f b2f w1b b1b w2b b2b) ∗ O12 ∗ O13
          ∗ owns (c : Thread nD τ) accS4 fullShare (sFirst4 x af ab w1f b1f w2f b2f w1b b1b w2b b2b) ∗ owns (c : Thread nD τ) accQ4 fullShare (qFirst4 x af ab w1f b1f w2f b2f w1b b1b w2b b2b)) -∗ Q ⟨⟩))
      ⊢ wp frame (wpE (defs₀ (F := F)) Variants.none c none) Set.univ BODY4 Q := by
  unfold ins4 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, HO12, HO13, ⟨%aS, %fS, -, HS⟩, ⟨%aQ, %fQ, -, HQ⟩, Hk⟩
  subst hf0 hf1 hf2 hf3 hf4 hf5 hf6 hf7 hf8 hf9 hf10
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverB4 _)
  isplitl [HO12]; · iexact HO12
  isplitl [HO13]; · iexact HO13
  isplitl [HS]; · iexists _; isplitr; swap; (· iexact HS); ipureintro; exact View.read_writes_eq_canon _ _ _ (coverV4' _ _)
  iexists _; isplitr; swap; (· iexact HQ); ipureintro; exact View.read_writes_eq_canon _ _ _ (coverV4' _ _)

set_option maxHeartbeats 4000000 in

theorem run4_mid (a b : Vec F S1x32 .f32) (hF : ¬ IsFirst4 i) (hL : ¬ IsLast4 i) (O12 O13 : sProp 𝕄) (Q : PUnit → sProp 𝕄) :
    iprop(ins4 c M0 M1 M2 M3 M4 M5 M6 M7 M8 M9 M10 x af ab w1f b1f w2f b2f w1b b1b w2b b2b
      ∗ (∃ d, owns (c : Thread nD τ) M11 fullShare d) ∗ O12 ∗ O13
      ∗ owns (c : Thread nD τ) accS4 fullShare a ∗ owns (c : Thread nD τ) accQ4 fullShare b
      ∗ (iprop(ins4 c M0 M1 M2 M3 M4 M5 M6 M7 M8 M9 M10 x af ab w1f b1f w2f b2f w1b b1b w2b b2b
          ∗ owns (c : Thread nD τ) M11 fullShare (out4_11 x af ab w1f b1f w2f b2f w1b b1b w2b b2b) ∗ O12 ∗ O13
          ∗ owns (c : Thread nD τ) accS4 fullShare (sStep4 x af ab w1f b1f w2f b2f w1b b1b w2b b2b a) ∗ owns (c : Thread nD τ) accQ4 fullShare (qStep4 x af ab w1f b1f w2f b2f w1b b1b w2b b2b b)) -∗ Q ⟨⟩))
      ⊢ wp frame (wpE (defs₀ (F := F)) Variants.none c none) Set.univ BODY4 Q := by
  unfold ins4 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, HO12, HO13, ⟨%fS, %hfS, HS⟩, ⟨%fQ, %hfQ, HQ⟩, Hk⟩
  subst hf0 hf1 hf2 hf3 hf4 hf5 hf6 hf7 hf8 hf9 hf10 hfS hfQ
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverB4 _)
  isplitl [HO12]; · iexact HO12
  isplitl [HO13]; · iexact HO13
  isplitl [HS]; · iexists _; isplitr; swap; (· iexact HS); ipureintro; exact View.read_writes_eq_canon _ _ _ (coverV4 _)
  iexists _; isplitr; swap; (· iexact HQ); ipureintro; exact View.read_writes_eq_canon _ _ _ (coverV4 _)

set_option maxHeartbeats 4000000 in

theorem run4_last (a b : Vec F S1x32 .f32) (hF : ¬ IsFirst4 i) (hL : IsLast4 i) (Q : PUnit → sProp 𝕄) :
    iprop(ins4 c M0 M1 M2 M3 M4 M5 M6 M7 M8 M9 M10 x af ab w1f b1f w2f b2f w1b b1b w2b b2b
      ∗ (∃ d, owns (c : Thread nD τ) M11 fullShare d) ∗ (∃ d, owns (c : Thread nD τ) M12 fullShare d) ∗ (∃ d, owns (c : Thread nD τ) M13 fullShare d)
      ∗ owns (c : Thread nD τ) accS4 fullShare a ∗ owns (c : Thread nD τ) accQ4 fullShare b
      ∗ (iprop(ins4 c M0 M1 M2 M3 M4 M5 M6 M7 M8 M9 M10 x af ab w1f b1f w2f b2f w1b b1b w2b b2b
          ∗ owns (c : Thread nD τ) M11 fullShare (out4_11 x af ab w1f b1f w2f b2f w1b b1b w2b b2b)
          ∗ owns (c : Thread nD τ) M12 fullShare (out4_12 x af ab w1f b1f w2f b2f w1b b1b w2b b2b a) ∗ owns (c : Thread nD τ) M13 fullShare (out4_13 x af ab w1f b1f w2f b2f w1b b1b w2b b2b b)
          ∗ owns (c : Thread nD τ) accS4 fullShare (sStep4 x af ab w1f b1f w2f b2f w1b b1b w2b b2b a) ∗ owns (c : Thread nD τ) accQ4 fullShare (qStep4 x af ab w1f b1f w2f b2f w1b b1b w2b b2b b)) -∗ Q ⟨⟩))
      ⊢ wp frame (wpE (defs₀ (F := F)) Variants.none c none) Set.univ BODY4 Q := by
  unfold ins4 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, ⟨%d13, %f13, -, H13⟩, ⟨%fS, %hfS, HS⟩, ⟨%fQ, %hfQ, HQ⟩, Hk⟩
  subst hf0 hf1 hf2 hf3 hf4 hf5 hf6 hf7 hf8 hf9 hf10 hfS hfQ
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverB4 _)
  isplitl [H12]; · iexists _; isplitr; swap; (· iexact H12); ipureintro; exact View.read_writes_eq_canon _ _ _ (coverV4 _)
  isplitl [H13]; · iexists _; isplitr; swap; (· iexact H13); ipureintro; exact View.read_writes_eq_canon _ _ _ (coverV4 _)
  isplitl [HS]; · iexists _; isplitr; swap; (· iexact HS); ipureintro; exact View.read_writes_eq_canon _ _ _ (coverV4 _)
  iexists _; isplitr; swap; (· iexact HQ); ipureintro; exact View.read_writes_eq_canon _ _ _ (coverV4 _)

end Runs

def outAt4_11 (c : Dev nD) (t : Fin cfg4.N) : Vec F S10000x32 .f32 := out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)

def accS4At (c : Dev nD) : (k : ℕ) → k < cfg4.N → Vec F S1x32 .f32
  | 0, hk => sFirst4 (iblk4 V c 0 ⟨0, hk⟩) (iblk4 V c 1 ⟨0, hk⟩) (iblk4 V c 2 ⟨0, hk⟩) (iblk4 V c 3 ⟨0, hk⟩) (iblk4 V c 4 ⟨0, hk⟩) (iblk4 V c 5 ⟨0, hk⟩) (iblk4 V c 6 ⟨0, hk⟩) (iblk4 V c 7 ⟨0, hk⟩) (iblk4 V c 8 ⟨0, hk⟩) (iblk4 V c 9 ⟨0, hk⟩) (iblk4 V c 10 ⟨0, hk⟩)
  | k + 1, hk => sStep4 (iblk4 V c 0 ⟨k + 1, hk⟩) (iblk4 V c 1 ⟨k + 1, hk⟩) (iblk4 V c 2 ⟨k + 1, hk⟩) (iblk4 V c 3 ⟨k + 1, hk⟩) (iblk4 V c 4 ⟨k + 1, hk⟩) (iblk4 V c 5 ⟨k + 1, hk⟩) (iblk4 V c 6 ⟨k + 1, hk⟩) (iblk4 V c 7 ⟨k + 1, hk⟩) (iblk4 V c 8 ⟨k + 1, hk⟩) (iblk4 V c 9 ⟨k + 1, hk⟩) (iblk4 V c 10 ⟨k + 1, hk⟩) (accS4At c k (Nat.lt_of_succ_lt hk))

def accQ4At (c : Dev nD) : (k : ℕ) → k < cfg4.N → Vec F S1x32 .f32
  | 0, hk => qFirst4 (iblk4 V c 0 ⟨0, hk⟩) (iblk4 V c 1 ⟨0, hk⟩) (iblk4 V c 2 ⟨0, hk⟩) (iblk4 V c 3 ⟨0, hk⟩) (iblk4 V c 4 ⟨0, hk⟩) (iblk4 V c 5 ⟨0, hk⟩) (iblk4 V c 6 ⟨0, hk⟩) (iblk4 V c 7 ⟨0, hk⟩) (iblk4 V c 8 ⟨0, hk⟩) (iblk4 V c 9 ⟨0, hk⟩) (iblk4 V c 10 ⟨0, hk⟩)
  | k + 1, hk => qStep4 (iblk4 V c 0 ⟨k + 1, hk⟩) (iblk4 V c 1 ⟨k + 1, hk⟩) (iblk4 V c 2 ⟨k + 1, hk⟩) (iblk4 V c 3 ⟨k + 1, hk⟩) (iblk4 V c 4 ⟨k + 1, hk⟩) (iblk4 V c 5 ⟨k + 1, hk⟩) (iblk4 V c 6 ⟨k + 1, hk⟩) (iblk4 V c 7 ⟨k + 1, hk⟩) (iblk4 V c 8 ⟨k + 1, hk⟩) (iblk4 V c 9 ⟨k + 1, hk⟩) (iblk4 V c 10 ⟨k + 1, hk⟩) (accQ4At c k (Nat.lt_of_succ_lt hk))

theorem acc4At_first (c : Dev nD) (t : Fin cfg4.N) (h : t.val = 0) :
    accS4At V c t.val t.isLt = sFirst4 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) ∧ accQ4At V c t.val t.isLt = qFirst4 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by
  obtain ⟨k, hk⟩ := t
  cases k with
  | zero => exact ⟨rfl, rfl⟩
  | succ k => exact absurd h (Nat.succ_ne_zero k)

theorem acc4At_step (c : Dev nD) (t : Fin cfg4.N) (h : t.val ≠ 0) (hp : t.val - 1 < cfg4.N) :
    accS4At V c t.val t.isLt = sStep4 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accS4At V c (t.val - 1) hp) ∧ accQ4At V c t.val t.isLt = qStep4 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accQ4At V c (t.val - 1) hp) := by
  obtain ⟨k, hk⟩ := t
  cases k with
  | zero => exact absurd rfl h
  | succ k => exact ⟨rfl, rfl⟩

def outAt4_12 (c : Dev nD) (t : Fin cfg4.N) : Vec F S1x32 .f32 :=
  if h : t.val = 0 then k4_pay1 else out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accS4At V c (t.val - 1) (by have := t.isLt; omega))

def outAt4_13 (c : Dev nD) (t : Fin cfg4.N) : Vec F S1x32 .f32 :=
  if h : t.val = 0 then k4_pay2 else out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accQ4At V c (t.val - 1) (by have := t.isLt; omega))

def accPart4 (c : Dev nD) (k : Fin (cfg4.N + 1)) : sProp 𝕄 :=
  if h : k.val = 0 then iprop((∃ a, owns (c : Thread nD τ) accS4 fullShare a) ∗ (∃ a, owns (c : Thread nD τ) accQ4 fullShare a))
  else iprop(owns (c : Thread nD τ) accS4 fullShare (accS4At V c (k.val - 1) (by have := k.isLt; omega))
    ∗ owns (c : Thread nD τ) accQ4 fullShare (accQ4At V c (k.val - 1) (by have := k.isLt; omega)))

def Φ4 (c : Dev nD) (k : Fin (cfg4.N + 1)) : sProp 𝕄 :=
  iprop(accPart4 V c k ∗ Pipeline.scopedRestBut spec4 c [cc4_scratch0, cc4_scratch1] ∗ ∃ r, prngReg c r)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => outAt4_11 V c t
    | ⟨12, _⟩ => outAt4_12 V c t
    | ⟨13, _⟩ => outAt4_13 V c t
  Φ k := Φ4 V c k
  q _ := fullShare
  owed _ := 0

theorem A_eq4 (c : Dev nD) (w : Fin cfg4.W) : (dat4 V c).A w = V c (Pipeline.arrRef spec4 w) := by
  dsimp only [dat4]

theorem after4_in (c : Dev nD) (t : Fin cfg4.N) :
    (dat4 V c).after 0 t = iblk4 V c 0 t ∧ (dat4 V c).after 1 t = iblk4 V c 1 t ∧ (dat4 V c).after 2 t = iblk4 V c 2 t ∧ (dat4 V c).after 3 t = iblk4 V c 3 t ∧ (dat4 V c).after 4 t = iblk4 V c 4 t ∧ (dat4 V c).after 5 t = iblk4 V c 5 t ∧ (dat4 V c).after 6 t = iblk4 V c 6 t ∧ (dat4 V c).after 7 t = iblk4 V c 7 t ∧ (dat4 V c).after 8 t = iblk4 V c 8 t ∧ (dat4 V c).after 9 t = iblk4 V c 9 t ∧ (dat4 V c).after 10 t = iblk4 V c 10 t :=
  ⟨rfl, rfl, rfl, rfl, rfl, rfl, rfl, rfl, rfl, rfl, rfl⟩

theorem after4_11 (c : Dev nD) (t : Fin cfg4.N) : (dat4 V c).after 11 t = outAt4_11 V c t := by dsimp only [dat4]

theorem after4_12 (c : Dev nD) (t : Fin cfg4.N) : (dat4 V c).after 12 t = outAt4_12 V c t := by dsimp only [dat4]

theorem after4_13 (c : Dev nD) (t : Fin cfg4.N) : (dat4 V c).after 13 t = outAt4_13 V c t := by dsimp only [dat4]

theorem before4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t) ∧ (∀ d, (dat4 V c).before 3 t d = iblk4 V c 3 t) ∧ (∀ d, (dat4 V c).before 4 t d = iblk4 V c 4 t) ∧ (∀ d, (dat4 V c).before 5 t d = iblk4 V c 5 t) ∧ (∀ d, (dat4 V c).before 6 t d = iblk4 V c 6 t) ∧ (∀ d, (dat4 V c).before 7 t d = iblk4 V c 7 t) ∧ (∀ d, (dat4 V c).before 8 t d = iblk4 V c 8 t) ∧ (∀ d, (dat4 V c).before 9 t d = iblk4 V c 9 t) ∧ (∀ d, (dat4 V c).before 10 t d = iblk4 V c 10 t) := by
  refine ⟨?_, ?_, ?_, ?_, ?_, ?_, ?_, ?_, ?_, ?_, ?_⟩ <;> intro d <;>
    exact ((dat4 V c).before_in_eq_fetched _ rfl (fun _ => rfl) (fun _ _ _ => rfl) (fun _ => rfl) t d).trans rfl

theorem idle4_live : ∀ w : Fin 14, w.val < 12 → ∀ t : Fin cfg4.N, idle4 w (grid4.coords t) = false := by
  intro w
  fin_cases w <;> intro hw t <;> first | rfl | exact absurd hw (by decide)

theorem idle4_last (t : Fin cfg4.N) (h : IsLast4 (grid4.coords t)) : idle4 12 (grid4.coords t) = false ∧ idle4 13 (grid4.coords t) = false := by
  constructor <;> (show (!(k4_cond2 (grid4.coords t) == 1#1)) = false; rw [beq_iff_eq.mpr h]; rfl)

theorem idle4_other (t : Fin cfg4.N) (h : ¬ IsLast4 (grid4.coords t)) : idle4 12 (grid4.coords t) = true ∧ idle4 13 (grid4.coords t) = true := by
  constructor <;> (show (!(k4_cond2 (grid4.coords t) == 1#1)) = true; rw [beq_eq_false_iff_ne.mpr h]; rfl)

theorem flush4_12_other (t : Fin cfg4.N) (h : t.val ≠ 24) : (cfg4.win 12).flush t = false :=
  Bool.eq_false_iff.mpr fun hf => h (by have := (flush4_12 t).mp hf; have hN : t.val < 25 := lt_of_lt_of_eq t.isLt (show cfg4.N = 25 from N_4); omega)

theorem flush4_13_other (t : Fin cfg4.N) (h : t.val ≠ 24) : (cfg4.win 13).flush t = false :=
  Bool.eq_false_iff.mpr fun hf => h (by have := (flush4_13 t).mp hf; have hN : t.val < 25 := lt_of_lt_of_eq t.isLt (show cfg4.N = 25 from N_4); omega)

theorem Φ4_pre_first (c : Dev nD) (t : Fin cfg4.N) (h : t.val = 0) :
    (dat4 V c).Φ t.castSucc = iprop(iprop((∃ a, owns (c : Thread nD τ) accS4 fullShare a) ∗ (∃ a, owns (c : Thread nD τ) accQ4 fullShare a))
      ∗ Pipeline.scopedRestBut spec4 c [cc4_scratch0, cc4_scratch1] ∗ ∃ r, prngReg c r) := by
  show Φ4 V c _ = _; unfold Φ4 accPart4; rw [dif_pos (by exact h)]

theorem Φ4_pre_other (c : Dev nD) (t : Fin cfg4.N) (h : t.val ≠ 0) (hp : t.val - 1 < cfg4.N) :
    (dat4 V c).Φ t.castSucc = iprop(iprop(owns (c : Thread nD τ) accS4 fullShare (accS4At V c (t.val - 1) hp) ∗ owns (c : Thread nD τ) accQ4 fullShare (accQ4At V c (t.val - 1) hp))
      ∗ Pipeline.scopedRestBut spec4 c [cc4_scratch0, cc4_scratch1] ∗ ∃ r, prngReg c r) := by
  show Φ4 V c _ = _; unfold Φ4 accPart4; rw [dif_neg (by exact h)]; rfl

theorem Φ4_post (c : Dev nD) (t : Fin cfg4.N) :
    (dat4 V c).Φ t.succ = iprop(iprop(owns (c : Thread nD τ) accS4 fullShare (accS4At V c t.val t.isLt) ∗ owns (c : Thread nD τ) accQ4 fullShare (accQ4At V c t.val t.isLt))
      ∗ Pipeline.scopedRestBut spec4 c [cc4_scratch0, cc4_scratch1] ∗ ∃ r, prngReg c r) := by
  show Φ4 V c _ = _; unfold Φ4 accPart4; rw [dif_neg (by exact Nat.succ_ne_zero t.val)]; rfl

theorem outAt4_12_pos (c : Dev nD) (t : Fin cfg4.N) (h : t.val ≠ 0) (hp : t.val - 1 < cfg4.N) :
    outAt4_12 V c t = out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accS4At V c (t.val - 1) hp) := by
  unfold outAt4_12; rw [dif_neg h]

theorem outAt4_13_pos (c : Dev nD) (t : Fin cfg4.N) (h : t.val ≠ 0) (hp : t.val - 1 < cfg4.N) :
    outAt4_13 V c t = out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accQ4At V c (t.val - 1) hp) := by
  unfold outAt4_13; rw [dif_neg h]

set_option maxHeartbeats 4000000 in
theorem body_obligation4 (c : Dev nD) : BodyObligation (dat4 (F := F) V c) (defs₀ (F := F)) Variants.none () Set.univ := fun t => by
  rw [bigSep_W4, bigSep_W4]
  rw [show (dat4 V c).owesAt () t.succ = (dat4 V c).owesAt () t.castSucc from rfl]
  have hN : t.val < 25 := lt_of_lt_of_eq t.isLt (show cfg4.N = 25 from N_4)
  by_cases hL : IsLast4 (grid4.coords t)
  · have h24 : t.val = 24 := (isLast4_iff t).mp hL
    have hF : ¬ IsFirst4 (grid4.coords t) := fun h => by have := (isFirst4_iff t).mp h; omega
    have hp : t.val - 1 < cfg4.N := by have := t.isLt; omega
    simp (disch := decide) only [idle4_live, idle4_last t hL, outAt4_12_pos V c t (by omega) hp, outAt4_13_pos V c t (by omega) hp,
      before4 V c t, after4_in V c t, after4_11, after4_12, after4_13]
    rw [Φ4_pre_other V c t (by omega) hp, Φ4_post V c t, (acc4At_step V c t (by omega) hp).1, (acc4At_step V c t (by omega) hp).2]
    iintro ⟨⟨⟨HS, HQ⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run4_last c (grid4.coords t) _ _ _ _ _ _ _ _ _ _ _ _ _ _ _ _ _ _ _ _ _ _ _ _ _ _ _ _
      (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accS4At V c (t.val - 1) hp) (accQ4At V c (t.val - 1) hp) hF hL)
    unfold ins4
    iframe H0 H1 H2 H3 H4 H5 H6 H7 H8 H9 H10 HS HQ
    isplitl [H11]; · iexists _; iexact H11
    isplitl [H12]; · iexists _; iexact H12
    isplitl [H13]; · iexists _; iexact H13
    iintro ⟨⟨H0, H1, H2, H3, H4, H5, H6, H7, H8, H9, H10⟩, H11, H12, H13, HS, HQ⟩
    iframe; iexact H11
  · have h24 : t.val ≠ 24 := fun h => hL ((isLast4_iff t).mpr h)
    simp (disch := decide) only [idle4_live, idle4_other t hL, flush4_12_other t h24, flush4_13_other t h24,
      before4 V c t, after4_in V c t, after4_11, after4_12, after4_13]
    by_cases hF : IsFirst4 (grid4.coords t)
    · have h0 : t.val = 0 := (isFirst4_iff t).mp hF
      rw [Φ4_pre_first V c t h0, Φ4_post V c t, (acc4At_first V c t h0).1, (acc4At_first V c t h0).2]
      iintro ⟨⟨⟨HS, HQ⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
      iapply (run4_first c (grid4.coords t) _ _ _ _ _ _ _ _ _ _ _ _ _ _ _ _ _ _ _ _ _ _ _ _ _ _ _ _
        (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) hF hL _ _)
      unfold ins4
      iframe H0 H1 H2 H3 H4 H5 H6 H7 H8 H9 H10 H12 H13 HS HQ
      isplitl [H11]; · iexists _; iexact H11
      iintro ⟨⟨H0, H1, H2, H3, H4, H5, H6, H7, H8, H9, H10⟩, H11, H12, H13, HS, HQ⟩
      iframe; iexact H11
    · have h0 : t.val ≠ 0 := fun h => hF ((isFirst4_iff t).mpr h)
      have hp : t.val - 1 < cfg4.N := by have := t.isLt; omega
      rw [Φ4_pre_other V c t h0 hp, Φ4_post V c t, (acc4At_step V c t h0 hp).1, (acc4At_step V c t h0 hp).2]
      iintro ⟨⟨⟨HS, HQ⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
      iapply (run4_mid c (grid4.coords t) _ _ _ _ _ _ _ _ _ _ _ _ _ _ _ _ _ _ _ _ _ _ _ _ _ _ _ _
        (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accS4At V c (t.val - 1) hp) (accQ4At V c (t.val - 1) hp) hF hL _ _)
      unfold ins4
      iframe H0 H1 H2 H3 H4 H5 H6 H7 H8 H9 H10 H12 H13 HS HQ
      isplitl [H11]; · iexists _; iexact H11
      iintro ⟨⟨H0, H1, H2, H3, H4, H5, H6, H7, H8, H9, H10⟩, H11, H12, H13, HS, HQ⟩
      iframe; iexact H11

theorem accPart4_zero (c : Dev nD) : accPart4 V c 0 = iprop((∃ a, owns (c : Thread nD τ) accS4 fullShare a) ∗ (∃ a, owns (c : Thread nD τ) accQ4 fullShare a)) := by
  unfold accPart4; exact dif_pos rfl

theorem accPart4_last (c : Dev nD) : accPart4 V c (Fin.last cfg4.N) = iprop(owns (c : Thread nD τ) accS4 fullShare (accS4At V c (cfg4.N - 1) (by rw [show cfg4.N = 25 from N_4]; omega))
    ∗ owns (c : Thread nD τ) accQ4 fullShare (accQ4At V c (cfg4.N - 1) (by rw [show cfg4.N = 25 from N_4]; omega))) := by
  unfold accPart4; exact dif_neg (by show ¬ cfg4.N = 0; rw [show cfg4.N = 25 from N_4]; omega)

theorem hin4 (c : Dev nD) : (iprop((∃ r, prngReg c r) ∗ Pipeline.scopedRest spec4 c) : sProp 𝕄) ⊢ (dat4 V c).Φ 0 := by
  rw [scopedRest4_split, show (dat4 V c).Φ 0 = Φ4 V c 0 from rfl]
  unfold Φ4; rw [accPart4_zero]
  iintro ⟨Hp, ⟨⟨%f, Hf⟩, ⟨%g, Hg⟩⟩, HR⟩
  isplitl [Hf Hg]
  · isplitl [Hf]
    · iexists f; rw [owns_whole_eq]; iexists f; isplitr; (· ipureintro; rfl); iexact Hf
    · iexists g; rw [owns_whole_eq]; iexists g; isplitr; (· ipureintro; rfl); iexact Hg
  isplitl [HR]; · iexact HR
  iexact Hp

theorem hout4 (c : Dev nD) : (dat4 V c).Φ (Fin.last cfg4.N) ⊢ (iprop((∃ r, prngReg c r) ∗ Pipeline.scopedRest spec4 c) : sProp 𝕄) := by
  rw [scopedRest4_split, show (dat4 V c).Φ (Fin.last cfg4.N) = Φ4 V c (Fin.last cfg4.N) from rfl]
  unfold Φ4; rw [accPart4_last]; simp only [owns_whole_eq]
  iintro ⟨⟨⟨%f, %hf, Hf⟩, ⟨%g, %hg, Hg⟩⟩, HR, Hp⟩
  isplitl [Hp]; · iexact Hp
  isplitl [Hf Hg]
  · isplitl [Hf]
    · iexists f; iexact Hf
    · iexists g; iexact Hg
  iexact HR

end Cert.Kernel.Hand

end
-- ==== Proof.K.R5.lean ====
import proofs.«427087_j34256659153343_2_alg».proof.Proof.Gen.Kernel.Launch

import proofs.«427087_j34256659153343_2_alg».proof.Proof.Gen.Kernel.Skeleton

import proofs.«427087_j34256659153343_2_alg».proof.Proof.Gen.Kernel.Points

import Idealize.ShloMosaic.Lib.Pipeline.FrameBody

import Idealize.ShloMosaic.Lib.Pipeline.RegionsLoop

import Idealize.ShloMosaic.Lib.Pipeline.FrameSuffix

import Idealize.ShloMosaic.Lib.Ring

import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

abbrev whole5 : Rect S10000x32 := Rect.unit (s := S10000x32) ![0, 0] S10000x32.size inb_S10000x32_S10000x32_0_0

abbrev row5 : Rect S1x32 := Rect.unit (s := S1x32) ![0, 0] S1x32.size inb_S1x32_S1x32_0_0

def res5 (o : Vec F S10000x32 .f32) (mean var g b : Vec F S1x32 .f32) : Vec F S10000x32 .f32 :=
  View.canon [⟨whole5, k5_pay1 (View.ld var row5) (View.ld o whole5) (View.ld mean row5) (View.ld g row5) (View.ld b row5)⟩]

def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => blk5 V c 4 t
    | ⟨5, _⟩ => res5 (blk5 V c 0 t) (blk5 V c 1 t) (blk5 V c 2 t) (blk5 V c 3 t) (blk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_in (c : Dev nD) :
    (∀ t, (dat5 V c).after 0 t = blk5 V c 0 t) ∧ (∀ t, (dat5 V c).after 1 t = blk5 V c 1 t) ∧ (∀ t, (dat5 V c).after 2 t = blk5 V c 2 t)
      ∧ (∀ t, (dat5 V c).after 3 t = blk5 V c 3 t) ∧ (∀ t, (dat5 V c).after 4 t = blk5 V c 4 t) := by
  dsimp only [dat5]; exact ⟨fun _ => rfl, fun _ => rfl, fun _ => rfl, fun _ => rfl, fun _ => rfl⟩

theorem after5_5 (c : Dev nD) (t : Fin cfg5.N) :
    (dat5 V c).after 5 t = res5 (blk5 V c 0 t) (blk5 V c 1 t) (blk5 V c 2 t) (blk5 V c 3 t) (blk5 V c 4 t) := by dsimp only [dat5]

theorem before5_in (c : Dev nD) (t : Fin cfg5.N) :
    (∀ d, (dat5 V c).before 0 t d = blk5 V c 0 t) ∧ (∀ d, (dat5 V c).before 1 t d = blk5 V c 1 t)
      ∧ (∀ d, (dat5 V c).before 2 t d = blk5 V c 2 t) ∧ (∀ d, (dat5 V c).before 3 t d = blk5 V c 3 t)
      ∧ (∀ d, (dat5 V c).before 4 t d = blk5 V c 4 t) := by
  obtain ⟨a0, a1, a2, a3, a4⟩ := after5_in V c
  refine ⟨fun d => ?_, fun d => ?_, fun d => ?_, fun d => ?_, fun d => ?_⟩ <;>
    exact Eq.trans (Dat.before_in_eq_fetched _ _ rfl (fun _ => rfl) (fun _ _ _ => rfl)
      (fun t => by simp only [a0, a1, a2, a3, a4]; unfold Dat.blockOf blk5; rw [A_eq5]; try rfl) t d)
      (by unfold Dat.fetched Dat.blockOf blk5; rw [A_eq5]; try rfl)

set_option maxHeartbeats 1000000 in
theorem body_obligation5 (c : Dev nD) : BodyObligation (dat5 (F := F) V c) (defs₀ (F := F)) Variants.none () Set.univ := fun t => by
  obtain ⟨b0, b1, b2, b3, b4⟩ := before5_in V c t
  obtain ⟨a0, a1, a2, a3, a4⟩ := after5_in V c
  rw [show (dat5 V c).Φ t.succ = (dat5 V c).Φ t.castSucc from rfl,
    show (dat5 V c).owesAt () t.succ = (dat5 V c).owesAt () t.castSucc from rfl]
  simp only [bigSep_W5, b0, b1, b2, b3, b4, a0, a1, a2, a3, a4, after5_5]
  show _ ⊢ wp _ _ _ (bodyAt5 (F := F) t) _
  unfold bodyAt5
  generalize blk5 V c 0 t = o; generalize blk5 V c 1 t = mean; generalize blk5 V c 2 t = var
  generalize blk5 V c 3 t = g; generalize blk5 V c 4 t = b
  simp only [cc5__bn_kernel_eq_skeleton]; unfold cc5__bn_kernel_skel
  unfold owns
  iintro ⟨HΦ, Ho, ⟨%d0, %f1, %hf1, H1⟩, ⟨%d1, %f2, %hf2, H2⟩, ⟨%d2, %f3, %hf3, H3⟩, ⟨%d3, %f4, %hf4, H4⟩, ⟨%d4, %f5, %hf5, H5⟩, ⟨%d5, %f6, -, H6⟩⟩
  subst hf1 hf2 hf3 hf4 hf5
  sl_exec
  sl_step
  isplitl [HΦ]; · iexact HΦ
  isplitl [Ho]; · iexact Ho
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x32.size (by rfl))

theorem hin5 (c : Dev nD) :
    (iprop((∃ r, prngReg c r) ∗ Pipeline.scopedRest spec5 c) : sProp 𝕄) ⊢ (dat5 V c).Φ 0 := sep_symm

theorem hout5 (c : Dev nD) :
    (dat5 V c).Φ (Fin.last cfg5.N) ⊢ (iprop((∃ r, prngReg c r) ∗ Pipeline.scopedRest spec5 c) : sProp 𝕄) := sep_symm

end Cert.Kernel.Hand

end
-- ==== Proof.K.R6.lean ====
import proofs.«427087_j34256659153343_2_alg».proof.Proof.Gen.Kernel.Launch
import proofs.«427087_j34256659153343_2_alg».proof.Proof.Gen.Kernel.Skeleton
import proofs.«427087_j34256659153343_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev sumM6 : Memref sig .tc .vmem S512x32 .f32 := Memref.whole cc6_scratch0

abbrev cntM6 : Memref sig .tc .vmem S512x1 .f32 := Memref.whole cc6_scratch1

theorem hz6 : (![0, 0] : Fin 2 → Nat) = fun _ => 0 := funext fun a => by fin_cases a <;> rfl

abbrev IsFirst6 (i : grid6.Coords) : Prop :=
  Scalar.cmpi .ne (Scalar.extui (Scalar.cmpi .eq (BitVec.ofNat 32 (i 0).val) 0#32)) 0#32 = 1#1

abbrev IsLast6 (i : grid6.Coords) : Prop := k6_cond2 i = 1#1

theorem isFirst6_iff : ∀ t : Fin cfg6.N, IsFirst6 (grid6.coords t) ↔ t.val = 0 :=
  (by decide +kernel : ∀ t : Fin grid6.N, IsFirst6 (grid6.coords t) ↔ t.val = 0)

theorem isLast6_iff : ∀ t : Fin cfg6.N, IsLast6 (grid6.coords t) ↔ t.val = 124 :=
  (by decide +kernel : ∀ t : Fin grid6.N, IsLast6 (grid6.coords t) ↔ t.val = 124)

theorem N6_eq : cfg6.N = 125 := N_6

theorem idle6_6_of_last (t : Fin cfg6.N) (h : IsLast6 (grid6.coords t)) : idle6 6 (grid6.coords t) = false := by
  show (!(k6_cond2 (grid6.coords t) == 1#1)) = false
  rw [beq_iff_eq.mpr h]; rfl

theorem idle6_6_of_not_last (t : Fin cfg6.N) (h : ¬ IsLast6 (grid6.coords t)) : idle6 6 (grid6.coords t) = true := by
  show (!(k6_cond2 (grid6.coords t) == 1#1)) = true
  rw [beq_eq_false_iff_ne.mpr h]; rfl

theorem flush6_6_of_not_last (t : Fin cfg6.N) (h : ¬ IsLast6 (grid6.coords t)) : (cfg6.win 6).flush t = false :=
  Bool.eq_false_iff.mpr fun hf => h ((isLast6_iff t).mpr (by
    have := (flush6_6 t).mp hf; have hN := lt_of_lt_of_eq t.isLt N6_eq; omega))

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev hblk6 (c : Dev nD) (t : Fin cfg6.N) : Vec F S2000x32 .f32 := iblk6 V c 0 t

abbrev bblk6 (c : Dev nD) (t : Fin cfg6.N) : Vec F S2000x1 .i32 := iblk6 V c 1 t

abbrev lbW6 (c : Dev nD) (t : Fin cfg6.N) : Vec F S32x16 .f32 := iblk6 V c 2 t

abbrev lbb6 (c : Dev nD) (t : Fin cfg6.N) : Vec F S1x16 .f32 := iblk6 V c 3 t

abbrev lmW6 (c : Dev nD) (t : Fin cfg6.N) : Vec F S16x1 .f32 := iblk6 V c 4 t

abbrev lmb6 (c : Dev nD) (t : Fin cfg6.N) : Vec F S1x1 .f32 := iblk6 V c 5 t

def accS6 (c : Dev nD) : (k : ℕ) → k < cfg6.N → Vec F S512x32 .f32
  | 0, hk => k6_pay4 (hblk6 V c ⟨0, hk⟩) (bblk6 V c ⟨0, hk⟩) (k6_pay1 (F := F))
  | k + 1, hk => k6_pay4 (hblk6 V c ⟨k + 1, hk⟩) (bblk6 V c ⟨k + 1, hk⟩) (accS6 c k (Nat.lt_of_succ_lt hk))

def accC6 (c : Dev nD) : (k : ℕ) → k < cfg6.N → Vec F S512x1 .f32
  | 0, hk => k6_pay5 (bblk6 V c ⟨0, hk⟩) (k6_pay2 (F := F))
  | k + 1, hk => k6_pay5 (bblk6 V c ⟨k + 1, hk⟩) (accC6 c k (Nat.lt_of_succ_lt hk))

theorem accS6_zero (c : Dev nD) (t : Fin cfg6.N) (h : t.val = 0) :
    accS6 V c t.val t.isLt = k6_pay4 (hblk6 V c t) (bblk6 V c t) (k6_pay1 (F := F)) := by
  obtain ⟨k, hk⟩ := t; obtain rfl : k = 0 := h; rfl

theorem accS6_succ (c : Dev nD) (t : Fin cfg6.N) (h : t.val ≠ 0) (hp : t.val - 1 < cfg6.N) :
    accS6 V c t.val t.isLt = k6_pay4 (hblk6 V c t) (bblk6 V c t) (accS6 V c (t.val - 1) hp) := by
  obtain ⟨_ | k, hk⟩ := t
  · exact absurd rfl h
  · rfl

theorem accC6_zero (c : Dev nD) (t : Fin cfg6.N) (h : t.val = 0) :
    accC6 V c t.val t.isLt = k6_pay5 (bblk6 V c t) (k6_pay2 (F := F)) := by
  obtain ⟨k, hk⟩ := t; obtain rfl : k = 0 := h; rfl

theorem accC6_succ (c : Dev nD) (t : Fin cfg6.N) (h : t.val ≠ 0) (hp : t.val - 1 < cfg6.N) :
    accC6 V c t.val t.isLt = k6_pay5 (bblk6 V c t) (accC6 V c (t.val - 1) hp) := by
  obtain ⟨_ | k, hk⟩ := t
  · exact absurd rfl h
  · rfl

def out6 (c : Dev nD) (t : Fin cfg6.N) : Vec F S512x1 .f32 :=
  k6_pay6 (accS6 V c t.val t.isLt) (accC6 V c t.val t.isLt) (lbW6 V c t) (lmW6 V c t) (lbb6 V c t) (lmb6 V c t)

def accPart6 (c : Dev nD) (k : Fin (cfg6.N + 1)) : sProp 𝕄 :=
  if h : k.val = 0 then
    iprop((∃ a, owns (c : Thread nD τ) sumM6 fullShare a) ∗ (∃ n, owns (c : Thread nD τ) cntM6 fullShare n))
  else
    iprop(owns (c : Thread nD τ) sumM6 fullShare (accS6 V c (k.val - 1) (by have := k.isLt; omega))
      ∗ owns (c : Thread nD τ) cntM6 fullShare (accC6 V c (k.val - 1) (by have := k.isLt; omega)))

def Φ6 (c : Dev nD) (k : Fin (cfg6.N + 1)) : sProp 𝕄 :=
  iprop(accPart6 V c k ∗ (∃ r, prngReg c r)
    ∗ Pipeline.scopedRestBut (Ix := Unit) (Name := ℕ) (U := UR sig nD τ) (Lvl := ℕ) (Val := Elt F) spec6 c [cc6_scratch0, cc6_scratch1])

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6 V c t
  Φ k := Φ6 V c k
  q _ := fullShare
  owed _ := 0

theorem A_eq6 (c : Dev nD) (w : Fin cfg6.W) : (dat6 V c).A w = V c (Pipeline.arrRef spec6 w) := rfl

theorem after6_6 (c : Dev nD) (t : Fin cfg6.N) : (dat6 V c).after 6 t = out6 V c t := rfl

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl

theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl

theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl

theorem before6_4 (c : Dev nD) (t : Fin cfg6.N) (d) : (dat6 V c).before 4 t d = iblk6 V c 4 t :=
  ((dat6 V c).before_in_eq_fetched 4 rfl (fun _ => rfl) (fun _ _ _ => rfl) (fun _ => rfl) t d).trans rfl

theorem before6_5 (c : Dev nD) (t : Fin cfg6.N) (d) : (dat6 V c).before 5 t d = iblk6 V c 5 t :=
  ((dat6 V c).before_in_eq_fetched 5 rfl (fun _ => rfl) (fun _ _ _ => rfl) (fun _ => rfl) t d).trans rfl

-- After a last store through the whole buffer, the buffer reads as the stored payload, whatever was stored before.
theorem read_store6 {κ : Kind} {sp : Space} {S : Shape} {e : EltTy} (v : View sig κ sp S e) (f : v.ty.Contents (Elt F))
    {off : Fin S.rank → Nat} (h : off = fun _ => 0) (inb : ∀ a, off a + S.size a ≤ S.size a) (p : S.Idx → Elt F e)
    (L : List (View.Piece (Elt F) S e)) :
    v.read (Elt F) (v.writes (Elt F) f (⟨Rect.unit off S.size inb, p⟩ :: L)) = p := by
  rw [View.read_writes_eq_canon _ _ _ fun y => ⟨_, List.mem_cons_self, View.mem_set_unit_zero h inb y⟩,
    View.canon_cons_unit_zero h]

section Runs

variable (c : Dev nD) (i : grid6.Coords)
  (M0 : Memref sig .tc .vmem S2000x32 .f32) (h0 : M0.IsWhole) (M1 : Memref sig .tc .vmem S2000x1 .i32) (h1 : M1.IsWhole)
  (M2 : Memref sig .tc .vmem S32x16 .f32) (h2 : M2.IsWhole) (M3 : Memref sig .tc .vmem S1x16 .f32) (h3 : M3.IsWhole)
  (M4 : Memref sig .tc .vmem S16x1 .f32) (h4 : M4.IsWhole) (M5 : Memref sig .tc .vmem S1x1 .f32) (h5 : M5.IsWhole)
  (M6 : Memref sig .tc .vmem S512x1 .f32) (h6 : M6.IsWhole)
  (x0 : Vec F S2000x32 .f32) (x1 : Vec F S2000x1 .i32) (x2 : Vec F S32x16 .f32) (x3 : Vec F S1x16 .f32)
  (x4 : Vec F S16x1 .f32) (x5 : Vec F S1x1 .f32) (a : Vec F S512x32 .f32) (n : Vec F S512x1 .f32)

local notation "POOL" => cc6__pool_kernel i M0 h0 M1 h1 M2 h2 M3 h3 M4 h4 M5 h5 M6 h6 (Memref.whole cc6_scratch0) (Memref.isWhole_whole _) (Memref.whole cc6_scratch1) (Memref.isWhole_whole _)

-- One block's accumulation; at the first block the sums restart from zero.
set_option maxHeartbeats 2000000 in
theorem run6_acc (hL : ¬ IsLast6 i) (Q : PUnit → sProp 𝕄) :
    iprop(owns (c : Thread nD τ) M0 fullShare x0 ∗ owns (c : Thread nD τ) M1 fullShare x1
      ∗ owns (c : Thread nD τ) sumM6 fullShare a ∗ owns (c : Thread nD τ) cntM6 fullShare n
      ∗ (iprop(owns (c : Thread nD τ) M0 fullShare x0 ∗ owns (c : Thread nD τ) M1 fullShare x1
          ∗ owns (c : Thread nD τ) sumM6 fullShare (k6_pay4 x0 x1 (if IsFirst6 i then k6_pay1 (F := F) else a))
          ∗ owns (c : Thread nD τ) cntM6 fullShare (k6_pay5 x1 (if IsFirst6 i then k6_pay2 (F := F) else n))) -∗ Q ⟨⟩))
      ⊢ wp frame (wpE (defs₀ (F := F)) Variants.none c none) Set.univ POOL Q := by
  by_cases hF : IsFirst6 i <;> first | rw [if_pos hF, if_pos hF] | rw [if_neg hF, if_neg hF]
  all_goals
    unfold owns
    iintro ⟨⟨%f0, %hf0, H0⟩, ⟨%f1, %hf1, H1⟩, ⟨%fa, %hfa, Ha⟩, ⟨%fn, %hfn, Hn⟩, Hk⟩
    subst hf0 hf1 hfa hfn
    sl_unfold [cc6__pool_kernel]
    sl_exec! (disch := assumption)
    sl_step
    sl_unfold_words
    simp only [View.readAt_eq_ld, View.ld_unit_zero (S := S2000x32) hz6, View.ld_unit_zero (S := S2000x1) hz6, View.ld_unit_zero (S := S512x32) hz6, View.ld_unit_zero (S := S512x1) hz6, View.readCov_unit_zero (S := S512x32) _ hz6, View.readCov_unit_zero (S := S512x1) _ hz6]
    iapply Hk
    isplitl [H0]; · iexists f0; isplitr; (· ipureintro; rfl); iexact H0
    isplitl [H1]; · iexists f1; isplitr; (· ipureintro; rfl); iexact H1
    isplitl [Ha]
    · iexists _; isplitr; swap; (· iexact Ha); ipureintro
      exact read_store6 (S := S512x32) _ _ hz6 _ _ _
    · iexists _; isplitr; swap; (· iexact Hn); ipureintro
      exact read_store6 (S := S512x1) _ _ hz6 _ _ _

-- The last block: accumulate, then the head applied to the finished sums.
set_option maxHeartbeats 4000000 in
theorem run6_last (hF : ¬ IsFirst6 i) (hL : IsLast6 i) (d : Vec F S512x1 .f32) (Q : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5
      ∗ owns (c : Thread nD τ) M6 fullShare d ∗ owns (c : Thread nD τ) sumM6 fullShare a ∗ owns (c : Thread nD τ) cntM6 fullShare n
      ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5
          ∗ owns (c : Thread nD τ) M6 fullShare (k6_pay6 (k6_pay4 x0 x1 a) (k6_pay5 x1 n) x2 x4 x3 x5)
          ∗ owns (c : Thread nD τ) sumM6 fullShare (k6_pay4 x0 x1 a) ∗ owns (c : Thread nD τ) cntM6 fullShare (k6_pay5 x1 n)) -∗ Q ⟨⟩))
      ⊢ wp frame (wpE (defs₀ (F := F)) Variants.none c none) Set.univ POOL Q := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fa, %hfa, Ha⟩, ⟨%fn, %hfn, Hn⟩, Hk⟩
  subst hf0 hf1 hf2 hf3 hf4 hf5 hf6 hfa hfn
  sl_unfold [cc6__pool_kernel]
  sl_exec! (disch := assumption)
  sl_step
  sl_unfold_words
  simp only [View.readAt_eq_ld, View.ld_unit_zero (S := S2000x32) hz6, View.ld_unit_zero (S := S2000x1) hz6, View.ld_unit_zero (S := S512x32) hz6, View.ld_unit_zero (S := S512x1) hz6, View.ld_unit_zero (S := S32x16) hz6, View.ld_unit_zero (S := S16x1) hz6, View.ld_unit_zero (S := S1x16) hz6, View.ld_unit_zero (S := S1x1) hz6, View.readCov_unit_zero (S := S512x32) _ hz6, View.readCov_unit_zero (S := S512x1) _ hz6]
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]
  · iexists _; isplitr; swap; (· iexact H6); ipureintro
    exact read_store6 (S := S512x1) _ _ hz6 _ _ _
  isplitl [Ha]
  · iexists _; isplitr; swap; (· iexact Ha); ipureintro
    exact read_store6 (S := S512x32) _ _ hz6 _ _ _
  · iexists _; isplitr; swap; (· iexact Hn); ipureintro
    exact read_store6 (S := S512x1) _ _ hz6 _ _ _

end Runs

-- Before any block the accumulators hold anything; after block `j` they hold the sums over blocks `0..j`.
theorem accPart6_zero (c : Dev nD) (k : Fin (cfg6.N + 1)) (h : k.val = 0) : accPart6 V c k
    = iprop((∃ a, owns (c : Thread nD τ) sumM6 fullShare a) ∗ (∃ n, owns (c : Thread nD τ) cntM6 fullShare n)) := by
  unfold accPart6; exact dif_pos h

theorem accPart6_succ (c : Dev nD) (k : Fin (cfg6.N + 1)) (j : ℕ) (hj : j < cfg6.N) (h : k.val = j + 1) : accPart6 V c k
    = iprop(owns (c : Thread nD τ) sumM6 fullShare (accS6 V c j hj) ∗ owns (c : Thread nD τ) cntM6 fullShare (accC6 V c j hj)) := by
  obtain rfl : j = k.val - 1 := by omega
  unfold accPart6; exact dif_neg (by omega)

def bodyPre6 (c : Dev nD) (t : Fin cfg6.N) : sProp 𝕄 :=
  iprop(Φ6 V c t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop(Φ6 V c t.succ ∗ (dat6 V c).owesAt () t.castSucc
    ∗ owns (c : Thread nD τ) (st6_0 t) fullShare (iblk6 V c 0 t)
    ∗ owns (c : Thread nD τ) (st6_1 t) fullShare (iblk6 V c 1 t)
    ∗ owns (c : Thread nD τ) (st6_2 t) fullShare (iblk6 V c 2 t)
    ∗ owns (c : Thread nD τ) (st6_3 t) fullShare (iblk6 V c 3 t)
    ∗ owns (c : Thread nD τ) (st6_4 t) fullShare (iblk6 V c 4 t)
    ∗ owns (c : Thread nD τ) (st6_5 t) fullShare (iblk6 V c 5 t)
    ∗ (dat6 V c).leavesExact 6 t)

set_option maxHeartbeats 1600000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6 Φ6
  simp only [before6_0, before6_1, before6_2, before6_3, before6_4, before6_5]
  rw [accPart6_succ V c t.succ t.val t.isLt rfl]
  have hN : t.val < 125 := lt_of_lt_of_eq t.isLt N6_eq
  by_cases hL : IsLast6 (grid6.coords t)
  · have h124 : t.val = 124 := (isLast6_iff t).mp hL
    have h0 : t.val ≠ 0 := by omega
    have hF : ¬ IsFirst6 (grid6.coords t) := fun h => h0 ((isFirst6_iff t).mp h)
    rw [show (dat6 V c).leavesExact 6 t = owns (c : Thread nD τ) (st6_6 t) fullShare (out6 V c t) from by
      unfold Dat.leavesExact; rw [show cfg6.idle 6 (cfg6.grid.coords t) = false from idle6_6_of_last t hL]; rfl,
      accPart6_succ V c t.castSucc (t.val - 1) (by omega) (by show t.val = _; omega)]
    unfold out6
    rw [accS6_succ V c t h0 (by omega), accC6_succ V c t h0 (by omega)]
    iintro ⟨⟨⟨Ha, Hn⟩, Hp, Hr⟩, Ho, ⟨%d0, H0⟩, ⟨%d1, H1⟩, ⟨%d2, H2⟩, ⟨%d3, H3⟩, ⟨%d4, H4⟩, ⟨%d5, H5⟩, ⟨%d6, H6⟩⟩
    iapply (run6_last c (grid6.coords t) _ _ _ _ _ _ _ _ _ _ _ _ _ _ (iblk6 V c 0 t) (iblk6 V c 1 t) (iblk6 V c 2 t) (iblk6 V c 3 t) (iblk6 V c 4 t) (iblk6 V c 5 t) _ _ hF hL _ _)
    iframe H0 H1 H2 H3 H4 H5 H6 Ha Hn
    iintro ⟨H0, H1, H2, H3, H4, H5, H6, Ha, Hn⟩
    iframe
  · rw [(dat6 V c).leavesExact_idle 6 t (idle6_6_of_not_last t hL) (flush6_6_of_not_last t hL)]
    by_cases hF : IsFirst6 (grid6.coords t)
    · have h0 : t.val = 0 := (isFirst6_iff t).mp hF
      rw [accPart6_zero V c t.castSucc h0, accS6_zero V c t h0, accC6_zero V c t h0]
      iintro ⟨⟨⟨⟨%a, Ha⟩, ⟨%n, Hn⟩⟩, Hp, Hr⟩, Ho, ⟨%d0, H0⟩, ⟨%d1, H1⟩, ⟨%d2, H2⟩, ⟨%d3, H3⟩, ⟨%d4, H4⟩, ⟨%d5, H5⟩, H6⟩
      iapply (run6_acc c (grid6.coords t) _ _ _ _ _ _ _ _ _ _ _ _ _ _ (iblk6 V c 0 t) (iblk6 V c 1 t) _ _ hL _)
      rw [if_pos hF, if_pos hF]
      iframe H0 H1 Ha Hn
      iintro ⟨H0, H1, Ha, Hn⟩
      iframe
    · have h0 : t.val ≠ 0 := fun h => hF ((isFirst6_iff t).mpr h)
      rw [accPart6_succ V c t.castSucc (t.val - 1) (by omega) (by show t.val = _; omega),
        accS6_succ V c t h0 (by omega), accC6_succ V c t h0 (by omega)]
      iintro ⟨⟨⟨Ha, Hn⟩, Hp, Hr⟩, Ho, ⟨%d0, H0⟩, ⟨%d1, H1⟩, ⟨%d2, H2⟩, ⟨%d3, H3⟩, ⟨%d4, H4⟩, ⟨%d5, H5⟩, H6⟩
      iapply (run6_acc c (grid6.coords t) _ _ _ _ _ _ _ _ _ _ _ _ _ _ (iblk6 V c 0 t) (iblk6 V c 1 t) _ _ hL _)
      rw [if_neg hF, if_neg hF]
      iframe H0 H1 Ha Hn
      iintro ⟨H0, H1, Ha, Hn⟩
      iframe

theorem body_obligation6 (c : Dev nD) : BodyObligation (dat6 (F := F) V c) (defs₀ (F := F)) Variants.none () Set.univ := fun t => by
  rw [bigSep_W6, bigSep_W6]
  exact sound_body6 V c t

theorem hin6 (c : Dev nD) : (iprop((∃ r, prngReg c r) ∗ Pipeline.scopedRest spec6 c) : sProp 𝕄) ⊢ (dat6 V c).Φ 0 := by
  rw [scopedRest6_split, show (dat6 V c).Φ 0 = Φ6 V c 0 from rfl]
  unfold Φ6; rw [accPart6_zero V c 0 rfl]
  simp only [owns_whole_eq]
  iintro ⟨Hp, ⟨⟨%f, Hf⟩, ⟨%g, Hg⟩⟩, Hr⟩
  iframe Hp Hr
  isplitl [Hf]
  · iexists f, f; isplitr; (· ipureintro; rfl); iexact Hf
  · iexists g, g; isplitr; (· ipureintro; rfl); iexact Hg

theorem hout6 (c : Dev nD) : (dat6 V c).Φ (Fin.last cfg6.N) ⊢ (iprop((∃ r, prngReg c r) ∗ Pipeline.scopedRest spec6 c) : sProp 𝕄) := by
  rw [scopedRest6_split, show (dat6 V c).Φ (Fin.last cfg6.N) = Φ6 V c (Fin.last cfg6.N) from rfl]
  unfold Φ6
  rw [accPart6_succ V c (Fin.last cfg6.N) 124 (by rw [N6_eq]; omega) (by show cfg6.N = _; rw [N6_eq])]
  simp only [owns_whole_eq]
  iintro ⟨⟨⟨%f, %hf, Hf⟩, ⟨%g, %hg, Hg⟩⟩, Hp, Hr⟩
  iframe Hp Hr
  isplitl [Hf]; · iexists f; iexact Hf
  iexists g; iexact Hg

end Cert.Kernel.Hand

end
-- ==== Proof.K.Data.lean ====
import proofs.«427087_j34256659153343_2_alg».proof.Proof.K.Segs

import proofs.«427087_j34256659153343_2_alg».proof.Proof.K.R0

import proofs.«427087_j34256659153343_2_alg».proof.Proof.K.R1

import proofs.«427087_j34256659153343_2_alg».proof.Proof.K.R2

import proofs.«427087_j34256659153343_2_alg».proof.Proof.K.R3

import proofs.«427087_j34256659153343_2_alg».proof.Proof.K.R4

import proofs.«427087_j34256659153343_2_alg».proof.Proof.K.R5

import proofs.«427087_j34256659153343_2_alg».proof.Proof.K.R6

noncomputable section

namespace Cert.Kernel.Hand

open Cert.Kernel Cert.Kernel.Gen

open Idealize.ShloMosaic Idealize.ShloMosaic.TcCoe Idealize.SL.Sem

variable {F : FTy → Type} [FloatOps F]

def rd0 : RegionData (F := F) cfg0 := ⟨dat0, A_eq0, fun _ _ _ => rfl, fun _ _ _ => rfl, fun _ _ _ => rfl, body_obligation0, hin0, hout0⟩

def rd1 : RegionData (F := F) cfg1 := ⟨dat1, A_eq1, fun _ _ _ => rfl, fun _ _ _ => rfl, fun _ _ _ => rfl, body_obligation1, hin1, hout1⟩

def rd2 : RegionData (F := F) cfg2 := ⟨dat2, A_eq2, fun _ _ _ => rfl, fun _ _ _ => rfl, fun _ _ _ => rfl, body_obligation2, hin2, hout2⟩

def rd3 : RegionData (F := F) cfg3 := ⟨dat3, A_eq3, fun _ _ _ => rfl, fun _ _ _ => rfl, fun _ _ _ => rfl, body_obligation3, hin3, hout3⟩

def rd4 : RegionData (F := F) cfg4 := ⟨dat4, A_eq4, fun _ _ _ => rfl, fun _ _ _ => rfl, fun _ _ _ => rfl, body_obligation4, hin4, hout4⟩

def rd5 : RegionData (F := F) cfg5 := ⟨dat5, A_eq5, fun _ _ _ => rfl, fun _ _ _ => rfl, fun _ _ _ => rfl, body_obligation5, hin5, hout5⟩

def rd6 : RegionData (F := F) cfg6 := ⟨dat6, A_eq6, fun _ _ _ => rfl, fun _ _ _ => rfl, fun _ _ _ => rfl, body_obligation6, hin6, hout6⟩

abbrev Wend (m : (ℓ : Loc nD τ sig) → Buf (Elt F) ℓ) (c : Dev nD) : Valuation τ sig (Elt F) :=
  W14 rd0 rd1 rd2 rd3 rd4 rd5 rd6 m c

theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v109) = Wend m c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  run_val rd0 rd1 rd2 rd3 rd4 rd5 rd6 m ρ

theorem frame_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  frame rd0 rd1 rd2 rd3 rd4 rd5 rd6 m ρ

end Cert.Kernel.Hand

end
-- ==== Proof.KI.Segs.lean ====
import proofs.«427087_j34256659153343_2_alg».proof.Proof.KI.RegionsVal

import Idealize.ShloMosaic.Lib.Pipeline.FrameBody

import Idealize.ShloMosaic.Lib.Pipeline.RegionsLoop

import Idealize.ShloMosaic.Lib.Pipeline.FrameSuffix

set_option maxRecDepth 1600

noncomputable section

namespace Cert.KernelIdeal.Hand

open Cert.KernelIdeal Cert.KernelIdeal.Gen

open Idealize.ShloMosaic Idealize.ShloMosaic.TcCoe

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

abbrev TcVal (F : FTy → Type) : Type := (c : Dev nD) → (b : Ref sig .tc) → Buf (Elt F) ((c : Thread nD τ).loc b)

structure RegionData (cfg : Pipeline.Cfg sig Λ₀) where
  dat : TcVal F → (c : Dev nD) → Dat τ (Elt F) Unit ℕ (UR sig nD τ) ℕ cfg c
  A_eq : ∀ (V : TcVal F) (c : Dev nD) (w : Fin cfg.W), (dat V c).A w = V c (Pipeline.arrRef cfg.spec w)
  q_eq : ∀ (V : TcVal F) (c : Dev nD) (w : Fin cfg.W), (dat V c).q w = fullShare
  owed_eq : ∀ (V : TcVal F) (c : Dev nD) t, (dat V c).owed t = 0
  recorded_eq : ∀ (V : TcVal F) (c : Dev nD) t, (dat V c).recorded t = Set.univ
  body : ∀ (V : TcVal F) (c : Dev nD), BodyObligation (dat V c) (defs₀ (F := F)) Variants.none () Set.univ
  hin : ∀ (V : TcVal F) (c : Dev nD), (iprop((∃ r, prngReg c r) ∗ Pipeline.scopedRest cfg.spec c) : sProp 𝕄) ⊢ (dat V c).Φ 0
  hout : ∀ (V : TcVal F) (c : Dev nD), (dat V c).Φ (Fin.last cfg.N) ⊢ (iprop((∃ r, prngReg c r) ∗ Pipeline.scopedRest cfg.spec c) : sProp 𝕄)

section Region

variable {cfg : Pipeline.Cfg sig Λ₀} (d : RegionData (F := F) cfg) (V : Dev nD → Valuation τ sig (Elt F))
  (hinj : Function.Injective (Pipeline.arrRef cfg.spec))

abbrev tcOf : TcVal F := fun c b => V c b

def RegionData.out (c : Dev nD) : Valuation τ sig (Elt F) :=
  Pipeline.withArrays cfg.spec c (V c) fun w => (d.dat (tcOf V) c).arrAt w cfg.N

-- writing X's own values at the references of l over V gives X, when X is V off l
theorem foldl_update_eq (X : Valuation τ sig (Elt F)) : ∀ (l : List (Ref sig .tc)) (V : Valuation τ sig (Elt F)),
    (∀ b, (∀ r ∈ l, b ≠ Proc.devRef .tc r) → X b = V b) →
    l.foldl (fun V r => Function.update V (Proc.devRef .tc r) (X (Proc.devRef .tc r))) V = X
  | [], V, h => funext fun b => (h b fun _ hr => nomatch hr).symm
  | a :: l, V, h => foldl_update_eq X l _ fun b hb => by
      by_cases e : b = Proc.devRef .tc a
      · subst e; exact (Function.update_self _ _ V).symm
      · exact (h b (List.forall_mem_cons.2 ⟨e, hb⟩)).trans (Function.update_of_ne e _ V).symm

include hinj

theorem RegionData.out_arr (c : Dev nD) (w : Fin cfg.W) :
    d.out V c (Proc.devRef .tc (Pipeline.arrRef cfg.spec w)) = (d.dat (tcOf V) c).arrAt w cfg.N :=
  Pipeline.withArrays_arr cfg.spec hinj c _ _ w

-- off the arrays nothing changes, and an input array keeps its entry contents
theorem RegionData.out_keep {l : List (Ref sig .tc)} (hl : ∀ w, (cfg.win w).isOut = true → Pipeline.arrRef cfg.spec w ∈ l)
    (c : Dev nD) (b : DevRef τ sig) (hb : ∀ r ∈ l, b ≠ Proc.devRef .tc r) : d.out V c b = V c b := by
  by_cases h : ∃ w, Proc.devRef .tc (Pipeline.arrRef cfg.spec w) = b
  · obtain ⟨w, rfl⟩ := h
    cases hw : (cfg.win w).isOut
    · exact (d.out_arr V hinj c w).trans (((d.dat _ c).arrAt_in w hw _).trans (d.A_eq _ c w))
    · exact absurd rfl (hb _ (hl w hw))
  · unfold RegionData.out Pipeline.withArrays; rw [dif_neg h]

theorem RegionData.out_of_not_mem {l : List (Ref sig .tc)} (hl : ∀ w, (cfg.win w).isOut = true → Pipeline.arrRef cfg.spec w ∈ l)
    (c : Dev nD) (r : Ref sig .tc) (h : r ∉ l) : d.out V c (Proc.devRef .tc r) = V c (Proc.devRef .tc r) :=
  d.out_keep V hinj hl c _ fun a ha e => h (Proc.devRef_injective _ e ▸ ha)

theorem RegionData.upd_eq (l : List (Ref sig .tc)) (hl : ∀ w, (cfg.win w).isOut = true → Pipeline.arrRef cfg.spec w ∈ l)
    (c : Dev nD) (V' : Valuation τ sig (Elt F)) (h : V' = V c) :
    l.foldl (fun X r => Function.update X (Proc.devRef .tc r) (d.out V c (Proc.devRef .tc r))) V' = d.out V c := by
  subst h; exact foldl_update_eq _ l _ (d.out_keep V hinj hl c)

end Region

variable (d0 : RegionData (F := F) cfg0) (d1 : RegionData (F := F) cfg1) (d2 : RegionData (F := F) cfg2) (d3 : RegionData (F := F) cfg3)
  (d4 : RegionData (F := F) cfg4) (d5 : RegionData (F := F) cfg5) (d6 : RegionData (F := F) cfg6)

variable (m : (ℓ : Loc nD τ sig) → Buf (Elt F) ℓ)

abbrev W1 (c : Dev nD) : Valuation τ sig (Elt F) := StableHlo.after hostOps0 (fun b => m (c, b))

abbrev In0 : TcVal F := fun c b => W1 m c b

def W2 (c : Dev nD) : Valuation τ sig (Elt F) := d0.out (W1 m) c

abbrev W3 (c : Dev nD) : Valuation τ sig (Elt F) := StableHlo.after hostOps1 (W2 d0 m c)

abbrev In1 : TcVal F := fun c b => W3 d0 m c b

def W4 (c : Dev nD) : Valuation τ sig (Elt F) := d1.out (W3 d0 m) c

abbrev W5 (c : Dev nD) : Valuation τ sig (Elt F) := StableHlo.after hostOps2 (W4 d0 d1 m c)

abbrev In2 : TcVal F := fun c b => W5 d0 d1 m c b

def W6 (c : Dev nD) : Valuation τ sig (Elt F) := d2.out (W5 d0 d1 m) c

abbrev W7 (c : Dev nD) : Valuation τ sig (Elt F) := StableHlo.after hostOps3 (W6 d0 d1 d2 m c)

abbrev In3 : TcVal F := fun c b => W7 d0 d1 d2 m c b

def W8 (c : Dev nD) : Valuation τ sig (Elt F) := d3.out (W7 d0 d1 d2 m) c

abbrev W9 (c : Dev nD) : Valuation τ sig (Elt F) := StableHlo.after hostOps4 (W8 d0 d1 d2 d3 m c)

abbrev In4 : TcVal F := fun c b => W9 d0 d1 d2 d3 m c b

def W10 (c : Dev nD) : Valuation τ sig (Elt F) := d4.out (W9 d0 d1 d2 d3 m) c

abbrev W11 (c : Dev nD) : Valuation τ sig (Elt F) := StableHlo.after hostOps5 (W10 d0 d1 d2 d3 d4 m c)

abbrev In5 : TcVal F := fun c b => W11 d0 d1 d2 d3 d4 m c b

def W12 (c : Dev nD) : Valuation τ sig (Elt F) := d5.out (W11 d0 d1 d2 d3 d4 m) c

abbrev W13 (c : Dev nD) : Valuation τ sig (Elt F) := StableHlo.after hostOps6 (W12 d0 d1 d2 d3 d4 d5 m c)

abbrev In6 : TcVal F := fun c b => W13 d0 d1 d2 d3 d4 d5 m c b

def W14 (c : Dev nD) : Valuation τ sig (Elt F) := d6.out (W13 d0 d1 d2 d3 d4 d5 m) c

def outs : Outs (F := F) := fun J r c => match J with
  | 2 => W2 d0 m c r
  | 4 => W4 d0 d1 m c r
  | 6 => W6 d0 d1 d2 m c r
  | 8 => W8 d0 d1 d2 d3 m c r
  | 10 => W10 d0 d1 d2 d3 d4 m c r
  | 12 => W12 d0 d1 d2 d3 d4 d5 m c r
  | 14 => W14 d0 d1 d2 d3 d4 d5 d6 m c r
  | _ => W1 m c r

theorem W2_arr (c : Dev nD) (w : Fin cfg0.W) :
    W2 d0 m c (Proc.devRef .tc (Pipeline.arrRef spec0 w)) = (d0.dat (In0 m) c).arrAt w cfg0.N :=
  d0.out_arr (W1 m) launch0.win.arr_inj c w

theorem W2_keep (c : Dev nD) (r : Ref sig .tc) (h : r ∉ ([main_v28_0, main_v28_1, main_v28_2] : List (Ref sig .tc))) :
    W2 d0 m c (Proc.devRef .tc r) = W1 m c (Proc.devRef .tc r) :=
  d0.out_of_not_mem (W1 m) launch0.win.arr_inj (by decide) c r h

theorem W4_arr (c : Dev nD) (w : Fin cfg1.W) :
    W4 d0 d1 m c (Proc.devRef .tc (Pipeline.arrRef spec1 w)) = (d1.dat (In1 d0 m) c).arrAt w cfg1.N :=
  d1.out_arr (W3 d0 m) launch1.win.arr_inj c w

theorem W4_keep (c : Dev nD) (r : Ref sig .tc) (h : r ∉ ([main_v37] : List (Ref sig .tc))) :
    W4 d0 d1 m c (Proc.devRef .tc r) = W3 d0 m c (Proc.devRef .tc r) :=
  d1.out_of_not_mem (W3 d0 m) launch1.win.arr_inj (by decide) c r h

theorem W6_arr (c : Dev nD) (w : Fin cfg2.W) :
    W6 d0 d1 d2 m c (Proc.devRef .tc (Pipeline.arrRef spec2 w)) = (d2.dat (In2 d0 d1 m) c).arrAt w cfg2.N :=
  d2.out_arr (W5 d0 d1 m) launch2.win.arr_inj c w

theorem W6_keep (c : Dev nD) (r : Ref sig .tc) (h : r ∉ ([main_v62_0, main_v62_1, main_v62_2] : List (Ref sig .tc))) :
    W6 d0 d1 d2 m c (Proc.devRef .tc r) = W5 d0 d1 m c (Proc.devRef .tc r) :=
  d2.out_of_not_mem (W5 d0 d1 m) launch2.win.arr_inj (by decide) c r h

theorem W8_arr (c : Dev nD) (w : Fin cfg3.W) :
    W8 d0 d1 d2 d3 m c (Proc.devRef .tc (Pipeline.arrRef spec3 w)) = (d3.dat (In3 d0 d1 d2 m) c).arrAt w cfg3.N :=
  d3.out_arr (W7 d0 d1 d2 m) launch3.win.arr_inj c w

theorem W8_keep (c : Dev nD) (r : Ref sig .tc) (h : r ∉ ([main_v71] : List (Ref sig .tc))) :
    W8 d0 d1 d2 d3 m c (Proc.devRef .tc r) = W7 d0 d1 d2 m c (Proc.devRef .tc r) :=
  d3.out_of_not_mem (W7 d0 d1 d2 m) launch3.win.arr_inj (by decide) c r h

theorem W10_arr (c : Dev nD) (w : Fin cfg4.W) :
    W10 d0 d1 d2 d3 d4 m c (Proc.devRef .tc (Pipeline.arrRef spec4 w)) = (d4.dat (In4 d0 d1 d2 d3 m) c).arrAt w cfg4.N :=
  d4.out_arr (W9 d0 d1 d2 d3 m) launch4.win.arr_inj c w

theorem W10_keep (c : Dev nD) (r : Ref sig .tc) (h : r ∉ ([main_v96_0, main_v96_1, main_v96_2] : List (Ref sig .tc))) :
    W10 d0 d1 d2 d3 d4 m c (Proc.devRef .tc r) = W9 d0 d1 d2 d3 m c (Proc.devRef .tc r) :=
  d4.out_of_not_mem (W9 d0 d1 d2 d3 m) launch4.win.arr_inj (by decide) c r h

theorem W12_arr (c : Dev nD) (w : Fin cfg5.W) :
    W12 d0 d1 d2 d3 d4 d5 m c (Proc.devRef .tc (Pipeline.arrRef spec5 w)) = (d5.dat (In5 d0 d1 d2 d3 d4 m) c).arrAt w cfg5.N :=
  d5.out_arr (W11 d0 d1 d2 d3 d4 m) launch5.win.arr_inj c w

theorem W12_keep (c : Dev nD) (r : Ref sig .tc) (h : r ∉ ([main_v105] : List (Ref sig .tc))) :
    W12 d0 d1 d2 d3 d4 d5 m c (Proc.devRef .tc r) = W11 d0 d1 d2 d3 d4 m c (Proc.devRef .tc r) :=
  d5.out_of_not_mem (W11 d0 d1 d2 d3 d4 m) launch5.win.arr_inj (by decide) c r h

theorem W14_arr (c : Dev nD) (w : Fin cfg6.W) :
    W14 d0 d1 d2 d3 d4 d5 d6 m c (Proc.devRef .tc (Pipeline.arrRef spec6 w)) = (d6.dat (In6 d0 d1 d2 d3 d4 d5 m) c).arrAt w cfg6.N :=
  d6.out_arr (W13 d0 d1 d2 d3 d4 d5 m) launch6.win.arr_inj c w

theorem V2_eq (c : Dev nD) : V2 m (outs d0 d1 d2 d3 d4 d5 d6 m) c = W2 d0 m c :=
  d0.upd_eq (W1 m) launch0.win.arr_inj [main_v28_0, main_v28_1, main_v28_2] (by decide) c _ rfl

theorem V4_eq (c : Dev nD) : V4 m (outs d0 d1 d2 d3 d4 d5 d6 m) c = W4 d0 d1 m c :=
  d1.upd_eq (W3 d0 m) launch1.win.arr_inj [main_v37] (by decide) c _ (congrArg (StableHlo.after hostOps1) (V2_eq d0 d1 d2 d3 d4 d5 d6 m c))

theorem V6_eq (c : Dev nD) : V6 m (outs d0 d1 d2 d3 d4 d5 d6 m) c = W6 d0 d1 d2 m c :=
  d2.upd_eq (W5 d0 d1 m) launch2.win.arr_inj [main_v62_0, main_v62_1, main_v62_2] (by decide) c _ (congrArg (StableHlo.after hostOps2) (V4_eq d0 d1 d2 d3 d4 d5 d6 m c))

theorem V8_eq (c : Dev nD) : V8 m (outs d0 d1 d2 d3 d4 d5 d6 m) c = W8 d0 d1 d2 d3 m c :=
  d3.upd_eq (W7 d0 d1 d2 m) launch3.win.arr_inj [main_v71] (by decide) c _ (congrArg (StableHlo.after hostOps3) (V6_eq d0 d1 d2 d3 d4 d5 d6 m c))

theorem V10_eq (c : Dev nD) : V10 m (outs d0 d1 d2 d3 d4 d5 d6 m) c = W10 d0 d1 d2 d3 d4 m c :=
  d4.upd_eq (W9 d0 d1 d2 d3 m) launch4.win.arr_inj [main_v96_0, main_v96_1, main_v96_2] (by decide) c _ (congrArg (StableHlo.after hostOps4) (V8_eq d0 d1 d2 d3 d4 d5 d6 m c))

theorem V12_eq (c : Dev nD) : V12 m (outs d0 d1 d2 d3 d4 d5 d6 m) c = W12 d0 d1 d2 d3 d4 d5 m c :=
  d5.upd_eq (W11 d0 d1 d2 d3 d4 m) launch5.win.arr_inj [main_v105] (by decide) c _ (congrArg (StableHlo.after hostOps5) (V10_eq d0 d1 d2 d3 d4 d5 d6 m c))

theorem V14_eq (c : Dev nD) : V14 m (outs d0 d1 d2 d3 d4 d5 d6 m) c = W14 d0 d1 d2 d3 d4 d5 d6 m c :=
  d6.upd_eq (W13 d0 d1 d2 d3 d4 d5 m) launch6.win.arr_inj [main_v109] (by decide) c _ (congrArg (StableHlo.after hostOps6) (V12_eq d0 d1 d2 d3 d4 d5 d6 m c))

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem owesAt_intro {cfg : Pipeline.Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, HO⟩; iexists W; isplitr
  · ipureintro; exact fun _ _ => Or.inl trivial
  iexact HO

theorem owesAt_elim {cfg : Pipeline.Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

section Seg

variable (ds : (p : Fin 7) → RegionData (F := F) (cfgs p)) (Ws : Fin 7 → Dev nD → Valuation τ sig (Elt F))

abbrev pdats (p : Fin 7) (c : Dev nD) : Dat τ (Elt F) Unit ℕ (UR sig nD τ) ℕ (cfgs p) c := (ds p).dat (tcOf (Ws p)) c

set_option backward.isDefEq.respectTransparency.types false in
-- region p between the core's buffers held at its entry valuation and at what it leaves
def seg (p : Fin 7) (lf : Pipeline.LaunchFacts (nD := nD) (τ := τ) cfgs p) :
    Pipeline.RegionSeg (pcfgs (F := F)) adm (pdats ds Ws) () defs₀ 𝒱₀ L lv p where
  win := lf.win.to₀
  block_pos := lf.block_pos
  stage_whole := lf.stage_whole
  K := PEmpty
  osem k := k.elim
  ho := Pipeline.OwnSemFacts.none _
  hbody c := ((ds p).body _ c).loose
  hwaits := Pipeline.hwaits_of_owed_zero _ _ _ _ L lv p fun c t => (ds p).owed_eq _ c t
  pre c := iprop(StableHlo.held (c : Thread nD τ) (Pipeline.ucRefs τ sig) (Ws p c) ∗ R c)
  post c := iprop(StableHlo.held (c : Thread nD τ) (Pipeline.ucRefs τ sig) ((ds p).out (Ws p) c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Ws p c b)
  hentry c := by
    rw [Pipeline.ownSems0_none]
    have hsplit := Pipeline.arrays_of_unscopedBufs (p := p) (pcfgs (F := F)) adm (pdats ds Ws) lf.win lf.arr_whole c
      ((pdats ds Ws p c).share_full fun w => (ds p).q_eq _ c w) (fun b => Ws p c b) fun w => (ds p).A_eq _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats ds Ws p c) 0 ((ds p).owed_eq _ c 0) ((ds p).recorded_eq _ c 0))
      iexact HO
    isplitl [Hp]; · iexact Hp
    iexact Hrest
  hin c := by
    refine BIBase.Entails.trans ?_ ((ds p).hin _ c)
    iintro ⟨Hp, -, Hr⟩
    isplitl [Hp]; · iexact Hp
    iexact Hr
  hout c := by
    rw [Pipeline.ownSems0_none]
    refine BIBase.Entails.trans ((ds p).hout _ c) ?_
    iintro ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats ds Ws) ((pdats ds Ws p c).share_full fun w => (ds p).q_eq _ c w)
      (fun b => Ws p c b) (fun b => (ds p).out (Ws p) c b) ((pdats ds Ws p c).arrAt · (cfgs p).N)
      (fun w => ((ds p).out_arr (Ws p) lf.win.arr_inj c w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats ds Ws p c) (Fin.last _) ((ds p).owed_eq _ c _))
    iexact HO

variable {ds Ws} in
theorem seg_pre {p lf} (c : Dev nD) {V : Valuation τ sig (Elt F)} (h : V = Ws p c) :
    iprop(StableHlo.held (c : Thread nD τ) (Pipeline.ucRefs τ sig) V ∗ R c) ⊢ (seg ds Ws p lf).pre c := by
  subst h; exact .rfl

variable {ds Ws} in
theorem seg_post {p lf} (c : Dev nD) {V : Valuation τ sig (Elt F)} (h : V = (ds p).out (Ws p) c) :
    (seg ds Ws p lf).post c ⊢ iprop(StableHlo.held (c : Thread nD τ) (Pipeline.ucRefs τ sig) V ∗ R c) := by
  subst h; exact .rfl

end Seg

abbrev dTab : (p : Fin 7) → RegionData (F := F) (cfgs p)
  | ⟨0, _⟩ => d0 | ⟨1, _⟩ => d1 | ⟨2, _⟩ => d2 | ⟨3, _⟩ => d3 | ⟨4, _⟩ => d4 | ⟨5, _⟩ => d5 | ⟨6, _⟩ => d6

abbrev WTab : Fin 7 → Dev nD → Valuation τ sig (Elt F)
  | ⟨0, _⟩ => W1 m | ⟨1, _⟩ => W3 d0 m | ⟨2, _⟩ => W5 d0 d1 m | ⟨3, _⟩ => W7 d0 d1 d2 m
  | ⟨4, _⟩ => W9 d0 d1 d2 d3 m | ⟨5, _⟩ => W11 d0 d1 d2 d3 d4 m | ⟨6, _⟩ => W13 d0 d1 d2 d3 d4 d5 m

theorem hu₀ : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

theorem hE7 (c : Dev nD) : R c ⊢ (iprop(∃ W, owes (c : Thread nD τ) (0 : CellTallies nD τ sig Unit) W) : sProp 𝕄) := by
  iintro ⟨-, H⟩; iexact H

theorem run_imp {Q Q' : PUnit × MemSt nD τ sig (Elt F) → Prop} (s : MemSt nD τ sig (Elt F)) (hQ : ∀ r, Q r → Q' r) :
    θ_run defs (onTc (τ := τ) (main (F := F))) s Q → θ_run defs (onTc (τ := τ) (main (F := F))) s Q' :=
  OrdCont.mono (θ_run defs (onTc (τ := τ) (main (F := F))) s) hQ

set_option backward.isDefEq.respectTransparency.types false in

theorem run_val (ρ : Dev nD → PrngReg) : θ_run defs (onTc (τ := τ) (main (F := F))) ⟨m, fun _ => 0, ρ⟩ (fun r => ∀ c : Dev nD,
      r.2.mem ((c.tc : Thread nD τ).loc main_v109) = W14 d0 d1 d2 d3 d4 d5 d6 m c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) := by
  have h := frame_cond_val m (emb₁ : Emb (UR sig nD τ) 𝕄) () 𝒱₀ L lv (fun _ _ => rfl) ρ (outs d0 d1 d2 d3 d4 d5 d6 m)
    (pdats (dTab d0 d1 d2 d3 d4 d5 d6) (WTab d0 d1 d2 d3 d4 d5 m))
    0 (fun _ => (BI.emp : sProp 𝕄)) (initOf (Pipeline.cells cfgs cellOf_inj) (Pipeline.launchToks cfgs cellOf_inj)) hu₀
    (fun _ c => R c) (hE0 ρ) hE7
    (seg _ _ 0 launch0) (fun c => seg_pre c rfl) (fun c => seg_post c (V2_eq d0 d1 d2 d3 d4 d5 d6 m c))
    (seg _ _ 1 launch1) (fun c => seg_pre c (congrArg (StableHlo.after hostOps1) (V2_eq d0 d1 d2 d3 d4 d5 d6 m c))) (fun c => seg_post c (V4_eq d0 d1 d2 d3 d4 d5 d6 m c))
    (seg _ _ 2 launch2) (fun c => seg_pre c (congrArg (StableHlo.after hostOps2) (V4_eq d0 d1 d2 d3 d4 d5 d6 m c))) (fun c => seg_post c (V6_eq d0 d1 d2 d3 d4 d5 d6 m c))
    (seg _ _ 3 launch3) (fun c => seg_pre c (congrArg (StableHlo.after hostOps3) (V6_eq d0 d1 d2 d3 d4 d5 d6 m c))) (fun c => seg_post c (V8_eq d0 d1 d2 d3 d4 d5 d6 m c))
    (seg _ _ 4 launch4) (fun c => seg_pre c (congrArg (StableHlo.after hostOps4) (V8_eq d0 d1 d2 d3 d4 d5 d6 m c))) (fun c => seg_post c (V10_eq d0 d1 d2 d3 d4 d5 d6 m c))
    (seg _ _ 5 launch5) (fun c => seg_pre c (congrArg (StableHlo.after hostOps5) (V10_eq d0 d1 d2 d3 d4 d5 d6 m c))) (fun c => seg_post c (V12_eq d0 d1 d2 d3 d4 d5 d6 m c))
    (seg _ _ 6 launch6) (fun c => seg_pre c (congrArg (StableHlo.after hostOps6) (V12_eq d0 d1 d2 d3 d4 d5 d6 m c))) (fun c => seg_post c (V14_eq d0 d1 d2 d3 d4 d5 d6 m c))
  exact run_imp _ (fun r hr c => ⟨(hr c).1.trans (congrFun (V14_eq d0 d1 d2 d3 d4 d5 d6 m c) _), (hr c).2⟩) h

include d0 d1 d2 d3 d4 d5 d6 in

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  run_imp _ (fun r h c => (h c).2) (run_val d0 d1 d2 d3 d4 d5 d6 m ρ)

end Cert.KernelIdeal.Hand

end
-- ==== Proof.KI.R0.lean ====
import proofs.«427087_j34256659153343_2_alg».proof.Proof.Gen.KernelIdeal.Launch

import proofs.«427087_j34256659153343_2_alg».proof.Proof.Gen.KernelIdeal.Skeleton

import proofs.«427087_j34256659153343_2_alg».proof.Proof.Gen.KernelIdeal.Points

import Idealize.ShloMosaic.Lib.Pipeline.FrameBody

import Idealize.ShloMosaic.Lib.Pipeline.RegionsLoop

import Idealize.ShloMosaic.Lib.Pipeline.FrameSuffix

import Idealize.ShloMosaic.Lib.Ring

import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S10000x6 := Rect.unit (s := S10000x6) ![0, 0] S10000x6.size inb_S10000x6_S10000x6_0_0

abbrev rU0 : Rect S6x32 := Rect.unit (s := S6x32) ![0, 0] S6x32.size inb_S6x32_S6x32_0_0

abbrev rB0 : Rect S1x32 := Rect.unit (s := S1x32) ![0, 0] S1x32.size inb_S1x32_S1x32_0_0

abbrev rW0 : Rect S32x32 := Rect.unit (s := S32x32) ![0, 0] S32x32.size inb_S32x32_S32x32_0_0

abbrev rO0 : Rect S10000x32 := Rect.unit (s := S10000x32) ![0, 0] S10000x32.size inb_S10000x32_S10000x32_0_0

abbrev accS0M : Memref sig .tc .vmem S1x32 .f32 := Memref.whole cc0_scratch0

abbrev accQ0M : Memref sig .tc .vmem S1x32 .f32 := Memref.whole cc0_scratch1

structure Ins0 (F : FTy → Type) where
  x0 : Vec F S10000x6 .f32
  x1 : Vec F S10000x6 .f32
  x2 : Vec F S10000x6 .f32
  x3 : Vec F S6x32 .f32
  x4 : Vec F S1x32 .f32
  x5 : Vec F S32x32 .f32
  x6 : Vec F S1x32 .f32
  x7 : Vec F S6x32 .f32
  x8 : Vec F S1x32 .f32
  x9 : Vec F S32x32 .f32
  x10 : Vec F S1x32 .f32

def inAt0 (c : Dev nD) (t : Fin cfg0.N) : Ins0 F :=
  ⟨iblk0 V c 0 t, iblk0 V c 1 t, iblk0 V c 2 t, iblk0 V c 3 t, iblk0 V c 4 t, iblk0 V c 5 t, iblk0 V c 6 t, iblk0 V c 7 t, iblk0 V c 8 t, iblk0 V c 9 t, iblk0 V c 10 t⟩

def oval0 (X : Ins0 F) : Vec F S10000x32 .f32 :=
  k0_pay8 (k0_pay3 (View.ld X.x0 rX0) (View.ld X.x2 rX0)) (k0_pay4 (View.ld X.x7 rU0)) (k0_pay5 (View.ld X.x9 rW0))
    (k0_pay6 (View.ld X.x0 rX0) (View.ld X.x1 rX0) (View.ld X.x3 rU0) (View.ld X.x5 rW0) (View.ld X.x4 rB0) (View.ld X.x6 rB0))
    k0_pay7 (View.ld X.x8 rB0) (View.ld X.x10 rB0)

def sval0 (X : Ins0 F) (a : Vec F S1x32 .f32) : Vec F S1x32 .f32 :=
  k0_pay9 (k0_pay3 (View.ld X.x0 rX0) (View.ld X.x2 rX0)) (k0_pay4 (View.ld X.x7 rU0)) (k0_pay5 (View.ld X.x9 rW0))
    (k0_pay6 (View.ld X.x0 rX0) (View.ld X.x1 rX0) (View.ld X.x3 rU0) (View.ld X.x5 rW0) (View.ld X.x4 rB0) (View.ld X.x6 rB0))
    k0_pay7 (View.ld X.x8 rB0) (View.ld X.x10 rB0) a

def qval0 (X : Ins0 F) (a : Vec F S1x32 .f32) : Vec F S1x32 .f32 :=
  k0_pay10 (k0_pay3 (View.ld X.x0 rX0) (View.ld X.x2 rX0)) (k0_pay4 (View.ld X.x7 rU0)) (k0_pay5 (View.ld X.x9 rW0))
    (k0_pay6 (View.ld X.x0 rX0) (View.ld X.x1 rX0) (View.ld X.x3 rU0) (View.ld X.x5 rW0) (View.ld X.x4 rB0) (View.ld X.x6 rB0))
    k0_pay7 (View.ld X.x8 rB0) (View.ld X.x10 rB0) a

def out11_0 (X : Ins0 F) : Vec F S10000x32 .f32 := View.canon [⟨rO0, oval0 X⟩]

def sfirst0 (X : Ins0 F) : Vec F S1x32 .f32 :=
  View.canon [⟨rB0, sval0 X (accS0M.view.readCov [⟨rB0, k0_pay1⟩] rB0.toLoadRect)⟩, ⟨rB0, k0_pay1⟩]

def qfirst0 (X : Ins0 F) : Vec F S1x32 .f32 :=
  View.canon [⟨rB0, qval0 X (accQ0M.view.readCov [⟨rB0, k0_pay2⟩] rB0.toLoadRect)⟩, ⟨rB0, k0_pay2⟩]

def sstep0 (X : Ins0 F) (a : Vec F S1x32 .f32) : Vec F S1x32 .f32 := View.canon [⟨rB0, sval0 X (View.ld a rB0)⟩]

def qstep0 (X : Ins0 F) (a : Vec F S1x32 .f32) : Vec F S1x32 .f32 := View.canon [⟨rB0, qval0 X (View.ld a rB0)⟩]

def sout0 (X : Ins0 F) (a : Vec F S1x32 .f32) : Vec F S1x32 .f32 :=
  View.canon [⟨rB0, accS0M.view.readCov [⟨rB0, sval0 X (View.ld a rB0)⟩] rB0.toLoadRect⟩]

def qout0 (X : Ins0 F) (a : Vec F S1x32 .f32) : Vec F S1x32 .f32 :=
  View.canon [⟨rB0, accQ0M.view.readCov [⟨rB0, qval0 X (View.ld a rB0)⟩] rB0.toLoadRect⟩]

abbrev IsFirst0 (i : grid0.Coords) : Prop := Scalar.cmpi .ne (Scalar.extui (Scalar.cmpi .eq (BitVec.ofNat 32 (i 0).val) 0#32)) 0#32 = 1#1

abbrev IsLast0 (i : grid0.Coords) : Prop := k0_cond2 i = 1#1

theorem isFirst0_iff : ∀ t : Fin cfg0.N, IsFirst0 (grid0.coords t) ↔ t.val = 0 :=
  (by decide +kernel : ∀ t : Fin grid0.N, (Scalar.cmpi .ne (Scalar.extui (Scalar.cmpi .eq (BitVec.ofNat 32 ((grid0.coords t) 0).val) 0#32)) 0#32 = 1#1) ↔ t.val = 0)

theorem isLast0_iff : ∀ t : Fin cfg0.N, IsLast0 (grid0.coords t) ↔ t.val = 24 :=
  (by decide +kernel : ∀ t : Fin grid0.N, k0_cond2 (grid0.coords t) = 1#1 ↔ t.val = 24)

omit [FloatOps F] in
theorem coverB1_0 (p : Vec F S1x32 .f32) (y : S1x32.Idx) : ∃ pc ∈ ([⟨rB0, p⟩] : List (View.Piece (Elt F) S1x32 .f32)), y ∈ pc.1.set :=
  View.cover_of_tiled [⟨rB0, p⟩] S1x32.size (by rfl) y

omit [FloatOps F] in
theorem coverB2_0 (p q : Vec F S1x32 .f32) (y : S1x32.Idx) : ∃ pc ∈ ([⟨rB0, p⟩, ⟨rB0, q⟩] : List (View.Piece (Elt F) S1x32 .f32)), y ∈ pc.1.set :=
  View.cover_of_tiled [⟨rB0, p⟩, ⟨rB0, q⟩] S1x32.size (by rfl) y

omit [FloatOps F] in
theorem coverO_0 (p : Vec F S10000x32 .f32) (y : S10000x32.Idx) : ∃ pc ∈ ([⟨rO0, p⟩] : List (View.Piece (Elt F) S10000x32 .f32)), y ∈ pc.1.set :=
  View.cover_of_tiled [⟨rO0, p⟩] S10000x32.size (by rfl) y

section Runs

variable (c : Dev nD) (i : grid0.Coords) (M0 : Memref sig .tc .vmem S10000x6 .f32) (h0 : M0.IsWhole) (M1 : Memref sig .tc .vmem S10000x6 .f32) (h1 : M1.IsWhole) (M2 : Memref sig .tc .vmem S10000x6 .f32) (h2 : M2.IsWhole) (M3 : Memref sig .tc .vmem S6x32 .f32) (h3 : M3.IsWhole) (M4 : Memref sig .tc .vmem S1x32 .f32) (h4 : M4.IsWhole) (M5 : Memref sig .tc .vmem S32x32 .f32) (h5 : M5.IsWhole) (M6 : Memref sig .tc .vmem S1x32 .f32) (h6 : M6.IsWhole) (M7 : Memref sig .tc .vmem S6x32 .f32) (h7 : M7.IsWhole) (M8 : Memref sig .tc .vmem S1x32 .f32) (h8 : M8.IsWhole) (M9 : Memref sig .tc .vmem S32x32 .f32) (h9 : M9.IsWhole) (M10 : Memref sig .tc .vmem S1x32 .f32) (h10 : M10.IsWhole) (M11 : Memref sig .tc .vmem S10000x32 .f32) (h11 : M11.IsWhole) (M12 : Memref sig .tc .vmem S1x32 .f32) (h12 : M12.IsWhole) (M13 : Memref sig .tc .vmem S1x32 .f32) (h13 : M13.IsWhole)
  (x0 : Vec F S10000x6 .f32) (x1 : Vec F S10000x6 .f32) (x2 : Vec F S10000x6 .f32) (x3 : Vec F S6x32 .f32) (x4 : Vec F S1x32 .f32) (x5 : Vec F S32x32 .f32) (x6 : Vec F S1x32 .f32) (x7 : Vec F S6x32 .f32) (x8 : Vec F S1x32 .f32) (x9 : Vec F S32x32 .f32) (x10 : Vec F S1x32 .f32) (a b : Vec F S1x32 .f32)

local notation "BODY0" => cc0__gin_layer_kernel i M0 h0 M1 h1 M2 h2 M3 h3 M4 h4 M5 h5 M6 h6 M7 h7 M8 h8 M9 h9 M10 h10 M11 h11 M12 h12 M13 h13 (Memref.whole cc0_scratch0) (Memref.isWhole_whole _) (Memref.whole cc0_scratch1) (Memref.isWhole_whole _)

local notation "XX" => (Ins0.mk x0 x1 x2 x3 x4 x5 x6 x7 x8 x9 x10 : Ins0 F)

def ins0 : sProp 𝕄 :=
  iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10)

set_option maxHeartbeats 2000000 in
theorem run_first0 (hF : IsFirst0 i) (hL : ¬ IsLast0 i) (O1 O2 : sProp 𝕄) (Q : PUnit → sProp 𝕄) :
    iprop(ins0 c M0 M1 M2 M3 M4 M5 M6 M7 M8 M9 M10 x0 x1 x2 x3 x4 x5 x6 x7 x8 x9 x10 ∗ (∃ d, owns (c : Thread nD τ) M11 fullShare d) ∗ O1 ∗ O2
      ∗ (∃ a, owns (c : Thread nD τ) accS0M fullShare a) ∗ (∃ b, owns (c : Thread nD τ) accQ0M fullShare b)
      ∗ (iprop(ins0 c M0 M1 M2 M3 M4 M5 M6 M7 M8 M9 M10 x0 x1 x2 x3 x4 x5 x6 x7 x8 x9 x10 ∗ owns (c : Thread nD τ) M11 fullShare (out11_0 XX) ∗ O1 ∗ O2
          ∗ owns (c : Thread nD τ) accS0M fullShare (sfirst0 XX) ∗ owns (c : Thread nD τ) accQ0M fullShare (qfirst0 XX)) -∗ Q ⟨⟩))
      ⊢ wp frame (wpE (defs₀ (F := F)) Variants.none c none) Set.univ BODY0 Q := by
  unfold ins0 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, %hf11, H11⟩, HO1, HO2, ⟨%a', %fa, %hfa, Ha⟩, ⟨%b', %fb, %hfb, Hb⟩, Hk⟩
  subst hf0 hf1 hf2 hf3 hf4 hf5 hf6 hf7 hf8 hf9 hf10
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverO_0 _)
  isplitl [HO1]; · iexact HO1
  isplitl [HO2]; · iexact HO2
  isplitl [Ha]; · iexists _; isplitr; swap; (· iexact Ha); ipureintro; exact View.read_writes_eq_canon _ _ _ (coverB2_0 _ _)
  iexists _; isplitr; swap; (· iexact Hb); ipureintro; exact View.read_writes_eq_canon _ _ _ (coverB2_0 _ _)

set_option maxHeartbeats 2000000 in
theorem run_mid0 (hF : ¬ IsFirst0 i) (hL : ¬ IsLast0 i) (O1 O2 : sProp 𝕄) (Q : PUnit → sProp 𝕄) :
    iprop(ins0 c M0 M1 M2 M3 M4 M5 M6 M7 M8 M9 M10 x0 x1 x2 x3 x4 x5 x6 x7 x8 x9 x10 ∗ (∃ d, owns (c : Thread nD τ) M11 fullShare d) ∗ O1 ∗ O2
      ∗ owns (c : Thread nD τ) accS0M fullShare a ∗ owns (c : Thread nD τ) accQ0M fullShare b
      ∗ (iprop(ins0 c M0 M1 M2 M3 M4 M5 M6 M7 M8 M9 M10 x0 x1 x2 x3 x4 x5 x6 x7 x8 x9 x10 ∗ owns (c : Thread nD τ) M11 fullShare (out11_0 XX) ∗ O1 ∗ O2
          ∗ owns (c : Thread nD τ) accS0M fullShare (sstep0 XX a) ∗ owns (c : Thread nD τ) accQ0M fullShare (qstep0 XX b)) -∗ Q ⟨⟩))
      ⊢ wp frame (wpE (defs₀ (F := F)) Variants.none c none) Set.univ BODY0 Q := by
  unfold ins0 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, %hf11, H11⟩, HO1, HO2, ⟨%fa, %hfa, Ha⟩, ⟨%fb, %hfb, Hb⟩, Hk⟩
  subst hf0 hf1 hf2 hf3 hf4 hf5 hf6 hf7 hf8 hf9 hf10 hfa hfb
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverO_0 _)
  isplitl [HO1]; · iexact HO1
  isplitl [HO2]; · iexact HO2
  isplitl [Ha]; · iexists _; isplitr; swap; (· iexact Ha); ipureintro; exact View.read_writes_eq_canon _ _ _ (coverB1_0 _)
  iexists _; isplitr; swap; (· iexact Hb); ipureintro; exact View.read_writes_eq_canon _ _ _ (coverB1_0 _)

set_option maxHeartbeats 2000000 in
theorem run_last0 (hF : ¬ IsFirst0 i) (hL : IsLast0 i) (Q : PUnit → sProp 𝕄) :
    iprop(ins0 c M0 M1 M2 M3 M4 M5 M6 M7 M8 M9 M10 x0 x1 x2 x3 x4 x5 x6 x7 x8 x9 x10 ∗ (∃ d, owns (c : Thread nD τ) M11 fullShare d)
      ∗ (∃ d, owns (c : Thread nD τ) M12 fullShare d) ∗ (∃ d, owns (c : Thread nD τ) M13 fullShare d)
      ∗ owns (c : Thread nD τ) accS0M fullShare a ∗ owns (c : Thread nD τ) accQ0M fullShare b
      ∗ (iprop(ins0 c M0 M1 M2 M3 M4 M5 M6 M7 M8 M9 M10 x0 x1 x2 x3 x4 x5 x6 x7 x8 x9 x10 ∗ owns (c : Thread nD τ) M11 fullShare (out11_0 XX)
          ∗ owns (c : Thread nD τ) M12 fullShare (sout0 XX a) ∗ owns (c : Thread nD τ) M13 fullShare (qout0 XX b)
          ∗ owns (c : Thread nD τ) accS0M fullShare (sstep0 XX a) ∗ owns (c : Thread nD τ) accQ0M fullShare (qstep0 XX b)) -∗ Q ⟨⟩))
      ⊢ wp frame (wpE (defs₀ (F := F)) Variants.none c none) Set.univ BODY0 Q := by
  unfold ins0 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, %hf11, H11⟩, ⟨%d12, %f12, %hf12, H12⟩, ⟨%d13, %f13, %hf13, H13⟩, ⟨%fa, %hfa, Ha⟩, ⟨%fb, %hfb, Hb⟩, Hk⟩
  subst hf0 hf1 hf2 hf3 hf4 hf5 hf6 hf7 hf8 hf9 hf10 hfa hfb
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverO_0 _)
  isplitl [H12]; · iexists _; isplitr; swap; (· iexact H12); ipureintro; exact View.read_writes_eq_canon _ _ _ (coverB1_0 _)
  isplitl [H13]; · iexists _; isplitr; swap; (· iexact H13); ipureintro; exact View.read_writes_eq_canon _ _ _ (coverB1_0 _)
  isplitl [Ha]; · iexists _; isplitr; swap; (· iexact Ha); ipureintro; exact View.read_writes_eq_canon _ _ _ (coverB1_0 _)
  iexists _; isplitr; swap; (· iexact Hb); ipureintro; exact View.read_writes_eq_canon _ _ _ (coverB1_0 _)

end Runs

def accS0 (c : Dev nD) : (k : ℕ) → k < cfg0.N → Vec F S1x32 .f32
  | 0, hk => sfirst0 (inAt0 V c ⟨0, hk⟩)
  | k + 1, hk => sstep0 (inAt0 V c ⟨k + 1, hk⟩) (accS0 c k (Nat.lt_of_succ_lt hk))

def accQ0 (c : Dev nD) : (k : ℕ) → k < cfg0.N → Vec F S1x32 .f32
  | 0, hk => qfirst0 (inAt0 V c ⟨0, hk⟩)
  | k + 1, hk => qstep0 (inAt0 V c ⟨k + 1, hk⟩) (accQ0 c k (Nat.lt_of_succ_lt hk))

theorem accS0_first (c : Dev nD) (t : Fin cfg0.N) (h : t.val = 0) : accS0 V c t.val t.isLt = sfirst0 (inAt0 V c t) := by
  obtain ⟨_ | k, hk⟩ := t
  exacts [rfl, absurd h k.succ_ne_zero]

theorem accQ0_first (c : Dev nD) (t : Fin cfg0.N) (h : t.val = 0) : accQ0 V c t.val t.isLt = qfirst0 (inAt0 V c t) := by
  obtain ⟨_ | k, hk⟩ := t
  exacts [rfl, absurd h k.succ_ne_zero]

theorem accS0_step (c : Dev nD) (t : Fin cfg0.N) (h : t.val ≠ 0) (hp : t.val - 1 < cfg0.N) :
    accS0 V c t.val t.isLt = sstep0 (inAt0 V c t) (accS0 V c (t.val - 1) hp) := by
  obtain ⟨_ | k, hk⟩ := t
  exacts [absurd rfl h, rfl]

theorem accQ0_step (c : Dev nD) (t : Fin cfg0.N) (h : t.val ≠ 0) (hp : t.val - 1 < cfg0.N) :
    accQ0 V c t.val t.isLt = qstep0 (inAt0 V c t) (accQ0 V c (t.val - 1) hp) := by
  obtain ⟨_ | k, hk⟩ := t
  exacts [absurd rfl h, rfl]

abbrev befS0 (c : Dev nD) (t : Fin cfg0.N) (h : t.val ≠ 0) : Vec F S1x32 .f32 := accS0 V c (t.val - 1) (by have := t.isLt; omega)

abbrev befQ0 (c : Dev nD) (t : Fin cfg0.N) (h : t.val ≠ 0) : Vec F S1x32 .f32 := accQ0 V c (t.val - 1) (by have := t.isLt; omega)

def outS0 (c : Dev nD) (t : Fin cfg0.N) : Vec F S1x32 .f32 :=
  if h : t.val = 0 then k0_pay1 else sout0 (inAt0 V c t) (befS0 V c t h)

def outQ0 (c : Dev nD) (t : Fin cfg0.N) : Vec F S1x32 .f32 :=
  if h : t.val = 0 then k0_pay2 else qout0 (inAt0 V c t) (befQ0 V c t h)

def accPart0 (c : Dev nD) (k : Fin (cfg0.N + 1)) : sProp 𝕄 :=
  if h : k.val = 0 then iprop((∃ a, owns (c : Thread nD τ) accS0M fullShare a) ∗ (∃ b, owns (c : Thread nD τ) accQ0M fullShare b))
  else iprop(owns (c : Thread nD τ) accS0M fullShare (accS0 V c (k.val - 1) (by have := k.isLt; omega))
    ∗ owns (c : Thread nD τ) accQ0M fullShare (accQ0 V c (k.val - 1) (by have := k.isLt; omega)))

def Φ0 (c : Dev nD) (k : Fin (cfg0.N + 1)) : sProp 𝕄 :=
  iprop((∃ r, prngReg c r) ∗ accPart0 V c k ∗ Pipeline.scopedRestBut spec0 c [cc0_scratch0, cc0_scratch1])

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out11_0 (inAt0 V c t)
    | ⟨12, _⟩ => outS0 V c t
    | ⟨13, _⟩ => outQ0 V c t
  Φ k := Φ0 V c k
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := rfl

theorem after0_1 (c : Dev nD) (t : Fin cfg0.N) : (dat0 V c).after 1 t = iblk0 V c 1 t := rfl

theorem after0_2 (c : Dev nD) (t : Fin cfg0.N) : (dat0 V c).after 2 t = iblk0 V c 2 t := rfl

theorem after0_3 (c : Dev nD) (t : Fin cfg0.N) : (dat0 V c).after 3 t = iblk0 V c 3 t := rfl

theorem after0_4 (c : Dev nD) (t : Fin cfg0.N) : (dat0 V c).after 4 t = iblk0 V c 4 t := rfl

theorem after0_5 (c : Dev nD) (t : Fin cfg0.N) : (dat0 V c).after 5 t = iblk0 V c 5 t := rfl

theorem after0_6 (c : Dev nD) (t : Fin cfg0.N) : (dat0 V c).after 6 t = iblk0 V c 6 t := rfl

theorem after0_7 (c : Dev nD) (t : Fin cfg0.N) : (dat0 V c).after 7 t = iblk0 V c 7 t := rfl

theorem after0_8 (c : Dev nD) (t : Fin cfg0.N) : (dat0 V c).after 8 t = iblk0 V c 8 t := rfl

theorem after0_9 (c : Dev nD) (t : Fin cfg0.N) : (dat0 V c).after 9 t = iblk0 V c 9 t := rfl

theorem after0_10 (c : Dev nD) (t : Fin cfg0.N) : (dat0 V c).after 10 t = iblk0 V c 10 t := rfl

theorem after0_11 (c : Dev nD) (t : Fin cfg0.N) : (dat0 V c).after 11 t = out11_0 (inAt0 V c t) := by dsimp only [dat0]

theorem after0_12 (c : Dev nD) (t : Fin cfg0.N) : (dat0 V c).after 12 t = outS0 V c t := by dsimp only [dat0]

theorem after0_13 (c : Dev nD) (t : Fin cfg0.N) : (dat0 V c).after 13 t = outQ0 V c t := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

theorem before0_5 (c : Dev nD) (t : Fin cfg0.N) (d) : (dat0 V c).before 5 t d = iblk0 V c 5 t :=
  (dat0 V c).before_in_eq_fetched 5 rfl (fun _ => rfl) (fun _ _ _ => rfl) (fun _ => rfl) t d

theorem before0_6 (c : Dev nD) (t : Fin cfg0.N) (d) : (dat0 V c).before 6 t d = iblk0 V c 6 t :=
  (dat0 V c).before_in_eq_fetched 6 rfl (fun _ => rfl) (fun _ _ _ => rfl) (fun _ => rfl) t d

theorem before0_7 (c : Dev nD) (t : Fin cfg0.N) (d) : (dat0 V c).before 7 t d = iblk0 V c 7 t :=
  (dat0 V c).before_in_eq_fetched 7 rfl (fun _ => rfl) (fun _ _ _ => rfl) (fun _ => rfl) t d

theorem before0_8 (c : Dev nD) (t : Fin cfg0.N) (d) : (dat0 V c).before 8 t d = iblk0 V c 8 t :=
  (dat0 V c).before_in_eq_fetched 8 rfl (fun _ => rfl) (fun _ _ _ => rfl) (fun _ => rfl) t d

theorem before0_9 (c : Dev nD) (t : Fin cfg0.N) (d) : (dat0 V c).before 9 t d = iblk0 V c 9 t :=
  (dat0 V c).before_in_eq_fetched 9 rfl (fun _ => rfl) (fun _ _ _ => rfl) (fun _ => rfl) t d

theorem before0_10 (c : Dev nD) (t : Fin cfg0.N) (d) : (dat0 V c).before 10 t d = iblk0 V c 10 t :=
  (dat0 V c).before_in_eq_fetched 10 rfl (fun _ => rfl) (fun _ _ _ => rfl) (fun _ => rfl) t d

theorem Φ_eq0 (c : Dev nD) (k : Fin (cfg0.N + 1)) : (dat0 V c).Φ k = Φ0 V c k := by dsimp only [dat0]

theorem accPart0_pre_first (c : Dev nD) (t : Fin cfg0.N) (h : t.val = 0) :
    accPart0 V c t.castSucc = iprop((∃ a, owns (c : Thread nD τ) accS0M fullShare a) ∗ (∃ b, owns (c : Thread nD τ) accQ0M fullShare b)) := by
  unfold accPart0; rw [dif_pos (by exact h)]

theorem accPart0_pre_other (c : Dev nD) (t : Fin cfg0.N) (h : t.val ≠ 0) :
    accPart0 V c t.castSucc = iprop(owns (c : Thread nD τ) accS0M fullShare (befS0 V c t h) ∗ owns (c : Thread nD τ) accQ0M fullShare (befQ0 V c t h)) := by
  unfold accPart0; rw [dif_neg (by exact h)]; rfl

theorem accPart0_post (c : Dev nD) (t : Fin cfg0.N) :
    accPart0 V c t.succ = iprop(owns (c : Thread nD τ) accS0M fullShare (accS0 V c t.val t.isLt) ∗ owns (c : Thread nD τ) accQ0M fullShare (accQ0 V c t.val t.isLt)) := by
  unfold accPart0; rw [dif_neg (by exact Nat.succ_ne_zero t.val)]; rfl

theorem idle0_in : ∀ (w : Fin 14), w.val < 12 → ∀ i : grid0.Coords, idle0 w i = false
  | ⟨0, _⟩, _, _ => rfl
  | ⟨1, _⟩, _, _ => rfl
  | ⟨2, _⟩, _, _ => rfl
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl
  | ⟨9, _⟩, _, _ => rfl
  | ⟨10, _⟩, _, _ => rfl
  | ⟨11, _⟩, _, _ => rfl
  | ⟨n + 12, _⟩, h, _ => absurd h (Nat.not_lt.2 (Nat.le_add_left _ _))

theorem idle0_out (w : Fin 14) (hw : 12 ≤ w.val) (i : grid0.Coords) : idle0 w i = !(k0_cond2 i == 1#1) :=
  match w, hw with
  | ⟨12, _⟩, _ => rfl
  | ⟨13, _⟩, _ => rfl

theorem idle0_of_last (t : Fin cfg0.N) (h : IsLast0 (grid0.coords t)) (w : Fin 14) (hw : 12 ≤ w.val) : idle0 w (grid0.coords t) = false := by
  rw [idle0_out w hw, show (k0_cond2 (grid0.coords t) == 1#1) = true from beq_iff_eq.mpr h]; rfl

theorem idle0_of_not_last (t : Fin cfg0.N) (h : ¬ IsLast0 (grid0.coords t)) (w : Fin 14) (hw : 12 ≤ w.val) : idle0 w (grid0.coords t) = true := by
  rw [idle0_out w hw, show (k0_cond2 (grid0.coords t) == 1#1) = false from beq_eq_false_iff_ne.mpr h]; rfl

theorem flush0_of_not_last (t : Fin cfg0.N) (h : ¬ IsLast0 (grid0.coords t)) {w : Fin cfg0.W}
    (hw : (cfg0.win w).flush t = true ↔ t.val % 25 = 24) : (cfg0.win w).flush t = false :=
  Bool.eq_false_iff.mpr fun hf => h ((isLast0_iff t).mpr (by
    have h1 := hw.mp hf; have h2 := t.isLt; have h3 : cfg0.N = 25 := N_0; omega))

set_option maxHeartbeats 4000000 in
theorem body_obligation0 (c : Dev nD) : BodyObligation (dat0 (F := F) V c) (defs₀ (F := F)) Variants.none () Set.univ := fun t => by
  rw [bigSep_W0, bigSep_W0]
  rw [show (dat0 V c).owesAt () t.succ = (dat0 V c).owesAt () t.castSucc from rfl, Φ_eq0, Φ_eq0]
  unfold Φ0
  have hN : cfg0.N = 25 := N_0
  have hlt := t.isLt
  simp only [idle0_in 0 (by decide), idle0_in 1 (by decide), idle0_in 2 (by decide), idle0_in 3 (by decide), idle0_in 4 (by decide), idle0_in 5 (by decide), idle0_in 6 (by decide), idle0_in 7 (by decide), idle0_in 8 (by decide), idle0_in 9 (by decide), idle0_in 10 (by decide), idle0_in 11 (by decide), before0_0, before0_1, before0_2, before0_3, before0_4, before0_5, before0_6, before0_7, before0_8, before0_9, before0_10, after0_0, after0_1, after0_2, after0_3, after0_4, after0_5, after0_6, after0_7, after0_8, after0_9, after0_10, after0_11, after0_12, after0_13]
  by_cases hL : IsLast0 (grid0.coords t)
  · have h24 : t.val = 24 := (isLast0_iff t).mp hL
    have h0 : t.val ≠ 0 := by omega
    have hF : ¬ IsFirst0 (grid0.coords t) := fun h => h0 ((isFirst0_iff t).mp h)
    simp only [idle0_of_last t hL 12 (by decide), idle0_of_last t hL 13 (by decide)]
    rw [accPart0_pre_other V c t h0, accPart0_post V c t, accS0_step V c t h0 (by omega), accQ0_step V c t h0 (by omega),
      show outS0 V c t = sout0 (inAt0 V c t) (befS0 V c t h0) from dif_neg h0,
      show outQ0 V c t = qout0 (inAt0 V c t) (befQ0 V c t h0) from dif_neg h0]
    unfold inAt0
    iintro ⟨⟨Hp, ⟨Ha, Hb⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_last0 c _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (befS0 V c t h0) (befQ0 V c t h0) hF hL _)
    unfold ins0
    iframe H0 H1 H2 H3 H4 H5 H6 H7 H8 H9 H10 Ha Hb
    isplitl [H11]; · iexists _; iexact H11
    isplitl [H12]; · iexists _; iexact H12
    isplitl [H13]; · iexists _; iexact H13
    iintro ⟨⟨H0, H1, H2, H3, H4, H5, H6, H7, H8, H9, H10⟩, H11, H12, H13, Ha, Hb⟩
    iframe
  · simp only [idle0_of_not_last t hL 12 (by decide), idle0_of_not_last t hL 13 (by decide), flush0_of_not_last t hL (flush0_12 t), flush0_of_not_last t hL (flush0_13 t)]
    by_cases hF : IsFirst0 (grid0.coords t)
    · have h0 : t.val = 0 := (isFirst0_iff t).mp hF
      rw [accPart0_pre_first V c t h0, accPart0_post V c t, accS0_first V c t h0, accQ0_first V c t h0]
      unfold inAt0
      iintro ⟨⟨Hp, ⟨Ha, Hb⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
      iapply (run_first0 c _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) hF hL _ _ _)
      unfold ins0
      iframe H0 H1 H2 H3 H4 H5 H6 H7 H8 H9 H10 H12 H13 Ha Hb
      isplitl [H11]; · iexists _; iexact H11
      iintro ⟨⟨H0, H1, H2, H3, H4, H5, H6, H7, H8, H9, H10⟩, H11, H12, H13, Ha, Hb⟩
      iframe
    · have h0 : t.val ≠ 0 := fun h => hF ((isFirst0_iff t).mpr h)
      rw [accPart0_pre_other V c t h0, accPart0_post V c t, accS0_step V c t h0 (by omega), accQ0_step V c t h0 (by omega)]
      unfold inAt0
      iintro ⟨⟨Hp, ⟨Ha, Hb⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
      iapply (run_mid0 c _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (befS0 V c t h0) (befQ0 V c t h0) hF hL _ _ _)
      unfold ins0
      iframe H0 H1 H2 H3 H4 H5 H6 H7 H8 H9 H10 H12 H13 Ha Hb
      isplitl [H11]; · iexists _; iexact H11
      iintro ⟨⟨H0, H1, H2, H3, H4, H5, H6, H7, H8, H9, H10⟩, H11, H12, H13, Ha, Hb⟩
      iframe

theorem accPart0_zero (c : Dev nD) :
    accPart0 V c 0 = iprop((∃ a, owns (c : Thread nD τ) accS0M fullShare a) ∗ (∃ b, owns (c : Thread nD τ) accQ0M fullShare b)) := by
  unfold accPart0; exact dif_pos (by decide)

theorem accPart0_last (c : Dev nD) :
    accPart0 V c (Fin.last cfg0.N) = iprop(owns (c : Thread nD τ) accS0M fullShare (accS0 V c 24 (by decide)) ∗ owns (c : Thread nD τ) accQ0M fullShare (accQ0 V c 24 (by decide))) := by
  unfold accPart0; rw [dif_neg (by decide)]; rfl

theorem hin0 (c : Dev nD) : (iprop((∃ r, prngReg c r) ∗ Pipeline.scopedRest spec0 c) : sProp 𝕄) ⊢ (dat0 V c).Φ 0 := by
  rw [Φ_eq0, scopedRest0_split]
  unfold Φ0; rw [accPart0_zero]
  iintro ⟨Hp, ⟨⟨%f, Hf⟩, ⟨%g, Hg⟩⟩, HR⟩
  iframe Hp HR
  isplitl [Hf]
  · iexists f; rw [owns_whole_eq]; iexists f; isplitr; (· ipureintro; rfl); iexact Hf
  · iexists g; rw [owns_whole_eq]; iexists g; isplitr; (· ipureintro; rfl); iexact Hg

theorem hout0 (c : Dev nD) : (dat0 V c).Φ (Fin.last cfg0.N) ⊢ (iprop((∃ r, prngReg c r) ∗ Pipeline.scopedRest spec0 c) : sProp 𝕄) := by
  rw [Φ_eq0, scopedRest0_split]
  unfold Φ0; rw [accPart0_last]; simp only [owns_whole_eq]
  iintro ⟨Hp, ⟨⟨%f, %hf, Hf⟩, ⟨%g, %hg, Hg⟩⟩, HR⟩
  iframe Hp HR
  isplitl [Hf]
  · iexists f; iexact Hf
  · iexists g; iexact Hg

end Cert.KernelIdeal.Hand

end
-- ==== Proof.KI.R1.lean ====
import proofs.«427087_j34256659153343_2_alg».proof.Proof.Gen.KernelIdeal.Launch

import proofs.«427087_j34256659153343_2_alg».proof.Proof.Gen.KernelIdeal.Skeleton

import proofs.«427087_j34256659153343_2_alg».proof.Proof.Gen.KernelIdeal.Points

import Idealize.ShloMosaic.Lib.Pipeline.FrameBody

import Idealize.ShloMosaic.Lib.Pipeline.RegionsLoop

import Idealize.ShloMosaic.Lib.Pipeline.FrameSuffix

import Idealize.ShloMosaic.Lib.Ring

import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev whole1 : Rect S10000x32 := Rect.unit (s := S10000x32) ![0, 0] S10000x32.size inb_S10000x32_S10000x32_0_0

abbrev row1 : Rect S1x32 := Rect.unit (s := S1x32) ![0, 0] S1x32.size inb_S1x32_S1x32_0_0

def res1 (o : Vec F S10000x32 .f32) (mean var g b : Vec F S1x32 .f32) : Vec F S10000x32 .f32 :=
  View.canon [⟨whole1, k1_pay1 (View.ld var row1) (View.ld o whole1) (View.ld mean row1) (View.ld g row1) (View.ld b row1)⟩]

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => res1 (blk1 V c 0 t) (blk1 V c 1 t) (blk1 V c 2 t) (blk1 V c 3 t) (blk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_in (c : Dev nD) :
    (∀ t, (dat1 V c).after 0 t = blk1 V c 0 t) ∧ (∀ t, (dat1 V c).after 1 t = blk1 V c 1 t) ∧ (∀ t, (dat1 V c).after 2 t = blk1 V c 2 t)
      ∧ (∀ t, (dat1 V c).after 3 t = blk1 V c 3 t) ∧ (∀ t, (dat1 V c).after 4 t = blk1 V c 4 t) := by
  dsimp only [dat1]; exact ⟨fun _ => rfl, fun _ => rfl, fun _ => rfl, fun _ => rfl, fun _ => rfl⟩

theorem after1_5 (c : Dev nD) (t : Fin cfg1.N) :
    (dat1 V c).after 5 t = res1 (blk1 V c 0 t) (blk1 V c 1 t) (blk1 V c 2 t) (blk1 V c 3 t) (blk1 V c 4 t) := by dsimp only [dat1]

theorem before1_in (c : Dev nD) (t : Fin cfg1.N) :
    (∀ d, (dat1 V c).before 0 t d = blk1 V c 0 t) ∧ (∀ d, (dat1 V c).before 1 t d = blk1 V c 1 t)
      ∧ (∀ d, (dat1 V c).before 2 t d = blk1 V c 2 t) ∧ (∀ d, (dat1 V c).before 3 t d = blk1 V c 3 t)
      ∧ (∀ d, (dat1 V c).before 4 t d = blk1 V c 4 t) := by
  obtain ⟨a0, a1, a2, a3, a4⟩ := after1_in V c
  refine ⟨fun d => ?_, fun d => ?_, fun d => ?_, fun d => ?_, fun d => ?_⟩ <;>
    exact Eq.trans (Dat.before_in_eq_fetched _ _ rfl (fun _ => rfl) (fun _ _ _ => rfl)
      (fun t => by simp only [a0, a1, a2, a3, a4]; unfold Dat.blockOf blk1; rw [A_eq1]; try rfl) t d)
      (by unfold Dat.fetched Dat.blockOf blk1; rw [A_eq1]; try rfl)

set_option maxHeartbeats 1000000 in
theorem body_obligation1 (c : Dev nD) : BodyObligation (dat1 (F := F) V c) (defs₀ (F := F)) Variants.none () Set.univ := fun t => by
  obtain ⟨b0, b1, b2, b3, b4⟩ := before1_in V c t
  obtain ⟨a0, a1, a2, a3, a4⟩ := after1_in V c
  rw [show (dat1 V c).Φ t.succ = (dat1 V c).Φ t.castSucc from rfl,
    show (dat1 V c).owesAt () t.succ = (dat1 V c).owesAt () t.castSucc from rfl]
  simp only [bigSep_W1, b0, b1, b2, b3, b4, a0, a1, a2, a3, a4, after1_5]
  show _ ⊢ wp _ _ _ (bodyAt1 (F := F) t) _
  unfold bodyAt1
  generalize blk1 V c 0 t = o; generalize blk1 V c 1 t = mean; generalize blk1 V c 2 t = var
  generalize blk1 V c 3 t = g; generalize blk1 V c 4 t = b
  simp only [cc1__bn_kernel_eq_skeleton]; unfold cc1__bn_kernel_skel
  unfold owns
  iintro ⟨HΦ, Ho, ⟨%d0, %f1, %hf1, H1⟩, ⟨%d1, %f2, %hf2, H2⟩, ⟨%d2, %f3, %hf3, H3⟩, ⟨%d3, %f4, %hf4, H4⟩, ⟨%d4, %f5, %hf5, H5⟩, ⟨%d5, %f6, -, H6⟩⟩
  subst hf1 hf2 hf3 hf4 hf5
  sl_exec
  sl_step
  isplitl [HΦ]; · iexact HΦ
  isplitl [Ho]; · iexact Ho
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x32.size (by rfl))

theorem hin1 (c : Dev nD) :
    (iprop((∃ r, prngReg c r) ∗ Pipeline.scopedRest spec1 c) : sProp 𝕄) ⊢ (dat1 V c).Φ 0 := sep_symm

theorem hout1 (c : Dev nD) :
    (dat1 V c).Φ (Fin.last cfg1.N) ⊢ (iprop((∃ r, prngReg c r) ∗ Pipeline.scopedRest spec1 c) : sProp 𝕄) := sep_symm

end Cert.KernelIdeal.Hand

end
-- ==== Proof.KI.R2.lean ====
import proofs.«427087_j34256659153343_2_alg».proof.Proof.Gen.KernelIdeal.Launch

import proofs.«427087_j34256659153343_2_alg».proof.Proof.Gen.KernelIdeal.Skeleton

import proofs.«427087_j34256659153343_2_alg».proof.Proof.Gen.KernelIdeal.Points

import Idealize.ShloMosaic.Lib.Pipeline.FrameBody

import Idealize.ShloMosaic.Lib.Pipeline.RegionsLoop

import Idealize.ShloMosaic.Lib.Pipeline.FrameSuffix

import Idealize.ShloMosaic.Lib.Ring

import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rB2 : Rect S10000x32 := Rect.unit (s := S10000x32) ![0, 0] S10000x32.size inb_S10000x32_S10000x32_0_0

abbrev rW2 : Rect S32x32 := Rect.unit (s := S32x32) ![0, 0] S32x32.size inb_S32x32_S32x32_0_0

abbrev rV2 : Rect S1x32 := Rect.unit (s := S1x32) ![0, 0] S1x32.size inb_S1x32_S1x32_0_0

abbrev accS2 : Memref sig .tc .vmem S1x32 .f32 := Memref.whole cc2_scratch0

abbrev accQ2 : Memref sig .tc .vmem S1x32 .f32 := Memref.whole cc2_scratch1

abbrev IsFirst2 (i : grid2.Coords) : Prop :=
  Scalar.cmpi .ne (Scalar.extui (Scalar.cmpi .eq (BitVec.ofNat 32 (i 0).val) 0#32)) 0#32 = 1#1

abbrev IsLast2 (i : grid2.Coords) : Prop := k2_cond2 i = 1#1

theorem isFirst2_iff : ∀ t : Fin cfg2.N, IsFirst2 (grid2.coords t) ↔ t.val = 0 :=
  (by decide +kernel : ∀ t : Fin grid2.N,
    (Scalar.cmpi .ne (Scalar.extui (Scalar.cmpi .eq (BitVec.ofNat 32 ((grid2.coords t) 0).val) 0#32)) 0#32 = 1#1) ↔ t.val = 0)

theorem isLast2_iff : ∀ t : Fin cfg2.N, IsLast2 (grid2.coords t) ↔ t.val = 24 :=
  (by decide +kernel : ∀ t : Fin grid2.N, k2_cond2 (grid2.coords t) = 1#1 ↔ t.val = 24)

section Payloads

variable (x af ab : Vec F S10000x32 .f32) (w1f : Vec F S32x32 .f32) (b1f : Vec F S1x32 .f32) (w2f : Vec F S32x32 .f32) (b2f : Vec F S1x32 .f32)
  (w1b : Vec F S32x32 .f32) (b1b : Vec F S1x32 .f32) (w2b : Vec F S32x32 .f32) (b2b : Vec F S1x32 .f32)

abbrev oPay2 : FVec F S10000x32 .f32 :=
  k2_pay8 (k2_pay4 (View.ld x rB2) (View.ld ab rB2)) (k2_pay5 (View.ld w1b rW2)) (k2_pay6 (View.ld w2b rW2))
    (k2_pay7 (View.ld x rB2) (View.ld af rB2) (View.ld w1f rW2) (View.ld w2f rW2) (View.ld b1f rV2) (View.ld b2f rV2))
    (Scalar.ofBits .f32 0x00000000#32) (View.ld b1b rV2) (View.ld b2b rV2)

abbrev sPay2 (a : Vec F S1x32 .f32) : FVec F S1x32 .f32 :=
  k2_pay9 (k2_pay4 (View.ld x rB2) (View.ld ab rB2)) (k2_pay5 (View.ld w1b rW2)) (k2_pay6 (View.ld w2b rW2))
    (k2_pay7 (View.ld x rB2) (View.ld af rB2) (View.ld w1f rW2) (View.ld w2f rW2) (View.ld b1f rV2) (View.ld b2f rV2))
    (Scalar.ofBits .f32 0x00000000#32) (View.ld b1b rV2) (View.ld b2b rV2) a

abbrev qPay2 (a : Vec F S1x32 .f32) : FVec F S1x32 .f32 :=
  k2_pay10 (k2_pay4 (View.ld x rB2) (View.ld ab rB2)) (k2_pay5 (View.ld w1b rW2)) (k2_pay6 (View.ld w2b rW2))
    (k2_pay7 (View.ld x rB2) (View.ld af rB2) (View.ld w1f rW2) (View.ld w2f rW2) (View.ld b1f rV2) (View.ld b2f rV2))
    (Scalar.ofBits .f32 0x00000000#32) (View.ld b1b rV2) (View.ld b2b rV2) a

def out2_11 : Vec F S10000x32 .f32 := View.canon [⟨rB2, oPay2 x af ab w1f b1f w2f b2f w1b b1b w2b b2b⟩]

def sFirst2 : Vec F S1x32 .f32 :=
  View.canon [⟨rV2, sPay2 x af ab w1f b1f w2f b2f w1b b1b w2b b2b (accS2.view.readCov [⟨rV2, k2_pay1⟩] rV2.toLoadRect)⟩, ⟨rV2, k2_pay1⟩]

def sStep2 (a : Vec F S1x32 .f32) : Vec F S1x32 .f32 :=
  View.canon [⟨rV2, sPay2 x af ab w1f b1f w2f b2f w1b b1b w2b b2b (View.ld a rV2)⟩]

def qFirst2 : Vec F S1x32 .f32 :=
  View.canon [⟨rV2, qPay2 x af ab w1f b1f w2f b2f w1b b1b w2b b2b (accQ2.view.readCov [⟨rV2, k2_pay2⟩] rV2.toLoadRect)⟩, ⟨rV2, k2_pay2⟩]

def qStep2 (a : Vec F S1x32 .f32) : Vec F S1x32 .f32 :=
  View.canon [⟨rV2, qPay2 x af ab w1f b1f w2f b2f w1b b1b w2b b2b (View.ld a rV2)⟩]

def out2_12 (a : Vec F S1x32 .f32) : Vec F S1x32 .f32 :=
  View.canon [⟨rV2, accS2.view.readCov [⟨rV2, sPay2 x af ab w1f b1f w2f b2f w1b b1b w2b b2b (View.ld a rV2)⟩] rV2.toLoadRect⟩]

def out2_13 (a : Vec F S1x32 .f32) : Vec F S1x32 .f32 :=
  View.canon [⟨rV2, accQ2.view.readCov [⟨rV2, qPay2 x af ab w1f b1f w2f b2f w1b b1b w2b b2b (View.ld a rV2)⟩] rV2.toLoadRect⟩]

end Payloads

omit [FloatOps F] in
theorem coverB2 (p : Vec F S10000x32 .f32) (y : S10000x32.Idx) : ∃ pc ∈ ([⟨rB2, p⟩] : List (View.Piece (Elt F) S10000x32 .f32)), y ∈ pc.1.set :=
  View.cover_of_tiled [⟨rB2, p⟩] S10000x32.size (by rfl) y

omit [FloatOps F] in
theorem coverV2 (p : Vec F S1x32 .f32) (y : S1x32.Idx) : ∃ pc ∈ ([⟨rV2, p⟩] : List (View.Piece (Elt F) S1x32 .f32)), y ∈ pc.1.set :=
  View.cover_of_tiled [⟨rV2, p⟩] S1x32.size (by rfl) y

omit [FloatOps F] in
theorem coverV2' (p q : Vec F S1x32 .f32) (y : S1x32.Idx) : ∃ pc ∈ ([⟨rV2, p⟩, ⟨rV2, q⟩] : List (View.Piece (Elt F) S1x32 .f32)), y ∈ pc.1.set :=
  View.cover_of_tiled [⟨rV2, p⟩, ⟨rV2, q⟩] S1x32.size (by rfl) y

section Runs

variable (c : Dev nD) (i : grid2.Coords) (M0 : Memref sig .tc .vmem S10000x32 .f32) (h0 : M0.IsWhole) (M1 : Memref sig .tc .vmem S10000x32 .f32) (h1 : M1.IsWhole) (M2 : Memref sig .tc .vmem S10000x32 .f32) (h2 : M2.IsWhole) (M3 : Memref sig .tc .vmem S32x32 .f32) (h3 : M3.IsWhole) (M4 : Memref sig .tc .vmem S1x32 .f32) (h4 : M4.IsWhole) (M5 : Memref sig .tc .vmem S32x32 .f32) (h5 : M5.IsWhole) (M6 : Memref sig .tc .vmem S1x32 .f32) (h6 : M6.IsWhole) (M7 : Memref sig .tc .vmem S32x32 .f32) (h7 : M7.IsWhole) (M8 : Memref sig .tc .vmem S1x32 .f32) (h8 : M8.IsWhole) (M9 : Memref sig .tc .vmem S32x32 .f32) (h9 : M9.IsWhole) (M10 : Memref sig .tc .vmem S1x32 .f32) (h10 : M10.IsWhole) (M11 : Memref sig .tc .vmem S10000x32 .f32) (h11 : M11.IsWhole) (M12 : Memref sig .tc .vmem S1x32 .f32) (h12 : M12.IsWhole) (M13 : Memref sig .tc .vmem S1x32 .f32) (h13 : M13.IsWhole)
  (x af ab : Vec F S10000x32 .f32) (w1f : Vec F S32x32 .f32) (b1f : Vec F S1x32 .f32) (w2f : Vec F S32x32 .f32) (b2f : Vec F S1x32 .f32)
  (w1b : Vec F S32x32 .f32) (b1b : Vec F S1x32 .f32) (w2b : Vec F S32x32 .f32) (b2b : Vec F S1x32 .f32)

local notation "BODY2" => cc2__gin_layer_kernel i M0 h0 M1 h1 M2 h2 M3 h3 M4 h4 M5 h5 M6 h6 M7 h7 M8 h8 M9 h9 M10 h10 M11 h11 M12 h12 M13 h13 (Memref.whole cc2_scratch0) (Memref.isWhole_whole _) (Memref.whole cc2_scratch1) (Memref.isWhole_whole _)

def ins2 : sProp 𝕄 :=
  iprop(owns (c : Thread nD τ) M0 fullShare x ∗ owns (c : Thread nD τ) M1 fullShare af ∗ owns (c : Thread nD τ) M2 fullShare ab ∗ owns (c : Thread nD τ) M3 fullShare w1f ∗ owns (c : Thread nD τ) M4 fullShare b1f ∗ owns (c : Thread nD τ) M5 fullShare w2f ∗ owns (c : Thread nD τ) M6 fullShare b2f ∗ owns (c : Thread nD τ) M7 fullShare w1b ∗ owns (c : Thread nD τ) M8 fullShare b1b ∗ owns (c : Thread nD τ) M9 fullShare w2b ∗ owns (c : Thread nD τ) M10 fullShare b2b)

set_option maxHeartbeats 4000000 in

theorem run2_first (hF : IsFirst2 i) (hL : ¬ IsLast2 i) (O12 O13 : sProp 𝕄) (Q : PUnit → sProp 𝕄) :
    iprop(ins2 c M0 M1 M2 M3 M4 M5 M6 M7 M8 M9 M10 x af ab w1f b1f w2f b2f w1b b1b w2b b2b
      ∗ (∃ d, owns (c : Thread nD τ) M11 fullShare d) ∗ O12 ∗ O13
      ∗ (∃ a, owns (c : Thread nD τ) accS2 fullShare a) ∗ (∃ a, owns (c : Thread nD τ) accQ2 fullShare a)
      ∗ (iprop(ins2 c M0 M1 M2 M3 M4 M5 M6 M7 M8 M9 M10 x af ab w1f b1f w2f b2f w1b b1b w2b b2b
          ∗ owns (c : Thread nD τ) M11 fullShare (out2_11 x af ab w1f b1f w2f b2f w1b b1b w2b b2b) ∗ O12 ∗ O13
          ∗ owns (c : Thread nD τ) accS2 fullShare (sFirst2 x af ab w1f b1f w2f b2f w1b b1b w2b b2b) ∗ owns (c : Thread nD τ) accQ2 fullShare (qFirst2 x af ab w1f b1f w2f b2f w1b b1b w2b b2b)) -∗ Q ⟨⟩))
      ⊢ wp frame (wpE (defs₀ (F := F)) Variants.none c none) Set.univ BODY2 Q := by
  unfold ins2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, HO12, HO13, ⟨%aS, %fS, -, HS⟩, ⟨%aQ, %fQ, -, HQ⟩, Hk⟩
  subst hf0 hf1 hf2 hf3 hf4 hf5 hf6 hf7 hf8 hf9 hf10
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverB2 _)
  isplitl [HO12]; · iexact HO12
  isplitl [HO13]; · iexact HO13
  isplitl [HS]; · iexists _; isplitr; swap; (· iexact HS); ipureintro; exact View.read_writes_eq_canon _ _ _ (coverV2' _ _)
  iexists _; isplitr; swap; (· iexact HQ); ipureintro; exact View.read_writes_eq_canon _ _ _ (coverV2' _ _)

set_option maxHeartbeats 4000000 in

theorem run2_mid (a b : Vec F S1x32 .f32) (hF : ¬ IsFirst2 i) (hL : ¬ IsLast2 i) (O12 O13 : sProp 𝕄) (Q : PUnit → sProp 𝕄) :
    iprop(ins2 c M0 M1 M2 M3 M4 M5 M6 M7 M8 M9 M10 x af ab w1f b1f w2f b2f w1b b1b w2b b2b
      ∗ (∃ d, owns (c : Thread nD τ) M11 fullShare d) ∗ O12 ∗ O13
      ∗ owns (c : Thread nD τ) accS2 fullShare a ∗ owns (c : Thread nD τ) accQ2 fullShare b
      ∗ (iprop(ins2 c M0 M1 M2 M3 M4 M5 M6 M7 M8 M9 M10 x af ab w1f b1f w2f b2f w1b b1b w2b b2b
          ∗ owns (c : Thread nD τ) M11 fullShare (out2_11 x af ab w1f b1f w2f b2f w1b b1b w2b b2b) ∗ O12 ∗ O13
          ∗ owns (c : Thread nD τ) accS2 fullShare (sStep2 x af ab w1f b1f w2f b2f w1b b1b w2b b2b a) ∗ owns (c : Thread nD τ) accQ2 fullShare (qStep2 x af ab w1f b1f w2f b2f w1b b1b w2b b2b b)) -∗ Q ⟨⟩))
      ⊢ wp frame (wpE (defs₀ (F := F)) Variants.none c none) Set.univ BODY2 Q := by
  unfold ins2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, HO12, HO13, ⟨%fS, %hfS, HS⟩, ⟨%fQ, %hfQ, HQ⟩, Hk⟩
  subst hf0 hf1 hf2 hf3 hf4 hf5 hf6 hf7 hf8 hf9 hf10 hfS hfQ
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverB2 _)
  isplitl [HO12]; · iexact HO12
  isplitl [HO13]; · iexact HO13
  isplitl [HS]; · iexists _; isplitr; swap; (· iexact HS); ipureintro; exact View.read_writes_eq_canon _ _ _ (coverV2 _)
  iexists _; isplitr; swap; (· iexact HQ); ipureintro; exact View.read_writes_eq_canon _ _ _ (coverV2 _)

set_option maxHeartbeats 4000000 in

theorem run2_last (a b : Vec F S1x32 .f32) (hF : ¬ IsFirst2 i) (hL : IsLast2 i) (Q : PUnit → sProp 𝕄) :
    iprop(ins2 c M0 M1 M2 M3 M4 M5 M6 M7 M8 M9 M10 x af ab w1f b1f w2f b2f w1b b1b w2b b2b
      ∗ (∃ d, owns (c : Thread nD τ) M11 fullShare d) ∗ (∃ d, owns (c : Thread nD τ) M12 fullShare d) ∗ (∃ d, owns (c : Thread nD τ) M13 fullShare d)
      ∗ owns (c : Thread nD τ) accS2 fullShare a ∗ owns (c : Thread nD τ) accQ2 fullShare b
      ∗ (iprop(ins2 c M0 M1 M2 M3 M4 M5 M6 M7 M8 M9 M10 x af ab w1f b1f w2f b2f w1b b1b w2b b2b
          ∗ owns (c : Thread nD τ) M11 fullShare (out2_11 x af ab w1f b1f w2f b2f w1b b1b w2b b2b)
          ∗ owns (c : Thread nD τ) M12 fullShare (out2_12 x af ab w1f b1f w2f b2f w1b b1b w2b b2b a) ∗ owns (c : Thread nD τ) M13 fullShare (out2_13 x af ab w1f b1f w2f b2f w1b b1b w2b b2b b)
          ∗ owns (c : Thread nD τ) accS2 fullShare (sStep2 x af ab w1f b1f w2f b2f w1b b1b w2b b2b a) ∗ owns (c : Thread nD τ) accQ2 fullShare (qStep2 x af ab w1f b1f w2f b2f w1b b1b w2b b2b b)) -∗ Q ⟨⟩))
      ⊢ wp frame (wpE (defs₀ (F := F)) Variants.none c none) Set.univ BODY2 Q := by
  unfold ins2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, ⟨%d13, %f13, -, H13⟩, ⟨%fS, %hfS, HS⟩, ⟨%fQ, %hfQ, HQ⟩, Hk⟩
  subst hf0 hf1 hf2 hf3 hf4 hf5 hf6 hf7 hf8 hf9 hf10 hfS hfQ
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverB2 _)
  isplitl [H12]; · iexists _; isplitr; swap; (· iexact H12); ipureintro; exact View.read_writes_eq_canon _ _ _ (coverV2 _)
  isplitl [H13]; · iexists _; isplitr; swap; (· iexact H13); ipureintro; exact View.read_writes_eq_canon _ _ _ (coverV2 _)
  isplitl [HS]; · iexists _; isplitr; swap; (· iexact HS); ipureintro; exact View.read_writes_eq_canon _ _ _ (coverV2 _)
  iexists _; isplitr; swap; (· iexact HQ); ipureintro; exact View.read_writes_eq_canon _ _ _ (coverV2 _)

end Runs

def outAt2_11 (c : Dev nD) (t : Fin cfg2.N) : Vec F S10000x32 .f32 := out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)

def accS2At (c : Dev nD) : (k : ℕ) → k < cfg2.N → Vec F S1x32 .f32
  | 0, hk => sFirst2 (iblk2 V c 0 ⟨0, hk⟩) (iblk2 V c 1 ⟨0, hk⟩) (iblk2 V c 2 ⟨0, hk⟩) (iblk2 V c 3 ⟨0, hk⟩) (iblk2 V c 4 ⟨0, hk⟩) (iblk2 V c 5 ⟨0, hk⟩) (iblk2 V c 6 ⟨0, hk⟩) (iblk2 V c 7 ⟨0, hk⟩) (iblk2 V c 8 ⟨0, hk⟩) (iblk2 V c 9 ⟨0, hk⟩) (iblk2 V c 10 ⟨0, hk⟩)
  | k + 1, hk => sStep2 (iblk2 V c 0 ⟨k + 1, hk⟩) (iblk2 V c 1 ⟨k + 1, hk⟩) (iblk2 V c 2 ⟨k + 1, hk⟩) (iblk2 V c 3 ⟨k + 1, hk⟩) (iblk2 V c 4 ⟨k + 1, hk⟩) (iblk2 V c 5 ⟨k + 1, hk⟩) (iblk2 V c 6 ⟨k + 1, hk⟩) (iblk2 V c 7 ⟨k + 1, hk⟩) (iblk2 V c 8 ⟨k + 1, hk⟩) (iblk2 V c 9 ⟨k + 1, hk⟩) (iblk2 V c 10 ⟨k + 1, hk⟩) (accS2At c k (Nat.lt_of_succ_lt hk))

def accQ2At (c : Dev nD) : (k : ℕ) → k < cfg2.N → Vec F S1x32 .f32
  | 0, hk => qFirst2 (iblk2 V c 0 ⟨0, hk⟩) (iblk2 V c 1 ⟨0, hk⟩) (iblk2 V c 2 ⟨0, hk⟩) (iblk2 V c 3 ⟨0, hk⟩) (iblk2 V c 4 ⟨0, hk⟩) (iblk2 V c 5 ⟨0, hk⟩) (iblk2 V c 6 ⟨0, hk⟩) (iblk2 V c 7 ⟨0, hk⟩) (iblk2 V c 8 ⟨0, hk⟩) (iblk2 V c 9 ⟨0, hk⟩) (iblk2 V c 10 ⟨0, hk⟩)
  | k + 1, hk => qStep2 (iblk2 V c 0 ⟨k + 1, hk⟩) (iblk2 V c 1 ⟨k + 1, hk⟩) (iblk2 V c 2 ⟨k + 1, hk⟩) (iblk2 V c 3 ⟨k + 1, hk⟩) (iblk2 V c 4 ⟨k + 1, hk⟩) (iblk2 V c 5 ⟨k + 1, hk⟩) (iblk2 V c 6 ⟨k + 1, hk⟩) (iblk2 V c 7 ⟨k + 1, hk⟩) (iblk2 V c 8 ⟨k + 1, hk⟩) (iblk2 V c 9 ⟨k + 1, hk⟩) (iblk2 V c 10 ⟨k + 1, hk⟩) (accQ2At c k (Nat.lt_of_succ_lt hk))

theorem acc2At_first (c : Dev nD) (t : Fin cfg2.N) (h : t.val = 0) :
    accS2At V c t.val t.isLt = sFirst2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) ∧ accQ2At V c t.val t.isLt = qFirst2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by
  obtain ⟨k, hk⟩ := t
  cases k with
  | zero => exact ⟨rfl, rfl⟩
  | succ k => exact absurd h (Nat.succ_ne_zero k)

theorem acc2At_step (c : Dev nD) (t : Fin cfg2.N) (h : t.val ≠ 0) (hp : t.val - 1 < cfg2.N) :
    accS2At V c t.val t.isLt = sStep2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accS2At V c (t.val - 1) hp) ∧ accQ2At V c t.val t.isLt = qStep2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accQ2At V c (t.val - 1) hp) := by
  obtain ⟨k, hk⟩ := t
  cases k with
  | zero => exact absurd rfl h
  | succ k => exact ⟨rfl, rfl⟩

def outAt2_12 (c : Dev nD) (t : Fin cfg2.N) : Vec F S1x32 .f32 :=
  if h : t.val = 0 then k2_pay1 else out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accS2At V c (t.val - 1) (by have := t.isLt; omega))

def outAt2_13 (c : Dev nD) (t : Fin cfg2.N) : Vec F S1x32 .f32 :=
  if h : t.val = 0 then k2_pay2 else out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accQ2At V c (t.val - 1) (by have := t.isLt; omega))

def accPart2 (c : Dev nD) (k : Fin (cfg2.N + 1)) : sProp 𝕄 :=
  if h : k.val = 0 then iprop((∃ a, owns (c : Thread nD τ) accS2 fullShare a) ∗ (∃ a, owns (c : Thread nD τ) accQ2 fullShare a))
  else iprop(owns (c : Thread nD τ) accS2 fullShare (accS2At V c (k.val - 1) (by have := k.isLt; omega))
    ∗ owns (c : Thread nD τ) accQ2 fullShare (accQ2At V c (k.val - 1) (by have := k.isLt; omega)))

def Φ2 (c : Dev nD) (k : Fin (cfg2.N + 1)) : sProp 𝕄 :=
  iprop(accPart2 V c k ∗ Pipeline.scopedRestBut spec2 c [cc2_scratch0, cc2_scratch1] ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => outAt2_11 V c t
    | ⟨12, _⟩ => outAt2_12 V c t
    | ⟨13, _⟩ => outAt2_13 V c t
  Φ k := Φ2 V c k
  q _ := fullShare
  owed _ := 0

theorem A_eq2 (c : Dev nD) (w : Fin cfg2.W) : (dat2 V c).A w = V c (Pipeline.arrRef spec2 w) := by
  dsimp only [dat2]

theorem after2_in (c : Dev nD) (t : Fin cfg2.N) :
    (dat2 V c).after 0 t = iblk2 V c 0 t ∧ (dat2 V c).after 1 t = iblk2 V c 1 t ∧ (dat2 V c).after 2 t = iblk2 V c 2 t ∧ (dat2 V c).after 3 t = iblk2 V c 3 t ∧ (dat2 V c).after 4 t = iblk2 V c 4 t ∧ (dat2 V c).after 5 t = iblk2 V c 5 t ∧ (dat2 V c).after 6 t = iblk2 V c 6 t ∧ (dat2 V c).after 7 t = iblk2 V c 7 t ∧ (dat2 V c).after 8 t = iblk2 V c 8 t ∧ (dat2 V c).after 9 t = iblk2 V c 9 t ∧ (dat2 V c).after 10 t = iblk2 V c 10 t :=
  ⟨rfl, rfl, rfl, rfl, rfl, rfl, rfl, rfl, rfl, rfl, rfl⟩

theorem after2_11 (c : Dev nD) (t : Fin cfg2.N) : (dat2 V c).after 11 t = outAt2_11 V c t := by dsimp only [dat2]

theorem after2_12 (c : Dev nD) (t : Fin cfg2.N) : (dat2 V c).after 12 t = outAt2_12 V c t := by dsimp only [dat2]

theorem after2_13 (c : Dev nD) (t : Fin cfg2.N) : (dat2 V c).after 13 t = outAt2_13 V c t := by dsimp only [dat2]

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) ∧ (∀ d, (dat2 V c).before 7 t d = iblk2 V c 7 t) ∧ (∀ d, (dat2 V c).before 8 t d = iblk2 V c 8 t) ∧ (∀ d, (dat2 V c).before 9 t d = iblk2 V c 9 t) ∧ (∀ d, (dat2 V c).before 10 t d = iblk2 V c 10 t) := by
  refine ⟨?_, ?_, ?_, ?_, ?_, ?_, ?_, ?_, ?_, ?_, ?_⟩ <;> intro d <;>
    exact ((dat2 V c).before_in_eq_fetched _ rfl (fun _ => rfl) (fun _ _ _ => rfl) (fun _ => rfl) t d).trans rfl

theorem idle2_live : ∀ w : Fin 14, w.val < 12 → ∀ t : Fin cfg2.N, idle2 w (grid2.coords t) = false := by
  intro w
  fin_cases w <;> intro hw t <;> first | rfl | exact absurd hw (by decide)

theorem idle2_last (t : Fin cfg2.N) (h : IsLast2 (grid2.coords t)) : idle2 12 (grid2.coords t) = false ∧ idle2 13 (grid2.coords t) = false := by
  constructor <;> (show (!(k2_cond2 (grid2.coords t) == 1#1)) = false; rw [beq_iff_eq.mpr h]; rfl)

theorem idle2_other (t : Fin cfg2.N) (h : ¬ IsLast2 (grid2.coords t)) : idle2 12 (grid2.coords t) = true ∧ idle2 13 (grid2.coords t) = true := by
  constructor <;> (show (!(k2_cond2 (grid2.coords t) == 1#1)) = true; rw [beq_eq_false_iff_ne.mpr h]; rfl)

theorem flush2_12_other (t : Fin cfg2.N) (h : t.val ≠ 24) : (cfg2.win 12).flush t = false :=
  Bool.eq_false_iff.mpr fun hf => h (by have := (flush2_12 t).mp hf; have hN : t.val < 25 := lt_of_lt_of_eq t.isLt (show cfg2.N = 25 from N_2); omega)

theorem flush2_13_other (t : Fin cfg2.N) (h : t.val ≠ 24) : (cfg2.win 13).flush t = false :=
  Bool.eq_false_iff.mpr fun hf => h (by have := (flush2_13 t).mp hf; have hN : t.val < 25 := lt_of_lt_of_eq t.isLt (show cfg2.N = 25 from N_2); omega)

theorem Φ2_pre_first (c : Dev nD) (t : Fin cfg2.N) (h : t.val = 0) :
    (dat2 V c).Φ t.castSucc = iprop(iprop((∃ a, owns (c : Thread nD τ) accS2 fullShare a) ∗ (∃ a, owns (c : Thread nD τ) accQ2 fullShare a))
      ∗ Pipeline.scopedRestBut spec2 c [cc2_scratch0, cc2_scratch1] ∗ ∃ r, prngReg c r) := by
  show Φ2 V c _ = _; unfold Φ2 accPart2; rw [dif_pos (by exact h)]

theorem Φ2_pre_other (c : Dev nD) (t : Fin cfg2.N) (h : t.val ≠ 0) (hp : t.val - 1 < cfg2.N) :
    (dat2 V c).Φ t.castSucc = iprop(iprop(owns (c : Thread nD τ) accS2 fullShare (accS2At V c (t.val - 1) hp) ∗ owns (c : Thread nD τ) accQ2 fullShare (accQ2At V c (t.val - 1) hp))
      ∗ Pipeline.scopedRestBut spec2 c [cc2_scratch0, cc2_scratch1] ∗ ∃ r, prngReg c r) := by
  show Φ2 V c _ = _; unfold Φ2 accPart2; rw [dif_neg (by exact h)]; rfl

theorem Φ2_post (c : Dev nD) (t : Fin cfg2.N) :
    (dat2 V c).Φ t.succ = iprop(iprop(owns (c : Thread nD τ) accS2 fullShare (accS2At V c t.val t.isLt) ∗ owns (c : Thread nD τ) accQ2 fullShare (accQ2At V c t.val t.isLt))
      ∗ Pipeline.scopedRestBut spec2 c [cc2_scratch0, cc2_scratch1] ∗ ∃ r, prngReg c r) := by
  show Φ2 V c _ = _; unfold Φ2 accPart2; rw [dif_neg (by exact Nat.succ_ne_zero t.val)]; rfl

theorem outAt2_12_pos (c : Dev nD) (t : Fin cfg2.N) (h : t.val ≠ 0) (hp : t.val - 1 < cfg2.N) :
    outAt2_12 V c t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accS2At V c (t.val - 1) hp) := by
  unfold outAt2_12; rw [dif_neg h]

theorem outAt2_13_pos (c : Dev nD) (t : Fin cfg2.N) (h : t.val ≠ 0) (hp : t.val - 1 < cfg2.N) :
    outAt2_13 V c t = out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accQ2At V c (t.val - 1) hp) := by
  unfold outAt2_13; rw [dif_neg h]

set_option maxHeartbeats 4000000 in
theorem body_obligation2 (c : Dev nD) : BodyObligation (dat2 (F := F) V c) (defs₀ (F := F)) Variants.none () Set.univ := fun t => by
  rw [bigSep_W2, bigSep_W2]
  rw [show (dat2 V c).owesAt () t.succ = (dat2 V c).owesAt () t.castSucc from rfl]
  have hN : t.val < 25 := lt_of_lt_of_eq t.isLt (show cfg2.N = 25 from N_2)
  by_cases hL : IsLast2 (grid2.coords t)
  · have h24 : t.val = 24 := (isLast2_iff t).mp hL
    have hF : ¬ IsFirst2 (grid2.coords t) := fun h => by have := (isFirst2_iff t).mp h; omega
    have hp : t.val - 1 < cfg2.N := by have := t.isLt; omega
    simp (disch := decide) only [idle2_live, idle2_last t hL, outAt2_12_pos V c t (by omega) hp, outAt2_13_pos V c t (by omega) hp,
      before2 V c t, after2_in V c t, after2_11, after2_12, after2_13]
    rw [Φ2_pre_other V c t (by omega) hp, Φ2_post V c t, (acc2At_step V c t (by omega) hp).1, (acc2At_step V c t (by omega) hp).2]
    iintro ⟨⟨⟨HS, HQ⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run2_last c (grid2.coords t) _ _ _ _ _ _ _ _ _ _ _ _ _ _ _ _ _ _ _ _ _ _ _ _ _ _ _ _
      (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accS2At V c (t.val - 1) hp) (accQ2At V c (t.val - 1) hp) hF hL)
    unfold ins2
    iframe H0 H1 H2 H3 H4 H5 H6 H7 H8 H9 H10 HS HQ
    isplitl [H11]; · iexists _; iexact H11
    isplitl [H12]; · iexists _; iexact H12
    isplitl [H13]; · iexists _; iexact H13
    iintro ⟨⟨H0, H1, H2, H3, H4, H5, H6, H7, H8, H9, H10⟩, H11, H12, H13, HS, HQ⟩
    iframe; iexact H11
  · have h24 : t.val ≠ 24 := fun h => hL ((isLast2_iff t).mpr h)
    simp (disch := decide) only [idle2_live, idle2_other t hL, flush2_12_other t h24, flush2_13_other t h24,
      before2 V c t, after2_in V c t, after2_11, after2_12, after2_13]
    by_cases hF : IsFirst2 (grid2.coords t)
    · have h0 : t.val = 0 := (isFirst2_iff t).mp hF
      rw [Φ2_pre_first V c t h0, Φ2_post V c t, (acc2At_first V c t h0).1, (acc2At_first V c t h0).2]
      iintro ⟨⟨⟨HS, HQ⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
      iapply (run2_first c (grid2.coords t) _ _ _ _ _ _ _ _ _ _ _ _ _ _ _ _ _ _ _ _ _ _ _ _ _ _ _ _
        (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) hF hL _ _)
      unfold ins2
      iframe H0 H1 H2 H3 H4 H5 H6 H7 H8 H9 H10 H12 H13 HS HQ
      isplitl [H11]; · iexists _; iexact H11
      iintro ⟨⟨H0, H1, H2, H3, H4, H5, H6, H7, H8, H9, H10⟩, H11, H12, H13, HS, HQ⟩
      iframe; iexact H11
    · have h0 : t.val ≠ 0 := fun h => hF ((isFirst2_iff t).mpr h)
      have hp : t.val - 1 < cfg2.N := by have := t.isLt; omega
      rw [Φ2_pre_other V c t h0 hp, Φ2_post V c t, (acc2At_step V c t h0 hp).1, (acc2At_step V c t h0 hp).2]
      iintro ⟨⟨⟨HS, HQ⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
      iapply (run2_mid c (grid2.coords t) _ _ _ _ _ _ _ _ _ _ _ _ _ _ _ _ _ _ _ _ _ _ _ _ _ _ _ _
        (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (accS2At V c (t.val - 1) hp) (accQ2At V c (t.val - 1) hp) hF hL _ _)
      unfold ins2
      iframe H0 H1 H2 H3 H4 H5 H6 H7 H8 H9 H10 H12 H13 HS HQ
      isplitl [H11]; · iexists _; iexact H11
      iintro ⟨⟨H0, H1, H2, H3, H4, H5, H6, H7, H8, H9, H10⟩, H11, H12, H13, HS, HQ⟩
      iframe; iexact H11

theorem accPart2_zero (c : Dev nD) : accPart2 V c 0 = iprop((∃ a, owns (c : Thread nD τ) accS2 fullShare a) ∗ (∃ a, owns (c : Thread nD τ) accQ2 fullShare a)) := by
  unfold accPart2; exact dif_pos rfl

theorem accPart2_last (c : Dev nD) : accPart2 V c (Fin.last cfg2.N) = iprop(owns (c : Thread nD τ) accS2 fullShare (accS2At V c (cfg2.N - 1) (by rw [show cfg2.N = 25 from N_2]; omega))
    ∗ owns (c : Thread nD τ) accQ2 fullShare (accQ2At V c (cfg2.N - 1) (by rw [show cfg2.N = 25 from N_2]; omega))) := by
  unfold accPart2; exact dif_neg (by show ¬ cfg2.N = 0; rw [show cfg2.N = 25 from N_2]; omega)

theorem hin2 (c : Dev nD) : (iprop((∃ r, prngReg c r) ∗ Pipeline.scopedRest spec2 c) : sProp 𝕄) ⊢ (dat2 V c).Φ 0 := by
  rw [scopedRest2_split, show (dat2 V c).Φ 0 = Φ2 V c 0 from rfl]
  unfold Φ2; rw [accPart2_zero]
  iintro ⟨Hp, ⟨⟨%f, Hf⟩, ⟨%g, Hg⟩⟩, HR⟩
  isplitl [Hf Hg]
  · isplitl [Hf]
    · iexists f; rw [owns_whole_eq]; iexists f; isplitr; (· ipureintro; rfl); iexact Hf
    · iexists g; rw [owns_whole_eq]; iexists g; isplitr; (· ipureintro; rfl); iexact Hg
  isplitl [HR]; · iexact HR
  iexact Hp

theorem hout2 (c : Dev nD) : (dat2 V c).Φ (Fin.last cfg2.N) ⊢ (iprop((∃ r, prngReg c r) ∗ Pipeline.scopedRest spec2 c) : sProp 𝕄) := by
  rw [scopedRest2_split, show (dat2 V c).Φ (Fin.last cfg2.N) = Φ2 V c (Fin.last cfg2.N) from rfl]
  unfold Φ2; rw [accPart2_last]; simp only [owns_whole_eq]
  iintro ⟨⟨⟨%f, %hf, Hf⟩, ⟨%g, %hg, Hg⟩⟩, HR, Hp⟩
  isplitl [Hp]; · iexact Hp
  isplitl [Hf Hg]
  · isplitl [Hf]
    · iexists f; iexact Hf
    · iexists g; iexact Hg
  iexact HR

end Cert.KernelIdeal.Hand

end
-- ==== Proof.KI.R3.lean ====
import proofs.«427087_j34256659153343_2_alg».proof.Proof.Gen.KernelIdeal.Launch

import proofs.«427087_j34256659153343_2_alg».proof.Proof.Gen.KernelIdeal.Skeleton

import proofs.«427087_j34256659153343_2_alg».proof.Proof.Gen.KernelIdeal.Points

import Idealize.ShloMosaic.Lib.Pipeline.FrameBody

import Idealize.ShloMosaic.Lib.Pipeline.RegionsLoop

import Idealize.ShloMosaic.Lib.Pipeline.FrameSuffix

import Idealize.ShloMosaic.Lib.Ring

import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

abbrev whole3 : Rect S10000x32 := Rect.unit (s := S10000x32) ![0, 0] S10000x32.size inb_S10000x32_S10000x32_0_0

abbrev row3 : Rect S1x32 := Rect.unit (s := S1x32) ![0, 0] S1x32.size inb_S1x32_S1x32_0_0

def res3 (o : Vec F S10000x32 .f32) (mean var g b : Vec F S1x32 .f32) : Vec F S10000x32 .f32 :=
  View.canon [⟨whole3, k3_pay1 (View.ld var row3) (View.ld o whole3) (View.ld mean row3) (View.ld g row3) (View.ld b row3)⟩]

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => res3 (blk3 V c 0 t) (blk3 V c 1 t) (blk3 V c 2 t) (blk3 V c 3 t) (blk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_in (c : Dev nD) :
    (∀ t, (dat3 V c).after 0 t = blk3 V c 0 t) ∧ (∀ t, (dat3 V c).after 1 t = blk3 V c 1 t) ∧ (∀ t, (dat3 V c).after 2 t = blk3 V c 2 t)
      ∧ (∀ t, (dat3 V c).after 3 t = blk3 V c 3 t) ∧ (∀ t, (dat3 V c).after 4 t = blk3 V c 4 t) := by
  dsimp only [dat3]; exact ⟨fun _ => rfl, fun _ => rfl, fun _ => rfl, fun _ => rfl, fun _ => rfl⟩

theorem after3_5 (c : Dev nD) (t : Fin cfg3.N) :
    (dat3 V c).after 5 t = res3 (blk3 V c 0 t) (blk3 V c 1 t) (blk3 V c 2 t) (blk3 V c 3 t) (blk3 V c 4 t) := by dsimp only [dat3]

theorem before3_in (c : Dev nD) (t : Fin cfg3.N) :
    (∀ d, (dat3 V c).before 0 t d = blk3 V c 0 t) ∧ (∀ d, (dat3 V c).before 1 t d = blk3 V c 1 t)
      ∧ (∀ d, (dat3 V c).before 2 t d = blk3 V c 2 t) ∧ (∀ d, (dat3 V c).before 3 t d = blk3 V c 3 t)
      ∧ (∀ d, (dat3 V c).before 4 t d = blk3 V c 4 t) := by
  obtain ⟨a0, a1, a2, a3, a4⟩ := after3_in V c
  refine ⟨fun d => ?_, fun d => ?_, fun d => ?_, fun d => ?_, fun d => ?_⟩ <;>
    exact Eq.trans (Dat.before_in_eq_fetched _ _ rfl (fun _ => rfl) (fun _ _ _ => rfl)
      (fun t => by simp only [a0, a1, a2, a3, a4]; unfold Dat.blockOf blk3; rw [A_eq3]; try rfl) t d)
      (by unfold Dat.fetched Dat.blockOf blk3; rw [A_eq3]; try rfl)

set_option maxHeartbeats 1000000 in
theorem body_obligation3 (c : Dev nD) : BodyObligation (dat3 (F := F) V c) (defs₀ (F := F)) Variants.none () Set.univ := fun t => by
  obtain ⟨b0, b1, b2, b3, b4⟩ := before3_in V c t
  obtain ⟨a0, a1, a2, a3, a4⟩ := after3_in V c
  rw [show (dat3 V c).Φ t.succ = (dat3 V c).Φ t.castSucc from rfl,
    show (dat3 V c).owesAt () t.succ = (dat3 V c).owesAt () t.castSucc from rfl]
  simp only [bigSep_W3, b0, b1, b2, b3, b4, a0, a1, a2, a3, a4, after3_5]
  show _ ⊢ wp _ _ _ (bodyAt3 (F := F) t) _
  unfold bodyAt3
  generalize blk3 V c 0 t = o; generalize blk3 V c 1 t = mean; generalize blk3 V c 2 t = var
  generalize blk3 V c 3 t = g; generalize blk3 V c 4 t = b
  simp only [cc3__bn_kernel_eq_skeleton]; unfold cc3__bn_kernel_skel
  unfold owns
  iintro ⟨HΦ, Ho, ⟨%d0, %f1, %hf1, H1⟩, ⟨%d1, %f2, %hf2, H2⟩, ⟨%d2, %f3, %hf3, H3⟩, ⟨%d3, %f4, %hf4, H4⟩, ⟨%d4, %f5, %hf5, H5⟩, ⟨%d5, %f6, -, H6⟩⟩
  subst hf1 hf2 hf3 hf4 hf5
  sl_exec
  sl_step
  isplitl [HΦ]; · iexact HΦ
  isplitl [Ho]; · iexact Ho
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x32.size (by rfl))

theorem hin3 (c : Dev nD) :
    (iprop((∃ r, prngReg c r) ∗ Pipeline.scopedRest spec3 c) : sProp 𝕄) ⊢ (dat3 V c).Φ 0 := sep_symm

theorem hout3 (c : Dev nD) :
    (dat3 V c).Φ (Fin.last cfg3.N) ⊢ (iprop((∃ r, prngReg c r) ∗ Pipeline.scopedRest spec3 c) : sProp 𝕄) := sep_symm

end Cert.KernelIdeal.Hand

end
-- ==== Proof.KI.R4.lean ====
import proofs.«427087_j34256659153343_2_alg».proof.Proof.Gen.KernelIdeal.Launch

import proofs.«427087_j34256659153343_2_alg».proof.Proof.Gen.KernelIdeal.Skeleton

import proofs.«427087_j34256659153343_2_alg».proof.Proof.Gen.KernelIdeal.Points

import Idealize.ShloMosaic.Lib.Pipeline.FrameBody

import Idealize.ShloMosaic.Lib.Pipeline.RegionsLoop

import Idealize.ShloMosaic.Lib.Pipeline.FrameSuffix

import Idealize.ShloMosaic.Lib.Ring

import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rB4 : Rect S10000x32 := Rect.unit (s := S10000x32) ![0, 0] S10000x32.size inb_S10000x32_S10000x32_0_0

abbrev rW4 : Rect S32x32 := Rect.unit (s := S32x32) ![0, 0] S32x32.size inb_S32x32_S32x32_0_0

abbrev rV4 : Rect S1x32 := Rect.unit (s := S1x32) ![0, 0] S1x32.size inb_S1x32_S1x32_0_0

abbrev accS4 : Memref sig .tc .vmem S1x32 .f32 := Memref.whole cc4_scratch0

abbrev accQ4 : Memref sig .tc .vmem S1x32 .f32 := Memref.whole cc4_scratch1

abbrev IsFirst4 (i : grid4.Coords) : Prop :=
  Scalar.cmpi .ne (Scalar.extui (Scalar.cmpi .eq (BitVec.ofNat 32 (i 0).val) 0#32)) 0#32 = 1#1

abbrev IsLast4 (i : grid4.Coords) : Prop := k4_cond2 i = 1#1

theorem isFirst4_iff : ∀ t : Fin cfg4.N, IsFirst4 (grid4.coords t) ↔ t.val = 0 :=
  (by decide +kernel : ∀ t : Fin grid4.N,
    (Scalar.cmpi .ne (Scalar.extui (Scalar.cmpi .eq (BitVec.ofNat 32 ((grid4.coords t) 0).val) 0#32)) 0#32 = 1#1) ↔ t.val = 0)

theorem isLast4_iff : ∀ t : Fin cfg4.N, IsLast4 (grid4.coords t) ↔ t.val = 24 :=
  (by decide +kernel : ∀ t : Fin grid4.N, k4_cond2 (grid4.coords t) = 1#1 ↔ t.val = 24)

section Payloads

variable (x af ab : Vec F S10000x32 .f32) (w1f : Vec F S32x32 .f32) (b1f : Vec F S1x32 .f32) (w2f : Vec F S32x32 .f32) (b2f : Vec F S1x32 .f32)
  (w1b : Vec F S32x32 .f32) (b1b : Vec F S1x32 .f32) (w2b : Vec F S32x32 .f32) (b2b : Vec F S1x32 .f32)

abbrev oPay4 : FVec F S10000x32 .f32 :=
  k4_pay8 (k4_pay4 (View.ld x rB4) (View.ld ab rB4)) (k4_pay5 (View.ld w1b rW4)) (k4_pay6 (View.ld w2b rW4))
    (k4_pay7 (View.ld x rB4) (View.ld af rB4) (View.ld w1f rW4) (View.ld w2f rW4) (View.ld b1f rV4) (View.ld b2f rV4))
    (Scalar.ofBits .f32 0x00000000#32) (View.ld b1b rV4) (View.ld b2b rV4)

abbrev sPay4 (a : Vec F S1x32 .f32) : FVec F S1x32 .f32 :=
  k4_pay9 (k4_pay4 (View.ld x rB4) (View.ld ab rB4)) (k4_pay5 (View.ld w1b rW4)) (k4_pay6 (View.ld w2b rW4))
    (k4_pay7 (View.ld x rB4) (View.ld af rB4) (View.ld w1f rW4) (View.ld w2f rW4) (View.ld b1f rV4) (View.ld b2f rV4))
    (Scalar.ofBits .f32 0x00000000#32) (View.ld b1b rV4) (View.ld b2b rV4) a

abbrev qPay4 (a : Vec F S1x32 .f32) : FVec F S1x32 .f32 :=
  k4_pay10 (k4_pay4 (View.ld x rB4) (View.ld ab rB4)) (k4_pay5 (View.ld w1b rW4)) (k4_pay6 (View.ld w2b rW4))
    (k4_pay7 (View.ld x rB4) (View.ld af rB4) (View.ld w1f rW4) (View.ld w2f rW4) (View.ld b1f rV4) (View.ld b2f rV4))
    (Scalar.ofBits .f32 0x00000000#32) (View.ld b1b rV4) (View.ld b2b rV4) a

def out4_11 : Vec F S10000x32 .f32 := View.canon [⟨rB4, oPay4 x af ab w1f b1f w2f b2f w1b b1b w2b b2b⟩]

def sFirst4 : Vec F S1x32 .f32 :=
  View.canon [⟨rV4, sPay4 x af ab w1f b1f w2f b2f w1b b1b w2b b2b (accS4.view.readCov [⟨rV4, k4_pay1⟩] rV4.toLoadRect)⟩, ⟨rV4, k4_pay1⟩]

def sStep4 (a : Vec F S1x32 .f32) : Vec F S1x32 .f32 :=
  View.canon [⟨rV4, sPay4 x af ab w1f b1f w2f b2f w1b b1b w2b b2b (View.ld a rV4)⟩]

def qFirst4 : Vec F S1x32 .f32 :=
  View.canon [⟨rV4, qPay4 x af ab w1f b1f w2f b2f w1b b1b w2b b2b (accQ4.view.readCov [⟨rV4, k4_pay2⟩] rV4.toLoadRect)⟩, ⟨rV4, k4_pay2⟩]

def qStep4 (a : Vec F S1x32 .f32) : Vec F S1x32 .f32 :=
  View.canon [⟨rV4, qPay4 x af ab w1f b1f w2f b2f w1b b1b w2b b2b (View.ld a rV4)⟩]

def out4_12 (a : Vec F S1x32 .f32) : Vec F S1x32 .f32 :=
  View.canon [⟨rV4, accS4.view.readCov [⟨rV4, sPay4 x af ab w1f b1f w2f b2f w1b b1b w2b b2b (View.ld a rV4)⟩] rV4.toLoadRect⟩]

def out4_13 (a : Vec F S1x32 .f32) : Vec F S1x32 .f32 :=
  View.canon [⟨rV4, accQ4.view.readCov [⟨rV4, qPay4 x af ab w1f b1f w2f b2f w1b b1b w2b b2b (View.ld a rV4)⟩] rV4.toLoadRect⟩]

end Payloads

omit [FloatOps F] in
theorem coverB4 (p : Vec F S10000x32 .f32) (y : S10000x32.Idx) : ∃ pc ∈ ([⟨rB4, p⟩] : List (View.Piece (Elt F) S10000x32 .f32)), y ∈ pc.1.set :=
  View.cover_of_tiled [⟨rB4, p⟩] S10000x32.size (by rfl) y

omit [FloatOps F] in
theorem coverV4 (p : Vec F S1x32 .f32) (y : S1x32.Idx) : ∃ pc ∈ ([⟨rV4, p⟩] : List (View.Piece (Elt F) S1x32 .f32)), y ∈ pc.1.set :=
  View.cover_of_tiled [⟨rV4, p⟩] S1x32.size (by rfl) y

omit [FloatOps F] in
theorem coverV4' (p q : Vec F S1x32 .f32) (y : S1x32.Idx) : ∃ pc ∈ ([⟨rV4, p⟩, ⟨rV4, q⟩] : List (View.Piece (Elt F) S1x32 .f32)), y ∈ pc.1.set :=
  View.cover_of_tiled [⟨rV4, p⟩, ⟨rV4, q⟩] S1x32.size (by rfl) y

section Runs

variable (c : Dev nD) (i : grid4.Coords) (M0 : Memref sig .tc .vmem S10000x32 .f32) (h0 : M0.IsWhole) (M1 : Memref sig .tc .vmem S10000x32 .f32) (h1 : M1.IsWhole) (M2 : Memref sig .tc .vmem S10000x32 .f32) (h2 : M2.IsWhole) (M3 : Memref sig .tc .vmem S32x32 .f32) (h3 : M3.IsWhole) (M4 : Memref sig .tc .vmem S1x32 .f32) (h4 : M4.IsWhole) (M5 : Memref sig .tc .vmem S32x32 .f32) (h5 : M5.IsWhole) (M6 : Memref sig .tc .vmem S1x32 .f32) (h6 : M6.IsWhole) (M7 : Memref sig .tc .vmem S32x32 .f32) (h7 : M7.IsWhole) (M8 : Memref sig .tc .vmem S1x32 .f32) (h8 : M8.IsWhole) (M9 : Memref sig .tc .vmem S32x32 .f32) (h9 : M9.IsWhole) (M10 : Memref sig .tc .vmem S1x32 .f32) (h10 : M10.IsWhole) (M11 : Memref sig .tc .vmem S10000x32 .f32) (h11 : M11.IsWhole) (M12 : Memref sig .tc .vmem S1x32 .f32) (h12 : M12.IsWhole) (M13 : Memref sig .tc .vmem S1x32 .f32) (h13 : M13.IsWhole)
  (x af ab : Vec F S10000x32 .f32) (w1f : Vec F S32x32 .f32) (b1f : Vec F S1x32 .f32) (w2f : Vec F S32x32 .f32) (b2f : Vec F S1x32 .f32)
  (w1b : Vec F S32x32 .f32) (b1b : Vec F S1x32 .f32) (w2b : Vec F S32x32 .f32) (b2b : Vec F S1x32 .f32)

local notation "BODY4" => cc4__gin_layer_kernel i M0 h0 M1 h1 M2 h2 M3 h3 M4 h4 M5 h5 M6 h6 M7 h7 M8 h8 M9 h9 M10 h10 M11 h11 M12 h12 M13 h13 (Memref.whole cc4_scratch0) (Memref.isWhole_whole _) (Memref.whole cc4_scratch1) (Memref.isWhole_whole _)

def ins4 : sProp 𝕄 :=
  iprop(owns (c : Thread nD τ) M0 fullShare x ∗ owns (c : Thread nD τ) M1 fullShare af ∗ owns (c : Thread nD τ) M2 fullShare ab ∗ owns (c : Thread nD τ) M3 fullShare w1f ∗ owns (c : Thread nD τ) M4 fullShare b1f ∗ owns (c : Thread nD τ) M5 fullShare w2f ∗ owns (c : Thread nD τ) M6 fullShare b2f ∗ owns (c : Thread nD τ) M7 fullShare w1b ∗ owns (c : Thread nD τ) M8 fullShare b1b ∗ owns (c : Thread nD τ) M9 fullShare w2b ∗ owns (c : Thread nD τ) M10 fullShare b2b)

set_option maxHeartbeats 4000000 in

theorem run4_first (hF : IsFirst4 i) (hL : ¬ IsLast4 i) (O12 O13 : sProp 𝕄) (Q : PUnit → sProp 𝕄) :
    iprop(ins4 c M0 M1 M2 M3 M4 M5 M6 M7 M8 M9 M10 x af ab w1f b1f w2f b2f w1b b1b w2b b2b
      ∗ (∃ d, owns (c : Thread nD τ) M11 fullShare d) ∗ O12 ∗ O13
      ∗ (∃ a, owns (c : Thread nD τ) accS4 fullShare a) ∗ (∃ a, owns (c : Thread nD τ) accQ4 fullShare a)
      ∗ (iprop(ins4 c M0 M1 M2 M3 M4 M5 M6 M7 M8 M9 M10 x af ab w1f b1f w2f b2f w1b b1b w2b b2b
          ∗ owns (c : Thread nD τ) M11 fullShare (out4_11 x af ab w1f b1f w2f b2f w1b b1b w2b b2b) ∗ O12 ∗ O13
          ∗ owns (c : Thread nD τ) accS4 fullShare (sFirst4 x af ab w1f b1f w2f b2f w1b b1b w2b b2b) ∗ owns (c : Thread nD τ) accQ4 fullShare (qFirst4 x af ab w1f b1f w2f b2f w1b b1b w2b b2b)) -∗ Q ⟨⟩))
      ⊢ wp frame (wpE (defs₀ (F := F)) Variants.none c none) Set.univ BODY4 Q := by
  unfold ins4 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, HO12, HO13, ⟨%aS, %fS, -, HS⟩, ⟨%aQ, %fQ, -, HQ⟩, Hk⟩
  subst hf0 hf1 hf2 hf3 hf4 hf5 hf6 hf7 hf8 hf9 hf10
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverB4 _)
  isplitl [HO12]; · iexact HO12
  isplitl [HO13]; · iexact HO13
  isplitl [HS]; · iexists _; isplitr; swap; (· iexact HS); ipureintro; exact View.read_writes_eq_canon _ _ _ (coverV4' _ _)
  iexists _; isplitr; swap; (· iexact HQ); ipureintro; exact View.read_writes_eq_canon _ _ _ (coverV4' _ _)

set_option maxHeartbeats 4000000 in

theorem run4_mid (a b : Vec F S1x32 .f32) (hF : ¬ IsFirst4 i) (hL : ¬ IsLast4 i) (O12 O13 : sProp 𝕄) (Q : PUnit → sProp 𝕄) :
    iprop(ins4 c M0 M1 M2 M3 M4 M5 M6 M7 M8 M9 M10 x af ab w1f b1f w2f b2f w1b b1b w2b b2b
      ∗ (∃ d, owns (c : Thread nD τ) M11 fullShare d) ∗ O12 ∗ O13
      ∗ owns (c : Thread nD τ) accS4 fullShare a ∗ owns (c : Thread nD τ) accQ4 fullShare b
      ∗ (iprop(ins4 c M0 M1 M2 M3 M4 M5 M6 M7 M8 M9 M10 x af ab w1f b1f w2f b2f w1b b1b w2b b2b
          ∗ owns (c : Thread nD τ) M11 fullShare (out4_11 x af ab w1f b1f w2f b2f w1b b1b w2b b2b) ∗ O12 ∗ O13
          ∗ owns (c : Thread nD τ) accS4 fullShare (sStep4 x af ab w1f b1f w2f b2f w1b b1b w2b b2b a) ∗ owns (c : Thread nD τ) accQ4 fullShare (qStep4 x af ab w1f b1f w2f b2f w1b b1b w2b b2b b)) -∗ Q ⟨⟩))
      ⊢ wp frame (wpE (defs₀ (F := F)) Variants.none c none) Set.univ BODY4 Q := by
  unfold ins4 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, HO12, HO13, ⟨%fS, %hfS, HS⟩, ⟨%fQ, %hfQ, HQ⟩, Hk⟩
  subst hf0 hf1 hf2 hf3 hf4 hf5 hf6 hf7 hf8 hf9 hf10 hfS hfQ
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverB4 _)
  isplitl [HO12]; · iexact HO12
  isplitl [HO13]; · iexact HO13
  isplitl [HS]; · iexists _; isplitr; swap; (· iexact HS); ipureintro; exact View.read_writes_eq_canon _ _ _ (coverV4 _)
  iexists _; isplitr; swap; (· iexact HQ); ipureintro; exact View.read_writes_eq_canon _ _ _ (coverV4 _)

set_option maxHeartbeats 4000000 in

theorem run4_last (a b : Vec F S1x32 .f32) (hF : ¬ IsFirst4 i) (hL : IsLast4 i) (Q : PUnit → sProp 𝕄) :
    iprop(ins4 c M0 M1 M2 M3 M4 M5 M6 M7 M8 M9 M10 x af ab w1f b1f w2f b2f w1b b1b w2b b2b
      ∗ (∃ d, owns (c : Thread nD τ) M11 fullShare d) ∗ (∃ d, owns (c : Thread nD τ) M12 fullShare d) ∗ (∃ d, owns (c : Thread nD τ) M13 fullShare d)
      ∗ owns (c : Thread nD τ) accS4 fullShare a ∗ owns (c : Thread nD τ) accQ4 fullShare b
      ∗ (iprop(ins4 c M0 M1 M2 M3 M4 M5 M6 M7 M8 M9 M10 x af ab w1f b1f w2f b2f w1b b1b w2b b2b
          ∗ owns (c : Thread nD τ) M11 fullShare (out4_11 x af ab w1f b1f w2f b2f w1b b1b w2b b2b)
          ∗ owns (c : Thread nD τ) M12 fullShare (out4_12 x af ab w1f b1f w2f b2f w1b b1b w2b b2b a) ∗ owns (c : Thread nD τ) M13 fullShare (out4_13 x af ab w1f b1f w2f b2f w1b b1b w2b b2b b)
          ∗ owns (c : Thread nD τ) accS4 fullShare (sStep4 x af ab w1f b1f w2f b2f w1b b1b w2b b2b a) ∗ owns (c : Thread nD τ) accQ4 fullShare (qStep4 x af ab w1f b1f w2f b2f w1b b1b w2b b2b b)) -∗ Q ⟨⟩))
      ⊢ wp frame (wpE (defs₀ (F := F)) Variants.none c none) Set.univ BODY4 Q := by
  unfold ins4 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, ⟨%d13, %f13, -, H13⟩, ⟨%fS, %hfS, HS⟩, ⟨%fQ, %hfQ, HQ⟩, Hk⟩
  subst hf0 hf1 hf2 hf3 hf4 hf5 hf6 hf7 hf8 hf9 hf10 hfS hfQ
  sl_exec! (disch := assumption)
  sl_step
  iapply Hk
  isplitl [H0 H1 H2 H3 H4 H5 H6 H7 H8 H9 H10]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    iexists f10; isplitr; (· ipureintro; rfl); iexact H10
  isplitl [H11]; · iexists _; isplitr; swap; (· iexact H11); ipureintro; exact View.read_writes_eq_canon _ _ _ (coverB4 _)
  isplitl [H12]; · iexists _; isplitr; swap; (· iexact H12); ipureintro; exact View.read_writes_eq_canon _ _ _ (coverV4 _)
  isplitl [H13]; · iexists _; isplitr; swap; (· iexact H13); ipureintro; exact View.read_writes_eq_canon _ _ _ (coverV4 _)
  isplitl [HS]; · iexists _; isplitr; swap; (· iexact HS); ipureintro; exact View.read_writes_eq_canon _ _ _ (coverV4 _)
  iexists _; isplitr; swap; (· iexact HQ); ipureintro; exact View.read_writes_eq_canon _ _ _ (coverV4 _)

end Runs

def outAt4_11 (c : Dev nD) (t : Fin cfg4.N) : Vec F S10000x32 .f32 := out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)

def accS4At (c : Dev nD) : (k : ℕ) → k < cfg4.N → Vec F S1x32 .f32
  | 0, hk => sFirst4 (iblk4 V c 0 ⟨0, hk⟩) (iblk4 V c 1 ⟨0, hk⟩) (iblk4 V c 2 ⟨0, hk⟩) (iblk4 V c 3 ⟨0, hk⟩) (iblk4 V c 4 ⟨0, hk⟩) (iblk4 V c 5 ⟨0, hk⟩) (iblk4 V c 6 ⟨0, hk⟩) (iblk4 V c 7 ⟨0, hk⟩) (iblk4 V c 8 ⟨0, hk⟩) (iblk4 V c 9 ⟨0, hk⟩) (iblk4 V c 10 ⟨0, hk⟩)
  | k + 1, hk => sStep4 (iblk4 V c 0 ⟨k + 1, hk⟩) (iblk4 V c 1 ⟨k + 1, hk⟩) (iblk4 V c 2 ⟨k + 1, hk⟩) (iblk4 V c 3 ⟨k + 1, hk⟩) (iblk4 V c 4 ⟨k + 1, hk⟩) (iblk4 V c 5 ⟨k + 1, hk⟩) (iblk4 V c 6 ⟨k + 1, hk⟩) (iblk4 V c 7 ⟨k + 1, hk⟩) (iblk4 V c 8 ⟨k + 1, hk⟩) (iblk4 V c 9 ⟨k + 1, hk⟩) (iblk4 V c 10 ⟨k + 1, hk⟩) (accS4At c k (Nat.lt_of_succ_lt hk))

def accQ4At (c : Dev nD) : (k : ℕ) → k < cfg4.N → Vec F S1x32 .f32
  | 0, hk => qFirst4 (iblk4 V c 0 ⟨0, hk⟩) (iblk4 V c 1 ⟨0, hk⟩) (iblk4 V c 2 ⟨0, hk⟩) (iblk4 V c 3 ⟨0, hk⟩) (iblk4 V c 4 ⟨0, hk⟩) (iblk4 V c 5 ⟨0, hk⟩) (iblk4 V c 6 ⟨0, hk⟩) (iblk4 V c 7 ⟨0, hk⟩) (iblk4 V c 8 ⟨0, hk⟩) (iblk4 V c 9 ⟨0, hk⟩) (iblk4 V c 10 ⟨0, hk⟩)
  | k + 1, hk => qStep4 (iblk4 V c 0 ⟨k + 1, hk⟩) (iblk4 V c 1 ⟨k + 1, hk⟩) (iblk4 V c 2 ⟨k + 1, hk⟩) (iblk4 V c 3 ⟨k + 1, hk⟩) (iblk4 V c 4 ⟨k + 1, hk⟩) (iblk4 V c 5 ⟨k + 1, hk⟩) (iblk4 V c 6 ⟨k + 1, hk⟩) (iblk4 V c 7 ⟨k + 1, hk⟩) (iblk4 V c 8 ⟨k + 1, hk⟩) (iblk4 V c 9 ⟨k + 1, hk⟩) (iblk4 V c 10 ⟨k + 1, hk⟩) (accQ4At c k (Nat.lt_of_succ_lt hk))

theorem acc4At_first (c : Dev nD) (t : Fin cfg4.N) (h : t.val = 0) :
    accS4At V c t.val t.isLt = sFirst4 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) ∧ accQ4At V c t.val t.isLt = qFirst4 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by
  obtain ⟨k, hk⟩ := t
  cases k with
  | zero => exact ⟨rfl, rfl⟩
  | succ k => exact absurd h (Nat.succ_ne_zero k)

theorem acc4At_step (c : Dev nD) (t : Fin cfg4.N) (h : t.val ≠ 0) (hp : t.val - 1 < cfg4.N) :
    accS4At V c t.val t.isLt = sStep4 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accS4At V c (t.val - 1) hp) ∧ accQ4At V c t.val t.isLt = qStep4 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accQ4At V c (t.val - 1) hp) := by
  obtain ⟨k, hk⟩ := t
  cases k with
  | zero => exact absurd rfl h
  | succ k => exact ⟨rfl, rfl⟩

def outAt4_12 (c : Dev nD) (t : Fin cfg4.N) : Vec F S1x32 .f32 :=
  if h : t.val = 0 then k4_pay1 else out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accS4At V c (t.val - 1) (by have := t.isLt; omega))

def outAt4_13 (c : Dev nD) (t : Fin cfg4.N) : Vec F S1x32 .f32 :=
  if h : t.val = 0 then k4_pay2 else out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accQ4At V c (t.val - 1) (by have := t.isLt; omega))

def accPart4 (c : Dev nD) (k : Fin (cfg4.N + 1)) : sProp 𝕄 :=
  if h : k.val = 0 then iprop((∃ a, owns (c : Thread nD τ) accS4 fullShare a) ∗ (∃ a, owns (c : Thread nD τ) accQ4 fullShare a))
  else iprop(owns (c : Thread nD τ) accS4 fullShare (accS4At V c (k.val - 1) (by have := k.isLt; omega))
    ∗ owns (c : Thread nD τ) accQ4 fullShare (accQ4At V c (k.val - 1) (by have := k.isLt; omega)))

def Φ4 (c : Dev nD) (k : Fin (cfg4.N + 1)) : sProp 𝕄 :=
  iprop(accPart4 V c k ∗ Pipeline.scopedRestBut spec4 c [cc4_scratch0, cc4_scratch1] ∗ ∃ r, prngReg c r)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => outAt4_11 V c t
    | ⟨12, _⟩ => outAt4_12 V c t
    | ⟨13, _⟩ => outAt4_13 V c t
  Φ k := Φ4 V c k
  q _ := fullShare
  owed _ := 0

theorem A_eq4 (c : Dev nD) (w : Fin cfg4.W) : (dat4 V c).A w = V c (Pipeline.arrRef spec4 w) := by
  dsimp only [dat4]

theorem after4_in (c : Dev nD) (t : Fin cfg4.N) :
    (dat4 V c).after 0 t = iblk4 V c 0 t ∧ (dat4 V c).after 1 t = iblk4 V c 1 t ∧ (dat4 V c).after 2 t = iblk4 V c 2 t ∧ (dat4 V c).after 3 t = iblk4 V c 3 t ∧ (dat4 V c).after 4 t = iblk4 V c 4 t ∧ (dat4 V c).after 5 t = iblk4 V c 5 t ∧ (dat4 V c).after 6 t = iblk4 V c 6 t ∧ (dat4 V c).after 7 t = iblk4 V c 7 t ∧ (dat4 V c).after 8 t = iblk4 V c 8 t ∧ (dat4 V c).after 9 t = iblk4 V c 9 t ∧ (dat4 V c).after 10 t = iblk4 V c 10 t :=
  ⟨rfl, rfl, rfl, rfl, rfl, rfl, rfl, rfl, rfl, rfl, rfl⟩

theorem after4_11 (c : Dev nD) (t : Fin cfg4.N) : (dat4 V c).after 11 t = outAt4_11 V c t := by dsimp only [dat4]

theorem after4_12 (c : Dev nD) (t : Fin cfg4.N) : (dat4 V c).after 12 t = outAt4_12 V c t := by dsimp only [dat4]

theorem after4_13 (c : Dev nD) (t : Fin cfg4.N) : (dat4 V c).after 13 t = outAt4_13 V c t := by dsimp only [dat4]

theorem before4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t) ∧ (∀ d, (dat4 V c).before 3 t d = iblk4 V c 3 t) ∧ (∀ d, (dat4 V c).before 4 t d = iblk4 V c 4 t) ∧ (∀ d, (dat4 V c).before 5 t d = iblk4 V c 5 t) ∧ (∀ d, (dat4 V c).before 6 t d = iblk4 V c 6 t) ∧ (∀ d, (dat4 V c).before 7 t d = iblk4 V c 7 t) ∧ (∀ d, (dat4 V c).before 8 t d = iblk4 V c 8 t) ∧ (∀ d, (dat4 V c).before 9 t d = iblk4 V c 9 t) ∧ (∀ d, (dat4 V c).before 10 t d = iblk4 V c 10 t) := by
  refine ⟨?_, ?_, ?_, ?_, ?_, ?_, ?_, ?_, ?_, ?_, ?_⟩ <;> intro d <;>
    exact ((dat4 V c).before_in_eq_fetched _ rfl (fun _ => rfl) (fun _ _ _ => rfl) (fun _ => rfl) t d).trans rfl

theorem idle4_live : ∀ w : Fin 14, w.val < 12 → ∀ t : Fin cfg4.N, idle4 w (grid4.coords t) = false := by
  intro w
  fin_cases w <;> intro hw t <;> first | rfl | exact absurd hw (by decide)

theorem idle4_last (t : Fin cfg4.N) (h : IsLast4 (grid4.coords t)) : idle4 12 (grid4.coords t) = false ∧ idle4 13 (grid4.coords t) = false := by
  constructor <;> (show (!(k4_cond2 (grid4.coords t) == 1#1)) = false; rw [beq_iff_eq.mpr h]; rfl)

theorem idle4_other (t : Fin cfg4.N) (h : ¬ IsLast4 (grid4.coords t)) : idle4 12 (grid4.coords t) = true ∧ idle4 13 (grid4.coords t) = true := by
  constructor <;> (show (!(k4_cond2 (grid4.coords t) == 1#1)) = true; rw [beq_eq_false_iff_ne.mpr h]; rfl)

theorem flush4_12_other (t : Fin cfg4.N) (h : t.val ≠ 24) : (cfg4.win 12).flush t = false :=
  Bool.eq_false_iff.mpr fun hf => h (by have := (flush4_12 t).mp hf; have hN : t.val < 25 := lt_of_lt_of_eq t.isLt (show cfg4.N = 25 from N_4); omega)

theorem flush4_13_other (t : Fin cfg4.N) (h : t.val ≠ 24) : (cfg4.win 13).flush t = false :=
  Bool.eq_false_iff.mpr fun hf => h (by have := (flush4_13 t).mp hf; have hN : t.val < 25 := lt_of_lt_of_eq t.isLt (show cfg4.N = 25 from N_4); omega)

theorem Φ4_pre_first (c : Dev nD) (t : Fin cfg4.N) (h : t.val = 0) :
    (dat4 V c).Φ t.castSucc = iprop(iprop((∃ a, owns (c : Thread nD τ) accS4 fullShare a) ∗ (∃ a, owns (c : Thread nD τ) accQ4 fullShare a))
      ∗ Pipeline.scopedRestBut spec4 c [cc4_scratch0, cc4_scratch1] ∗ ∃ r, prngReg c r) := by
  show Φ4 V c _ = _; unfold Φ4 accPart4; rw [dif_pos (by exact h)]

theorem Φ4_pre_other (c : Dev nD) (t : Fin cfg4.N) (h : t.val ≠ 0) (hp : t.val - 1 < cfg4.N) :
    (dat4 V c).Φ t.castSucc = iprop(iprop(owns (c : Thread nD τ) accS4 fullShare (accS4At V c (t.val - 1) hp) ∗ owns (c : Thread nD τ) accQ4 fullShare (accQ4At V c (t.val - 1) hp))
      ∗ Pipeline.scopedRestBut spec4 c [cc4_scratch0, cc4_scratch1] ∗ ∃ r, prngReg c r) := by
  show Φ4 V c _ = _; unfold Φ4 accPart4; rw [dif_neg (by exact h)]; rfl

theorem Φ4_post (c : Dev nD) (t : Fin cfg4.N) :
    (dat4 V c).Φ t.succ = iprop(iprop(owns (c : Thread nD τ) accS4 fullShare (accS4At V c t.val t.isLt) ∗ owns (c : Thread nD τ) accQ4 fullShare (accQ4At V c t.val t.isLt))
      ∗ Pipeline.scopedRestBut spec4 c [cc4_scratch0, cc4_scratch1] ∗ ∃ r, prngReg c r) := by
  show Φ4 V c _ = _; unfold Φ4 accPart4; rw [dif_neg (by exact Nat.succ_ne_zero t.val)]; rfl

theorem outAt4_12_pos (c : Dev nD) (t : Fin cfg4.N) (h : t.val ≠ 0) (hp : t.val - 1 < cfg4.N) :
    outAt4_12 V c t = out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accS4At V c (t.val - 1) hp) := by
  unfold outAt4_12; rw [dif_neg h]

theorem outAt4_13_pos (c : Dev nD) (t : Fin cfg4.N) (h : t.val ≠ 0) (hp : t.val - 1 < cfg4.N) :
    outAt4_13 V c t = out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accQ4At V c (t.val - 1) hp) := by
  unfold outAt4_13; rw [dif_neg h]

set_option maxHeartbeats 4000000 in
theorem body_obligation4 (c : Dev nD) : BodyObligation (dat4 (F := F) V c) (defs₀ (F := F)) Variants.none () Set.univ := fun t => by
  rw [bigSep_W4, bigSep_W4]
  rw [show (dat4 V c).owesAt () t.succ = (dat4 V c).owesAt () t.castSucc from rfl]
  have hN : t.val < 25 := lt_of_lt_of_eq t.isLt (show cfg4.N = 25 from N_4)
  by_cases hL : IsLast4 (grid4.coords t)
  · have h24 : t.val = 24 := (isLast4_iff t).mp hL
    have hF : ¬ IsFirst4 (grid4.coords t) := fun h => by have := (isFirst4_iff t).mp h; omega
    have hp : t.val - 1 < cfg4.N := by have := t.isLt; omega
    simp (disch := decide) only [idle4_live, idle4_last t hL, outAt4_12_pos V c t (by omega) hp, outAt4_13_pos V c t (by omega) hp,
      before4 V c t, after4_in V c t, after4_11, after4_12, after4_13]
    rw [Φ4_pre_other V c t (by omega) hp, Φ4_post V c t, (acc4At_step V c t (by omega) hp).1, (acc4At_step V c t (by omega) hp).2]
    iintro ⟨⟨⟨HS, HQ⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run4_last c (grid4.coords t) _ _ _ _ _ _ _ _ _ _ _ _ _ _ _ _ _ _ _ _ _ _ _ _ _ _ _ _
      (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accS4At V c (t.val - 1) hp) (accQ4At V c (t.val - 1) hp) hF hL)
    unfold ins4
    iframe H0 H1 H2 H3 H4 H5 H6 H7 H8 H9 H10 HS HQ
    isplitl [H11]; · iexists _; iexact H11
    isplitl [H12]; · iexists _; iexact H12
    isplitl [H13]; · iexists _; iexact H13
    iintro ⟨⟨H0, H1, H2, H3, H4, H5, H6, H7, H8, H9, H10⟩, H11, H12, H13, HS, HQ⟩
    iframe; iexact H11
  · have h24 : t.val ≠ 24 := fun h => hL ((isLast4_iff t).mpr h)
    simp (disch := decide) only [idle4_live, idle4_other t hL, flush4_12_other t h24, flush4_13_other t h24,
      before4 V c t, after4_in V c t, after4_11, after4_12, after4_13]
    by_cases hF : IsFirst4 (grid4.coords t)
    · have h0 : t.val = 0 := (isFirst4_iff t).mp hF
      rw [Φ4_pre_first V c t h0, Φ4_post V c t, (acc4At_first V c t h0).1, (acc4At_first V c t h0).2]
      iintro ⟨⟨⟨HS, HQ⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
      iapply (run4_first c (grid4.coords t) _ _ _ _ _ _ _ _ _ _ _ _ _ _ _ _ _ _ _ _ _ _ _ _ _ _ _ _
        (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) hF hL _ _)
      unfold ins4
      iframe H0 H1 H2 H3 H4 H5 H6 H7 H8 H9 H10 H12 H13 HS HQ
      isplitl [H11]; · iexists _; iexact H11
      iintro ⟨⟨H0, H1, H2, H3, H4, H5, H6, H7, H8, H9, H10⟩, H11, H12, H13, HS, HQ⟩
      iframe; iexact H11
    · have h0 : t.val ≠ 0 := fun h => hF ((isFirst4_iff t).mpr h)
      have hp : t.val - 1 < cfg4.N := by have := t.isLt; omega
      rw [Φ4_pre_other V c t h0 hp, Φ4_post V c t, (acc4At_step V c t h0 hp).1, (acc4At_step V c t h0 hp).2]
      iintro ⟨⟨⟨HS, HQ⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
      iapply (run4_mid c (grid4.coords t) _ _ _ _ _ _ _ _ _ _ _ _ _ _ _ _ _ _ _ _ _ _ _ _ _ _ _ _
        (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (accS4At V c (t.val - 1) hp) (accQ4At V c (t.val - 1) hp) hF hL _ _)
      unfold ins4
      iframe H0 H1 H2 H3 H4 H5 H6 H7 H8 H9 H10 H12 H13 HS HQ
      isplitl [H11]; · iexists _; iexact H11
      iintro ⟨⟨H0, H1, H2, H3, H4, H5, H6, H7, H8, H9, H10⟩, H11, H12, H13, HS, HQ⟩
      iframe; iexact H11

theorem accPart4_zero (c : Dev nD) : accPart4 V c 0 = iprop((∃ a, owns (c : Thread nD τ) accS4 fullShare a) ∗ (∃ a, owns (c : Thread nD τ) accQ4 fullShare a)) := by
  unfold accPart4; exact dif_pos rfl

theorem accPart4_last (c : Dev nD) : accPart4 V c (Fin.last cfg4.N) = iprop(owns (c : Thread nD τ) accS4 fullShare (accS4At V c (cfg4.N - 1) (by rw [show cfg4.N = 25 from N_4]; omega))
    ∗ owns (c : Thread nD τ) accQ4 fullShare (accQ4At V c (cfg4.N - 1) (by rw [show cfg4.N = 25 from N_4]; omega))) := by
  unfold accPart4; exact dif_neg (by show ¬ cfg4.N = 0; rw [show cfg4.N = 25 from N_4]; omega)

theorem hin4 (c : Dev nD) : (iprop((∃ r, prngReg c r) ∗ Pipeline.scopedRest spec4 c) : sProp 𝕄) ⊢ (dat4 V c).Φ 0 := by
  rw [scopedRest4_split, show (dat4 V c).Φ 0 = Φ4 V c 0 from rfl]
  unfold Φ4; rw [accPart4_zero]
  iintro ⟨Hp, ⟨⟨%f, Hf⟩, ⟨%g, Hg⟩⟩, HR⟩
  isplitl [Hf Hg]
  · isplitl [Hf]
    · iexists f; rw [owns_whole_eq]; iexists f; isplitr; (· ipureintro; rfl); iexact Hf
    · iexists g; rw [owns_whole_eq]; iexists g; isplitr; (· ipureintro; rfl); iexact Hg
  isplitl [HR]; · iexact HR
  iexact Hp

theorem hout4 (c : Dev nD) : (dat4 V c).Φ (Fin.last cfg4.N) ⊢ (iprop((∃ r, prngReg c r) ∗ Pipeline.scopedRest spec4 c) : sProp 𝕄) := by
  rw [scopedRest4_split, show (dat4 V c).Φ (Fin.last cfg4.N) = Φ4 V c (Fin.last cfg4.N) from rfl]
  unfold Φ4; rw [accPart4_last]; simp only [owns_whole_eq]
  iintro ⟨⟨⟨%f, %hf, Hf⟩, ⟨%g, %hg, Hg⟩⟩, HR, Hp⟩
  isplitl [Hp]; · iexact Hp
  isplitl [Hf Hg]
  · isplitl [Hf]
    · iexists f; iexact Hf
    · iexists g; iexact Hg
  iexact HR

end Cert.KernelIdeal.Hand

end
-- ==== Proof.KI.R5.lean ====
import proofs.«427087_j34256659153343_2_alg».proof.Proof.Gen.KernelIdeal.Launch

import proofs.«427087_j34256659153343_2_alg».proof.Proof.Gen.KernelIdeal.Skeleton

import proofs.«427087_j34256659153343_2_alg».proof.Proof.Gen.KernelIdeal.Points

import Idealize.ShloMosaic.Lib.Pipeline.FrameBody

import Idealize.ShloMosaic.Lib.Pipeline.RegionsLoop

import Idealize.ShloMosaic.Lib.Pipeline.FrameSuffix

import Idealize.ShloMosaic.Lib.Ring

import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

abbrev whole5 : Rect S10000x32 := Rect.unit (s := S10000x32) ![0, 0] S10000x32.size inb_S10000x32_S10000x32_0_0

abbrev row5 : Rect S1x32 := Rect.unit (s := S1x32) ![0, 0] S1x32.size inb_S1x32_S1x32_0_0

def res5 (o : Vec F S10000x32 .f32) (mean var g b : Vec F S1x32 .f32) : Vec F S10000x32 .f32 :=
  View.canon [⟨whole5, k5_pay1 (View.ld var row5) (View.ld o whole5) (View.ld mean row5) (View.ld g row5) (View.ld b row5)⟩]

def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => blk5 V c 4 t
    | ⟨5, _⟩ => res5 (blk5 V c 0 t) (blk5 V c 1 t) (blk5 V c 2 t) (blk5 V c 3 t) (blk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_in (c : Dev nD) :
    (∀ t, (dat5 V c).after 0 t = blk5 V c 0 t) ∧ (∀ t, (dat5 V c).after 1 t = blk5 V c 1 t) ∧ (∀ t, (dat5 V c).after 2 t = blk5 V c 2 t)
      ∧ (∀ t, (dat5 V c).after 3 t = blk5 V c 3 t) ∧ (∀ t, (dat5 V c).after 4 t = blk5 V c 4 t) := by
  dsimp only [dat5]; exact ⟨fun _ => rfl, fun _ => rfl, fun _ => rfl, fun _ => rfl, fun _ => rfl⟩

theorem after5_5 (c : Dev nD) (t : Fin cfg5.N) :
    (dat5 V c).after 5 t = res5 (blk5 V c 0 t) (blk5 V c 1 t) (blk5 V c 2 t) (blk5 V c 3 t) (blk5 V c 4 t) := by dsimp only [dat5]

theorem before5_in (c : Dev nD) (t : Fin cfg5.N) :
    (∀ d, (dat5 V c).before 0 t d = blk5 V c 0 t) ∧ (∀ d, (dat5 V c).before 1 t d = blk5 V c 1 t)
      ∧ (∀ d, (dat5 V c).before 2 t d = blk5 V c 2 t) ∧ (∀ d, (dat5 V c).before 3 t d = blk5 V c 3 t)
      ∧ (∀ d, (dat5 V c).before 4 t d = blk5 V c 4 t) := by
  obtain ⟨a0, a1, a2, a3, a4⟩ := after5_in V c
  refine ⟨fun d => ?_, fun d => ?_, fun d => ?_, fun d => ?_, fun d => ?_⟩ <;>
    exact Eq.trans (Dat.before_in_eq_fetched _ _ rfl (fun _ => rfl) (fun _ _ _ => rfl)
      (fun t => by simp only [a0, a1, a2, a3, a4]; unfold Dat.blockOf blk5; rw [A_eq5]; try rfl) t d)
      (by unfold Dat.fetched Dat.blockOf blk5; rw [A_eq5]; try rfl)

set_option maxHeartbeats 1000000 in
theorem body_obligation5 (c : Dev nD) : BodyObligation (dat5 (F := F) V c) (defs₀ (F := F)) Variants.none () Set.univ := fun t => by
  obtain ⟨b0, b1, b2, b3, b4⟩ := before5_in V c t
  obtain ⟨a0, a1, a2, a3, a4⟩ := after5_in V c
  rw [show (dat5 V c).Φ t.succ = (dat5 V c).Φ t.castSucc from rfl,
    show (dat5 V c).owesAt () t.succ = (dat5 V c).owesAt () t.castSucc from rfl]
  simp only [bigSep_W5, b0, b1, b2, b3, b4, a0, a1, a2, a3, a4, after5_5]
  show _ ⊢ wp _ _ _ (bodyAt5 (F := F) t) _
  unfold bodyAt5
  generalize blk5 V c 0 t = o; generalize blk5 V c 1 t = mean; generalize blk5 V c 2 t = var
  generalize blk5 V c 3 t = g; generalize blk5 V c 4 t = b
  simp only [cc5__bn_kernel_eq_skeleton]; unfold cc5__bn_kernel_skel
  unfold owns
  iintro ⟨HΦ, Ho, ⟨%d0, %f1, %hf1, H1⟩, ⟨%d1, %f2, %hf2, H2⟩, ⟨%d2, %f3, %hf3, H3⟩, ⟨%d3, %f4, %hf4, H4⟩, ⟨%d4, %f5, %hf5, H5⟩, ⟨%d5, %f6, -, H6⟩⟩
  subst hf1 hf2 hf3 hf4 hf5
  sl_exec
  sl_step
  isplitl [HΦ]; · iexact HΦ
  isplitl [Ho]; · iexact Ho
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x32.size (by rfl))

theorem hin5 (c : Dev nD) :
    (iprop((∃ r, prngReg c r) ∗ Pipeline.scopedRest spec5 c) : sProp 𝕄) ⊢ (dat5 V c).Φ 0 := sep_symm

theorem hout5 (c : Dev nD) :
    (dat5 V c).Φ (Fin.last cfg5.N) ⊢ (iprop((∃ r, prngReg c r) ∗ Pipeline.scopedRest spec5 c) : sProp 𝕄) := sep_symm

end Cert.KernelIdeal.Hand

end
-- ==== Proof.KI.R6.lean ====
import proofs.«427087_j34256659153343_2_alg».proof.Proof.Gen.KernelIdeal.Launch
import proofs.«427087_j34256659153343_2_alg».proof.Proof.Gen.KernelIdeal.Skeleton
import proofs.«427087_j34256659153343_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev sumM6 : Memref sig .tc .vmem S512x32 .f32 := Memref.whole cc6_scratch0

abbrev cntM6 : Memref sig .tc .vmem S512x1 .f32 := Memref.whole cc6_scratch1

theorem hz6 : (![0, 0] : Fin 2 → Nat) = fun _ => 0 := funext fun a => by fin_cases a <;> rfl

abbrev IsFirst6 (i : grid6.Coords) : Prop :=
  Scalar.cmpi .ne (Scalar.extui (Scalar.cmpi .eq (BitVec.ofNat 32 (i 0).val) 0#32)) 0#32 = 1#1

abbrev IsLast6 (i : grid6.Coords) : Prop := k6_cond2 i = 1#1

theorem isFirst6_iff : ∀ t : Fin cfg6.N, IsFirst6 (grid6.coords t) ↔ t.val = 0 :=
  (by decide +kernel : ∀ t : Fin grid6.N, IsFirst6 (grid6.coords t) ↔ t.val = 0)

theorem isLast6_iff : ∀ t : Fin cfg6.N, IsLast6 (grid6.coords t) ↔ t.val = 124 :=
  (by decide +kernel : ∀ t : Fin grid6.N, IsLast6 (grid6.coords t) ↔ t.val = 124)

theorem N6_eq : cfg6.N = 125 := N_6

theorem idle6_6_of_last (t : Fin cfg6.N) (h : IsLast6 (grid6.coords t)) : idle6 6 (grid6.coords t) = false := by
  show (!(k6_cond2 (grid6.coords t) == 1#1)) = false
  rw [beq_iff_eq.mpr h]; rfl

theorem idle6_6_of_not_last (t : Fin cfg6.N) (h : ¬ IsLast6 (grid6.coords t)) : idle6 6 (grid6.coords t) = true := by
  show (!(k6_cond2 (grid6.coords t) == 1#1)) = true
  rw [beq_eq_false_iff_ne.mpr h]; rfl

theorem flush6_6_of_not_last (t : Fin cfg6.N) (h : ¬ IsLast6 (grid6.coords t)) : (cfg6.win 6).flush t = false :=
  Bool.eq_false_iff.mpr fun hf => h ((isLast6_iff t).mpr (by
    have := (flush6_6 t).mp hf; have hN := lt_of_lt_of_eq t.isLt N6_eq; omega))

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev hblk6 (c : Dev nD) (t : Fin cfg6.N) : Vec F S2000x32 .f32 := iblk6 V c 0 t

abbrev bblk6 (c : Dev nD) (t : Fin cfg6.N) : Vec F S2000x1 .i32 := iblk6 V c 1 t

abbrev lbW6 (c : Dev nD) (t : Fin cfg6.N) : Vec F S32x16 .f32 := iblk6 V c 2 t

abbrev lbb6 (c : Dev nD) (t : Fin cfg6.N) : Vec F S1x16 .f32 := iblk6 V c 3 t

abbrev lmW6 (c : Dev nD) (t : Fin cfg6.N) : Vec F S16x1 .f32 := iblk6 V c 4 t

abbrev lmb6 (c : Dev nD) (t : Fin cfg6.N) : Vec F S1x1 .f32 := iblk6 V c 5 t

def accS6 (c : Dev nD) : (k : ℕ) → k < cfg6.N → Vec F S512x32 .f32
  | 0, hk => k6_pay4 (hblk6 V c ⟨0, hk⟩) (bblk6 V c ⟨0, hk⟩) (k6_pay1 (F := F))
  | k + 1, hk => k6_pay4 (hblk6 V c ⟨k + 1, hk⟩) (bblk6 V c ⟨k + 1, hk⟩) (accS6 c k (Nat.lt_of_succ_lt hk))

def accC6 (c : Dev nD) : (k : ℕ) → k < cfg6.N → Vec F S512x1 .f32
  | 0, hk => k6_pay5 (bblk6 V c ⟨0, hk⟩) (k6_pay2 (F := F))
  | k + 1, hk => k6_pay5 (bblk6 V c ⟨k + 1, hk⟩) (accC6 c k (Nat.lt_of_succ_lt hk))

theorem accS6_zero (c : Dev nD) (t : Fin cfg6.N) (h : t.val = 0) :
    accS6 V c t.val t.isLt = k6_pay4 (hblk6 V c t) (bblk6 V c t) (k6_pay1 (F := F)) := by
  obtain ⟨k, hk⟩ := t; obtain rfl : k = 0 := h; rfl

theorem accS6_succ (c : Dev nD) (t : Fin cfg6.N) (h : t.val ≠ 0) (hp : t.val - 1 < cfg6.N) :
    accS6 V c t.val t.isLt = k6_pay4 (hblk6 V c t) (bblk6 V c t) (accS6 V c (t.val - 1) hp) := by
  obtain ⟨_ | k, hk⟩ := t
  · exact absurd rfl h
  · rfl

theorem accC6_zero (c : Dev nD) (t : Fin cfg6.N) (h : t.val = 0) :
    accC6 V c t.val t.isLt = k6_pay5 (bblk6 V c t) (k6_pay2 (F := F)) := by
  obtain ⟨k, hk⟩ := t; obtain rfl : k = 0 := h; rfl

theorem accC6_succ (c : Dev nD) (t : Fin cfg6.N) (h : t.val ≠ 0) (hp : t.val - 1 < cfg6.N) :
    accC6 V c t.val t.isLt = k6_pay5 (bblk6 V c t) (accC6 V c (t.val - 1) hp) := by
  obtain ⟨_ | k, hk⟩ := t
  · exact absurd rfl h
  · rfl

def out6 (c : Dev nD) (t : Fin cfg6.N) : Vec F S512x1 .f32 :=
  k6_pay6 (accS6 V c t.val t.isLt) (accC6 V c t.val t.isLt) (lbW6 V c t) (lmW6 V c t) (lbb6 V c t) (lmb6 V c t)

def accPart6 (c : Dev nD) (k : Fin (cfg6.N + 1)) : sProp 𝕄 :=
  if h : k.val = 0 then
    iprop((∃ a, owns (c : Thread nD τ) sumM6 fullShare a) ∗ (∃ n, owns (c : Thread nD τ) cntM6 fullShare n))
  else
    iprop(owns (c : Thread nD τ) sumM6 fullShare (accS6 V c (k.val - 1) (by have := k.isLt; omega))
      ∗ owns (c : Thread nD τ) cntM6 fullShare (accC6 V c (k.val - 1) (by have := k.isLt; omega)))

def Φ6 (c : Dev nD) (k : Fin (cfg6.N + 1)) : sProp 𝕄 :=
  iprop(accPart6 V c k ∗ (∃ r, prngReg c r)
    ∗ Pipeline.scopedRestBut (Ix := Unit) (Name := ℕ) (U := UR sig nD τ) (Lvl := ℕ) (Val := Elt F) spec6 c [cc6_scratch0, cc6_scratch1])

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6 V c t
  Φ k := Φ6 V c k
  q _ := fullShare
  owed _ := 0

theorem A_eq6 (c : Dev nD) (w : Fin cfg6.W) : (dat6 V c).A w = V c (Pipeline.arrRef spec6 w) := rfl

theorem after6_6 (c : Dev nD) (t : Fin cfg6.N) : (dat6 V c).after 6 t = out6 V c t := rfl

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl

theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl

theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl

theorem before6_4 (c : Dev nD) (t : Fin cfg6.N) (d) : (dat6 V c).before 4 t d = iblk6 V c 4 t :=
  ((dat6 V c).before_in_eq_fetched 4 rfl (fun _ => rfl) (fun _ _ _ => rfl) (fun _ => rfl) t d).trans rfl

theorem before6_5 (c : Dev nD) (t : Fin cfg6.N) (d) : (dat6 V c).before 5 t d = iblk6 V c 5 t :=
  ((dat6 V c).before_in_eq_fetched 5 rfl (fun _ => rfl) (fun _ _ _ => rfl) (fun _ => rfl) t d).trans rfl

-- After a last store through the whole buffer, the buffer reads as the stored payload, whatever was stored before.
theorem read_store6 {κ : Kind} {sp : Space} {S : Shape} {e : EltTy} (v : View sig κ sp S e) (f : v.ty.Contents (Elt F))
    {off : Fin S.rank → Nat} (h : off = fun _ => 0) (inb : ∀ a, off a + S.size a ≤ S.size a) (p : S.Idx → Elt F e)
    (L : List (View.Piece (Elt F) S e)) :
    v.read (Elt F) (v.writes (Elt F) f (⟨Rect.unit off S.size inb, p⟩ :: L)) = p := by
  rw [View.read_writes_eq_canon _ _ _ fun y => ⟨_, List.mem_cons_self, View.mem_set_unit_zero h inb y⟩,
    View.canon_cons_unit_zero h]

section Runs

variable (c : Dev nD) (i : grid6.Coords)
  (M0 : Memref sig .tc .vmem S2000x32 .f32) (h0 : M0.IsWhole) (M1 : Memref sig .tc .vmem S2000x1 .i32) (h1 : M1.IsWhole)
  (M2 : Memref sig .tc .vmem S32x16 .f32) (h2 : M2.IsWhole) (M3 : Memref sig .tc .vmem S1x16 .f32) (h3 : M3.IsWhole)
  (M4 : Memref sig .tc .vmem S16x1 .f32) (h4 : M4.IsWhole) (M5 : Memref sig .tc .vmem S1x1 .f32) (h5 : M5.IsWhole)
  (M6 : Memref sig .tc .vmem S512x1 .f32) (h6 : M6.IsWhole)
  (x0 : Vec F S2000x32 .f32) (x1 : Vec F S2000x1 .i32) (x2 : Vec F S32x16 .f32) (x3 : Vec F S1x16 .f32)
  (x4 : Vec F S16x1 .f32) (x5 : Vec F S1x1 .f32) (a : Vec F S512x32 .f32) (n : Vec F S512x1 .f32)

local notation "POOL" => cc6__pool_kernel i M0 h0 M1 h1 M2 h2 M3 h3 M4 h4 M5 h5 M6 h6 (Memref.whole cc6_scratch0) (Memref.isWhole_whole _) (Memref.whole cc6_scratch1) (Memref.isWhole_whole _)

-- One block's accumulation; at the first block the sums restart from zero.
set_option maxHeartbeats 2000000 in
theorem run6_acc (hL : ¬ IsLast6 i) (Q : PUnit → sProp 𝕄) :
    iprop(owns (c : Thread nD τ) M0 fullShare x0 ∗ owns (c : Thread nD τ) M1 fullShare x1
      ∗ owns (c : Thread nD τ) sumM6 fullShare a ∗ owns (c : Thread nD τ) cntM6 fullShare n
      ∗ (iprop(owns (c : Thread nD τ) M0 fullShare x0 ∗ owns (c : Thread nD τ) M1 fullShare x1
          ∗ owns (c : Thread nD τ) sumM6 fullShare (k6_pay4 x0 x1 (if IsFirst6 i then k6_pay1 (F := F) else a))
          ∗ owns (c : Thread nD τ) cntM6 fullShare (k6_pay5 x1 (if IsFirst6 i then k6_pay2 (F := F) else n))) -∗ Q ⟨⟩))
      ⊢ wp frame (wpE (defs₀ (F := F)) Variants.none c none) Set.univ POOL Q := by
  by_cases hF : IsFirst6 i <;> first | rw [if_pos hF, if_pos hF] | rw [if_neg hF, if_neg hF]
  all_goals
    unfold owns
    iintro ⟨⟨%f0, %hf0, H0⟩, ⟨%f1, %hf1, H1⟩, ⟨%fa, %hfa, Ha⟩, ⟨%fn, %hfn, Hn⟩, Hk⟩
    subst hf0 hf1 hfa hfn
    sl_unfold [cc6__pool_kernel]
    sl_exec! (disch := assumption)
    sl_step
    sl_unfold_words
    simp only [View.readAt_eq_ld, View.ld_unit_zero (S := S2000x32) hz6, View.ld_unit_zero (S := S2000x1) hz6, View.ld_unit_zero (S := S512x32) hz6, View.ld_unit_zero (S := S512x1) hz6, View.readCov_unit_zero (S := S512x32) _ hz6, View.readCov_unit_zero (S := S512x1) _ hz6]
    iapply Hk
    isplitl [H0]; · iexists f0; isplitr; (· ipureintro; rfl); iexact H0
    isplitl [H1]; · iexists f1; isplitr; (· ipureintro; rfl); iexact H1
    isplitl [Ha]
    · iexists _; isplitr; swap; (· iexact Ha); ipureintro
      exact read_store6 (S := S512x32) _ _ hz6 _ _ _
    · iexists _; isplitr; swap; (· iexact Hn); ipureintro
      exact read_store6 (S := S512x1) _ _ hz6 _ _ _

-- The last block: accumulate, then the head applied to the finished sums.
set_option maxHeartbeats 4000000 in
theorem run6_last (hF : ¬ IsFirst6 i) (hL : IsLast6 i) (d : Vec F S512x1 .f32) (Q : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5
      ∗ owns (c : Thread nD τ) M6 fullShare d ∗ owns (c : Thread nD τ) sumM6 fullShare a ∗ owns (c : Thread nD τ) cntM6 fullShare n
      ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5
          ∗ owns (c : Thread nD τ) M6 fullShare (k6_pay6 (k6_pay4 x0 x1 a) (k6_pay5 x1 n) x2 x4 x3 x5)
          ∗ owns (c : Thread nD τ) sumM6 fullShare (k6_pay4 x0 x1 a) ∗ owns (c : Thread nD τ) cntM6 fullShare (k6_pay5 x1 n)) -∗ Q ⟨⟩))
      ⊢ wp frame (wpE (defs₀ (F := F)) Variants.none c none) Set.univ POOL Q := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fa, %hfa, Ha⟩, ⟨%fn, %hfn, Hn⟩, Hk⟩
  subst hf0 hf1 hf2 hf3 hf4 hf5 hf6 hfa hfn
  sl_unfold [cc6__pool_kernel]
  sl_exec! (disch := assumption)
  sl_step
  sl_unfold_words
  simp only [View.readAt_eq_ld, View.ld_unit_zero (S := S2000x32) hz6, View.ld_unit_zero (S := S2000x1) hz6, View.ld_unit_zero (S := S512x32) hz6, View.ld_unit_zero (S := S512x1) hz6, View.ld_unit_zero (S := S32x16) hz6, View.ld_unit_zero (S := S16x1) hz6, View.ld_unit_zero (S := S1x16) hz6, View.ld_unit_zero (S := S1x1) hz6, View.readCov_unit_zero (S := S512x32) _ hz6, View.readCov_unit_zero (S := S512x1) _ hz6]
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]
  · iexists _; isplitr; swap; (· iexact H6); ipureintro
    exact read_store6 (S := S512x1) _ _ hz6 _ _ _
  isplitl [Ha]
  · iexists _; isplitr; swap; (· iexact Ha); ipureintro
    exact read_store6 (S := S512x32) _ _ hz6 _ _ _
  · iexists _; isplitr; swap; (· iexact Hn); ipureintro
    exact read_store6 (S := S512x1) _ _ hz6 _ _ _

end Runs

-- Before any block the accumulators hold anything; after block `j` they hold the sums over blocks `0..j`.
theorem accPart6_zero (c : Dev nD) (k : Fin (cfg6.N + 1)) (h : k.val = 0) : accPart6 V c k
    = iprop((∃ a, owns (c : Thread nD τ) sumM6 fullShare a) ∗ (∃ n, owns (c : Thread nD τ) cntM6 fullShare n)) := by
  unfold accPart6; exact dif_pos h

theorem accPart6_succ (c : Dev nD) (k : Fin (cfg6.N + 1)) (j : ℕ) (hj : j < cfg6.N) (h : k.val = j + 1) : accPart6 V c k
    = iprop(owns (c : Thread nD τ) sumM6 fullShare (accS6 V c j hj) ∗ owns (c : Thread nD τ) cntM6 fullShare (accC6 V c j hj)) := by
  obtain rfl : j = k.val - 1 := by omega
  unfold accPart6; exact dif_neg (by omega)

def bodyPre6 (c : Dev nD) (t : Fin cfg6.N) : sProp 𝕄 :=
  iprop(Φ6 V c t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop(Φ6 V c t.succ ∗ (dat6 V c).owesAt () t.castSucc
    ∗ owns (c : Thread nD τ) (st6_0 t) fullShare (iblk6 V c 0 t)
    ∗ owns (c : Thread nD τ) (st6_1 t) fullShare (iblk6 V c 1 t)
    ∗ owns (c : Thread nD τ) (st6_2 t) fullShare (iblk6 V c 2 t)
    ∗ owns (c : Thread nD τ) (st6_3 t) fullShare (iblk6 V c 3 t)
    ∗ owns (c : Thread nD τ) (st6_4 t) fullShare (iblk6 V c 4 t)
    ∗ owns (c : Thread nD τ) (st6_5 t) fullShare (iblk6 V c 5 t)
    ∗ (dat6 V c).leavesExact 6 t)

set_option maxHeartbeats 1600000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6 Φ6
  simp only [before6_0, before6_1, before6_2, before6_3, before6_4, before6_5]
  rw [accPart6_succ V c t.succ t.val t.isLt rfl]
  have hN : t.val < 125 := lt_of_lt_of_eq t.isLt N6_eq
  by_cases hL : IsLast6 (grid6.coords t)
  · have h124 : t.val = 124 := (isLast6_iff t).mp hL
    have h0 : t.val ≠ 0 := by omega
    have hF : ¬ IsFirst6 (grid6.coords t) := fun h => h0 ((isFirst6_iff t).mp h)
    rw [show (dat6 V c).leavesExact 6 t = owns (c : Thread nD τ) (st6_6 t) fullShare (out6 V c t) from by
      unfold Dat.leavesExact; rw [show cfg6.idle 6 (cfg6.grid.coords t) = false from idle6_6_of_last t hL]; rfl,
      accPart6_succ V c t.castSucc (t.val - 1) (by omega) (by show t.val = _; omega)]
    unfold out6
    rw [accS6_succ V c t h0 (by omega), accC6_succ V c t h0 (by omega)]
    iintro ⟨⟨⟨Ha, Hn⟩, Hp, Hr⟩, Ho, ⟨%d0, H0⟩, ⟨%d1, H1⟩, ⟨%d2, H2⟩, ⟨%d3, H3⟩, ⟨%d4, H4⟩, ⟨%d5, H5⟩, ⟨%d6, H6⟩⟩
    iapply (run6_last c (grid6.coords t) _ _ _ _ _ _ _ _ _ _ _ _ _ _ (iblk6 V c 0 t) (iblk6 V c 1 t) (iblk6 V c 2 t) (iblk6 V c 3 t) (iblk6 V c 4 t) (iblk6 V c 5 t) _ _ hF hL _ _)
    iframe H0 H1 H2 H3 H4 H5 H6 Ha Hn
    iintro ⟨H0, H1, H2, H3, H4, H5, H6, Ha, Hn⟩
    iframe
  · rw [(dat6 V c).leavesExact_idle 6 t (idle6_6_of_not_last t hL) (flush6_6_of_not_last t hL)]
    by_cases hF : IsFirst6 (grid6.coords t)
    · have h0 : t.val = 0 := (isFirst6_iff t).mp hF
      rw [accPart6_zero V c t.castSucc h0, accS6_zero V c t h0, accC6_zero V c t h0]
      iintro ⟨⟨⟨⟨%a, Ha⟩, ⟨%n, Hn⟩⟩, Hp, Hr⟩, Ho, ⟨%d0, H0⟩, ⟨%d1, H1⟩, ⟨%d2, H2⟩, ⟨%d3, H3⟩, ⟨%d4, H4⟩, ⟨%d5, H5⟩, H6⟩
      iapply (run6_acc c (grid6.coords t) _ _ _ _ _ _ _ _ _ _ _ _ _ _ (iblk6 V c 0 t) (iblk6 V c 1 t) _ _ hL _)
      rw [if_pos hF, if_pos hF]
      iframe H0 H1 Ha Hn
      iintro ⟨H0, H1, Ha, Hn⟩
      iframe
    · have h0 : t.val ≠ 0 := fun h => hF ((isFirst6_iff t).mpr h)
      rw [accPart6_succ V c t.castSucc (t.val - 1) (by omega) (by show t.val = _; omega),
        accS6_succ V c t h0 (by omega), accC6_succ V c t h0 (by omega)]
      iintro ⟨⟨⟨Ha, Hn⟩, Hp, Hr⟩, Ho, ⟨%d0, H0⟩, ⟨%d1, H1⟩, ⟨%d2, H2⟩, ⟨%d3, H3⟩, ⟨%d4, H4⟩, ⟨%d5, H5⟩, H6⟩
      iapply (run6_acc c (grid6.coords t) _ _ _ _ _ _ _ _ _ _ _ _ _ _ (iblk6 V c 0 t) (iblk6 V c 1 t) _ _ hL _)
      rw [if_neg hF, if_neg hF]
      iframe H0 H1 Ha Hn
      iintro ⟨H0, H1, Ha, Hn⟩
      iframe

theorem body_obligation6 (c : Dev nD) : BodyObligation (dat6 (F := F) V c) (defs₀ (F := F)) Variants.none () Set.univ := fun t => by
  rw [bigSep_W6, bigSep_W6]
  exact sound_body6 V c t

theorem hin6 (c : Dev nD) : (iprop((∃ r, prngReg c r) ∗ Pipeline.scopedRest spec6 c) : sProp 𝕄) ⊢ (dat6 V c).Φ 0 := by
  rw [scopedRest6_split, show (dat6 V c).Φ 0 = Φ6 V c 0 from rfl]
  unfold Φ6; rw [accPart6_zero V c 0 rfl]
  simp only [owns_whole_eq]
  iintro ⟨Hp, ⟨⟨%f, Hf⟩, ⟨%g, Hg⟩⟩, Hr⟩
  iframe Hp Hr
  isplitl [Hf]
  · iexists f, f; isplitr; (· ipureintro; rfl); iexact Hf
  · iexists g, g; isplitr; (· ipureintro; rfl); iexact Hg

theorem hout6 (c : Dev nD) : (dat6 V c).Φ (Fin.last cfg6.N) ⊢ (iprop((∃ r, prngReg c r) ∗ Pipeline.scopedRest spec6 c) : sProp 𝕄) := by
  rw [scopedRest6_split, show (dat6 V c).Φ (Fin.last cfg6.N) = Φ6 V c (Fin.last cfg6.N) from rfl]
  unfold Φ6
  rw [accPart6_succ V c (Fin.last cfg6.N) 124 (by rw [N6_eq]; omega) (by show cfg6.N = _; rw [N6_eq])]
  simp only [owns_whole_eq]
  iintro ⟨⟨⟨%f, %hf, Hf⟩, ⟨%g, %hg, Hg⟩⟩, Hp, Hr⟩
  iframe Hp Hr
  isplitl [Hf]; · iexists f; iexact Hf
  iexists g; iexact Hg

end Cert.KernelIdeal.Hand

end
-- ==== Proof.KI.Data.lean ====
import proofs.«427087_j34256659153343_2_alg».proof.Proof.KI.Segs

import proofs.«427087_j34256659153343_2_alg».proof.Proof.KI.R0

import proofs.«427087_j34256659153343_2_alg».proof.Proof.KI.R1

import proofs.«427087_j34256659153343_2_alg».proof.Proof.KI.R2

import proofs.«427087_j34256659153343_2_alg».proof.Proof.KI.R3

import proofs.«427087_j34256659153343_2_alg».proof.Proof.KI.R4

import proofs.«427087_j34256659153343_2_alg».proof.Proof.KI.R5

import proofs.«427087_j34256659153343_2_alg».proof.Proof.KI.R6

noncomputable section

namespace Cert.KernelIdeal.Hand

open Cert.KernelIdeal Cert.KernelIdeal.Gen

open Idealize.ShloMosaic Idealize.ShloMosaic.TcCoe Idealize.SL.Sem

variable {F : FTy → Type} [FloatOps F]

def rd0 : RegionData (F := F) cfg0 := ⟨dat0, A_eq0, fun _ _ _ => rfl, fun _ _ _ => rfl, fun _ _ _ => rfl, body_obligation0, hin0, hout0⟩

def rd1 : RegionData (F := F) cfg1 := ⟨dat1, A_eq1, fun _ _ _ => rfl, fun _ _ _ => rfl, fun _ _ _ => rfl, body_obligation1, hin1, hout1⟩

def rd2 : RegionData (F := F) cfg2 := ⟨dat2, A_eq2, fun _ _ _ => rfl, fun _ _ _ => rfl, fun _ _ _ => rfl, body_obligation2, hin2, hout2⟩

def rd3 : RegionData (F := F) cfg3 := ⟨dat3, A_eq3, fun _ _ _ => rfl, fun _ _ _ => rfl, fun _ _ _ => rfl, body_obligation3, hin3, hout3⟩

def rd4 : RegionData (F := F) cfg4 := ⟨dat4, A_eq4, fun _ _ _ => rfl, fun _ _ _ => rfl, fun _ _ _ => rfl, body_obligation4, hin4, hout4⟩

def rd5 : RegionData (F := F) cfg5 := ⟨dat5, A_eq5, fun _ _ _ => rfl, fun _ _ _ => rfl, fun _ _ _ => rfl, body_obligation5, hin5, hout5⟩

def rd6 : RegionData (F := F) cfg6 := ⟨dat6, A_eq6, fun _ _ _ => rfl, fun _ _ _ => rfl, fun _ _ _ => rfl, body_obligation6, hin6, hout6⟩

abbrev Wend (m : (ℓ : Loc nD τ sig) → Buf (Elt F) ℓ) (c : Dev nD) : Valuation τ sig (Elt F) :=
  W14 rd0 rd1 rd2 rd3 rd4 rd5 rd6 m c

theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v109) = Wend m c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  run_val rd0 rd1 rd2 rd3 rd4 rd5 rd6 m ρ

theorem frame_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  frame rd0 rd1 rd2 rd3 rd4 rd5 rd6 m ρ

end Cert.KernelIdeal.Hand

end
-- ==== Proof.Spec.lean ====
import Idealize.ShloMosaic.PureOps.Ideal

import Idealize.ShloMosaic.PureOps.Ideal.Laws

import Idealize.ShloMosaic.Lib.ValueIdx

import Mathlib.Data.EReal.Operations

noncomputable section

open scoped BigOperators

namespace Cert.Spec

open Idealize.ShloMosaic Idealize.ShloMosaic.ValueIdx

abbrev Mat (n k : ℕ) := Fin n → Fin k → EReal

def mat {n k : ℕ} (a : (⟨2, ![n, k]⟩ : Shape).Idx → EReal) : Mat n k := fun p q => a (ix2 p q)

def vec {k : ℕ} (a : (⟨1, ![k]⟩ : Shape).Idx → EReal) : Fin k → EReal := fun q => a (ix1 q)

def IsFin (x : EReal) : Prop := ∃ r : ℝ, x = (r : EReal)

def cN : EReal := Ideal.ofBits .f32 0x48742400#32

def half : EReal := Ideal.ofBits .f32 0x3F000000#32

def eps : EReal := Ideal.ofBits .f32 0x3727C5AC#32

def relu (x : EReal) : EReal := max x 0

def mlp {D : ℕ} (h : Fin D → EReal) (W1 : Mat D 32) (b1 : Fin 32 → EReal) (W2 : Mat 32 32) (b2 : Fin 32 → EReal) :
    Fin 32 → EReal :=
  fun j => (∑ k : Fin 32, relu ((∑ d : Fin D, h d * W1 d k) + b1 k) * W2 k j) + b2 j

structure GinP (D : ℕ) where
  fW1 : Mat D 32
  fb1 : Fin 32 → EReal
  fW2 : Mat 32 32
  fb2 : Fin 32 → EReal
  bW1 : Mat D 32
  bb1 : Fin 32 → EReal
  bW2 : Mat 32 32
  bb2 : Fin 32 → EReal

def ginRow {D : ℕ} (P : GinP D) (x af ab : Fin D → EReal) : Fin 32 → EReal :=
  fun j => half * (relu (mlp (fun d => x d + af d) P.fW1 P.fb1 P.fW2 P.fb2 j)
                 + relu (mlp (fun d => x d + ab d) P.bW1 P.bb1 P.bW2 P.bb2 j))

def gin {D : ℕ} (P : GinP D) (x af ab : Mat 250000 D) : Mat 250000 32 := fun i => ginRow P (x i) (af i) (ab i)

def colsum (o : Mat 250000 32) : Fin 32 → EReal := fun j => ∑ i : Fin 250000, o i j

def colsumsq (o : Mat 250000 32) : Fin 32 → EReal := fun j => ∑ i : Fin 250000, o i j * o i j

def mu (o : Mat 250000 32) : Fin 32 → EReal := fun j => Ideal.div (colsum o j) cN

def varK (o : Mat 250000 32) : Fin 32 → EReal := fun j => Ideal.div (colsumsq o j) cN - mu o j * mu o j

def varR (o : Mat 250000 32) : Fin 32 → EReal :=
  fun j => Ideal.div (∑ i : Fin 250000, (o i j - mu o j) * (o i j - mu o j)) cN

def bn (var : Fin 32 → EReal) (o : Mat 250000 32) (g b : Fin 32 → EReal) : Mat 250000 32 :=
  fun i j => (o i j - mu o j) * Ideal.rsqrt (var j + eps) * g j + b j

def layerK {D : ℕ} (P : GinP D) (g b : Fin 32 → EReal) (x af ab : Mat 250000 D) : Mat 250000 32 :=
  bn (varK (gin P x af ab)) (gin P x af ab) g b

def layerR {D : ℕ} (P : GinP D) (g b : Fin 32 → EReal) (x af ab : Mat 250000 D) : Mat 250000 32 :=
  bn (varR (gin P x af ab)) (gin P x af ab) g b

def segsum (h : Mat 250000 32) (batch : Fin 250000 → BitVec 32) : Mat 512 32 :=
  fun g j => ∑ i ∈ Finset.univ.filter (fun i : Fin 250000 => batch i = BitVec.ofNat 32 g.val), h i j

def segcnt (batch : Fin 250000 → BitVec 32) : Fin 512 → EReal :=
  fun g => ∑ _i ∈ Finset.univ.filter (fun i : Fin 250000 => batch i = BitVec.ofNat 32 g.val), (1 : EReal)

def head (h : Mat 250000 32) (batch : Fin 250000 → BitVec 32) (lbW : Mat 32 16) (lbb : Fin 16 → EReal)
    (lmW : Mat 16 1) (lmb : Fin 1 → EReal) : Fin 512 → EReal :=
  fun g => Ideal.logistic ((∑ k : Fin 16,
      relu ((∑ j : Fin 32, Ideal.div (segsum h batch g j) (max (segcnt batch g) 1) * lbW j k) + lbb k) * lmW k 0) + lmb 0)

end Cert.Spec

end
-- ==== Proof.SpecArr.lean ====
import proofs.«427087_j34256659153343_2_alg».proof.Proof.Spec

noncomputable section

namespace Cert.Spec

open Idealize.ShloMosaic Idealize.ShloMosaic.ValueIdx

def unmat {n k : ℕ} (X : Mat n k) : (⟨2, ![n, k]⟩ : Shape).Idx → EReal := fun j => X (j 0) (j 1)

theorem unmat_mat {n k : ℕ} (a : (⟨2, ![n, k]⟩ : Shape).Idx → EReal) : unmat (mat a) = a := by
  funext j; exact congrArg a (eq_ix2 j).symm

def liftAgg {n k : ℕ} (f : ((⟨2, ![n, k]⟩ : Shape).Idx → EReal) → ((⟨2, ![n, k]⟩ : Shape).Idx → EReal)) : Mat n k → Mat n k :=
  fun X => mat (f (unmat X))

theorem liftAgg_mat {n k : ℕ} (f : ((⟨2, ![n, k]⟩ : Shape).Idx → EReal) → ((⟨2, ![n, k]⟩ : Shape).Idx → EReal))
    (a : (⟨2, ![n, k]⟩ : Shape).Idx → EReal) : liftAgg f (mat a) = mat (f a) := by
  unfold liftAgg; rw [unmat_mat]

def row0 {k : ℕ} (a : (⟨2, ![1, k]⟩ : Shape).Idx → EReal) : Fin k → EReal := fun j => a (ix2 (0 : Fin 1) j)

def words1 {n w : ℕ} (a : IVec ⟨1, ![n]⟩ w) : Fin n → BitVec w := fun i => a (ix1 i)

def words2 {n w : ℕ} (a : IVec ⟨2, ![n, 1]⟩ w) : Fin n → BitVec w := fun i => a (ix2 i (0 : Fin 1))

end Cert.Spec

end
-- ==== Proof.KI.R0Value.lean ====
import proofs.«427087_j34256659153343_2_alg».proof.Proof.KI.R0

import proofs.«427087_j34256659153343_2_alg».proof.Proof.SpecArr

import Idealize.ShloMosaic.Lib.ValueIdx

import Idealize.ShloMosaic.Lib.Pipeline.Value

import Idealize.ShloMosaic.Lib.ValueLayout
import Idealize.ShloMosaic.Lib.StackMember

import Idealize.ShloMosaic.PureOps.Ideal.Laws

set_option maxRecDepth 16384

noncomputable section

namespace Cert.KernelIdeal.Hand

open Cert.KernelIdeal Cert.KernelIdeal.Gen

open Idealize.ShloMosaic Idealize.ShloMosaic.TcCoe Idealize.SL.Sem

open Idealize.ShloMosaic.Pipeline (Dat)

open Idealize.ShloMosaic.ValueIdx

open scoped BigOperators

abbrev D6w := dot_S10000x6_S6x32_S10000x32_1_0_0_1_n_n

abbrev D32w := dot_S10000x32_S32x32_S10000x32_1_0_0_1_n_n

theorem mm_apply {M K N : Nat} {φ₁ φ₂ : FTy} (D : DotDims ⟨2, ![M, K]⟩ ⟨2, ![K, N]⟩ ⟨2, ![M, N]⟩) (hD : D = DotDims.plain M K N)
    (a : FVec Ideal ⟨2, ![M, K]⟩ φ₁) (w : FVec Ideal ⟨2, ![K, N]⟩ φ₂) (p : Fin M) (q : Fin N) :
    matmul D none a w (constant ⟨2, ![M, N]⟩ .f32 0x00000000#32) (ix2 p q) = ∑ d : Fin K, a (ix2 p d) * w (ix2 d q) := by
  subst hD
  exact (Ideal.matmul_constant_zero_apply _ none a w _).trans
    ((Ideal.dotGeneral_apply _ none _ a w _).symm.trans (StackMember.dotGeneral_plain_apply none a w p q))

theorem mm6w_apply {φ₁ φ₂ : FTy} (a : FVec Ideal S10000x6 φ₁) (w : FVec Ideal S6x32 φ₂) (p : Fin 10000) (q : Fin 32) :
    matmul D6w none a w (constant S10000x32 .f32 0x00000000#32) (ix2 p q) = ∑ d : Fin 6, a (ix2 p d) * w (ix2 d q) :=
  mm_apply (M := 10000) (K := 6) (N := 32) D6w rfl a w p q

theorem mm32w_apply {φ₁ φ₂ : FTy} (a : FVec Ideal S10000x32 φ₁) (w : FVec Ideal S32x32 φ₂) (p : Fin 10000) (q : Fin 32) :
    matmul D32w none a w (constant S10000x32 .f32 0x00000000#32) (ix2 p q) = ∑ k : Fin 32, a (ix2 p k) * w (ix2 k q) :=
  mm_apply (M := 10000) (K := 32) (N := 32) D32w rfl a w p q

theorem bcast_row0w (r : S1x32.Idx → EReal) (p : Fin 10000) (q : Fin 32) :
    broadcastTo S10000x32 r broadcasts_S1x32_S10000x32 (ix2 p q) = r (ix2 0 q) :=
  broadcastTo_apply r _ (ix2 p q) (ix2 0 q) fun a => by
    match a with
    | ⟨0, _⟩ => rfl
    | ⟨1, _⟩ => rfl

theorem szero0w : (Scalar.ofBits .f32 0x00000000#32 : Ideal .f32) = 0 := Ideal.ofBits_zero_f32

theorem body_apply0w (x0 x1 x2 : Vec Ideal S10000x6 .f32) (x3 : Vec Ideal S6x32 .f32) (x4 : Vec Ideal S1x32 .f32)
    (x5 : Vec Ideal S32x32 .f32) (x6 : Vec Ideal S1x32 .f32) (x7 : Vec Ideal S6x32 .f32) (x8 : Vec Ideal S1x32 .f32)
    (x9 : Vec Ideal S32x32 .f32) (x10 : Vec Ideal S1x32 .f32) (p : Fin 10000) (q : Fin 32) :
    k0_pay8 (k0_pay3 x0 x2) (k0_pay4 x7) (k0_pay5 x9) (k0_pay6 x0 x1 x3 x5 x4 x6) k0_pay7 x8 x10 (ix2 p q)
      = Spec.ginRow
          ⟨Spec.mat (n := 6) (k := 32) x3, Spec.row0 (k := 32) x4, Spec.mat (n := 32) (k := 32) x5, Spec.row0 (k := 32) x6,
            Spec.mat (n := 6) (k := 32) x7, Spec.row0 (k := 32) x8, Spec.mat (n := 32) (k := 32) x9, Spec.row0 (k := 32) x10⟩
          (fun d => x0 (ix2 p d)) (fun d => x1 (ix2 p d)) (fun d => x2 (ix2 p d)) q := by
  unfold k0_pay8 k0_pay6 k0_pay7 k0_pay3 k0_pay4 k0_pay5
  simp only [shapeCast_self, addf_apply, mulf_apply, bcast_row0w, mm32w_apply, mm6w_apply, truncf_apply, maximumf_apply,
    broadcast_apply, szero0w]
  rfl

variable (V : (c : Dev nD) → (b : Ref sig .tc) → Buf (Elt Ideal) ((c : Thread nD τ).loc b))

theorem zeros0w : (![0, 0] : Fin 2 → Nat) = fun _ => 0 := funext fun a => by fin_cases a <;> rfl

theorem idx_facts0 : ∀ t : Fin cfg0.N,
    ((win0_0.index t (0 : Fin 2) = t.val ∧ win0_0.index t (1 : Fin 2) = 0) ∧ (win0_1.index t (0 : Fin 2) = t.val ∧ win0_1.index t (1 : Fin 2) = 0)
      ∧ (win0_2.index t (0 : Fin 2) = t.val ∧ win0_2.index t (1 : Fin 2) = 0) ∧ (win0_11.index t (0 : Fin 2) = t.val ∧ win0_11.index t (1 : Fin 2) = 0))
    ∧ ∀ a : Fin 2, win0_3.index t a = 0 ∧ win0_4.index t a = 0 ∧ win0_5.index t a = 0 ∧ win0_6.index t a = 0
      ∧ win0_7.index t a = 0 ∧ win0_8.index t a = 0 ∧ win0_9.index t a = 0 ∧ win0_10.index t a = 0 :=
  (by decide +kernel : ∀ t : Fin grid0.N, _)

theorem blk0_in (c : Dev nD) (t : Fin cfg0.N) (x : S10000x6.Idx) (k : S250000x6.Idx)
    (hk0 : (k 0).val = 10000 * t.val + (x 0).val) (hk1 : (k 1).val = (x 1).val) :
    (iblk0 V c 0 t : Vec Ideal S10000x6 .f32) x = (V c main_arg0 : S250000x6.Idx → EReal) k
      ∧ (iblk0 V c 1 t : Vec Ideal S10000x6 .f32) x = (V c main_v13 : S250000x6.Idx → EReal) k
      ∧ (iblk0 V c 2 t : Vec Ideal S10000x6 .f32) x = (V c main_v23 : S250000x6.Idx → EReal) k := by
  obtain ⟨⟨a0, a1⟩, ⟨b0, b1⟩, ⟨c0, c1⟩, -⟩ := (idx_facts0 t).1
  unfold iblk0; rw [View.read_apply, View.read_apply, View.read_apply]
  refine ⟨congrArg (V c main_arg0 : S250000x6.Idx → EReal) (funext fun a => Fin.ext ?_),
    congrArg (V c main_v13 : S250000x6.Idx → EReal) (funext fun a => Fin.ext ?_),
    congrArg (V c main_v23 : S250000x6.Idx → EReal) (funext fun a => Fin.ext ?_)⟩
  · match a with
    | ⟨0, _⟩ => show win0_0.index t 0 * 10000 + 1 * (x 0).val = (k 0).val; rw [a0, hk0]; omega
    | ⟨1, _⟩ => show win0_0.index t 1 * 6 + 1 * (x 1).val = (k 1).val; rw [a1, hk1]; omega
  · match a with
    | ⟨0, _⟩ => show win0_1.index t 0 * 10000 + 1 * (x 0).val = (k 0).val; rw [b0, hk0]; omega
    | ⟨1, _⟩ => show win0_1.index t 1 * 6 + 1 * (x 1).val = (k 1).val; rw [b1, hk1]; omega
  · match a with
    | ⟨0, _⟩ => show win0_2.index t 0 * 10000 + 1 * (x 0).val = (k 0).val; rw [c0, hk0]; omega
    | ⟨1, _⟩ => show win0_2.index t 1 * 6 + 1 * (x 1).val = (k 1).val; rw [c1, hk1]; omega

theorem blk0_whole (c : Dev nD) (t : Fin cfg0.N) :
    (iblk0 V c 3 t : Vec Ideal S6x32 .f32) = (V c main_arg3 : S6x32.Idx → EReal)
      ∧ (iblk0 V c 4 t : Vec Ideal S1x32 .f32) = (V c main_v24 : S1x32.Idx → EReal)
      ∧ (iblk0 V c 5 t : Vec Ideal S32x32 .f32) = (V c main_arg5 : S32x32.Idx → EReal)
      ∧ (iblk0 V c 6 t : Vec Ideal S1x32 .f32) = (V c main_v25 : S1x32.Idx → EReal)
      ∧ (iblk0 V c 7 t : Vec Ideal S6x32 .f32) = (V c main_arg7 : S6x32.Idx → EReal)
      ∧ (iblk0 V c 8 t : Vec Ideal S1x32 .f32) = (V c main_v26 : S1x32.Idx → EReal)
      ∧ (iblk0 V c 9 t : Vec Ideal S32x32 .f32) = (V c main_arg9 : S32x32.Idx → EReal)
      ∧ (iblk0 V c 10 t : Vec Ideal S1x32 .f32) = (V c main_v27 : S1x32.Idx → EReal) := by
  have hz := (idx_facts0 t).2
  unfold iblk0
  refine ⟨funext fun y => ?_, funext fun y => ?_, funext fun y => ?_, funext fun y => ?_, funext fun y => ?_, funext fun y => ?_, funext fun y => ?_, funext fun y => ?_⟩ <;> rw [View.read_apply]
  · exact congrArg (V c main_arg3 : S6x32.Idx → EReal) (funext fun a => Fin.ext (Pipeline.Window.rect_emb_val_of_index_zero win0_3 t a (hz a).1 y))
  · exact congrArg (V c main_v24 : S1x32.Idx → EReal) (funext fun a => Fin.ext (Pipeline.Window.rect_emb_val_of_index_zero win0_4 t a (hz a).2.1 y))
  · exact congrArg (V c main_arg5 : S32x32.Idx → EReal) (funext fun a => Fin.ext (Pipeline.Window.rect_emb_val_of_index_zero win0_5 t a (hz a).2.2.1 y))
  · exact congrArg (V c main_v25 : S1x32.Idx → EReal) (funext fun a => Fin.ext (Pipeline.Window.rect_emb_val_of_index_zero win0_6 t a (hz a).2.2.2.1 y))
  · exact congrArg (V c main_arg7 : S6x32.Idx → EReal) (funext fun a => Fin.ext (Pipeline.Window.rect_emb_val_of_index_zero win0_7 t a (hz a).2.2.2.2.1 y))
  · exact congrArg (V c main_v26 : S1x32.Idx → EReal) (funext fun a => Fin.ext (Pipeline.Window.rect_emb_val_of_index_zero win0_8 t a (hz a).2.2.2.2.2.1 y))
  · exact congrArg (V c main_arg9 : S32x32.Idx → EReal) (funext fun a => Fin.ext (Pipeline.Window.rect_emb_val_of_index_zero win0_9 t a (hz a).2.2.2.2.2.2.1 y))
  · exact congrArg (V c main_v27 : S1x32.Idx → EReal) (funext fun a => Fin.ext (Pipeline.Window.rect_emb_val_of_index_zero win0_10 t a (hz a).2.2.2.2.2.2.2 y))

def P0 (c : Dev nD) : Spec.GinP 6 :=
  ⟨Spec.mat (n := 6) (k := 32) (V c main_arg3), Spec.row0 (k := 32) (V c main_v24),
    Spec.mat (n := 32) (k := 32) (V c main_arg5), Spec.row0 (k := 32) (V c main_v25),
    Spec.mat (n := 6) (k := 32) (V c main_arg7), Spec.row0 (k := 32) (V c main_v26),
    Spec.mat (n := 32) (k := 32) (V c main_arg9), Spec.row0 (k := 32) (V c main_v27)⟩

def gin0 (c : Dev nD) : Spec.Mat 250000 32 :=
  Spec.gin (P0 V c) (Spec.mat (n := 250000) (k := 6) (V c main_arg0)) (Spec.mat (n := 250000) (k := 6) (V c main_v13))
    (Spec.mat (n := 250000) (k := 6) (V c main_v23))

theorem oblock0_apply (c : Dev nD) (t : Fin cfg0.N) (r : Fin 10000) (j : Fin 32) (i : Fin 250000)
    (hi : i.val = 10000 * t.val + r.val) : oval0 (inAt0 V c t) (ix2 r j) = gin0 V c i j := by
  have hin := fun d : Fin 6 => blk0_in V c t (ix2 r d) (ix2 i d) hi rfl
  obtain ⟨w3, w4, w5, w6, w7, w8, w9, w10⟩ := blk0_whole V c t
  unfold oval0 inAt0
  simp only [View.ld_unit_zero (S := S10000x6) zeros0w, View.ld_unit_zero (S := S6x32) zeros0w,
    View.ld_unit_zero (S := S1x32) zeros0w, View.ld_unit_zero (S := S32x32) zeros0w]
  rw [body_apply0w, w3, w4, w5, w6, w7, w8, w9, w10]
  simp only [fun d => (hin d).1, fun d => (hin d).2.1, fun d => (hin d).2.2]
  rfl

def G0w (c : Dev nD) : S250000x32.Idx → EReal := Spec.unmat (n := 250000) (k := 32) (gin0 V c)

theorem flushed0_11w (c : Dev nD) (t : Fin cfg0.N) :
    (dat0 V c).flushed 11 t = ((cfg0.win 11).blk t).view.read (Elt Ideal) (G0w V c) := by
  obtain ⟨e0, e1⟩ := (idx_facts0 t).1.2.2.2
  show (cfg0.win 11).cut (grid0.coords t) ((dat0 V c).after 11 t) = _
  rw [after0_11]
  unfold out11_0
  rw [View.canon_unit_zero zeros0w]
  funext x
  rw [View.read_apply]
  show oval0 (inAt0 V c t) x = G0w V c (((cfg0.win 11).blk t).view.emb x)
  have hk0 : ((((cfg0.win 11).blk t).view.emb x) 0).val = 10000 * t.val + (x 0).val := by
    show win0_11.index t 0 * 10000 + 1 * (x 0).val = _; rw [e0]; omega
  have hk1 : ((((cfg0.win 11).blk t).view.emb x) 1).val = (x 1).val := by
    show win0_11.index t 1 * 32 + 1 * (x 1).val = _; rw [e1]; omega
  have hcol : (((cfg0.win 11).blk t).view.emb x) 1 = x 1 := Fin.ext hk1
  refine (congrArg (oval0 (inAt0 V c t)) (eq_ix2 x)).trans ?_
  refine (oblock0_apply V c t (x 0) (x 1) ((((cfg0.win 11).blk t).view.emb x) 0) hk0).trans ?_
  show gin0 V c _ (x 1) = gin0 V c _ ((((cfg0.win 11).blk t).view.emb x) 1)
  rw [hcol]

theorem cover0_11w (i : S250000x32.Idx) :
    ∃ t : Fin cfg0.N, (cfg0.win 11).flush t = true ∧ i ∈ ((cfg0.win 11).blk t).view.set := by
  have hi0 : (i 0).val < 250000 := (i 0).isLt
  have hi1 : (i 1).val < 32 := (i 1).isLt
  have hN : cfg0.N = 25 := N_0
  obtain ⟨t, ht⟩ : ∃ t : Fin cfg0.N, t.val = (i 0).val / 10000 := ⟨⟨(i 0).val / 10000, by rw [hN]; omega⟩, rfl⟩
  obtain ⟨e0, e1⟩ := (idx_facts0 t).1.2.2.2
  refine ⟨t, flush0_11 t, ?_⟩
  show i ∈ ((View.whole main_v28_0).slice (win0_11.rect t)).set
  rw [View.set_slice_whole, Rect.mem_set_unit]
  intro a
  match a with
  | ⟨0, _⟩ =>
    show win0_11.index t 0 * 10000 ≤ (i 0).val ∧ (i 0).val < win0_11.index t 0 * 10000 + 10000
    rw [e0, ht]; omega
  | ⟨1, _⟩ =>
    show win0_11.index t 1 * 32 ≤ (i 1).val ∧ (i 1).val < win0_11.index t 1 * 32 + 32
    rw [e1]; omega

theorem value0_o (c : Dev nD) : Spec.mat (n := 250000) (k := 32) ((dat0 V c).arrAt 11 cfg0.N) = gin0 V c := by
  rw [(dat0 V c).arrAt_eq_of_cover 11 (G0w V c) (fun t _ => flushed0_11w V c t) cover0_11w]; rfl

end Cert.KernelIdeal.Hand

end
-- ==== Proof.SpecSums.lean ====
import proofs.«427087_j34256659153343_2_alg».proof.Proof.Spec

import Mathlib.Algebra.BigOperators.Fin

import Mathlib.Data.Fintype.BigOperators

import Mathlib.Logic.Equiv.Fin.Basic

noncomputable section

open scoped BigOperators

namespace Cert.Spec

def rowOf25 (t : Fin 25) (r : Fin 10000) : Fin 250000 :=
  ⟨10000 * t.val + r.val, by have := t.isLt; have := r.isLt; omega⟩

def rowOf125 (t : Fin 125) (r : Fin 2000) : Fin 250000 :=
  ⟨2000 * t.val + r.val, by have := t.isLt; have := r.isLt; omega⟩

section Blocks

variable {M : Type*} [AddCommMonoid M]

theorem sum_blocks_gen (B R : ℕ) (f : Fin (B * R) → M) :
    ∑ i, f i = ∑ t : Fin B, ∑ r : Fin R, f (finProdFinEquiv (t, r)) := by
  rw [← Equiv.sum_comp finProdFinEquiv f, Fintype.sum_prod_type]

theorem sum_blocks25 (f : Fin 250000 → M) : ∑ i, f i = ∑ t : Fin 25, ∑ r : Fin 10000, f (rowOf25 t r) := by
  have e : ∀ (t : Fin 25) (r : Fin 10000), rowOf25 t r = (finProdFinEquiv (t, r) : Fin (25 * 10000)) :=
    fun t r => Fin.ext (Nat.add_comm _ _)
  simp only [e]
  exact sum_blocks_gen 25 10000 f

theorem sum_blocks125 (f : Fin 250000 → M) : ∑ i, f i = ∑ t : Fin 125, ∑ r : Fin 2000, f (rowOf125 t r) := by
  have e : ∀ (t : Fin 125) (r : Fin 2000), rowOf125 t r = (finProdFinEquiv (t, r) : Fin (125 * 2000)) :=
    fun t r => Fin.ext (Nat.add_comm _ _)
  simp only [e]
  exact sum_blocks_gen 125 2000 f

theorem sum_filter_blocks125 (p : Fin 250000 → Prop) [DecidablePred p] (f : Fin 250000 → M) :
    ∑ i ∈ Finset.univ.filter p, f i
      = ∑ t : Fin 125, ∑ r ∈ Finset.univ.filter (fun r : Fin 2000 => p (rowOf125 t r)), f (rowOf125 t r) := by
  rw [Finset.sum_filter, sum_blocks125]
  refine Finset.sum_congr rfl fun t _ => ?_
  rw [Finset.sum_filter]

theorem acc_eq_sum_range {B : ℕ} (acc b : ℕ → M) (h0 : acc 0 = b 0)
    (hs : ∀ t, t + 1 < B → acc (t + 1) = acc t + b (t + 1)) :
    ∀ t, t < B → acc t = ∑ s ∈ Finset.range (t + 1), b s := by
  intro t
  induction t with
  | zero => intro _; rw [h0, Finset.sum_range_one]
  | succ t ih =>
    intro ht
    rw [hs t ht, ih (by omega), Finset.sum_range_succ _ (t + 1)]

theorem acc_last {B : ℕ} (hB : 0 < B) (acc b : ℕ → M) (h0 : acc 0 = b 0)
    (hs : ∀ t, t + 1 < B → acc (t + 1) = acc t + b (t + 1)) : acc (B - 1) = ∑ t : Fin B, b t.val := by
  rw [acc_eq_sum_range acc b h0 hs (B - 1) (by omega), Nat.sub_add_cancel hB, Finset.sum_range]

theorem acc_last_z {B : ℕ} (hB : 0 < B) (acc b : ℕ → M) (z : M) (hz : z = 0) (h0 : acc 0 = z + b 0)
    (hs : ∀ t, t + 1 < B → acc (t + 1) = acc t + b (t + 1)) : acc (B - 1) = ∑ t : Fin B, b t.val :=
  acc_last hB acc b (by rw [h0, hz, zero_add]) hs

theorem acc_last_apply_z {ι : Type*} {B : ℕ} (hB : 0 < B) (acc b : ℕ → ι → M) (z : ι → M) (hz : ∀ i, z i = 0)
    (h0 : ∀ i, acc 0 i = z i + b 0 i) (hs : ∀ t, t + 1 < B → ∀ i, acc (t + 1) i = acc t i + b (t + 1) i) (i : ι) :
    acc (B - 1) i = ∑ t : Fin B, b t.val i :=
  acc_last_z hB (fun t => acc t i) (fun t => b t i) (z i) (hz i) (h0 i) (fun t ht => hs t ht i)

end Blocks

section OneHot

variable {ι : Type*} [Fintype ι]

theorem onehot_sum (p : ι → Prop) [DecidablePred p] (h : ι → EReal) :
    ∑ n, (if p n then (1 : EReal) else 0) * h n = ∑ n ∈ Finset.univ.filter p, h n := by
  rw [Finset.sum_filter]
  refine Finset.sum_congr rfl fun n _ => ?_
  split_ifs
  · rw [one_mul]
  · rw [zero_mul]

theorem onehot_count (p : ι → Prop) [DecidablePred p] :
    ∑ n, (if p n then (1 : EReal) else 0) * 1 = ∑ _n ∈ Finset.univ.filter p, (1 : EReal) :=
  onehot_sum p fun _ => 1

end OneHot

theorem colsum_blocks25 (o : Mat 250000 32) (j : Fin 32) :
    colsum o j = ∑ t : Fin 25, ∑ r : Fin 10000, o (rowOf25 t r) j :=
  sum_blocks25 fun i => o i j

theorem colsumsq_blocks25 (o : Mat 250000 32) (j : Fin 32) :
    colsumsq o j = ∑ t : Fin 25, ∑ r : Fin 10000, o (rowOf25 t r) j * o (rowOf25 t r) j :=
  sum_blocks25 fun i => o i j * o i j

theorem segsum_blocks125 (h : Mat 250000 32) (batch : Fin 250000 → BitVec 32) (g : Fin 512) (j : Fin 32) :
    segsum h batch g j
      = ∑ t : Fin 125, ∑ r ∈ Finset.univ.filter (fun r : Fin 2000 => batch (rowOf125 t r) = BitVec.ofNat 32 g.val),
          h (rowOf125 t r) j :=
  sum_filter_blocks125 (fun i => batch i = BitVec.ofNat 32 g.val) fun i => h i j

theorem segcnt_blocks125 (batch : Fin 250000 → BitVec 32) (g : Fin 512) :
    segcnt batch g
      = ∑ t : Fin 125, ∑ _r ∈ Finset.univ.filter (fun r : Fin 2000 => batch (rowOf125 t r) = BitVec.ofNat 32 g.val),
          (1 : EReal) :=
  sum_filter_blocks125 (fun i => batch i = BitVec.ofNat 32 g.val) fun _ => (1 : EReal)

end Cert.Spec

end
-- ==== Proof.KI.R0ValueS.lean ====
import proofs.«427087_j34256659153343_2_alg».proof.Proof.KI.R0

import proofs.«427087_j34256659153343_2_alg».proof.Proof.SpecArr

import proofs.«427087_j34256659153343_2_alg».proof.Proof.SpecSums

import Idealize.ShloMosaic.Lib.ValueIdx

import Idealize.ShloMosaic.Lib.IdealHost

import Idealize.ShloMosaic.Lib.Pipeline.Value

import Idealize.ShloMosaic.Lib.ValueLayout

import Idealize.ShloMosaic.PureOps.Ideal.Laws

set_option maxRecDepth 16384

noncomputable section

open scoped BigOperators

namespace Cert.KernelIdeal.Hand

open Cert.KernelIdeal Cert.KernelIdeal.Gen

open Idealize.ShloMosaic Idealize.ShloMosaic.TcCoe Idealize.SL.Sem

open Idealize.ShloMosaic.Pipeline (Dat)

open Idealize.ShloMosaic.ValueIdx

variable (V : (c : Dev nD) → (b : Ref sig .tc) → Buf (Elt Ideal) ((c : Thread nD τ).loc b))

namespace R0S

theorem zeros0S : (![0, 0] : Fin 2 → Nat) = fun _ => 0 := funext fun a => by fin_cases a <;> rfl

theorem sstep0_eq (X : Ins0 Ideal) (a : Vec Ideal S1x32 .f32) : sstep0 X a = sval0 X a := by
  unfold sstep0
  rw [View.canon_unit_zero zeros0S, View.ld_unit_zero zeros0S]

theorem qstep0_eq (X : Ins0 Ideal) (a : Vec Ideal S1x32 .f32) : qstep0 X a = qval0 X a := by
  unfold qstep0
  rw [View.canon_unit_zero zeros0S, View.ld_unit_zero zeros0S]

theorem sfirst0_eq (X : Ins0 Ideal) : sfirst0 X = sval0 X (k0_pay1 (F := Ideal)) := by
  unfold sfirst0
  rw [View.canon_cons_unit_zero zeros0S, View.readCov_unit_zero _ zeros0S]

theorem qfirst0_eq (X : Ins0 Ideal) : qfirst0 X = qval0 X (k0_pay2 (F := Ideal)) := by
  unfold qfirst0
  rw [View.canon_cons_unit_zero zeros0S, View.readCov_unit_zero _ zeros0S]

theorem sout0_eq (X : Ins0 Ideal) (a : Vec Ideal S1x32 .f32) : sout0 X a = sval0 X a := by
  unfold sout0
  rw [View.canon_unit_zero zeros0S, View.readCov_unit_zero _ zeros0S, View.ld_unit_zero zeros0S]

theorem qout0_eq (X : Ins0 Ideal) (a : Vec Ideal S1x32 .f32) : qout0 X a = qval0 X a := by
  unfold qout0
  rw [View.canon_unit_zero zeros0S, View.readCov_unit_zero _ zeros0S, View.ld_unit_zero zeros0S]

theorem pay1_zero (j : Fin 32) : (k0_pay1 (F := Ideal) : S1x32.Idx → EReal) (ix2 (0 : Fin 1) j) = 0 := by
  unfold k0_pay1
  simp only [shapeCast_self]
  exact Ideal.ofBits_zero_f32

theorem pay2_zero (j : Fin 32) : (k0_pay2 (F := Ideal) : S1x32.Idx → EReal) (ix2 (0 : Fin 1) j) = 0 := by
  unfold k0_pay2
  simp only [shapeCast_self]
  exact Ideal.ofBits_zero_f32

theorem colacc_apply (src : FVec Ideal S10000x32 .f32) (a : Vec Ideal S1x32 .f32) (j : Fin 32) :
    (addf a (shapeCast S1x32 (multiReduction .add [0] S32 src 0x00000000#32 reduces_S10000x32_S32 (.inl rfl) rfl) shapeCasts_S32_S1x32)
        : S1x32.Idx → EReal) (ix2 (0 : Fin 1) j)
      = (a : S1x32.Idx → EReal) (ix2 (0 : Fin 1) j) + ∑ r : Fin 10000, (src : S10000x32.Idx → EReal) (ix2 r j) := by
  rw [addf_apply]
  refine congrArg (_ + ·) ?_
  refine (shapeCast_a_1a_apply _ _ 0 j).trans ?_
  refine (Ideal.multiReduction_add_single _ 0x00000000#32 reduces_S10000x32_S32 (.inl rfl) rfl (ix1 j)).trans ?_
  exact Finset.sum_congr rfl fun r _ => congrArg src
    (funext fun b => Fin.ext (by match b with | ⟨0, _⟩ => rfl | ⟨1, _⟩ => rfl))

theorem sval0_apply (X : Ins0 Ideal) (a : Vec Ideal S1x32 .f32) (j : Fin 32) :
    (sval0 X a : S1x32.Idx → EReal) (ix2 (0 : Fin 1) j)
      = (a : S1x32.Idx → EReal) (ix2 (0 : Fin 1) j) + ∑ r : Fin 10000, (oval0 X : S10000x32.Idx → EReal) (ix2 r j) := by
  unfold sval0 k0_pay9; simp only [shapeCast_self]; exact colacc_apply _ a j

theorem qval0_apply (X : Ins0 Ideal) (a : Vec Ideal S1x32 .f32) (j : Fin 32) :
    (qval0 X a : S1x32.Idx → EReal) (ix2 (0 : Fin 1) j)
      = (a : S1x32.Idx → EReal) (ix2 (0 : Fin 1) j)
        + ∑ r : Fin 10000, (oval0 X : S10000x32.Idx → EReal) (ix2 r j) * (oval0 X : S10000x32.Idx → EReal) (ix2 r j) := by
  unfold qval0 k0_pay10; simp only [shapeCast_self]; exact colacc_apply _ a j

abbrev tLast0 : Fin cfg0.N := ⟨24, by have h : cfg0.N = 25 := N_0; omega⟩

theorem off0_12 : (fun a => win0_12.index tLast0 a * main_v28_1.ty.shape.size a) = fun _ => 0 :=
  funext fun a => by fin_cases a <;> decide +kernel

theorem off0_13 : (fun a => win0_13.index tLast0 a * main_v28_2.ty.shape.size a) = fun _ => 0 :=
  funext fun a => by fin_cases a <;> decide +kernel

theorem flushed0_12_eq (c : Dev nD) (t : Fin cfg0.N) (hf : (cfg0.win 12).flush t = true) :
    (dat0 V c).flushed 12 t
      = ((cfg0.win 12).blk t).view.read (Elt Ideal) (outS0 V c tLast0 : Buf (Elt Ideal) ((c : Thread nD τ).loc main_v28_1)) := by
  have hN : cfg0.N = 25 := N_0
  have h1 : t.val = 24 := by have := (flush0_12 t).mp hf; have := t.isLt; omega
  obtain rfl : t = tLast0 := Fin.ext h1
  show (cfg0.win 12).cut (grid0.coords tLast0) ((dat0 V c).after 12 tLast0) = _
  rw [after0_12]
  exact (Memref.read_access_unit_zero (Elt Ideal) main_v28_1 off0_12 (fun a => by rw [congrFun off0_12 a]; simp) (outS0 V c tLast0)).symm

theorem flushed0_13_eq (c : Dev nD) (t : Fin cfg0.N) (hf : (cfg0.win 13).flush t = true) :
    (dat0 V c).flushed 13 t
      = ((cfg0.win 13).blk t).view.read (Elt Ideal) (outQ0 V c tLast0 : Buf (Elt Ideal) ((c : Thread nD τ).loc main_v28_2)) := by
  have hN : cfg0.N = 25 := N_0
  have h1 : t.val = 24 := by have := (flush0_13 t).mp hf; have := t.isLt; omega
  obtain rfl : t = tLast0 := Fin.ext h1
  show (cfg0.win 13).cut (grid0.coords tLast0) ((dat0 V c).after 13 tLast0) = _
  rw [after0_13]
  exact (Memref.read_access_unit_zero (Elt Ideal) main_v28_2 off0_13 (fun a => by rw [congrFun off0_13 a]; simp) (outQ0 V c tLast0)).symm

theorem final0_12 (c : Dev nD) :
    (dat0 V c).arrAt 12 cfg0.N = (outS0 V c tLast0 : Buf (Elt Ideal) ((c : Thread nD τ).loc main_v28_1)) :=
  (dat0 V c).arrAt_eq_of_cover 12 (outS0 V c tLast0) (flushed0_12_eq V c) fun i =>
    ⟨tLast0, (flush0_12 tLast0).mpr rfl, by
      show i ∈ ((View.whole main_v28_1).slice (win0_12.rect tLast0)).set
      rw [View.set_slice_whole]; exact View.mem_set_unit_zero off0_12 _ i⟩

theorem final0_13 (c : Dev nD) :
    (dat0 V c).arrAt 13 cfg0.N = (outQ0 V c tLast0 : Buf (Elt Ideal) ((c : Thread nD τ).loc main_v28_2)) :=
  (dat0 V c).arrAt_eq_of_cover 13 (outQ0 V c tLast0) (flushed0_13_eq V c) fun i =>
    ⟨tLast0, (flush0_13 tLast0).mpr rfl, by
      show i ∈ ((View.whole main_v28_2).slice (win0_13.rect tLast0)).set
      rw [View.set_slice_whole]; exact View.mem_set_unit_zero off0_13 _ i⟩

theorem outS0_last (c : Dev nD) : outS0 V c tLast0 = accS0 V c 24 tLast0.isLt := by
  unfold outS0
  rw [dif_neg (show ¬ (tLast0 : Fin cfg0.N).val = 0 from by decide), sout0_eq, ← sstep0_eq]
  rfl

theorem outQ0_last (c : Dev nD) : outQ0 V c tLast0 = accQ0 V c 24 tLast0.isLt := by
  unfold outQ0
  rw [dif_neg (show ¬ (tLast0 : Fin cfg0.N).val = 0 from by decide), qout0_eq, ← qstep0_eq]
  rfl

section Totals

variable (c : Dev nD) (G : Spec.Mat 250000 32)
  (ho : ∀ (t : Fin cfg0.N) (r : Fin 10000) (j : Fin 32) (i : Fin 250000), i.val = 10000 * t.val + r.val →
    (oval0 (inAt0 V c t) : S10000x32.Idx → EReal) (ix2 r j) = G i j)

include ho

theorem accS0_apply (j : Fin 32) : ∀ (k : ℕ) (hk : k < cfg0.N),
    (accS0 V c k hk : S1x32.Idx → EReal) (ix2 (0 : Fin 1) j)
      = ∑ s ∈ Finset.range (k + 1), (if h : s < 25 then ∑ r : Fin 10000, G (Spec.rowOf25 ⟨s, h⟩ r) j else 0)
  | 0, hk => by
    show (sfirst0 (inAt0 V c ⟨0, hk⟩) : S1x32.Idx → EReal) (ix2 (0 : Fin 1) j) = _
    rw [sfirst0_eq, sval0_apply, pay1_zero, zero_add, Finset.sum_range_one, dif_pos (by omega)]
    exact Finset.sum_congr rfl fun r _ => ho ⟨0, hk⟩ r j _ rfl
  | k + 1, hk => by
    have hN : cfg0.N = 25 := N_0
    show (sstep0 (inAt0 V c ⟨k + 1, hk⟩) (accS0 V c k (Nat.lt_of_succ_lt hk)) : S1x32.Idx → EReal) (ix2 (0 : Fin 1) j) = _
    rw [sstep0_eq, sval0_apply, accS0_apply j k (Nat.lt_of_succ_lt hk), Finset.sum_range_succ _ (k + 1), dif_pos (by omega)]
    exact congrArg (_ + ·) (Finset.sum_congr rfl fun r _ => ho ⟨k + 1, hk⟩ r j _ rfl)

theorem accQ0_apply (j : Fin 32) : ∀ (k : ℕ) (hk : k < cfg0.N),
    (accQ0 V c k hk : S1x32.Idx → EReal) (ix2 (0 : Fin 1) j)
      = ∑ s ∈ Finset.range (k + 1),
          (if h : s < 25 then ∑ r : Fin 10000, G (Spec.rowOf25 ⟨s, h⟩ r) j * G (Spec.rowOf25 ⟨s, h⟩ r) j else 0)
  | 0, hk => by
    show (qfirst0 (inAt0 V c ⟨0, hk⟩) : S1x32.Idx → EReal) (ix2 (0 : Fin 1) j) = _
    rw [qfirst0_eq, qval0_apply, pay2_zero, zero_add, Finset.sum_range_one, dif_pos (by omega)]
    exact Finset.sum_congr rfl fun r _ => by rw [ho ⟨0, hk⟩ r j (Spec.rowOf25 ⟨0, by omega⟩ r) rfl]
  | k + 1, hk => by
    have hN : cfg0.N = 25 := N_0
    show (qstep0 (inAt0 V c ⟨k + 1, hk⟩) (accQ0 V c k (Nat.lt_of_succ_lt hk)) : S1x32.Idx → EReal) (ix2 (0 : Fin 1) j) = _
    rw [qstep0_eq, qval0_apply, accQ0_apply j k (Nat.lt_of_succ_lt hk), Finset.sum_range_succ _ (k + 1), dif_pos (by omega)]
    exact congrArg (_ + ·) (Finset.sum_congr rfl fun r _ => by rw [ho ⟨k + 1, hk⟩ r j (Spec.rowOf25 ⟨k + 1, by omega⟩ r) rfl])

theorem _root_.Cert.KernelIdeal.Hand.value0_sum_of : Spec.row0 (k := 32) ((dat0 V c).arrAt 12 cfg0.N) = Spec.colsum G := by
  funext j
  have e : (accS0 V c 24 tLast0.isLt : S1x32.Idx → EReal) (ix2 (0 : Fin 1) j) = Spec.colsum G j := by
    rw [accS0_apply V c G ho j 24 tLast0.isLt, Spec.colsum_blocks25, Finset.sum_range]
    exact Finset.sum_congr rfl fun t _ => dif_pos t.isLt
  exact (congrFun ((final0_12 V c).trans (outS0_last V c)) (ix2 (0 : Fin 1) j)).trans e

theorem _root_.Cert.KernelIdeal.Hand.value0_sumsq_of : Spec.row0 (k := 32) ((dat0 V c).arrAt 13 cfg0.N) = Spec.colsumsq G := by
  funext j
  have e : (accQ0 V c 24 tLast0.isLt : S1x32.Idx → EReal) (ix2 (0 : Fin 1) j) = Spec.colsumsq G j := by
    rw [accQ0_apply V c G ho j 24 tLast0.isLt, Spec.colsumsq_blocks25, Finset.sum_range]
    exact Finset.sum_congr rfl fun t _ => dif_pos t.isLt
  exact (congrFun ((final0_13 V c).trans (outQ0_last V c)) (ix2 (0 : Fin 1) j)).trans e

end Totals

end R0S

end Cert.KernelIdeal.Hand

end
-- ==== Proof.KI.R1Value.lean ====
import proofs.«427087_j34256659153343_2_alg».proof.Proof.KI.R1

import proofs.«427087_j34256659153343_2_alg».proof.Proof.Spec

import Idealize.ShloMosaic.Lib.ValueIdx

import Idealize.ShloMosaic.Lib.Pipeline.Value

import Idealize.ShloMosaic.Lib.ValueLayout

import Idealize.ShloMosaic.PureOps.Ideal.Laws

set_option maxRecDepth 16384

noncomputable section

namespace Cert.KernelIdeal.Hand

open Cert.KernelIdeal Cert.KernelIdeal.Gen

open Idealize.ShloMosaic Idealize.ShloMosaic.TcCoe Idealize.SL.Sem

open Idealize.ShloMosaic.Pipeline (Dat)

open Idealize.ShloMosaic.ValueIdx

variable (V : (c : Dev nD) → (b : Ref sig .tc) → Buf (Elt Ideal) ((c : Thread nD τ).loc b))

theorem zeros1 : (![0, 0] : Fin 2 → Nat) = fun _ => 0 := funext fun a => by fin_cases a <;> rfl

theorem bcast_row1 (r : S1x32.Idx → EReal) (x : S10000x32.Idx) :
    broadcastTo S10000x32 r broadcasts_S1x32_S10000x32 x = r (ix2 0 (x 1)) :=
  broadcastTo_apply r _ x (ix2 0 (x 1)) fun a => by
    match a with
    | ⟨0, _⟩ => rfl
    | ⟨1, _⟩ => rfl

theorem pay1_apply (var : Vec Ideal S1x32 .f32) (o : Vec Ideal S10000x32 .f32) (mean g b : Vec Ideal S1x32 .f32)
    (x : S10000x32.Idx) :
    k1_pay1 var o mean g b x
      = (o x - mean (ix2 0 (x 1))) * Ideal.rsqrt (var (ix2 0 (x 1)) + Spec.eps) * g (ix2 0 (x 1)) + b (ix2 0 (x 1)) := by
  unfold k1_pay1
  simp only [shapeCast_self]
  rw [addf_apply, mulf_apply, mulf_apply, subf_apply, bcast_row1, bcast_row1, bcast_row1, bcast_row1]
  rfl

theorem idx_facts1 : ∀ t : Fin cfg1.N,
    (win1_0.index t (0 : Fin 2) = t.val ∧ win1_0.index t (1 : Fin 2) = 0
      ∧ win1_5.index t (0 : Fin 2) = t.val ∧ win1_5.index t (1 : Fin 2) = 0)
    ∧ ∀ a : Fin 2, win1_1.index t a = 0 ∧ win1_2.index t a = 0 ∧ win1_3.index t a = 0 ∧ win1_4.index t a = 0 :=
  (by decide +kernel : ∀ t : Fin grid1.N, _)

theorem blk1_0_apply (c : Dev nD) (t : Fin cfg1.N) (x : S10000x32.Idx) :
    (blk1 V c 0 t : Vec Ideal S10000x32 .f32) x
      = (V c main_v28_0 : S250000x32.Idx → EReal) (((cfg1.win 5).blk t).view.emb x) := by
  obtain ⟨e0, e1, e2, e3⟩ := (idx_facts1 t).1
  unfold blk1; rw [View.read_apply]
  refine congrArg (V c main_v28_0 : S250000x32.Idx → EReal) (funext fun a => Fin.ext ?_)
  match a with
  | ⟨0, _⟩ => show win1_0.index t 0 * 10000 + 1 * (x 0).val = win1_5.index t 0 * 10000 + 1 * (x 0).val; rw [e0, e2]
  | ⟨1, _⟩ => show win1_0.index t 1 * 32 + 1 * (x 1).val = win1_5.index t 1 * 32 + 1 * (x 1).val; rw [e1, e3]

theorem blk1_rows (c : Dev nD) (t : Fin cfg1.N) (y : S1x32.Idx) :
    (blk1 V c 1 t : Vec Ideal S1x32 .f32) y = (V c main_v30 : S1x32.Idx → EReal) y
      ∧ (blk1 V c 2 t : Vec Ideal S1x32 .f32) y = (V c main_v34 : S1x32.Idx → EReal) y
      ∧ (blk1 V c 3 t : Vec Ideal S1x32 .f32) y = (V c main_v35 : S1x32.Idx → EReal) y
      ∧ (blk1 V c 4 t : Vec Ideal S1x32 .f32) y = (V c main_v36 : S1x32.Idx → EReal) y := by
  have hz := (idx_facts1 t).2
  unfold blk1; rw [View.read_apply, View.read_apply, View.read_apply, View.read_apply]
  exact ⟨congrArg (V c main_v30 : S1x32.Idx → EReal) (funext fun a => Fin.ext (Pipeline.Window.rect_emb_val_of_index_zero win1_1 t a (hz a).1 y)),
    congrArg (V c main_v34 : S1x32.Idx → EReal) (funext fun a => Fin.ext (Pipeline.Window.rect_emb_val_of_index_zero win1_2 t a (hz a).2.1 y)),
    congrArg (V c main_v35 : S1x32.Idx → EReal) (funext fun a => Fin.ext (Pipeline.Window.rect_emb_val_of_index_zero win1_3 t a (hz a).2.2.1 y)),
    congrArg (V c main_v36 : S1x32.Idx → EReal) (funext fun a => Fin.ext (Pipeline.Window.rect_emb_val_of_index_zero win1_4 t a (hz a).2.2.2 y))⟩

def norm1 (o : S250000x32.Idx → EReal) (mean var g b : S1x32.Idx → EReal) : S250000x32.Idx → EReal := fun i =>
  (o i - mean (ix2 0 (i 1))) * Ideal.rsqrt (var (ix2 0 (i 1)) + Spec.eps) * g (ix2 0 (i 1)) + b (ix2 0 (i 1))

def G1 (c : Dev nD) : S250000x32.Idx → EReal :=
  norm1 (V c main_v28_0) (V c main_v30) (V c main_v34) (V c main_v35) (V c main_v36)

theorem flushed1_5 (c : Dev nD) (t : Fin cfg1.N) :
    (dat1 V c).flushed 5 t = ((cfg1.win 5).blk t).view.read (Elt Ideal) (G1 V c) := by
  obtain ⟨-, -, -, e3⟩ := (idx_facts1 t).1
  show (cfg1.win 5).cut (grid1.coords t) ((dat1 V c).after 5 t) = _
  rw [after1_5]
  unfold res1
  rw [View.canon_unit_zero zeros1]
  simp only [View.ld_unit_zero (S := S10000x32) zeros1, View.ld_unit_zero (S := S1x32) zeros1]
  funext x
  rw [View.read_apply]
  show k1_pay1 (blk1 V c 2 t) (blk1 V c 0 t) (blk1 V c 1 t) (blk1 V c 3 t) (blk1 V c 4 t) x
    = G1 V c (((cfg1.win 5).blk t).view.emb x)
  have hcol : (((cfg1.win 5).blk t).view.emb x) 1 = x 1 :=
    Fin.ext (Pipeline.Window.rect_emb_val_of_index_zero win1_5 t 1 e3 x)
  obtain ⟨r1, r2, r3, r4⟩ := blk1_rows V c t (ix2 0 (x 1))
  rw [pay1_apply, r1, r2, r3, r4, blk1_0_apply]
  unfold G1 norm1
  rw [hcol]

theorem cover1_5 (i : S250000x32.Idx) :
    ∃ t : Fin cfg1.N, (cfg1.win 5).flush t = true ∧ i ∈ ((cfg1.win 5).blk t).view.set := by
  have hi0 : (i 0).val < 250000 := (i 0).isLt
  have hi1 : (i 1).val < 32 := (i 1).isLt
  have hN : cfg1.N = 25 := N_1
  obtain ⟨t, ht⟩ : ∃ t : Fin cfg1.N, t.val = (i 0).val / 10000 := ⟨⟨(i 0).val / 10000, by rw [hN]; omega⟩, rfl⟩
  obtain ⟨-, -, e2, e3⟩ := (idx_facts1 t).1
  refine ⟨t, flush1_5 t, ?_⟩
  show i ∈ ((View.whole main_v37).slice (win1_5.rect t)).set
  rw [View.set_slice_whole, Rect.mem_set_unit]
  intro a
  match a with
  | ⟨0, _⟩ =>
    show win1_5.index t 0 * 10000 ≤ (i 0).val ∧ (i 0).val < win1_5.index t 0 * 10000 + 10000
    rw [e2, ht]; omega
  | ⟨1, _⟩ =>
    show win1_5.index t 1 * 32 ≤ (i 1).val ∧ (i 1).val < win1_5.index t 1 * 32 + 32
    rw [e3]; omega

theorem value1 (c : Dev nD) :
    Spec.mat (n := 250000) (k := 32) ((dat1 V c).arrAt 5 cfg1.N)
      = fun i j => (Spec.mat (n := 250000) (k := 32) (V c main_v28_0) i j - Spec.mat (n := 1) (k := 32) (V c main_v30) 0 j)
          * Ideal.rsqrt (Spec.mat (n := 1) (k := 32) (V c main_v34) 0 j + Spec.eps)
          * Spec.mat (n := 1) (k := 32) (V c main_v35) 0 j + Spec.mat (n := 1) (k := 32) (V c main_v36) 0 j := by
  rw [(dat1 V c).arrAt_eq_of_cover 5 (G1 V c) (fun t _ => flushed1_5 V c t) cover1_5]; rfl

end Cert.KernelIdeal.Hand

end
-- ==== Proof.KI.R2Pay.lean ====
import proofs.«427087_j34256659153343_2_alg».proof.Proof.Gen.KernelIdeal.Skeleton

import proofs.«427087_j34256659153343_2_alg».proof.Proof.Spec

import proofs.«427087_j34256659153343_2_alg».proof.Proof.SpecArr

import Idealize.ShloMosaic.Lib.ValueIdx

import Idealize.ShloMosaic.Lib.Pipeline.Value

import Idealize.ShloMosaic.Lib.ValueLayout

import Idealize.ShloMosaic.PureOps.Ideal.Laws

set_option maxRecDepth 16384

noncomputable section

open scoped BigOperators

namespace Cert.KernelIdeal.Hand

open Cert.KernelIdeal Cert.KernelIdeal.Gen

open Idealize.ShloMosaic Idealize.ShloMosaic.ValueIdx

theorem lhs2_0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide),
    dif_pos (show (0 : Fin S10000x32.rank) ∈ dot_S10000x32_S32x32_S10000x32_1_0_0_1_n_n.lhsNonContracting by decide)]
  rfl

theorem rhs2_1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide),
    dif_pos (show (1 : Fin S32x32.rank) ∈ dot_S10000x32_S32x32_S10000x32_1_0_0_1_n_n.rhsNonContracting by decide)]
  rfl

theorem matmul2_apply (A : FVec Ideal S10000x32 .bf16) (B : FVec Ideal S32x32 .bf16) (p : Fin 10000) (j : Fin 32) :
    matmul dot_S10000x32_S32x32_S10000x32_1_0_0_1_n_n none A B (constant (F := Ideal) S10000x32 .f32 0x00000000#32) (ix2 p j)
      = ∑ k : Fin 32, A (ix2 p k) * B (ix2 k j) := by
  simp only [matmul]
  rw [Ideal.matmul_constant_zero_apply, ← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 p j) ((contrEquiv1 dot_S10000x32_S32x32_S10000x32_1_0_0_1_n_n 32 rfl rfl).symm k) = ix2 p k :=
    funext fun a => Fin.ext (by
      match a with
      | ⟨0, _⟩ => exact lhs2_0 _ _
      | ⟨1, _⟩ => exact (dot_S10000x32_S32x32_S10000x32_1_0_0_1_n_n.lhsIdx_val_of_single rfl _ _).trans hk)
  have er : dot_S10000x32_S32x32_S10000x32_1_0_0_1_n_n.rhsIdx (ix2 p j) ((contrEquiv1 dot_S10000x32_S32x32_S10000x32_1_0_0_1_n_n 32 rfl rfl).symm k) = ix2 k j :=
    funext fun a => Fin.ext (by
      match a with
      | ⟨0, _⟩ => exact (dot_S10000x32_S32x32_S10000x32_1_0_0_1_n_n.rhsIdx_val_of_single rfl _ _).trans hk
      | ⟨1, _⟩ => exact rhs2_1 _ _)
  rw [el, er]

theorem zero2 : (Scalar.ofBits .f32 0x00000000#32 : Ideal .f32) = (0 : EReal) := Ideal.ofBits_zero_f32

theorem pay7_apply2 (x a : Vec Ideal S10000x32 .f32) (w1 w2 : Vec Ideal S32x32 .f32) (b1 b2 : Vec Ideal S1x32 .f32)
    (p : Fin 10000) (j : Fin 32) :
    k2_pay7 x a w1 w2 b1 b2 (ix2 p j)
      = Spec.mlp (fun d => x (ix2 p d) + a (ix2 p d)) (Spec.mat (n := 32) (k := 32) w1) (Spec.row0 (k := 32) b1)
          (Spec.mat (n := 32) (k := 32) w2) (Spec.row0 (k := 32) b2) j := by
  unfold k2_pay7 k2_pay3
  simp only [shapeCast_self]
  rw [addf_apply, matmul2_apply, broadcastTo_1b_ab_apply]
  unfold Spec.mlp Spec.relu Spec.mat Spec.row0
  congr 1
  refine Finset.sum_congr rfl fun k _ => ?_
  rw [truncf_apply, truncf_apply, maximumf_apply, addf_apply, matmul2_apply, broadcastTo_1b_ab_apply, broadcast_apply, zero2]
  rfl

theorem pay8_eq2 {F : FTy → Type} [FloatOps F] (x ab : Vec F S10000x32 .f32) (w1b : Vec F S32x32 .f32) (b1b : Vec F S1x32 .f32)
    (w2b : Vec F S32x32 .f32) (b2b : Vec F S1x32 .f32) (fwd : FVec F S10000x32 .f32) (c0 : F .f32) :
    k2_pay8 (k2_pay4 x ab) (k2_pay5 w1b) (k2_pay6 w2b) fwd c0 b1b b2b
      = mulf (broadcast S10000x32 (Scalar.ofBits .f32 0x3F000000#32))
          (addf (maximumf fwd (broadcast S10000x32 c0))
            (maximumf (k2_pay7 x ab w1b w2b b1b b2b) (broadcast S10000x32 (Scalar.ofBits .f32 0x00000000#32)))) := rfl

theorem pay8_apply2 (x af ab : Vec Ideal S10000x32 .f32) (w1f : Vec Ideal S32x32 .f32) (b1f : Vec Ideal S1x32 .f32)
    (w2f : Vec Ideal S32x32 .f32) (b2f : Vec Ideal S1x32 .f32) (w1b : Vec Ideal S32x32 .f32) (b1b : Vec Ideal S1x32 .f32)
    (w2b : Vec Ideal S32x32 .f32) (b2b : Vec Ideal S1x32 .f32) (p : Fin 10000) (j : Fin 32) :
    k2_pay8 (k2_pay4 x ab) (k2_pay5 w1b) (k2_pay6 w2b) (k2_pay7 x af w1f w2f b1f b2f)
        (Scalar.ofBits .f32 0x00000000#32) b1b b2b (ix2 p j)
      = Spec.ginRow ⟨Spec.mat (n := 32) (k := 32) w1f, Spec.row0 (k := 32) b1f, Spec.mat (n := 32) (k := 32) w2f,
            Spec.row0 (k := 32) b2f, Spec.mat (n := 32) (k := 32) w1b, Spec.row0 (k := 32) b1b,
            Spec.mat (n := 32) (k := 32) w2b, Spec.row0 (k := 32) b2b⟩
          (fun d => x (ix2 p d)) (fun d => af (ix2 p d)) (fun d => ab (ix2 p d)) j := by
  rw [pay8_eq2, mulf_apply, addf_apply, maximumf_apply, maximumf_apply, pay7_apply2, pay7_apply2]
  simp only [broadcast_apply]
  rw [zero2]
  rfl

end Cert.KernelIdeal.Hand

end
-- ==== Proof.KI.R2Value.lean ====
import proofs.«427087_j34256659153343_2_alg».proof.Proof.KI.R2

import proofs.«427087_j34256659153343_2_alg».proof.Proof.KI.R2Pay

import proofs.«427087_j34256659153343_2_alg».proof.Proof.Spec

import proofs.«427087_j34256659153343_2_alg».proof.Proof.SpecArr

import proofs.«427087_j34256659153343_2_alg».proof.Proof.SpecSums

import Idealize.ShloMosaic.Lib.ValueIdx

import Idealize.ShloMosaic.Lib.Pipeline.Value

import Idealize.ShloMosaic.Lib.ValueLayout

import Idealize.ShloMosaic.PureOps.Ideal.Laws

set_option maxRecDepth 16384

noncomputable section

namespace Cert.KernelIdeal.Hand

open Cert.KernelIdeal Cert.KernelIdeal.Gen

open Idealize.ShloMosaic Idealize.ShloMosaic.TcCoe Idealize.SL.Sem

open Idealize.ShloMosaic.Pipeline (Dat)

open Idealize.ShloMosaic.ValueIdx

variable (V : (c : Dev nD) → (b : Ref sig .tc) → Buf (Elt Ideal) ((c : Thread nD τ).loc b))

theorem zeros2 : (![0, 0] : Fin 2 → Nat) = fun _ => 0 := funext fun a => by fin_cases a <;> rfl

def P2 (c : Dev nD) : Spec.GinP 32 :=
  ⟨Spec.mat (n := 32) (k := 32) (V c main_arg13), Spec.row0 (k := 32) (V c main_v58),
   Spec.mat (n := 32) (k := 32) (V c main_arg15), Spec.row0 (k := 32) (V c main_v59),
   Spec.mat (n := 32) (k := 32) (V c main_arg17), Spec.row0 (k := 32) (V c main_v60),
   Spec.mat (n := 32) (k := 32) (V c main_arg19), Spec.row0 (k := 32) (V c main_v61)⟩

def o2 (c : Dev nD) : Spec.Mat 250000 32 :=
  Spec.gin (P2 V c) (Spec.mat (n := 250000) (k := 32) (V c main_v37)) (Spec.mat (n := 250000) (k := 32) (V c main_v47))
    (Spec.mat (n := 250000) (k := 32) (V c main_v57))

def G2 (c : Dev nD) : S250000x32.Idx → EReal := Spec.unmat (o2 V c)

theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_11.index t (0 : Fin 2) = t.val ∧ win2_11.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0) :=
  (by decide +kernel : ∀ t : Fin grid2.N, _)

private theorem emb_of_index {i s v k n : ℕ} (h : i = n) (hk : k = s * n + v) : i * s + 1 * v = k := by
  subst h hk; rw [Nat.mul_comm, Nat.one_mul]

private theorem emb_of_index_zero {i s v : ℕ} (h : i = 0) : i * s + 1 * v = v := by
  subst h; rw [Nat.zero_mul, Nat.one_mul, Nat.zero_add]

theorem iblk2_apply (c : Dev nD) (t : Fin cfg2.N) (y : S10000x32.Idx) (k : S250000x32.Idx)
    (hk0 : (k 0).val = 10000 * t.val + (y 0).val) (hk1 : (k 1).val = (y 1).val) :
    (iblk2 V c 0 t : Vec Ideal S10000x32 .f32) y = (V c main_v37 : S250000x32.Idx → EReal) k
    ∧ (iblk2 V c 1 t : Vec Ideal S10000x32 .f32) y = (V c main_v47 : S250000x32.Idx → EReal) k
    ∧ (iblk2 V c 2 t : Vec Ideal S10000x32 .f32) y = (V c main_v57 : S250000x32.Idx → EReal) k := by
  obtain ⟨⟨a0, b0⟩, ⟨a1, b1⟩, ⟨a2, b2⟩, -⟩ := idx_facts2 t
  refine ⟨?_, ?_, ?_⟩ <;>
  · unfold iblk2
    rw [View.read_apply]
    congr 1
    refine congrArg _ (funext fun a => Fin.ext ?_)
    match a with
    | ⟨0, _⟩ => exact emb_of_index (by assumption) hk0
    | ⟨1, _⟩ => exact (emb_of_index_zero (by assumption)).trans hk1.symm

theorem iblk2_w_eq (c : Dev nD) (t : Fin cfg2.N) :
    (iblk2 V c 3 t : Vec Ideal S32x32 .f32) = (V c main_arg13 : S32x32.Idx → EReal)
    ∧ (iblk2 V c 5 t : Vec Ideal S32x32 .f32) = (V c main_arg15 : S32x32.Idx → EReal)
    ∧ (iblk2 V c 7 t : Vec Ideal S32x32 .f32) = (V c main_arg17 : S32x32.Idx → EReal)
    ∧ (iblk2 V c 9 t : Vec Ideal S32x32 .f32) = (V c main_arg19 : S32x32.Idx → EReal) := by
  obtain ⟨-, -, -, -, ⟨a3, b3⟩, -, ⟨a5, b5⟩, -, ⟨a7, b7⟩, -, ⟨a9, b9⟩, -⟩ := idx_facts2 t
  refine ⟨?_, ?_, ?_, ?_⟩ <;>
  · funext y
    unfold iblk2
    rw [View.read_apply]
    congr 1
    refine congrArg _ (funext fun a => Fin.ext ?_)
    match a with
    | ⟨0, _⟩ => exact emb_of_index_zero (by assumption)
    | ⟨1, _⟩ => exact emb_of_index_zero (by assumption)

theorem iblk2_b_eq (c : Dev nD) (t : Fin cfg2.N) :
    (iblk2 V c 4 t : Vec Ideal S1x32 .f32) = (V c main_v58 : S1x32.Idx → EReal)
    ∧ (iblk2 V c 6 t : Vec Ideal S1x32 .f32) = (V c main_v59 : S1x32.Idx → EReal)
    ∧ (iblk2 V c 8 t : Vec Ideal S1x32 .f32) = (V c main_v60 : S1x32.Idx → EReal)
    ∧ (iblk2 V c 10 t : Vec Ideal S1x32 .f32) = (V c main_v61 : S1x32.Idx → EReal) := by
  obtain ⟨-, -, -, -, -, ⟨a4, b4⟩, -, ⟨a6, b6⟩, -, ⟨a8, b8⟩, -, ⟨a10, b10⟩⟩ := idx_facts2 t
  refine ⟨?_, ?_, ?_, ?_⟩ <;>
  · funext y
    unfold iblk2
    rw [View.read_apply]
    congr 1
    refine congrArg _ (funext fun a => Fin.ext ?_)
    match a with
    | ⟨0, _⟩ => exact emb_of_index_zero (by assumption)
    | ⟨1, _⟩ => exact emb_of_index_zero (by assumption)

theorem oBlock2_apply (c : Dev nD) (t : Fin cfg2.N) (r : Fin 10000) (j : Fin 32) :
    (oPay2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) : S10000x32.Idx → EReal) (ix2 r j)
      = o2 V c (Spec.rowOf25 (Fin.cast N_2 t) r) j := by
  simp only [oPay2, View.ld_unit_zero (S := S10000x32) zeros2, View.ld_unit_zero (S := S32x32) zeros2,
    View.ld_unit_zero (S := S1x32) zeros2]
  refine (pay8_apply2 _ _ _ _ _ _ _ _ _ _ _ r j).trans ?_
  obtain ⟨e3, e5, e7, e9⟩ := iblk2_w_eq V c t
  obtain ⟨e4, e6, e8, e10⟩ := iblk2_b_eq V c t
  rw [e3, e4, e5, e6, e7, e8, e9, e10]
  have hd := fun d => iblk2_apply V c t (ix2 r d) (ix2 (Spec.rowOf25 (Fin.cast N_2 t) r) d) rfl rfl
  have hx : (fun d : Fin 32 => (iblk2 V c 0 t : Vec Ideal S10000x32 .f32) (ix2 r d))
      = Spec.mat (n := 250000) (k := 32) (V c main_v37) (Spec.rowOf25 (Fin.cast N_2 t) r) :=
    funext fun d => (hd d).1
  have hf : (fun d : Fin 32 => (iblk2 V c 1 t : Vec Ideal S10000x32 .f32) (ix2 r d))
      = Spec.mat (n := 250000) (k := 32) (V c main_v47) (Spec.rowOf25 (Fin.cast N_2 t) r) :=
    funext fun d => (hd d).2.1
  have hb : (fun d : Fin 32 => (iblk2 V c 2 t : Vec Ideal S10000x32 .f32) (ix2 r d))
      = Spec.mat (n := 250000) (k := 32) (V c main_v57) (Spec.rowOf25 (Fin.cast N_2 t) r) :=
    funext fun d => (hd d).2.2
  rw [hx, hf, hb]
  rfl

theorem flushed2_11 (c : Dev nD) (t : Fin cfg2.N) :
    (dat2 V c).flushed 11 t = ((cfg2.win 11).blk t).view.read (Elt Ideal) (G2 V c) := by
  obtain ⟨e0, e1⟩ := (idx_facts2 t).2.2.2.1
  show (cfg2.win 11).cut (grid2.coords t) ((dat2 V c).after 11 t) = _
  rw [after2_11]
  unfold outAt2_11 out2_11
  rw [View.canon_unit_zero zeros2]
  funext y
  rw [View.read_apply]
  obtain ⟨p, q, rfl⟩ : ∃ (p : Fin 10000) (q : Fin 32), y = ix2 p q := ⟨y 0, y 1, eq_ix2 y⟩
  show (oPay2 (F := Ideal) _ _ _ _ _ _ _ _ _ _ _ : S10000x32.Idx → EReal) (ix2 p q)
    = G2 V c (((cfg2.win 11).blk t).view.emb (ix2 p q))
  rw [oBlock2_apply]
  unfold G2 Spec.unmat
  have h0 : Spec.rowOf25 (Fin.cast N_2 t) p = (((cfg2.win 11).blk t).view.emb (ix2 p q)) 0 :=
    Fin.ext (by show 10000 * t.val + p.val = win2_11.index t 0 * 10000 + 1 * p.val; rw [e0]; omega)
  have h1 : q = (((cfg2.win 11).blk t).view.emb (ix2 p q)) 1 :=
    Fin.ext (by show q.val = win2_11.index t 1 * 32 + 1 * q.val; rw [e1]; omega)
  rw [← h0, ← h1]

theorem mem_blk2_11 (t : Fin cfg2.N) (i : S250000x32.Idx) :
    i ∈ ((cfg2.win 11).blk t).view.set ↔ ∀ a : Fin 2, win2_11.index t a * S10000x32.size a ≤ (i a).val
      ∧ (i a).val < win2_11.index t a * S10000x32.size a + S10000x32.size a := by
  show i ∈ ((View.whole main_v62_0).slice (win2_11.rect t)).set ↔ _
  rw [View.set_slice_whole, Rect.mem_set_unit]
  exact Iff.rfl

theorem cover2_11 (i : S250000x32.Idx) :
    ∃ t : Fin cfg2.N, (cfg2.win 11).flush t = true ∧ i ∈ ((cfg2.win 11).blk t).view.set := by
  have hi0 : (i 0).val < 250000 := (i 0).isLt
  have hi1 : (i 1).val < 32 := (i 1).isLt
  have hN : cfg2.N = 25 := N_2
  obtain ⟨t, ht⟩ : ∃ t : Fin cfg2.N, t.val = (i 0).val / 10000 := ⟨⟨(i 0).val / 10000, by rw [hN]; omega⟩, rfl⟩
  obtain ⟨e0, e1⟩ := (idx_facts2 t).2.2.2.1
  refine ⟨t, flush2_11 t, ?_⟩
  rw [mem_blk2_11]
  intro a
  match a with
  | ⟨0, _⟩ =>
    show win2_11.index t 0 * 10000 ≤ (i 0).val ∧ (i 0).val < win2_11.index t 0 * 10000 + 10000
    rw [e0, ht]; omega
  | ⟨1, _⟩ =>
    show win2_11.index t 1 * 32 ≤ (i 1).val ∧ (i 1).val < win2_11.index t 1 * 32 + 32
    rw [e1]; omega

theorem final2_11 (c : Dev nD) : (dat2 V c).arrAt 11 cfg2.N = G2 V c :=
  (dat2 V c).arrAt_eq_of_cover 11 (G2 V c) (fun t _ => flushed2_11 V c t) cover2_11

theorem value2_o (c : Dev nD) :
    Spec.mat (n := 250000) (k := 32) ((dat2 V c).arrAt 11 cfg2.N) = o2 V c := by
  rw [final2_11]; rfl

end Cert.KernelIdeal.Hand

end
-- ==== Proof.KI.R2ValueS.lean ====
import proofs.«427087_j34256659153343_2_alg».proof.Proof.KI.R2

import proofs.«427087_j34256659153343_2_alg».proof.Proof.Spec

import proofs.«427087_j34256659153343_2_alg».proof.Proof.SpecArr

import proofs.«427087_j34256659153343_2_alg».proof.Proof.SpecSums

import Idealize.ShloMosaic.Lib.ValueIdx

import Idealize.ShloMosaic.Lib.Pipeline.Value

import Idealize.ShloMosaic.Lib.ValueLayout

import Idealize.ShloMosaic.PureOps.Ideal.Laws

set_option maxRecDepth 16384

noncomputable section

open scoped BigOperators

namespace Cert.KernelIdeal.Hand

open Cert.KernelIdeal Cert.KernelIdeal.Gen

open Idealize.ShloMosaic Idealize.ShloMosaic.TcCoe Idealize.SL.Sem

open Idealize.ShloMosaic.Pipeline (Dat)

open Idealize.ShloMosaic.ValueIdx

theorem zerosS2 : (![0, 0] : Fin 2 → Nat) = fun _ => 0 := funext fun a => by fin_cases a <;> rfl

theorem rowcastS2 (v : S32.Idx → EReal) (j : Fin 32) :
    shapeCast S1x32 v shapeCasts_S32_S1x32 (ix2 0 j) = v (ix1 j) :=
  shapeCast_apply v _ (ix2 0 j) (ix1 j) (by
    rw [Shape.rowMajor_val_one, Shape.rowMajor_val_two]
    show j.val = 0 * 32 + j.val
    omega)

theorem colsumS2 (B : FVec Ideal S10000x32 .f32) (hφ : FKind.Formats .f32)
    (hacc : (0x00000000#32 : BitVec 32) = FKind.add.neutral .f32 hφ) (j : Fin 32) :
    multiReduction .add [0] S32 B 0x00000000#32 reduces_S10000x32_S32 hφ hacc (ix1 j)
      = ∑ r : Fin 10000, B (ix2 r j) := by
  refine (Ideal.multiReduction_add_single B _ reduces_S10000x32_S32 hφ hacc (ix1 j)).trans ?_
  refine Finset.sum_congr rfl fun r _ => congrArg B ?_
  funext b
  match b with
  | ⟨0, _⟩ => rfl
  | ⟨1, _⟩ => rfl

section Pay

variable (v12 : FVec Ideal S10000x32 .bf16) (v18 v20 : FVec Ideal S32x32 .bf16) (v33 : FVec Ideal S10000x32 .f32)
  (cst : Ideal .f32) (v37 v45 : Vec Ideal S1x32 .f32) (a : Vec Ideal S1x32 .f32)

theorem pay9_apply (j : Fin 32) :
    k2_pay9 v12 v18 v20 v33 cst v37 v45 a (ix2 0 j)
      = a (ix2 0 j) + ∑ r : Fin 10000, k2_pay8 v12 v18 v20 v33 cst v37 v45 (ix2 r j) := by
  unfold k2_pay9
  simp only [shapeCast_self]
  rw [addf_apply, rowcastS2]
  exact congrArg (a (ix2 0 j) + ·) (colsumS2 _ _ _ j)

theorem pay10_apply (j : Fin 32) :
    k2_pay10 v12 v18 v20 v33 cst v37 v45 a (ix2 0 j)
      = a (ix2 0 j) + ∑ r : Fin 10000, k2_pay8 v12 v18 v20 v33 cst v37 v45 (ix2 r j) * k2_pay8 v12 v18 v20 v33 cst v37 v45 (ix2 r j) := by
  unfold k2_pay10
  simp only [shapeCast_self]
  rw [addf_apply, rowcastS2]
  exact congrArg (a (ix2 0 j) + ·) (colsumS2 _ _ _ j)

theorem pay1_zero (j : Fin 32) : (k2_pay1 : FVec Ideal S1x32 .f32) (ix2 0 j) = 0 := by
  unfold k2_pay1
  simp only [shapeCast_self]
  exact Ideal.ofBits_zero_f32

theorem pay2_zero (j : Fin 32) : (k2_pay2 : FVec Ideal S1x32 .f32) (ix2 0 j) = 0 := by
  unfold k2_pay2
  simp only [shapeCast_self]
  exact Ideal.ofBits_zero_f32

end Pay

variable (V : (c : Dev nD) → (b : Ref sig .tc) → Buf (Elt Ideal) ((c : Thread nD τ).loc b))

abbrev oBlk2 (c : Dev nD) (t : Fin cfg2.N) : S10000x32.Idx → EReal :=
  oPay2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)

theorem accS2At_zero_apply (c : Dev nD) (h : 0 < cfg2.N) (j : Fin 32) :
    (accS2At V c 0 h : S1x32.Idx → EReal) (ix2 0 j) = 0 + ∑ r : Fin 10000, oBlk2 V c ⟨0, h⟩ (ix2 r j) := by
  show (sFirst2 (F := Ideal) _ _ _ _ _ _ _ _ _ _ _ : S1x32.Idx → EReal) (ix2 0 j) = _
  unfold sFirst2
  rw [View.canon_cons_unit_zero zerosS2, View.readCov_unit_zero _ zerosS2]
  show k2_pay9 _ _ _ _ _ _ _ k2_pay1 (ix2 0 j) = _
  rw [pay9_apply, pay1_zero]

theorem accS2At_succ_apply (c : Dev nD) (k : ℕ) (h : k + 1 < cfg2.N) (j : Fin 32) :
    (accS2At V c (k + 1) h : S1x32.Idx → EReal) (ix2 0 j)
      = (accS2At V c k (Nat.lt_of_succ_lt h) : S1x32.Idx → EReal) (ix2 0 j) + ∑ r : Fin 10000, oBlk2 V c ⟨k + 1, h⟩ (ix2 r j) := by
  show (sStep2 (F := Ideal) _ _ _ _ _ _ _ _ _ _ _ _ : S1x32.Idx → EReal) (ix2 0 j) = _
  unfold sStep2
  rw [View.canon_unit_zero zerosS2, View.ld_unit_zero (S := S1x32) zerosS2]
  show k2_pay9 _ _ _ _ _ _ _ (accS2At V c k (Nat.lt_of_succ_lt h)) (ix2 0 j) = _
  rw [pay9_apply]

theorem accQ2At_zero_apply (c : Dev nD) (h : 0 < cfg2.N) (j : Fin 32) :
    (accQ2At V c 0 h : S1x32.Idx → EReal) (ix2 0 j)
      = 0 + ∑ r : Fin 10000, oBlk2 V c ⟨0, h⟩ (ix2 r j) * oBlk2 V c ⟨0, h⟩ (ix2 r j) := by
  show (qFirst2 (F := Ideal) _ _ _ _ _ _ _ _ _ _ _ : S1x32.Idx → EReal) (ix2 0 j) = _
  unfold qFirst2
  rw [View.canon_cons_unit_zero zerosS2, View.readCov_unit_zero _ zerosS2]
  show k2_pay10 _ _ _ _ _ _ _ k2_pay2 (ix2 0 j) = _
  rw [pay10_apply, pay2_zero]

theorem accQ2At_succ_apply (c : Dev nD) (k : ℕ) (h : k + 1 < cfg2.N) (j : Fin 32) :
    (accQ2At V c (k + 1) h : S1x32.Idx → EReal) (ix2 0 j)
      = (accQ2At V c k (Nat.lt_of_succ_lt h) : S1x32.Idx → EReal) (ix2 0 j)
        + ∑ r : Fin 10000, oBlk2 V c ⟨k + 1, h⟩ (ix2 r j) * oBlk2 V c ⟨k + 1, h⟩ (ix2 r j) := by
  show (qStep2 (F := Ideal) _ _ _ _ _ _ _ _ _ _ _ _ : S1x32.Idx → EReal) (ix2 0 j) = _
  unfold qStep2
  rw [View.canon_unit_zero zerosS2, View.ld_unit_zero (S := S1x32) zerosS2]
  show k2_pay10 _ _ _ _ _ _ _ (accQ2At V c k (Nat.lt_of_succ_lt h)) (ix2 0 j) = _
  rw [pay10_apply]

theorem lt24S2 : 24 < cfg2.N := by rw [show cfg2.N = 25 from N_2]; omega

theorem acc2At_last (c : Dev nD) (A : (k : ℕ) → k < cfg2.N → S1x32.Idx → EReal) (g : EReal → EReal)
    (h0 : ∀ (h : 0 < cfg2.N) (j : Fin 32), A 0 h (ix2 0 j) = 0 + ∑ r : Fin 10000, g (oBlk2 V c ⟨0, h⟩ (ix2 r j)))
    (hs : ∀ (k : ℕ) (h : k + 1 < cfg2.N) (j : Fin 32),
      A (k + 1) h (ix2 0 j) = A k (Nat.lt_of_succ_lt h) (ix2 0 j) + ∑ r : Fin 10000, g (oBlk2 V c ⟨k + 1, h⟩ (ix2 r j)))
    (o : Spec.Mat 250000 32)
    (hblk : ∀ (t : Fin cfg2.N) (r : Fin 10000) (j : Fin 32), oBlk2 V c t (ix2 r j) = o (Spec.rowOf25 (Fin.cast N_2 t) r) j)
    (j : Fin 32) : A 24 lt24S2 (ix2 0 j) = ∑ t : Fin 25, ∑ r : Fin 10000, g (o (Spec.rowOf25 t r) j) := by
  have hN : cfg2.N = 25 := N_2
  have key := Spec.acc_last_apply_z (B := 25) (by omega)
    (fun k j => if h : k < cfg2.N then A k h (ix2 0 j) else 0)
    (fun k j => if h : k < cfg2.N then ∑ r : Fin 10000, g (oBlk2 V c ⟨k, h⟩ (ix2 r j)) else 0)
    (fun _ => 0) (fun _ => rfl)
    (fun i => by
      have h0' : 0 < cfg2.N := by omega
      simp only [dif_pos h0']
      exact h0 h0' i)
    (fun t ht i => by
      have h1 : t + 1 < cfg2.N := by omega
      have h2 : t < cfg2.N := by omega
      simp only [dif_pos h1, dif_pos h2]
      exact hs t h1 i) j
  simp only [show (25 - 1 : ℕ) = 24 from rfl, dif_pos lt24S2] at key
  rw [key]
  refine Finset.sum_congr rfl fun t _ => ?_
  have ht : t.val < cfg2.N := by have := t.isLt; omega
  simp only [dif_pos ht]
  refine Finset.sum_congr rfl fun r _ => ?_
  rw [show oBlk2 V c ⟨t.val, ht⟩ (ix2 r j) = o (Spec.rowOf25 t r) j from hblk ⟨t.val, ht⟩ r j]

theorem idx_factsS2 : ∀ t : Fin cfg2.N, win2_12.index t (0 : Fin 2) = 0 ∧ win2_12.index t (1 : Fin 2) = 0
    ∧ win2_13.index t (0 : Fin 2) = 0 ∧ win2_13.index t (1 : Fin 2) = 0 :=
  (by decide +kernel : ∀ t : Fin grid2.N, _)

theorem last_of_flushS2_12 (t : Fin cfg2.N) (hf : (cfg2.win 12).flush t = true) : t.val = 24 :=
  Decidable.byContradiction fun h => by rw [flush2_12_other t h] at hf; exact Bool.false_ne_true hf

theorem flushedS2_12 (c : Dev nD) (t : Fin cfg2.N) (hf : (cfg2.win 12).flush t = true) :
    (dat2 V c).flushed 12 t = ((cfg2.win 12).blk t).view.read (Elt Ideal) (accS2At V c 24 lt24S2) := by
  have h24 := last_of_flushS2_12 t hf
  obtain rfl : t = ⟨24, lt24S2⟩ := Fin.ext h24
  have e0 : win2_12.index ⟨24, lt24S2⟩ (0 : Fin 2) = 0 := (idx_factsS2 ⟨24, lt24S2⟩).1
  have e1 : win2_12.index ⟨24, lt24S2⟩ (1 : Fin 2) = 0 := (idx_factsS2 ⟨24, lt24S2⟩).2.1
  have hz' : (fun a => win2_12.index ⟨24, lt24S2⟩ a * main_v62_1.ty.shape.size a) = fun _ => 0 := funext fun a => by
    match a with
    | ⟨0, _⟩ => show win2_12.index ⟨24, lt24S2⟩ 0 * _ = 0; rw [e0, Nat.zero_mul]
    | ⟨1, _⟩ => show win2_12.index ⟨24, lt24S2⟩ 1 * _ = 0; rw [e1, Nat.zero_mul]
  show (cfg2.win 12).cut (grid2.coords ⟨24, lt24S2⟩) ((dat2 V c).after 12 ⟨24, lt24S2⟩) = _
  rw [after2_12, outAt2_12_pos V c ⟨24, lt24S2⟩ (by decide) (Nat.lt_of_le_of_lt (Nat.sub_le _ _) lt24S2)]
  unfold out2_12
  rw [View.canon_unit_zero zerosS2, View.readCov_unit_zero _ zerosS2]
  refine Eq.trans ?_ (Memref.read_access_unit_zero (Elt Ideal) main_v62_1 hz' (fun a => by rw [congrFun hz' a]; simp) _).symm
  symm
  show sStep2 _ _ _ _ _ _ _ _ _ _ _ _ = _
  unfold sStep2
  rw [View.canon_unit_zero zerosS2]
  rfl

theorem mem_blkS2_12 (t : Fin cfg2.N) (i : S1x32.Idx) : i ∈ ((cfg2.win 12).blk t).view.set := by
  have e0 : win2_12.index t (0 : Fin 2) = 0 := (idx_factsS2 t).1
  have e1 : win2_12.index t (1 : Fin 2) = 0 := (idx_factsS2 t).2.1
  show i ∈ ((View.whole main_v62_1).slice (win2_12.rect t)).set
  rw [View.set_slice_whole, Rect.mem_set_unit]
  intro a
  have h0 : (i 0).val < 1 := (i 0).isLt
  have h1 : (i 1).val < 32 := (i 1).isLt
  match a with
  | ⟨0, _⟩ => show win2_12.index t 0 * 1 ≤ (i 0).val ∧ (i 0).val < win2_12.index t 0 * 1 + 1; rw [e0]; omega
  | ⟨1, _⟩ => show win2_12.index t 1 * 32 ≤ (i 1).val ∧ (i 1).val < win2_12.index t 1 * 32 + 32; rw [e1]; omega

theorem finalS2_12 (c : Dev nD) : (dat2 V c).arrAt 12 cfg2.N = accS2At V c 24 lt24S2 :=
  (dat2 V c).arrAt_eq_of_cover 12 _ (flushedS2_12 V c) fun i =>
    ⟨⟨24, lt24S2⟩, (flush2_12 ⟨24, lt24S2⟩).mpr (by decide), mem_blkS2_12 _ i⟩

theorem value2_sum (c : Dev nD) (o : Spec.Mat 250000 32)
    (hblk : ∀ (t : Fin cfg2.N) (r : Fin 10000) (j : Fin 32),
      (oPay2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) : S10000x32.Idx → EReal) (ix2 r j) = o (Spec.rowOf25 (Fin.cast N_2 t) r) j) :
    Spec.row0 (k := 32) ((dat2 V c).arrAt 12 cfg2.N) = Spec.colsum o := by
  rw [finalS2_12]
  funext j
  exact (acc2At_last V c (accS2At V c) id (accS2At_zero_apply V c) (accS2At_succ_apply V c) o hblk j).trans (Spec.colsum_blocks25 o j).symm

theorem last_of_flushS2_13 (t : Fin cfg2.N) (hf : (cfg2.win 13).flush t = true) : t.val = 24 :=
  Decidable.byContradiction fun h => by rw [flush2_13_other t h] at hf; exact Bool.false_ne_true hf

theorem flushedS2_13 (c : Dev nD) (t : Fin cfg2.N) (hf : (cfg2.win 13).flush t = true) :
    (dat2 V c).flushed 13 t = ((cfg2.win 13).blk t).view.read (Elt Ideal) (accQ2At V c 24 lt24S2) := by
  have h24 := last_of_flushS2_13 t hf
  obtain rfl : t = ⟨24, lt24S2⟩ := Fin.ext h24
  have e0 : win2_13.index ⟨24, lt24S2⟩ (0 : Fin 2) = 0 := (idx_factsS2 ⟨24, lt24S2⟩).2.2.1
  have e1 : win2_13.index ⟨24, lt24S2⟩ (1 : Fin 2) = 0 := (idx_factsS2 ⟨24, lt24S2⟩).2.2.2
  have hz' : (fun a => win2_13.index ⟨24, lt24S2⟩ a * main_v62_2.ty.shape.size a) = fun _ => 0 := funext fun a => by
    match a with
    | ⟨0, _⟩ => show win2_13.index ⟨24, lt24S2⟩ 0 * _ = 0; rw [e0, Nat.zero_mul]
    | ⟨1, _⟩ => show win2_13.index ⟨24, lt24S2⟩ 1 * _ = 0; rw [e1, Nat.zero_mul]
  show (cfg2.win 13).cut (grid2.coords ⟨24, lt24S2⟩) ((dat2 V c).after 13 ⟨24, lt24S2⟩) = _
  rw [after2_13, outAt2_13_pos V c ⟨24, lt24S2⟩ (by decide) (Nat.lt_of_le_of_lt (Nat.sub_le _ _) lt24S2)]
  unfold out2_13
  rw [View.canon_unit_zero zerosS2, View.readCov_unit_zero _ zerosS2]
  refine Eq.trans ?_ (Memref.read_access_unit_zero (Elt Ideal) main_v62_2 hz' (fun a => by rw [congrFun hz' a]; simp) _).symm
  symm
  show qStep2 _ _ _ _ _ _ _ _ _ _ _ _ = _
  unfold qStep2
  rw [View.canon_unit_zero zerosS2]
  rfl

theorem mem_blkS2_13 (t : Fin cfg2.N) (i : S1x32.Idx) : i ∈ ((cfg2.win 13).blk t).view.set := by
  have e0 : win2_13.index t (0 : Fin 2) = 0 := (idx_factsS2 t).2.2.1
  have e1 : win2_13.index t (1 : Fin 2) = 0 := (idx_factsS2 t).2.2.2
  show i ∈ ((View.whole main_v62_2).slice (win2_13.rect t)).set
  rw [View.set_slice_whole, Rect.mem_set_unit]
  intro a
  have h0 : (i 0).val < 1 := (i 0).isLt
  have h1 : (i 1).val < 32 := (i 1).isLt
  match a with
  | ⟨0, _⟩ => show win2_13.index t 0 * 1 ≤ (i 0).val ∧ (i 0).val < win2_13.index t 0 * 1 + 1; rw [e0]; omega
  | ⟨1, _⟩ => show win2_13.index t 1 * 32 ≤ (i 1).val ∧ (i 1).val < win2_13.index t 1 * 32 + 32; rw [e1]; omega

theorem finalS2_13 (c : Dev nD) : (dat2 V c).arrAt 13 cfg2.N = accQ2At V c 24 lt24S2 :=
  (dat2 V c).arrAt_eq_of_cover 13 _ (flushedS2_13 V c) fun i =>
    ⟨⟨24, lt24S2⟩, (flush2_13 ⟨24, lt24S2⟩).mpr (by decide), mem_blkS2_13 _ i⟩

theorem value2_sumsq (c : Dev nD) (o : Spec.Mat 250000 32)
    (hblk : ∀ (t : Fin cfg2.N) (r : Fin 10000) (j : Fin 32),
      (oPay2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) : S10000x32.Idx → EReal) (ix2 r j) = o (Spec.rowOf25 (Fin.cast N_2 t) r) j) :
    Spec.row0 (k := 32) ((dat2 V c).arrAt 13 cfg2.N) = Spec.colsumsq o := by
  rw [finalS2_13]
  funext j
  exact (acc2At_last V c (accQ2At V c) (fun x => x * x) (accQ2At_zero_apply V c) (accQ2At_succ_apply V c) o hblk j).trans (Spec.colsumsq_blocks25 o j).symm

end Cert.KernelIdeal.Hand

end
-- ==== Proof.KI.R3Value.lean ====
import proofs.«427087_j34256659153343_2_alg».proof.Proof.KI.R3

import proofs.«427087_j34256659153343_2_alg».proof.Proof.Spec

import Idealize.ShloMosaic.Lib.ValueIdx

import Idealize.ShloMosaic.Lib.Pipeline.Value

import Idealize.ShloMosaic.Lib.ValueLayout

import Idealize.ShloMosaic.PureOps.Ideal.Laws

set_option maxRecDepth 16384

noncomputable section

namespace Cert.KernelIdeal.Hand

open Cert.KernelIdeal Cert.KernelIdeal.Gen

open Idealize.ShloMosaic Idealize.ShloMosaic.TcCoe Idealize.SL.Sem

open Idealize.ShloMosaic.Pipeline (Dat)

open Idealize.ShloMosaic.ValueIdx

variable (V : (c : Dev nD) → (b : Ref sig .tc) → Buf (Elt Ideal) ((c : Thread nD τ).loc b))

theorem zeros3 : (![0, 0] : Fin 2 → Nat) = fun _ => 0 := funext fun a => by fin_cases a <;> rfl

theorem bcast_row3 (r : S1x32.Idx → EReal) (x : S10000x32.Idx) :
    broadcastTo S10000x32 r broadcasts_S1x32_S10000x32 x = r (ix2 0 (x 1)) :=
  broadcastTo_apply r _ x (ix2 0 (x 1)) fun a => by
    match a with
    | ⟨0, _⟩ => rfl
    | ⟨1, _⟩ => rfl

theorem pay3_apply (var : Vec Ideal S1x32 .f32) (o : Vec Ideal S10000x32 .f32) (mean g b : Vec Ideal S1x32 .f32)
    (x : S10000x32.Idx) :
    k3_pay1 var o mean g b x
      = (o x - mean (ix2 0 (x 1))) * Ideal.rsqrt (var (ix2 0 (x 1)) + Spec.eps) * g (ix2 0 (x 1)) + b (ix2 0 (x 1)) := by
  unfold k3_pay1
  simp only [shapeCast_self]
  rw [addf_apply, mulf_apply, mulf_apply, subf_apply, bcast_row3, bcast_row3, bcast_row3, bcast_row3]
  rfl

theorem idx_facts3 : ∀ t : Fin cfg3.N,
    (win3_0.index t (0 : Fin 2) = t.val ∧ win3_0.index t (1 : Fin 2) = 0
      ∧ win3_5.index t (0 : Fin 2) = t.val ∧ win3_5.index t (1 : Fin 2) = 0)
    ∧ ∀ a : Fin 2, win3_1.index t a = 0 ∧ win3_2.index t a = 0 ∧ win3_3.index t a = 0 ∧ win3_4.index t a = 0 :=
  (by decide +kernel : ∀ t : Fin grid3.N, _)

theorem blk3_0_apply (c : Dev nD) (t : Fin cfg3.N) (x : S10000x32.Idx) :
    (blk3 V c 0 t : Vec Ideal S10000x32 .f32) x
      = (V c main_v62_0 : S250000x32.Idx → EReal) (((cfg3.win 5).blk t).view.emb x) := by
  obtain ⟨e0, e1, e2, e3⟩ := (idx_facts3 t).1
  unfold blk3; rw [View.read_apply]
  refine congrArg (V c main_v62_0 : S250000x32.Idx → EReal) (funext fun a => Fin.ext ?_)
  match a with
  | ⟨0, _⟩ => show win3_0.index t 0 * 10000 + 1 * (x 0).val = win3_5.index t 0 * 10000 + 1 * (x 0).val; rw [e0, e2]
  | ⟨1, _⟩ => show win3_0.index t 1 * 32 + 1 * (x 1).val = win3_5.index t 1 * 32 + 1 * (x 1).val; rw [e1, e3]

theorem blk3_rows (c : Dev nD) (t : Fin cfg3.N) (y : S1x32.Idx) :
    (blk3 V c 1 t : Vec Ideal S1x32 .f32) y = (V c main_v64 : S1x32.Idx → EReal) y
      ∧ (blk3 V c 2 t : Vec Ideal S1x32 .f32) y = (V c main_v68 : S1x32.Idx → EReal) y
      ∧ (blk3 V c 3 t : Vec Ideal S1x32 .f32) y = (V c main_v69 : S1x32.Idx → EReal) y
      ∧ (blk3 V c 4 t : Vec Ideal S1x32 .f32) y = (V c main_v70 : S1x32.Idx → EReal) y := by
  have hz := (idx_facts3 t).2
  unfold blk3; rw [View.read_apply, View.read_apply, View.read_apply, View.read_apply]
  exact ⟨congrArg (V c main_v64 : S1x32.Idx → EReal) (funext fun a => Fin.ext (Pipeline.Window.rect_emb_val_of_index_zero win3_1 t a (hz a).1 y)),
    congrArg (V c main_v68 : S1x32.Idx → EReal) (funext fun a => Fin.ext (Pipeline.Window.rect_emb_val_of_index_zero win3_2 t a (hz a).2.1 y)),
    congrArg (V c main_v69 : S1x32.Idx → EReal) (funext fun a => Fin.ext (Pipeline.Window.rect_emb_val_of_index_zero win3_3 t a (hz a).2.2.1 y)),
    congrArg (V c main_v70 : S1x32.Idx → EReal) (funext fun a => Fin.ext (Pipeline.Window.rect_emb_val_of_index_zero win3_4 t a (hz a).2.2.2 y))⟩

def norm3 (o : S250000x32.Idx → EReal) (mean var g b : S1x32.Idx → EReal) : S250000x32.Idx → EReal := fun i =>
  (o i - mean (ix2 0 (i 1))) * Ideal.rsqrt (var (ix2 0 (i 1)) + Spec.eps) * g (ix2 0 (i 1)) + b (ix2 0 (i 1))

def G3 (c : Dev nD) : S250000x32.Idx → EReal :=
  norm3 (V c main_v62_0) (V c main_v64) (V c main_v68) (V c main_v69) (V c main_v70)

theorem flushed3_5 (c : Dev nD) (t : Fin cfg3.N) :
    (dat3 V c).flushed 5 t = ((cfg3.win 5).blk t).view.read (Elt Ideal) (G3 V c) := by
  obtain ⟨-, -, -, e3⟩ := (idx_facts3 t).1
  show (cfg3.win 5).cut (grid3.coords t) ((dat3 V c).after 5 t) = _
  rw [after3_5]
  unfold res3
  rw [View.canon_unit_zero zeros3]
  simp only [View.ld_unit_zero (S := S10000x32) zeros3, View.ld_unit_zero (S := S1x32) zeros3]
  funext x
  rw [View.read_apply]
  show k3_pay1 (blk3 V c 2 t) (blk3 V c 0 t) (blk3 V c 1 t) (blk3 V c 3 t) (blk3 V c 4 t) x
    = G3 V c (((cfg3.win 5).blk t).view.emb x)
  have hcol : (((cfg3.win 5).blk t).view.emb x) 1 = x 1 :=
    Fin.ext (Pipeline.Window.rect_emb_val_of_index_zero win3_5 t 1 e3 x)
  obtain ⟨r1, r2, r3, r4⟩ := blk3_rows V c t (ix2 0 (x 1))
  rw [pay3_apply, r1, r2, r3, r4, blk3_0_apply]
  unfold G3 norm3
  rw [hcol]

theorem cover3_5 (i : S250000x32.Idx) :
    ∃ t : Fin cfg3.N, (cfg3.win 5).flush t = true ∧ i ∈ ((cfg3.win 5).blk t).view.set := by
  have hi0 : (i 0).val < 250000 := (i 0).isLt
  have hi1 : (i 1).val < 32 := (i 1).isLt
  have hN : cfg3.N = 25 := N_3
  obtain ⟨t, ht⟩ : ∃ t : Fin cfg3.N, t.val = (i 0).val / 10000 := ⟨⟨(i 0).val / 10000, by rw [hN]; omega⟩, rfl⟩
  obtain ⟨-, -, e2, e3⟩ := (idx_facts3 t).1
  refine ⟨t, flush3_5 t, ?_⟩
  show i ∈ ((View.whole main_v71).slice (win3_5.rect t)).set
  rw [View.set_slice_whole, Rect.mem_set_unit]
  intro a
  match a with
  | ⟨0, _⟩ =>
    show win3_5.index t 0 * 10000 ≤ (i 0).val ∧ (i 0).val < win3_5.index t 0 * 10000 + 10000
    rw [e2, ht]; omega
  | ⟨1, _⟩ =>
    show win3_5.index t 1 * 32 ≤ (i 1).val ∧ (i 1).val < win3_5.index t 1 * 32 + 32
    rw [e3]; omega

theorem value3 (c : Dev nD) :
    Spec.mat (n := 250000) (k := 32) ((dat3 V c).arrAt 5 cfg3.N)
      = fun i j => (Spec.mat (n := 250000) (k := 32) (V c main_v62_0) i j - Spec.mat (n := 1) (k := 32) (V c main_v64) 0 j)
          * Ideal.rsqrt (Spec.mat (n := 1) (k := 32) (V c main_v68) 0 j + Spec.eps)
          * Spec.mat (n := 1) (k := 32) (V c main_v69) 0 j + Spec.mat (n := 1) (k := 32) (V c main_v70) 0 j := by
  rw [(dat3 V c).arrAt_eq_of_cover 5 (G3 V c) (fun t _ => flushed3_5 V c t) cover3_5]; rfl

end Cert.KernelIdeal.Hand

end
-- ==== Proof.KI.R4Pay.lean ====
import proofs.«427087_j34256659153343_2_alg».proof.Proof.Gen.KernelIdeal.Skeleton

import proofs.«427087_j34256659153343_2_alg».proof.Proof.Spec

import proofs.«427087_j34256659153343_2_alg».proof.Proof.SpecArr

import Idealize.ShloMosaic.Lib.ValueIdx

import Idealize.ShloMosaic.Lib.Pipeline.Value

import Idealize.ShloMosaic.Lib.ValueLayout

import Idealize.ShloMosaic.PureOps.Ideal.Laws

set_option maxRecDepth 16384

noncomputable section

open scoped BigOperators

namespace Cert.KernelIdeal.Hand

open Cert.KernelIdeal Cert.KernelIdeal.Gen

open Idealize.ShloMosaic Idealize.ShloMosaic.ValueIdx

theorem lhs4_0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide),
    dif_pos (show (0 : Fin S10000x32.rank) ∈ dot_S10000x32_S32x32_S10000x32_1_0_0_1_n_n.lhsNonContracting by decide)]
  rfl

theorem rhs4_1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide),
    dif_pos (show (1 : Fin S32x32.rank) ∈ dot_S10000x32_S32x32_S10000x32_1_0_0_1_n_n.rhsNonContracting by decide)]
  rfl

theorem matmul4_apply (A : FVec Ideal S10000x32 .bf16) (B : FVec Ideal S32x32 .bf16) (p : Fin 10000) (j : Fin 32) :
    matmul dot_S10000x32_S32x32_S10000x32_1_0_0_1_n_n none A B (constant (F := Ideal) S10000x32 .f32 0x00000000#32) (ix2 p j)
      = ∑ k : Fin 32, A (ix2 p k) * B (ix2 k j) := by
  simp only [matmul]
  rw [Ideal.matmul_constant_zero_apply, ← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 p j) ((contrEquiv1 dot_S10000x32_S32x32_S10000x32_1_0_0_1_n_n 32 rfl rfl).symm k) = ix2 p k :=
    funext fun a => Fin.ext (by
      match a with
      | ⟨0, _⟩ => exact lhs4_0 _ _
      | ⟨1, _⟩ => exact (dot_S10000x32_S32x32_S10000x32_1_0_0_1_n_n.lhsIdx_val_of_single rfl _ _).trans hk)
  have er : dot_S10000x32_S32x32_S10000x32_1_0_0_1_n_n.rhsIdx (ix2 p j) ((contrEquiv1 dot_S10000x32_S32x32_S10000x32_1_0_0_1_n_n 32 rfl rfl).symm k) = ix2 k j :=
    funext fun a => Fin.ext (by
      match a with
      | ⟨0, _⟩ => exact (dot_S10000x32_S32x32_S10000x32_1_0_0_1_n_n.rhsIdx_val_of_single rfl _ _).trans hk
      | ⟨1, _⟩ => exact rhs4_1 _ _)
  rw [el, er]

theorem zero4 : (Scalar.ofBits .f32 0x00000000#32 : Ideal .f32) = (0 : EReal) := Ideal.ofBits_zero_f32

theorem pay7_apply4 (x a : Vec Ideal S10000x32 .f32) (w1 w2 : Vec Ideal S32x32 .f32) (b1 b2 : Vec Ideal S1x32 .f32)
    (p : Fin 10000) (j : Fin 32) :
    k4_pay7 x a w1 w2 b1 b2 (ix2 p j)
      = Spec.mlp (fun d => x (ix2 p d) + a (ix2 p d)) (Spec.mat (n := 32) (k := 32) w1) (Spec.row0 (k := 32) b1)
          (Spec.mat (n := 32) (k := 32) w2) (Spec.row0 (k := 32) b2) j := by
  unfold k4_pay7 k4_pay3
  simp only [shapeCast_self]
  rw [addf_apply, matmul4_apply, broadcastTo_1b_ab_apply]
  unfold Spec.mlp Spec.relu Spec.mat Spec.row0
  congr 1
  refine Finset.sum_congr rfl fun k _ => ?_
  rw [truncf_apply, truncf_apply, maximumf_apply, addf_apply, matmul4_apply, broadcastTo_1b_ab_apply, broadcast_apply, zero4]
  rfl

theorem pay8_eq4 {F : FTy → Type} [FloatOps F] (x ab : Vec F S10000x32 .f32) (w1b : Vec F S32x32 .f32) (b1b : Vec F S1x32 .f32)
    (w2b : Vec F S32x32 .f32) (b2b : Vec F S1x32 .f32) (fwd : FVec F S10000x32 .f32) (c0 : F .f32) :
    k4_pay8 (k4_pay4 x ab) (k4_pay5 w1b) (k4_pay6 w2b) fwd c0 b1b b2b
      = mulf (broadcast S10000x32 (Scalar.ofBits .f32 0x3F000000#32))
          (addf (maximumf fwd (broadcast S10000x32 c0))
            (maximumf (k4_pay7 x ab w1b w2b b1b b2b) (broadcast S10000x32 (Scalar.ofBits .f32 0x00000000#32)))) := rfl

theorem pay8_apply4 (x af ab : Vec Ideal S10000x32 .f32) (w1f : Vec Ideal S32x32 .f32) (b1f : Vec Ideal S1x32 .f32)
    (w2f : Vec Ideal S32x32 .f32) (b2f : Vec Ideal S1x32 .f32) (w1b : Vec Ideal S32x32 .f32) (b1b : Vec Ideal S1x32 .f32)
    (w2b : Vec Ideal S32x32 .f32) (b2b : Vec Ideal S1x32 .f32) (p : Fin 10000) (j : Fin 32) :
    k4_pay8 (k4_pay4 x ab) (k4_pay5 w1b) (k4_pay6 w2b) (k4_pay7 x af w1f w2f b1f b2f)
        (Scalar.ofBits .f32 0x00000000#32) b1b b2b (ix2 p j)
      = Spec.ginRow ⟨Spec.mat (n := 32) (k := 32) w1f, Spec.row0 (k := 32) b1f, Spec.mat (n := 32) (k := 32) w2f,
            Spec.row0 (k := 32) b2f, Spec.mat (n := 32) (k := 32) w1b, Spec.row0 (k := 32) b1b,
            Spec.mat (n := 32) (k := 32) w2b, Spec.row0 (k := 32) b2b⟩
          (fun d => x (ix2 p d)) (fun d => af (ix2 p d)) (fun d => ab (ix2 p d)) j := by
  rw [pay8_eq4, mulf_apply, addf_apply, maximumf_apply, maximumf_apply, pay7_apply4, pay7_apply4]
  simp only [broadcast_apply]
  rw [zero4]
  rfl

end Cert.KernelIdeal.Hand

end
-- ==== Proof.KI.R4Value.lean ====
import proofs.«427087_j34256659153343_2_alg».proof.Proof.KI.R4

import proofs.«427087_j34256659153343_2_alg».proof.Proof.KI.R4Pay

import proofs.«427087_j34256659153343_2_alg».proof.Proof.Spec

import proofs.«427087_j34256659153343_2_alg».proof.Proof.SpecArr

import proofs.«427087_j34256659153343_2_alg».proof.Proof.SpecSums

import Idealize.ShloMosaic.Lib.ValueIdx

import Idealize.ShloMosaic.Lib.Pipeline.Value

import Idealize.ShloMosaic.Lib.ValueLayout

import Idealize.ShloMosaic.PureOps.Ideal.Laws

set_option maxRecDepth 16384

noncomputable section

namespace Cert.KernelIdeal.Hand

open Cert.KernelIdeal Cert.KernelIdeal.Gen

open Idealize.ShloMosaic Idealize.ShloMosaic.TcCoe Idealize.SL.Sem

open Idealize.ShloMosaic.Pipeline (Dat)

open Idealize.ShloMosaic.ValueIdx

variable (V : (c : Dev nD) → (b : Ref sig .tc) → Buf (Elt Ideal) ((c : Thread nD τ).loc b))

theorem zeros4 : (![0, 0] : Fin 2 → Nat) = fun _ => 0 := funext fun a => by fin_cases a <;> rfl

def P4 (c : Dev nD) : Spec.GinP 32 :=
  ⟨Spec.mat (n := 32) (k := 32) (V c main_arg23), Spec.row0 (k := 32) (V c main_v92),
   Spec.mat (n := 32) (k := 32) (V c main_arg25), Spec.row0 (k := 32) (V c main_v93),
   Spec.mat (n := 32) (k := 32) (V c main_arg27), Spec.row0 (k := 32) (V c main_v94),
   Spec.mat (n := 32) (k := 32) (V c main_arg29), Spec.row0 (k := 32) (V c main_v95)⟩

def o4 (c : Dev nD) : Spec.Mat 250000 32 :=
  Spec.gin (P4 V c) (Spec.mat (n := 250000) (k := 32) (V c main_v71)) (Spec.mat (n := 250000) (k := 32) (V c main_v81))
    (Spec.mat (n := 250000) (k := 32) (V c main_v91))

def G4 (c : Dev nD) : S250000x32.Idx → EReal := Spec.unmat (o4 V c)

theorem idx_facts4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_11.index t (0 : Fin 2) = t.val ∧ win4_11.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = 0 ∧ win4_9.index t (1 : Fin 2) = 0)
    ∧ (win4_10.index t (0 : Fin 2) = 0 ∧ win4_10.index t (1 : Fin 2) = 0) :=
  (by decide +kernel : ∀ t : Fin grid4.N, _)

private theorem emb_of_index {i s v k n : ℕ} (h : i = n) (hk : k = s * n + v) : i * s + 1 * v = k := by
  subst h hk; rw [Nat.mul_comm, Nat.one_mul]

private theorem emb_of_index_zero {i s v : ℕ} (h : i = 0) : i * s + 1 * v = v := by
  subst h; rw [Nat.zero_mul, Nat.one_mul, Nat.zero_add]

theorem iblk4_apply (c : Dev nD) (t : Fin cfg4.N) (y : S10000x32.Idx) (k : S250000x32.Idx)
    (hk0 : (k 0).val = 10000 * t.val + (y 0).val) (hk1 : (k 1).val = (y 1).val) :
    (iblk4 V c 0 t : Vec Ideal S10000x32 .f32) y = (V c main_v71 : S250000x32.Idx → EReal) k
    ∧ (iblk4 V c 1 t : Vec Ideal S10000x32 .f32) y = (V c main_v81 : S250000x32.Idx → EReal) k
    ∧ (iblk4 V c 2 t : Vec Ideal S10000x32 .f32) y = (V c main_v91 : S250000x32.Idx → EReal) k := by
  obtain ⟨⟨a0, b0⟩, ⟨a1, b1⟩, ⟨a2, b2⟩, -⟩ := idx_facts4 t
  refine ⟨?_, ?_, ?_⟩ <;>
  · unfold iblk4
    rw [View.read_apply]
    congr 1
    refine congrArg _ (funext fun a => Fin.ext ?_)
    match a with
    | ⟨0, _⟩ => exact emb_of_index (by assumption) hk0
    | ⟨1, _⟩ => exact (emb_of_index_zero (by assumption)).trans hk1.symm

theorem iblk4_w_eq (c : Dev nD) (t : Fin cfg4.N) :
    (iblk4 V c 3 t : Vec Ideal S32x32 .f32) = (V c main_arg23 : S32x32.Idx → EReal)
    ∧ (iblk4 V c 5 t : Vec Ideal S32x32 .f32) = (V c main_arg25 : S32x32.Idx → EReal)
    ∧ (iblk4 V c 7 t : Vec Ideal S32x32 .f32) = (V c main_arg27 : S32x32.Idx → EReal)
    ∧ (iblk4 V c 9 t : Vec Ideal S32x32 .f32) = (V c main_arg29 : S32x32.Idx → EReal) := by
  obtain ⟨-, -, -, -, ⟨a3, b3⟩, -, ⟨a5, b5⟩, -, ⟨a7, b7⟩, -, ⟨a9, b9⟩, -⟩ := idx_facts4 t
  refine ⟨?_, ?_, ?_, ?_⟩ <;>
  · funext y
    unfold iblk4
    rw [View.read_apply]
    congr 1
    refine congrArg _ (funext fun a => Fin.ext ?_)
    match a with
    | ⟨0, _⟩ => exact emb_of_index_zero (by assumption)
    | ⟨1, _⟩ => exact emb_of_index_zero (by assumption)

theorem iblk4_b_eq (c : Dev nD) (t : Fin cfg4.N) :
    (iblk4 V c 4 t : Vec Ideal S1x32 .f32) = (V c main_v92 : S1x32.Idx → EReal)
    ∧ (iblk4 V c 6 t : Vec Ideal S1x32 .f32) = (V c main_v93 : S1x32.Idx → EReal)
    ∧ (iblk4 V c 8 t : Vec Ideal S1x32 .f32) = (V c main_v94 : S1x32.Idx → EReal)
    ∧ (iblk4 V c 10 t : Vec Ideal S1x32 .f32) = (V c main_v95 : S1x32.Idx → EReal) := by
  obtain ⟨-, -, -, -, -, ⟨a4, b4⟩, -, ⟨a6, b6⟩, -, ⟨a8, b8⟩, -, ⟨a10, b10⟩⟩ := idx_facts4 t
  refine ⟨?_, ?_, ?_, ?_⟩ <;>
  · funext y
    unfold iblk4
    rw [View.read_apply]
    congr 1
    refine congrArg _ (funext fun a => Fin.ext ?_)
    match a with
    | ⟨0, _⟩ => exact emb_of_index_zero (by assumption)
    | ⟨1, _⟩ => exact emb_of_index_zero (by assumption)

theorem oBlock4_apply (c : Dev nD) (t : Fin cfg4.N) (r : Fin 10000) (j : Fin 32) :
    (oPay4 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) : S10000x32.Idx → EReal) (ix2 r j)
      = o4 V c (Spec.rowOf25 (Fin.cast N_4 t) r) j := by
  simp only [oPay4, View.ld_unit_zero (S := S10000x32) zeros4, View.ld_unit_zero (S := S32x32) zeros4,
    View.ld_unit_zero (S := S1x32) zeros4]
  refine (pay8_apply4 _ _ _ _ _ _ _ _ _ _ _ r j).trans ?_
  obtain ⟨e3, e5, e7, e9⟩ := iblk4_w_eq V c t
  obtain ⟨e4, e6, e8, e10⟩ := iblk4_b_eq V c t
  rw [e3, e4, e5, e6, e7, e8, e9, e10]
  have hd := fun d => iblk4_apply V c t (ix2 r d) (ix2 (Spec.rowOf25 (Fin.cast N_4 t) r) d) rfl rfl
  have hx : (fun d : Fin 32 => (iblk4 V c 0 t : Vec Ideal S10000x32 .f32) (ix2 r d))
      = Spec.mat (n := 250000) (k := 32) (V c main_v71) (Spec.rowOf25 (Fin.cast N_4 t) r) :=
    funext fun d => (hd d).1
  have hf : (fun d : Fin 32 => (iblk4 V c 1 t : Vec Ideal S10000x32 .f32) (ix2 r d))
      = Spec.mat (n := 250000) (k := 32) (V c main_v81) (Spec.rowOf25 (Fin.cast N_4 t) r) :=
    funext fun d => (hd d).2.1
  have hb : (fun d : Fin 32 => (iblk4 V c 2 t : Vec Ideal S10000x32 .f32) (ix2 r d))
      = Spec.mat (n := 250000) (k := 32) (V c main_v91) (Spec.rowOf25 (Fin.cast N_4 t) r) :=
    funext fun d => (hd d).2.2
  rw [hx, hf, hb]
  rfl

theorem flushed4_11 (c : Dev nD) (t : Fin cfg4.N) :
    (dat4 V c).flushed 11 t = ((cfg4.win 11).blk t).view.read (Elt Ideal) (G4 V c) := by
  obtain ⟨e0, e1⟩ := (idx_facts4 t).2.2.2.1
  show (cfg4.win 11).cut (grid4.coords t) ((dat4 V c).after 11 t) = _
  rw [after4_11]
  unfold outAt4_11 out4_11
  rw [View.canon_unit_zero zeros4]
  funext y
  rw [View.read_apply]
  obtain ⟨p, q, rfl⟩ : ∃ (p : Fin 10000) (q : Fin 32), y = ix2 p q := ⟨y 0, y 1, eq_ix2 y⟩
  show (oPay4 (F := Ideal) _ _ _ _ _ _ _ _ _ _ _ : S10000x32.Idx → EReal) (ix2 p q)
    = G4 V c (((cfg4.win 11).blk t).view.emb (ix2 p q))
  rw [oBlock4_apply]
  unfold G4 Spec.unmat
  have h0 : Spec.rowOf25 (Fin.cast N_4 t) p = (((cfg4.win 11).blk t).view.emb (ix2 p q)) 0 :=
    Fin.ext (by show 10000 * t.val + p.val = win4_11.index t 0 * 10000 + 1 * p.val; rw [e0]; omega)
  have h1 : q = (((cfg4.win 11).blk t).view.emb (ix2 p q)) 1 :=
    Fin.ext (by show q.val = win4_11.index t 1 * 32 + 1 * q.val; rw [e1]; omega)
  rw [← h0, ← h1]

theorem mem_blk4_11 (t : Fin cfg4.N) (i : S250000x32.Idx) :
    i ∈ ((cfg4.win 11).blk t).view.set ↔ ∀ a : Fin 2, win4_11.index t a * S10000x32.size a ≤ (i a).val
      ∧ (i a).val < win4_11.index t a * S10000x32.size a + S10000x32.size a := by
  show i ∈ ((View.whole main_v96_0).slice (win4_11.rect t)).set ↔ _
  rw [View.set_slice_whole, Rect.mem_set_unit]
  exact Iff.rfl

theorem cover4_11 (i : S250000x32.Idx) :
    ∃ t : Fin cfg4.N, (cfg4.win 11).flush t = true ∧ i ∈ ((cfg4.win 11).blk t).view.set := by
  have hi0 : (i 0).val < 250000 := (i 0).isLt
  have hi1 : (i 1).val < 32 := (i 1).isLt
  have hN : cfg4.N = 25 := N_4
  obtain ⟨t, ht⟩ : ∃ t : Fin cfg4.N, t.val = (i 0).val / 10000 := ⟨⟨(i 0).val / 10000, by rw [hN]; omega⟩, rfl⟩
  obtain ⟨e0, e1⟩ := (idx_facts4 t).2.2.2.1
  refine ⟨t, flush4_11 t, ?_⟩
  rw [mem_blk4_11]
  intro a
  match a with
  | ⟨0, _⟩ =>
    show win4_11.index t 0 * 10000 ≤ (i 0).val ∧ (i 0).val < win4_11.index t 0 * 10000 + 10000
    rw [e0, ht]; omega
  | ⟨1, _⟩ =>
    show win4_11.index t 1 * 32 ≤ (i 1).val ∧ (i 1).val < win4_11.index t 1 * 32 + 32
    rw [e1]; omega

theorem final4_11 (c : Dev nD) : (dat4 V c).arrAt 11 cfg4.N = G4 V c :=
  (dat4 V c).arrAt_eq_of_cover 11 (G4 V c) (fun t _ => flushed4_11 V c t) cover4_11

theorem value4_o (c : Dev nD) :
    Spec.mat (n := 250000) (k := 32) ((dat4 V c).arrAt 11 cfg4.N) = o4 V c := by
  rw [final4_11]; rfl

end Cert.KernelIdeal.Hand

end
-- ==== Proof.KI.R4ValueS.lean ====
import proofs.«427087_j34256659153343_2_alg».proof.Proof.KI.R4

import proofs.«427087_j34256659153343_2_alg».proof.Proof.Spec

import proofs.«427087_j34256659153343_2_alg».proof.Proof.SpecArr

import proofs.«427087_j34256659153343_2_alg».proof.Proof.SpecSums

import Idealize.ShloMosaic.Lib.ValueIdx

import Idealize.ShloMosaic.Lib.Pipeline.Value

import Idealize.ShloMosaic.Lib.ValueLayout

import Idealize.ShloMosaic.PureOps.Ideal.Laws

set_option maxRecDepth 16384

noncomputable section

open scoped BigOperators

namespace Cert.KernelIdeal.Hand

open Cert.KernelIdeal Cert.KernelIdeal.Gen

open Idealize.ShloMosaic Idealize.ShloMosaic.TcCoe Idealize.SL.Sem

open Idealize.ShloMosaic.Pipeline (Dat)

open Idealize.ShloMosaic.ValueIdx

theorem zerosS4 : (![0, 0] : Fin 2 → Nat) = fun _ => 0 := funext fun a => by fin_cases a <;> rfl

theorem rowcastS4 (v : S32.Idx → EReal) (j : Fin 32) :
    shapeCast S1x32 v shapeCasts_S32_S1x32 (ix2 0 j) = v (ix1 j) :=
  shapeCast_apply v _ (ix2 0 j) (ix1 j) (by
    rw [Shape.rowMajor_val_one, Shape.rowMajor_val_two]
    show j.val = 0 * 32 + j.val
    omega)

theorem colsumS4 (B : FVec Ideal S10000x32 .f32) (hφ : FKind.Formats .f32)
    (hacc : (0x00000000#32 : BitVec 32) = FKind.add.neutral .f32 hφ) (j : Fin 32) :
    multiReduction .add [0] S32 B 0x00000000#32 reduces_S10000x32_S32 hφ hacc (ix1 j)
      = ∑ r : Fin 10000, B (ix2 r j) := by
  refine (Ideal.multiReduction_add_single B _ reduces_S10000x32_S32 hφ hacc (ix1 j)).trans ?_
  refine Finset.sum_congr rfl fun r _ => congrArg B ?_
  funext b
  match b with
  | ⟨0, _⟩ => rfl
  | ⟨1, _⟩ => rfl

section Pay

variable (v12 : FVec Ideal S10000x32 .bf16) (v18 v20 : FVec Ideal S32x32 .bf16) (v33 : FVec Ideal S10000x32 .f32)
  (cst : Ideal .f32) (v37 v45 : Vec Ideal S1x32 .f32) (a : Vec Ideal S1x32 .f32)

theorem pay9_apply4 (j : Fin 32) :
    k4_pay9 v12 v18 v20 v33 cst v37 v45 a (ix2 0 j)
      = a (ix2 0 j) + ∑ r : Fin 10000, k4_pay8 v12 v18 v20 v33 cst v37 v45 (ix2 r j) := by
  unfold k4_pay9
  simp only [shapeCast_self]
  rw [addf_apply, rowcastS4]
  exact congrArg (a (ix2 0 j) + ·) (colsumS4 _ _ _ j)

theorem pay10_apply4 (j : Fin 32) :
    k4_pay10 v12 v18 v20 v33 cst v37 v45 a (ix2 0 j)
      = a (ix2 0 j) + ∑ r : Fin 10000, k4_pay8 v12 v18 v20 v33 cst v37 v45 (ix2 r j) * k4_pay8 v12 v18 v20 v33 cst v37 v45 (ix2 r j) := by
  unfold k4_pay10
  simp only [shapeCast_self]
  rw [addf_apply, rowcastS4]
  exact congrArg (a (ix2 0 j) + ·) (colsumS4 _ _ _ j)

theorem pay1_zero4 (j : Fin 32) : (k4_pay1 : FVec Ideal S1x32 .f32) (ix2 0 j) = 0 := by
  unfold k4_pay1
  simp only [shapeCast_self]
  exact Ideal.ofBits_zero_f32

theorem pay2_zero4 (j : Fin 32) : (k4_pay2 : FVec Ideal S1x32 .f32) (ix2 0 j) = 0 := by
  unfold k4_pay2
  simp only [shapeCast_self]
  exact Ideal.ofBits_zero_f32

end Pay

variable (V : (c : Dev nD) → (b : Ref sig .tc) → Buf (Elt Ideal) ((c : Thread nD τ).loc b))

abbrev oBlk4 (c : Dev nD) (t : Fin cfg4.N) : S10000x32.Idx → EReal :=
  oPay4 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)

theorem accS4At_zero_apply (c : Dev nD) (h : 0 < cfg4.N) (j : Fin 32) :
    (accS4At V c 0 h : S1x32.Idx → EReal) (ix2 0 j) = 0 + ∑ r : Fin 10000, oBlk4 V c ⟨0, h⟩ (ix2 r j) := by
  show (sFirst4 (F := Ideal) _ _ _ _ _ _ _ _ _ _ _ : S1x32.Idx → EReal) (ix2 0 j) = _
  unfold sFirst4
  rw [View.canon_cons_unit_zero zerosS4, View.readCov_unit_zero _ zerosS4]
  show k4_pay9 _ _ _ _ _ _ _ k4_pay1 (ix2 0 j) = _
  rw [pay9_apply4, pay1_zero4]

theorem accS4At_succ_apply (c : Dev nD) (k : ℕ) (h : k + 1 < cfg4.N) (j : Fin 32) :
    (accS4At V c (k + 1) h : S1x32.Idx → EReal) (ix2 0 j)
      = (accS4At V c k (Nat.lt_of_succ_lt h) : S1x32.Idx → EReal) (ix2 0 j) + ∑ r : Fin 10000, oBlk4 V c ⟨k + 1, h⟩ (ix2 r j) := by
  show (sStep4 (F := Ideal) _ _ _ _ _ _ _ _ _ _ _ _ : S1x32.Idx → EReal) (ix2 0 j) = _
  unfold sStep4
  rw [View.canon_unit_zero zerosS4, View.ld_unit_zero (S := S1x32) zerosS4]
  show k4_pay9 _ _ _ _ _ _ _ (accS4At V c k (Nat.lt_of_succ_lt h)) (ix2 0 j) = _
  rw [pay9_apply4]

theorem accQ4At_zero_apply (c : Dev nD) (h : 0 < cfg4.N) (j : Fin 32) :
    (accQ4At V c 0 h : S1x32.Idx → EReal) (ix2 0 j)
      = 0 + ∑ r : Fin 10000, oBlk4 V c ⟨0, h⟩ (ix2 r j) * oBlk4 V c ⟨0, h⟩ (ix2 r j) := by
  show (qFirst4 (F := Ideal) _ _ _ _ _ _ _ _ _ _ _ : S1x32.Idx → EReal) (ix2 0 j) = _
  unfold qFirst4
  rw [View.canon_cons_unit_zero zerosS4, View.readCov_unit_zero _ zerosS4]
  show k4_pay10 _ _ _ _ _ _ _ k4_pay2 (ix2 0 j) = _
  rw [pay10_apply4, pay2_zero4]

theorem accQ4At_succ_apply (c : Dev nD) (k : ℕ) (h : k + 1 < cfg4.N) (j : Fin 32) :
    (accQ4At V c (k + 1) h : S1x32.Idx → EReal) (ix2 0 j)
      = (accQ4At V c k (Nat.lt_of_succ_lt h) : S1x32.Idx → EReal) (ix2 0 j)
        + ∑ r : Fin 10000, oBlk4 V c ⟨k + 1, h⟩ (ix2 r j) * oBlk4 V c ⟨k + 1, h⟩ (ix2 r j) := by
  show (qStep4 (F := Ideal) _ _ _ _ _ _ _ _ _ _ _ _ : S1x32.Idx → EReal) (ix2 0 j) = _
  unfold qStep4
  rw [View.canon_unit_zero zerosS4, View.ld_unit_zero (S := S1x32) zerosS4]
  show k4_pay10 _ _ _ _ _ _ _ (accQ4At V c k (Nat.lt_of_succ_lt h)) (ix2 0 j) = _
  rw [pay10_apply4]

theorem lt24S4 : 24 < cfg4.N := by rw [show cfg4.N = 25 from N_4]; omega

theorem acc4At_last (c : Dev nD) (A : (k : ℕ) → k < cfg4.N → S1x32.Idx → EReal) (g : EReal → EReal)
    (h0 : ∀ (h : 0 < cfg4.N) (j : Fin 32), A 0 h (ix2 0 j) = 0 + ∑ r : Fin 10000, g (oBlk4 V c ⟨0, h⟩ (ix2 r j)))
    (hs : ∀ (k : ℕ) (h : k + 1 < cfg4.N) (j : Fin 32),
      A (k + 1) h (ix2 0 j) = A k (Nat.lt_of_succ_lt h) (ix2 0 j) + ∑ r : Fin 10000, g (oBlk4 V c ⟨k + 1, h⟩ (ix2 r j)))
    (o : Spec.Mat 250000 32)
    (hblk : ∀ (t : Fin cfg4.N) (r : Fin 10000) (j : Fin 32), oBlk4 V c t (ix2 r j) = o (Spec.rowOf25 (Fin.cast N_4 t) r) j)
    (j : Fin 32) : A 24 lt24S4 (ix2 0 j) = ∑ t : Fin 25, ∑ r : Fin 10000, g (o (Spec.rowOf25 t r) j) := by
  have hN : cfg4.N = 25 := N_4
  have key := Spec.acc_last_apply_z (B := 25) (by omega)
    (fun k j => if h : k < cfg4.N then A k h (ix2 0 j) else 0)
    (fun k j => if h : k < cfg4.N then ∑ r : Fin 10000, g (oBlk4 V c ⟨k, h⟩ (ix2 r j)) else 0)
    (fun _ => 0) (fun _ => rfl)
    (fun i => by
      have h0' : 0 < cfg4.N := by omega
      simp only [dif_pos h0']
      exact h0 h0' i)
    (fun t ht i => by
      have h1 : t + 1 < cfg4.N := by omega
      have h2 : t < cfg4.N := by omega
      simp only [dif_pos h1, dif_pos h2]
      exact hs t h1 i) j
  simp only [show (25 - 1 : ℕ) = 24 from rfl, dif_pos lt24S4] at key
  rw [key]
  refine Finset.sum_congr rfl fun t _ => ?_
  have ht : t.val < cfg4.N := by have := t.isLt; omega
  simp only [dif_pos ht]
  refine Finset.sum_congr rfl fun r _ => ?_
  rw [show oBlk4 V c ⟨t.val, ht⟩ (ix2 r j) = o (Spec.rowOf25 t r) j from hblk ⟨t.val, ht⟩ r j]

theorem idx_factsS4 : ∀ t : Fin cfg4.N, win4_12.index t (0 : Fin 2) = 0 ∧ win4_12.index t (1 : Fin 2) = 0
    ∧ win4_13.index t (0 : Fin 2) = 0 ∧ win4_13.index t (1 : Fin 2) = 0 :=
  (by decide +kernel : ∀ t : Fin grid4.N, _)

theorem last_of_flushS4_12 (t : Fin cfg4.N) (hf : (cfg4.win 12).flush t = true) : t.val = 24 :=
  Decidable.byContradiction fun h => by rw [flush4_12_other t h] at hf; exact Bool.false_ne_true hf

theorem flushedS4_12 (c : Dev nD) (t : Fin cfg4.N) (hf : (cfg4.win 12).flush t = true) :
    (dat4 V c).flushed 12 t = ((cfg4.win 12).blk t).view.read (Elt Ideal) (accS4At V c 24 lt24S4) := by
  have h24 := last_of_flushS4_12 t hf
  obtain rfl : t = ⟨24, lt24S4⟩ := Fin.ext h24
  have e0 : win4_12.index ⟨24, lt24S4⟩ (0 : Fin 2) = 0 := (idx_factsS4 ⟨24, lt24S4⟩).1
  have e1 : win4_12.index ⟨24, lt24S4⟩ (1 : Fin 2) = 0 := (idx_factsS4 ⟨24, lt24S4⟩).2.1
  have hz' : (fun a => win4_12.index ⟨24, lt24S4⟩ a * main_v96_1.ty.shape.size a) = fun _ => 0 := funext fun a => by
    match a with
    | ⟨0, _⟩ => show win4_12.index ⟨24, lt24S4⟩ 0 * _ = 0; rw [e0, Nat.zero_mul]
    | ⟨1, _⟩ => show win4_12.index ⟨24, lt24S4⟩ 1 * _ = 0; rw [e1, Nat.zero_mul]
  show (cfg4.win 12).cut (grid4.coords ⟨24, lt24S4⟩) ((dat4 V c).after 12 ⟨24, lt24S4⟩) = _
  rw [after4_12, outAt4_12_pos V c ⟨24, lt24S4⟩ (by decide) (Nat.lt_of_le_of_lt (Nat.sub_le _ _) lt24S4)]
  unfold out4_12
  rw [View.canon_unit_zero zerosS4, View.readCov_unit_zero _ zerosS4]
  refine Eq.trans ?_ (Memref.read_access_unit_zero (Elt Ideal) main_v96_1 hz' (fun a => by rw [congrFun hz' a]; simp) _).symm
  symm
  show sStep4 _ _ _ _ _ _ _ _ _ _ _ _ = _
  unfold sStep4
  rw [View.canon_unit_zero zerosS4]
  rfl

theorem mem_blkS4_12 (t : Fin cfg4.N) (i : S1x32.Idx) : i ∈ ((cfg4.win 12).blk t).view.set := by
  have e0 : win4_12.index t (0 : Fin 2) = 0 := (idx_factsS4 t).1
  have e1 : win4_12.index t (1 : Fin 2) = 0 := (idx_factsS4 t).2.1
  show i ∈ ((View.whole main_v96_1).slice (win4_12.rect t)).set
  rw [View.set_slice_whole, Rect.mem_set_unit]
  intro a
  have h0 : (i 0).val < 1 := (i 0).isLt
  have h1 : (i 1).val < 32 := (i 1).isLt
  match a with
  | ⟨0, _⟩ => show win4_12.index t 0 * 1 ≤ (i 0).val ∧ (i 0).val < win4_12.index t 0 * 1 + 1; rw [e0]; omega
  | ⟨1, _⟩ => show win4_12.index t 1 * 32 ≤ (i 1).val ∧ (i 1).val < win4_12.index t 1 * 32 + 32; rw [e1]; omega

theorem finalS4_12 (c : Dev nD) : (dat4 V c).arrAt 12 cfg4.N = accS4At V c 24 lt24S4 :=
  (dat4 V c).arrAt_eq_of_cover 12 _ (flushedS4_12 V c) fun i =>
    ⟨⟨24, lt24S4⟩, (flush4_12 ⟨24, lt24S4⟩).mpr (by decide), mem_blkS4_12 _ i⟩

theorem value4_sum (c : Dev nD) (o : Spec.Mat 250000 32)
    (hblk : ∀ (t : Fin cfg4.N) (r : Fin 10000) (j : Fin 32),
      (oPay4 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) : S10000x32.Idx → EReal) (ix2 r j) = o (Spec.rowOf25 (Fin.cast N_4 t) r) j) :
    Spec.row0 (k := 32) ((dat4 V c).arrAt 12 cfg4.N) = Spec.colsum o := by
  rw [finalS4_12]
  funext j
  exact (acc4At_last V c (accS4At V c) id (accS4At_zero_apply V c) (accS4At_succ_apply V c) o hblk j).trans (Spec.colsum_blocks25 o j).symm

theorem last_of_flushS4_13 (t : Fin cfg4.N) (hf : (cfg4.win 13).flush t = true) : t.val = 24 :=
  Decidable.byContradiction fun h => by rw [flush4_13_other t h] at hf; exact Bool.false_ne_true hf

theorem flushedS4_13 (c : Dev nD) (t : Fin cfg4.N) (hf : (cfg4.win 13).flush t = true) :
    (dat4 V c).flushed 13 t = ((cfg4.win 13).blk t).view.read (Elt Ideal) (accQ4At V c 24 lt24S4) := by
  have h24 := last_of_flushS4_13 t hf
  obtain rfl : t = ⟨24, lt24S4⟩ := Fin.ext h24
  have e0 : win4_13.index ⟨24, lt24S4⟩ (0 : Fin 2) = 0 := (idx_factsS4 ⟨24, lt24S4⟩).2.2.1
  have e1 : win4_13.index ⟨24, lt24S4⟩ (1 : Fin 2) = 0 := (idx_factsS4 ⟨24, lt24S4⟩).2.2.2
  have hz' : (fun a => win4_13.index ⟨24, lt24S4⟩ a * main_v96_2.ty.shape.size a) = fun _ => 0 := funext fun a => by
    match a with
    | ⟨0, _⟩ => show win4_13.index ⟨24, lt24S4⟩ 0 * _ = 0; rw [e0, Nat.zero_mul]
    | ⟨1, _⟩ => show win4_13.index ⟨24, lt24S4⟩ 1 * _ = 0; rw [e1, Nat.zero_mul]
  show (cfg4.win 13).cut (grid4.coords ⟨24, lt24S4⟩) ((dat4 V c).after 13 ⟨24, lt24S4⟩) = _
  rw [after4_13, outAt4_13_pos V c ⟨24, lt24S4⟩ (by decide) (Nat.lt_of_le_of_lt (Nat.sub_le _ _) lt24S4)]
  unfold out4_13
  rw [View.canon_unit_zero zerosS4, View.readCov_unit_zero _ zerosS4]
  refine Eq.trans ?_ (Memref.read_access_unit_zero (Elt Ideal) main_v96_2 hz' (fun a => by rw [congrFun hz' a]; simp) _).symm
  symm
  show qStep4 _ _ _ _ _ _ _ _ _ _ _ _ = _
  unfold qStep4
  rw [View.canon_unit_zero zerosS4]
  rfl

theorem mem_blkS4_13 (t : Fin cfg4.N) (i : S1x32.Idx) : i ∈ ((cfg4.win 13).blk t).view.set := by
  have e0 : win4_13.index t (0 : Fin 2) = 0 := (idx_factsS4 t).2.2.1
  have e1 : win4_13.index t (1 : Fin 2) = 0 := (idx_factsS4 t).2.2.2
  show i ∈ ((View.whole main_v96_2).slice (win4_13.rect t)).set
  rw [View.set_slice_whole, Rect.mem_set_unit]
  intro a
  have h0 : (i 0).val < 1 := (i 0).isLt
  have h1 : (i 1).val < 32 := (i 1).isLt
  match a with
  | ⟨0, _⟩ => show win4_13.index t 0 * 1 ≤ (i 0).val ∧ (i 0).val < win4_13.index t 0 * 1 + 1; rw [e0]; omega
  | ⟨1, _⟩ => show win4_13.index t 1 * 32 ≤ (i 1).val ∧ (i 1).val < win4_13.index t 1 * 32 + 32; rw [e1]; omega

theorem finalS4_13 (c : Dev nD) : (dat4 V c).arrAt 13 cfg4.N = accQ4At V c 24 lt24S4 :=
  (dat4 V c).arrAt_eq_of_cover 13 _ (flushedS4_13 V c) fun i =>
    ⟨⟨24, lt24S4⟩, (flush4_13 ⟨24, lt24S4⟩).mpr (by decide), mem_blkS4_13 _ i⟩

theorem value4_sumsq (c : Dev nD) (o : Spec.Mat 250000 32)
    (hblk : ∀ (t : Fin cfg4.N) (r : Fin 10000) (j : Fin 32),
      (oPay4 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) : S10000x32.Idx → EReal) (ix2 r j) = o (Spec.rowOf25 (Fin.cast N_4 t) r) j) :
    Spec.row0 (k := 32) ((dat4 V c).arrAt 13 cfg4.N) = Spec.colsumsq o := by
  rw [finalS4_13]
  funext j
  exact (acc4At_last V c (accQ4At V c) (fun x => x * x) (accQ4At_zero_apply V c) (accQ4At_succ_apply V c) o hblk j).trans (Spec.colsumsq_blocks25 o j).symm

end Cert.KernelIdeal.Hand

end
-- ==== Proof.KI.R5Value.lean ====
import proofs.«427087_j34256659153343_2_alg».proof.Proof.KI.R5

import proofs.«427087_j34256659153343_2_alg».proof.Proof.Spec

import Idealize.ShloMosaic.Lib.ValueIdx

import Idealize.ShloMosaic.Lib.Pipeline.Value

import Idealize.ShloMosaic.Lib.ValueLayout

import Idealize.ShloMosaic.PureOps.Ideal.Laws

set_option maxRecDepth 16384

noncomputable section

namespace Cert.KernelIdeal.Hand

open Cert.KernelIdeal Cert.KernelIdeal.Gen

open Idealize.ShloMosaic Idealize.ShloMosaic.TcCoe Idealize.SL.Sem

open Idealize.ShloMosaic.Pipeline (Dat)

open Idealize.ShloMosaic.ValueIdx

variable (V : (c : Dev nD) → (b : Ref sig .tc) → Buf (Elt Ideal) ((c : Thread nD τ).loc b))

theorem zeros5 : (![0, 0] : Fin 2 → Nat) = fun _ => 0 := funext fun a => by fin_cases a <;> rfl

theorem bcast_row5 (r : S1x32.Idx → EReal) (x : S10000x32.Idx) :
    broadcastTo S10000x32 r broadcasts_S1x32_S10000x32 x = r (ix2 0 (x 1)) :=
  broadcastTo_apply r _ x (ix2 0 (x 1)) fun a => by
    match a with
    | ⟨0, _⟩ => rfl
    | ⟨1, _⟩ => rfl

theorem pay5_apply (var : Vec Ideal S1x32 .f32) (o : Vec Ideal S10000x32 .f32) (mean g b : Vec Ideal S1x32 .f32)
    (x : S10000x32.Idx) :
    k5_pay1 var o mean g b x
      = (o x - mean (ix2 0 (x 1))) * Ideal.rsqrt (var (ix2 0 (x 1)) + Spec.eps) * g (ix2 0 (x 1)) + b (ix2 0 (x 1)) := by
  unfold k5_pay1
  simp only [shapeCast_self]
  rw [addf_apply, mulf_apply, mulf_apply, subf_apply, bcast_row5, bcast_row5, bcast_row5, bcast_row5]
  rfl

theorem idx_facts5 : ∀ t : Fin cfg5.N,
    (win5_0.index t (0 : Fin 2) = t.val ∧ win5_0.index t (1 : Fin 2) = 0
      ∧ win5_5.index t (0 : Fin 2) = t.val ∧ win5_5.index t (1 : Fin 2) = 0)
    ∧ ∀ a : Fin 2, win5_1.index t a = 0 ∧ win5_2.index t a = 0 ∧ win5_3.index t a = 0 ∧ win5_4.index t a = 0 :=
  (by decide +kernel : ∀ t : Fin grid5.N, _)

theorem blk5_0_apply (c : Dev nD) (t : Fin cfg5.N) (x : S10000x32.Idx) :
    (blk5 V c 0 t : Vec Ideal S10000x32 .f32) x
      = (V c main_v96_0 : S250000x32.Idx → EReal) (((cfg5.win 5).blk t).view.emb x) := by
  obtain ⟨e0, e1, e2, e3⟩ := (idx_facts5 t).1
  unfold blk5; rw [View.read_apply]
  refine congrArg (V c main_v96_0 : S250000x32.Idx → EReal) (funext fun a => Fin.ext ?_)
  match a with
  | ⟨0, _⟩ => show win5_0.index t 0 * 10000 + 1 * (x 0).val = win5_5.index t 0 * 10000 + 1 * (x 0).val; rw [e0, e2]
  | ⟨1, _⟩ => show win5_0.index t 1 * 32 + 1 * (x 1).val = win5_5.index t 1 * 32 + 1 * (x 1).val; rw [e1, e3]

theorem blk5_rows (c : Dev nD) (t : Fin cfg5.N) (y : S1x32.Idx) :
    (blk5 V c 1 t : Vec Ideal S1x32 .f32) y = (V c main_v98 : S1x32.Idx → EReal) y
      ∧ (blk5 V c 2 t : Vec Ideal S1x32 .f32) y = (V c main_v102 : S1x32.Idx → EReal) y
      ∧ (blk5 V c 3 t : Vec Ideal S1x32 .f32) y = (V c main_v103 : S1x32.Idx → EReal) y
      ∧ (blk5 V c 4 t : Vec Ideal S1x32 .f32) y = (V c main_v104 : S1x32.Idx → EReal) y := by
  have hz := (idx_facts5 t).2
  unfold blk5; rw [View.read_apply, View.read_apply, View.read_apply, View.read_apply]
  exact ⟨congrArg (V c main_v98 : S1x32.Idx → EReal) (funext fun a => Fin.ext (Pipeline.Window.rect_emb_val_of_index_zero win5_1 t a (hz a).1 y)),
    congrArg (V c main_v102 : S1x32.Idx → EReal) (funext fun a => Fin.ext (Pipeline.Window.rect_emb_val_of_index_zero win5_2 t a (hz a).2.1 y)),
    congrArg (V c main_v103 : S1x32.Idx → EReal) (funext fun a => Fin.ext (Pipeline.Window.rect_emb_val_of_index_zero win5_3 t a (hz a).2.2.1 y)),
    congrArg (V c main_v104 : S1x32.Idx → EReal) (funext fun a => Fin.ext (Pipeline.Window.rect_emb_val_of_index_zero win5_4 t a (hz a).2.2.2 y))⟩

def norm5 (o : S250000x32.Idx → EReal) (mean var g b : S1x32.Idx → EReal) : S250000x32.Idx → EReal := fun i =>
  (o i - mean (ix2 0 (i 1))) * Ideal.rsqrt (var (ix2 0 (i 1)) + Spec.eps) * g (ix2 0 (i 1)) + b (ix2 0 (i 1))

def G5 (c : Dev nD) : S250000x32.Idx → EReal :=
  norm5 (V c main_v96_0) (V c main_v98) (V c main_v102) (V c main_v103) (V c main_v104)

theorem flushed5_5 (c : Dev nD) (t : Fin cfg5.N) :
    (dat5 V c).flushed 5 t = ((cfg5.win 5).blk t).view.read (Elt Ideal) (G5 V c) := by
  obtain ⟨-, -, -, e3⟩ := (idx_facts5 t).1
  show (cfg5.win 5).cut (grid5.coords t) ((dat5 V c).after 5 t) = _
  rw [after5_5]
  unfold res5
  rw [View.canon_unit_zero zeros5]
  simp only [View.ld_unit_zero (S := S10000x32) zeros5, View.ld_unit_zero (S := S1x32) zeros5]
  funext x
  rw [View.read_apply]
  show k5_pay1 (blk5 V c 2 t) (blk5 V c 0 t) (blk5 V c 1 t) (blk5 V c 3 t) (blk5 V c 4 t) x
    = G5 V c (((cfg5.win 5).blk t).view.emb x)
  have hcol : (((cfg5.win 5).blk t).view.emb x) 1 = x 1 :=
    Fin.ext (Pipeline.Window.rect_emb_val_of_index_zero win5_5 t 1 e3 x)
  obtain ⟨r1, r2, r3, r4⟩ := blk5_rows V c t (ix2 0 (x 1))
  rw [pay5_apply, r1, r2, r3, r4, blk5_0_apply]
  unfold G5 norm5
  rw [hcol]

theorem cover5_5 (i : S250000x32.Idx) :
    ∃ t : Fin cfg5.N, (cfg5.win 5).flush t = true ∧ i ∈ ((cfg5.win 5).blk t).view.set := by
  have hi0 : (i 0).val < 250000 := (i 0).isLt
  have hi1 : (i 1).val < 32 := (i 1).isLt
  have hN : cfg5.N = 25 := N_5
  obtain ⟨t, ht⟩ : ∃ t : Fin cfg5.N, t.val = (i 0).val / 10000 := ⟨⟨(i 0).val / 10000, by rw [hN]; omega⟩, rfl⟩
  obtain ⟨-, -, e2, e3⟩ := (idx_facts5 t).1
  refine ⟨t, flush5_5 t, ?_⟩
  show i ∈ ((View.whole main_v105).slice (win5_5.rect t)).set
  rw [View.set_slice_whole, Rect.mem_set_unit]
  intro a
  match a with
  | ⟨0, _⟩ =>
    show win5_5.index t 0 * 10000 ≤ (i 0).val ∧ (i 0).val < win5_5.index t 0 * 10000 + 10000
    rw [e2, ht]; omega
  | ⟨1, _⟩ =>
    show win5_5.index t 1 * 32 ≤ (i 1).val ∧ (i 1).val < win5_5.index t 1 * 32 + 32
    rw [e3]; omega

theorem value5 (c : Dev nD) :
    Spec.mat (n := 250000) (k := 32) ((dat5 V c).arrAt 5 cfg5.N)
      = fun i j => (Spec.mat (n := 250000) (k := 32) (V c main_v96_0) i j - Spec.mat (n := 1) (k := 32) (V c main_v98) 0 j)
          * Ideal.rsqrt (Spec.mat (n := 1) (k := 32) (V c main_v102) 0 j + Spec.eps)
          * Spec.mat (n := 1) (k := 32) (V c main_v103) 0 j + Spec.mat (n := 1) (k := 32) (V c main_v104) 0 j := by
  rw [(dat5 V c).arrAt_eq_of_cover 5 (G5 V c) (fun t _ => flushed5_5 V c t) cover5_5]; rfl

end Cert.KernelIdeal.Hand

end
-- ==== Proof.KI.R6Arr.lean ====
import proofs.«427087_j34256659153343_2_alg».proof.Proof.KI.R6

import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic

open Idealize.SL Idealize.SL.RA Idealize.SL.BI

open scoped Idealize.SL.BI

open Idealize.SL.BI.BIBase Idealize.SL.BI.Laws Idealize.SL.ProofMode Idealize.SL.Sem

open Idealize.ShloMosaic.Rounds

open Idealize.ShloMosaic.Pipeline (Dat Cfg Window BodyObligation cellOf)

variable {F : FTy → Type} [FloatOps F]

variable (V : (c : Dev nD) → (b : Ref sig .tc) → Buf (Elt F) ((c : Thread nD τ).loc b))

abbrev tLast6 : Fin cfg6.N := ⟨124, by rw [N6_eq]; omega⟩

theorem flushed6_eq (c : Dev nD) (t : Fin cfg6.N) (hf : (cfg6.win 6).flush t = true) :
    (dat6 V c).flushed 6 t = ((cfg6.win 6).blk t).view.read (Elt F) (out6 V c tLast6 : Buf (Elt F) ((c : Thread nD τ).loc main_v109)) := by
  have hN : cfg6.N = 125 := N6_eq
  have h1 : t.val = 124 := by have := (flush6_6 t).mp hf; have := t.isLt; omega
  obtain rfl : t = tLast6 := Fin.ext h1
  show (cfg6.win 6).cut (grid6.coords tLast6) ((dat6 V c).after 6 tLast6) = _
  rw [after6_6]
  have hz' : (fun a => win6_6.index tLast6 a * main_v109.ty.shape.size a) = fun _ => 0 := funext fun a => by fin_cases a <;> decide +kernel
  exact (Memref.read_access_unit_zero (Elt F) main_v109 hz' (fun a => by rw [congrFun hz' a]; simp) (out6 V c tLast6)).symm

theorem final6 (c : Dev nD) : (dat6 V c).arrAt 6 cfg6.N = (out6 V c tLast6 : Buf (Elt F) ((c : Thread nD τ).loc main_v109)) :=
  (dat6 V c).arrAt_eq_of_cover 6 (out6 V c tLast6) (flushed6_eq V c) fun i =>
    ⟨tLast6, (flush6_6 tLast6).mpr rfl, by
      show i ∈ ((View.whole main_v109).slice (win6_6.rect tLast6)).set
      rw [View.set_slice_whole, Rect.mem_set_unit]
      have e : ∀ a, win6_6.index tLast6 a * win6_6.size a = 0 ∧ win6_6.xsize (grid6.coords tLast6) a = main_v109.ty.shape.size a := by
        decide +kernel
      intro a
      show win6_6.index tLast6 a * win6_6.size a ≤ (i a : Nat) ∧ (i a : Nat) < win6_6.index tLast6 a * win6_6.size a + win6_6.xsize (grid6.coords tLast6) a
      rw [(e a).1, (e a).2, Nat.zero_add]; exact ⟨Nat.zero_le _, (i a).isLt⟩⟩

end Cert.KernelIdeal.Hand

end
-- ==== Proof.KI.R6Value.lean ====
import proofs.«427087_j34256659153343_2_alg».proof.Proof.KI.R6Arr
import proofs.«427087_j34256659153343_2_alg».proof.Proof.Spec
import proofs.«427087_j34256659153343_2_alg».proof.Proof.SpecArr
import proofs.«427087_j34256659153343_2_alg».proof.Proof.SpecSums
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws
import Idealize.ShloMosaic.Lib.IdealHost

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem matmul_colcol_apply {K M N : Nat} {φ₁ φ₂ : FTy}
    (w : DotDims.WF ⟨2, ![K, M]⟩ ⟨2, ![K, N]⟩ ⟨2, ![M, N]⟩ [0] [0] [1] [1] [] [])
    (A : FVec Ideal ⟨2, ![K, M]⟩ φ₁) (B : FVec Ideal ⟨2, ![K, N]⟩ φ₂) (a : Fin M) (b : Fin N) :
    matmul (⟨[0], [0], [1], [1], [], [], w⟩ : DotDims _ _ _) none A B (constant _ .f32 0x00000000#32) (ix2 a b)
      = ∑ c : Fin K, A (ix2 c a) * B (ix2 c b) := by
  show FloatOps.matmul _ none A B _ (ix2 a b) = _
  rw [Ideal.matmul_constant_zero_apply,
    ← Equiv.sum_comp (contrEquiv1 (⟨[0], [0], [1], [1], [], [], w⟩ : DotDims _ _ _) K rfl rfl).symm]
  refine Finset.sum_congr rfl fun c _ => ?_
  have c2 := contrEquiv1_symm_val
    (⟨[0], [0], [1], [1], [], [], w⟩ : DotDims ⟨2, ![K, M]⟩ ⟨2, ![K, N]⟩ ⟨2, ![M, N]⟩) K rfl rfl c
  exact congrArg₂ (· * ·) (congrArg A (funext fun ax => Fin.ext (match ax with | ⟨0, _⟩ => c2 | ⟨1, _⟩ => rfl)))
    (congrArg B (funext fun ax => Fin.ext (match ax with | ⟨0, _⟩ => c2 | ⟨1, _⟩ => rfl)))

theorem matmul_plain_apply {M K N : Nat} {φ₁ φ₂ : FTy} (A : FVec Ideal ⟨2, ![M, K]⟩ φ₁) (B : FVec Ideal ⟨2, ![K, N]⟩ φ₂)
    (a : Fin M) (b : Fin N) :
    matmul (DotDims.plain M K N) none A B (constant _ .f32 0x00000000#32) (ix2 a b) = ∑ c : Fin K, A (ix2 a c) * B (ix2 c b) := by
  show FloatOps.matmul _ none A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  exact congrArg₂ (· * ·) (congrArg A (funext fun ax => Fin.ext (match ax with | ⟨0, _⟩ => rfl | ⟨1, _⟩ => c2)))
    (congrArg B (funext fun ax => Fin.ext (match ax with | ⟨0, _⟩ => c2 | ⟨1, _⟩ => rfl)))

theorem bcastTo_col_apply {α : Type} {m n : Nat} (hb : (⟨2, ![m, 1]⟩ : Shape).Broadcasts ⟨2, ![m, n]⟩)
    (y : (⟨2, ![m, 1]⟩ : Shape).Idx → α) (r : Fin m) (t : Fin n) :
    broadcastTo ⟨2, ![m, n]⟩ y hb (ix2 r t) = y (ix2 r (0 : Fin 1)) :=
  broadcastTo_apply y hb (ix2 r t) (ix2 r (0 : Fin 1)) fun a => by
    match a with
    | ⟨0, _⟩ =>
      show r.val = if m = 1 then 0 else r.val
      split_ifs with hm
      · have := r.isLt; omega
      · rfl
    | ⟨1, _⟩ => rfl

theorem pay6_1_apply (i : S512x32.Idx) : k6_pay1 (F := Ideal) i = 0 := by
  unfold k6_pay1
  simp only [shapeCast_self]
  exact Ideal.ofBits_zero_f32

theorem pay6_2_apply (i : S512x1.Idx) : k6_pay2 (F := Ideal) i = 0 := by
  unfold k6_pay2
  simp only [shapeCast_self]
  exact Ideal.ofBits_zero_f32

theorem pay6_3_apply (b : Vec Ideal S2000x1 .i32) (n : Fin 2000) (g : Fin 512) :
    k6_pay3 (F := Ideal) b (ix2 n g) = if b (ix2 n (0 : Fin 1)) = BitVec.ofNat 32 g.val then 1 else 0 := by
  unfold k6_pay3
  simp only [shapeCast_self]
  rw [truncf_apply, sitofp_apply, extui_apply]
  show ((((IntOp.cmpi .eq (broadcastTo S2000x512 b broadcasts_S2000x1_S2000x512 (ix2 n g))
      (iota .tc S2000x512 32 [1] iota_S2000x512_d1_w32 (ix2 n g))).setWidth 32).toInt : ℝ) : EReal) = _
  rw [bcastTo_col_apply, iota_single_apply]
  show ((((BitVec.ofBool (b (ix2 n (0 : Fin 1)) == BitVec.ofNat 32 g.val)).setWidth 32).toInt : ℝ) : EReal) = _
  by_cases h : b (ix2 n (0 : Fin 1)) = BitVec.ofNat 32 g.val
  · rw [if_pos h, beq_iff_eq.mpr h]
    show (((1#32 : BitVec 32).toInt : ℝ) : EReal) = 1
    norm_num
  · rw [if_neg h, beq_eq_false_iff_ne.mpr h]
    show (((0#32 : BitVec 32).toInt : ℝ) : EReal) = 0
    norm_num

theorem logistic_apply {s : Shape} {φ : FTy} (a : FVec Ideal s φ) (i : s.Idx) : logistic a i = Ideal.logistic (a i) := rfl

theorem pay6_4_apply (h : Vec Ideal S2000x32 .f32) (b : Vec Ideal S2000x1 .i32) (a : Vec Ideal S512x32 .f32)
    (g : Fin 512) (j : Fin 32) :
    k6_pay4 (F := Ideal) h b a (ix2 g j)
      = a (ix2 g j) + ∑ n : Fin 2000, k6_pay3 (F := Ideal) b (ix2 n g) * h (ix2 n j) := by
  have key := matmul_colcol_apply (K := 2000) (M := 512) (N := 32)
    Cert.KernelIdeal.Facts₀.dot_S2000x512_S2000x32_S512x32_0_0_1_1_n_n_wf (k6_pay3 (F := Ideal) b)
    (truncf .bf16 h bitsLt_bf16_f32) g j
  unfold k6_pay4
  simp only [shapeCast_self]
  rw [addf_apply]
  exact congrArg (a (ix2 g j) + ·) key

theorem pay6_5_apply (b : Vec Ideal S2000x1 .i32) (a : Vec Ideal S512x1 .f32) (g : Fin 512) :
    k6_pay5 (F := Ideal) b a (ix2 g (0 : Fin 1))
      = a (ix2 g (0 : Fin 1)) + ∑ n : Fin 2000, k6_pay3 (F := Ideal) b (ix2 n g) * 1 := by
  have key := matmul_colcol_apply (K := 2000) (M := 512) (N := 1)
    Cert.KernelIdeal.Facts₀.dot_S2000x512_S2000x1_S512x1_0_0_1_1_n_n_wf (k6_pay3 (F := Ideal) b)
    (broadcast S2000x1 (Scalar.ofBits (F := Ideal) .bf16 0x3F80#16)) g (0 : Fin 1)
  unfold k6_pay5
  simp only [shapeCast_self]
  rw [addf_apply]
  refine (congrArg (a (ix2 g (0 : Fin 1)) + ·) key).trans ?_
  refine congrArg (a (ix2 g (0 : Fin 1)) + ·) (Finset.sum_congr rfl fun n _ => ?_)
  refine congrArg (k6_pay3 (F := Ideal) b (ix2 n g) * ·) ?_
  exact Ideal.ofBits_one_bf16

theorem pay6_6_apply (S : Vec Ideal S512x32 .f32) (C : Vec Ideal S512x1 .f32) (lbW : Vec Ideal S32x16 .f32)
    (lmW : Vec Ideal S16x1 .f32) (lbb : Vec Ideal S1x16 .f32) (lmb : Vec Ideal S1x1 .f32) (g : Fin 512) :
    k6_pay6 (F := Ideal) S C lbW lmW lbb lmb (ix2 g (0 : Fin 1))
      = Ideal.logistic ((∑ k : Fin 16,
          Spec.relu ((∑ j : Fin 32, Ideal.div (S (ix2 g j)) (max (C (ix2 g (0 : Fin 1))) 1) * lbW (ix2 j k))
            + lbb (ix2 (0 : Fin 1) k)) * lmW (ix2 k (0 : Fin 1))) + lmb (ix2 (0 : Fin 1) (0 : Fin 1))) := by
  have hd1 : dot_S512x32_S32x16_S512x16_1_0_0_1_n_n = DotDims.plain 512 32 16 := rfl
  have hd2 : dot_S512x16_S16x1_S512x1_1_0_0_1_n_n = DotDims.plain 512 16 1 := rfl
  unfold k6_pay6
  simp only [shapeCast_self]
  rw [logistic_apply, addf_apply, hd2, matmul_plain_apply, broadcastTo_1b_ab_apply]
  congr 2
  refine Finset.sum_congr rfl fun k _ => ?_
  rw [truncf_apply, truncf_apply, maximumf_apply, addf_apply, hd1, matmul_plain_apply, broadcastTo_1b_ab_apply, broadcast_apply]
  congr 1
  show max _ (Ideal.ofBits .f32 0x00000000#32) = max _ 0
  rw [Ideal.ofBits_zero_f32]
  congr 2
  refine Finset.sum_congr rfl fun j _ => ?_
  rw [truncf_apply, truncf_apply, divf_apply, bcastTo_col_apply, maximumf_apply, broadcast_apply]
  show Ideal.div _ (max _ (Ideal.ofBits .f32 0x3F800000#32)) * _ = _
  rw [Ideal.ofBits_one_f32]

variable (V : (c : Dev nD) → (b : Ref sig .tc) → Buf (Elt Ideal) ((c : Thread nD τ).loc b))

theorem idx_row6 : ∀ t : Fin cfg6.N,
    win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

theorem idx_zero6 : ∀ (t : Fin cfg6.N) (a : Fin 2),
    win6_2.index t a = 0 ∧ win6_3.index t a = 0 ∧ win6_4.index t a = 0 ∧ win6_5.index t a = 0 :=
  (by decide +kernel : ∀ (t : Fin grid6.N) (a : Fin 2), _)

-- A block whose index is zero on every axis and whose sizes are the array's reads as the whole array.
theorem read_blk_zero {b : Ref sig .tc} {off : Fin b.ty.shape.rank → Nat} (h : ∀ a, off a = 0)
    (inb : ∀ a, off a * b.ty.shape.size a + b.ty.shape.size a ≤ b.ty.shape.size a) (f : b.ty.Contents (Elt Ideal)) :
    ((Memref.whole b).access (Rect.unit (fun a => off a * b.ty.shape.size a) b.ty.shape.size inb) : View sig .tc _ _ _).read (Elt Ideal) f = f :=
  Memref.read_access_unit_zero _ b (funext fun a => by rw [h, Nat.zero_mul]) inb f

def t125 (t : Fin cfg6.N) : Fin 125 := ⟨t.val, lt_of_lt_of_eq t.isLt N6_eq⟩

theorem hblk6_apply (c : Dev nD) (t : Fin cfg6.N) (n : Fin 2000) (j : Fin 32) :
    (iblk6 V c 0 t : Vec Ideal S2000x32 .f32) (ix2 n j) = Spec.mat (n := 250000) (k := 32) (V c main_v105) (Spec.rowOf125 (t125 t) n) j := by
  obtain ⟨e0, e1, -⟩ := idx_row6 t
  unfold iblk6
  rw [View.read_apply]
  show (V c main_v105 : S250000x32.Idx → EReal) _
    = (V c main_v105 : S250000x32.Idx → EReal) (ix2 (Spec.rowOf125 (t125 t) n) j)
  congr 1
  funext a
  apply Fin.ext
  match a with
  | ⟨0, _⟩ => show win6_0.index t 0 * 2000 + 1 * n.val = 2000 * t.val + n.val; rw [e0]; omega
  | ⟨1, _⟩ => show win6_0.index t 1 * 32 + 1 * j.val = j.val; rw [e1]; omega

theorem bblk6_apply (c : Dev nD) (t : Fin cfg6.N) (n : Fin 2000) :
    (iblk6 V c 1 t : Vec Ideal S2000x1 .i32) (ix2 n (0 : Fin 1))
      = Spec.words2 (n := 250000) (w := 32) (V c main_v106) (Spec.rowOf125 (t125 t) n) := by
  obtain ⟨-, -, e0, e1⟩ := idx_row6 t
  unfold iblk6
  rw [View.read_apply]
  show (V c main_v106 : S250000x1.Idx → BitVec 32) _
    = (V c main_v106 : S250000x1.Idx → BitVec 32) (ix2 (Spec.rowOf125 (t125 t) n) (0 : Fin 1))
  congr 1
  funext a
  apply Fin.ext
  match a with
  | ⟨0, _⟩ => show win6_1.index t 0 * 2000 + 1 * n.val = 2000 * t.val + n.val; rw [e0]; omega
  | ⟨1, _⟩ => show win6_1.index t 1 * 1 + 1 * 0 = 0; rw [e1]

theorem lbW6_apply (c : Dev nD) (t : Fin cfg6.N) : (iblk6 V c 2 t : Vec Ideal S32x16 .f32) = V c main_arg33 :=
  read_blk_zero (b := main_arg33) (off := win6_2.index t) (fun a => (idx_zero6 t a).1) _ _

theorem lbb6_apply (c : Dev nD) (t : Fin cfg6.N) : (iblk6 V c 3 t : Vec Ideal S1x16 .f32) = V c main_v107 :=
  read_blk_zero (b := main_v107) (off := win6_3.index t) (fun a => (idx_zero6 t a).2.1) _ _

theorem lmW6_apply (c : Dev nD) (t : Fin cfg6.N) : (iblk6 V c 4 t : Vec Ideal S16x1 .f32) = V c main_arg35 :=
  read_blk_zero (b := main_arg35) (off := win6_4.index t) (fun a => (idx_zero6 t a).2.2.1) _ _

theorem lmb6_apply (c : Dev nD) (t : Fin cfg6.N) : (iblk6 V c 5 t : Vec Ideal S1x1 .f32) = V c main_v108 :=
  read_blk_zero (b := main_v108) (off := win6_5.index t) (fun a => (idx_zero6 t a).2.2.2) _ _

def blkS (c : Dev nD) (g : Fin 512) (j : Fin 32) (s : ℕ) : EReal :=
  if hs : s < 125 then
    ∑ n ∈ Finset.univ.filter (fun n : Fin 2000 =>
        Spec.words2 (n := 250000) (w := 32) (V c main_v106) (Spec.rowOf125 ⟨s, hs⟩ n) = BitVec.ofNat 32 g.val),
      Spec.mat (n := 250000) (k := 32) (V c main_v105) (Spec.rowOf125 ⟨s, hs⟩ n) j
  else 0

def blkC (c : Dev nD) (g : Fin 512) (s : ℕ) : EReal :=
  if hs : s < 125 then
    ∑ _n ∈ Finset.univ.filter (fun n : Fin 2000 =>
        Spec.words2 (n := 250000) (w := 32) (V c main_v106) (Spec.rowOf125 ⟨s, hs⟩ n) = BitVec.ofNat 32 g.val),
      (1 : EReal)
  else 0

theorem blockS_eq (c : Dev nD) (g : Fin 512) (j : Fin 32) (t : Fin cfg6.N) :
    ∑ n : Fin 2000, k6_pay3 (F := Ideal) (bblk6 V c t) (ix2 n g) * (hblk6 V c t) (ix2 n j) = blkS V c g j t.val := by
  unfold blkS
  rw [dif_pos (lt_of_lt_of_eq t.isLt N6_eq)]
  simp only [pay6_3_apply, bblk6_apply, hblk6_apply]
  exact Spec.onehot_sum _ _

theorem blockC_eq (c : Dev nD) (g : Fin 512) (t : Fin cfg6.N) :
    ∑ n : Fin 2000, k6_pay3 (F := Ideal) (bblk6 V c t) (ix2 n g) * 1 = blkC V c g t.val := by
  unfold blkC
  rw [dif_pos (lt_of_lt_of_eq t.isLt N6_eq)]
  simp only [pay6_3_apply, bblk6_apply]
  exact Spec.onehot_count _

theorem accS6_closed (c : Dev nD) (g : Fin 512) (j : Fin 32) : ∀ (k : ℕ) (hk : k < cfg6.N),
    accS6 V c k hk (ix2 g j) = ∑ s ∈ Finset.range (k + 1), blkS V c g j s
  | 0, hk => by
    show k6_pay4 (hblk6 V c ⟨0, hk⟩) (bblk6 V c ⟨0, hk⟩) (k6_pay1 (F := Ideal)) (ix2 g j) = _
    rw [pay6_4_apply, pay6_1_apply, zero_add, blockS_eq V c g j ⟨0, hk⟩, Finset.sum_range_one]
  | k + 1, hk => by
    show k6_pay4 (hblk6 V c ⟨k + 1, hk⟩) (bblk6 V c ⟨k + 1, hk⟩) (accS6 V c k (Nat.lt_of_succ_lt hk)) (ix2 g j) = _
    rw [pay6_4_apply, accS6_closed c g j k (Nat.lt_of_succ_lt hk), blockS_eq V c g j ⟨k + 1, hk⟩,
      Finset.sum_range_succ _ (k + 1)]

theorem accC6_closed (c : Dev nD) (g : Fin 512) : ∀ (k : ℕ) (hk : k < cfg6.N),
    accC6 V c k hk (ix2 g (0 : Fin 1)) = ∑ s ∈ Finset.range (k + 1), blkC V c g s
  | 0, hk => by
    show k6_pay5 (bblk6 V c ⟨0, hk⟩) (k6_pay2 (F := Ideal)) (ix2 g (0 : Fin 1)) = _
    rw [pay6_5_apply, pay6_2_apply, zero_add, blockC_eq V c g ⟨0, hk⟩, Finset.sum_range_one]
  | k + 1, hk => by
    show k6_pay5 (bblk6 V c ⟨k + 1, hk⟩) (accC6 V c k (Nat.lt_of_succ_lt hk)) (ix2 g (0 : Fin 1)) = _
    rw [pay6_5_apply, accC6_closed c g k (Nat.lt_of_succ_lt hk), blockC_eq V c g ⟨k + 1, hk⟩,
      Finset.sum_range_succ _ (k + 1)]

theorem accS6_last (c : Dev nD) (g : Fin 512) (j : Fin 32) (h : 124 < cfg6.N) :
    accS6 V c 124 h (ix2 g j)
      = Spec.segsum (Spec.mat (n := 250000) (k := 32) (V c main_v105))
          (Spec.words2 (n := 250000) (w := 32) (V c main_v106)) g j := by
  rw [accS6_closed, Spec.segsum_blocks125]
  show ∑ s ∈ Finset.range 125, blkS V c g j s = _
  rw [Finset.sum_range]
  refine Finset.sum_congr rfl fun t _ => ?_
  unfold blkS
  rw [dif_pos t.isLt]

theorem accC6_last (c : Dev nD) (g : Fin 512) (h : 124 < cfg6.N) :
    accC6 V c 124 h (ix2 g (0 : Fin 1))
      = Spec.segcnt (Spec.words2 (n := 250000) (w := 32) (V c main_v106)) g := by
  rw [accC6_closed, Spec.segcnt_blocks125]
  show ∑ s ∈ Finset.range 125, blkC V c g s = _
  rw [Finset.sum_range]
  refine Finset.sum_congr rfl fun t _ => ?_
  unfold blkC
  rw [dif_pos t.isLt]

theorem out6_apply (c : Dev nD) (g : Fin 512) :
    (out6 V c tLast6) (ix2 g (0 : Fin 1))
      = Spec.head (Spec.mat (n := 250000) (k := 32) (V c main_v105))
          (Spec.words2 (n := 250000) (w := 32) (V c main_v106)) (Spec.mat (n := 32) (k := 16) (V c main_arg33))
          (Spec.row0 (k := 16) (V c main_v107)) (Spec.mat (n := 16) (k := 1) (V c main_arg35))
          (Spec.row0 (k := 1) (V c main_v108)) g := by
  unfold out6
  rw [pay6_6_apply]
  unfold Spec.head
  simp only [accS6_last, accC6_last, lbW6_apply, lmW6_apply, lbb6_apply, lmb6_apply]
  rfl

theorem value6 (c : Dev nD) :
    (fun g => Spec.mat (n := 512) (k := 1) ((dat6 V c).arrAt 6 cfg6.N) g 0)
      = Spec.head (Spec.mat (n := 250000) (k := 32) (V c main_v105))
          (Spec.words2 (n := 250000) (w := 32) (V c main_v106)) (Spec.mat (n := 32) (k := 16) (V c main_arg33))
          (Spec.row0 (k := 16) (V c main_v107)) (Spec.mat (n := 16) (k := 1) (V c main_arg35))
          (Spec.row0 (k := 1) (V c main_v108)) := by
  rw [final6]
  funext g
  exact out6_apply V c g

end Cert.KernelIdeal.Hand

end
-- ==== Proof.SpecLaws.lean ====
import proofs.«427087_j34256659153343_2_alg».proof.Proof.Spec

noncomputable section

open scoped BigOperators

namespace Cert.Spec

open Idealize.ShloMosaic Idealize.ShloMosaic.ValueIdx

theorem cN_eq : cN = ((250000 : ℝ) : EReal) := by
  unfold cN; simp [Ideal.ofBits, Ideal.ieee, -EReal.coe_mul]; norm_num

theorem half_eq : half = ((1 / 2 : ℝ) : EReal) := by
  unfold half; simp [Ideal.ofBits, Ideal.ieee, -EReal.coe_mul]; norm_num

theorem eps_pos : ∃ e : ℝ, 0 < e ∧ eps = (e : EReal) := by
  unfold eps; simp [Ideal.ofBits, Ideal.ieee, -EReal.coe_mul]

theorem isFin_ofBits_half : IsFin half := ⟨_, half_eq⟩

theorem isFin_coe (r : ℝ) : IsFin (r : EReal) := ⟨r, rfl⟩

theorem isFin_zero : IsFin (0 : EReal) := ⟨0, rfl⟩

theorem isFin_add {x y : EReal} (hx : IsFin x) (hy : IsFin y) : IsFin (x + y) := by
  obtain ⟨a, rfl⟩ := hx; obtain ⟨b, rfl⟩ := hy; exact ⟨a + b, (EReal.coe_add a b).symm⟩

theorem isFin_sub {x y : EReal} (hx : IsFin x) (hy : IsFin y) : IsFin (x - y) := by
  obtain ⟨a, rfl⟩ := hx; obtain ⟨b, rfl⟩ := hy; exact ⟨a - b, (EReal.coe_sub a b).symm⟩

theorem isFin_mul {x y : EReal} (hx : IsFin x) (hy : IsFin y) : IsFin (x * y) := by
  obtain ⟨a, rfl⟩ := hx; obtain ⟨b, rfl⟩ := hy; exact ⟨a * b, (EReal.coe_mul a b).symm⟩

theorem isFin_max {x y : EReal} (hx : IsFin x) (hy : IsFin y) : IsFin (max x y) := by
  rcases le_total x y with h | h
  · rw [max_eq_right h]; exact hy
  · rw [max_eq_left h]; exact hx

theorem isFin_relu {x : EReal} (hx : IsFin x) : IsFin (relu x) := isFin_max hx isFin_zero

theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem isFin_sum {ι : Type} (s : Finset ι) (f : ι → EReal) (hf : ∀ i, IsFin (f i)) : IsFin (∑ i ∈ s, f i) := by
  choose r hr using hf
  have hfr : f = fun i => (r i : EReal) := funext hr
  rw [hfr, coe_sum]; exact ⟨_, rfl⟩

theorem div_cN (a : ℝ) : Ideal.div (a : EReal) cN = ((a / 250000 : ℝ) : EReal) := by
  rw [cN_eq, Ideal.div_coe (by norm_num : (250000 : ℝ) ≠ 0), ← EReal.coe_mul, mul_one_div]

theorem mu_coe (r : Fin 250000 → Fin 32 → ℝ) (j : Fin 32) :
    mu (fun i j => (r i j : EReal)) j = (((∑ i, r i j) / 250000 : ℝ) : EReal) := by
  show Ideal.div (∑ i : Fin 250000, (r i j : EReal)) cN = _
  rw [coe_sum, div_cN]

theorem varR_coe (r : Fin 250000 → Fin 32 → ℝ) (j : Fin 32) :
    varR (fun i j => (r i j : EReal)) j
      = (((∑ i, (r i j - (∑ i, r i j) / 250000) * (r i j - (∑ i, r i j) / 250000)) / 250000 : ℝ) : EReal) := by
  show Ideal.div (∑ i : Fin 250000, ((r i j : EReal) - mu (fun i j => (r i j : EReal)) j)
      * ((r i j : EReal) - mu (fun i j => (r i j : EReal)) j)) cN = _
  simp only [mu_coe, ← EReal.coe_sub, ← EReal.coe_mul]
  rw [coe_sum, div_cN]

theorem varK_coe (r : Fin 250000 → Fin 32 → ℝ) (j : Fin 32) :
    varK (fun i j => (r i j : EReal)) j
      = (((∑ i, r i j * r i j) / 250000 - (∑ i, r i j) / 250000 * ((∑ i, r i j) / 250000) : ℝ) : EReal) := by
  show Ideal.div (∑ i : Fin 250000, (r i j : EReal) * (r i j : EReal)) cN
      - mu (fun i j => (r i j : EReal)) j * mu (fun i j => (r i j : EReal)) j = _
  simp only [mu_coe, ← EReal.coe_mul]
  rw [coe_sum, div_cN, ← EReal.coe_sub]

theorem real_var (r : Fin 250000 → ℝ) :
    (∑ i, r i * r i) / 250000 - (∑ i, r i) / 250000 * ((∑ i, r i) / 250000)
      = (∑ i, (r i - (∑ i, r i) / 250000) * (r i - (∑ i, r i) / 250000)) / 250000 := by
  have hexp : ∀ i, (r i - (∑ i, r i) / 250000) * (r i - (∑ i, r i) / 250000)
      = r i * r i - 2 * ((∑ i, r i) / 250000) * r i + (∑ i, r i) / 250000 * ((∑ i, r i) / 250000) := fun i => by ring
  simp only [hexp]
  rw [Finset.sum_add_distrib, Finset.sum_sub_distrib, ← Finset.mul_sum, Finset.sum_const, Finset.card_univ,
    Fintype.card_fin, nsmul_eq_mul]
  push_cast
  ring

theorem var_eq (o : Mat 250000 32) (ho : ∀ i j, IsFin (o i j)) : varK o = varR o := by
  choose r hr using ho
  have hor : o = fun i j => (r i j : EReal) := funext fun i => funext fun j => hr i j
  subst hor
  funext j
  rw [varK_coe, varR_coe]
  exact congrArg _ (real_var fun i => r i j)

theorem isFin_mlp {D : ℕ} (h : Fin D → EReal) (W1 : Mat D 32) (b1 : Fin 32 → EReal) (W2 : Mat 32 32)
    (b2 : Fin 32 → EReal) (hh : ∀ d, IsFin (h d)) (hW1 : ∀ d k, IsFin (W1 d k)) (hb1 : ∀ k, IsFin (b1 k))
    (hW2 : ∀ k j, IsFin (W2 k j)) (hb2 : ∀ j, IsFin (b2 j)) (j : Fin 32) : IsFin (mlp h W1 b1 W2 b2 j) := by
  unfold mlp
  exact isFin_add (isFin_sum _ _ fun k => isFin_mul
    (isFin_relu (isFin_add (isFin_sum _ _ fun d => isFin_mul (hh d) (hW1 d k)) (hb1 k))) (hW2 k j)) (hb2 j)

theorem gin_fin {D : ℕ} (P : GinP D) (x af ab : Mat 250000 D)
    (hP : (∀ d k, IsFin (P.fW1 d k)) ∧ (∀ k, IsFin (P.fb1 k)) ∧ (∀ k j, IsFin (P.fW2 k j)) ∧ (∀ j, IsFin (P.fb2 j))
        ∧ (∀ d k, IsFin (P.bW1 d k)) ∧ (∀ k, IsFin (P.bb1 k)) ∧ (∀ k j, IsFin (P.bW2 k j)) ∧ (∀ j, IsFin (P.bb2 j)))
    (hx : ∀ i d, IsFin (x i d)) (haf : ∀ i d, IsFin (af i d)) (hab : ∀ i d, IsFin (ab i d)) :
    ∀ i j, IsFin (gin P x af ab i j) := by
  obtain ⟨h1, h2, h3, h4, h5, h6, h7, h8⟩ := hP
  intro i j
  unfold gin ginRow
  exact isFin_mul isFin_ofBits_half (isFin_add
    (isFin_relu (isFin_mlp _ _ _ _ _ (fun d => isFin_add (hx i d) (haf i d)) h1 h2 h3 h4 j))
    (isFin_relu (isFin_mlp _ _ _ _ _ (fun d => isFin_add (hx i d) (hab i d)) h5 h6 h7 h8 j)))

theorem layer_eq {D : ℕ} (P : GinP D) (g b : Fin 32 → EReal) (x af ab : Mat 250000 D)
    (ho : ∀ i j, IsFin (gin P x af ab i j)) : layerK P g b x af ab = layerR P g b x af ab := by
  unfold layerK layerR; rw [var_eq _ ho]

theorem bnR_fin (r : Fin 250000 → Fin 32 → ℝ) (g b : Fin 32 → EReal) (hg : ∀ j, IsFin (g j)) (hb : ∀ j, IsFin (b j))
    (i : Fin 250000) (j : Fin 32) :
    IsFin (bn (varR (fun i j => (r i j : EReal))) (fun i j => (r i j : EReal)) g b i j) := by
  show IsFin (((r i j : EReal) - mu (fun i j => (r i j : EReal)) j)
    * Ideal.rsqrt (varR (fun i j => (r i j : EReal)) j + eps) * g j + b j)
  obtain ⟨e, he, hee⟩ := eps_pos
  rw [mu_coe, varR_coe, hee, ← EReal.coe_add]
  have hv : 0 ≤ (∑ i, (r i j - (∑ i, r i j) / 250000) * (r i j - (∑ i, r i j) / 250000)) / 250000 :=
    div_nonneg (Finset.sum_nonneg fun i _ => mul_self_nonneg _) (by norm_num)
  have hpos : 0 < (∑ i, (r i j - (∑ i, r i j) / 250000) * (r i j - (∑ i, r i j) / 250000)) / 250000 + e := by
    linarith
  rw [Ideal.rsqrt_coe, if_neg (not_lt.mpr hpos.le), if_neg hpos.ne']
  exact isFin_add (isFin_mul (isFin_mul (isFin_sub (isFin_coe _) (isFin_coe _)) (isFin_coe _)) (hg j)) (hb j)

theorem layerR_fin {D : ℕ} (P : GinP D) (g b : Fin 32 → EReal) (x af ab : Mat 250000 D)
    (ho : ∀ i j, IsFin (gin P x af ab i j)) (hg : ∀ j, IsFin (g j)) (hb : ∀ j, IsFin (b j)) :
    ∀ i j, IsFin (layerR P g b x af ab i j) := by
  choose r hr using ho
  have hor : gin P x af ab = fun i j => (r i j : EReal) := funext fun i => funext fun j => hr i j
  intro i j
  unfold layerR
  rw [hor]
  exact bnR_fin r g b hg hb i j

end Cert.Spec

end
-- ==== Proof.SpecModel.lean ====
import proofs.«427087_j34256659153343_2_alg».proof.Proof.SpecLaws

noncomputable section

open scoped BigOperators

namespace Cert.Spec

def MatFin {n k : ℕ} (a : Mat n k) : Prop := ∀ i j, IsFin (a i j)

def VecFin {k : ℕ} (a : Fin k → EReal) : Prop := ∀ j, IsFin (a j)

def GinPFin {D : ℕ} (P : GinP D) : Prop :=
  (∀ d k, IsFin (P.fW1 d k)) ∧ (∀ k, IsFin (P.fb1 k)) ∧ (∀ k j, IsFin (P.fW2 k j)) ∧ (∀ j, IsFin (P.fb2 j))
    ∧ (∀ d k, IsFin (P.bW1 d k)) ∧ (∀ k, IsFin (P.bb1 k)) ∧ (∀ k j, IsFin (P.bW2 k j)) ∧ (∀ j, IsFin (P.bb2 j))

def model (L6 : GinP 6 → (Fin 32 → EReal) → (Fin 32 → EReal) → Mat 250000 6 → Mat 250000 6 → Mat 250000 6 → Mat 250000 32)
    (L32 : GinP 32 → (Fin 32 → EReal) → (Fin 32 → EReal) → Mat 250000 32 → Mat 250000 32 → Mat 250000 32 → Mat 250000 32)
    (aF6 aB6 : Mat 250000 6 → Mat 250000 6) (aF32 aB32 : Mat 250000 32 → Mat 250000 32)
    (x : Mat 250000 6) (P1 : GinP 6) (g1 b1 : Fin 32 → EReal) (P2 : GinP 32) (g2 b2 : Fin 32 → EReal)
    (P3 : GinP 32) (g3 b3 : Fin 32 → EReal) (batch : Fin 250000 → BitVec 32) (lbW : Mat 32 16) (lbb : Fin 16 → EReal)
    (lmW : Mat 16 1) (lmb : Fin 1 → EReal) : Fin 512 → EReal :=
  let h1 := L6 P1 g1 b1 x (aF6 x) (aB6 x)
  let h2 := L32 P2 g2 b2 h1 (aF32 h1) (aB32 h1)
  let h3 := L32 P3 g3 b3 h2 (aF32 h2) (aB32 h2)
  head h3 batch lbW lbb lmW lmb

theorem model_eq (aF6 aB6 : Mat 250000 6 → Mat 250000 6) (aF32 aB32 : Mat 250000 32 → Mat 250000 32)
    (hF6 : ∀ x, MatFin x → MatFin (aF6 x)) (hB6 : ∀ x, MatFin x → MatFin (aB6 x))
    (hF32 : ∀ x, MatFin x → MatFin (aF32 x)) (hB32 : ∀ x, MatFin x → MatFin (aB32 x))
    (x : Mat 250000 6) (P1 : GinP 6) (g1 b1 : Fin 32 → EReal) (P2 : GinP 32) (g2 b2 : Fin 32 → EReal)
    (P3 : GinP 32) (g3 b3 : Fin 32 → EReal) (batch : Fin 250000 → BitVec 32) (lbW : Mat 32 16) (lbb : Fin 16 → EReal)
    (lmW : Mat 16 1) (lmb : Fin 1 → EReal)
    (hx : MatFin x) (hP1 : GinPFin P1) (hg1 : VecFin g1) (hb1 : VecFin b1) (hP2 : GinPFin P2) (hg2 : VecFin g2)
    (hb2 : VecFin b2) (hP3 : GinPFin P3) (hg3 : VecFin g3) (hb3 : VecFin b3) :
    model layerK layerK aF6 aB6 aF32 aB32 x P1 g1 b1 P2 g2 b2 P3 g3 b3 batch lbW lbb lmW lmb
      = model layerR layerR aF6 aB6 aF32 aB32 x P1 g1 b1 P2 g2 b2 P3 g3 b3 batch lbW lbb lmW lmb := by
  have o1 := gin_fin P1 x (aF6 x) (aB6 x) hP1 hx (hF6 x hx) (hB6 x hx)
  have e1 := layer_eq P1 g1 b1 x (aF6 x) (aB6 x) o1
  have f1 : MatFin (layerR P1 g1 b1 x (aF6 x) (aB6 x)) := layerR_fin P1 g1 b1 x (aF6 x) (aB6 x) o1 hg1 hb1
  have o2 := gin_fin P2 _ (aF32 _) (aB32 _) hP2 f1 (hF32 _ f1) (hB32 _ f1)
  have e2 := layer_eq P2 g2 b2 _ _ _ o2
  have f2 : MatFin (layerR P2 g2 b2 _ _ _) := layerR_fin P2 g2 b2 _ _ _ o2 hg2 hb2
  have o3 := gin_fin P3 _ (aF32 _) (aB32 _) hP3 f2 (hF32 _ f2) (hB32 _ f2)
  have e3 := layer_eq P3 g3 b3 _ _ _ o3
  unfold model
  simp only [e1, e2, e3]

end Cert.Spec

end
-- ==== Proof.KI.Glue.lean ====
import proofs.«427087_j34256659153343_2_alg».proof.Proof.Gen.KernelIdeal.Regions
import proofs.«427087_j34256659153343_2_alg».proof.Proof.SpecModel
import proofs.«427087_j34256659153343_2_alg».proof.Proof.SpecArr
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost

set_option maxRecDepth 1600

noncomputable section

namespace Cert.KernelIdeal.Hand

open Cert.KernelIdeal Cert.KernelIdeal.Gen
open Idealize.ShloMosaic Idealize.ShloMosaic.TcCoe Idealize.ShloMosaic.ValueIdx

-- Row 0 of a vector reshaped to a one-row matrix is the vector.
theorem row0_cast {k : ℕ} {x : (⟨1, ![k]⟩ : Shape).Idx → EReal} {h : (⟨1, ![k]⟩ : Shape).ShapeCasts ⟨2, ![1, k]⟩} {y}
    (e : y = shapeCast ⟨2, ![1, k]⟩ x h) : Spec.row0 y = Spec.vec x := by
  subst e; funext j
  exact shapeCast_a_1a_apply x h 0 j

-- The words of a vector reshaped to a one-column matrix are the vector's.
theorem words2_cast {n w : ℕ} {x : IVec ⟨1, ![n]⟩ w} {h : (⟨1, ![n]⟩ : Shape).ShapeCasts ⟨2, ![n, 1]⟩} {y}
    (e : y = shapeCast ⟨2, ![n, 1]⟩ x h) : Spec.words2 y = Spec.words1 x := by
  subst e; funext i
  exact shapeCast_apply x h _ _ (by
    rw [Shape.rowMajor_val_two, Shape.rowMajor_val_one]
    show i.val = i.val * 1 + 0
    omega)

abbrev cRow : FVec Ideal S1x32 .f32 :=
  broadcastInDim S1x32 ![] bcast_S_S1x32 (constant (F := Ideal) S_ .f32 0x48742400#32)

theorem cRow_apply (i : S1x32.Idx) : cRow i = Spec.cN := by
  show broadcastInDim S1x32 ![] bcast_S_S1x32 (constant (F := Ideal) S_ .f32 0x48742400#32) i = _
  rw [broadcastInDim_scalar_apply, constant_apply]
  rfl

-- The mean row: the sum row divided by the row count, entry by entry.
theorem row0_mean {y s : FVec Ideal S1x32 .f32} (e : y = Host.divf s cRow) :
    Spec.row0 y = fun j => Ideal.div (Spec.row0 s j) Spec.cN := by
  subst e; funext j
  show Host.divf s cRow (ix2 (0 : Fin 1) j) = _
  rw [hostDivf_apply, cRow_apply]
  rfl

-- The variance row: mean of squares minus square of the mean, entry by entry.
theorem row0_var {y s q : FVec Ideal S1x32 .f32}
    (e : y = subf (Host.divf q cRow) (mulf (Host.divf s cRow) (Host.divf s cRow))) :
    Spec.row0 y = fun j => Ideal.div (Spec.row0 q j) Spec.cN
      - Ideal.div (Spec.row0 s j) Spec.cN * Ideal.div (Spec.row0 s j) Spec.cN := by
  subst e; funext j
  show subf (Host.divf q cRow) (mulf (Host.divf s cRow) (Host.divf s cRow)) (ix2 (0 : Fin 1) j) = _
  rw [subf_apply, mulf_apply, hostDivf_apply, hostDivf_apply, cRow_apply]
  rfl

variable (W : Valuation τ sig (Elt Ideal))

theorem glue0_fb1 :
    Spec.row0 (StableHlo.after hostOps0 W (Proc.devRef .tc main_v24)) = Spec.vec (W (Proc.devRef .tc main_arg4)) :=
  row0_cast (by after_results; try rfl)

theorem glue0_fb2 :
    Spec.row0 (StableHlo.after hostOps0 W (Proc.devRef .tc main_v25)) = Spec.vec (W (Proc.devRef .tc main_arg6)) :=
  row0_cast (by after_results; try rfl)

theorem glue0_bb1 :
    Spec.row0 (StableHlo.after hostOps0 W (Proc.devRef .tc main_v26)) = Spec.vec (W (Proc.devRef .tc main_arg8)) :=
  row0_cast (by after_results; try rfl)

theorem glue0_bb2 :
    Spec.row0 (StableHlo.after hostOps0 W (Proc.devRef .tc main_v27)) = Spec.vec (W (Proc.devRef .tc main_arg10)) :=
  row0_cast (by after_results; try rfl)

theorem glue0_keep {r : Ref sig .tc} (h : r ∉ hostOps0_W) :
    StableHlo.after hostOps0 W (Proc.devRef .tc r) = W (Proc.devRef .tc r) :=
  StableHlo.after_of_writes_sub hostOps0 W hostOps0_writes h

theorem glue1_mean :
    Spec.row0 (StableHlo.after hostOps1 W (Proc.devRef .tc main_v30))
      = fun j => Ideal.div (Spec.row0 (W (Proc.devRef .tc main_v28_1)) j) Spec.cN :=
  row0_mean (by after_results; try rfl)

theorem glue1_var :
    Spec.row0 (StableHlo.after hostOps1 W (Proc.devRef .tc main_v34))
      = fun j => Ideal.div (Spec.row0 (W (Proc.devRef .tc main_v28_2)) j) Spec.cN
          - Ideal.div (Spec.row0 (W (Proc.devRef .tc main_v28_1)) j) Spec.cN
            * Ideal.div (Spec.row0 (W (Proc.devRef .tc main_v28_1)) j) Spec.cN :=
  row0_var (by after_results; try rfl)

theorem glue1_gamma :
    Spec.row0 (StableHlo.after hostOps1 W (Proc.devRef .tc main_v35)) = Spec.vec (W (Proc.devRef .tc main_arg11)) :=
  row0_cast (by after_results; try rfl)

theorem glue1_beta :
    Spec.row0 (StableHlo.after hostOps1 W (Proc.devRef .tc main_v36)) = Spec.vec (W (Proc.devRef .tc main_arg12)) :=
  row0_cast (by after_results; try rfl)

theorem glue1_keep {r : Ref sig .tc} (h : r ∉ hostOps1_W) :
    StableHlo.after hostOps1 W (Proc.devRef .tc r) = W (Proc.devRef .tc r) :=
  StableHlo.after_of_writes_sub hostOps1 W hostOps1_writes h

theorem glue2_fb1 :
    Spec.row0 (StableHlo.after hostOps2 W (Proc.devRef .tc main_v58)) = Spec.vec (W (Proc.devRef .tc main_arg14)) :=
  row0_cast (by after_results; try rfl)

theorem glue2_fb2 :
    Spec.row0 (StableHlo.after hostOps2 W (Proc.devRef .tc main_v59)) = Spec.vec (W (Proc.devRef .tc main_arg16)) :=
  row0_cast (by after_results; try rfl)

theorem glue2_bb1 :
    Spec.row0 (StableHlo.after hostOps2 W (Proc.devRef .tc main_v60)) = Spec.vec (W (Proc.devRef .tc main_arg18)) :=
  row0_cast (by after_results; try rfl)

theorem glue2_bb2 :
    Spec.row0 (StableHlo.after hostOps2 W (Proc.devRef .tc main_v61)) = Spec.vec (W (Proc.devRef .tc main_arg20)) :=
  row0_cast (by after_results; try rfl)

theorem glue2_keep {r : Ref sig .tc} (h : r ∉ hostOps2_W) :
    StableHlo.after hostOps2 W (Proc.devRef .tc r) = W (Proc.devRef .tc r) :=
  StableHlo.after_of_writes_sub hostOps2 W hostOps2_writes h

theorem glue3_mean :
    Spec.row0 (StableHlo.after hostOps3 W (Proc.devRef .tc main_v64))
      = fun j => Ideal.div (Spec.row0 (W (Proc.devRef .tc main_v62_1)) j) Spec.cN :=
  row0_mean (by after_results; try rfl)

theorem glue3_var :
    Spec.row0 (StableHlo.after hostOps3 W (Proc.devRef .tc main_v68))
      = fun j => Ideal.div (Spec.row0 (W (Proc.devRef .tc main_v62_2)) j) Spec.cN
          - Ideal.div (Spec.row0 (W (Proc.devRef .tc main_v62_1)) j) Spec.cN
            * Ideal.div (Spec.row0 (W (Proc.devRef .tc main_v62_1)) j) Spec.cN :=
  row0_var (by after_results; try rfl)

theorem glue3_gamma :
    Spec.row0 (StableHlo.after hostOps3 W (Proc.devRef .tc main_v69)) = Spec.vec (W (Proc.devRef .tc main_arg21)) :=
  row0_cast (by after_results; try rfl)

theorem glue3_beta :
    Spec.row0 (StableHlo.after hostOps3 W (Proc.devRef .tc main_v70)) = Spec.vec (W (Proc.devRef .tc main_arg22)) :=
  row0_cast (by after_results; try rfl)

theorem glue3_keep {r : Ref sig .tc} (h : r ∉ hostOps3_W) :
    StableHlo.after hostOps3 W (Proc.devRef .tc r) = W (Proc.devRef .tc r) :=
  StableHlo.after_of_writes_sub hostOps3 W hostOps3_writes h

theorem glue4_fb1 :
    Spec.row0 (StableHlo.after hostOps4 W (Proc.devRef .tc main_v92)) = Spec.vec (W (Proc.devRef .tc main_arg24)) :=
  row0_cast (by after_results; try rfl)

theorem glue4_fb2 :
    Spec.row0 (StableHlo.after hostOps4 W (Proc.devRef .tc main_v93)) = Spec.vec (W (Proc.devRef .tc main_arg26)) :=
  row0_cast (by after_results; try rfl)

theorem glue4_bb1 :
    Spec.row0 (StableHlo.after hostOps4 W (Proc.devRef .tc main_v94)) = Spec.vec (W (Proc.devRef .tc main_arg28)) :=
  row0_cast (by after_results; try rfl)

theorem glue4_bb2 :
    Spec.row0 (StableHlo.after hostOps4 W (Proc.devRef .tc main_v95)) = Spec.vec (W (Proc.devRef .tc main_arg30)) :=
  row0_cast (by after_results; try rfl)

theorem glue4_keep {r : Ref sig .tc} (h : r ∉ hostOps4_W) :
    StableHlo.after hostOps4 W (Proc.devRef .tc r) = W (Proc.devRef .tc r) :=
  StableHlo.after_of_writes_sub hostOps4 W hostOps4_writes h

theorem glue5_mean :
    Spec.row0 (StableHlo.after hostOps5 W (Proc.devRef .tc main_v98))
      = fun j => Ideal.div (Spec.row0 (W (Proc.devRef .tc main_v96_1)) j) Spec.cN :=
  row0_mean (by after_results; try rfl)

theorem glue5_var :
    Spec.row0 (StableHlo.after hostOps5 W (Proc.devRef .tc main_v102))
      = fun j => Ideal.div (Spec.row0 (W (Proc.devRef .tc main_v96_2)) j) Spec.cN
          - Ideal.div (Spec.row0 (W (Proc.devRef .tc main_v96_1)) j) Spec.cN
            * Ideal.div (Spec.row0 (W (Proc.devRef .tc main_v96_1)) j) Spec.cN :=
  row0_var (by after_results; try rfl)

theorem glue5_gamma :
    Spec.row0 (StableHlo.after hostOps5 W (Proc.devRef .tc main_v103)) = Spec.vec (W (Proc.devRef .tc main_arg31)) :=
  row0_cast (by after_results; try rfl)

theorem glue5_beta :
    Spec.row0 (StableHlo.after hostOps5 W (Proc.devRef .tc main_v104)) = Spec.vec (W (Proc.devRef .tc main_arg32)) :=
  row0_cast (by after_results; try rfl)

theorem glue5_keep {r : Ref sig .tc} (h : r ∉ hostOps5_W) :
    StableHlo.after hostOps5 W (Proc.devRef .tc r) = W (Proc.devRef .tc r) :=
  StableHlo.after_of_writes_sub hostOps5 W hostOps5_writes h

theorem glue6_batch :
    Spec.words2 (StableHlo.after hostOps6 W (Proc.devRef .tc main_v106)) = Spec.words1 (W (Proc.devRef .tc main_arg2)) :=
  words2_cast (by after_results; try rfl)

theorem glue6_lbb :
    Spec.row0 (StableHlo.after hostOps6 W (Proc.devRef .tc main_v107)) = Spec.vec (W (Proc.devRef .tc main_arg34)) :=
  row0_cast (by after_results; try rfl)

theorem glue6_lmb :
    Spec.row0 (StableHlo.after hostOps6 W (Proc.devRef .tc main_v108)) = Spec.vec (W (Proc.devRef .tc main_arg36)) :=
  row0_cast (by after_results; try rfl)

theorem glue6_keep {r : Ref sig .tc} (h : r ∉ hostOps6_W) :
    StableHlo.after hostOps6 W (Proc.devRef .tc r) = W (Proc.devRef .tc r) :=
  StableHlo.after_of_writes_sub hostOps6 W hostOps6_writes h

end Cert.KernelIdeal.Hand
-- ==== Proof.KI.Chain.lean ====
import proofs.«427087_j34256659153343_2_alg».proof.Proof.KI.Glue

noncomputable section

namespace Cert.KernelIdeal.Hand

open Cert.KernelIdeal Cert.KernelIdeal.Gen

open Idealize.ShloMosaic Idealize.ShloMosaic.TcCoe Idealize.ShloMosaic.ValueIdx

-- Substituting the equal (primed) data, the normalised `gin` output is `layerK` by definition.
theorem layer_of_parts {D : ℕ} {aF aB w1 w1' w2 w2' w3 w3' w4 w4' xr xr' fr br o o' t}
    {b1 b1' b2 b2' b3 b3' b4 b4' s q mean var g g' b b' : Fin 32 → EReal} {x : Spec.Mat 250000 D} {G : Spec.Mat 250000 32}
    (hG : G = Spec.gin ⟨Spec.mat w1', b1', Spec.mat w2', b2', Spec.mat w3', b3', Spec.mat w4', b4'⟩
      (Spec.mat xr') (Spec.mat fr) (Spec.mat br))
    (ho : Spec.mat o = G) (hs : s = Spec.colsum G) (hq : q = Spec.colsumsq G)
    (e1 : w1' = w1) (f1 : b1' = b1) (e2 : w2' = w2) (f2 : b2' = b2)
    (e3 : w3' = w3) (f3 : b3' = b3) (e4 : w4' = w4) (f4 : b4' = b4)
    (ex : xr' = xr) (hx : Spec.mat xr = x) (hF : fr = aF xr) (hB : br = aB xr) (eo : o' = o)
    (hm : mean = fun j => Ideal.div (s j) Spec.cN)
    (hv : var = fun j => Ideal.div (q j) Spec.cN - Ideal.div (s j) Spec.cN * Ideal.div (s j) Spec.cN)
    (hg : g' = g) (hb : b' = b)
    (ht : Spec.mat t = fun i j => (Spec.mat o' i j - mean j) * Ideal.rsqrt (var j + Spec.eps) * g' j + b' j) :
    Spec.mat t = Spec.layerK ⟨Spec.mat w1, b1, Spec.mat w2, b2, Spec.mat w3, b3, Spec.mat w4, b4⟩ g b x
      (Spec.liftAgg aF x) (Spec.liftAgg aB x) := by
  subst hG hs hq e1 f1 e2 f2 e3 f3 e4 f4 ex hx hF hB eo hm hv hg hb
  rw [ho] at ht
  rw [Spec.liftAgg_mat, Spec.liftAgg_mat]
  exact ht

-- Two steps, each fixing every reference outside its list, fix every reference outside both lists.
theorem kept {Y Y' Z : Valuation τ sig (Elt Ideal)} {W O : List (Ref sig .tc)}
    (g : ∀ {r : Ref sig .tc}, r ∉ W → Y' (Proc.devRef .tc r) = Y (Proc.devRef .tc r))
    (k : ∀ r : Ref sig .tc, r ∉ O → Z (Proc.devRef .tc r) = Y' (Proc.devRef .tc r))
    {r : Ref sig .tc} (h : r ∉ W ∧ r ∉ O) : Z (Proc.devRef .tc r) = Y (Proc.devRef .tc r) :=
  (k r h.2).trans (g h.1)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32, main_arg33, main_arg34, main_arg35, main_arg36]

theorem args_kept : ∀ r ∈ argRefs,
    (r ∉ hostOps0_W ∧ r ∉ ([main_v28_0, main_v28_1, main_v28_2] : List (Ref sig .tc))) ∧
    (r ∉ hostOps1_W ∧ r ∉ ([main_v37] : List (Ref sig .tc))) ∧
    (r ∉ hostOps2_W ∧ r ∉ ([main_v62_0, main_v62_1, main_v62_2] : List (Ref sig .tc))) ∧
    (r ∉ hostOps3_W ∧ r ∉ ([main_v71] : List (Ref sig .tc))) ∧
    (r ∉ hostOps4_W ∧ r ∉ ([main_v96_0, main_v96_1, main_v96_2] : List (Ref sig .tc))) ∧
    (r ∉ hostOps5_W ∧ r ∉ ([main_v105] : List (Ref sig .tc))) ∧ r ∉ hostOps6_W := by decide

section Whole

variable (X0 X2 X4 X6 X8 X10 X12 X14 : Valuation τ sig (Elt Ideal)) {X1 X3 X5 X7 X9 X11 X13 : Valuation τ sig (Elt Ideal)}
  (aF6 aB6 : ((⟨2, ![250000, 6]⟩ : Shape).Idx → EReal) → ((⟨2, ![250000, 6]⟩ : Shape).Idx → EReal)) (aF32 aB32 : ((⟨2, ![250000, 32]⟩ : Shape).Idx → EReal) → ((⟨2, ![250000, 32]⟩ : Shape).Idx → EReal))
  (src dst : IVec S2500000 32) {G0 G2 G4 : Spec.Mat 250000 32}

-- Three uses of `layer_of_parts`, each layer's input equation being the previous layer's result; then the head.
theorem chain
    (h1 : X1 = StableHlo.after hostOps0 X0) (h3 : X3 = StableHlo.after hostOps1 X2) (h5 : X5 = StableHlo.after hostOps2 X4) (h7 : X7 = StableHlo.after hostOps3 X6)
    (h9 : X9 = StableHlo.after hostOps4 X8) (h11 : X11 = StableHlo.after hostOps5 X10) (h13 : X13 = StableHlo.after hostOps6 X12)
    (hS : (X1 (Proc.devRef .tc main_v1) : IVec S2500000 32) = src)
    (hD : (X1 (Proc.devRef .tc main_v3) : IVec S2500000 32) = dst)
    (k2 : ∀ r : Ref sig .tc, r ∉ ([main_v28_0, main_v28_1, main_v28_2] : List (Ref sig .tc)) →
      X2 (Proc.devRef .tc r) = X1 (Proc.devRef .tc r))
    (hA0F : X1 (Proc.devRef .tc main_v13) = aF6 (X0 (Proc.devRef .tc main_arg0)))
    (hA0B : X1 (Proc.devRef .tc main_v23) = aB6 (X0 (Proc.devRef .tc main_arg0)))
    (hR0o : Spec.mat (X2 (Proc.devRef .tc main_v28_0)) = G0)
    (hR0s : Spec.row0 (X2 (Proc.devRef .tc main_v28_1)) = Spec.colsum G0)
    (hR0q : Spec.row0 (X2 (Proc.devRef .tc main_v28_2)) = Spec.colsumsq G0)
    (hG0 : G0 = Spec.gin (D := 6)
        ⟨Spec.mat (X1 (Proc.devRef .tc main_arg3)), Spec.row0 (X1 (Proc.devRef .tc main_v24)),
         Spec.mat (X1 (Proc.devRef .tc main_arg5)), Spec.row0 (X1 (Proc.devRef .tc main_v25)),
         Spec.mat (X1 (Proc.devRef .tc main_arg7)), Spec.row0 (X1 (Proc.devRef .tc main_v26)),
         Spec.mat (X1 (Proc.devRef .tc main_arg9)), Spec.row0 (X1 (Proc.devRef .tc main_v27))⟩
        (Spec.mat (X1 (Proc.devRef .tc main_arg0)))
        (Spec.mat (X1 (Proc.devRef .tc main_v13)))
        (Spec.mat (X1 (Proc.devRef .tc main_v23))))
    (hR1 : Spec.mat (X4 (Proc.devRef .tc main_v37)) = fun i j =>
      (Spec.mat (X3 (Proc.devRef .tc main_v28_0)) i j - Spec.row0 (X3 (Proc.devRef .tc main_v30)) j)
        * Ideal.rsqrt (Spec.row0 (X3 (Proc.devRef .tc main_v34)) j + Spec.eps) * Spec.row0 (X3 (Proc.devRef .tc main_v35)) j + Spec.row0 (X3 (Proc.devRef .tc main_v36)) j)
    (k4 : ∀ r : Ref sig .tc, r ∉ ([main_v37] : List (Ref sig .tc)) →
      X4 (Proc.devRef .tc r) = X3 (Proc.devRef .tc r))
    (k6 : ∀ r : Ref sig .tc, r ∉ ([main_v62_0, main_v62_1, main_v62_2] : List (Ref sig .tc)) →
      X6 (Proc.devRef .tc r) = X5 (Proc.devRef .tc r))
    (hA2F : (X4 (Proc.devRef .tc main_v1) : IVec S2500000 32) = src → (X4 (Proc.devRef .tc main_v3) : IVec S2500000 32) = dst →
      X5 (Proc.devRef .tc main_v47) = aF32 (X4 (Proc.devRef .tc main_v37)))
    (hA2B : (X4 (Proc.devRef .tc main_v1) : IVec S2500000 32) = src → (X4 (Proc.devRef .tc main_v3) : IVec S2500000 32) = dst →
      X5 (Proc.devRef .tc main_v57) = aB32 (X4 (Proc.devRef .tc main_v37)))
    (hR2o : Spec.mat (X6 (Proc.devRef .tc main_v62_0)) = G2)
    (hR2s : Spec.row0 (X6 (Proc.devRef .tc main_v62_1)) = Spec.colsum G2)
    (hR2q : Spec.row0 (X6 (Proc.devRef .tc main_v62_2)) = Spec.colsumsq G2)
    (hG2 : G2 = Spec.gin (D := 32)
        ⟨Spec.mat (X5 (Proc.devRef .tc main_arg13)), Spec.row0 (X5 (Proc.devRef .tc main_v58)),
         Spec.mat (X5 (Proc.devRef .tc main_arg15)), Spec.row0 (X5 (Proc.devRef .tc main_v59)),
         Spec.mat (X5 (Proc.devRef .tc main_arg17)), Spec.row0 (X5 (Proc.devRef .tc main_v60)),
         Spec.mat (X5 (Proc.devRef .tc main_arg19)), Spec.row0 (X5 (Proc.devRef .tc main_v61))⟩
        (Spec.mat (X5 (Proc.devRef .tc main_v37)))
        (Spec.mat (X5 (Proc.devRef .tc main_v47)))
        (Spec.mat (X5 (Proc.devRef .tc main_v57))))
    (hR3 : Spec.mat (X8 (Proc.devRef .tc main_v71)) = fun i j =>
      (Spec.mat (X7 (Proc.devRef .tc main_v62_0)) i j - Spec.row0 (X7 (Proc.devRef .tc main_v64)) j)
        * Ideal.rsqrt (Spec.row0 (X7 (Proc.devRef .tc main_v68)) j + Spec.eps) * Spec.row0 (X7 (Proc.devRef .tc main_v69)) j + Spec.row0 (X7 (Proc.devRef .tc main_v70)) j)
    (k8 : ∀ r : Ref sig .tc, r ∉ ([main_v71] : List (Ref sig .tc)) →
      X8 (Proc.devRef .tc r) = X7 (Proc.devRef .tc r))
    (k10 : ∀ r : Ref sig .tc, r ∉ ([main_v96_0, main_v96_1, main_v96_2] : List (Ref sig .tc)) →
      X10 (Proc.devRef .tc r) = X9 (Proc.devRef .tc r))
    (hA4F : (X8 (Proc.devRef .tc main_v1) : IVec S2500000 32) = src → (X8 (Proc.devRef .tc main_v3) : IVec S2500000 32) = dst →
      X9 (Proc.devRef .tc main_v81) = aF32 (X8 (Proc.devRef .tc main_v71)))
    (hA4B : (X8 (Proc.devRef .tc main_v1) : IVec S2500000 32) = src → (X8 (Proc.devRef .tc main_v3) : IVec S2500000 32) = dst →
      X9 (Proc.devRef .tc main_v91) = aB32 (X8 (Proc.devRef .tc main_v71)))
    (hR4o : Spec.mat (X10 (Proc.devRef .tc main_v96_0)) = G4)
    (hR4s : Spec.row0 (X10 (Proc.devRef .tc main_v96_1)) = Spec.colsum G4)
    (hR4q : Spec.row0 (X10 (Proc.devRef .tc main_v96_2)) = Spec.colsumsq G4)
    (hG4 : G4 = Spec.gin (D := 32)
        ⟨Spec.mat (X9 (Proc.devRef .tc main_arg23)), Spec.row0 (X9 (Proc.devRef .tc main_v92)),
         Spec.mat (X9 (Proc.devRef .tc main_arg25)), Spec.row0 (X9 (Proc.devRef .tc main_v93)),
         Spec.mat (X9 (Proc.devRef .tc main_arg27)), Spec.row0 (X9 (Proc.devRef .tc main_v94)),
         Spec.mat (X9 (Proc.devRef .tc main_arg29)), Spec.row0 (X9 (Proc.devRef .tc main_v95))⟩
        (Spec.mat (X9 (Proc.devRef .tc main_v71)))
        (Spec.mat (X9 (Proc.devRef .tc main_v81)))
        (Spec.mat (X9 (Proc.devRef .tc main_v91))))
    (hR5 : Spec.mat (X12 (Proc.devRef .tc main_v105)) = fun i j =>
      (Spec.mat (X11 (Proc.devRef .tc main_v96_0)) i j - Spec.row0 (X11 (Proc.devRef .tc main_v98)) j)
        * Ideal.rsqrt (Spec.row0 (X11 (Proc.devRef .tc main_v102)) j + Spec.eps) * Spec.row0 (X11 (Proc.devRef .tc main_v103)) j + Spec.row0 (X11 (Proc.devRef .tc main_v104)) j)
    (k12 : ∀ r : Ref sig .tc, r ∉ ([main_v105] : List (Ref sig .tc)) →
      X12 (Proc.devRef .tc r) = X11 (Proc.devRef .tc r))
    (hR6 : (fun g => Spec.mat (X14 (Proc.devRef .tc main_v109)) g 0)
      = Spec.head (Spec.mat (X13 (Proc.devRef .tc main_v105))) (Spec.words2 (X13 (Proc.devRef .tc main_v106)))
          (Spec.mat (X13 (Proc.devRef .tc main_arg33))) (Spec.row0 (X13 (Proc.devRef .tc main_v107)))
          (Spec.mat (X13 (Proc.devRef .tc main_arg35))) (Spec.row0 (X13 (Proc.devRef .tc main_v108)))) :
    (fun g => Spec.mat (X14 (Proc.devRef .tc main_v109)) g 0)
      = Spec.model Spec.layerK Spec.layerK (Spec.liftAgg aF6) (Spec.liftAgg aB6) (Spec.liftAgg aF32) (Spec.liftAgg aB32)
        (Spec.mat (X0 (Proc.devRef .tc main_arg0)))
        ⟨Spec.mat (X0 (Proc.devRef .tc main_arg3)), Spec.vec (X0 (Proc.devRef .tc main_arg4)),
         Spec.mat (X0 (Proc.devRef .tc main_arg5)), Spec.vec (X0 (Proc.devRef .tc main_arg6)),
         Spec.mat (X0 (Proc.devRef .tc main_arg7)), Spec.vec (X0 (Proc.devRef .tc main_arg8)),
         Spec.mat (X0 (Proc.devRef .tc main_arg9)), Spec.vec (X0 (Proc.devRef .tc main_arg10))⟩
        (Spec.vec (X0 (Proc.devRef .tc main_arg11))) (Spec.vec (X0 (Proc.devRef .tc main_arg12)))
        ⟨Spec.mat (X0 (Proc.devRef .tc main_arg13)), Spec.vec (X0 (Proc.devRef .tc main_arg14)),
         Spec.mat (X0 (Proc.devRef .tc main_arg15)), Spec.vec (X0 (Proc.devRef .tc main_arg16)),
         Spec.mat (X0 (Proc.devRef .tc main_arg17)), Spec.vec (X0 (Proc.devRef .tc main_arg18)),
         Spec.mat (X0 (Proc.devRef .tc main_arg19)), Spec.vec (X0 (Proc.devRef .tc main_arg20))⟩
        (Spec.vec (X0 (Proc.devRef .tc main_arg21))) (Spec.vec (X0 (Proc.devRef .tc main_arg22)))
        ⟨Spec.mat (X0 (Proc.devRef .tc main_arg23)), Spec.vec (X0 (Proc.devRef .tc main_arg24)),
         Spec.mat (X0 (Proc.devRef .tc main_arg25)), Spec.vec (X0 (Proc.devRef .tc main_arg26)),
         Spec.mat (X0 (Proc.devRef .tc main_arg27)), Spec.vec (X0 (Proc.devRef .tc main_arg28)),
         Spec.mat (X0 (Proc.devRef .tc main_arg29)), Spec.vec (X0 (Proc.devRef .tc main_arg30))⟩
        (Spec.vec (X0 (Proc.devRef .tc main_arg31))) (Spec.vec (X0 (Proc.devRef .tc main_arg32)))
        (Spec.words1 (X0 (Proc.devRef .tc main_arg2)))
        (Spec.mat (X0 (Proc.devRef .tc main_arg33))) (Spec.vec (X0 (Proc.devRef .tc main_arg34)))
        (Spec.mat (X0 (Proc.devRef .tc main_arg35))) (Spec.vec (X0 (Proc.devRef .tc main_arg36))) := by
  subst h1 h3 h5 h7 h9 h11 h13
  have a2 := fun r (hr : r ∈ argRefs) => kept (glue0_keep X0) k2 (args_kept r hr).1
  have a4 := fun r (hr : r ∈ argRefs) => (kept (glue1_keep X2) k4 (args_kept r hr).2.1).trans (a2 r hr)
  have a6 := fun r (hr : r ∈ argRefs) => (kept (glue2_keep X4) k6 (args_kept r hr).2.2.1).trans (a4 r hr)
  have a8 := fun r (hr : r ∈ argRefs) => (kept (glue3_keep X6) k8 (args_kept r hr).2.2.2.1).trans (a6 r hr)
  have a10 := fun r (hr : r ∈ argRefs) => (kept (glue4_keep X8) k10 (args_kept r hr).2.2.2.2.1).trans (a8 r hr)
  have a12 := fun r (hr : r ∈ argRefs) => (kept (glue5_keep X10) k12 (args_kept r hr).2.2.2.2.2.1).trans (a10 r hr)
  have s4 := ((kept (glue1_keep X2) k4 (by decide)).trans (k2 main_v1 (by decide))).trans hS
  have d4 := ((kept (glue1_keep X2) k4 (by decide)).trans (k2 main_v3 (by decide))).trans hD
  have s8 := ((kept (glue3_keep X6) k8 (by decide)).trans (kept (glue2_keep X4) k6 (by decide))).trans s4
  have d8 := ((kept (glue3_keep X6) k8 (by decide)).trans (kept (glue2_keep X4) k6 (by decide))).trans d4
  have e1 := layer_of_parts hG0 hR0o hR0s hR0q
    (glue0_keep X0 (by decide)) (glue0_fb1 X0) (glue0_keep X0 (by decide)) (glue0_fb2 X0)
    (glue0_keep X0 (by decide)) (glue0_bb1 X0) (glue0_keep X0 (by decide)) (glue0_bb2 X0)
    (glue0_keep X0 (by decide)) rfl hA0F hA0B (glue1_keep X2 (by decide)) (glue1_mean X2) (glue1_var X2)
    ((glue1_gamma X2).trans (congrArg Spec.vec (a2 main_arg11 (by decide))))
    ((glue1_beta X2).trans (congrArg Spec.vec (a2 main_arg12 (by decide)))) hR1
  have e2 := layer_of_parts hG2 hR2o hR2s hR2q
    ((glue2_keep X4 (by decide)).trans (a4 _ (by decide))) ((glue2_fb1 X4).trans (congrArg Spec.vec (a4 main_arg14 (by decide))))
    ((glue2_keep X4 (by decide)).trans (a4 _ (by decide))) ((glue2_fb2 X4).trans (congrArg Spec.vec (a4 main_arg16 (by decide))))
    ((glue2_keep X4 (by decide)).trans (a4 _ (by decide))) ((glue2_bb1 X4).trans (congrArg Spec.vec (a4 main_arg18 (by decide))))
    ((glue2_keep X4 (by decide)).trans (a4 _ (by decide))) ((glue2_bb2 X4).trans (congrArg Spec.vec (a4 main_arg20 (by decide))))
    (glue2_keep X4 (by decide)) e1 (hA2F s4 d4) (hA2B s4 d4) (glue3_keep X6 (by decide)) (glue3_mean X6) (glue3_var X6)
    ((glue3_gamma X6).trans (congrArg Spec.vec (a6 main_arg21 (by decide))))
    ((glue3_beta X6).trans (congrArg Spec.vec (a6 main_arg22 (by decide)))) hR3
  have e3 := layer_of_parts hG4 hR4o hR4s hR4q
    ((glue4_keep X8 (by decide)).trans (a8 _ (by decide))) ((glue4_fb1 X8).trans (congrArg Spec.vec (a8 main_arg24 (by decide))))
    ((glue4_keep X8 (by decide)).trans (a8 _ (by decide))) ((glue4_fb2 X8).trans (congrArg Spec.vec (a8 main_arg26 (by decide))))
    ((glue4_keep X8 (by decide)).trans (a8 _ (by decide))) ((glue4_bb1 X8).trans (congrArg Spec.vec (a8 main_arg28 (by decide))))
    ((glue4_keep X8 (by decide)).trans (a8 _ (by decide))) ((glue4_bb2 X8).trans (congrArg Spec.vec (a8 main_arg30 (by decide))))
    (glue4_keep X8 (by decide)) e2 (hA4F s8 d8) (hA4B s8 d8) (glue5_keep X10 (by decide)) (glue5_mean X10) (glue5_var X10)
    ((glue5_gamma X10).trans (congrArg Spec.vec (a10 main_arg31 (by decide))))
    ((glue5_beta X10).trans (congrArg Spec.vec (a10 main_arg32 (by decide)))) hR5
  rw [hR6, glue6_keep X12 (by decide : main_v105 ∉ hostOps6_W), e3, glue6_batch X12,
    glue6_keep X12 (by decide : main_arg33 ∉ hostOps6_W), glue6_lbb X12,
    glue6_keep X12 (by decide : main_arg35 ∉ hostOps6_W), glue6_lmb X12,
    a12 main_arg2 (by decide), a12 main_arg33 (by decide), a12 main_arg34 (by decide),
    a12 main_arg35 (by decide), a12 main_arg36 (by decide)]
  rfl

end Whole

end Cert.KernelIdeal.Hand
-- ==== Proof.LibGS.lean ====
import Idealize.ShloMosaic.PureOps.Ideal

import Idealize.ShloMosaic.PureOps.Ideal.Laws

import Idealize.ShloMosaic.Lib.ValueIdx

import Idealize.ShloMosaic.Lib.IdealHost

import Idealize.ShloMosaic.Lib.StableHlo.Predicate

import Mathlib.Data.EReal.Operations

noncomputable section

namespace Cert.LibGS

open Idealize.ShloMosaic Idealize.ShloMosaic.ValueIdx

open scoped BigOperators

theorem scatterAdd_apply {s si u : Shape} {φ : FTy} {w : Nat} (d : ScatterDims s si u) (x : FVec Ideal s φ) (idx : IVec si w)
    (upd : FVec Ideal u φ) (i : s.Idx) :
    Host.scatterAdd (F := Ideal) d x idx upd i = x i + ∑ j ∈ Finset.univ.filter (fun j => d.resultIdx? j idx = some i), upd j := rfl

theorem getElem_of_eq_singleton {α : Type} {l : List α} {a : α} (h : l = [a]) (k : Nat) (hk : k < l.length) : l[k] = a := by
  subst h
  have hk0 : k = 0 := by simpa using hk
  subst hk0; rfl

theorem zero_f32 : Ideal.ofBits .f32 0x00000000#32 = 0 := Ideal.ofBits_zero_f32

theorem one_f32 : Ideal.ofBits .f32 0x3F800000#32 = 1 := Ideal.ofBits_one_f32

end Cert.LibGS

end
-- ==== Proof.Bridge.Agg.lean ====
import proofs.«427087_j34256659153343_2_alg».proof.KernelIdeal

import proofs.«427087_j34256659153343_2_alg».proof.ReferenceIdeal

import proofs.«427087_j34256659153343_2_alg».proof.Proof.SpecArr

import proofs.«427087_j34256659153343_2_alg».proof.Proof.LibGS

import proofs.«427087_j34256659153343_2_alg».proof.Proof.SpecLaws

import Idealize.ShloMosaic.Lib.ValueIdx

noncomputable section

namespace Cert.Bridge

open Idealize.ShloMosaic Idealize.ShloMosaic.ValueIdx

open scoped BigOperators

section KernelSide

open Cert.KernelIdeal

variable [Cert.KernelIdeal.Facts₀]

open Cert.KernelIdeal.Facts₀

def kSrc (ei : IVec Cert.KernelIdeal.S2x2500000 32) : IVec Cert.KernelIdeal.S2500000 32 :=
  shapeCast S2500000 (extractStridedSlice S1x2500000 ![0, 0] ei slices_S2x2500000_S1x2500000_0_0) shapeCasts_S1x2500000_S2500000

def kDst (ei : IVec Cert.KernelIdeal.S2x2500000 32) : IVec Cert.KernelIdeal.S2500000 32 :=
  shapeCast S2500000 (extractStridedSlice S1x2500000 ![1, 0] ei slices_S2x2500000_S1x2500000_1_0) shapeCasts_S1x2500000_S2500000

def kWrap (a : IVec Cert.KernelIdeal.S2500000 32) : IVec Cert.KernelIdeal.S2500000 32 :=
  select (cmpi .slt a (broadcastInDim S2500000 ![] bcast_S_S2500000 (constantI S_ 32 0#32)))
    (addi a (broadcastInDim S2500000 ![] bcast_S_S2500000 (constantI S_ 32 250000#32))) a

def kCol (a : IVec Cert.KernelIdeal.S2500000 32) : IVec Cert.KernelIdeal.S2500000x1 32 :=
  broadcastInDim S2500000x1 ![0] bcast_S2500000_S2500000x1_0 a

def kAggF6 (ei : IVec Cert.KernelIdeal.S2x2500000 32) (x : FVec Ideal Cert.KernelIdeal.S250000x6 .f32) : FVec Ideal Cert.KernelIdeal.S250000x6 .f32 :=
  Host.scatterAdd (F := Ideal) scatter_S250000x6_S2500000x1_S2500000x6_1_0_0_1
    (broadcastInDim S250000x6 ![] bcast_S_S250000x6 (constant (F := Ideal) S_ .f32 0x00000000#32))
    (kCol (kDst ei))
    (Host.gather gather_S250000x6_S2500000x1_S2500000x6_1_0_n_n_0_1_16 x (kCol (kWrap (kSrc ei))))

def kAggB6 (ei : IVec Cert.KernelIdeal.S2x2500000 32) (x : FVec Ideal Cert.KernelIdeal.S250000x6 .f32) : FVec Ideal Cert.KernelIdeal.S250000x6 .f32 :=
  Host.scatterAdd (F := Ideal) scatter_S250000x6_S2500000x1_S2500000x6_1_0_0_1
    (broadcastInDim S250000x6 ![] bcast_S_S250000x6 (constant (F := Ideal) S_ .f32 0x00000000#32))
    (kCol (kSrc ei))
    (Host.gather gather_S250000x6_S2500000x1_S2500000x6_1_0_n_n_0_1_16 x (kCol (kWrap (kDst ei))))

def kAggF32 (ei : IVec Cert.KernelIdeal.S2x2500000 32) (x : FVec Ideal Cert.KernelIdeal.S250000x32 .f32) : FVec Ideal Cert.KernelIdeal.S250000x32 .f32 :=
  Host.scatterAdd (F := Ideal) scatter_S250000x32_S2500000x1_S2500000x32_1_0_0_1
    (broadcastInDim S250000x32 ![] bcast_S_S250000x32 (constant (F := Ideal) S_ .f32 0x00000000#32))
    (kCol (kDst ei))
    (Host.gather gather_S250000x32_S2500000x1_S2500000x32_1_0_n_n_0_1_132 x (kCol (kWrap (kSrc ei))))

def kAggB32 (ei : IVec Cert.KernelIdeal.S2x2500000 32) (x : FVec Ideal Cert.KernelIdeal.S250000x32 .f32) : FVec Ideal Cert.KernelIdeal.S250000x32 .f32 :=
  Host.scatterAdd (F := Ideal) scatter_S250000x32_S2500000x1_S2500000x32_1_0_0_1
    (broadcastInDim S250000x32 ![] bcast_S_S250000x32 (constant (F := Ideal) S_ .f32 0x00000000#32))
    (kCol (kSrc ei))
    (Host.gather gather_S250000x32_S2500000x1_S2500000x32_1_0_n_n_0_1_132 x (kCol (kWrap (kDst ei))))

end KernelSide

section ReferenceSide

open Cert.ReferenceIdeal

variable [Cert.ReferenceIdeal.Facts₀]

open Cert.ReferenceIdeal.Facts₀

def rSrc (ei : IVec Cert.ReferenceIdeal.S2x2500000 32) : IVec Cert.ReferenceIdeal.S2500000 32 :=
  shapeCast S2500000 (extractStridedSlice S1x2500000 ![0, 0] ei slices_S2x2500000_S1x2500000_0_0) shapeCasts_S1x2500000_S2500000

def rDst (ei : IVec Cert.ReferenceIdeal.S2x2500000 32) : IVec Cert.ReferenceIdeal.S2500000 32 :=
  shapeCast S2500000 (extractStridedSlice S1x2500000 ![1, 0] ei slices_S2x2500000_S1x2500000_1_0) shapeCasts_S1x2500000_S2500000

def rWrap (a : IVec Cert.ReferenceIdeal.S2500000 32) : IVec Cert.ReferenceIdeal.S2500000 32 :=
  select (cmpi .slt a (broadcastInDim S2500000 ![] bcast_S_S2500000 (constantI S_ 32 0#32)))
    (addi a (broadcastInDim S2500000 ![] bcast_S_S2500000 (constantI S_ 32 250000#32))) a

def rCol (a : IVec Cert.ReferenceIdeal.S2500000 32) : IVec Cert.ReferenceIdeal.S2500000x1 32 :=
  broadcastInDim S2500000x1 ![0] bcast_S2500000_S2500000x1_0 a

def rAggF6 (ei : IVec Cert.ReferenceIdeal.S2x2500000 32) (x : FVec Ideal Cert.ReferenceIdeal.S250000x6 .f32) : FVec Ideal Cert.ReferenceIdeal.S250000x6 .f32 :=
  Host.scatterAdd (F := Ideal) scatter_S250000x6_S2500000x1_S2500000x6_1_0_0_1
    (broadcastInDim S250000x6 ![] bcast_S_S250000x6 (constant (F := Ideal) S_ .f32 0x00000000#32))
    (rCol (rDst ei))
    (Host.gather gather_S250000x6_S2500000x1_S2500000x6_1_0_n_n_0_1_16 x (rCol (rWrap (rSrc ei))))

def rAggB6 (ei : IVec Cert.ReferenceIdeal.S2x2500000 32) (x : FVec Ideal Cert.ReferenceIdeal.S250000x6 .f32) : FVec Ideal Cert.ReferenceIdeal.S250000x6 .f32 :=
  Host.scatterAdd (F := Ideal) scatter_S250000x6_S2500000x1_S2500000x6_1_0_0_1
    (broadcastInDim S250000x6 ![] bcast_S_S250000x6 (constant (F := Ideal) S_ .f32 0x00000000#32))
    (rCol (rSrc ei))
    (Host.gather gather_S250000x6_S2500000x1_S2500000x6_1_0_n_n_0_1_16 x (rCol (rWrap (rDst ei))))

def rAggF32 (ei : IVec Cert.ReferenceIdeal.S2x2500000 32) (x : FVec Ideal Cert.ReferenceIdeal.S250000x32 .f32) : FVec Ideal Cert.ReferenceIdeal.S250000x32 .f32 :=
  Host.scatterAdd (F := Ideal) scatter_S250000x32_S2500000x1_S2500000x32_1_0_0_1
    (broadcastInDim S250000x32 ![] bcast_S_S250000x32 (constant (F := Ideal) S_ .f32 0x00000000#32))
    (rCol (rDst ei))
    (Host.gather gather_S250000x32_S2500000x1_S2500000x32_1_0_n_n_0_1_132 x (rCol (rWrap (rSrc ei))))

def rAggB32 (ei : IVec Cert.ReferenceIdeal.S2x2500000 32) (x : FVec Ideal Cert.ReferenceIdeal.S250000x32 .f32) : FVec Ideal Cert.ReferenceIdeal.S250000x32 .f32 :=
  Host.scatterAdd (F := Ideal) scatter_S250000x32_S2500000x1_S2500000x32_1_0_0_1
    (broadcastInDim S250000x32 ![] bcast_S_S250000x32 (constant (F := Ideal) S_ .f32 0x00000000#32))
    (rCol (rSrc ei))
    (Host.gather gather_S250000x32_S2500000x1_S2500000x32_1_0_n_n_0_1_132 x (rCol (rWrap (rDst ei))))

end ReferenceSide

section Same

variable [Cert.KernelIdeal.Facts₀] [Cert.ReferenceIdeal.Facts₀]

theorem kAggF6_eq_r : kAggF6 = rAggF6 := rfl

theorem kAggB6_eq_r : kAggB6 = rAggB6 := rfl

theorem kAggF32_eq_r : kAggF32 = rAggF32 := rfl

theorem kAggB32_eq_r : kAggB32 = rAggB32 := rfl

end Same

open Cert.Spec in

theorem scatter_gather_fin {s si u : Shape} {w w' : Nat} (ds : ScatterDims s si u) (dg : GatherDims s si u)
    (z x : FVec Ideal s .f32) (i1 : IVec si w) (i2 : IVec si w') (hz : ∀ i, IsFin (z i)) (hx : ∀ i, IsFin (x i)) :
    ∀ i, IsFin (Host.scatterAdd (F := Ideal) ds z i1 (Host.gather dg x i2) i) := by
  intro i
  rw [Cert.LibGS.scatterAdd_apply]
  exact isFin_add (hz i) (isFin_sum _ _ (fun j => hx _))

open Cert.Spec in

theorem zeros_fin {t : Shape} (h : (⟨0, ![]⟩ : Shape).BroadcastsInDim t (![] : Fin 0 → Fin t.rank)) :
    ∀ i, IsFin (broadcastInDim t ![] h (constant (F := Ideal) (⟨0, ![]⟩ : Shape) .f32 0x00000000#32) i) := by
  intro i
  show IsFin (Ideal.ofBits .f32 0x00000000#32)
  rw [Cert.LibGS.zero_f32]
  exact isFin_zero

section Finite

variable [Cert.ReferenceIdeal.Facts₀]

open Cert.Spec

theorem rAggF6_fin (ei : IVec Cert.ReferenceIdeal.S2x2500000 32) (x : FVec Ideal Cert.ReferenceIdeal.S250000x6 .f32)
    (hx : ∀ i, IsFin (x i)) : ∀ i, IsFin (rAggF6 ei x i) :=
  scatter_gather_fin _ _ _ x _ _ (zeros_fin _) hx

theorem rAggB6_fin (ei : IVec Cert.ReferenceIdeal.S2x2500000 32) (x : FVec Ideal Cert.ReferenceIdeal.S250000x6 .f32)
    (hx : ∀ i, IsFin (x i)) : ∀ i, IsFin (rAggB6 ei x i) :=
  scatter_gather_fin _ _ _ x _ _ (zeros_fin _) hx

theorem rAggF32_fin (ei : IVec Cert.ReferenceIdeal.S2x2500000 32) (x : FVec Ideal Cert.ReferenceIdeal.S250000x32 .f32)
    (hx : ∀ i, IsFin (x i)) : ∀ i, IsFin (rAggF32 ei x i) :=
  scatter_gather_fin _ _ _ x _ _ (zeros_fin _) hx

theorem rAggB32_fin (ei : IVec Cert.ReferenceIdeal.S2x2500000 32) (x : FVec Ideal Cert.ReferenceIdeal.S250000x32 .f32)
    (hx : ∀ i, IsFin (x i)) : ∀ i, IsFin (rAggB32 ei x i) :=
  scatter_gather_fin _ _ _ x _ _ (zeros_fin _) hx

theorem liftAggF6_fin (ei : IVec Cert.ReferenceIdeal.S2x2500000 32) (X : Mat 250000 6)
    (hX : ∀ i j, IsFin (X i j)) : ∀ i j, IsFin (liftAgg (rAggF6 ei) X i j) :=
  fun i j => rAggF6_fin ei (unmat X) (fun a => hX (a 0) (a 1)) (ix2 i j)

theorem liftAggB6_fin (ei : IVec Cert.ReferenceIdeal.S2x2500000 32) (X : Mat 250000 6)
    (hX : ∀ i j, IsFin (X i j)) : ∀ i j, IsFin (liftAgg (rAggB6 ei) X i j) :=
  fun i j => rAggB6_fin ei (unmat X) (fun a => hX (a 0) (a 1)) (ix2 i j)

theorem liftAggF32_fin (ei : IVec Cert.ReferenceIdeal.S2x2500000 32) (X : Mat 250000 32)
    (hX : ∀ i j, IsFin (X i j)) : ∀ i j, IsFin (liftAgg (rAggF32 ei) X i j) :=
  fun i j => rAggF32_fin ei (unmat X) (fun a => hX (a 0) (a 1)) (ix2 i j)

theorem liftAggB32_fin (ei : IVec Cert.ReferenceIdeal.S2x2500000 32) (X : Mat 250000 32)
    (hX : ∀ i j, IsFin (X i j)) : ∀ i j, IsFin (liftAgg (rAggB32 ei) X i j) :=
  fun i j => rAggB32_fin ei (unmat X) (fun a => hX (a 0) (a 1)) (ix2 i j)

end Finite

end Cert.Bridge

end
-- ==== Proof.KI.GlueAgg.lean ====
import proofs.«427087_j34256659153343_2_alg».proof.Proof.Gen.KernelIdeal.Launch
import proofs.«427087_j34256659153343_2_alg».proof.Proof.Bridge.Agg
import Idealize.ShloMosaic.Lib.StableHlo.Run

noncomputable section

namespace Cert.KernelIdeal.Hand

open Idealize.ShloMosaic Idealize.ShloMosaic.TcCoe
open Cert.KernelIdeal Cert.KernelIdeal.Gen

set_option maxHeartbeats 1000000

variable (W : Valuation τ sig (Elt Ideal))

theorem glue0_src :
    (StableHlo.after (hostOps0 (F := Ideal)) W (Proc.devRef .tc main_v1) : IVec S2500000 32)
      = Cert.Bridge.kSrc (W (Proc.devRef .tc main_arg1)) := by
  after_results_simp
  rfl

theorem glue0_dst :
    (StableHlo.after (hostOps0 (F := Ideal)) W (Proc.devRef .tc main_v3) : IVec S2500000 32)
      = Cert.Bridge.kDst (W (Proc.devRef .tc main_arg1)) := by
  after_results_simp
  rfl

theorem glue0_aggF :
    (StableHlo.after (hostOps0 (F := Ideal)) W (Proc.devRef .tc main_v13) : FVec Ideal S250000x6 .f32)
      = Cert.Bridge.kAggF6 (W (Proc.devRef .tc main_arg1)) (W (Proc.devRef .tc main_arg0)) := by
  after_results_simp
  rfl

theorem glue0_aggB :
    (StableHlo.after (hostOps0 (F := Ideal)) W (Proc.devRef .tc main_v23) : FVec Ideal S250000x6 .f32)
      = Cert.Bridge.kAggB6 (W (Proc.devRef .tc main_arg1)) (W (Proc.devRef .tc main_arg0)) := by
  after_results_simp
  rfl

theorem glue2_aggF (ei : IVec S2x2500000 32)
    (h1 : (W (Proc.devRef .tc main_v1) : IVec S2500000 32) = Cert.Bridge.kSrc ei)
    (h3 : (W (Proc.devRef .tc main_v3) : IVec S2500000 32) = Cert.Bridge.kDst ei) :
    (StableHlo.after (hostOps2 (F := Ideal)) W (Proc.devRef .tc main_v47) : FVec Ideal S250000x32 .f32)
      = Cert.Bridge.kAggF32 ei (W (Proc.devRef .tc main_v37)) := by
  after_results_simp
  rw [h1, h3]
  rfl

theorem glue2_aggB (ei : IVec S2x2500000 32)
    (h1 : (W (Proc.devRef .tc main_v1) : IVec S2500000 32) = Cert.Bridge.kSrc ei)
    (h3 : (W (Proc.devRef .tc main_v3) : IVec S2500000 32) = Cert.Bridge.kDst ei) :
    (StableHlo.after (hostOps2 (F := Ideal)) W (Proc.devRef .tc main_v57) : FVec Ideal S250000x32 .f32)
      = Cert.Bridge.kAggB32 ei (W (Proc.devRef .tc main_v37)) := by
  after_results_simp
  rw [h1, h3]
  rfl

theorem glue4_aggF (ei : IVec S2x2500000 32)
    (h1 : (W (Proc.devRef .tc main_v1) : IVec S2500000 32) = Cert.Bridge.kSrc ei)
    (h3 : (W (Proc.devRef .tc main_v3) : IVec S2500000 32) = Cert.Bridge.kDst ei) :
    (StableHlo.after (hostOps4 (F := Ideal)) W (Proc.devRef .tc main_v81) : FVec Ideal S250000x32 .f32)
      = Cert.Bridge.kAggF32 ei (W (Proc.devRef .tc main_v71)) := by
  after_results_simp
  rw [h1, h3]
  rfl

theorem glue4_aggB (ei : IVec S2x2500000 32)
    (h1 : (W (Proc.devRef .tc main_v1) : IVec S2500000 32) = Cert.Bridge.kSrc ei)
    (h3 : (W (Proc.devRef .tc main_v3) : IVec S2500000 32) = Cert.Bridge.kDst ei) :
    (StableHlo.after (hostOps4 (F := Ideal)) W (Proc.devRef .tc main_v91) : FVec Ideal S250000x32 .f32)
      = Cert.Bridge.kAggB32 ei (W (Proc.devRef .tc main_v71)) := by
  after_results_simp
  rw [h1, h3]
  rfl

end Cert.KernelIdeal.Hand

end
-- ==== Proof.KI.Value.lean ====
import proofs.«427087_j34256659153343_2_alg».proof.Proof.KI.Data
import proofs.«427087_j34256659153343_2_alg».proof.Proof.KI.R0Value
import proofs.«427087_j34256659153343_2_alg».proof.Proof.KI.R0ValueS
import proofs.«427087_j34256659153343_2_alg».proof.Proof.KI.R1Value
import proofs.«427087_j34256659153343_2_alg».proof.Proof.KI.R2Value
import proofs.«427087_j34256659153343_2_alg».proof.Proof.KI.R2ValueS
import proofs.«427087_j34256659153343_2_alg».proof.Proof.KI.R3Value
import proofs.«427087_j34256659153343_2_alg».proof.Proof.KI.R4Value
import proofs.«427087_j34256659153343_2_alg».proof.Proof.KI.R4ValueS
import proofs.«427087_j34256659153343_2_alg».proof.Proof.KI.R5Value
import proofs.«427087_j34256659153343_2_alg».proof.Proof.KI.R6Value
import proofs.«427087_j34256659153343_2_alg».proof.Proof.KI.Chain
import proofs.«427087_j34256659153343_2_alg».proof.Proof.KI.GlueAgg

noncomputable section

namespace Cert.KernelIdeal.Hand

open Cert.KernelIdeal Cert.KernelIdeal.Gen

open Idealize.ShloMosaic Idealize.ShloMosaic.TcCoe Idealize.ShloMosaic.ValueIdx

variable (m : (ℓ : Loc nD τ sig) → Buf (Elt Ideal) ℓ) (c : Dev nD)

-- `chain` at the contents the regions leave.
theorem kernel_value :
    (fun g => Spec.mat (n := 512) (k := 1) (Wend m c (Proc.devRef .tc main_v109)) g 0)
      = Spec.model Spec.layerK Spec.layerK
        (Spec.liftAgg (Cert.Bridge.kAggF6 (m ((c.tc : Thread nD τ).loc main_arg1)))) (Spec.liftAgg (Cert.Bridge.kAggB6 (m ((c.tc : Thread nD τ).loc main_arg1))))
        (Spec.liftAgg (Cert.Bridge.kAggF32 (m ((c.tc : Thread nD τ).loc main_arg1)))) (Spec.liftAgg (Cert.Bridge.kAggB32 (m ((c.tc : Thread nD τ).loc main_arg1))))
        (Spec.mat (n := 250000) (k := 6) (m ((c.tc : Thread nD τ).loc main_arg0)))
        ⟨Spec.mat (n := 6) (k := 32) (m ((c.tc : Thread nD τ).loc main_arg3)), Spec.vec (m ((c.tc : Thread nD τ).loc main_arg4)),
         Spec.mat (n := 32) (k := 32) (m ((c.tc : Thread nD τ).loc main_arg5)), Spec.vec (m ((c.tc : Thread nD τ).loc main_arg6)),
         Spec.mat (n := 6) (k := 32) (m ((c.tc : Thread nD τ).loc main_arg7)), Spec.vec (m ((c.tc : Thread nD τ).loc main_arg8)),
         Spec.mat (n := 32) (k := 32) (m ((c.tc : Thread nD τ).loc main_arg9)), Spec.vec (m ((c.tc : Thread nD τ).loc main_arg10))⟩
        (Spec.vec (m ((c.tc : Thread nD τ).loc main_arg11))) (Spec.vec (m ((c.tc : Thread nD τ).loc main_arg12)))
        ⟨Spec.mat (n := 32) (k := 32) (m ((c.tc : Thread nD τ).loc main_arg13)), Spec.vec (m ((c.tc : Thread nD τ).loc main_arg14)),
         Spec.mat (n := 32) (k := 32) (m ((c.tc : Thread nD τ).loc main_arg15)), Spec.vec (m ((c.tc : Thread nD τ).loc main_arg16)),
         Spec.mat (n := 32) (k := 32) (m ((c.tc : Thread nD τ).loc main_arg17)), Spec.vec (m ((c.tc : Thread nD τ).loc main_arg18)),
         Spec.mat (n := 32) (k := 32) (m ((c.tc : Thread nD τ).loc main_arg19)), Spec.vec (m ((c.tc : Thread nD τ).loc main_arg20))⟩
        (Spec.vec (m ((c.tc : Thread nD τ).loc main_arg21))) (Spec.vec (m ((c.tc : Thread nD τ).loc main_arg22)))
        ⟨Spec.mat (n := 32) (k := 32) (m ((c.tc : Thread nD τ).loc main_arg23)), Spec.vec (m ((c.tc : Thread nD τ).loc main_arg24)),
         Spec.mat (n := 32) (k := 32) (m ((c.tc : Thread nD τ).loc main_arg25)), Spec.vec (m ((c.tc : Thread nD τ).loc main_arg26)),
         Spec.mat (n := 32) (k := 32) (m ((c.tc : Thread nD τ).loc main_arg27)), Spec.vec (m ((c.tc : Thread nD τ).loc main_arg28)),
         Spec.mat (n := 32) (k := 32) (m ((c.tc : Thread nD τ).loc main_arg29)), Spec.vec (m ((c.tc : Thread nD τ).loc main_arg30))⟩
        (Spec.vec (m ((c.tc : Thread nD τ).loc main_arg31))) (Spec.vec (m ((c.tc : Thread nD τ).loc main_arg32)))
        (Spec.words1 (m ((c.tc : Thread nD τ).loc main_arg2)))
        (Spec.mat (n := 32) (k := 16) (m ((c.tc : Thread nD τ).loc main_arg33))) (Spec.vec (m ((c.tc : Thread nD τ).loc main_arg34)))
        (Spec.mat (n := 16) (k := 1) (m ((c.tc : Thread nD τ).loc main_arg35))) (Spec.vec (m ((c.tc : Thread nD τ).loc main_arg36))) :=
  chain (fun b => m (c, b)) (W2 rd0 m c) (W4 rd0 rd1 m c) (W6 rd0 rd1 rd2 m c) (W8 rd0 rd1 rd2 rd3 m c) (W10 rd0 rd1 rd2 rd3 rd4 m c) (W12 rd0 rd1 rd2 rd3 rd4 rd5 m c) (W14 rd0 rd1 rd2 rd3 rd4 rd5 rd6 m c)
    (Cert.Bridge.kAggF6 (m (c, Proc.devRef .tc main_arg1))) (Cert.Bridge.kAggB6 (m (c, Proc.devRef .tc main_arg1))) (Cert.Bridge.kAggF32 (m (c, Proc.devRef .tc main_arg1))) (Cert.Bridge.kAggB32 (m (c, Proc.devRef .tc main_arg1)))
    (Cert.Bridge.kSrc (m (c, Proc.devRef .tc main_arg1))) (Cert.Bridge.kDst (m (c, Proc.devRef .tc main_arg1))) rfl rfl rfl rfl rfl rfl rfl (glue0_src _) (glue0_dst _)
    (W2_keep rd0 m c) (glue0_aggF _) (glue0_aggB _)
    ((congrArg Spec.mat (W2_arr rd0 m c 11)).trans (value0_o (In0 m) c))
    ((congrArg Spec.row0 (W2_arr rd0 m c 12)).trans (value0_sum_of (In0 m) c _ (oblock0_apply (In0 m) c)))
    ((congrArg Spec.row0 (W2_arr rd0 m c 13)).trans (value0_sumsq_of (In0 m) c _ (oblock0_apply (In0 m) c))) rfl
    ((congrArg Spec.mat (W4_arr rd0 rd1 m c 5)).trans (value1 (In1 rd0 m) c)) (W4_keep rd0 rd1 m c)
    (W6_keep rd0 rd1 rd2 m c) (glue2_aggF _ _) (glue2_aggB _ _)
    ((congrArg Spec.mat (W6_arr rd0 rd1 rd2 m c 11)).trans (value2_o (In2 rd0 rd1 m) c))
    ((congrArg Spec.row0 (W6_arr rd0 rd1 rd2 m c 12)).trans (value2_sum (In2 rd0 rd1 m) c _ (oBlock2_apply (In2 rd0 rd1 m) c)))
    ((congrArg Spec.row0 (W6_arr rd0 rd1 rd2 m c 13)).trans (value2_sumsq (In2 rd0 rd1 m) c _ (oBlock2_apply (In2 rd0 rd1 m) c))) rfl
    ((congrArg Spec.mat (W8_arr rd0 rd1 rd2 rd3 m c 5)).trans (value3 (In3 rd0 rd1 rd2 m) c)) (W8_keep rd0 rd1 rd2 rd3 m c)
    (W10_keep rd0 rd1 rd2 rd3 rd4 m c) (glue4_aggF _ _) (glue4_aggB _ _)
    ((congrArg Spec.mat (W10_arr rd0 rd1 rd2 rd3 rd4 m c 11)).trans (value4_o (In4 rd0 rd1 rd2 rd3 m) c))
    ((congrArg Spec.row0 (W10_arr rd0 rd1 rd2 rd3 rd4 m c 12)).trans (value4_sum (In4 rd0 rd1 rd2 rd3 m) c _ (oBlock4_apply (In4 rd0 rd1 rd2 rd3 m) c)))
    ((congrArg Spec.row0 (W10_arr rd0 rd1 rd2 rd3 rd4 m c 13)).trans (value4_sumsq (In4 rd0 rd1 rd2 rd3 m) c _ (oBlock4_apply (In4 rd0 rd1 rd2 rd3 m) c))) rfl
    ((congrArg Spec.mat (W12_arr rd0 rd1 rd2 rd3 rd4 rd5 m c 5)).trans (value5 (In5 rd0 rd1 rd2 rd3 rd4 m) c)) (W12_keep rd0 rd1 rd2 rd3 rd4 rd5 m c)
    ((congrArg (fun a => fun g => Spec.mat (n := 512) (k := 1) a g 0) (W14_arr rd0 rd1 rd2 rd3 rd4 rd5 rd6 m c 6)).trans (value6 (In6 rd0 rd1 rd2 rd3 rd4 rd5 m) c))

end Cert.KernelIdeal.Hand
-- ==== Proof.Ref.RunBase.lean ====
import Idealize.ShloMosaic.Lib.StableHlo.Run

noncomputable section

namespace Cert.ReferenceIdeal.Hand

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

def Keeps (n : Nat) (op : HloOp τ sig Val) : Prop :=
  ∀ r : Ref sig .tc, r.idx.val < n → Proc.devRef (τ := τ) .tc r ∉ op.writes

theorem keeps_of_writes {n : Nat} {op : HloOp τ sig Val} {y : Ref sig .tc}
    (hw : op.writes = {Proc.devRef .tc y}) (h : n ≤ y.idx.val) : Keeps n op := by
  intro r hr hm
  rw [hw, Finset.mem_singleton] at hm
  have e : r = y := Proc.devRef_injective _ hm
  subst e
  omega

section Builders

variable {n : Nat} {x a b c y : Ref sig .tc}

theorem keeps_nullary (h : n ≤ y.idx.val) (v : y.ty.Contents Val) (hy) :
    Keeps n (nullary (τ := τ) y v hy) := keeps_of_writes (nullary_writes y v hy) h

theorem keeps_unary (h : n ≤ y.idx.val) (f : x.ty.Contents Val → y.ty.Contents Val) (hx hy) :
    Keeps n (unary (τ := τ) x y f hx hy) := keeps_of_writes (unary_writes x y f hx hy) h

theorem keeps_binary (h : n ≤ y.idx.val) (f : a.ty.Contents Val → b.ty.Contents Val → y.ty.Contents Val) (ha hb hy) :
    Keeps n (binary (τ := τ) a b y f ha hb hy) := keeps_of_writes (binary_writes a b y f ha hb hy) h

theorem keeps_ternary (h : n ≤ y.idx.val)
    (f : c.ty.Contents Val → a.ty.Contents Val → b.ty.Contents Val → y.ty.Contents Val) (hc ha hb hy) :
    Keeps n (ternary (τ := τ) c a b y f hc ha hb hy) := keeps_of_writes (ternary_writes a b c y f hc ha hb hy) h

theorem keeps_reshape (h : n ≤ y.idx.val) (he hn hx hy) :
    Keeps n (reshape (τ := τ) (Val := Val) x y he hn hx hy) := keeps_of_writes (reshape_writes x y he hn hx hy) h

end Builders

theorem after_keeps {n : Nat} (ops : List (HloOp τ sig Val)) (h : ops.Forall (Keeps n)) (V : Valuation τ sig Val)
    {r : Ref sig .tc} (hr : r.idx.val < n) : after ops V (Proc.devRef .tc r) = V (Proc.devRef .tc r) :=
  after_of_forall_not_mem ops V fun op hop => List.forall_iff_forall_mem.mp h op hop r hr

def Good (n : Nat) (op : HloOp τ sig Val) : Prop := op.bufs ⊆ tcRefs τ sig ∧ op.fresh = ∅ ∧ Keeps n op

theorem keeps_of_good {n : Nat} {l : List (HloOp τ sig Val)} (h : l.Forall (Good n)) : l.Forall (Keeps n) :=
  h.imp fun _ h => h.2.2

end Cert.ReferenceIdeal.Hand

end
-- ==== Proof.Ref.Stages.lean ====
import proofs.«427087_j34256659153343_2_alg».proof.ReferenceIdeal

import Idealize.ShloMosaic.Lib.StableHlo.Run

import proofs.«427087_j34256659153343_2_alg».proof.Proof.Ref.RunBase

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

abbrev segE : List (HloOp τ sig (Elt F)) :=
  [ unary main_arg1 main_v0 (extractStridedSlice S1x2500000 ![0, 0] · slices_S2x2500000_S1x2500000_0_0),
    reshape main_v0 main_v1 rfl shapeCasts_S1x2500000_S2500000,
    unary main_arg1 main_v2 (extractStridedSlice S1x2500000 ![1, 0] · slices_S2x2500000_S1x2500000_1_0),
    reshape main_v2 main_v3 rfl shapeCasts_S1x2500000_S2500000 ]

abbrev segG1 : List (HloOp τ sig (Elt F)) :=
  [ nullary main_c (constantI S_ 32 0#32),
    unary main_c main_v4 (broadcastInDim S2500000 ![] bcast_S_S2500000),
    binary main_v1 main_v4 main_v5 (cmpi .slt),
    nullary main_c_0 (constantI S_ 32 250000#32),
    unary main_c_0 main_v6 (broadcastInDim S2500000 ![] bcast_S_S2500000),
    binary main_v1 main_v6 main_v7 addi,
    ternary main_v5 main_v7 main_v1 main_v8 select,
    unary main_v8 main_v9 (broadcastInDim S2500000x1 ![0] bcast_S2500000_S2500000x1_0),
    binary main_arg0 main_v9 main_v10
      (fun x i => Host.gather gather_S250000x6_S2500000x1_S2500000x6_1_0_n_n_0_1_16 x i),
    nullary main_cst (constant S_ .f32 0x00000000#32),
    unary main_cst main_v11 (broadcastInDim S250000x6 ![] bcast_S_S250000x6),
    unary main_v3 main_v12 (broadcastInDim S2500000x1 ![0] bcast_S2500000_S2500000x1_0),
    ternary main_v11 main_v12 main_v10 main_v13
      (fun x i u => Host.scatterAdd scatter_S250000x6_S2500000x1_S2500000x6_1_0_0_1 x i u),
    binary main_arg0 main_v13 main_v14 addf,
    binary main_v14 main_arg3 main_v15
      (fun l r => Host.dotGeneral dot_S250000x6_S6x32_S250000x32_1_0_0_1_n_n none l r),
    unary main_arg4 main_v16 (broadcastInDim S1x32 ![1] bcast_S32_S1x32_1),
    unary main_v16 main_v17 (broadcastInDim S250000x32 ![0, 1] bcast_S1x32_S250000x32_0_1),
    binary main_v15 main_v17 main_v18 addf,
    nullary main_cst_1 (constant S_ .f32 0x00000000#32),
    unary main_cst_1 main_v19 (broadcastInDim S250000x32 ![] bcast_S_S250000x32),
    binary main_v18 main_v19 main_v20 maximumf,
    binary main_v20 main_arg5 main_v21
      (fun l r => Host.dotGeneral dot_S250000x32_S32x32_S250000x32_1_0_0_1_n_n none l r),
    unary main_arg6 main_v22 (broadcastInDim S1x32 ![1] bcast_S32_S1x32_1),
    unary main_v22 main_v23 (broadcastInDim S250000x32 ![0, 1] bcast_S1x32_S250000x32_0_1),
    binary main_v21 main_v23 main_v24 addf,
    TRef.nullary main_call0.cst (constant S_ .f32 0x00000000#32),
    TRef.unary main_call0.cst main_call0.v0 (broadcastInDim S250000x32 ![] bcast_S_S250000x32),
    TRef.binary (.of main_v24) main_call0.v0 main_call0.v1 maximumf,
    nullary main_c_2 (constantI S_ 32 0#32),
    unary main_c_2 main_v26 (broadcastInDim S2500000 ![] bcast_S_S2500000),
    binary main_v3 main_v26 main_v27 (cmpi .slt),
    nullary main_c_3 (constantI S_ 32 250000#32),
    unary main_c_3 main_v28 (broadcastInDim S2500000 ![] bcast_S_S2500000),
    binary main_v3 main_v28 main_v29 addi,
    ternary main_v27 main_v29 main_v3 main_v30 select,
    unary main_v30 main_v31 (broadcastInDim S2500000x1 ![0] bcast_S2500000_S2500000x1_0),
    binary main_arg0 main_v31 main_v32
      (fun x i => Host.gather gather_S250000x6_S2500000x1_S2500000x6_1_0_n_n_0_1_16 x i),
    nullary main_cst_4 (constant S_ .f32 0x00000000#32),
    unary main_cst_4 main_v33 (broadcastInDim S250000x6 ![] bcast_S_S250000x6),
    unary main_v1 main_v34 (broadcastInDim S2500000x1 ![0] bcast_S2500000_S2500000x1_0),
    ternary main_v33 main_v34 main_v32 main_v35
      (fun x i u => Host.scatterAdd scatter_S250000x6_S2500000x1_S2500000x6_1_0_0_1 x i u),
    binary main_arg0 main_v35 main_v36 addf,
    binary main_v36 main_arg7 main_v37
      (fun l r => Host.dotGeneral dot_S250000x6_S6x32_S250000x32_1_0_0_1_n_n none l r),
    unary main_arg8 main_v38 (broadcastInDim S1x32 ![1] bcast_S32_S1x32_1),
    unary main_v38 main_v39 (broadcastInDim S250000x32 ![0, 1] bcast_S1x32_S250000x32_0_1),
    binary main_v37 main_v39 main_v40 addf,
    nullary main_cst_5 (constant S_ .f32 0x00000000#32),
    unary main_cst_5 main_v41 (broadcastInDim S250000x32 ![] bcast_S_S250000x32),
    binary main_v40 main_v41 main_v42 maximumf,
    binary main_v42 main_arg9 main_v43
      (fun l r => Host.dotGeneral dot_S250000x32_S32x32_S250000x32_1_0_0_1_n_n none l r),
    unary main_arg10 main_v44 (broadcastInDim S1x32 ![1] bcast_S32_S1x32_1),
    unary main_v44 main_v45 (broadcastInDim S250000x32 ![0, 1] bcast_S1x32_S250000x32_0_1),
    binary main_v43 main_v45 main_v46 addf,
    TRef.nullary main_call1.cst (constant S_ .f32 0x00000000#32),
    TRef.unary main_call1.cst main_call1.v0 (broadcastInDim S250000x32 ![] bcast_S_S250000x32),
    TRef.binary (.of main_v46) main_call1.v0 main_call1.v1 maximumf,
    binary main_v25 main_v47 main_v48 addf,
    nullary main_cst_6 (constant S_ .f32 0x3F000000#32),
    unary main_cst_6 main_v49 (broadcastInDim S250000x32 ![] bcast_S_S250000x32),
    binary main_v49 main_v48 main_v50 mulf ]

abbrev segB1 : List (HloOp τ sig (Elt F)) :=
  [ nullary main_cst_7 (constant S_ .f32 0x00000000#32),
    binary main_v50 main_cst_7 main_v51 (fun x v => Host.reduceAdd x v reducesTo_S250000x32_S32_d0 h_S_),
    nullary main_cst_8 (constant S_ .f32 0x48742400#32),
    unary main_cst_8 main_v52 (broadcastInDim S32 ![] bcast_S_S32),
    binary main_v51 main_v52 main_v53 Host.divf,
    nullary main_c_9 (constantI S_ 32 0#32),
    TRef.nullary main_call2.cst (constant S_ .f32 0x00000000#32),
    TRef.binary (.of main_v50) main_call2.cst main_call2.v0
      (fun x v => Host.reduceAdd x v reducesTo_S250000x32_S32_d0 h_S_),
    TRef.unary main_call2.v0 main_call2.v1 (broadcastInDim S1x32 ![1] bcast_S32_S1x32_1),
    TRef.nullary main_call2.cst_0 (constant S_ .f32 0x48742400#32),
    TRef.unary main_call2.cst_0 main_call2.v2 (broadcastInDim S1x32 ![] bcast_S_S1x32),
    TRef.binary main_call2.v1 main_call2.v2 main_call2.v3 Host.divf,
    TRef.unary main_call2.v3 main_call2.v4 (broadcastInDim S250000x32 ![0, 1] bcast_S1x32_S250000x32_0_1),
    TRef.binary (.of main_v50) main_call2.v4 main_call2.v5 subf,
    TRef.binary main_call2.v5 main_call2.v5 main_call2.v6 mulf,
    TRef.unary (.of main_c_9) main_call2.v7 (sitofp .f32),
    TRef.nullary main_call2.cst_1 (constant S_ .f32 0x48742400#32),
    TRef.binary main_call2.cst_1 main_call2.v7 main_call2.v8 subf,
    TRef.nullary main_call2.cst_2 (constant S_ .f32 0x00000000#32),
    TRef.binary main_call2.v6 main_call2.cst_2 main_call2.v9
      (fun x v => Host.reduceAdd x v reducesTo_S250000x32_S32_d0 h_S_),
    TRef.unary main_call2.v8 main_call2.v10 (broadcastInDim S32 ![] bcast_S_S32),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S32 ![] bcast_S_S32),
    TRef.ternary main_call2.v12 main_call2.v11 main_call2.call0.v1 main_call2.call0.v2
      (fun p a b => select (broadcastInDim S32 ![] bcast_S_S32 p) a b),
    unary main_v53 main_v55 (broadcastInDim S1x32 ![1] bcast_S32_S1x32_1),
    unary main_v55 main_v56 (broadcastInDim S250000x32 ![0, 1] bcast_S1x32_S250000x32_0_1),
    binary main_v50 main_v56 main_v57 subf,
    nullary main_cst_10 (constant S_ .f32 0x3727C5AC#32),
    unary main_cst_10 main_v58 (broadcastInDim S32 ![] bcast_S_S32),
    binary main_v54 main_v58 main_v59 addf,
    unary main_v59 main_v60 Host.rsqrt,
    unary main_v60 main_v61 (broadcastInDim S1x32 ![1] bcast_S32_S1x32_1),
    unary main_v61 main_v62 (broadcastInDim S250000x32 ![0, 1] bcast_S1x32_S250000x32_0_1),
    binary main_v57 main_v62 main_v63 mulf,
    unary main_arg11 main_v64 (broadcastInDim S1x32 ![1] bcast_S32_S1x32_1),
    unary main_v64 main_v65 (broadcastInDim S250000x32 ![0, 1] bcast_S1x32_S250000x32_0_1),
    binary main_v63 main_v65 main_v66 mulf,
    unary main_arg12 main_v67 (broadcastInDim S1x32 ![1] bcast_S32_S1x32_1),
    unary main_v67 main_v68 (broadcastInDim S250000x32 ![0, 1] bcast_S1x32_S250000x32_0_1),
    binary main_v66 main_v68 main_v69 addf ]

abbrev segG2 : List (HloOp τ sig (Elt F)) :=
  [ nullary main_c_11 (constantI S_ 32 0#32),
    unary main_c_11 main_v70 (broadcastInDim S2500000 ![] bcast_S_S2500000),
    binary main_v1 main_v70 main_v71 (cmpi .slt),
    nullary main_c_12 (constantI S_ 32 250000#32),
    unary main_c_12 main_v72 (broadcastInDim S2500000 ![] bcast_S_S2500000),
    binary main_v1 main_v72 main_v73 addi,
    ternary main_v71 main_v73 main_v1 main_v74 select,
    unary main_v74 main_v75 (broadcastInDim S2500000x1 ![0] bcast_S2500000_S2500000x1_0),
    binary main_v69 main_v75 main_v76
      (fun x i => Host.gather gather_S250000x32_S2500000x1_S2500000x32_1_0_n_n_0_1_132 x i),
    nullary main_cst_13 (constant S_ .f32 0x00000000#32),
    unary main_cst_13 main_v77 (broadcastInDim S250000x32 ![] bcast_S_S250000x32),
    unary main_v3 main_v78 (broadcastInDim S2500000x1 ![0] bcast_S2500000_S2500000x1_0),
    ternary main_v77 main_v78 main_v76 main_v79
      (fun x i u => Host.scatterAdd scatter_S250000x32_S2500000x1_S2500000x32_1_0_0_1 x i u),
    binary main_v69 main_v79 main_v80 addf,
    binary main_v80 main_arg13 main_v81
      (fun l r => Host.dotGeneral dot_S250000x32_S32x32_S250000x32_1_0_0_1_n_n none l r),
    unary main_arg14 main_v82 (broadcastInDim S1x32 ![1] bcast_S32_S1x32_1),
    unary main_v82 main_v83 (broadcastInDim S250000x32 ![0, 1] bcast_S1x32_S250000x32_0_1),
    binary main_v81 main_v83 main_v84 addf,
    nullary main_cst_14 (constant S_ .f32 0x00000000#32),
    unary main_cst_14 main_v85 (broadcastInDim S250000x32 ![] bcast_S_S250000x32),
    binary main_v84 main_v85 main_v86 maximumf,
    binary main_v86 main_arg15 main_v87
      (fun l r => Host.dotGeneral dot_S250000x32_S32x32_S250000x32_1_0_0_1_n_n none l r),
    unary main_arg16 main_v88 (broadcastInDim S1x32 ![1] bcast_S32_S1x32_1),
    unary main_v88 main_v89 (broadcastInDim S250000x32 ![0, 1] bcast_S1x32_S250000x32_0_1),
    binary main_v87 main_v89 main_v90 addf,
    TRef.nullary main_call3.cst (constant S_ .f32 0x00000000#32),
    TRef.unary main_call3.cst main_call3.v0 (broadcastInDim S250000x32 ![] bcast_S_S250000x32),
    TRef.binary (.of main_v90) main_call3.v0 main_call3.v1 maximumf,
    nullary main_c_15 (constantI S_ 32 0#32),
    unary main_c_15 main_v92 (broadcastInDim S2500000 ![] bcast_S_S2500000),
    binary main_v3 main_v92 main_v93 (cmpi .slt),
    nullary main_c_16 (constantI S_ 32 250000#32),
    unary main_c_16 main_v94 (broadcastInDim S2500000 ![] bcast_S_S2500000),
    binary main_v3 main_v94 main_v95 addi,
    ternary main_v93 main_v95 main_v3 main_v96 select,
    unary main_v96 main_v97 (broadcastInDim S2500000x1 ![0] bcast_S2500000_S2500000x1_0),
    binary main_v69 main_v97 main_v98
      (fun x i => Host.gather gather_S250000x32_S2500000x1_S2500000x32_1_0_n_n_0_1_132 x i),
    nullary main_cst_17 (constant S_ .f32 0x00000000#32),
    unary main_cst_17 main_v99 (broadcastInDim S250000x32 ![] bcast_S_S250000x32),
    unary main_v1 main_v100 (broadcastInDim S2500000x1 ![0] bcast_S2500000_S2500000x1_0),
    ternary main_v99 main_v100 main_v98 main_v101
      (fun x i u => Host.scatterAdd scatter_S250000x32_S2500000x1_S2500000x32_1_0_0_1 x i u),
    binary main_v69 main_v101 main_v102 addf,
    binary main_v102 main_arg17 main_v103
      (fun l r => Host.dotGeneral dot_S250000x32_S32x32_S250000x32_1_0_0_1_n_n none l r),
    unary main_arg18 main_v104 (broadcastInDim S1x32 ![1] bcast_S32_S1x32_1),
    unary main_v104 main_v105 (broadcastInDim S250000x32 ![0, 1] bcast_S1x32_S250000x32_0_1),
    binary main_v103 main_v105 main_v106 addf,
    nullary main_cst_18 (constant S_ .f32 0x00000000#32),
    unary main_cst_18 main_v107 (broadcastInDim S250000x32 ![] bcast_S_S250000x32),
    binary main_v106 main_v107 main_v108 maximumf,
    binary main_v108 main_arg19 main_v109
      (fun l r => Host.dotGeneral dot_S250000x32_S32x32_S250000x32_1_0_0_1_n_n none l r),
    unary main_arg20 main_v110 (broadcastInDim S1x32 ![1] bcast_S32_S1x32_1),
    unary main_v110 main_v111 (broadcastInDim S250000x32 ![0, 1] bcast_S1x32_S250000x32_0_1),
    binary main_v109 main_v111 main_v112 addf,
    TRef.nullary main_call4.cst (constant S_ .f32 0x00000000#32),
    TRef.unary main_call4.cst main_call4.v0 (broadcastInDim S250000x32 ![] bcast_S_S250000x32),
    TRef.binary (.of main_v112) main_call4.v0 main_call4.v1 maximumf,
    binary main_v91 main_v113 main_v114 addf,
    nullary main_cst_19 (constant S_ .f32 0x3F000000#32),
    unary main_cst_19 main_v115 (broadcastInDim S250000x32 ![] bcast_S_S250000x32),
    binary main_v115 main_v114 main_v116 mulf ]

abbrev segB2 : List (HloOp τ sig (Elt F)) :=
  [ nullary main_cst_20 (constant S_ .f32 0x00000000#32),
    binary main_v116 main_cst_20 main_v117 (fun x v => Host.reduceAdd x v reducesTo_S250000x32_S32_d0 h_S_),
    nullary main_cst_21 (constant S_ .f32 0x48742400#32),
    unary main_cst_21 main_v118 (broadcastInDim S32 ![] bcast_S_S32),
    binary main_v117 main_v118 main_v119 Host.divf,
    nullary main_c_22 (constantI S_ 32 0#32),
    TRef.nullary main_call5.cst (constant S_ .f32 0x00000000#32),
    TRef.binary (.of main_v116) main_call5.cst main_call5.v0
      (fun x v => Host.reduceAdd x v reducesTo_S250000x32_S32_d0 h_S_),
    TRef.unary main_call5.v0 main_call5.v1 (broadcastInDim S1x32 ![1] bcast_S32_S1x32_1),
    TRef.nullary main_call5.cst_0 (constant S_ .f32 0x48742400#32),
    TRef.unary main_call5.cst_0 main_call5.v2 (broadcastInDim S1x32 ![] bcast_S_S1x32),
    TRef.binary main_call5.v1 main_call5.v2 main_call5.v3 Host.divf,
    TRef.unary main_call5.v3 main_call5.v4 (broadcastInDim S250000x32 ![0, 1] bcast_S1x32_S250000x32_0_1),
    TRef.binary (.of main_v116) main_call5.v4 main_call5.v5 subf,
    TRef.binary main_call5.v5 main_call5.v5 main_call5.v6 mulf,
    TRef.unary (.of main_c_22) main_call5.v7 (sitofp .f32),
    TRef.nullary main_call5.cst_1 (constant S_ .f32 0x48742400#32),
    TRef.binary main_call5.cst_1 main_call5.v7 main_call5.v8 subf,
    TRef.nullary main_call5.cst_2 (constant S_ .f32 0x00000000#32),
    TRef.binary main_call5.v6 main_call5.cst_2 main_call5.v9
      (fun x v => Host.reduceAdd x v reducesTo_S250000x32_S32_d0 h_S_),
    TRef.unary main_call5.v8 main_call5.v10 (broadcastInDim S32 ![] bcast_S_S32),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S32 ![] bcast_S_S32),
    TRef.ternary main_call5.v12 main_call5.v11 main_call5.call0.v1 main_call5.call0.v2
      (fun p a b => select (broadcastInDim S32 ![] bcast_S_S32 p) a b),
    unary main_v119 main_v121 (broadcastInDim S1x32 ![1] bcast_S32_S1x32_1),
    unary main_v121 main_v122 (broadcastInDim S250000x32 ![0, 1] bcast_S1x32_S250000x32_0_1),
    binary main_v116 main_v122 main_v123 subf,
    nullary main_cst_23 (constant S_ .f32 0x3727C5AC#32),
    unary main_cst_23 main_v124 (broadcastInDim S32 ![] bcast_S_S32),
    binary main_v120 main_v124 main_v125 addf,
    unary main_v125 main_v126 Host.rsqrt,
    unary main_v126 main_v127 (broadcastInDim S1x32 ![1] bcast_S32_S1x32_1),
    unary main_v127 main_v128 (broadcastInDim S250000x32 ![0, 1] bcast_S1x32_S250000x32_0_1),
    binary main_v123 main_v128 main_v129 mulf,
    unary main_arg21 main_v130 (broadcastInDim S1x32 ![1] bcast_S32_S1x32_1),
    unary main_v130 main_v131 (broadcastInDim S250000x32 ![0, 1] bcast_S1x32_S250000x32_0_1),
    binary main_v129 main_v131 main_v132 mulf,
    unary main_arg22 main_v133 (broadcastInDim S1x32 ![1] bcast_S32_S1x32_1),
    unary main_v133 main_v134 (broadcastInDim S250000x32 ![0, 1] bcast_S1x32_S250000x32_0_1),
    binary main_v132 main_v134 main_v135 addf ]

abbrev segG3 : List (HloOp τ sig (Elt F)) :=
  [ nullary main_c_24 (constantI S_ 32 0#32),
    unary main_c_24 main_v136 (broadcastInDim S2500000 ![] bcast_S_S2500000),
    binary main_v1 main_v136 main_v137 (cmpi .slt),
    nullary main_c_25 (constantI S_ 32 250000#32),
    unary main_c_25 main_v138 (broadcastInDim S2500000 ![] bcast_S_S2500000),
    binary main_v1 main_v138 main_v139 addi,
    ternary main_v137 main_v139 main_v1 main_v140 select,
    unary main_v140 main_v141 (broadcastInDim S2500000x1 ![0] bcast_S2500000_S2500000x1_0),
    binary main_v135 main_v141 main_v142
      (fun x i => Host.gather gather_S250000x32_S2500000x1_S2500000x32_1_0_n_n_0_1_132 x i),
    nullary main_cst_26 (constant S_ .f32 0x00000000#32),
    unary main_cst_26 main_v143 (broadcastInDim S250000x32 ![] bcast_S_S250000x32),
    unary main_v3 main_v144 (broadcastInDim S2500000x1 ![0] bcast_S2500000_S2500000x1_0),
    ternary main_v143 main_v144 main_v142 main_v145
      (fun x i u => Host.scatterAdd scatter_S250000x32_S2500000x1_S2500000x32_1_0_0_1 x i u),
    binary main_v135 main_v145 main_v146 addf,
    binary main_v146 main_arg23 main_v147
      (fun l r => Host.dotGeneral dot_S250000x32_S32x32_S250000x32_1_0_0_1_n_n none l r),
    unary main_arg24 main_v148 (broadcastInDim S1x32 ![1] bcast_S32_S1x32_1),
    unary main_v148 main_v149 (broadcastInDim S250000x32 ![0, 1] bcast_S1x32_S250000x32_0_1),
    binary main_v147 main_v149 main_v150 addf,
    nullary main_cst_27 (constant S_ .f32 0x00000000#32),
    unary main_cst_27 main_v151 (broadcastInDim S250000x32 ![] bcast_S_S250000x32),
    binary main_v150 main_v151 main_v152 maximumf,
    binary main_v152 main_arg25 main_v153
      (fun l r => Host.dotGeneral dot_S250000x32_S32x32_S250000x32_1_0_0_1_n_n none l r),
    unary main_arg26 main_v154 (broadcastInDim S1x32 ![1] bcast_S32_S1x32_1),
    unary main_v154 main_v155 (broadcastInDim S250000x32 ![0, 1] bcast_S1x32_S250000x32_0_1),
    binary main_v153 main_v155 main_v156 addf,
    TRef.nullary main_call6.cst (constant S_ .f32 0x00000000#32),
    TRef.unary main_call6.cst main_call6.v0 (broadcastInDim S250000x32 ![] bcast_S_S250000x32),
    TRef.binary (.of main_v156) main_call6.v0 main_call6.v1 maximumf,
    nullary main_c_28 (constantI S_ 32 0#32),
    unary main_c_28 main_v158 (broadcastInDim S2500000 ![] bcast_S_S2500000),
    binary main_v3 main_v158 main_v159 (cmpi .slt),
    nullary main_c_29 (constantI S_ 32 250000#32),
    unary main_c_29 main_v160 (broadcastInDim S2500000 ![] bcast_S_S2500000),
    binary main_v3 main_v160 main_v161 addi,
    ternary main_v159 main_v161 main_v3 main_v162 select,
    unary main_v162 main_v163 (broadcastInDim S2500000x1 ![0] bcast_S2500000_S2500000x1_0),
    binary main_v135 main_v163 main_v164
      (fun x i => Host.gather gather_S250000x32_S2500000x1_S2500000x32_1_0_n_n_0_1_132 x i),
    nullary main_cst_30 (constant S_ .f32 0x00000000#32),
    unary main_cst_30 main_v165 (broadcastInDim S250000x32 ![] bcast_S_S250000x32),
    unary main_v1 main_v166 (broadcastInDim S2500000x1 ![0] bcast_S2500000_S2500000x1_0),
    ternary main_v165 main_v166 main_v164 main_v167
      (fun x i u => Host.scatterAdd scatter_S250000x32_S2500000x1_S2500000x32_1_0_0_1 x i u),
    binary main_v135 main_v167 main_v168 addf,
    binary main_v168 main_arg27 main_v169
      (fun l r => Host.dotGeneral dot_S250000x32_S32x32_S250000x32_1_0_0_1_n_n none l r),
    unary main_arg28 main_v170 (broadcastInDim S1x32 ![1] bcast_S32_S1x32_1),
    unary main_v170 main_v171 (broadcastInDim S250000x32 ![0, 1] bcast_S1x32_S250000x32_0_1),
    binary main_v169 main_v171 main_v172 addf,
    nullary main_cst_31 (constant S_ .f32 0x00000000#32),
    unary main_cst_31 main_v173 (broadcastInDim S250000x32 ![] bcast_S_S250000x32),
    binary main_v172 main_v173 main_v174 maximumf,
    binary main_v174 main_arg29 main_v175
      (fun l r => Host.dotGeneral dot_S250000x32_S32x32_S250000x32_1_0_0_1_n_n none l r),
    unary main_arg30 main_v176 (broadcastInDim S1x32 ![1] bcast_S32_S1x32_1),
    unary main_v176 main_v177 (broadcastInDim S250000x32 ![0, 1] bcast_S1x32_S250000x32_0_1),
    binary main_v175 main_v177 main_v178 addf,
    TRef.nullary main_call7.cst (constant S_ .f32 0x00000000#32),
    TRef.unary main_call7.cst main_call7.v0 (broadcastInDim S250000x32 ![] bcast_S_S250000x32),
    TRef.binary (.of main_v178) main_call7.v0 main_call7.v1 maximumf,
    binary main_v157 main_v179 main_v180 addf,
    nullary main_cst_32 (constant S_ .f32 0x3F000000#32),
    unary main_cst_32 main_v181 (broadcastInDim S250000x32 ![] bcast_S_S250000x32),
    binary main_v181 main_v180 main_v182 mulf ]

abbrev segB3 : List (HloOp τ sig (Elt F)) :=
  [ nullary main_cst_33 (constant S_ .f32 0x00000000#32),
    binary main_v182 main_cst_33 main_v183 (fun x v => Host.reduceAdd x v reducesTo_S250000x32_S32_d0 h_S_),
    nullary main_cst_34 (constant S_ .f32 0x48742400#32),
    unary main_cst_34 main_v184 (broadcastInDim S32 ![] bcast_S_S32),
    binary main_v183 main_v184 main_v185 Host.divf,
    nullary main_c_35 (constantI S_ 32 0#32),
    TRef.nullary main_call8.cst (constant S_ .f32 0x00000000#32),
    TRef.binary (.of main_v182) main_call8.cst main_call8.v0
      (fun x v => Host.reduceAdd x v reducesTo_S250000x32_S32_d0 h_S_),
    TRef.unary main_call8.v0 main_call8.v1 (broadcastInDim S1x32 ![1] bcast_S32_S1x32_1),
    TRef.nullary main_call8.cst_0 (constant S_ .f32 0x48742400#32),
    TRef.unary main_call8.cst_0 main_call8.v2 (broadcastInDim S1x32 ![] bcast_S_S1x32),
    TRef.binary main_call8.v1 main_call8.v2 main_call8.v3 Host.divf,
    TRef.unary main_call8.v3 main_call8.v4 (broadcastInDim S250000x32 ![0, 1] bcast_S1x32_S250000x32_0_1),
    TRef.binary (.of main_v182) main_call8.v4 main_call8.v5 subf,
    TRef.binary main_call8.v5 main_call8.v5 main_call8.v6 mulf,
    TRef.unary (.of main_c_35) main_call8.v7 (sitofp .f32),
    TRef.nullary main_call8.cst_1 (constant S_ .f32 0x48742400#32),
    TRef.binary main_call8.cst_1 main_call8.v7 main_call8.v8 subf,
    TRef.nullary main_call8.cst_2 (constant S_ .f32 0x00000000#32),
    TRef.binary main_call8.v6 main_call8.cst_2 main_call8.v9
      (fun x v => Host.reduceAdd x v reducesTo_S250000x32_S32_d0 h_S_),
    TRef.unary main_call8.v8 main_call8.v10 (broadcastInDim S32 ![] bcast_S_S32),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S32 ![] bcast_S_S32),
    TRef.ternary main_call8.v12 main_call8.v11 main_call8.call0.v1 main_call8.call0.v2
      (fun p a b => select (broadcastInDim S32 ![] bcast_S_S32 p) a b),
    unary main_v185 main_v187 (broadcastInDim S1x32 ![1] bcast_S32_S1x32_1),
    unary main_v187 main_v188 (broadcastInDim S250000x32 ![0, 1] bcast_S1x32_S250000x32_0_1),
    binary main_v182 main_v188 main_v189 subf,
    nullary main_cst_36 (constant S_ .f32 0x3727C5AC#32),
    unary main_cst_36 main_v190 (broadcastInDim S32 ![] bcast_S_S32),
    binary main_v186 main_v190 main_v191 addf,
    unary main_v191 main_v192 Host.rsqrt,
    unary main_v192 main_v193 (broadcastInDim S1x32 ![1] bcast_S32_S1x32_1),
    unary main_v193 main_v194 (broadcastInDim S250000x32 ![0, 1] bcast_S1x32_S250000x32_0_1),
    binary main_v189 main_v194 main_v195 mulf,
    unary main_arg31 main_v196 (broadcastInDim S1x32 ![1] bcast_S32_S1x32_1),
    unary main_v196 main_v197 (broadcastInDim S250000x32 ![0, 1] bcast_S1x32_S250000x32_0_1),
    binary main_v195 main_v197 main_v198 mulf,
    unary main_arg32 main_v199 (broadcastInDim S1x32 ![1] bcast_S32_S1x32_1),
    unary main_v199 main_v200 (broadcastInDim S250000x32 ![0, 1] bcast_S1x32_S250000x32_0_1),
    binary main_v198 main_v200 main_v201 addf ]

abbrev segH : List (HloOp τ sig (Elt F)) :=
  [ nullary main_cst_37 (constant S_ .f32 0x00000000#32),
    unary main_cst_37 main_v202 (broadcastInDim S512x32 ![] bcast_S_S512x32),
    unary main_arg2 main_v203 (broadcastInDim S250000x1 ![0] bcast_S250000_S250000x1_0),
    ternary main_v202 main_v203 main_v201 main_v204
      (fun x i u => Host.scatterAdd scatter_S512x32_S250000x1_S250000x32_1_0_0_1 x i u),
    nullary main_cst_38 (constant S_ .f32 0x3F800000#32),
    unary main_cst_38 main_v205 (broadcastInDim S250000 ![] bcast_S_S250000),
    nullary main_cst_39 (constant S_ .f32 0x00000000#32),
    unary main_cst_39 main_v206 (broadcastInDim S512 ![] bcast_S_S512),
    unary main_arg2 main_v207 (broadcastInDim S250000x1 ![0] bcast_S250000_S250000x1_0),
    ternary main_v206 main_v207 main_v205 main_v208
      (fun x i u => Host.scatterAdd scatter_S512_S250000x1_S250000_n_0_0_1 x i u),
    nullary main_cst_40 (constant S_ .f32 0x3F800000#32),
    unary main_cst_40 main_v209 (broadcastInDim S512 ![] bcast_S_S512),
    binary main_v208 main_v209 main_v210 maximumf,
    unary main_v210 main_v211 (broadcastInDim S512x1 ![0] bcast_S512_S512x1_0),
    unary main_v211 main_v212 (broadcastInDim S512x32 ![0, 1] bcast_S512x1_S512x32_0_1),
    binary main_v204 main_v212 main_v213 Host.divf,
    binary main_v213 main_arg33 main_v214
      (fun l r => Host.dotGeneral dot_S512x32_S32x16_S512x16_1_0_0_1_n_n none l r),
    unary main_arg34 main_v215 (broadcastInDim S1x16 ![1] bcast_S16_S1x16_1),
    unary main_v215 main_v216 (broadcastInDim S512x16 ![0, 1] bcast_S1x16_S512x16_0_1),
    binary main_v214 main_v216 main_v217 addf,
    TRef.nullary main_call9.cst (constant S_ .f32 0x00000000#32),
    TRef.unary main_call9.cst main_call9.v0 (broadcastInDim S512x16 ![] bcast_S_S512x16),
    TRef.binary (.of main_v217) main_call9.v0 main_call9.v1 maximumf,
    binary main_v218 main_arg35 main_v219
      (fun l r => Host.dotGeneral dot_S512x16_S16x1_S512x1_1_0_0_1_n_n none l r),
    unary main_arg36 main_v220 (broadcastInDim S1x1 ![1] bcast_S1_S1x1_1),
    unary main_v220 main_v221 (broadcastInDim S512x1 ![0, 1] bcast_S1x1_S512x1_0_1),
    binary main_v219 main_v221 main_v222 addf,
    unary main_v222 main_v223 Host.negf,
    unary main_v223 main_v224 Host.exp,
    nullary main_cst_41 (constant S_ .f32 0x3F800000#32),
    unary main_cst_41 main_v225 (broadcastInDim S512x1 ![] bcast_S_S512x1),
    binary main_v225 main_v224 main_v226 addf,
    nullary main_cst_42 (constant S_ .f32 0x3F800000#32),
    unary main_cst_42 main_v227 (broadcastInDim S512x1 ![] bcast_S_S512x1),
    binary main_v227 main_v226 main_v228 Host.divf ]

local macro "good_ops" : tactic => `(tactic| (
  repeat' apply And.intro
  all_goals first
    | with_reducible exact nullary_bufs_sub .. | with_reducible exact unary_bufs_sub ..
    | with_reducible exact binary_bufs_sub .. | with_reducible exact ternary_bufs_sub ..
    | with_reducible exact reshape_bufs_sub ..
    | rfl
    | (with_reducible refine keeps_nullary ?_ _ _; decide)
    | (with_reducible refine keeps_unary ?_ _ _ _; decide)
    | (with_reducible refine keeps_binary ?_ _ _ _ _; decide)
    | (with_reducible refine keeps_ternary ?_ _ _ _ _ _; decide)
    | (with_reducible refine keeps_reshape ?_ _ _ _ _; decide)))

theorem segE_good : (segE : List (HloOp τ sig (Elt F))).Forall (Good 37) := by good_ops
theorem segG1_good : (segG1 : List (HloOp τ sig (Elt F))).Forall (Good 37) := by good_ops
theorem segB1_good : (segB1 : List (HloOp τ sig (Elt F))).Forall (Good 37) := by good_ops
theorem segG2_good : (segG2 : List (HloOp τ sig (Elt F))).Forall (Good 37) := by good_ops
theorem segB2_good : (segB2 : List (HloOp τ sig (Elt F))).Forall (Good 37) := by good_ops
theorem segG3_good : (segG3 : List (HloOp τ sig (Elt F))).Forall (Good 37) := by good_ops
theorem segB3_good : (segB3 : List (HloOp τ sig (Elt F))).Forall (Good 37) := by good_ops
theorem segH_good : (segH : List (HloOp τ sig (Elt F))).Forall (Good 37) := by good_ops

theorem segs_good : (segE ++ (segG1 ++ (segB1 ++ (segG2 ++ (segB2 ++ (segG3 ++ (segB3 ++ segH)))))) : List (HloOp τ sig (Elt F))).Forall (Good 37) := by
  simp only [List.forall_append]
  exact ⟨segE_good, segG1_good, segB1_good, segG2_good, segB2_good, segG3_good, segB3_good, segH_good⟩

end Cert.ReferenceIdeal.Hand

end
-- ==== Proof.Ref.RunP0.lean ====
import proofs.«427087_j34256659153343_2_alg».proof.ReferenceIdeal

import Idealize.ShloMosaic.Lib.StableHlo.Run

import proofs.«427087_j34256659153343_2_alg».proof.Proof.Ref.Stages

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

def opsP0 : List (HloOp τ sig (Elt F)) := segE ++ segG1

theorem part0_eq (c : Dev nD) : main_part0 (F := F) c = seq opsP0 := rfl

end Cert.ReferenceIdeal.Hand

end
-- ==== Proof.Ref.RunP1.lean ====
import proofs.«427087_j34256659153343_2_alg».proof.ReferenceIdeal

import Idealize.ShloMosaic.Lib.StableHlo.Run

import proofs.«427087_j34256659153343_2_alg».proof.Proof.Ref.Stages

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

def opsP1 : List (HloOp τ sig (Elt F)) := segB1 ++ segG2.take 39

theorem part1_eq (c : Dev nD) : main_part1 (F := F) c = seq opsP1 := rfl

end Cert.ReferenceIdeal.Hand

end
-- ==== Proof.Ref.RunP2.lean ====
import proofs.«427087_j34256659153343_2_alg».proof.ReferenceIdeal

import Idealize.ShloMosaic.Lib.StableHlo.Run

import proofs.«427087_j34256659153343_2_alg».proof.Proof.Ref.Stages

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

def opsP2 : List (HloOp τ sig (Elt F)) := segG2.drop 39 ++ (segB2 ++ segG3.take 18)

theorem part2_eq (c : Dev nD) : main_part2 (F := F) c = seq opsP2 := rfl

end Cert.ReferenceIdeal.Hand

end
-- ==== Proof.Ref.RunP3.lean ====
import proofs.«427087_j34256659153343_2_alg».proof.ReferenceIdeal

import Idealize.ShloMosaic.Lib.StableHlo.Run

import proofs.«427087_j34256659153343_2_alg».proof.Proof.Ref.Stages

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

def opsP3 : List (HloOp τ sig (Elt F)) := segG3.drop 18 ++ segB3.take 43

theorem part3_eq (c : Dev nD) : main_part3 (F := F) c = seq opsP3 := rfl

end Cert.ReferenceIdeal.Hand

end
-- ==== Proof.Ref.RunP4.lean ====
import proofs.«427087_j34256659153343_2_alg».proof.ReferenceIdeal

import Idealize.ShloMosaic.Lib.StableHlo.Run

import proofs.«427087_j34256659153343_2_alg».proof.Proof.Ref.Stages

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

def opsP4 : List (HloOp τ sig (Elt F)) := segB3.drop 43 ++ segH

theorem part4_eq (c : Dev nD) : main_part4 (F := F) c = seq opsP4 := rfl

end Cert.ReferenceIdeal.Hand

end
-- ==== Proof.Ref.Run.lean ====
import proofs.«427087_j34256659153343_2_alg».proof.ReferenceIdeal

import Idealize.ShloMosaic.Lib.StableHlo.Run

import proofs.«427087_j34256659153343_2_alg».proof.Proof.Ref.Stages

import proofs.«427087_j34256659153343_2_alg».proof.Proof.Ref.RunP0

import proofs.«427087_j34256659153343_2_alg».proof.Proof.Ref.RunP1

import proofs.«427087_j34256659153343_2_alg».proof.Proof.Ref.RunP2

import proofs.«427087_j34256659153343_2_alg».proof.Proof.Ref.RunP3

import proofs.«427087_j34256659153343_2_alg».proof.Proof.Ref.RunP4

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

abbrev ops : List (HloOp τ sig (Elt F)) := opsP0 ++ (opsP1 ++ (opsP2 ++ (opsP3 ++ opsP4)))

theorem main_eq (c : Dev nD) : main (F := F) c = seq ops := by
  simp only [main, ops, part0_eq, part1_eq, part2_eq, part3_eq, part4_eq, seq_append]

set_option maxRecDepth 100000 in
theorem scopedRefs_eq : (Finset.univ.filter fun b : Ref sig .tc => b.isScoped) = ∅ := by decide

theorem scopedSems_eq : (Finset.univ.filter fun sm : SemLoc sig => sm.isScoped .tc) = ∅ := by decide

theorem parts_eq_segs :
    (opsP0 ++ (opsP1 ++ (opsP2 ++ (opsP3 ++ opsP4))) : List (HloOp τ sig (Elt F))) = segE ++ (segG1 ++ (segB1 ++ (segG2 ++ (segB2 ++ (segG3 ++ (segB3 ++ (segH))))))) := rfl

theorem ops_good : (ops (F := F)).Forall (Good 37) :=
  (congrArg (List.Forall (Good 37)) parts_eq_segs).mpr segs_good

theorem segs_keeps :
    (segE (F := F)).Forall (Keeps 37) ∧
    (segG1 (F := F)).Forall (Keeps 37) ∧
    (segB1 (F := F)).Forall (Keeps 37) ∧
    (segG2 (F := F)).Forall (Keeps 37) ∧
    (segB2 (F := F)).Forall (Keeps 37) ∧
    (segG3 (F := F)).Forall (Keeps 37) ∧
    (segB3 (F := F)).Forall (Keeps 37) ∧
    (segH (F := F)).Forall (Keeps 37) := by
  simpa only [List.forall_append] using keeps_of_good (segs_good (F := F))

theorem kept (m : (ℓ : Loc nD τ sig) → Buf (Elt F) ℓ) (c : Dev nD) (r : Ref sig .tc) (hr : r.idx.val < 37) :
    after (ops (F := F)) (launchContents m c) (Proc.devRef .tc r) = m ((c.tc : Thread nD τ).loc r) :=
  after_keeps ops (keeps_of_good ops_good) (launchContents m c) hr

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v228) = after (ops (F := F)) (launchContents m c) (Proc.devRef .tc main_v228)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun _ h c => by
      refine ⟨h c main_v228, ?_⟩
      repeat' apply And.intro
      all_goals exact (h c _).trans (kept m c _ (by decide)))
    (run_seq scopedRefs_eq scopedSems_eq defs main (fun _ => ops) main_eq (fun _ => ops_good.imp fun _ h => h.1) m ρ
      (fun _ => List.forall_iff_forall_mem.mp (ops_good.imp fun _ h => h.2.1)))

theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun _ h c => (h c).2) (run m ρ)

end Cert.ReferenceIdeal.Hand

end
-- ==== Proof.Ref.Layer.lean ====
import proofs.«427087_j34256659153343_2_alg».proof.ReferenceIdeal

import proofs.«427087_j34256659153343_2_alg».proof.Proof.SpecArr

import proofs.«427087_j34256659153343_2_alg».proof.Proof.SpecLaws

import Idealize.ShloMosaic.Lib.ValueIdx

import Idealize.ShloMosaic.Lib.StackMember

import Idealize.ShloMosaic.Lib.IdealHost

import Idealize.ShloMosaic.Lib.Pipeline.Value

import Idealize.ShloMosaic.Lib.ValueLayout

import Idealize.ShloMosaic.PureOps.Ideal.Laws

noncomputable section

open scoped BigOperators

namespace Cert.ReferenceIdeal.Hand

open Idealize.ShloMosaic Idealize.ShloMosaic.ValueIdx Cert.ReferenceIdeal

variable [Cert.ReferenceIdeal.Facts₀]

open Cert.ReferenceIdeal.Facts₀

-- One perceptron branch: relu (relu (h·W1 + b1)·W2 + b2).
def rMlp {k : Nat} (h : FVec Ideal ⟨2, ![250000, k]⟩ .f32) (W1 : FVec Ideal ⟨2, ![k, 32]⟩ .f32) (b1 : FVec Ideal S32 .f32)
    (W2 : FVec Ideal S32x32 .f32) (b2 : FVec Ideal S32 .f32) : FVec Ideal S250000x32 .f32 :=
  have d1 : FVec Ideal S250000x32 .f32 := Host.dotGeneral (F := Ideal) (DotDims.plain 250000 k 32) none h W1
  have r1 : FVec Ideal S1x32 .f32 := broadcastInDim S1x32 ![1] bcast_S32_S1x32_1 b1
  have q1 : FVec Ideal S250000x32 .f32 := broadcastInDim S250000x32 ![0, 1] bcast_S1x32_S250000x32_0_1 r1
  have a1 : FVec Ideal S250000x32 .f32 := addf (F := Ideal) d1 q1
  have z1 : FVec Ideal S_ .f32 := constant (F := Ideal) S_ .f32 0x00000000#32
  have zz1 : FVec Ideal S250000x32 .f32 := broadcastInDim S250000x32 ![] bcast_S_S250000x32 z1
  have t1 : FVec Ideal S250000x32 .f32 := maximumf (F := Ideal) a1 zz1
  have d2 : FVec Ideal S250000x32 .f32 := Host.dotGeneral (F := Ideal) (DotDims.plain 250000 32 32) none t1 W2
  have r2 : FVec Ideal S1x32 .f32 := broadcastInDim S1x32 ![1] bcast_S32_S1x32_1 b2
  have q2 : FVec Ideal S250000x32 .f32 := broadcastInDim S250000x32 ![0, 1] bcast_S1x32_S250000x32_0_1 r2
  have a2 : FVec Ideal S250000x32 .f32 := addf (F := Ideal) d2 q2
  have z2 : FVec Ideal S_ .f32 := constant (F := Ideal) S_ .f32 0x00000000#32
  have zz2 : FVec Ideal S250000x32 .f32 := broadcastInDim S250000x32 ![] bcast_S_S250000x32 z2
  maximumf (F := Ideal) a2 zz2

-- Half the sum of the forward branch on x + af and the backward branch on x + ab.
def rGin {k : Nat} (x af ab : FVec Ideal ⟨2, ![250000, k]⟩ .f32)
    (fW1 : FVec Ideal ⟨2, ![k, 32]⟩ .f32) (fb1 : FVec Ideal S32 .f32) (fW2 : FVec Ideal S32x32 .f32) (fb2 : FVec Ideal S32 .f32)
    (bW1 : FVec Ideal ⟨2, ![k, 32]⟩ .f32) (bb1 : FVec Ideal S32 .f32) (bW2 : FVec Ideal S32x32 .f32) (bb2 : FVec Ideal S32 .f32) :
    FVec Ideal S250000x32 .f32 :=
  have s : FVec Ideal S250000x32 .f32 :=
    addf (F := Ideal) (rMlp (addf (F := Ideal) x af) fW1 fb1 fW2 fb2) (rMlp (addf (F := Ideal) x ab) bW1 bb1 bW2 bb2)
  have c : FVec Ideal S_ .f32 := constant (F := Ideal) S_ .f32 0x3F000000#32
  have cc : FVec Ideal S250000x32 .f32 := broadcastInDim S250000x32 ![] bcast_S_S250000x32 c
  mulf (F := Ideal) cc s

def rBn (o : FVec Ideal S250000x32 .f32) (g b : FVec Ideal S32 .f32) : FVec Ideal S250000x32 .f32 :=
  have z0 : FVec Ideal S_ .f32 := constant (F := Ideal) S_ .f32 0x00000000#32
  have sm : FVec Ideal S32 .f32 := Host.reduceAdd (F := Ideal) o z0 reducesTo_S250000x32_S32_d0 h_S_
  have n0 : FVec Ideal S_ .f32 := constant (F := Ideal) S_ .f32 0x48742400#32
  have nn : FVec Ideal S32 .f32 := broadcastInDim S32 ![] bcast_S_S32 n0
  have mean : FVec Ideal S32 .f32 := Host.divf (F := Ideal) sm nn
  have dd : IVec S_ 32 := constantI S_ 32 0#32
  have vz : FVec Ideal S_ .f32 := constant (F := Ideal) S_ .f32 0x00000000#32
  have vs : FVec Ideal S32 .f32 := Host.reduceAdd (F := Ideal) o vz reducesTo_S250000x32_S32_d0 h_S_
  have vr : FVec Ideal S1x32 .f32 := broadcastInDim S1x32 ![1] bcast_S32_S1x32_1 vs
  have vn : FVec Ideal S_ .f32 := constant (F := Ideal) S_ .f32 0x48742400#32
  have vnn : FVec Ideal S1x32 .f32 := broadcastInDim S1x32 ![] bcast_S_S1x32 vn
  have vm : FVec Ideal S1x32 .f32 := Host.divf (F := Ideal) vr vnn
  have vmm : FVec Ideal S250000x32 .f32 := broadcastInDim S250000x32 ![0, 1] bcast_S1x32_S250000x32_0_1 vm
  have dev : FVec Ideal S250000x32 .f32 := subf (F := Ideal) o vmm
  have sq : FVec Ideal S250000x32 .f32 := mulf (F := Ideal) dev dev
  have df : FVec Ideal S_ .f32 := sitofp (F := Ideal) .f32 dd
  have vn1 : FVec Ideal S_ .f32 := constant (F := Ideal) S_ .f32 0x48742400#32
  have den : FVec Ideal S_ .f32 := subf (F := Ideal) vn1 df
  have vz2 : FVec Ideal S_ .f32 := constant (F := Ideal) S_ .f32 0x00000000#32
  have ssq : FVec Ideal S32 .f32 := Host.reduceAdd (F := Ideal) sq vz2 reducesTo_S250000x32_S32_d0 h_S_
  have dden : FVec Ideal S32 .f32 := broadcastInDim S32 ![] bcast_S_S32 den
  have quo : FVec Ideal S32 .f32 := Host.divf (F := Ideal) ssq dden
  have vz3 : FVec Ideal S_ .f32 := constant (F := Ideal) S_ .f32 0x00000000#32
  have pos : IVec S_ 1 := cmpf (F := Ideal) .ogt den vz3
  have nan : FVec Ideal S_ .f32 := constant (F := Ideal) S_ .f32 0x7FC00000#32
  have w0 : FVec Ideal S_ .f32 := id nan
  have w1 : FVec Ideal S32 .f32 := broadcastInDim S32 ![] bcast_S_S32 w0
  have var : FVec Ideal S32 .f32 := select (broadcastInDim S32 ![] bcast_S_S32 pos) quo w1
  have mr : FVec Ideal S1x32 .f32 := broadcastInDim S1x32 ![1] bcast_S32_S1x32_1 mean
  have mm : FVec Ideal S250000x32 .f32 := broadcastInDim S250000x32 ![0, 1] bcast_S1x32_S250000x32_0_1 mr
  have cen : FVec Ideal S250000x32 .f32 := subf (F := Ideal) o mm
  have e0 : FVec Ideal S_ .f32 := constant (F := Ideal) S_ .f32 0x3727C5AC#32
  have ee : FVec Ideal S32 .f32 := broadcastInDim S32 ![] bcast_S_S32 e0
  have ve : FVec Ideal S32 .f32 := addf (F := Ideal) var ee
  have rs : FVec Ideal S32 .f32 := Host.rsqrt (F := Ideal) ve
  have rr : FVec Ideal S1x32 .f32 := broadcastInDim S1x32 ![1] bcast_S32_S1x32_1 rs
  have rrr : FVec Ideal S250000x32 .f32 := broadcastInDim S250000x32 ![0, 1] bcast_S1x32_S250000x32_0_1 rr
  have nrm : FVec Ideal S250000x32 .f32 := mulf (F := Ideal) cen rrr
  have gr : FVec Ideal S1x32 .f32 := broadcastInDim S1x32 ![1] bcast_S32_S1x32_1 g
  have gg : FVec Ideal S250000x32 .f32 := broadcastInDim S250000x32 ![0, 1] bcast_S1x32_S250000x32_0_1 gr
  have sc : FVec Ideal S250000x32 .f32 := mulf (F := Ideal) nrm gg
  have br : FVec Ideal S1x32 .f32 := broadcastInDim S1x32 ![1] bcast_S32_S1x32_1 b
  have bb : FVec Ideal S250000x32 .f32 := broadcastInDim S250000x32 ![0, 1] bcast_S1x32_S250000x32_0_1 br
  addf (F := Ideal) sc bb

theorem rows_bcast_eq (v : FVec Ideal S1x32 .f32) :
    broadcastInDim S250000x32 ![0, 1] bcast_S1x32_S250000x32_0_1 v = fun i => v (ix2 (0 : Fin 1) (i 1)) := by
  funext i
  exact broadcastInDim_apply _ _ _ _ (ix2 (0 : Fin 1) (i 1)) (by intro a; match a with | ⟨0, _⟩ => rfl | ⟨1, _⟩ => rfl)

theorem row_eq (v : FVec Ideal S32 .f32) :
    broadcastInDim S1x32 ![1] bcast_S32_S1x32_1 v = fun i => v (ix1 (i 1)) := by
  funext i
  exact broadcastInDim_apply _ _ _ _ (ix1 (i 1)) (by intro a; match a with | ⟨0, _⟩ => rfl)

theorem scal_eq {T : Shape} {α : Type} (h : S_.BroadcastsInDim T ![]) (c : S_.Idx → α) :
    broadcastInDim T ![] h c = fun _ => c ix0 := by
  funext i; exact broadcastInDim_scalar_apply _ _ _

theorem colsum_eq (o : FVec Ideal S250000x32 .f32) (z : FVec Ideal S_ .f32) :
    Host.reduceAdd (F := Ideal) o z reducesTo_S250000x32_S32_d0 h_S_
      = fun i => z ix0 + ∑ k : Fin 250000, o (ix2 k (i 0)) := by
  funext i
  rw [hostReduceAdd_apply, Ideal.hostReduceAdd_single reducesTo_S250000x32_S32_d0 (by decide)]
  refine congr (congrArg _ (congrArg z (funext fun a => a.elim0))) (Finset.sum_congr rfl fun k _ => ?_)
  exact congrArg o (funext fun a => Fin.ext (by match a with | ⟨0, _⟩ => rfl | ⟨1, _⟩ => rfl))

theorem hostRsqrt_apply (v : FVec Ideal S32 .f32) (i : S32.Idx) : Host.rsqrt (F := Ideal) v i = Ideal.rsqrt (v i) := rfl

theorem sitofp_zero : sitofp (F := Ideal) .f32 (constantI S_ 32 0#32) ix0 = (0 : EReal) := by
  show (((0#32 : BitVec 32).toInt : ℝ) : EReal) = 0
  simp

theorem cN_pos : (0 : EReal) < Cert.Spec.cN := by
  rw [Cert.Spec.cN_eq]; exact_mod_cast (by norm_num : (0 : ℝ) < 250000)

theorem cmp_pos : FloatOps.cmpf (F := Ideal) (φ := .f32) .ogt (Ideal.ofBits .f32 0x48742400#32) (0 : EReal) = 1#1 := by
  rw [Ideal.cmpf_def]
  show BitVec.ofBool (decide ((0 : EReal) < Ideal.ofBits .f32 0x48742400#32)) = 1#1
  rw [decide_eq_true (show (0 : EReal) < Ideal.ofBits .f32 0x48742400#32 from cN_pos)]; rfl

open Cert.Spec in
theorem rGin_eq {k : Nat} (x af ab : FVec Ideal ⟨2, ![250000, k]⟩ .f32)
    (fW1 : FVec Ideal ⟨2, ![k, 32]⟩ .f32) (fb1 : FVec Ideal S32 .f32) (fW2 : FVec Ideal S32x32 .f32) (fb2 : FVec Ideal S32 .f32)
    (bW1 : FVec Ideal ⟨2, ![k, 32]⟩ .f32) (bb1 : FVec Ideal S32 .f32) (bW2 : FVec Ideal S32x32 .f32) (bb2 : FVec Ideal S32 .f32) :
    mat (rGin x af ab fW1 fb1 fW2 fb2 bW1 bb1 bW2 bb2)
      = gin ⟨mat fW1, vec fb1, mat fW2, vec fb2, mat bW1, vec bb1, mat bW2, vec bb2⟩ (mat x) (mat af) (mat ab) := by
  funext p j
  show rGin x af ab fW1 fb1 fW2 fb2 bW1 bb1 bW2 bb2 (ix2 p j) = _
  unfold rGin rMlp
  dsimp only
  repeat rw [rows_bcast_eq]
  repeat rw [row_eq]
  repeat rw [scal_eq]
  simp only [mulf_apply, addf_apply, maximumf_apply, constant_apply, StackMember.dotGeneral_plain_apply, Ideal.ofBits_zero_f32]
  rfl

open Cert.Spec in
theorem rBn_eq (o : FVec Ideal S250000x32 .f32) (g b : FVec Ideal S32 .f32) :
    mat (rBn o g b) = bn (varR (mat o)) (mat o) (vec g) (vec b) := by
  funext p j
  show rBn o g b (ix2 p j) = _
  unfold rBn
  dsimp only
  repeat rw [rows_bcast_eq]
  repeat rw [row_eq]
  repeat rw [scal_eq]
  repeat rw [colsum_eq]
  simp only [addf_apply, mulf_apply, subf_apply, hostDivf_apply, hostRsqrt_apply, select_apply, cmpf_apply, constant_apply,
    Ideal.ofBits_zero_f32, zero_add, sub_zero, sitofp_zero, cmp_pos, select_one]
  rfl

end Cert.ReferenceIdeal.Hand

end
-- ==== Proof.Ref.ValL1.lean ====
import proofs.«427087_j34256659153343_2_alg».proof.ReferenceIdeal

import Idealize.ShloMosaic.Lib.StableHlo.Run

import proofs.«427087_j34256659153343_2_alg».proof.Proof.Ref.RunBase

import proofs.«427087_j34256659153343_2_alg».proof.Proof.Ref.Stages

import proofs.«427087_j34256659153343_2_alg».proof.Proof.Ref.Layer

import proofs.«427087_j34256659153343_2_alg».proof.Proof.Bridge.Agg

noncomputable section

namespace Cert.ReferenceIdeal.Hand

open Cert.ReferenceIdeal Cert.ReferenceIdeal.Facts₀ Idealize.ShloMosaic Idealize.ShloMosaic.TcCoe Idealize.SL.Sem Idealize.ShloMosaic.StableHlo

open Cert.Bridge

variable {F : FTy → Type} [FloatOps F] [Facts]

-- None of the four middle segments assigns one of the first 41 references.
theorem segs_keeps41 : (segG1 (F := F)).Forall (Keeps 41) ∧ (segB1 (F := F)).Forall (Keeps 41)
    ∧ (segG2 (F := F)).Forall (Keeps 41) ∧ (segB2 (F := F)).Forall (Keeps 41) := by
  repeat' apply And.intro
  all_goals show Keeps _ _
  all_goals first
    | (with_reducible refine keeps_nullary ?_ _ _; decide)
    | (with_reducible refine keeps_unary ?_ _ _ _; decide)
    | (with_reducible refine keeps_binary ?_ _ _ _ _; decide)
    | (with_reducible refine keeps_ternary ?_ _ _ _ _ _; decide)
    | (with_reducible refine keeps_reshape ?_ _ _ _ _; decide)

theorem segE_val (W : Valuation τ sig (Elt Ideal)) (ei : IVec S2x2500000 32) (he : W (Proc.devRef .tc main_arg1) = ei) :
    after (segE (F := Ideal)) W (Proc.devRef .tc main_v1) = rSrc ei
      ∧ after (segE (F := Ideal)) W (Proc.devRef .tc main_v3) = rDst ei := by
  subst he
  constructor
  · after_results_simp
    rfl
  · after_results_simp
    rfl

theorem segG1_val (W : Valuation τ sig (Elt Ideal)) (ei : IVec S2x2500000 32) (x : FVec Ideal S250000x6 .f32)
    (fW1 : FVec Ideal S6x32 .f32) (fb1 : FVec Ideal S32 .f32) (fW2 : FVec Ideal S32x32 .f32) (fb2 : FVec Ideal S32 .f32) (bW1 : FVec Ideal S6x32 .f32) (bb1 : FVec Ideal S32 .f32) (bW2 : FVec Ideal S32x32 .f32) (bb2 : FVec Ideal S32 .f32)
    (hs : W (Proc.devRef .tc main_v1) = rSrc ei) (hd : W (Proc.devRef .tc main_v3) = rDst ei) (hx : W (Proc.devRef .tc main_arg0) = x)
    (hfW1 : W (Proc.devRef .tc main_arg3) = fW1) (hfb1 : W (Proc.devRef .tc main_arg4) = fb1) (hfW2 : W (Proc.devRef .tc main_arg5) = fW2) (hfb2 : W (Proc.devRef .tc main_arg6) = fb2) (hbW1 : W (Proc.devRef .tc main_arg7) = bW1) (hbb1 : W (Proc.devRef .tc main_arg8) = bb1) (hbW2 : W (Proc.devRef .tc main_arg9) = bW2) (hbb2 : W (Proc.devRef .tc main_arg10) = bb2) :
    after (segG1 (F := Ideal)) W (Proc.devRef .tc main_v50)
      = rGin x (rAggF6 ei x) (rAggB6 ei x) fW1 fb1 fW2 fb2 bW1 bb1 bW2 bb2 := by
  subst hx hfW1 hfb1 hfW2 hfb2 hbW1 hbb1 hbW2 hbb2
  after_results_simp
  rw [hs, hd]
  rfl

theorem segB1_val (W : Valuation τ sig (Elt Ideal)) (o : FVec Ideal S250000x32 .f32) (g b : FVec Ideal S32 .f32)
    (ho : W (Proc.devRef .tc main_v50) = o) (hg : W (Proc.devRef .tc main_arg11) = g) (hb : W (Proc.devRef .tc main_arg12) = b) :
    after (segB1 (F := Ideal)) W (Proc.devRef .tc main_v69) = rBn o g b := by
  subst ho hg hb
  after_results_simp
  rfl

end Cert.ReferenceIdeal.Hand

end
-- ==== Proof.Ref.ValL2.lean ====
import proofs.«427087_j34256659153343_2_alg».proof.ReferenceIdeal

import Idealize.ShloMosaic.Lib.StableHlo.Run

import proofs.«427087_j34256659153343_2_alg».proof.Proof.Ref.RunBase

import proofs.«427087_j34256659153343_2_alg».proof.Proof.Ref.Stages

import proofs.«427087_j34256659153343_2_alg».proof.Proof.Ref.Layer

import proofs.«427087_j34256659153343_2_alg».proof.Proof.Bridge.Agg

noncomputable section

namespace Cert.ReferenceIdeal.Hand

open Cert.ReferenceIdeal Cert.ReferenceIdeal.Facts₀ Idealize.ShloMosaic Idealize.ShloMosaic.TcCoe Idealize.SL.Sem Idealize.ShloMosaic.StableHlo

open Cert.Bridge

variable {F : FTy → Type} [FloatOps F] [Facts]

theorem segG2_val (W : Valuation τ sig (Elt Ideal)) (ei : IVec S2x2500000 32) (x : FVec Ideal S250000x32 .f32)
    (fW1 : FVec Ideal S32x32 .f32) (fb1 : FVec Ideal S32 .f32) (fW2 : FVec Ideal S32x32 .f32) (fb2 : FVec Ideal S32 .f32) (bW1 : FVec Ideal S32x32 .f32) (bb1 : FVec Ideal S32 .f32) (bW2 : FVec Ideal S32x32 .f32) (bb2 : FVec Ideal S32 .f32)
    (hs : W (Proc.devRef .tc main_v1) = rSrc ei) (hd : W (Proc.devRef .tc main_v3) = rDst ei) (hx : W (Proc.devRef .tc main_v69) = x)
    (hfW1 : W (Proc.devRef .tc main_arg13) = fW1) (hfb1 : W (Proc.devRef .tc main_arg14) = fb1) (hfW2 : W (Proc.devRef .tc main_arg15) = fW2) (hfb2 : W (Proc.devRef .tc main_arg16) = fb2) (hbW1 : W (Proc.devRef .tc main_arg17) = bW1) (hbb1 : W (Proc.devRef .tc main_arg18) = bb1) (hbW2 : W (Proc.devRef .tc main_arg19) = bW2) (hbb2 : W (Proc.devRef .tc main_arg20) = bb2) :
    after (segG2 (F := Ideal)) W (Proc.devRef .tc main_v116)
      = rGin x (rAggF32 ei x) (rAggB32 ei x) fW1 fb1 fW2 fb2 bW1 bb1 bW2 bb2 := by
  subst hx hfW1 hfb1 hfW2 hfb2 hbW1 hbb1 hbW2 hbb2
  after_results_simp
  rw [hs, hd]
  rfl

theorem segB2_val (W : Valuation τ sig (Elt Ideal)) (o : FVec Ideal S250000x32 .f32) (g b : FVec Ideal S32 .f32)
    (ho : W (Proc.devRef .tc main_v116) = o) (hg : W (Proc.devRef .tc main_arg21) = g) (hb : W (Proc.devRef .tc main_arg22) = b) :
    after (segB2 (F := Ideal)) W (Proc.devRef .tc main_v135) = rBn o g b := by
  subst ho hg hb
  after_results_simp
  rfl

end Cert.ReferenceIdeal.Hand

end
-- ==== Proof.Ref.ValL3.lean ====
import proofs.«427087_j34256659153343_2_alg».proof.ReferenceIdeal

import Idealize.ShloMosaic.Lib.StableHlo.Run

import proofs.«427087_j34256659153343_2_alg».proof.Proof.Ref.RunBase

import proofs.«427087_j34256659153343_2_alg».proof.Proof.Ref.Stages

import proofs.«427087_j34256659153343_2_alg».proof.Proof.Ref.Layer

import proofs.«427087_j34256659153343_2_alg».proof.Proof.Bridge.Agg

noncomputable section

namespace Cert.ReferenceIdeal.Hand

open Cert.ReferenceIdeal Cert.ReferenceIdeal.Facts₀ Idealize.ShloMosaic Idealize.ShloMosaic.TcCoe Idealize.SL.Sem Idealize.ShloMosaic.StableHlo

open Cert.Bridge

variable {F : FTy → Type} [FloatOps F] [Facts]

theorem segG3_val (W : Valuation τ sig (Elt Ideal)) (ei : IVec S2x2500000 32) (x : FVec Ideal S250000x32 .f32)
    (fW1 : FVec Ideal S32x32 .f32) (fb1 : FVec Ideal S32 .f32) (fW2 : FVec Ideal S32x32 .f32) (fb2 : FVec Ideal S32 .f32) (bW1 : FVec Ideal S32x32 .f32) (bb1 : FVec Ideal S32 .f32) (bW2 : FVec Ideal S32x32 .f32) (bb2 : FVec Ideal S32 .f32)
    (hs : W (Proc.devRef .tc main_v1) = rSrc ei) (hd : W (Proc.devRef .tc main_v3) = rDst ei) (hx : W (Proc.devRef .tc main_v135) = x)
    (hfW1 : W (Proc.devRef .tc main_arg23) = fW1) (hfb1 : W (Proc.devRef .tc main_arg24) = fb1) (hfW2 : W (Proc.devRef .tc main_arg25) = fW2) (hfb2 : W (Proc.devRef .tc main_arg26) = fb2) (hbW1 : W (Proc.devRef .tc main_arg27) = bW1) (hbb1 : W (Proc.devRef .tc main_arg28) = bb1) (hbW2 : W (Proc.devRef .tc main_arg29) = bW2) (hbb2 : W (Proc.devRef .tc main_arg30) = bb2) :
    after (segG3 (F := Ideal)) W (Proc.devRef .tc main_v182)
      = rGin x (rAggF32 ei x) (rAggB32 ei x) fW1 fb1 fW2 fb2 bW1 bb1 bW2 bb2 := by
  subst hx hfW1 hfb1 hfW2 hfb2 hbW1 hbb1 hbW2 hbb2
  after_results_simp
  rw [hs, hd]
  rfl

theorem segB3_val (W : Valuation τ sig (Elt Ideal)) (o : FVec Ideal S250000x32 .f32) (g b : FVec Ideal S32 .f32)
    (ho : W (Proc.devRef .tc main_v182) = o) (hg : W (Proc.devRef .tc main_arg31) = g) (hb : W (Proc.devRef .tc main_arg32) = b) :
    after (segB3 (F := Ideal)) W (Proc.devRef .tc main_v201) = rBn o g b := by
  subst ho hg hb
  after_results_simp
  rfl

end Cert.ReferenceIdeal.Hand

end
-- ==== Proof.Ref.Head.lean ====
import proofs.«427087_j34256659153343_2_alg».proof.ReferenceIdeal

import proofs.«427087_j34256659153343_2_alg».proof.Proof.SpecArr

import proofs.«427087_j34256659153343_2_alg».proof.Proof.LibGS

import Idealize.ShloMosaic.Lib.StackMember

import Idealize.ShloMosaic.Lib.ValueIdxRank1

import Idealize.ShloMosaic.Lib.IdealHost

import Idealize.ShloMosaic.Lib.KernelVsHost

noncomputable section

open scoped BigOperators

namespace Cert.ReferenceIdeal.Hand

open Idealize.ShloMosaic Idealize.ShloMosaic.ValueIdx

open Cert.ReferenceIdeal Cert.ReferenceIdeal.Facts₀ Cert.ReferenceIdeal.Facts

section Rows

variable {N n C w : Nat} (d : ScatterDims ⟨2, ![N, C]⟩ ⟨2, ![n, 1]⟩ ⟨2, ![n, C]⟩)

theorem rows_target0 (huw : d.updateWindowDims = [1]) (hins : d.insertedWindowDims = [0])
    (hsd : d.scatterDimsToOperandDims = [0]) (hivd : d.indexVectorDim = 1) (idx : IVec ⟨2, ![n, 1]⟩ w)
    (a : Fin n) (b : Fin C) :
    d.start (ix2 a b) idx (0 : Fin 2) + (d.window (ix2 a b) (0 : Fin 2) : Int) = (idx (ix2 a (0 : Fin 1))).toInt := by
  have hsk : d.sKept = [1] := by
    show Shape.kept _ d.insertedWindowDims = [1]
    rw [hins]; rfl
  have hus : d.uScatter = [0] := by
    show Shape.kept _ d.updateWindowDims = [0]
    rw [huw]; rfl
  have hw : d.window (ix2 a b) (0 : Fin 2) = 0 := by
    unfold ScatterDims.window
    rw [dif_neg (by rw [hsk]; simp)]
  have hm : (0 : Fin 2) ∈ d.scatterDimsToOperandDims := by rw [hsd]; exact List.mem_singleton.mpr rfl
  rw [hw]
  unfold ScatterDims.start
  rw [dif_pos hm]
  simp only [Nat.cast_zero, add_zero]
  congr 2
  funext c
  match c with
  | ⟨0, _⟩ =>
    unfold ScatterDims.siIdx
    rw [dif_neg (by rw [hivd]; simp)]
    unfold ScatterDims.siCoord
    apply Fin.ext
    simp only [Fin.val_cast]
    rw [Cert.LibGS.getElem_of_eq_singleton hus]
    rfl
  | ⟨1, _⟩ =>
    unfold ScatterDims.siIdx
    rw [dif_pos (by rw [hivd])]
    apply Fin.ext
    show List.idxOf (0 : Fin 2) d.scatterDimsToOperandDims = 0
    rw [hsd]; simp

theorem rows_target1 (huw : d.updateWindowDims = [1]) (hins : d.insertedWindowDims = [0])
    (hsd : d.scatterDimsToOperandDims = [0]) (idx : IVec ⟨2, ![n, 1]⟩ w) (a : Fin n) (b : Fin C) :
    d.start (ix2 a b) idx (1 : Fin 2) + (d.window (ix2 a b) (1 : Fin 2) : Int) = (b.val : Int) := by
  have hsk : d.sKept = [1] := by
    show Shape.kept _ d.insertedWindowDims = [1]
    rw [hins]; rfl
  have hk : (1 : Fin 2) ∈ d.sKept := by rw [hsk]; exact List.mem_singleton.mpr rfl
  have hw : d.window (ix2 a b) (1 : Fin 2) = b.val := by
    unfold ScatterDims.window
    rw [dif_pos hk, Cert.LibGS.getElem_of_eq_singleton huw]
    rfl
  have hs : d.start (ix2 a b) idx (1 : Fin 2) = 0 := by
    unfold ScatterDims.start
    rw [dif_neg (by rw [hsd]; simp)]
  rw [hw, hs, zero_add]

theorem rows_lands_iff (huw : d.updateWindowDims = [1]) (hins : d.insertedWindowDims = [0])
    (hsd : d.scatterDimsToOperandDims = [0]) (hivd : d.indexVectorDim = 1) (idx : IVec ⟨2, ![n, 1]⟩ w)
    (a : Fin n) (b : Fin C) (g : Fin N) (c : Fin C) :
    d.resultIdx? (ix2 a b) idx = some (ix2 g c) ↔ (idx (ix2 a (0 : Fin 1))).toInt = (g.val : Int) ∧ b = c := by
  have p0 := rows_target0 d huw hins hsd hivd idx a b
  have p1 := rows_target1 d huw hins hsd idx a b
  unfold ScatterDims.resultIdx?
  constructor
  · intro h
    split at h
    · rename_i hall
      have hi := Option.some.inj h
      have e0 : (d.start (ix2 a b) idx (0 : Fin 2) + (d.window (ix2 a b) (0 : Fin 2) : Int)).toNat = g.val :=
        congrArg Fin.val (congrFun hi (0 : Fin 2))
      have e1 : (d.start (ix2 a b) idx (1 : Fin 2) + (d.window (ix2 a b) (1 : Fin 2) : Int)).toNat = c.val :=
        congrArg Fin.val (congrFun hi (1 : Fin 2))
      have h0 := (hall (0 : Fin 2)).1
      rw [p0] at e0 h0
      rw [p1] at e1
      exact ⟨by omega, Fin.ext (by omega)⟩
    · exact absurd h (by simp)
  · rintro ⟨h0, rfl⟩
    have hall : ∀ x : Fin 2, 0 ≤ d.start (ix2 a b) idx x + (d.window (ix2 a b) x : Int)
        ∧ d.start (ix2 a b) idx x + (d.window (ix2 a b) x : Int) < ((⟨2, ![N, C]⟩ : Shape).size x : Nat) := by
      intro x
      match x with
      | ⟨0, _⟩ =>
        have hg : g.val < N := g.isLt
        show 0 ≤ d.start (ix2 a b) idx (0 : Fin 2) + (d.window (ix2 a b) (0 : Fin 2) : Int)
          ∧ d.start (ix2 a b) idx (0 : Fin 2) + (d.window (ix2 a b) (0 : Fin 2) : Int) < (N : Int)
        rw [p0, h0]; omega
      | ⟨1, _⟩ =>
        have hb : b.val < C := b.isLt
        show 0 ≤ d.start (ix2 a b) idx (1 : Fin 2) + (d.window (ix2 a b) (1 : Fin 2) : Int)
          ∧ d.start (ix2 a b) idx (1 : Fin 2) + (d.window (ix2 a b) (1 : Fin 2) : Int) < (C : Int)
        rw [p1]; omega
    rw [dif_pos hall]
    congr 1
    funext x
    apply Fin.ext
    match x with
    | ⟨0, _⟩ =>
      show (d.start (ix2 a b) idx (0 : Fin 2) + (d.window (ix2 a b) (0 : Fin 2) : Int)).toNat = g.val
      rw [p0, h0]; omega
    | ⟨1, _⟩ =>
      show (d.start (ix2 a b) idx (1 : Fin 2) + (d.window (ix2 a b) (1 : Fin 2) : Int)).toNat = b.val
      rw [p1]; omega

end Rows

section Counts

variable {N n w : Nat} (d : ScatterDims ⟨1, ![N]⟩ ⟨2, ![n, 1]⟩ ⟨1, ![n]⟩)

theorem cnt_target (huw : d.updateWindowDims = []) (hins : d.insertedWindowDims = [0])
    (hsd : d.scatterDimsToOperandDims = [0]) (hivd : d.indexVectorDim = 1) (idx : IVec ⟨2, ![n, 1]⟩ w) (a : Fin n) :
    d.start (ix1 a) idx (0 : Fin 1) + (d.window (ix1 a) (0 : Fin 1) : Int) = (idx (ix2 a (0 : Fin 1))).toInt := by
  have hsk : d.sKept = [] := by
    show Shape.kept _ d.insertedWindowDims = []
    rw [hins]; rfl
  have hus : d.uScatter = [0] := by
    show Shape.kept _ d.updateWindowDims = [0]
    rw [huw]; rfl
  have hw : d.window (ix1 a) (0 : Fin 1) = 0 := by
    unfold ScatterDims.window
    rw [dif_neg (by rw [hsk]; simp)]
  have hm : (0 : Fin 1) ∈ d.scatterDimsToOperandDims := by rw [hsd]; exact List.mem_singleton.mpr rfl
  rw [hw]
  unfold ScatterDims.start
  rw [dif_pos hm]
  simp only [Nat.cast_zero, add_zero]
  congr 2
  funext c
  match c with
  | ⟨0, _⟩ =>
    unfold ScatterDims.siIdx
    rw [dif_neg (by rw [hivd]; simp)]
    unfold ScatterDims.siCoord
    apply Fin.ext
    simp only [Fin.val_cast]
    rw [Cert.LibGS.getElem_of_eq_singleton hus]
    rfl
  | ⟨1, _⟩ =>
    unfold ScatterDims.siIdx
    rw [dif_pos (by rw [hivd])]
    apply Fin.ext
    show List.idxOf (0 : Fin 1) d.scatterDimsToOperandDims = 0
    rw [hsd]; simp

theorem cnt_lands_iff (huw : d.updateWindowDims = []) (hins : d.insertedWindowDims = [0])
    (hsd : d.scatterDimsToOperandDims = [0]) (hivd : d.indexVectorDim = 1) (idx : IVec ⟨2, ![n, 1]⟩ w)
    (a : Fin n) (g : Fin N) :
    d.resultIdx? (ix1 a) idx = some (ix1 g) ↔ (idx (ix2 a (0 : Fin 1))).toInt = (g.val : Int) := by
  have p0 := cnt_target d huw hins hsd hivd idx a
  unfold ScatterDims.resultIdx?
  constructor
  · intro h
    split at h
    · rename_i hall
      have hi := Option.some.inj h
      have e0 : (d.start (ix1 a) idx (0 : Fin 1) + (d.window (ix1 a) (0 : Fin 1) : Int)).toNat = g.val :=
        congrArg Fin.val (congrFun hi (0 : Fin 1))
      have h0 := (hall (0 : Fin 1)).1
      rw [p0] at e0 h0
      omega
    · exact absurd h (by simp)
  · intro h0
    have hall : ∀ x : Fin 1, 0 ≤ d.start (ix1 a) idx x + (d.window (ix1 a) x : Int)
        ∧ d.start (ix1 a) idx x + (d.window (ix1 a) x : Int) < ((⟨1, ![N]⟩ : Shape).size x : Nat) := by
      intro x
      match x with
      | ⟨0, _⟩ =>
        have hg : g.val < N := g.isLt
        show 0 ≤ d.start (ix1 a) idx (0 : Fin 1) + (d.window (ix1 a) (0 : Fin 1) : Int)
          ∧ d.start (ix1 a) idx (0 : Fin 1) + (d.window (ix1 a) (0 : Fin 1) : Int) < (N : Int)
        rw [p0, h0]; omega
    rw [dif_pos hall]
    congr 1
    funext x
    apply Fin.ext
    match x with
    | ⟨0, _⟩ =>
      show (d.start (ix1 a) idx (0 : Fin 1) + (d.window (ix1 a) (0 : Fin 1) : Int)).toNat = g.val
      rw [p0, h0]; omega

end Counts

section Bcast

variable {α : Type}

theorem bcast_col_apply {n : Nat} (hbc : (⟨1, ![n]⟩ : Shape).BroadcastsInDim ⟨2, ![n, 1]⟩ ![0])
    (x : (⟨1, ![n]⟩ : Shape).Idx → α) (a : Fin n) :
    broadcastInDim ⟨2, ![n, 1]⟩ ![0] hbc x (ix2 a (0 : Fin 1)) = x (ix1 a) := by
  refine broadcastInDim_apply ![0] hbc x (ix2 a (0 : Fin 1)) (ix1 a) ?_
  intro c
  fin_cases c
  show a.val = if n = 1 then 0 else a.val
  split_ifs with hn
  · have := a.isLt; omega
  · rfl

theorem bcast_row_apply {n : Nat} (hbc : (⟨1, ![n]⟩ : Shape).BroadcastsInDim ⟨2, ![1, n]⟩ ![1])
    (x : (⟨1, ![n]⟩ : Shape).Idx → α) (t : Fin n) :
    broadcastInDim ⟨2, ![1, n]⟩ ![1] hbc x (ix2 (0 : Fin 1) t) = x (ix1 t) := by
  refine broadcastInDim_apply ![1] hbc x (ix2 (0 : Fin 1) t) (ix1 t) ?_
  intro c
  fin_cases c
  show t.val = if n = 1 then 0 else t.val
  split_ifs with hn
  · have := t.isLt; omega
  · rfl

theorem bcast_oneCol_apply {m n : Nat} (hbc : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] hbc y (ix2 r t) = y (ix2 r (0 : Fin 1)) := by
  refine broadcastInDim_apply ![0, 1] hbc y (ix2 r t) (ix2 r (0 : Fin 1)) ?_
  intro c
  fin_cases c
  · show r.val = if m = 1 then 0 else r.val
    split_ifs with hm
    · have := r.isLt; omega
    · rfl
  · show (0 : ℕ) = if (1 : ℕ) = 1 then 0 else _
    simp

end Bcast

theorem word_eq_iff (x : BitVec 32) (g : Fin 512) : x = BitVec.ofNat 32 g.val ↔ x.toInt = (g.val : Int) := by
  have hg := g.isLt
  have hx := x.isLt
  rw [← BitVec.toNat_inj, BitVec.toNat_ofNat, BitVec.toInt_eq_toNat_cond]
  split_ifs <;> omega

theorem hostNegf_apply {s : Shape} {φ : FTy} (a : FVec Ideal s φ) (i : s.Idx) : Host.negf a i = -(a i) := rfl

theorem hostExp_apply {s : Shape} {φ : FTy} (a : FVec Ideal s φ) (i : s.Idx) : Host.exp a i = Ideal.exp (a i) := rfl

variable [Facts]

def rPooled (h : FVec Ideal S250000x32 .f32) (batch : IVec S250000 32) : FVec Ideal S512x32 .f32 :=
  have cst_37 : FVec Ideal S_ .f32 := constant S_ .f32 0x00000000#32
  have v202 : FVec Ideal S512x32 .f32 := broadcastInDim S512x32 ![] bcast_S_S512x32 cst_37
  have v203 : IVec S250000x1 32 := broadcastInDim S250000x1 ![0] bcast_S250000_S250000x1_0 batch
  have v204 : FVec Ideal S512x32 .f32 := Host.scatterAdd scatter_S512x32_S250000x1_S250000x32_1_0_0_1 v202 v203 h
  have cst_38 : FVec Ideal S_ .f32 := constant S_ .f32 0x3F800000#32
  have v205 : FVec Ideal S250000 .f32 := broadcastInDim S250000 ![] bcast_S_S250000 cst_38
  have cst_39 : FVec Ideal S_ .f32 := constant S_ .f32 0x00000000#32
  have v206 : FVec Ideal S512 .f32 := broadcastInDim S512 ![] bcast_S_S512 cst_39
  have v207 : IVec S250000x1 32 := broadcastInDim S250000x1 ![0] bcast_S250000_S250000x1_0 batch
  have v208 : FVec Ideal S512 .f32 := Host.scatterAdd scatter_S512_S250000x1_S250000_n_0_0_1 v206 v207 v205
  have cst_40 : FVec Ideal S_ .f32 := constant S_ .f32 0x3F800000#32
  have v209 : FVec Ideal S512 .f32 := broadcastInDim S512 ![] bcast_S_S512 cst_40
  have v210 : FVec Ideal S512 .f32 := maximumf v208 v209
  have v211 : FVec Ideal S512x1 .f32 := broadcastInDim S512x1 ![0] bcast_S512_S512x1_0 v210
  have v212 : FVec Ideal S512x32 .f32 := broadcastInDim S512x32 ![0, 1] bcast_S512x1_S512x32_0_1 v211
  Host.divf v204 v212

def rEmb (p : FVec Ideal S512x32 .f32) (lbW : FVec Ideal S32x16 .f32) (lbb : FVec Ideal S16 .f32) :
    FVec Ideal S512x16 .f32 :=
  have v214 : FVec Ideal S512x16 .f32 := Host.dotGeneral dot_S512x32_S32x16_S512x16_1_0_0_1_n_n none p lbW
  have v215 : FVec Ideal S1x16 .f32 := broadcastInDim S1x16 ![1] bcast_S16_S1x16_1 lbb
  have v216 : FVec Ideal S512x16 .f32 := broadcastInDim S512x16 ![0, 1] bcast_S1x16_S512x16_0_1 v215
  have v217 : FVec Ideal S512x16 .f32 := addf v214 v216
  have call9_cst : FVec Ideal S_ .f32 := constant S_ .f32 0x00000000#32
  have call9_v0 : FVec Ideal S512x16 .f32 := broadcastInDim S512x16 ![] bcast_S_S512x16 call9_cst
  maximumf v217 call9_v0

def rOut (e : FVec Ideal S512x16 .f32) (lmW : FVec Ideal S16x1 .f32) (lmb : FVec Ideal S1 .f32) :
    FVec Ideal S512x1 .f32 :=
  have v219 : FVec Ideal S512x1 .f32 := Host.dotGeneral dot_S512x16_S16x1_S512x1_1_0_0_1_n_n none e lmW
  have v220 : FVec Ideal S1x1 .f32 := broadcastInDim S1x1 ![1] bcast_S1_S1x1_1 lmb
  have v221 : FVec Ideal S512x1 .f32 := broadcastInDim S512x1 ![0, 1] bcast_S1x1_S512x1_0_1 v220
  have v222 : FVec Ideal S512x1 .f32 := addf v219 v221
  have v223 : FVec Ideal S512x1 .f32 := Host.negf v222
  have v224 : FVec Ideal S512x1 .f32 := Host.exp v223
  have cst_41 : FVec Ideal S_ .f32 := constant S_ .f32 0x3F800000#32
  have v225 : FVec Ideal S512x1 .f32 := broadcastInDim S512x1 ![] bcast_S_S512x1 cst_41
  have v226 : FVec Ideal S512x1 .f32 := addf v225 v224
  have cst_42 : FVec Ideal S_ .f32 := constant S_ .f32 0x3F800000#32
  have v227 : FVec Ideal S512x1 .f32 := broadcastInDim S512x1 ![] bcast_S_S512x1 cst_42
  Host.divf v227 v226

def rHead (h : FVec Ideal S250000x32 .f32) (batch : IVec S250000 32) (lbW : FVec Ideal S32x16 .f32)
    (lbb : FVec Ideal S16 .f32) (lmW : FVec Ideal S16x1 .f32) (lmb : FVec Ideal S1 .f32) : FVec Ideal S512x1 .f32 :=
  rOut (rEmb (rPooled h batch) lbW lbb) lmW lmb

theorem sums_apply (h : FVec Ideal S250000x32 .f32) (batch : IVec S250000 32) (g : Fin 512) (j : Fin 32) :
    Host.scatterAdd (F := Ideal) scatter_S512x32_S250000x1_S250000x32_1_0_0_1
        (broadcastInDim S512x32 ![] bcast_S_S512x32 (constant S_ .f32 0x00000000#32))
        (broadcastInDim S250000x1 ![0] bcast_S250000_S250000x1_0 batch) h (ix2 g j)
      = Cert.Spec.segsum (Cert.Spec.mat h) (Cert.Spec.words1 batch) g j := by
  rw [Cert.LibGS.scatterAdd_apply, broadcastInDim_scalar_apply, constant_apply, Cert.LibGS.zero_f32, zero_add]
  unfold Cert.Spec.segsum
  rw [Finset.sum_filter, Finset.sum_filter, sum_idx2]
  refine Finset.sum_congr rfl fun a _ => ?_
  have key : ∀ b : Fin 32,
      (scatter_S512x32_S250000x1_S250000x32_1_0_0_1.resultIdx? (ix2 a b)
          (broadcastInDim S250000x1 ![0] bcast_S250000_S250000x1_0 batch) = some (ix2 g j))
        ↔ (Cert.Spec.words1 batch a = BitVec.ofNat 32 g.val ∧ b = j) := by
    intro b
    rw [rows_lands_iff _ rfl rfl rfl rfl, bcast_col_apply, word_eq_iff]
    rfl
  simp only [key]
  by_cases hb : Cert.Spec.words1 batch a = BitVec.ofNat 32 g.val
  · simp only [hb, true_and, if_true]
    rw [Finset.sum_ite_eq' Finset.univ j, if_pos (Finset.mem_univ j)]
    rfl
  · simp only [hb, false_and, if_false, Finset.sum_const_zero]

theorem cnts_apply (batch : IVec S250000 32) (g : Fin 512) :
    Host.scatterAdd (F := Ideal) scatter_S512_S250000x1_S250000_n_0_0_1
        (broadcastInDim S512 ![] bcast_S_S512 (constant S_ .f32 0x00000000#32))
        (broadcastInDim S250000x1 ![0] bcast_S250000_S250000x1_0 batch)
        (broadcastInDim S250000 ![] bcast_S_S250000 (constant S_ .f32 0x3F800000#32)) (ix1 g)
      = Cert.Spec.segcnt (Cert.Spec.words1 batch) g := by
  rw [Cert.LibGS.scatterAdd_apply, broadcastInDim_scalar_apply, constant_apply, Cert.LibGS.zero_f32, zero_add]
  unfold Cert.Spec.segcnt
  rw [Finset.sum_filter, Finset.sum_filter, ← Equiv.sum_comp (idxEquiv1 (n := 250000)).symm]
  refine Finset.sum_congr rfl fun a _ => ?_
  show (if scatter_S512_S250000x1_S250000_n_0_0_1.resultIdx? (ix1 a)
          (broadcastInDim S250000x1 ![0] bcast_S250000_S250000x1_0 batch) = some (ix1 g)
        then broadcastInDim S250000 ![] bcast_S_S250000 (constant (F := Ideal) S_ .f32 0x3F800000#32) (ix1 a) else 0)
      = if Cert.Spec.words1 batch a = BitVec.ofNat 32 g.val then 1 else 0
  rw [broadcastInDim_scalar_apply, constant_apply, Cert.LibGS.one_f32]
  refine if_congr ?_ rfl rfl
  rw [cnt_lands_iff _ rfl rfl rfl rfl, bcast_col_apply, word_eq_iff]
  rfl

theorem rPooled_apply (h : FVec Ideal S250000x32 .f32) (batch : IVec S250000 32) (g : Fin 512) (j : Fin 32) :
    rPooled h batch (ix2 g j)
      = Ideal.div (Cert.Spec.segsum (Cert.Spec.mat h) (Cert.Spec.words1 batch) g j)
          (max (Cert.Spec.segcnt (Cert.Spec.words1 batch) g) 1) := by
  unfold rPooled
  rw [hostDivf_apply, sums_apply, bcast_oneCol_apply, bcast_col_apply, maximumf_apply, cnts_apply,
    broadcastInDim_scalar_apply, constant_apply, Cert.LibGS.one_f32]

theorem rEmb_apply (p : FVec Ideal S512x32 .f32) (lbW : FVec Ideal S32x16 .f32) (lbb : FVec Ideal S16 .f32)
    (g : Fin 512) (k : Fin 16) :
    rEmb p lbW lbb (ix2 g k)
      = Cert.Spec.relu ((∑ j : Fin 32, p (ix2 g j) * lbW (ix2 j k)) + lbb (ix1 k)) := by
  have hd : dot_S512x32_S32x16_S512x16_1_0_0_1_n_n = DotDims.plain 512 32 16 := rfl
  unfold rEmb
  rw [maximumf_apply, addf_apply, hd, StackMember.dotGeneral_plain_apply, broadcastInDim_oneRow_apply, bcast_row_apply,
    broadcastInDim_scalar_apply, constant_apply, Cert.LibGS.zero_f32]
  rfl

theorem rOut_apply (e : FVec Ideal S512x16 .f32) (lmW : FVec Ideal S16x1 .f32) (lmb : FVec Ideal S1 .f32) (g : Fin 512) :
    rOut e lmW lmb (ix2 g (0 : Fin 1))
      = Ideal.logistic ((∑ k : Fin 16, e (ix2 g k) * lmW (ix2 k (0 : Fin 1))) + lmb (ix1 (0 : Fin 1))) := by
  have hd : dot_S512x16_S16x1_S512x1_1_0_0_1_n_n = DotDims.plain 512 16 1 := rfl
  unfold rOut
  rw [hostDivf_apply, addf_apply, hostExp_apply, hostNegf_apply, addf_apply, hd, StackMember.dotGeneral_plain_apply,
    broadcastInDim_oneRow_apply, bcast_row_apply, broadcastInDim_scalar_apply, constant_apply, Cert.LibGS.one_f32]
  rfl

theorem rHead_eq (h : FVec Ideal S250000x32 .f32) (batch : IVec S250000 32) (lbW : FVec Ideal S32x16 .f32)
    (lbb : FVec Ideal S16 .f32) (lmW : FVec Ideal S16x1 .f32) (lmb : FVec Ideal S1 .f32) :
    (fun g => Cert.Spec.mat (rHead h batch lbW lbb lmW lmb) g 0)
      = Cert.Spec.head (Cert.Spec.mat h) (Cert.Spec.words1 batch) (Cert.Spec.mat lbW) (Cert.Spec.vec lbb)
          (Cert.Spec.mat lmW) (Cert.Spec.vec lmb) := by
  funext g
  show rHead h batch lbW lbb lmW lmb (ix2 g (0 : Fin 1)) = _
  unfold rHead
  rw [rOut_apply]
  unfold Cert.Spec.head
  simp only [rEmb_apply, rPooled_apply]
  rfl

end Cert.ReferenceIdeal.Hand

end
-- ==== Proof.Ref.ValH.lean ====
import proofs.«427087_j34256659153343_2_alg».proof.ReferenceIdeal

import Idealize.ShloMosaic.Lib.StableHlo.Run

import proofs.«427087_j34256659153343_2_alg».proof.Proof.Ref.RunBase

import proofs.«427087_j34256659153343_2_alg».proof.Proof.Ref.Stages

import proofs.«427087_j34256659153343_2_alg».proof.Proof.Ref.Head

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

theorem segH_val (W : Valuation τ sig (Elt Ideal)) (h : FVec Ideal S250000x32 .f32) (batch : IVec S250000 32)
    (lbW : FVec Ideal S32x16 .f32) (lbb : FVec Ideal S16 .f32) (lmW : FVec Ideal S16x1 .f32) (lmb : FVec Ideal S1 .f32)
    (hh : W (Proc.devRef .tc main_v201) = h) (hbatch : W (Proc.devRef .tc main_arg2) = batch) (hlbW : W (Proc.devRef .tc main_arg33) = lbW)
    (hlbb : W (Proc.devRef .tc main_arg34) = lbb) (hlmW : W (Proc.devRef .tc main_arg35) = lmW) (hlmb : W (Proc.devRef .tc main_arg36) = lmb) :
    after (segH (F := Ideal)) W (Proc.devRef .tc main_v228) = rHead h batch lbW lbb lmW lmb := by
  subst hh hbatch hlbW hlbb hlmW hlmb
  after_results_simp
  rfl

end Cert.ReferenceIdeal.Hand

end
-- ==== Proof.Ref.Value.lean ====
import proofs.«427087_j34256659153343_2_alg».proof.ReferenceIdeal

import Idealize.ShloMosaic.Lib.StableHlo.Run

import proofs.«427087_j34256659153343_2_alg».proof.Proof.Ref.RunBase

import proofs.«427087_j34256659153343_2_alg».proof.Proof.Ref.Run

import proofs.«427087_j34256659153343_2_alg».proof.Proof.Ref.Stages

import proofs.«427087_j34256659153343_2_alg».proof.Proof.Ref.ValL1

import proofs.«427087_j34256659153343_2_alg».proof.Proof.Ref.ValL2

import proofs.«427087_j34256659153343_2_alg».proof.Proof.Ref.ValL3

import proofs.«427087_j34256659153343_2_alg».proof.Proof.Ref.ValH

import proofs.«427087_j34256659153343_2_alg».proof.Proof.Ref.Layer

import proofs.«427087_j34256659153343_2_alg».proof.Proof.Ref.Head

import proofs.«427087_j34256659153343_2_alg».proof.Proof.Bridge.Agg

import proofs.«427087_j34256659153343_2_alg».proof.Proof.SpecModel

import proofs.«427087_j34256659153343_2_alg».proof.Proof.SpecArr

noncomputable section

namespace Cert.ReferenceIdeal.Hand

open Cert.ReferenceIdeal Cert.ReferenceIdeal.Facts₀ Idealize.ShloMosaic Idealize.ShloMosaic.TcCoe Idealize.SL.Sem Idealize.ShloMosaic.StableHlo

open Cert.Bridge

variable [Facts]

def rL {k : Nat} (aF aB : FVec Ideal ⟨2, ![250000, k]⟩ .f32 → FVec Ideal ⟨2, ![250000, k]⟩ .f32) (x : FVec Ideal ⟨2, ![250000, k]⟩ .f32)
    (fW1 : FVec Ideal ⟨2, ![k, 32]⟩ .f32) (fb1 : FVec Ideal S32 .f32) (fW2 : FVec Ideal S32x32 .f32) (fb2 : FVec Ideal S32 .f32)
    (bW1 : FVec Ideal ⟨2, ![k, 32]⟩ .f32) (bb1 : FVec Ideal S32 .f32) (bW2 : FVec Ideal S32x32 .f32) (bb2 : FVec Ideal S32 .f32)
    (g b : FVec Ideal S32 .f32) : FVec Ideal S250000x32 .f32 :=
  rBn (rGin x (aF x) (aB x) fW1 fb1 fW2 fb2 bW1 bb1 bW2 bb2) g b

def rModel (V : Valuation τ sig (Elt Ideal)) : FVec Ideal S512x1 .f32 :=
  rHead
    (rL (rAggF32 (V (Proc.devRef .tc main_arg1))) (rAggB32 (V (Proc.devRef .tc main_arg1)))
      (rL (rAggF32 (V (Proc.devRef .tc main_arg1))) (rAggB32 (V (Proc.devRef .tc main_arg1)))
        (rL (rAggF6 (V (Proc.devRef .tc main_arg1))) (rAggB6 (V (Proc.devRef .tc main_arg1))) (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)))
        (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)))
      (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) (V (Proc.devRef .tc main_arg30)) (V (Proc.devRef .tc main_arg31)) (V (Proc.devRef .tc main_arg32)))
    (V (Proc.devRef .tc main_arg2)) (V (Proc.devRef .tc main_arg33)) (V (Proc.devRef .tc main_arg34)) (V (Proc.devRef .tc main_arg35)) (V (Proc.devRef .tc main_arg36))

theorem ref_term (V : Valuation τ sig (Elt Ideal)) :
    after (ops (F := Ideal)) V (Proc.devRef .tc main_v228) = rModel V := by
  have hops : (ops (F := Ideal)) = segE ++ (segG1 ++ (segB1 ++ (segG2 ++ (segB2 ++ (segG3 ++ (segB3 ++ (segH))))))) := parts_eq_segs
  rw [hops, after_append, after_append, after_append, after_append, after_append, after_append, after_append]
  obtain ⟨kE, kG1, kB1, kG2, kB2, kG3, kB3, -⟩ := segs_keeps (F := Ideal)
  have e := segE_val V _ rfl
  have K1 := fun (r : Ref sig .tc) (hr : r.idx.val < 37) => after_keeps _ kE V hr
  have g1 := segG1_val _ _ _ _ _ _ _ _ _ _ _ e.1 e.2 (K1 main_arg0 (by decide)) (K1 main_arg3 (by decide)) (K1 main_arg4 (by decide)) (K1 main_arg5 (by decide)) (K1 main_arg6 (by decide)) (K1 main_arg7 (by decide)) (K1 main_arg8 (by decide)) (K1 main_arg9 (by decide)) (K1 main_arg10 (by decide))
  have K2 := fun (r : Ref sig .tc) (hr : r.idx.val < 37) => (after_keeps _ kG1 _ hr).trans (K1 r hr)
  have s2 := (after_keeps _ segs_keeps41.1 _ (r := main_v1) (by decide)).trans e.1
  have d2 := (after_keeps _ segs_keeps41.1 _ (r := main_v3) (by decide)).trans e.2
  have b1 := segB1_val _ _ _ _ g1 (K2 main_arg11 (by decide)) (K2 main_arg12 (by decide))
  have K3 := fun (r : Ref sig .tc) (hr : r.idx.val < 37) => (after_keeps _ kB1 _ hr).trans (K2 r hr)
  have s3 := (after_keeps _ segs_keeps41.2.1 _ (r := main_v1) (by decide)).trans s2
  have d3 := (after_keeps _ segs_keeps41.2.1 _ (r := main_v3) (by decide)).trans d2
  have g2 := segG2_val _ _ _ _ _ _ _ _ _ _ _ s3 d3 b1 (K3 main_arg13 (by decide)) (K3 main_arg14 (by decide)) (K3 main_arg15 (by decide)) (K3 main_arg16 (by decide)) (K3 main_arg17 (by decide)) (K3 main_arg18 (by decide)) (K3 main_arg19 (by decide)) (K3 main_arg20 (by decide))
  have K4 := fun (r : Ref sig .tc) (hr : r.idx.val < 37) => (after_keeps _ kG2 _ hr).trans (K3 r hr)
  have s4 := (after_keeps _ segs_keeps41.2.2.1 _ (r := main_v1) (by decide)).trans s3
  have d4 := (after_keeps _ segs_keeps41.2.2.1 _ (r := main_v3) (by decide)).trans d3
  have b2 := segB2_val _ _ _ _ g2 (K4 main_arg21 (by decide)) (K4 main_arg22 (by decide))
  have K5 := fun (r : Ref sig .tc) (hr : r.idx.val < 37) => (after_keeps _ kB2 _ hr).trans (K4 r hr)
  have s5 := (after_keeps _ segs_keeps41.2.2.2 _ (r := main_v1) (by decide)).trans s4
  have d5 := (after_keeps _ segs_keeps41.2.2.2 _ (r := main_v3) (by decide)).trans d4
  have g3 := segG3_val _ _ _ _ _ _ _ _ _ _ _ s5 d5 b2 (K5 main_arg23 (by decide)) (K5 main_arg24 (by decide)) (K5 main_arg25 (by decide)) (K5 main_arg26 (by decide)) (K5 main_arg27 (by decide)) (K5 main_arg28 (by decide)) (K5 main_arg29 (by decide)) (K5 main_arg30 (by decide))
  have K6 := fun (r : Ref sig .tc) (hr : r.idx.val < 37) => (after_keeps _ kG3 _ hr).trans (K5 r hr)
  have b3 := segB3_val _ _ _ _ g3 (K6 main_arg31 (by decide)) (K6 main_arg32 (by decide))
  have K7 := fun (r : Ref sig .tc) (hr : r.idx.val < 37) => (after_keeps _ kB3 _ hr).trans (K6 r hr)
  exact segH_val _ _ _ _ _ _ _ b3 (K7 main_arg2 (by decide)) (K7 main_arg33 (by decide)) (K7 main_arg34 (by decide)) (K7 main_arg35 (by decide)) (K7 main_arg36 (by decide))

open Cert.Spec in

theorem rL_mat {k : Nat} (aF aB : FVec Ideal ⟨2, ![250000, k]⟩ .f32 → FVec Ideal ⟨2, ![250000, k]⟩ .f32) (x : FVec Ideal ⟨2, ![250000, k]⟩ .f32)
    (fW1 : FVec Ideal ⟨2, ![k, 32]⟩ .f32) (fb1 : FVec Ideal S32 .f32) (fW2 : FVec Ideal S32x32 .f32) (fb2 : FVec Ideal S32 .f32)
    (bW1 : FVec Ideal ⟨2, ![k, 32]⟩ .f32) (bb1 : FVec Ideal S32 .f32) (bW2 : FVec Ideal S32x32 .f32) (bb2 : FVec Ideal S32 .f32)
    (g b : FVec Ideal S32 .f32) :
    mat (rL aF aB x fW1 fb1 fW2 fb2 bW1 bb1 bW2 bb2 g b)
      = layerR ⟨mat fW1, vec fb1, mat fW2, vec fb2, mat bW1, vec bb1, mat bW2, vec bb2⟩ (vec g) (vec b)
          (mat x) (liftAgg aF (mat x)) (liftAgg aB (mat x)) := by
  unfold rL
  rw [rBn_eq, rGin_eq, liftAgg_mat, liftAgg_mat]
  rfl

theorem ref_value_launch (m' : (ℓ : Loc nD τ sig) → Buf (Elt Ideal) ℓ) (c : Dev nD) :
    (fun g : Fin 512 => Cert.Spec.mat (after (ops (F := Ideal)) (launchContents m' c) (Proc.devRef .tc main_v228)) g 0)
      = Cert.Spec.model Cert.Spec.layerR Cert.Spec.layerR
          (Cert.Spec.liftAgg (rAggF6 (m' ((c.tc : Thread nD τ).loc main_arg1)))) (Cert.Spec.liftAgg (rAggB6 (m' ((c.tc : Thread nD τ).loc main_arg1))))
          (Cert.Spec.liftAgg (rAggF32 (m' ((c.tc : Thread nD τ).loc main_arg1)))) (Cert.Spec.liftAgg (rAggB32 (m' ((c.tc : Thread nD τ).loc main_arg1))))
          (Cert.Spec.mat (m' ((c.tc : Thread nD τ).loc main_arg0)))
          ⟨Cert.Spec.mat (m' ((c.tc : Thread nD τ).loc main_arg3)), Cert.Spec.vec (m' ((c.tc : Thread nD τ).loc main_arg4)), Cert.Spec.mat (m' ((c.tc : Thread nD τ).loc main_arg5)), Cert.Spec.vec (m' ((c.tc : Thread nD τ).loc main_arg6)), Cert.Spec.mat (m' ((c.tc : Thread nD τ).loc main_arg7)), Cert.Spec.vec (m' ((c.tc : Thread nD τ).loc main_arg8)), Cert.Spec.mat (m' ((c.tc : Thread nD τ).loc main_arg9)), Cert.Spec.vec (m' ((c.tc : Thread nD τ).loc main_arg10))⟩ (Cert.Spec.vec (m' ((c.tc : Thread nD τ).loc main_arg11))) (Cert.Spec.vec (m' ((c.tc : Thread nD τ).loc main_arg12)))
          ⟨Cert.Spec.mat (m' ((c.tc : Thread nD τ).loc main_arg13)), Cert.Spec.vec (m' ((c.tc : Thread nD τ).loc main_arg14)), Cert.Spec.mat (m' ((c.tc : Thread nD τ).loc main_arg15)), Cert.Spec.vec (m' ((c.tc : Thread nD τ).loc main_arg16)), Cert.Spec.mat (m' ((c.tc : Thread nD τ).loc main_arg17)), Cert.Spec.vec (m' ((c.tc : Thread nD τ).loc main_arg18)), Cert.Spec.mat (m' ((c.tc : Thread nD τ).loc main_arg19)), Cert.Spec.vec (m' ((c.tc : Thread nD τ).loc main_arg20))⟩ (Cert.Spec.vec (m' ((c.tc : Thread nD τ).loc main_arg21))) (Cert.Spec.vec (m' ((c.tc : Thread nD τ).loc main_arg22)))
          ⟨Cert.Spec.mat (m' ((c.tc : Thread nD τ).loc main_arg23)), Cert.Spec.vec (m' ((c.tc : Thread nD τ).loc main_arg24)), Cert.Spec.mat (m' ((c.tc : Thread nD τ).loc main_arg25)), Cert.Spec.vec (m' ((c.tc : Thread nD τ).loc main_arg26)), Cert.Spec.mat (m' ((c.tc : Thread nD τ).loc main_arg27)), Cert.Spec.vec (m' ((c.tc : Thread nD τ).loc main_arg28)), Cert.Spec.mat (m' ((c.tc : Thread nD τ).loc main_arg29)), Cert.Spec.vec (m' ((c.tc : Thread nD τ).loc main_arg30))⟩ (Cert.Spec.vec (m' ((c.tc : Thread nD τ).loc main_arg31))) (Cert.Spec.vec (m' ((c.tc : Thread nD τ).loc main_arg32)))
          (Cert.Spec.words1 (m' ((c.tc : Thread nD τ).loc main_arg2))) (Cert.Spec.mat (m' ((c.tc : Thread nD τ).loc main_arg33))) (Cert.Spec.vec (m' ((c.tc : Thread nD τ).loc main_arg34)))
          (Cert.Spec.mat (m' ((c.tc : Thread nD τ).loc main_arg35))) (Cert.Spec.vec (m' ((c.tc : Thread nD τ).loc main_arg36))) := by
  rw [ref_term]
  unfold rModel
  rw [rHead_eq, rL_mat, rL_mat, rL_mat]
  rfl

end Cert.ReferenceIdeal.Hand

end
-- ==== Proof.Bridge.FinIn.lean ====
import proofs.«427087_j34256659153343_2_alg».proof.Defs
import proofs.«427087_j34256659153343_2_alg».proof.Proof.Spec
import Idealize.ShloMosaic.Lib.ReduceAll

namespace Cert.Bridge

open Idealize.ShloMosaic Idealize.SL.Sem Cert.Pre_finite_inputs Cert.Spec

theorem isFin_of_abs_lt_top (x : EReal)
    (h : FloatOps.cmpf (F := Ideal) (φ := .f32) .olt (FloatOps.hostAbsf x) (FloatOps.ofBits .f32 0x7F800000#32) = 1#1) :
    IsFin x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | coe r => exact ⟨r, rfl⟩
  | _ => simp [Ideal.cmp] at h

-- The test "every |x i| is below +∞", reduced by `and` to one word, came out true only if every entry is finite.
theorem all_isFin {S : Shape} {axes : List (Fin S.rank)} {x : FVec Ideal S .f32} {bc} {rt : S.ReducesTo axes S_} {hu}
    {init : IVec S_ 1} {j}
    (e : Host.reduce IntOp.andi (cmpf .olt (Host.absf x) (broadcastInDim S ![] bc (constant S_ .f32 0x7F800000#32)))
          init rt hu j = 1#1) (i) : IsFin (x i) :=
  isFin_of_abs_lt_top _ (Host.reduce_andi_eq_one _ init rt hu j e i (funext fun d => d.elim0))

end Cert.Bridge
-- ==== Proof.Alg.lean ====
import proofs.«427087_j34256659153343_2_alg».proof.Proof.SpecModel
import proofs.«427087_j34256659153343_2_alg».proof.Proof.Bridge.Agg
import proofs.«427087_j34256659153343_2_alg».proof.Proof.Bridge.FinIn

namespace Cert.Proof

open Cert.Spec Cert.Bridge Cert.Pre_finite_inputs Idealize.ShloMosaic Idealize.ShloMosaic.ValueIdx Idealize.SL.Sem

-- The argument arrays agree and are finite, and over finite arguments the two layer forms give one model.
theorem result_eq [Cert.KernelIdeal.Facts₀] [Cert.ReferenceIdeal.Facts₀] [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36))
    (c : Dev Cert.KernelIdeal.nD)
    (outK outR : (⟨2, ![512, 1]⟩ : Shape).Idx → EReal)
    (hk : (fun g : Fin 512 => Cert.Spec.mat outK g 0)
      = Cert.Spec.model Cert.Spec.layerK Cert.Spec.layerK (liftAgg (kAggF6 (m ((c.tc : Thread Cert.KernelIdeal.nD Cert.KernelIdeal.τ).loc Cert.KernelIdeal.main_arg1)))) (liftAgg (kAggB6 (m ((c.tc : Thread Cert.KernelIdeal.nD Cert.KernelIdeal.τ).loc Cert.KernelIdeal.main_arg1)))) (liftAgg (kAggF32 (m ((c.tc : Thread Cert.KernelIdeal.nD Cert.KernelIdeal.τ).loc Cert.KernelIdeal.main_arg1)))) (liftAgg (kAggB32 (m ((c.tc : Thread Cert.KernelIdeal.nD Cert.KernelIdeal.τ).loc Cert.KernelIdeal.main_arg1))))
        (mat (m ((c.tc : Thread Cert.KernelIdeal.nD Cert.KernelIdeal.τ).loc Cert.KernelIdeal.main_arg0))) ⟨mat (m ((c.tc : Thread Cert.KernelIdeal.nD Cert.KernelIdeal.τ).loc Cert.KernelIdeal.main_arg3)), vec (m ((c.tc : Thread Cert.KernelIdeal.nD Cert.KernelIdeal.τ).loc Cert.KernelIdeal.main_arg4)), mat (m ((c.tc : Thread Cert.KernelIdeal.nD Cert.KernelIdeal.τ).loc Cert.KernelIdeal.main_arg5)), vec (m ((c.tc : Thread Cert.KernelIdeal.nD Cert.KernelIdeal.τ).loc Cert.KernelIdeal.main_arg6)), mat (m ((c.tc : Thread Cert.KernelIdeal.nD Cert.KernelIdeal.τ).loc Cert.KernelIdeal.main_arg7)), vec (m ((c.tc : Thread Cert.KernelIdeal.nD Cert.KernelIdeal.τ).loc Cert.KernelIdeal.main_arg8)), mat (m ((c.tc : Thread Cert.KernelIdeal.nD Cert.KernelIdeal.τ).loc Cert.KernelIdeal.main_arg9)), vec (m ((c.tc : Thread Cert.KernelIdeal.nD Cert.KernelIdeal.τ).loc Cert.KernelIdeal.main_arg10))⟩ (vec (m ((c.tc : Thread Cert.KernelIdeal.nD Cert.KernelIdeal.τ).loc Cert.KernelIdeal.main_arg11))) (vec (m ((c.tc : Thread Cert.KernelIdeal.nD Cert.KernelIdeal.τ).loc Cert.KernelIdeal.main_arg12)))
        ⟨mat (m ((c.tc : Thread Cert.KernelIdeal.nD Cert.KernelIdeal.τ).loc Cert.KernelIdeal.main_arg13)), vec (m ((c.tc : Thread Cert.KernelIdeal.nD Cert.KernelIdeal.τ).loc Cert.KernelIdeal.main_arg14)), mat (m ((c.tc : Thread Cert.KernelIdeal.nD Cert.KernelIdeal.τ).loc Cert.KernelIdeal.main_arg15)), vec (m ((c.tc : Thread Cert.KernelIdeal.nD Cert.KernelIdeal.τ).loc Cert.KernelIdeal.main_arg16)), mat (m ((c.tc : Thread Cert.KernelIdeal.nD Cert.KernelIdeal.τ).loc Cert.KernelIdeal.main_arg17)), vec (m ((c.tc : Thread Cert.KernelIdeal.nD Cert.KernelIdeal.τ).loc Cert.KernelIdeal.main_arg18)), mat (m ((c.tc : Thread Cert.KernelIdeal.nD Cert.KernelIdeal.τ).loc Cert.KernelIdeal.main_arg19)), vec (m ((c.tc : Thread Cert.KernelIdeal.nD Cert.KernelIdeal.τ).loc Cert.KernelIdeal.main_arg20))⟩ (vec (m ((c.tc : Thread Cert.KernelIdeal.nD Cert.KernelIdeal.τ).loc Cert.KernelIdeal.main_arg21))) (vec (m ((c.tc : Thread Cert.KernelIdeal.nD Cert.KernelIdeal.τ).loc Cert.KernelIdeal.main_arg22)))
        ⟨mat (m ((c.tc : Thread Cert.KernelIdeal.nD Cert.KernelIdeal.τ).loc Cert.KernelIdeal.main_arg23)), vec (m ((c.tc : Thread Cert.KernelIdeal.nD Cert.KernelIdeal.τ).loc Cert.KernelIdeal.main_arg24)), mat (m ((c.tc : Thread Cert.KernelIdeal.nD Cert.KernelIdeal.τ).loc Cert.KernelIdeal.main_arg25)), vec (m ((c.tc : Thread Cert.KernelIdeal.nD Cert.KernelIdeal.τ).loc Cert.KernelIdeal.main_arg26)), mat (m ((c.tc : Thread Cert.KernelIdeal.nD Cert.KernelIdeal.τ).loc Cert.KernelIdeal.main_arg27)), vec (m ((c.tc : Thread Cert.KernelIdeal.nD Cert.KernelIdeal.τ).loc Cert.KernelIdeal.main_arg28)), mat (m ((c.tc : Thread Cert.KernelIdeal.nD Cert.KernelIdeal.τ).loc Cert.KernelIdeal.main_arg29)), vec (m ((c.tc : Thread Cert.KernelIdeal.nD Cert.KernelIdeal.τ).loc Cert.KernelIdeal.main_arg30))⟩ (vec (m ((c.tc : Thread Cert.KernelIdeal.nD Cert.KernelIdeal.τ).loc Cert.KernelIdeal.main_arg31))) (vec (m ((c.tc : Thread Cert.KernelIdeal.nD Cert.KernelIdeal.τ).loc Cert.KernelIdeal.main_arg32)))
        (words1 (m ((c.tc : Thread Cert.KernelIdeal.nD Cert.KernelIdeal.τ).loc Cert.KernelIdeal.main_arg2))) (mat (m ((c.tc : Thread Cert.KernelIdeal.nD Cert.KernelIdeal.τ).loc Cert.KernelIdeal.main_arg33))) (vec (m ((c.tc : Thread Cert.KernelIdeal.nD Cert.KernelIdeal.τ).loc Cert.KernelIdeal.main_arg34))) (mat (m ((c.tc : Thread Cert.KernelIdeal.nD Cert.KernelIdeal.τ).loc Cert.KernelIdeal.main_arg35))) (vec (m ((c.tc : Thread Cert.KernelIdeal.nD Cert.KernelIdeal.τ).loc Cert.KernelIdeal.main_arg36))))
    (hr : (fun g : Fin 512 => Cert.Spec.mat outR g 0)
      = Cert.Spec.model Cert.Spec.layerR Cert.Spec.layerR (liftAgg (rAggF6 (m' ((c.tc : Thread Cert.ReferenceIdeal.nD Cert.ReferenceIdeal.τ).loc Cert.ReferenceIdeal.main_arg1)))) (liftAgg (rAggB6 (m' ((c.tc : Thread Cert.ReferenceIdeal.nD Cert.ReferenceIdeal.τ).loc Cert.ReferenceIdeal.main_arg1)))) (liftAgg (rAggF32 (m' ((c.tc : Thread Cert.ReferenceIdeal.nD Cert.ReferenceIdeal.τ).loc Cert.ReferenceIdeal.main_arg1)))) (liftAgg (rAggB32 (m' ((c.tc : Thread Cert.ReferenceIdeal.nD Cert.ReferenceIdeal.τ).loc Cert.ReferenceIdeal.main_arg1))))
        (mat (m' ((c.tc : Thread Cert.ReferenceIdeal.nD Cert.ReferenceIdeal.τ).loc Cert.ReferenceIdeal.main_arg0))) ⟨mat (m' ((c.tc : Thread Cert.ReferenceIdeal.nD Cert.ReferenceIdeal.τ).loc Cert.ReferenceIdeal.main_arg3)), vec (m' ((c.tc : Thread Cert.ReferenceIdeal.nD Cert.ReferenceIdeal.τ).loc Cert.ReferenceIdeal.main_arg4)), mat (m' ((c.tc : Thread Cert.ReferenceIdeal.nD Cert.ReferenceIdeal.τ).loc Cert.ReferenceIdeal.main_arg5)), vec (m' ((c.tc : Thread Cert.ReferenceIdeal.nD Cert.ReferenceIdeal.τ).loc Cert.ReferenceIdeal.main_arg6)), mat (m' ((c.tc : Thread Cert.ReferenceIdeal.nD Cert.ReferenceIdeal.τ).loc Cert.ReferenceIdeal.main_arg7)), vec (m' ((c.tc : Thread Cert.ReferenceIdeal.nD Cert.ReferenceIdeal.τ).loc Cert.ReferenceIdeal.main_arg8)), mat (m' ((c.tc : Thread Cert.ReferenceIdeal.nD Cert.ReferenceIdeal.τ).loc Cert.ReferenceIdeal.main_arg9)), vec (m' ((c.tc : Thread Cert.ReferenceIdeal.nD Cert.ReferenceIdeal.τ).loc Cert.ReferenceIdeal.main_arg10))⟩ (vec (m' ((c.tc : Thread Cert.ReferenceIdeal.nD Cert.ReferenceIdeal.τ).loc Cert.ReferenceIdeal.main_arg11))) (vec (m' ((c.tc : Thread Cert.ReferenceIdeal.nD Cert.ReferenceIdeal.τ).loc Cert.ReferenceIdeal.main_arg12)))
        ⟨mat (m' ((c.tc : Thread Cert.ReferenceIdeal.nD Cert.ReferenceIdeal.τ).loc Cert.ReferenceIdeal.main_arg13)), vec (m' ((c.tc : Thread Cert.ReferenceIdeal.nD Cert.ReferenceIdeal.τ).loc Cert.ReferenceIdeal.main_arg14)), mat (m' ((c.tc : Thread Cert.ReferenceIdeal.nD Cert.ReferenceIdeal.τ).loc Cert.ReferenceIdeal.main_arg15)), vec (m' ((c.tc : Thread Cert.ReferenceIdeal.nD Cert.ReferenceIdeal.τ).loc Cert.ReferenceIdeal.main_arg16)), mat (m' ((c.tc : Thread Cert.ReferenceIdeal.nD Cert.ReferenceIdeal.τ).loc Cert.ReferenceIdeal.main_arg17)), vec (m' ((c.tc : Thread Cert.ReferenceIdeal.nD Cert.ReferenceIdeal.τ).loc Cert.ReferenceIdeal.main_arg18)), mat (m' ((c.tc : Thread Cert.ReferenceIdeal.nD Cert.ReferenceIdeal.τ).loc Cert.ReferenceIdeal.main_arg19)), vec (m' ((c.tc : Thread Cert.ReferenceIdeal.nD Cert.ReferenceIdeal.τ).loc Cert.ReferenceIdeal.main_arg20))⟩ (vec (m' ((c.tc : Thread Cert.ReferenceIdeal.nD Cert.ReferenceIdeal.τ).loc Cert.ReferenceIdeal.main_arg21))) (vec (m' ((c.tc : Thread Cert.ReferenceIdeal.nD Cert.ReferenceIdeal.τ).loc Cert.ReferenceIdeal.main_arg22)))
        ⟨mat (m' ((c.tc : Thread Cert.ReferenceIdeal.nD Cert.ReferenceIdeal.τ).loc Cert.ReferenceIdeal.main_arg23)), vec (m' ((c.tc : Thread Cert.ReferenceIdeal.nD Cert.ReferenceIdeal.τ).loc Cert.ReferenceIdeal.main_arg24)), mat (m' ((c.tc : Thread Cert.ReferenceIdeal.nD Cert.ReferenceIdeal.τ).loc Cert.ReferenceIdeal.main_arg25)), vec (m' ((c.tc : Thread Cert.ReferenceIdeal.nD Cert.ReferenceIdeal.τ).loc Cert.ReferenceIdeal.main_arg26)), mat (m' ((c.tc : Thread Cert.ReferenceIdeal.nD Cert.ReferenceIdeal.τ).loc Cert.ReferenceIdeal.main_arg27)), vec (m' ((c.tc : Thread Cert.ReferenceIdeal.nD Cert.ReferenceIdeal.τ).loc Cert.ReferenceIdeal.main_arg28)), mat (m' ((c.tc : Thread Cert.ReferenceIdeal.nD Cert.ReferenceIdeal.τ).loc Cert.ReferenceIdeal.main_arg29)), vec (m' ((c.tc : Thread Cert.ReferenceIdeal.nD Cert.ReferenceIdeal.τ).loc Cert.ReferenceIdeal.main_arg30))⟩ (vec (m' ((c.tc : Thread Cert.ReferenceIdeal.nD Cert.ReferenceIdeal.τ).loc Cert.ReferenceIdeal.main_arg31))) (vec (m' ((c.tc : Thread Cert.ReferenceIdeal.nD Cert.ReferenceIdeal.τ).loc Cert.ReferenceIdeal.main_arg32)))
        (words1 (m' ((c.tc : Thread Cert.ReferenceIdeal.nD Cert.ReferenceIdeal.τ).loc Cert.ReferenceIdeal.main_arg2))) (mat (m' ((c.tc : Thread Cert.ReferenceIdeal.nD Cert.ReferenceIdeal.τ).loc Cert.ReferenceIdeal.main_arg33))) (vec (m' ((c.tc : Thread Cert.ReferenceIdeal.nD Cert.ReferenceIdeal.τ).loc Cert.ReferenceIdeal.main_arg34))) (mat (m' ((c.tc : Thread Cert.ReferenceIdeal.nD Cert.ReferenceIdeal.τ).loc Cert.ReferenceIdeal.main_arg35))) (vec (m' ((c.tc : Thread Cert.ReferenceIdeal.nD Cert.ReferenceIdeal.τ).loc Cert.ReferenceIdeal.main_arg36)))) :
    outR = outK := by
  simp only [hagree c] at hr
  have h := congrFun (hpre c) ix0
  dsimp only [fn, fn_part1, fn_part2, fn_part3, fn_part4, fn_part5, fn_part6, fn_part7, fn_part8, fn_part9, fn_part10, andi] at h
  simp only [IntOp.andi_eq_one, and_assoc] at h
  obtain ⟨f0, f3, f4, f5, f6, f7, f8, f9, f10, f11, f12, f13, f14, f15, f16, f17, f18, f19, f20, f21, f22, f23, f24, f25, f26, f27, f28, f29, f30, f31, f32, -⟩ := h
  simp only [kAggF6_eq_r, kAggB6_eq_r, kAggF32_eq_r, kAggB32_eq_r] at hk
  have H := hr.trans ((model_eq _ _ _ _ (liftAggF6_fin _) (liftAggB6_fin _) (liftAggF32_fin _) (liftAggB32_fin _)
    _ _ _ _ _ _ _ _ _ _ _ _ _ _ _ (fun _ _ => all_isFin f0 _)
    ⟨fun _ _ => all_isFin f3 _, fun _ => all_isFin f4 _, fun _ _ => all_isFin f5 _, fun _ => all_isFin f6 _, fun _ _ => all_isFin f7 _, fun _ => all_isFin f8 _, fun _ _ => all_isFin f9 _, fun _ => all_isFin f10 _⟩ (fun _ => all_isFin f11 _) (fun _ => all_isFin f12 _)
    ⟨fun _ _ => all_isFin f13 _, fun _ => all_isFin f14 _, fun _ _ => all_isFin f15 _, fun _ => all_isFin f16 _, fun _ _ => all_isFin f17 _, fun _ => all_isFin f18 _, fun _ _ => all_isFin f19 _, fun _ => all_isFin f20 _⟩ (fun _ => all_isFin f21 _) (fun _ => all_isFin f22 _)
    ⟨fun _ _ => all_isFin f23 _, fun _ => all_isFin f24 _, fun _ _ => all_isFin f25 _, fun _ => all_isFin f26 _, fun _ _ => all_isFin f27 _, fun _ => all_isFin f28 _, fun _ _ => all_isFin f29 _, fun _ => all_isFin f30 _⟩ (fun _ => all_isFin f31 _) (fun _ => all_isFin f32 _)).symm.trans hk.symm)
  funext idx
  rw [eq_ix2 idx, Fin.eq_zero (idx 1)]
  exact congrFun H (idx 0)

end Cert.Proof
-- ==== Proof.lean ====
import proofs.«427087_j34256659153343_2_alg».proof.Defs
import proofs.«427087_j34256659153343_2_alg».proof.Proof.Gen.Kernel
import proofs.«427087_j34256659153343_2_alg».proof.Proof.Gen.KernelIdeal
import proofs.«427087_j34256659153343_2_alg».proof.Proof.Gen.ReferenceIdeal
import proofs.«427087_j34256659153343_2_alg».proof.Proof.Gen.Pre_finite_inputs
import proofs.«427087_j34256659153343_2_alg».proof.Proof.K.Data
import proofs.«427087_j34256659153343_2_alg».proof.Proof.KI.Data
import proofs.«427087_j34256659153343_2_alg».proof.Proof.KI.Value
import proofs.«427087_j34256659153343_2_alg».proof.Proof.Ref.Run
import proofs.«427087_j34256659153343_2_alg».proof.Proof.Ref.Value
import proofs.«427087_j34256659153343_2_alg».proof.Proof.Alg
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m g _ => Cert.Kernel.Hand.frame_main (F := Bits) m g

theorem frame_ki : Cert.frame_KernelIdeal (hKernelIdeal := Cert.KernelIdeal.Gen.facts) (hPre_finite_inputs := Cert.Pre_finite_inputs.Gen.facts) :=
  fun m g _ => Cert.KernelIdeal.Hand.frame_main (F := Ideal) m g

theorem frame_ri : Cert.frame_ReferenceIdeal (hReferenceIdeal := Cert.ReferenceIdeal.Gen.facts) (hPre_finite_inputs := Cert.Pre_finite_inputs.Gen.facts) :=
  fun m g _ => Cert.ReferenceIdeal.Hand.frame m g

theorem preserves : Cert.preserves_Kernel_KernelIdeal := trivial

-- Both results are the specification's model of the argument arrays, in its two spellings of the variance, which agree on finite inputs.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.Wend m c (Proc.devRef .tc Cert.KernelIdeal.main_v109),
    Cert.KernelIdeal.Hand.run_main (F := Ideal) m ρ, ?_⟩
  refine (θ_run Cert.ReferenceIdeal.defs _ _).mono (fun _ h c => ⟨(h c).1.trans ?_, (h c).2⟩)
    (Cert.ReferenceIdeal.Hand.run (F := Ideal) m' ρ')
  exact result_eq m m' hpre hagree c _ _ (Cert.KernelIdeal.Hand.kernel_value m c)
    (Cert.ReferenceIdeal.Hand.ref_value_launch m' c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
